-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S10000x32x16 : Shape := ⟨3, ![10000, 32, 16]⟩
abbrev S10000x32 : Shape := ⟨2, ![10000, 32]⟩
abbrev S272x256 : Shape := ⟨2, ![272, 256]⟩
abbrev S256 : Shape := ⟨1, ![256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32x16 : S_.BroadcastsInDim S10000x32x16 (![] : Fin 0 → Fin S10000x32x16.rank)
  reducesTo_S10000x32x16_S_d0_1_2 : S10000x32x16.ReducesTo [0, 1, 2] S_
  bcast_S_S10000x32 : S_.BroadcastsInDim S10000x32 (![] : Fin 0 → Fin S10000x32.rank)
  reducesTo_S10000x32_S_d0_1 : S10000x32.ReducesTo [0, 1] S_
  bcast_S_S272x256 : S_.BroadcastsInDim S272x256 (![] : Fin 0 → Fin S272x256.rank)
  reducesTo_S272x256_S_d0_1 : S272x256.ReducesTo [0, 1] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg2 : IVec S10000x32 32) (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S10000x32 32 := broadcastInDim S10000x32 ![] bcast_S_S10000x32 main_c_16
  let main_v45 : IVec S10000x32 1 := cmpi .sge main_arg2 main_v44
  let main_c_17 : IVec S_ 32 := constantI S_ 32 9999#32
  let main_v46 : IVec S10000x32 32 := broadcastInDim S10000x32 ![] bcast_S_S10000x32 main_c_17
  let main_v47 : IVec S10000x32 1 := cmpi .sle main_arg2 main_v46
  let main_v48 : IVec S10000x32 1 := andi main_v45 main_v47
  let main_c_18 : IVec S_ 1 := constantI S_ 1 1#1
  let main_v49 : IVec S_ 1 := (fun x v => Host.reduce IntOp.andi x v reducesTo_S10000x32_S_d0_1 h_S_) main_v48 main_c_18
  let main_v50 : IVec S_ 1 := andi main_v43 main_v49
  main_v50

def fn_part1 {F : FTy → Type} [FloatOps F] (main_arg2 : IVec S10000x32 32) (main_arg5 : FVec F S256 .f32) (main_arg6 : FVec F S256 .f32) (main_arg7 : FVec F S256 .f32) (main_arg8 : FVec F S128 .f32) (main_arg9 : FVec F S128 .f32) (main_v13 : IVec S_ 1) (main_v16 : IVec S272x256 1) : IVec S_ 1 :=
  let main_c_5 : IVec S_ 1 := constantI S_ 1 1#1
  let main_v17 : IVec S_ 1 := (fun x v => Host.reduce IntOp.andi x v reducesTo_S272x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg8 main_arg9 main_v33

def fn {F : FTy → Type} [FloatOps F] (main_arg0 : FVec F S10000x128 .f32) (main_arg1 : FVec F S10000x32x16 .f32) (main_arg2 : IVec S10000x32 32) (main_arg3 : FVec F S10000x32 .f32) (main_arg4 : FVec F S272x256 .f32) (main_arg5 : FVec F S256 .f32) (main_arg6 : FVec F S256 .f32) (main_arg7 : FVec F S256 .f32) (main_arg8 : FVec F S128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x32x16 .f32 := Host.absf main_arg1
  let main_cst_0 : FVec F S_ .f32 := constant S_ .f32 0x7F800000#32
  let main_v5 : FVec F S10000x32x16 .f32 := broadcastInDim S10000x32x16 ![] bcast_S_S10000x32x16 main_cst_0
  let main_v6 : IVec S10000x32x16 1 := cmpf .olt main_v4 main_v5
  let main_c_1 : IVec S_ 1 := constantI S_ 1 1#1
  let main_v7 : IVec S_ 1 := (fun x v => Host.reduce IntOp.andi x v reducesTo_S10000x32x16_S_d0_1_2 h_S_) main_v6 main_c_1
  let main_v8 : IVec S_ 1 := andi main_v3 main_v7
  let main_v9 : FVec F S10000x32 .f32 := Host.absf main_arg3
  let main_cst_2 : FVec F S_ .f32 := constant S_ .f32 0x7F800000#32
  let main_v10 : FVec F S10000x32 .f32 := broadcastInDim S10000x32 ![] bcast_S_S10000x32 main_cst_2
  let main_v11 : IVec S10000x32 1 := cmpf .olt main_v9 main_v10
  let main_c_3 : IVec S_ 1 := constantI S_ 1 1#1
  let main_v12 : IVec S_ 1 := (fun x v => Host.reduce IntOp.andi x v reducesTo_S10000x32_S_d0_1 h_S_) main_v11 main_c_3
  let main_v13 : IVec S_ 1 := andi main_v8 main_v12
  let main_v14 : FVec F S272x256 .f32 := Host.absf main_arg4
  let main_cst_4 : FVec F S_ .f32 := constant S_ .f32 0x7F800000#32
  let main_v15 : FVec F S272x256 .f32 := broadcastInDim S272x256 ![] bcast_S_S272x256 main_cst_4
  let main_v16 : IVec S272x256 1 := cmpf .olt main_v14 main_v15
  fn_part1 (F := F) main_arg2 main_arg5 main_arg6 main_arg7 main_arg8 main_arg9 main_v13 main_v16
-- ==== Kernel.lean ====
abbrev S10000x128 : Shape := ⟨2, ![10000, 128]⟩
abbrev S10000x32x16 : Shape := ⟨3, ![10000, 32, 16]⟩
abbrev S10000x32 : Shape := ⟨2, ![10000, 32]⟩
abbrev S272x256 : Shape := ⟨2, ![272, 256]⟩
abbrev S256 : Shape := ⟨1, ![256]⟩
abbrev S128 : Shape := ⟨1, ![128]⟩
abbrev S128x256 : Shape := ⟨2, ![128, 256]⟩
abbrev S16x256 : Shape := ⟨2, ![16, 256]⟩
abbrev S1x256 : Shape := ⟨2, ![1, 256]⟩
abbrev S320000 : Shape := ⟨1, ![320000]⟩
abbrev S153600 : Shape := ⟨1, ![153600]⟩
abbrev S153600x128 : Shape := ⟨2, ![153600, 128]⟩
abbrev S4800 : Shape := ⟨1, ![4800]⟩
abbrev S80x128 : Shape := ⟨2, ![80, 128]⟩
abbrev S_ : Shape := ⟨0, ![]⟩
abbrev S80 : Shape := ⟨1, ![80]⟩
abbrev S166400 : Shape := ⟨1, ![166400]⟩
abbrev S166400x128 : Shape := ⟨2, ![166400, 128]⟩
abbrev S5200 : Shape := ⟨1, ![5200]⟩
abbrev S4800x32x128 : Shape := ⟨3, ![4800, 32, 128]⟩
abbrev S5200x32x128 : Shape := ⟨3, ![5200, 32, 128]⟩
abbrev S320000x16 : Shape := ⟨2, ![320000, 16]⟩
abbrev S16x320000 : Shape := ⟨2, ![16, 320000]⟩
abbrev S400x128 : Shape := ⟨2, ![400, 128]⟩
abbrev S400x32x128 : Shape := ⟨3, ![400, 32, 128]⟩
abbrev S16x12800 : Shape := ⟨2, ![16, 12800]⟩
abbrev S400x256 : Shape := ⟨2, ![400, 256]⟩
abbrev S12800x128 : Shape := ⟨2, ![12800, 128]⟩
abbrev S12800x256 : Shape := ⟨2, ![12800, 256]⟩
abbrev S400x32x256 : Shape := ⟨3, ![400, 32, 256]⟩
abbrev S400x1x256 : Shape := ⟨3, ![400, 1, 256]⟩
abbrev S4800x128 : Shape := ⟨2, ![4800, 128]⟩
abbrev S1x128 : Shape := ⟨2, ![1, 128]⟩
abbrev S400x32 : Shape := ⟨2, ![400, 32]⟩
abbrev S400x32x1 : Shape := ⟨3, ![400, 32, 1]⟩
abbrev S5200x128 : Shape := ⟨2, ![5200, 128]⟩
abbrev S2000x128 : Shape := ⟨2, ![2000, 128]⟩

abbrev nBuf : Table → Nat
  | .hbm => 87
  | .local .tc .vmem => 64
  | .local .scVector .vmem => 12
  | _ => 0

abbrev bufTy : (tb : Table) → Fin (nBuf tb) → BufTy
  | .hbm, ⟨0, _⟩ => ⟨S10000x128, .f32⟩
  | .hbm, ⟨1, _⟩ => ⟨S10000x32x16, .f32⟩
  | .hbm, ⟨2, _⟩ => ⟨S10000x32, .i32⟩
  | .hbm, ⟨3, _⟩ => ⟨S10000x32, .f32⟩
  | .hbm, ⟨4, _⟩ => ⟨S272x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S128, .f32⟩
  | .hbm, ⟨9, _⟩ => ⟨S128, .f32⟩
  | .hbm, ⟨10, _⟩ => ⟨S128x256, .f32⟩
  | .hbm, ⟨11, _⟩ => ⟨S128x256, .f32⟩
  | .hbm, ⟨12, _⟩ => ⟨S16x256, .f32⟩
  | .hbm, ⟨13, _⟩ => ⟨S1x256, .f32⟩
  | .hbm, ⟨14, _⟩ => ⟨S320000, .i32⟩
  | .hbm, ⟨15, _⟩ => ⟨S153600, .i32⟩
  | .hbm, ⟨16, _⟩ => ⟨S153600x128, .f32⟩
  | .hbm, ⟨17, _⟩ => ⟨S166400, .i32⟩
  | .hbm, ⟨18, _⟩ => ⟨S166400x128, .f32⟩
  | .hbm, ⟨19, _⟩ => ⟨S4800x32x128, .f32⟩
  | .hbm, ⟨20, _⟩ => ⟨S5200x32x128, .f32⟩
  | .hbm, ⟨21, _⟩ => ⟨S320000x16, .f32⟩
  | .hbm, ⟨22, _⟩ => ⟨S16x320000, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S_, .f32⟩
  | .hbm, ⟨30, _⟩ => ⟨S1x256, .f32⟩
  | .hbm, ⟨31, _⟩ => ⟨S1x256, .f32⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S_, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S128x256, .f32⟩
  | .hbm, ⟨50, _⟩ => ⟨S128x256, .f32⟩
  | .hbm, ⟨51, _⟩ => ⟨S128x256, .f32⟩
  | .hbm, ⟨52, _⟩ => ⟨S128x256, .f32⟩
  | .hbm, ⟨53, _⟩ => ⟨S16x256, .f32⟩
  | .hbm, ⟨54, _⟩ => ⟨S16x256, .f32⟩
  | .hbm, ⟨55, _⟩ => ⟨S1x256, .f32⟩
  | .hbm, ⟨56, _⟩ => ⟨S1x256, .f32⟩
  | .hbm, ⟨57, _⟩ => ⟨S4800x128, .f32⟩
  | .hbm, ⟨58, _⟩ => ⟨S1x128, .f32⟩
  | .hbm, ⟨59, _⟩ => ⟨S1x128, .f32⟩
  | .hbm, ⟨60, _⟩ => ⟨S5200x128, .f32⟩
  | .hbm, ⟨61, _⟩ => ⟨S1x128, .f32⟩
  | .hbm, ⟨62, _⟩ => ⟨S1x128, .f32⟩
  | .hbm, ⟨63, _⟩ => ⟨S10000x128, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S10000x128, .f32⟩
  | .local .tc .vmem, ⟨0, _⟩ => ⟨S400x128, .f32⟩
  | .local .tc .vmem, ⟨1, _⟩ => ⟨S400x128, .f32⟩
  | .local .tc .vmem, ⟨2, _⟩ => ⟨S400x32x128, .f32⟩
  | .local .tc .vmem, ⟨3, _⟩ => ⟨S400x32x128, .f32⟩
  | .local .tc .vmem, ⟨4, _⟩ => ⟨S16x12800, .f32⟩
  | .local .tc .vmem, ⟨5, _⟩ => ⟨S16x12800, .f32⟩
  | .local .tc .vmem, ⟨6, _⟩ => ⟨S128x256, .f32⟩
  | .local .tc .vmem, ⟨7, _⟩ => ⟨S128x256, .f32⟩
  | .local .tc .vmem, ⟨8, _⟩ => ⟨S16x256, .f32⟩
  | .local .tc .vmem, ⟨9, _⟩ => ⟨S1x256, .f32⟩
  | .local .tc .vmem, ⟨10, _⟩ => ⟨S1x256, .f32⟩
  | .local .tc .vmem, ⟨11, _⟩ => ⟨S1x256, .f32⟩
  | .local .tc .vmem, ⟨12, _⟩ => ⟨S400x128, .f32⟩
  | .local .tc .vmem, ⟨13, _⟩ => ⟨S400x128, .f32⟩
  | .local .tc .vmem, ⟨14, _⟩ => ⟨S400x32x128, .f32⟩
  | .local .tc .vmem, ⟨15, _⟩ => ⟨S400x32x128, .f32⟩
  | .local .tc .vmem, ⟨16, _⟩ => ⟨S16x12800, .f32⟩
  | .local .tc .vmem, ⟨17, _⟩ => ⟨S16x12800, .f32⟩
  | .local .tc .vmem, ⟨18, _⟩ => ⟨S128x256, .f32⟩
  | .local .tc .vmem, ⟨19, _⟩ => ⟨S128x256, .f32⟩
  | .local .tc .vmem, ⟨20, _⟩ => ⟨S16x256, .f32⟩
  | .local .tc .vmem, ⟨21, _⟩ => ⟨S1x256, .f32⟩
  | .local .tc .vmem, ⟨22, _⟩ => ⟨S1x256, .f32⟩
  | .local .tc .vmem, ⟨23, _⟩ => ⟨S1x256, .f32⟩
  | .local .tc .vmem, ⟨24, _⟩ => ⟨S400x128, .f32⟩
  | .local .tc .vmem, ⟨25, _⟩ => ⟨S400x128, .f32⟩
  | .local .tc .vmem, ⟨26, _⟩ => ⟨S400x32x128, .f32⟩
  | .local .tc .vmem, ⟨27, _⟩ => ⟨S400x32x128, .f32⟩
  | .local .tc .vmem, ⟨28, _⟩ => ⟨S16x12800, .f32⟩
  | .local .tc .vmem, ⟨29, _⟩ => ⟨S16x12800, .f32⟩
  | .local .tc .vmem, ⟨30, _⟩ => ⟨S400x32, .f32⟩
  | .local .tc .vmem, ⟨31, _⟩ => ⟨S400x32, .f32⟩
  | .local .tc .vmem, ⟨32, _⟩ => ⟨S128x256, .f32⟩
  | .local .tc .vmem, ⟨33, _⟩ => ⟨S128x256, .f32⟩
  | .local .tc .vmem, ⟨34, _⟩ => ⟨S16x256, .f32⟩
  | .local .tc .vmem, ⟨35, _⟩ => ⟨S1x256, .f32⟩
  | .local .tc .vmem, ⟨36, _⟩ => ⟨S400x128, .f32⟩
  | .local .tc .vmem, ⟨37, _⟩ => ⟨S400x128, .f32⟩
  | .local .tc .vmem, ⟨38, _⟩ => ⟨S1x128, .f32⟩
  | .local .tc .vmem, ⟨39, _⟩ => ⟨S1x128, .f32⟩
  | .local .tc .vmem, ⟨40, _⟩ => ⟨S400x128, .f32⟩
  | .local .tc .vmem, ⟨41, _⟩ => ⟨S400x128, .f32⟩
  | .local .tc .vmem, ⟨42, _⟩ => ⟨S400x32x128, .f32⟩
  | .local .tc .vmem, ⟨43, _⟩ => ⟨S400x32x128, .f32⟩
  | .local .tc .vmem, ⟨44, _⟩ => ⟨S16x12800, .f32⟩
  | .local .tc .vmem, ⟨45, _⟩ => ⟨S16x12800, .f32⟩
  | .local .tc .vmem, ⟨46, _⟩ => ⟨S400x32, .f32⟩
  | .local .tc .vmem, ⟨47, _⟩ => ⟨S400x32, .f32⟩
  | .local .tc .vmem, ⟨48, _⟩ => ⟨S128x256, .f32⟩
  | .local .tc .vmem, ⟨49, _⟩ => ⟨S128x256, .f32⟩
  | .local .tc .vmem, ⟨50, _⟩ => ⟨S16x256, .f32⟩
  | .local .tc .vmem, ⟨51, _⟩ => ⟨S1x256, .f32⟩
  | .local .tc .vmem, ⟨52, _⟩ => ⟨S400x128, .f32⟩
  | .local .tc .vmem, ⟨53, _⟩ => ⟨S400x128, .f32⟩
  | .local .tc .vmem, ⟨54, _⟩ => ⟨S1x128, .f32⟩
  | .local .tc .vmem, ⟨55, _⟩ => ⟨S1x128, .f32⟩
  | .local .tc .vmem, ⟨56, _⟩ => ⟨S2000x128, .f32⟩
  | .local .tc .vmem, ⟨57, _⟩ => ⟨S2000x128, .f32⟩
  | .local .tc .vmem, ⟨58, _⟩ => ⟨S2000x128, .f32⟩
  | .local .tc .vmem, ⟨59, _⟩ => ⟨S2000x128, .f32⟩
  | .local .tc .vmem, ⟨60, _⟩ => ⟨S1x128, .f32⟩
  | .local .tc .vmem, ⟨61, _⟩ => ⟨S1x128, .f32⟩
  | .local .tc .vmem, ⟨62, _⟩ => ⟨S2000x128, .f32⟩
  | .local .tc .vmem, ⟨63, _⟩ => ⟨S2000x128, .f32⟩
  | .local .scVector .vmem, ⟨0, _⟩ => ⟨S4800, .i32⟩
  | .local .scVector .vmem, ⟨1, _⟩ => ⟨S80x128, .f32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S80x128, .f32⟩
  | .local .scVector .vmem, ⟨6, _⟩ => ⟨S5200, .i32⟩
  | .local .scVector .vmem, ⟨7, _⟩ => ⟨S80x128, .f32⟩
  | .local .scVector .vmem, ⟨8, _⟩ => ⟨S80x128, .f32⟩
  | .local .scVector .vmem, ⟨9, _⟩ => ⟨S80x128, .f32⟩
  | .local .scVector .vmem, ⟨10, _⟩ => ⟨S80x128, .f32⟩
  | .local .scVector .vmem, ⟨11, _⟩ => ⟨S80x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 86 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTables nBuf rfl bufTy 4 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41_0 : Ref sig .tc := ⟨.hbm, 57, rfl⟩
abbrev main_v41_1 : Ref sig .tc := ⟨.hbm, 58, rfl⟩
abbrev main_v41_2 : Ref sig .tc := ⟨.hbm, 59, rfl⟩
abbrev main_v42_0 : Ref sig .tc := ⟨.hbm, 60, rfl⟩
abbrev main_v42_1 : Ref sig .tc := ⟨.hbm, 61, rfl⟩
abbrev main_v42_2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_arg0_scv : Ref sig .scVector := ⟨.hbm, 0, rfl⟩
abbrev main_v5_scv : Ref sig .scVector := ⟨.hbm, 15, rfl⟩
abbrev main_v6_scv : Ref sig .scVector := ⟨.hbm, 16, rfl⟩
abbrev main_v7_scv : Ref sig .scVector := ⟨.hbm, 17, rfl⟩
abbrev main_v8_scv : Ref sig .scVector := ⟨.hbm, 18, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg5_0 : Ref sig .tc := ⟨.vmem, 8, rfl⟩
abbrev cc2_stg6_0 : Ref sig .tc := ⟨.vmem, 9, rfl⟩
abbrev cc2_stg7_0 : Ref sig .tc := ⟨.vmem, 10, rfl⟩
abbrev cc2_stg8_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc3_stg8_0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc4_stg8_1 : Ref sig .tc := ⟨.vmem, 37, rfl⟩
abbrev cc4_stg9_0 : Ref sig .tc := ⟨.vmem, 38, rfl⟩
abbrev cc4_stg10_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc5_stg9_0 : Ref sig .tc := ⟨.vmem, 54, rfl⟩
abbrev cc5_stg10_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg4_1 : Ref sig .tc := ⟨.vmem, 63, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem5_0 : DmaSem sig := 55
abbrev cc4_sem6_0 : DmaSem sig := 56
abbrev cc4_sem7_0 : DmaSem sig := 57
abbrev cc4_sem8_0 : DmaSem sig := 58
abbrev cc4_sem8_1 : DmaSem sig := 59
abbrev cc4_sem9_0 : DmaSem sig := 60
abbrev cc4_sem10_0 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc5_sem3_0 : DmaSem sig := 68
abbrev cc5_sem3_1 : DmaSem sig := 69
abbrev cc5_sem4_0 : DmaSem sig := 70
abbrev cc5_sem5_0 : DmaSem sig := 71
abbrev cc5_sem6_0 : DmaSem sig := 72
abbrev cc5_sem7_0 : DmaSem sig := 73
abbrev cc5_sem8_0 : DmaSem sig := 74
abbrev cc5_sem8_1 : DmaSem sig := 75
abbrev cc5_sem9_0 : DmaSem sig := 76
abbrev cc5_sem10_0 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem3_0 : DmaSem sig := 83
abbrev cc6_sem4_0 : DmaSem sig := 84
abbrev cc6_sem4_1 : DmaSem sig := 85
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c60_i32 : BitVec 32 := 60#32
  let v2 : BitVec 32 := Scalar.muli v1 c60_i32
  let c80_i32 : BitVec 32 := 80#32
  let v3 : BitVec 32 := Scalar.muli v2 c80_i32
  ![v3.toNat]
def k0_mult1 : BitVec 32 :=
  let c0_i32 : BitVec 32 := 0#32
  c0_i32
def k0_mult2 : BitVec 32 :=
  let c80_i32_2 : BitVec 32 := 80#32
  c80_i32_2
def k0_mult3 : BitVec 32 :=
  let c160_i32 : BitVec 32 := 160#32
  c160_i32
def k0_mult4 : BitVec 32 :=
  let c240_i32 : BitVec 32 := 240#32
  c240_i32
def k0_mult5 : BitVec 32 :=
  let c320_i32 : BitVec 32 := 320#32
  c320_i32
@[reducible] def k0_t1_loop : Scf.Loop 32 :=
  let c0_i32_12 : BitVec 32 := 0#32
  let c12_i32 : BitVec 32 := 12#32
  let v19 : BitVec 32 := Scalar.addi c0_i32_12 c12_i32
  let c1_i32 : BitVec 32 := 1#32
  ⟨c0_i32_12, v19, c1_i32⟩
def k0_mult6 : BitVec 32 :=
  let c0_i32_15 : BitVec 32 := 0#32
  c0_i32_15
def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c60_i32 : BitVec 32 := 60#32
  let v2 : BitVec 32 := Scalar.muli v1 c60_i32
  let c0_i32_12 : BitVec 32 := 0#32
  let c1_i32 : BitVec 32 := 1#32
  let arg21 : BitVec 32 := Scf.iv c0_i32_12 c1_i32 k0_t1
  let c5_i32 : BitVec 32 := 5#32
  let v20 : BitVec 32 := Scalar.muli arg21 c5_i32
  let c0_i32_14 : BitVec 32 := 0#32
  let v21 : BitVec 32 := Scalar.addi v20 c0_i32_14
  let v25 : BitVec 32 := Scalar.addi v2 v21
  let c80_i32_18 : BitVec 32 := 80#32
  let v26 : BitVec 32 := Scalar.muli v25 c80_i32_18
  v26
def k0_off2 (i : grid0.Coords) (k0_t1 : Fin k0_t1_loop.trips) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c60_i32 : BitVec 32 := 60#32
  let v2 : BitVec 32 := Scalar.muli v1 c60_i32
  let c0_i32_12 : BitVec 32 := 0#32
  let c1_i32 : BitVec 32 := 1#32
  let arg21 : BitVec 32 := Scf.iv c0_i32_12 c1_i32 k0_t1
  let c5_i32 : BitVec 32 := 5#32
  let v20 : BitVec 32 := Scalar.muli arg21 c5_i32
  let v21 : BitVec 32 := Scalar.addi v20 c0_i32_14
  let v25 : BitVec 32 := Scalar.addi v2 v21
  let c80_i32_18 : BitVec 32 := 80#32
  let v26 : BitVec 32 := Scalar.muli v25 c80_i32_18
  let v27 : BitVec 32 := v26
  let c0_i32_19 : BitVec 32 := 0#32
  ![v27.toNat, 0]
def k0_cond1 (k0_t1 : Fin k0_t1_loop.trips) : BitVec 1 :=
  let c0_i32_12 : BitVec 32 := 0#32
  let c1_i32 : BitVec 32 := 1#32
  let arg21 : BitVec 32 := Scf.iv c0_i32_12 c1_i32 k0_t1
  let c5_i32 : BitVec 32 := 5#32
  let v20 : BitVec 32 := Scalar.muli arg21 c5_i32
  let c0_i32_14 : BitVec 32 := 0#32
  let v21 : BitVec 32 := Scalar.addi v20 c0_i32_14
  let c5_i32_23 : BitVec 32 := 5#32
  let v32 : BitVec 32 := Scalar.addi v21 c5_i32_23
  let c60_i32_24 : BitVec 32 := 60#32
  let v33 : BitVec 1 := Scalar.cmpi .slt v32 c60_i32_24
  let v34 : BitVec 32 := Scalar.extui v33
  let c0_i32_25 : BitVec 32 := 0#32
  let v35 : BitVec 1 := Scalar.cmpi .ne v34 c0_i32_25
  v35

def k0_mult8 (k0_t1 : Fin k0_t1_loop.trips) : BitVec 32 :=
  let c0_i32_12 : BitVec 32 := 0#32
  let c1_i32 : BitVec 32 := 1#32
  let arg21 : BitVec 32 := Scf.iv c0_i32_12 c1_i32 k0_t1
  let c5_i32 : BitVec 32 := 5#32
  let v20 : BitVec 32 := Scalar.muli arg21 c5_i32
  let c0_i32_14 : BitVec 32 := 0#32
  let v21 : BitVec 32 := Scalar.addi v20 c0_i32_14
  let c5_i32_76 : BitVec 32 := 5#32
  let v100 : BitVec 32 := Scalar.addi v21 c5_i32_76
  let c80_i32_77 : BitVec 32 := 80#32
  let v101 : BitVec 32 := Scalar.muli v100 c80_i32_77
  v101
def k0_off3 (k0_t1 : Fin k0_t1_loop.trips) : Fin 1 → Nat :=
  let c0_i32_12 : BitVec 32 := 0#32
  let c1_i32 : BitVec 32 := 1#32
  let arg21 : BitVec 32 := Scf.iv c0_i32_12 c1_i32 k0_t1
  let c5_i32 : BitVec 32 := 5#32
  let v20 : BitVec 32 := Scalar.muli arg21 c5_i32
  let c0_i32_14 : BitVec 32 := 0#32
  let v21 : BitVec 32 := Scalar.addi v20 c0_i32_14
  let c5_i32_76 : BitVec 32 := 5#32
  let v100 : BitVec 32 := Scalar.addi v21 c5_i32_76
  let c80_i32_77 : BitVec 32 := 80#32
  let v101 : BitVec 32 := Scalar.muli v100 c80_i32_77
  let v102 : BitVec 32 := v101
  ![v102.toNat]
def k0_mult9 : BitVec 32 :=
  let c80_i32_28 : BitVec 32 := 80#32
  c80_i32_28
def k0_mult10 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c60_i32 : BitVec 32 := 60#32
  let v2 : BitVec 32 := Scalar.muli v1 c60_i32
  let c0_i32_12 : BitVec 32 := 0#32
  let c1_i32 : BitVec 32 := 1#32
  let arg21 : BitVec 32 := Scf.iv c0_i32_12 c1_i32 k0_t1
  let c5_i32_26 : BitVec 32 := 5#32
  let v36 : BitVec 32 := Scalar.muli arg21 c5_i32_26
  let c1_i32_27 : BitVec 32 := 1#32
  let v37 : BitVec 32 := Scalar.addi v36 c1_i32_27
  let v41 : BitVec 32 := Scalar.addi v2 v37
  let c80_i32_31 : BitVec 32 := 80#32
  let v42 : BitVec 32 := Scalar.muli v41 c80_i32_31
  v42
def k0_cond2 (k0_t1 : Fin k0_t1_loop.trips) : BitVec 1 :=
  let c0_i32_12 : BitVec 32 := 0#32
  let c1_i32 : BitVec 32 := 1#32
  let arg21 : BitVec 32 := Scf.iv c0_i32_12 c1_i32 k0_t1
  let c5_i32_26 : BitVec 32 := 5#32
  let v36 : BitVec 32 := Scalar.muli arg21 c5_i32_26
  let c1_i32_27 : BitVec 32 := 1#32
  let v37 : BitVec 32 := Scalar.addi v36 c1_i32_27
  let c5_i32_36 : BitVec 32 := 5#32
  let v48 : BitVec 32 := Scalar.addi v37 c5_i32_36
  let c60_i32_37 : BitVec 32 := 60#32
  let v49 : BitVec 1 := Scalar.cmpi .slt v48 c60_i32_37
  let v50 : BitVec 32 := Scalar.extui v49
  let c0_i32_38 : BitVec 32 := 0#32
  let v51 : BitVec 1 := Scalar.cmpi .ne v50 c0_i32_38
  v51

def k0_mult11 (k0_t1 : Fin k0_t1_loop.trips) : BitVec 32 :=
  let c0_i32_12 : BitVec 32 := 0#32
  let c1_i32 : BitVec 32 := 1#32
  let arg21 : BitVec 32 := Scf.iv c0_i32_12 c1_i32 k0_t1
  let c5_i32_26 : BitVec 32 := 5#32
  let v36 : BitVec 32 := Scalar.muli arg21 c5_i32_26
  let c1_i32_27 : BitVec 32 := 1#32
  let v37 : BitVec 32 := Scalar.addi v36 c1_i32_27
  let c5_i32_76 : BitVec 32 := 5#32
  let v100 : BitVec 32 := Scalar.addi v37 c5_i32_76
  let c80_i32_77 : BitVec 32 := 80#32
  let v101 : BitVec 32 := Scalar.muli v100 c80_i32_77
  v101
def k0_off4 (k0_t1 : Fin k0_t1_loop.trips) : Fin 1 → Nat :=
  let c0_i32_12 : BitVec 32 := 0#32
  let c1_i32 : BitVec 32 := 1#32
  let arg21 : BitVec 32 := Scf.iv c0_i32_12 c1_i32 k0_t1
  let c5_i32_26 : BitVec 32 := 5#32
  let v36 : BitVec 32 := Scalar.muli arg21 c5_i32_26
  let c1_i32_27 : BitVec 32 := 1#32
  let v37 : BitVec 32 := Scalar.addi v36 c1_i32_27
  let c5_i32_76 : BitVec 32 := 5#32
  let v100 : BitVec 32 := Scalar.addi v37 c5_i32_76
  let c80_i32_77 : BitVec 32 := 80#32
  let v101 : BitVec 32 := Scalar.muli v100 c80_i32_77
  let v102 : BitVec 32 := v101
  ![v102.toNat]
def k0_mult12 : BitVec 32 :=
  let c160_i32_41 : BitVec 32 := 160#32
  c160_i32_41
def k0_mult13 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c60_i32 : BitVec 32 := 60#32
  let v2 : BitVec 32 := Scalar.muli v1 c60_i32
  let c0_i32_12 : BitVec 32 := 0#32
  let c1_i32 : BitVec 32 := 1#32
  let arg21 : BitVec 32 := Scf.iv c0_i32_12 c1_i32 k0_t1
  let c5_i32_39 : BitVec 32 := 5#32
  let v52 : BitVec 32 := Scalar.muli arg21 c5_i32_39
  let c2_i32_40 : BitVec 32 := 2#32
  let v53 : BitVec 32 := Scalar.addi v52 c2_i32_40
  let v57 : BitVec 32 := Scalar.addi v2 v53
  let c80_i32_44 : BitVec 32 := 80#32
  let v58 : BitVec 32 := Scalar.muli v57 c80_i32_44
  v58
def k0_cond3 (k0_t1 : Fin k0_t1_loop.trips) : BitVec 1 :=
  let c0_i32_12 : BitVec 32 := 0#32
  let c1_i32 : BitVec 32 := 1#32
  let arg21 : BitVec 32 := Scf.iv c0_i32_12 c1_i32 k0_t1
  let c5_i32_39 : BitVec 32 := 5#32
  let v52 : BitVec 32 := Scalar.muli arg21 c5_i32_39
  let c2_i32_40 : BitVec 32 := 2#32
  let v53 : BitVec 32 := Scalar.addi v52 c2_i32_40
  let c5_i32_49 : BitVec 32 := 5#32
  let v64 : BitVec 32 := Scalar.addi v53 c5_i32_49
  let c60_i32_50 : BitVec 32 := 60#32
  let v65 : BitVec 1 := Scalar.cmpi .slt v64 c60_i32_50
  let v66 : BitVec 32 := Scalar.extui v65
  let c0_i32_51 : BitVec 32 := 0#32
  let v67 : BitVec 1 := Scalar.cmpi .ne v66 c0_i32_51
  v67

def k0_mult14 (k0_t1 : Fin k0_t1_loop.trips) : BitVec 32 :=
  let c0_i32_12 : BitVec 32 := 0#32
  let c1_i32 : BitVec 32 := 1#32
  let arg21 : BitVec 32 := Scf.iv c0_i32_12 c1_i32 k0_t1
  let c5_i32_39 : BitVec 32 := 5#32
  let v52 : BitVec 32 := Scalar.muli arg21 c5_i32_39
  let c2_i32_40 : BitVec 32 := 2#32
  let v53 : BitVec 32 := Scalar.addi v52 c2_i32_40
  let c5_i32_76 : BitVec 32 := 5#32
  let v100 : BitVec 32 := Scalar.addi v53 c5_i32_76
  let c80_i32_77 : BitVec 32 := 80#32
  let v101 : BitVec 32 := Scalar.muli v100 c80_i32_77
  v101
def k0_off5 (k0_t1 : Fin k0_t1_loop.trips) : Fin 1 → Nat :=
  let c0_i32_12 : BitVec 32 := 0#32
  let c1_i32 : BitVec 32 := 1#32
  let arg21 : BitVec 32 := Scf.iv c0_i32_12 c1_i32 k0_t1
  let c5_i32_39 : BitVec 32 := 5#32
  let v52 : BitVec 32 := Scalar.muli arg21 c5_i32_39
  let c2_i32_40 : BitVec 32 := 2#32
  let v53 : BitVec 32 := Scalar.addi v52 c2_i32_40
  let c5_i32_76 : BitVec 32 := 5#32
  let v100 : BitVec 32 := Scalar.addi v53 c5_i32_76
  let c80_i32_77 : BitVec 32 := 80#32
  let v101 : BitVec 32 := Scalar.muli v100 c80_i32_77
  let v102 : BitVec 32 := v101
  ![v102.toNat]
def k0_mult15 : BitVec 32 :=
  let c240_i32_53 : BitVec 32 := 240#32
  c240_i32_53
def k0_mult16 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c60_i32 : BitVec 32 := 60#32
  let v2 : BitVec 32 := Scalar.muli v1 c60_i32
  let c0_i32_12 : BitVec 32 := 0#32
  let c1_i32 : BitVec 32 := 1#32
  let arg21 : BitVec 32 := Scf.iv c0_i32_12 c1_i32 k0_t1
  let c5_i32_52 : BitVec 32 := 5#32
  let v68 : BitVec 32 := Scalar.muli arg21 c5_i32_52
  let c3_i32 : BitVec 32 := 3#32
  let v69 : BitVec 32 := Scalar.addi v68 c3_i32
  let v73 : BitVec 32 := Scalar.addi v2 v69
  let c80_i32_56 : BitVec 32 := 80#32
  let v74 : BitVec 32 := Scalar.muli v73 c80_i32_56
  v74
def k0_cond4 (k0_t1 : Fin k0_t1_loop.trips) : BitVec 1 :=
  let c0_i32_12 : BitVec 32 := 0#32
  let c1_i32 : BitVec 32 := 1#32
  let arg21 : BitVec 32 := Scf.iv c0_i32_12 c1_i32 k0_t1
  let c5_i32_52 : BitVec 32 := 5#32
  let v68 : BitVec 32 := Scalar.muli arg21 c5_i32_52
  let c3_i32 : BitVec 32 := 3#32
  let v69 : BitVec 32 := Scalar.addi v68 c3_i32
  let c5_i32_61 : BitVec 32 := 5#32
  let v80 : BitVec 32 := Scalar.addi v69 c5_i32_61
  let c60_i32_62 : BitVec 32 := 60#32
  let v81 : BitVec 1 := Scalar.cmpi .slt v80 c60_i32_62
  let v82 : BitVec 32 := Scalar.extui v81
  let c0_i32_63 : BitVec 32 := 0#32
  let v83 : BitVec 1 := Scalar.cmpi .ne v82 c0_i32_63
  v83

def k0_mult17 (k0_t1 : Fin k0_t1_loop.trips) : BitVec 32 :=
  let c0_i32_12 : BitVec 32 := 0#32
  let c1_i32 : BitVec 32 := 1#32
  let arg21 : BitVec 32 := Scf.iv c0_i32_12 c1_i32 k0_t1
  let c5_i32_52 : BitVec 32 := 5#32
  let v68 : BitVec 32 := Scalar.muli arg21 c5_i32_52
  let c3_i32 : BitVec 32 := 3#32
  let v69 : BitVec 32 := Scalar.addi v68 c3_i32
  let c5_i32_76 : BitVec 32 := 5#32
  let v100 : BitVec 32 := Scalar.addi v69 c5_i32_76
  let c80_i32_77 : BitVec 32 := 80#32
  let v101 : BitVec 32 := Scalar.muli v100 c80_i32_77
  v101
def k0_off6 (k0_t1 : Fin k0_t1_loop.trips) : Fin 1 → Nat :=
  let c0_i32_12 : BitVec 32 := 0#32
  let c1_i32 : BitVec 32 := 1#32
  let arg21 : BitVec 32 := Scf.iv c0_i32_12 c1_i32 k0_t1
  let c5_i32_52 : BitVec 32 := 5#32
  let v68 : BitVec 32 := Scalar.muli arg21 c5_i32_52
  let c3_i32 : BitVec 32 := 3#32
  let v69 : BitVec 32 := Scalar.addi v68 c3_i32
  let c5_i32_76 : BitVec 32 := 5#32
  let v100 : BitVec 32 := Scalar.addi v69 c5_i32_76
  let c80_i32_77 : BitVec 32 := 80#32
  let v101 : BitVec 32 := Scalar.muli v100 c80_i32_77
  let v102 : BitVec 32 := v101
  ![v102.toNat]
def k0_mult18 : BitVec 32 :=
  let c320_i32_65 : BitVec 32 := 320#32
  c320_i32_65
def k0_mult19 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c60_i32 : BitVec 32 := 60#32
  let v2 : BitVec 32 := Scalar.muli v1 c60_i32
  let c0_i32_12 : BitVec 32 := 0#32
  let c1_i32 : BitVec 32 := 1#32
  let arg21 : BitVec 32 := Scf.iv c0_i32_12 c1_i32 k0_t1
  let c5_i32_64 : BitVec 32 := 5#32
  let v84 : BitVec 32 := Scalar.muli arg21 c5_i32_64
  let c4_i32 : BitVec 32 := 4#32
  let v85 : BitVec 32 := Scalar.addi v84 c4_i32
  let v89 : BitVec 32 := Scalar.addi v2 v85
  let c80_i32_68 : BitVec 32 := 80#32
  let v90 : BitVec 32 := Scalar.muli v89 c80_i32_68
  v90
def k0_cond5 (k0_t1 : Fin k0_t1_loop.trips) : BitVec 1 :=
  let c0_i32_12 : BitVec 32 := 0#32
  let c1_i32 : BitVec 32 := 1#32
  let arg21 : BitVec 32 := Scf.iv c0_i32_12 c1_i32 k0_t1
  let c5_i32_64 : BitVec 32 := 5#32
  let v84 : BitVec 32 := Scalar.muli arg21 c5_i32_64
  let c4_i32 : BitVec 32 := 4#32
  let v85 : BitVec 32 := Scalar.addi v84 c4_i32
  let c5_i32_73 : BitVec 32 := 5#32
  let v96 : BitVec 32 := Scalar.addi v85 c5_i32_73
  let c60_i32_74 : BitVec 32 := 60#32
  let v97 : BitVec 1 := Scalar.cmpi .slt v96 c60_i32_74
  let v98 : BitVec 32 := Scalar.extui v97
  let c0_i32_75 : BitVec 32 := 0#32
  let v99 : BitVec 1 := Scalar.cmpi .ne v98 c0_i32_75
  v99

def k0_mult20 (k0_t1 : Fin k0_t1_loop.trips) : BitVec 32 :=
  let c0_i32_12 : BitVec 32 := 0#32
  let c1_i32 : BitVec 32 := 1#32
  let arg21 : BitVec 32 := Scf.iv c0_i32_12 c1_i32 k0_t1
  let c5_i32_64 : BitVec 32 := 5#32
  let v84 : BitVec 32 := Scalar.muli arg21 c5_i32_64
  let c4_i32 : BitVec 32 := 4#32
  let v85 : BitVec 32 := Scalar.addi v84 c4_i32
  let c5_i32_76 : BitVec 32 := 5#32
  let v100 : BitVec 32 := Scalar.addi v85 c5_i32_76
  let c80_i32_77 : BitVec 32 := 80#32
  let v101 : BitVec 32 := Scalar.muli v100 c80_i32_77
  v101
def k0_off7 (k0_t1 : Fin k0_t1_loop.trips) : Fin 1 → Nat :=
  let c0_i32_12 : BitVec 32 := 0#32
  let c1_i32 : BitVec 32 := 1#32
  let arg21 : BitVec 32 := Scf.iv c0_i32_12 c1_i32 k0_t1
  let c5_i32_64 : BitVec 32 := 5#32
  let v84 : BitVec 32 := Scalar.muli arg21 c5_i32_64
  let c4_i32 : BitVec 32 := 4#32
  let v85 : BitVec 32 := Scalar.addi v84 c4_i32
  let c5_i32_76 : BitVec 32 := 5#32
  let v100 : BitVec 32 := Scalar.addi v85 c5_i32_76
  let c80_i32_77 : BitVec 32 := 80#32
  let v101 : BitVec 32 := Scalar.muli v100 c80_i32_77
  let v102 : BitVec 32 := v101
  ![v102.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65_i32 : BitVec 32 := 65#32
  let v2 : BitVec 32 := Scalar.muli v1 c65_i32
  let c80_i32 : BitVec 32 := 80#32
  let v3 : BitVec 32 := Scalar.muli v2 c80_i32
  ![v3.toNat]
def k1_mult1 : BitVec 32 :=
  let c0_i32 : BitVec 32 := 0#32
  c0_i32
def k1_mult2 : BitVec 32 :=
  let c80_i32_2 : BitVec 32 := 80#32
  c80_i32_2
def k1_mult3 : BitVec 32 :=
  let c160_i32 : BitVec 32 := 160#32
  c160_i32
def k1_mult4 : BitVec 32 :=
  let c240_i32 : BitVec 32 := 240#32
  c240_i32
def k1_mult5 : BitVec 32 :=
  let c320_i32 : BitVec 32 := 320#32
  c320_i32
@[reducible] def k1_t1_loop : Scf.Loop 32 :=
  let c0_i32_12 : BitVec 32 := 0#32
  let c13_i32 : BitVec 32 := 13#32
  let v19 : BitVec 32 := Scalar.addi c0_i32_12 c13_i32
  let c1_i32 : BitVec 32 := 1#32
  ⟨c0_i32_12, v19, c1_i32⟩
def k1_mult6 : BitVec 32 :=
  let c0_i32_15 : BitVec 32 := 0#32
  c0_i32_15
def k1_mult7 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65_i32 : BitVec 32 := 65#32
  let v2 : BitVec 32 := Scalar.muli v1 c65_i32
  let c0_i32_12 : BitVec 32 := 0#32
  let c1_i32 : BitVec 32 := 1#32
  let arg21 : BitVec 32 := Scf.iv c0_i32_12 c1_i32 k1_t1
  let c5_i32 : BitVec 32 := 5#32
  let v20 : BitVec 32 := Scalar.muli arg21 c5_i32
  let c0_i32_14 : BitVec 32 := 0#32
  let v21 : BitVec 32 := Scalar.addi v20 c0_i32_14
  let v25 : BitVec 32 := Scalar.addi v2 v21
  let c80_i32_18 : BitVec 32 := 80#32
  let v26 : BitVec 32 := Scalar.muli v25 c80_i32_18
  v26
def k1_off2 (i : grid1.Coords) (k1_t1 : Fin k1_t1_loop.trips) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65_i32 : BitVec 32 := 65#32
  let v2 : BitVec 32 := Scalar.muli v1 c65_i32
  let c0_i32_12 : BitVec 32 := 0#32
  let c1_i32 : BitVec 32 := 1#32
  let arg21 : BitVec 32 := Scf.iv c0_i32_12 c1_i32 k1_t1
  let c5_i32 : BitVec 32 := 5#32
  let v20 : BitVec 32 := Scalar.muli arg21 c5_i32
  let v21 : BitVec 32 := Scalar.addi v20 c0_i32_14
  let v25 : BitVec 32 := Scalar.addi v2 v21
  let c80_i32_18 : BitVec 32 := 80#32
  let v26 : BitVec 32 := Scalar.muli v25 c80_i32_18
  let v27 : BitVec 32 := v26
  let c0_i32_19 : BitVec 32 := 0#32
  ![v27.toNat, 0]
def k1_cond1 (k1_t1 : Fin k1_t1_loop.trips) : BitVec 1 :=
  let c0_i32_12 : BitVec 32 := 0#32
  let c1_i32 : BitVec 32 := 1#32
  let arg21 : BitVec 32 := Scf.iv c0_i32_12 c1_i32 k1_t1
  let c5_i32 : BitVec 32 := 5#32
  let v20 : BitVec 32 := Scalar.muli arg21 c5_i32
  let c0_i32_14 : BitVec 32 := 0#32
  let v21 : BitVec 32 := Scalar.addi v20 c0_i32_14
  let c5_i32_23 : BitVec 32 := 5#32
  let v32 : BitVec 32 := Scalar.addi v21 c5_i32_23
  let c65_i32_24 : BitVec 32 := 65#32
  let v33 : BitVec 1 := Scalar.cmpi .slt v32 c65_i32_24
  let v34 : BitVec 32 := Scalar.extui v33
  let c0_i32_25 : BitVec 32 := 0#32
  let v35 : BitVec 1 := Scalar.cmpi .ne v34 c0_i32_25
  v35

def k1_mult8 (k1_t1 : Fin k1_t1_loop.trips) : BitVec 32 :=
  let c0_i32_12 : BitVec 32 := 0#32
  let c1_i32 : BitVec 32 := 1#32
  let arg21 : BitVec 32 := Scf.iv c0_i32_12 c1_i32 k1_t1
  let c5_i32 : BitVec 32 := 5#32
  let v20 : BitVec 32 := Scalar.muli arg21 c5_i32
  let c0_i32_14 : BitVec 32 := 0#32
  let v21 : BitVec 32 := Scalar.addi v20 c0_i32_14
  let c5_i32_76 : BitVec 32 := 5#32
  let v100 : BitVec 32 := Scalar.addi v21 c5_i32_76
  let c80_i32_77 : BitVec 32 := 80#32
  let v101 : BitVec 32 := Scalar.muli v100 c80_i32_77
  v101
def k1_off3 (k1_t1 : Fin k1_t1_loop.trips) : Fin 1 → Nat :=
  let c0_i32_12 : BitVec 32 := 0#32
  let c1_i32 : BitVec 32 := 1#32
  let arg21 : BitVec 32 := Scf.iv c0_i32_12 c1_i32 k1_t1
  let c5_i32 : BitVec 32 := 5#32
  let v20 : BitVec 32 := Scalar.muli arg21 c5_i32
  let c0_i32_14 : BitVec 32 := 0#32
  let v21 : BitVec 32 := Scalar.addi v20 c0_i32_14
  let c5_i32_76 : BitVec 32 := 5#32
  let v100 : BitVec 32 := Scalar.addi v21 c5_i32_76
  let c80_i32_77 : BitVec 32 := 80#32
  let v101 : BitVec 32 := Scalar.muli v100 c80_i32_77
  let v102 : BitVec 32 := v101
  ![v102.toNat]
def k1_mult9 : BitVec 32 :=
  let c80_i32_28 : BitVec 32 := 80#32
  c80_i32_28
def k1_mult10 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65_i32 : BitVec 32 := 65#32
  let v2 : BitVec 32 := Scalar.muli v1 c65_i32
  let c0_i32_12 : BitVec 32 := 0#32
  let c1_i32 : BitVec 32 := 1#32
  let arg21 : BitVec 32 := Scf.iv c0_i32_12 c1_i32 k1_t1
  let c5_i32_26 : BitVec 32 := 5#32
  let v36 : BitVec 32 := Scalar.muli arg21 c5_i32_26
  let c1_i32_27 : BitVec 32 := 1#32
  let v37 : BitVec 32 := Scalar.addi v36 c1_i32_27
  let v41 : BitVec 32 := Scalar.addi v2 v37
  let c80_i32_31 : BitVec 32 := 80#32
  let v42 : BitVec 32 := Scalar.muli v41 c80_i32_31
  v42
def k1_cond2 (k1_t1 : Fin k1_t1_loop.trips) : BitVec 1 :=
  let c0_i32_12 : BitVec 32 := 0#32
  let c1_i32 : BitVec 32 := 1#32
  let arg21 : BitVec 32 := Scf.iv c0_i32_12 c1_i32 k1_t1
  let c5_i32_26 : BitVec 32 := 5#32
  let v36 : BitVec 32 := Scalar.muli arg21 c5_i32_26
  let c1_i32_27 : BitVec 32 := 1#32
  let v37 : BitVec 32 := Scalar.addi v36 c1_i32_27
  let c5_i32_36 : BitVec 32 := 5#32
  let v48 : BitVec 32 := Scalar.addi v37 c5_i32_36
  let c65_i32_37 : BitVec 32 := 65#32
  let v49 : BitVec 1 := Scalar.cmpi .slt v48 c65_i32_37
  let v50 : BitVec 32 := Scalar.extui v49
  let c0_i32_38 : BitVec 32 := 0#32
  let v51 : BitVec 1 := Scalar.cmpi .ne v50 c0_i32_38
  v51

def k1_mult11 (k1_t1 : Fin k1_t1_loop.trips) : BitVec 32 :=
  let c0_i32_12 : BitVec 32 := 0#32
  let c1_i32 : BitVec 32 := 1#32
  let arg21 : BitVec 32 := Scf.iv c0_i32_12 c1_i32 k1_t1
  let c5_i32_26 : BitVec 32 := 5#32
  let v36 : BitVec 32 := Scalar.muli arg21 c5_i32_26
  let c1_i32_27 : BitVec 32 := 1#32
  let v37 : BitVec 32 := Scalar.addi v36 c1_i32_27
  let c5_i32_76 : BitVec 32 := 5#32
  let v100 : BitVec 32 := Scalar.addi v37 c5_i32_76
  let c80_i32_77 : BitVec 32 := 80#32
  let v101 : BitVec 32 := Scalar.muli v100 c80_i32_77
  v101
def k1_off4 (k1_t1 : Fin k1_t1_loop.trips) : Fin 1 → Nat :=
  let c0_i32_12 : BitVec 32 := 0#32
  let c1_i32 : BitVec 32 := 1#32
  let arg21 : BitVec 32 := Scf.iv c0_i32_12 c1_i32 k1_t1
  let c5_i32_26 : BitVec 32 := 5#32
  let v36 : BitVec 32 := Scalar.muli arg21 c5_i32_26
  let c1_i32_27 : BitVec 32 := 1#32
  let v37 : BitVec 32 := Scalar.addi v36 c1_i32_27
  let c5_i32_76 : BitVec 32 := 5#32
  let v100 : BitVec 32 := Scalar.addi v37 c5_i32_76
  let c80_i32_77 : BitVec 32 := 80#32
  let v101 : BitVec 32 := Scalar.muli v100 c80_i32_77
  let v102 : BitVec 32 := v101
  ![v102.toNat]
def k1_mult12 : BitVec 32 :=
  let c160_i32_41 : BitVec 32 := 160#32
  c160_i32_41
def k1_mult13 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65_i32 : BitVec 32 := 65#32
  let v2 : BitVec 32 := Scalar.muli v1 c65_i32
  let c0_i32_12 : BitVec 32 := 0#32
  let c1_i32 : BitVec 32 := 1#32
  let arg21 : BitVec 32 := Scf.iv c0_i32_12 c1_i32 k1_t1
  let c5_i32_39 : BitVec 32 := 5#32
  let v52 : BitVec 32 := Scalar.muli arg21 c5_i32_39
  let c2_i32_40 : BitVec 32 := 2#32
  let v53 : BitVec 32 := Scalar.addi v52 c2_i32_40
  let v57 : BitVec 32 := Scalar.addi v2 v53
  let c80_i32_44 : BitVec 32 := 80#32
  let v58 : BitVec 32 := Scalar.muli v57 c80_i32_44
  v58
def k1_cond3 (k1_t1 : Fin k1_t1_loop.trips) : BitVec 1 :=
  let c0_i32_12 : BitVec 32 := 0#32
  let c1_i32 : BitVec 32 := 1#32
  let arg21 : BitVec 32 := Scf.iv c0_i32_12 c1_i32 k1_t1
  let c5_i32_39 : BitVec 32 := 5#32
  let v52 : BitVec 32 := Scalar.muli arg21 c5_i32_39
  let c2_i32_40 : BitVec 32 := 2#32
  let v53 : BitVec 32 := Scalar.addi v52 c2_i32_40
  let c5_i32_49 : BitVec 32 := 5#32
  let v64 : BitVec 32 := Scalar.addi v53 c5_i32_49
  let c65_i32_50 : BitVec 32 := 65#32
  let v65 : BitVec 1 := Scalar.cmpi .slt v64 c65_i32_50
  let v66 : BitVec 32 := Scalar.extui v65
  let c0_i32_51 : BitVec 32 := 0#32
  let v67 : BitVec 1 := Scalar.cmpi .ne v66 c0_i32_51
  v67

def k1_mult14 (k1_t1 : Fin k1_t1_loop.trips) : BitVec 32 :=
  let c0_i32_12 : BitVec 32 := 0#32
  let c1_i32 : BitVec 32 := 1#32
  let arg21 : BitVec 32 := Scf.iv c0_i32_12 c1_i32 k1_t1
  let c5_i32_39 : BitVec 32 := 5#32
  let v52 : BitVec 32 := Scalar.muli arg21 c5_i32_39
  let c2_i32_40 : BitVec 32 := 2#32
  let v53 : BitVec 32 := Scalar.addi v52 c2_i32_40
  let c5_i32_76 : BitVec 32 := 5#32
  let v100 : BitVec 32 := Scalar.addi v53 c5_i32_76
  let c80_i32_77 : BitVec 32 := 80#32
  let v101 : BitVec 32 := Scalar.muli v100 c80_i32_77
  v101
def k1_off5 (k1_t1 : Fin k1_t1_loop.trips) : Fin 1 → Nat :=
  let c0_i32_12 : BitVec 32 := 0#32
  let c1_i32 : BitVec 32 := 1#32
  let arg21 : BitVec 32 := Scf.iv c0_i32_12 c1_i32 k1_t1
  let c5_i32_39 : BitVec 32 := 5#32
  let v52 : BitVec 32 := Scalar.muli arg21 c5_i32_39
  let c2_i32_40 : BitVec 32 := 2#32
  let v53 : BitVec 32 := Scalar.addi v52 c2_i32_40
  let c5_i32_76 : BitVec 32 := 5#32
  let v100 : BitVec 32 := Scalar.addi v53 c5_i32_76
  let c80_i32_77 : BitVec 32 := 80#32
  let v101 : BitVec 32 := Scalar.muli v100 c80_i32_77
  let v102 : BitVec 32 := v101
  ![v102.toNat]
def k1_mult15 : BitVec 32 :=
  let c240_i32_53 : BitVec 32 := 240#32
  c240_i32_53
def k1_mult16 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65_i32 : BitVec 32 := 65#32
  let v2 : BitVec 32 := Scalar.muli v1 c65_i32
  let c0_i32_12 : BitVec 32 := 0#32
  let c1_i32 : BitVec 32 := 1#32
  let arg21 : BitVec 32 := Scf.iv c0_i32_12 c1_i32 k1_t1
  let c5_i32_52 : BitVec 32 := 5#32
  let v68 : BitVec 32 := Scalar.muli arg21 c5_i32_52
  let c3_i32 : BitVec 32 := 3#32
  let v69 : BitVec 32 := Scalar.addi v68 c3_i32
  let v73 : BitVec 32 := Scalar.addi v2 v69
  let c80_i32_56 : BitVec 32 := 80#32
  let v74 : BitVec 32 := Scalar.muli v73 c80_i32_56
  v74
def k1_cond4 (k1_t1 : Fin k1_t1_loop.trips) : BitVec 1 :=
  let c0_i32_12 : BitVec 32 := 0#32
  let c1_i32 : BitVec 32 := 1#32
  let arg21 : BitVec 32 := Scf.iv c0_i32_12 c1_i32 k1_t1
  let c5_i32_52 : BitVec 32 := 5#32
  let v68 : BitVec 32 := Scalar.muli arg21 c5_i32_52
  let c3_i32 : BitVec 32 := 3#32
  let v69 : BitVec 32 := Scalar.addi v68 c3_i32
  let c5_i32_61 : BitVec 32 := 5#32
  let v80 : BitVec 32 := Scalar.addi v69 c5_i32_61
  let c65_i32_62 : BitVec 32 := 65#32
  let v81 : BitVec 1 := Scalar.cmpi .slt v80 c65_i32_62
  let v82 : BitVec 32 := Scalar.extui v81
  let c0_i32_63 : BitVec 32 := 0#32
  let v83 : BitVec 1 := Scalar.cmpi .ne v82 c0_i32_63
  v83

def k1_mult17 (k1_t1 : Fin k1_t1_loop.trips) : BitVec 32 :=
  let c0_i32_12 : BitVec 32 := 0#32
  let c1_i32 : BitVec 32 := 1#32
  let arg21 : BitVec 32 := Scf.iv c0_i32_12 c1_i32 k1_t1
  let c5_i32_52 : BitVec 32 := 5#32
  let v68 : BitVec 32 := Scalar.muli arg21 c5_i32_52
  let c3_i32 : BitVec 32 := 3#32
  let v69 : BitVec 32 := Scalar.addi v68 c3_i32
  let c5_i32_76 : BitVec 32 := 5#32
  let v100 : BitVec 32 := Scalar.addi v69 c5_i32_76
  let c80_i32_77 : BitVec 32 := 80#32
  let v101 : BitVec 32 := Scalar.muli v100 c80_i32_77
  v101
def k1_off6 (k1_t1 : Fin k1_t1_loop.trips) : Fin 1 → Nat :=
  let c0_i32_12 : BitVec 32 := 0#32
  let c1_i32 : BitVec 32 := 1#32
  let arg21 : BitVec 32 := Scf.iv c0_i32_12 c1_i32 k1_t1
  let c5_i32_52 : BitVec 32 := 5#32
  let v68 : BitVec 32 := Scalar.muli arg21 c5_i32_52
  let c3_i32 : BitVec 32 := 3#32
  let v69 : BitVec 32 := Scalar.addi v68 c3_i32
  let c5_i32_76 : BitVec 32 := 5#32
  let v100 : BitVec 32 := Scalar.addi v69 c5_i32_76
  let c80_i32_77 : BitVec 32 := 80#32
  let v101 : BitVec 32 := Scalar.muli v100 c80_i32_77
  let v102 : BitVec 32 := v101
  ![v102.toNat]
def k1_mult18 : BitVec 32 :=
  let c320_i32_65 : BitVec 32 := 320#32
  c320_i32_65
def k1_mult19 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65_i32 : BitVec 32 := 65#32
  let v2 : BitVec 32 := Scalar.muli v1 c65_i32
  let c0_i32_12 : BitVec 32 := 0#32
  let c1_i32 : BitVec 32 := 1#32
  let arg21 : BitVec 32 := Scf.iv c0_i32_12 c1_i32 k1_t1
  let c5_i32_64 : BitVec 32 := 5#32
  let v84 : BitVec 32 := Scalar.muli arg21 c5_i32_64
  let c4_i32 : BitVec 32 := 4#32
  let v85 : BitVec 32 := Scalar.addi v84 c4_i32
  let v89 : BitVec 32 := Scalar.addi v2 v85
  let c80_i32_68 : BitVec 32 := 80#32
  let v90 : BitVec 32 := Scalar.muli v89 c80_i32_68
  v90
def k1_cond5 (k1_t1 : Fin k1_t1_loop.trips) : BitVec 1 :=
  let c0_i32_12 : BitVec 32 := 0#32
  let c1_i32 : BitVec 32 := 1#32
  let arg21 : BitVec 32 := Scf.iv c0_i32_12 c1_i32 k1_t1
  let c5_i32_64 : BitVec 32 := 5#32
  let v84 : BitVec 32 := Scalar.muli arg21 c5_i32_64
  let c4_i32 : BitVec 32 := 4#32
  let v85 : BitVec 32 := Scalar.addi v84 c4_i32
  let c5_i32_73 : BitVec 32 := 5#32
  let v96 : BitVec 32 := Scalar.addi v85 c5_i32_73
  let c65_i32_74 : BitVec 32 := 65#32
  let v97 : BitVec 1 := Scalar.cmpi .slt v96 c65_i32_74
  let v98 : BitVec 32 := Scalar.extui v97
  let c0_i32_75 : BitVec 32 := 0#32
  let v99 : BitVec 1 := Scalar.cmpi .ne v98 c0_i32_75
  v99

def k1_mult20 (k1_t1 : Fin k1_t1_loop.trips) : BitVec 32 :=
  let c0_i32_12 : BitVec 32 := 0#32
  let c1_i32 : BitVec 32 := 1#32
  let arg21 : BitVec 32 := Scf.iv c0_i32_12 c1_i32 k1_t1
  let c5_i32_64 : BitVec 32 := 5#32
  let v84 : BitVec 32 := Scalar.muli arg21 c5_i32_64
  let c4_i32 : BitVec 32 := 4#32
  let v85 : BitVec 32 := Scalar.addi v84 c4_i32
  let c5_i32_76 : BitVec 32 := 5#32
  let v100 : BitVec 32 := Scalar.addi v85 c5_i32_76
  let c80_i32_77 : BitVec 32 := 80#32
  let v101 : BitVec 32 := Scalar.muli v100 c80_i32_77
  v101
def k1_off7 (k1_t1 : Fin k1_t1_loop.trips) : Fin 1 → Nat :=
  let c0_i32_12 : BitVec 32 := 0#32
  let c1_i32 : BitVec 32 := 1#32
  let arg21 : BitVec 32 := Scf.iv c0_i32_12 c1_i32 k1_t1
  let c5_i32_64 : BitVec 32 := 5#32
  let v84 : BitVec 32 := Scalar.muli arg21 c5_i32_64
  let c4_i32 : BitVec 32 := 4#32
  let v85 : BitVec 32 := Scalar.addi v84 c4_i32
  let c5_i32_76 : BitVec 32 := 5#32
  let v100 : BitVec 32 := Scalar.addi v85 c5_i32_76
  let c80_i32_77 : BitVec 32 := 80#32
  let v101 : BitVec 32 := Scalar.muli v100 c80_i32_77
  let v102 : BitVec 32 := v101
  ![v102.toNat]
abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x32x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x12800 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![13], ![false]⟩

def cc3_transform_0 (i : grid3.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x32x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16x12800 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![12], ![false]⟩

def cc4_transform_0 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc4_transform_3 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S400x32x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16x12800 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S400x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S16x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S400x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev grid5 : Pipeline.Grid := ⟨1, ![13], ![false]⟩

def cc5_transform_0 (i : grid5.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc5_transform_3 (i : grid5.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S400x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x32x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S16x12800 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S400x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S16x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S400x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S272x256_S128x256_0_0 : S272x256.Slices ![0, 0] S128x256
  slices_S272x256_S128x256_128_0 : S272x256.Slices ![128, 0] S128x256
  slices_S272x256_S16x256_256_0 : S272x256.Slices ![256, 0] S16x256
  bcast_S256_S1x256_1 : S256.BroadcastsInDim S1x256 (![1] : Fin 1 → Fin S1x256.rank)
  shapeCasts_S10000x32_S320000 : S10000x32.ShapeCasts S320000
  slices_S320000_S153600_0 : S320000.Slices ![0] S153600
  inb_S4800_S80_0 : ∀ a, (![0] : Fin 1 → Nat) a + S80.size a ≤ S4800.size a
  inb_S10000x128_S10000x128_0_0 : ∀ a, (![0, 0] : Fin 2 → Nat) a + S10000x128.size a ≤ S10000x128.size a
  gathers_S10000x128_S80x128 : S10000x128.Gathers 0 S80x128
  inb_S4800_S80_80 : ∀ a, (![80] : Fin 1 → Nat) a + S80.size a ≤ S4800.size a
  inb_S4800_S80_160 : ∀ a, (![160] : Fin 1 → Nat) a + S80.size a ≤ S4800.size a
  inb_S4800_S80_240 : ∀ a, (![240] : Fin 1 → Nat) a + S80.size a ≤ S4800.size a
  inb_S4800_S80_320 : ∀ a, (![320] : Fin 1 → Nat) a + S80.size a ≤ S4800.size a
  slices_S320000_S166400_153600 : S320000.Slices ![153600] S166400
  inb_S5200_S80_0 : ∀ a, (![0] : Fin 1 → Nat) a + S80.size a ≤ S5200.size a
  inb_S5200_S80_80 : ∀ a, (![80] : Fin 1 → Nat) a + S80.size a ≤ S5200.size a
  inb_S5200_S80_160 : ∀ a, (![160] : Fin 1 → Nat) a + S80.size a ≤ S5200.size a
  inb_S5200_S80_240 : ∀ a, (![240] : Fin 1 → Nat) a + S80.size a ≤ S5200.size a
  inb_S5200_S80_320 : ∀ a, (![320] : Fin 1 → Nat) a + S80.size a ≤ S5200.size a
  shapeCasts_S153600x128_S4800x32x128 : S153600x128.ShapeCasts S4800x32x128
  shapeCasts_S166400x128_S5200x32x128 : S166400x128.ShapeCasts S5200x32x128
  shapeCasts_S10000x32x16_S320000x16 : S10000x32x16.ShapeCasts S320000x16
  transposes_S320000x16_S16x320000_1_0 : S320000x16.Transposes [1, 0] S16x320000
  inb_S400x128_S400x128_0_0 : ∀ a, (![0, 0] : Fin 2 → Nat) a + S400x128.size a ≤ S400x128.size a
  h_S400x128 : 0 < S400x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x32x128_S400x32x128_0_0_0 : ∀ a, (![0, 0, 0] : Fin 3 → Nat) a + S400x32x128.size a ≤ S400x32x128.size a
  h_S400x32x128 : 0 < S400x32x128.numel
  shapeCasts_S400x32x128_S400x32x128 : S400x32x128.ShapeCasts S400x32x128
  shapeCasts_S400x32x128_S12800x128 : S400x32x128.ShapeCasts S12800x128
  shapeCasts_S12800x256_S400x32x256 : S12800x256.ShapeCasts S400x32x256
  inb_S16x12800_S16x12800_0_0 : ∀ a, (![0, 0] : Fin 2 → Nat) a + S16x12800.size a ≤ S16x12800.size a
  h_S16x12800 : 0 < S16x12800.numel
  shapeCasts_S16x12800_S16x12800 : S16x12800.ShapeCasts S16x12800
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S400x256_S400x1x256 : S400x256.ShapeCasts S400x1x256
  broadcasts_S400x1x256_S400x32x256 : S400x1x256.Broadcasts S400x32x256
  reduces_S400x32x256_S256 : S400x32x256.Reduces [0, 1] S256
  shapeCasts_S256_S1x256 : S256.ShapeCasts S1x256
  bcast_S_S1x256 : S_.BroadcastsInDim S1x256 (![] : Fin 0 → Fin S1x256.rank)
  bcast_S1x256_S128x256_0_1 : S1x256.BroadcastsInDim S128x256 (![0, 1] : Fin 2 → Fin S128x256.rank)
  bcast_S1x256_S16x256_0_1 : S1x256.BroadcastsInDim S16x256 (![0, 1] : Fin 2 → Fin S16x256.rank)
  slices_S400x32x256_o0_0_0_S400x32x128 : S400x32x256.Slices ![0, 0, 0] S400x32x128
  slices_S400x32x256_o0_0_128_S400x32x128 : S400x32x256.Slices ![0, 0, 128] S400x32x128
  inb_S400x32_S400x32_0_0 : ∀ a, (![0, 0] : Fin 2 → Nat) a + S400x32.size a ≤ S400x32.size a
  h_S400x32 : 0 < S400x32.numel
  shapeCasts_S400x32_S400x32x1 : S400x32.ShapeCasts S400x32x1
  broadcasts_S400x32x1_S400x32x128 : S400x32x1.Broadcasts S400x32x128
  reduces_S400x32x128_S400x128 : S400x32x128.Reduces [1] S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S400x128_S128 : S400x128.Reduces [0] S128
  shapeCasts_S128_S1x128 : S128.ShapeCasts S1x128
  concatenates_S4800x128_S5200x128_S10000x128_d0 : Shape.Concatenates [S4800x128, S5200x128] S10000x128 0
  bcast_S_S1x128 : S_.BroadcastsInDim S1x128 (![] : Fin 0 → Fin S1x128.rank)
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  dot_S400x128_S128x256_S400x256_1_0_0_1_n_n_wf : DotDims.WF S400x128 S128x256 S400x256 [1] [0] [0] [1] [] []
  dot_S12800x128_S128x256_S12800x256_1_0_0_1_n_n_wf : DotDims.WF S12800x128 S128x256 S12800x256 [1] [0] [0] [1] [] []
  dot_S16x12800_S16x256_S12800x256_0_0_1_1_n_n_wf : DotDims.WF S16x12800 S16x256 S12800x256 [0] [0] [1] [1] [] []
  hcc0_scratch6 : 0 + S_.numel ≤ 86
  hcc0_scratch7 : 1 + S_.numel ≤ 86
  hcc0_scratch8 : 2 + S_.numel ≤ 86
  hcc0_scratch9 : 3 + S_.numel ≤ 86
  hcc0_scratch10 : 4 + S_.numel ≤ 86
  hcc0_scratch11 : 5 + S_.numel ≤ 86
  hcc0_scratch12 : 6 + S_.numel ≤ 86
  hcc0_scratch13 : 7 + S_.numel ≤ 86
  hcc0_scratch14 : 8 + S_.numel ≤ 86
  hcc0_scratch15 : 9 + S_.numel ≤ 86
  hcc0_scoped0 : 10 + S_.numel ≤ 86
  hcc1_scratch6 : 11 + S_.numel ≤ 86
  hcc1_scratch7 : 12 + S_.numel ≤ 86
  hcc1_scratch8 : 13 + S_.numel ≤ 86
  hcc1_scratch9 : 14 + S_.numel ≤ 86
  hcc1_scratch10 : 15 + S_.numel ≤ 86
  hcc1_scratch11 : 16 + S_.numel ≤ 86
  hcc1_scratch12 : 17 + S_.numel ≤ 86
  hcc1_scratch13 : 18 + S_.numel ≤ 86
  hcc1_scratch14 : 19 + S_.numel ≤ 86
  hcc1_scratch15 : 20 + S_.numel ≤ 86
  hcc1_scoped0 : 21 + S_.numel ≤ 86
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4800.size a ≤ S153600.size a
  k0_mult1_dvd : 80 ∣ k0_mult1.toNat
  k0_mult2_dvd : 80 ∣ k0_mult2.toNat
  k0_mult3_dvd : 80 ∣ k0_mult3.toNat
  k0_mult4_dvd : 80 ∣ k0_mult4.toNat
  k0_mult5_dvd : 80 ∣ k0_mult5.toNat
  k0_t1_ok : k0_t1_loop.OK
  k0_mult6_dvd : 80 ∣ k0_mult6.toNat
  k0_mult7_dvd : ∀ (i : grid0.Coords) (k0_t1 : Fin k0_t1_loop.trips), 80 ∣ (k0_mult7 i k0_t1).toNat
  k0_off2_inb : ∀ (i : grid0.Coords) (k0_t1 : Fin k0_t1_loop.trips), ∀ (r : Fin 5), ∀ a, (k0_off2 i k0_t1 (BitVec.ofNat 32 r.val)) a + S80x128.size a ≤ S153600x128.size a
  k0_mult8_dvd : ∀ k0_t1 : Fin k0_t1_loop.trips, ∀ (k0_h1 : k0_cond1 k0_t1 = 1#1), 80 ∣ (k0_mult8 k0_t1).toNat
  k0_off3_inb : ∀ k0_t1 : Fin k0_t1_loop.trips, ∀ (k0_h1 : k0_cond1 k0_t1 = 1#1), ∀ a, (k0_off3 k0_t1) a + S80.size a ≤ S4800.size a
  k0_mult9_dvd : 80 ∣ k0_mult9.toNat
  k0_mult10_dvd : ∀ (i : grid0.Coords) (k0_t1 : Fin k0_t1_loop.trips), 80 ∣ (k0_mult10 i k0_t1).toNat
  k0_mult11_dvd : ∀ k0_t1 : Fin k0_t1_loop.trips, ∀ (k0_h2 : k0_cond2 k0_t1 = 1#1), 80 ∣ (k0_mult11 k0_t1).toNat
  k0_off4_inb : ∀ k0_t1 : Fin k0_t1_loop.trips, ∀ (k0_h2 : k0_cond2 k0_t1 = 1#1), ∀ a, (k0_off4 k0_t1) a + S80.size a ≤ S4800.size a
  k0_mult12_dvd : 80 ∣ k0_mult12.toNat
  k0_mult13_dvd : ∀ (i : grid0.Coords) (k0_t1 : Fin k0_t1_loop.trips), 80 ∣ (k0_mult13 i k0_t1).toNat
  k0_mult14_dvd : ∀ k0_t1 : Fin k0_t1_loop.trips, ∀ (k0_h3 : k0_cond3 k0_t1 = 1#1), 80 ∣ (k0_mult14 k0_t1).toNat
  k0_off5_inb : ∀ k0_t1 : Fin k0_t1_loop.trips, ∀ (k0_h3 : k0_cond3 k0_t1 = 1#1), ∀ a, (k0_off5 k0_t1) a + S80.size a ≤ S4800.size a
  k0_mult15_dvd : 80 ∣ k0_mult15.toNat
  k0_mult16_dvd : ∀ (i : grid0.Coords) (k0_t1 : Fin k0_t1_loop.trips), 80 ∣ (k0_mult16 i k0_t1).toNat
  k0_mult17_dvd : ∀ k0_t1 : Fin k0_t1_loop.trips, ∀ (k0_h4 : k0_cond4 k0_t1 = 1#1), 80 ∣ (k0_mult17 k0_t1).toNat
  k0_off6_inb : ∀ k0_t1 : Fin k0_t1_loop.trips, ∀ (k0_h4 : k0_cond4 k0_t1 = 1#1), ∀ a, (k0_off6 k0_t1) a + S80.size a ≤ S4800.size a
  k0_mult18_dvd : 80 ∣ k0_mult18.toNat
  k0_mult19_dvd : ∀ (i : grid0.Coords) (k0_t1 : Fin k0_t1_loop.trips), 80 ∣ (k0_mult19 i k0_t1).toNat
  k0_mult20_dvd : ∀ k0_t1 : Fin k0_t1_loop.trips, ∀ (k0_h5 : k0_cond5 k0_t1 = 1#1), 80 ∣ (k0_mult20 k0_t1).toNat
  k0_off7_inb : ∀ k0_t1 : Fin k0_t1_loop.trips, ∀ (k0_h5 : k0_cond5 k0_t1 = 1#1), ∀ a, (k0_off7 k0_t1) a + S80.size a ≤ S4800.size a
  hcore1 : grid1.bound 0 ≤ τ.nSC
  hsub1 : grid1.bound 1 ≤ τ.nSub
  k1_off1_inb : ∀ i : grid1.Coords, ∀ a, (k1_off1 i) a + S5200.size a ≤ S166400.size a
  k1_mult1_dvd : 80 ∣ k1_mult1.toNat
  k1_mult2_dvd : 80 ∣ k1_mult2.toNat
  k1_mult3_dvd : 80 ∣ k1_mult3.toNat
  k1_mult4_dvd : 80 ∣ k1_mult4.toNat
  k1_mult5_dvd : 80 ∣ k1_mult5.toNat
  k1_t1_ok : k1_t1_loop.OK
  k1_mult6_dvd : 80 ∣ k1_mult6.toNat
  k1_mult7_dvd : ∀ (i : grid1.Coords) (k1_t1 : Fin k1_t1_loop.trips), 80 ∣ (k1_mult7 i k1_t1).toNat
  k1_off2_inb : ∀ (i : grid1.Coords) (k1_t1 : Fin k1_t1_loop.trips), ∀ (r : Fin 5), ∀ a, (k1_off2 i k1_t1 (BitVec.ofNat 32 r.val)) a + S80x128.size a ≤ S166400x128.size a
  k1_mult8_dvd : ∀ k1_t1 : Fin k1_t1_loop.trips, ∀ (k1_h1 : k1_cond1 k1_t1 = 1#1), 80 ∣ (k1_mult8 k1_t1).toNat
  k1_off3_inb : ∀ k1_t1 : Fin k1_t1_loop.trips, ∀ (k1_h1 : k1_cond1 k1_t1 = 1#1), ∀ a, (k1_off3 k1_t1) a + S80.size a ≤ S5200.size a
  k1_mult9_dvd : 80 ∣ k1_mult9.toNat
  k1_mult10_dvd : ∀ (i : grid1.Coords) (k1_t1 : Fin k1_t1_loop.trips), 80 ∣ (k1_mult10 i k1_t1).toNat
  k1_mult11_dvd : ∀ k1_t1 : Fin k1_t1_loop.trips, ∀ (k1_h2 : k1_cond2 k1_t1 = 1#1), 80 ∣ (k1_mult11 k1_t1).toNat
  k1_off4_inb : ∀ k1_t1 : Fin k1_t1_loop.trips, ∀ (k1_h2 : k1_cond2 k1_t1 = 1#1), ∀ a, (k1_off4 k1_t1) a + S80.size a ≤ S5200.size a
  k1_mult12_dvd : 80 ∣ k1_mult12.toNat
  k1_mult13_dvd : ∀ (i : grid1.Coords) (k1_t1 : Fin k1_t1_loop.trips), 80 ∣ (k1_mult13 i k1_t1).toNat
  k1_mult14_dvd : ∀ k1_t1 : Fin k1_t1_loop.trips, ∀ (k1_h3 : k1_cond3 k1_t1 = 1#1), 80 ∣ (k1_mult14 k1_t1).toNat
  k1_off5_inb : ∀ k1_t1 : Fin k1_t1_loop.trips, ∀ (k1_h3 : k1_cond3 k1_t1 = 1#1), ∀ a, (k1_off5 k1_t1) a + S80.size a ≤ S5200.size a
  k1_mult15_dvd : 80 ∣ k1_mult15.toNat
  k1_mult16_dvd : ∀ (i : grid1.Coords) (k1_t1 : Fin k1_t1_loop.trips), 80 ∣ (k1_mult16 i k1_t1).toNat
  k1_mult17_dvd : ∀ k1_t1 : Fin k1_t1_loop.trips, ∀ (k1_h4 : k1_cond4 k1_t1 = 1#1), 80 ∣ (k1_mult17 k1_t1).toNat
  k1_off6_inb : ∀ k1_t1 : Fin k1_t1_loop.trips, ∀ (k1_h4 : k1_cond4 k1_t1 = 1#1), ∀ a, (k1_off6 k1_t1) a + S80.size a ≤ S5200.size a
  k1_mult18_dvd : 80 ∣ k1_mult18.toNat
  k1_mult19_dvd : ∀ (i : grid1.Coords) (k1_t1 : Fin k1_t1_loop.trips), 80 ∣ (k1_mult19 i k1_t1).toNat
  k1_mult20_dvd : ∀ k1_t1 : Fin k1_t1_loop.trips, ∀ (k1_h5 : k1_cond5 k1_t1 = 1#1), 80 ∣ (k1_mult20 k1_t1).toNat
  k1_off7_inb : ∀ k1_t1 : Fin k1_t1_loop.trips, ∀ (k1_h5 : k1_cond5 k1_t1 = 1#1), ∀ a, (k1_off7 k1_t1) a + S80.size a ≤ S5200.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x128.size a ≤ S10000x128.size a
  hwx2_0 : ∀ i : grid2.Coords, EltTy.bits .f32 = 32 ∨ (Rect.block (s := S10000x128) S400x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x32x128.size a ≤ S4800x32x128.size a
  hwx2_1 : ∀ i : grid2.Coords, EltTy.bits .f32 = 32 ∨ (Rect.block (s := S4800x32x128) S400x32x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x12800.size a ≤ S16x320000.size a
  hwx2_2 : ∀ i : grid2.Coords, EltTy.bits .f32 = 32 ∨ (Rect.block (s := S16x320000) S16x12800.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x256.size a ≤ S16x256.size a
  hwx2_5 : ∀ i : grid2.Coords, EltTy.bits .f32 = 32 ∨ (Rect.block (s := S16x256) S16x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x128.size a ≤ S10000x128.size a
  hwx3_0 : ∀ i : grid3.Coords, EltTy.bits .f32 = 32 ∨ (Rect.block (s := S10000x128) S400x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x32x128.size a ≤ S5200x32x128.size a
  hwx3_1 : ∀ i : grid3.Coords, EltTy.bits .f32 = 32 ∨ (Rect.block (s := S5200x32x128) S400x32x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16x12800.size a ≤ S16x320000.size a
  hwx3_2 : ∀ i : grid3.Coords, EltTy.bits .f32 = 32 ∨ (Rect.block (s := S16x320000) S16x12800.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .f32 = 32 ∨ (Rect.block (s := S128x256) S128x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x256.size a ≤ S16x256.size a
  hwx3_5 : ∀ i : grid3.Coords, EltTy.bits .f32 = 32 ∨ (Rect.block (s := S16x256) S16x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x128.size a ≤ S10000x128.size a
  hwx4_0 : ∀ i : grid4.Coords, EltTy.bits .f32 = 32 ∨ (Rect.block (s := S10000x128) S400x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S400x32x128.size a ≤ S4800x32x128.size a
  hwx4_1 : ∀ i : grid4.Coords, EltTy.bits .f32 = 32 ∨ (Rect.block (s := S4800x32x128) S400x32x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16x12800.size a ≤ S16x320000.size a
  hwx4_2 : ∀ i : grid4.Coords, EltTy.bits .f32 = 32 ∨ (Rect.block (s := S16x320000) S16x12800.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x32.size a ≤ S10000x32.size a
  hwx4_3 : ∀ i : grid4.Coords, EltTy.bits .f32 = 32 ∨ (Rect.block (s := S10000x32) S400x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x256.size a ≤ S128x256.size a
  hwx4_4 : ∀ i : grid4.Coords, EltTy.bits .f32 = 32 ∨ (Rect.block (s := S128x256) S128x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S16x256.size a ≤ S16x256.size a
  hwx4_6 : ∀ i : grid4.Coords, EltTy.bits .f32 = 32 ∨ (Rect.block (s := S16x256) S16x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S400x128.size a ≤ S4800x128.size a
  hwx4_8 : ∀ i : grid4.Coords, EltTy.bits .f32 = 32 ∨ (Rect.block (s := S4800x128) S400x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x128.size a ≤ S10000x128.size a
  hwx5_0 : ∀ i : grid5.Coords, EltTy.bits .f32 = 32 ∨ (Rect.block (s := S10000x128) S400x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S400x32x128.size a ≤ S5200x32x128.size a
  hwx5_1 : ∀ i : grid5.Coords, EltTy.bits .f32 = 32 ∨ (Rect.block (s := S5200x32x128) S400x32x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S16x12800.size a ≤ S16x320000.size a
  hwx5_2 : ∀ i : grid5.Coords, EltTy.bits .f32 = 32 ∨ (Rect.block (s := S16x320000) S16x12800.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x32.size a ≤ S10000x32.size a
  hwx5_3 : ∀ i : grid5.Coords, EltTy.bits .f32 = 32 ∨ (Rect.block (s := S10000x32) S400x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x256.size a ≤ S128x256.size a
  hwx5_4 : ∀ i : grid5.Coords, EltTy.bits .f32 = 32 ∨ (Rect.block (s := S128x256) S128x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x256.size a ≤ S128x256.size a
  hwx5_5 : ∀ i : grid5.Coords, EltTy.bits .f32 = 32 ∨ (Rect.block (s := S128x256) S128x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S16x256.size a ≤ S16x256.size a
  hwx5_6 : ∀ i : grid5.Coords, EltTy.bits .f32 = 32 ∨ (Rect.block (s := S16x256) S16x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S400x128.size a ≤ S5200x128.size a
  hwx5_8 : ∀ i : grid5.Coords, EltTy.bits .f32 = 32 ∨ (Rect.block (s := S5200x128) S400x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S10000x128.size a
  hwx6_0 : ∀ i : grid6.Coords, EltTy.bits .f32 = 32 ∨ (Rect.block (s := S10000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S10000x128.size a
  hwx6_1 : ∀ i : grid6.Coords, EltTy.bits .f32 = 32 ∨ (Rect.block (s := S10000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S10000x128.size a
  hwx6_4 : ∀ i : grid6.Coords, EltTy.bits .f32 = 32 ∨ (Rect.block (s := S10000x128) S2000x128.size (cc6_transform_4 i) (hinb6_4 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scoped0 : DmaSems sig S_ := SemArray.consecutive 10 S_ hcc0_scoped0
abbrev cc1_scratch6 : DmaSems sig S_ := SemArray.consecutive 11 S_ hcc1_scratch6
abbrev cc1_scratch7 : DmaSems sig S_ := SemArray.consecutive 12 S_ hcc1_scratch7
abbrev cc1_scratch8 : DmaSems sig S_ := SemArray.consecutive 13 S_ hcc1_scratch8
abbrev cc1_scratch9 : DmaSems sig S_ := SemArray.consecutive 14 S_ hcc1_scratch9
abbrev cc1_scratch10 : DmaSems sig S_ := SemArray.consecutive 15 S_ hcc1_scratch10
abbrev cc1_scratch11 : DmaSems sig S_ := SemArray.consecutive 16 S_ hcc1_scratch11
abbrev cc1_scratch12 : DmaSems sig S_ := SemArray.consecutive 17 S_ hcc1_scratch12
abbrev cc1_scratch13 : DmaSems sig S_ := SemArray.consecutive 18 S_ hcc1_scratch13
abbrev cc1_scratch14 : DmaSems sig S_ := SemArray.consecutive 19 S_ hcc1_scratch14
abbrev cc1_scratch15 : DmaSems sig S_ := SemArray.consecutive 20 S_ hcc1_scratch15
abbrev cc1_scoped0 : DmaSems sig S_ := SemArray.consecutive 21 S_ hcc1_scoped0
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S12800x128_S128x256_S12800x256_1_0_0_1_n_n : DotDims S12800x128 S128x256 S12800x256 where
  lhsContracting := [1]
  rhsContracting := [0]
  lhsNonContracting := [0]
  rhsNonContracting := [1]
  lhsBatch := []
  rhsBatch := []
  wf := dot_S12800x128_S128x256_S12800x256_1_0_0_1_n_n_wf
def dot_S16x12800_S16x256_S12800x256_0_0_1_1_n_n : DotDims S16x12800 S16x256 S12800x256 where
  lhsContracting := [0]
  rhsContracting := [0]
  lhsNonContracting := [1]
  rhsNonContracting := [1]
  lhsBatch := []
  rhsBatch := []
  wf := dot_S16x12800_S16x256_S12800x256_0_0_1_1_n_n_wf

abbrev win2_0 : Pipeline.Window sig grid2 :=
  Pipeline.Window.ofSpec (Memref.whole main_arg0) S400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S400x32x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S16x12800.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S16x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13_0) S1x256.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v13_1) S1x256.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_arg0) S400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S400x32x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S16x12800.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v1) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v2) S16x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v3) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v14_0) S1x256.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v14_1) S1x256.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_arg0) S400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S400x32x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S16x12800.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg3) S400x32.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v34) S128x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v36) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v38) S16x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v40) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v41_0) S400x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v41_1) S1x128.size cc4_transform_9 reads4_9 true true 1 stage4_9 sem4_9
    hrank4 hreads4_9 hinb4_9 nbuf4_9 (Memref.isWhole_whole _) hwx4_9 hstage4_9

abbrev win4_10 : Pipeline.Window sig grid4 :=
  Pipeline.Window.ofSpec (Memref.whole main_v41_2) S1x128.size cc4_transform_10 reads4_10 true true 1 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_arg0) S400x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S400x32x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S16x12800.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg3) S400x32.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v34) S128x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v36) S128x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v38) S16x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v40) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v42_0) S400x128.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v42_1) S1x128.size cc5_transform_9 reads5_9 true true 1 stage5_9 sem5_9
    hrank5 hreads5_9 hinb5_9 nbuf5_9 (Memref.isWhole_whole _) hwx5_9 hstage5_9

abbrev win5_10 : Pipeline.Window sig grid5 :=
  Pipeline.Window.ofSpec (Memref.whole main_v42_2) S1x128.size cc5_transform_10 reads5_10 true true 1 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_arg0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v43) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v58) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v61) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v62) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x32x16 : Shape := ⟨3, ![10000, 32, 16]⟩
abbrev S10000x32 : Shape := ⟨2, ![10000, 32]⟩
abbrev S272x256 : Shape := ⟨2, ![272, 256]⟩
abbrev S256 : Shape := ⟨1, ![256]⟩
abbrev S128 : Shape := ⟨1, ![128]⟩
abbrev S_ : Shape := ⟨0, ![]⟩
abbrev S10000x32x1 : Shape := ⟨3, ![10000, 32, 1]⟩
abbrev S1 : Shape := ⟨1, ![1]⟩
abbrev S1x1x1 : Shape := ⟨3, ![1, 1, 1]⟩
abbrev S10000x32x128 : Shape := ⟨3, ![10000, 32, 128]⟩
abbrev S10000x1x128 : Shape := ⟨3, ![10000, 1, 128]⟩
abbrev S10000x32x272 : Shape := ⟨3, ![10000, 32, 272]⟩
abbrev S10000x32x256 : Shape := ⟨3, ![10000, 32, 256]⟩
abbrev S1x1x256 : Shape := ⟨3, ![1, 1, 256]⟩
abbrev S320000x256 : Shape := ⟨2, ![320000, 256]⟩
abbrev S1x256 : Shape := ⟨2, ![1, 256]⟩
abbrev S1x128 : Shape := ⟨2, ![1, 128]⟩

abbrev nBuf : Space → Nat
  | .hbm => 178
  | .vmem => 0
  | .smem => 0
  | _ => 0

abbrev hbmTy0_0 (i : Nat) : BufTy := match i % 128 with
  | 0 => ⟨S10000x128, .f32⟩
  | 1 => ⟨S10000x32x16, .f32⟩
  | 2 => ⟨S10000x32, .i32⟩
  | 3 => ⟨S10000x32, .f32⟩
  | 4 => ⟨S272x256, .f32⟩
  | 5 => ⟨S256, .f32⟩
  | 6 => ⟨S256, .f32⟩
  | 7 => ⟨S256, .f32⟩
  | 8 => ⟨S128, .f32⟩
  | 9 => ⟨S128, .f32⟩
  | 10 => ⟨S_, .i32⟩
  | 11 => ⟨S10000x32, .i32⟩
  | 12 => ⟨S10000x32, .i1⟩
  | 13 => ⟨S_, .i32⟩
  | 14 => ⟨S10000x32, .i32⟩
  | 15 => ⟨S10000x32, .i32⟩
  | 16 => ⟨S10000x32, .i32⟩
  | 17 => ⟨S10000x32x1, .i32⟩
  | 18 => ⟨S1, .i32⟩
  | 19 => ⟨S_, .i32⟩
  | 20 => ⟨S10000x32x1, .i32⟩
  | 21 => ⟨S10000x32x1, .i1⟩
  | 22 => ⟨S1x1x1, .i32⟩
  | 23 => ⟨S10000x32x1, .i32⟩
  | 24 => ⟨S10000x32x1, .i1⟩
  | 25 => ⟨S10000x32x1, .i1⟩
  | 26 => ⟨S_, .i1⟩
  | 27 => ⟨S10000x32, .i1⟩
  | 28 => ⟨S10000x32x128, .f32⟩
  | 29 => ⟨S10000x32x128, .i1⟩
  | 30 => ⟨S_, .f32⟩
  | 31 => ⟨S10000x32x128, .f32⟩
  | 32 => ⟨S10000x32x128, .f32⟩
  | 33 => ⟨S10000x1x128, .f32⟩
  | 34 => ⟨S10000x32x128, .f32⟩
  | 35 => ⟨S10000x32x272, .f32⟩
  | 36 => ⟨S10000x32x256, .f32⟩
  | 37 => ⟨S1x1x256, .f32⟩
  | 38 => ⟨S10000x32x256, .f32⟩
  | 39 => ⟨S10000x32x256, .f32⟩
  | 40 => ⟨S320000x256, .f32⟩
  | 41 => ⟨S_, .f32⟩
  | 42 => ⟨S256, .f32⟩
  | 43 => ⟨S_, .f32⟩
  | 44 => ⟨S256, .f32⟩
  | 45 => ⟨S256, .f32⟩
  | 46 => ⟨S_, .i32⟩
  | 47 => ⟨S_, .f32⟩
  | 48 => ⟨S256, .f32⟩
  | 49 => ⟨S1x256, .f32⟩
  | 50 => ⟨S_, .f32⟩
  | 51 => ⟨S1x256, .f32⟩
  | 52 => ⟨S1x256, .f32⟩
  | 53 => ⟨S320000x256, .f32⟩
  | 54 => ⟨S320000x256, .f32⟩
  | 55 => ⟨S320000x256, .f32⟩
  | 56 => ⟨S_, .f32⟩
  | 57 => ⟨S_, .f32⟩
  | 58 => ⟨S_, .f32⟩
  | 59 => ⟨S_, .f32⟩
  | 60 => ⟨S256, .f32⟩
  | 61 => ⟨S256, .f32⟩
  | 62 => ⟨S256, .f32⟩
  | 63 => ⟨S_, .f32⟩
  | 64 => ⟨S_, .i1⟩
  | 65 => ⟨S_, .f32⟩
  | 66 => ⟨S_, .f32⟩
  | 67 => ⟨S256, .f32⟩
  | 68 => ⟨S256, .f32⟩
  | 69 => ⟨S1x256, .f32⟩
  | 70 => ⟨S320000x256, .f32⟩
  | 71 => ⟨S320000x256, .f32⟩
  | 72 => ⟨S_, .f32⟩
  | 73 => ⟨S256, .f32⟩
  | 74 => ⟨S256, .f32⟩
  | 75 => ⟨S256, .f32⟩
  | 76 => ⟨S1x256, .f32⟩
  | 77 => ⟨S320000x256, .f32⟩
  | 78 => ⟨S320000x256, .f32⟩
  | 79 => ⟨S1x256, .f32⟩
  | 80 => ⟨S320000x256, .f32⟩
  | 81 => ⟨S320000x256, .f32⟩
  | 82 => ⟨S1x256, .f32⟩
  | 83 => ⟨S320000x256, .f32⟩
  | 84 => ⟨S320000x256, .f32⟩
  | 85 => ⟨S10000x32x256, .f32⟩
  | 86 => ⟨S10000x32x128, .f32⟩
  | 87 => ⟨S10000x32x128, .f32⟩
  | 88 => ⟨S10000x32x128, .f32⟩
  | 89 => ⟨S10000x32x128, .f32⟩
  | 90 => ⟨S_, .f32⟩
  | 91 => ⟨S10000x32x128, .f32⟩
  | 92 => ⟨S10000x32x128, .f32⟩
  | 93 => ⟨S_, .f32⟩
  | 94 => ⟨S10000x32x128, .f32⟩
  | 95 => ⟨S10000x32x128, .f32⟩
  | 96 => ⟨S_, .f32⟩
  | 97 => ⟨S10000x32x128, .f32⟩
  | 98 => ⟨S10000x32x128, .f32⟩
  | 99 => ⟨S10000x32x128, .f32⟩
  | 100 => ⟨S10000x32x128, .f32⟩
  | 101 => ⟨S10000x32x128, .i1⟩
  | 102 => ⟨S10000x32x128, .f32⟩
  | 103 => ⟨S10000x32x128, .f32⟩
  | 104 => ⟨S10000x32x128, .f32⟩
  | 105 => ⟨S10000x32x128, .f32⟩
  | 106 => ⟨S10000x32x128, .f32⟩
  | 107 => ⟨S10000x32x128, .f32⟩
  | 108 => ⟨S10000x32x128, .f32⟩
  | 109 => ⟨S10000x32x128, .f32⟩
  | 110 => ⟨S10000x32x1, .f32⟩
  | 111 => ⟨S10000x32x128, .f32⟩
  | 112 => ⟨S10000x32x128, .f32⟩
  | 113 => ⟨S10000x32x1, .f32⟩
  | 114 => ⟨S10000x32x128, .f32⟩
  | 115 => ⟨S10000x32x128, .f32⟩
  | 116 => ⟨S10000x32x128, .f32⟩
  | 117 => ⟨S_, .f32⟩
  | 118 => ⟨S10000x128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S10000x128, .f32⟩

abbrev hbmTy0_1 (i : Nat) : BufTy := match i % 128 with
  | 0 => ⟨S_, .f32⟩
  | 1 => ⟨S1x128, .f32⟩
  | 2 => ⟨S1x128, .f32⟩
  | 3 => ⟨S10000x128, .f32⟩
  | 4 => ⟨S10000x128, .f32⟩
  | 5 => ⟨S10000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S10000x128, .f32⟩
  | 21 => ⟨S10000x128, .f32⟩
  | 22 => ⟨S_, .f32⟩
  | 23 => ⟨S128, .f32⟩
  | 24 => ⟨S128, .f32⟩
  | 25 => ⟨S128, .f32⟩
  | 26 => ⟨S1x128, .f32⟩
  | 27 => ⟨S10000x128, .f32⟩
  | 28 => ⟨S10000x128, .f32⟩
  | 29 => ⟨S1x128, .f32⟩
  | 30 => ⟨S10000x128, .f32⟩
  | 31 => ⟨S10000x128, .f32⟩
  | 32 => ⟨S1x128, .f32⟩
  | 33 => ⟨S10000x128, .f32⟩
  | 34 => ⟨S10000x128, .f32⟩
  | 35 => ⟨S10000x128, .f32⟩
  | 36 => ⟨S_, .f32⟩
  | 37 => ⟨S10000x128, .f32⟩
  | 38 => ⟨S10000x128, .f32⟩
  | 39 => ⟨S10000x128, .f32⟩
  | 40 => ⟨S10000x128, .f32⟩
  | 41 => ⟨S10000x128, .i1⟩
  | 42 => ⟨S10000x128, .f32⟩
  | 43 => ⟨S10000x128, .f32⟩
  | 44 => ⟨S10000x128, .f32⟩
  | 45 => ⟨S10000x128, .f32⟩
  | 46 => ⟨S10000x128, .f32⟩
  | 47 => ⟨S10000x128, .f32⟩
  | 48 => ⟨S10000x128, .f32⟩
  | 49 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst : Ref sig .tc := ⟨.hbm, 41, rfl⟩
abbrev main_v9 : Ref sig .tc := ⟨.hbm, 42, rfl⟩
abbrev main_cst_0 : Ref sig .tc := ⟨.hbm, 43, rfl⟩
abbrev main_v10 : Ref sig .tc := ⟨.hbm, 44, rfl⟩
abbrev main_v11 : Ref sig .tc := ⟨.hbm, 45, rfl⟩
abbrev main_c : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_cst_1 : Ref sig .tc := ⟨.hbm, 57, rfl⟩
abbrev main_call1_v8 : Ref sig .tc := ⟨.hbm, 58, rfl⟩
abbrev main_call1_cst_2 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_cst_3 : Ref sig .tc := ⟨.hbm, 63, rfl⟩
abbrev main_call1_v12 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_cst_1 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_2 : Ref sig .tc := ⟨.hbm, 90, rfl⟩
abbrev main_v33 : Ref sig .tc := ⟨.hbm, 91, rfl⟩
abbrev main_v34 : Ref sig .tc := ⟨.hbm, 92, rfl⟩
abbrev main_cst_3 : Ref sig .tc := ⟨.hbm, 93, rfl⟩
abbrev main_v35 : Ref sig .tc := ⟨.hbm, 94, rfl⟩
abbrev main_v36 : Ref sig .tc := ⟨.hbm, 95, rfl⟩
abbrev main_cst_4 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_cst_5 : Ref sig .tc := ⟨.hbm, 117, rfl⟩
abbrev main_v57 : Ref sig .tc := ⟨.hbm, 118, rfl⟩
abbrev main_cst_6 : Ref sig .tc := ⟨.hbm, 119, rfl⟩
abbrev main_v58 : Ref sig .tc := ⟨.hbm, 120, rfl⟩
abbrev main_cst_7 : Ref sig .tc := ⟨.hbm, 121, rfl⟩
abbrev main_v59 : Ref sig .tc := ⟨.hbm, 122, rfl⟩
abbrev main_v60 : Ref sig .tc := ⟨.hbm, 123, rfl⟩
abbrev main_c_8 : Ref sig .tc := ⟨.hbm, 124, rfl⟩
abbrev main_call2_cst : Ref sig .tc := ⟨.hbm, 125, rfl⟩
abbrev main_call2_v0 : Ref sig .tc := ⟨.hbm, 126, rfl⟩
abbrev main_call2_v1 : Ref sig .tc := ⟨.hbm, 127, rfl⟩
abbrev main_call2_cst_0 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_v7 : Ref sig .tc := ⟨.hbm, 134, rfl⟩
abbrev main_call2_cst_1 : Ref sig .tc := ⟨.hbm, 135, rfl⟩
abbrev main_call2_v8 : Ref sig .tc := ⟨.hbm, 136, rfl⟩
abbrev main_call2_cst_2 : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_call2_cst_3 : Ref sig .tc := ⟨.hbm, 141, rfl⟩
abbrev main_call2_v12 : Ref sig .tc := ⟨.hbm, 142, rfl⟩
abbrev main_call2_cst_4 : Ref sig .tc := ⟨.hbm, 143, rfl⟩
abbrev main_call2_call0_v0 : Ref sig .tc := ⟨.hbm, 144, rfl⟩
abbrev main_call2_call0_v1 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_cst_9 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_cst_10 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  bcast_S_S10000x32x1 : S_.BroadcastsInDim S10000x32x1 (![] : Fin 0 → Fin S10000x32x1.rank)
  bcast_S1_S1x1x1_2 : S1.BroadcastsInDim S1x1x1 (![2] : Fin 1 → Fin S1x1x1.rank)
  bcast_S1x1x1_S10000x32x1_0_1_2 : S1x1x1.BroadcastsInDim S10000x32x1 (![0, 1, 2] : Fin 3 → Fin S10000x32x1.rank)
  reducesTo_S10000x32x1_S10000x32_d2 : S10000x32x1.ReducesTo [2] S10000x32
  h_S_ : 0 < S_.numel
  bcast_S10000x32_S10000x32x128_0_1 : S10000x32.BroadcastsInDim S10000x32x128 (![0, 1] : Fin 2 → Fin S10000x32x128.rank)
  bcast_S_S10000x32x128 : S_.BroadcastsInDim S10000x32x128 (![] : Fin 0 → Fin S10000x32x128.rank)
  bcast_S10000x128_S10000x1x128_0_2 : S10000x128.BroadcastsInDim S10000x1x128 (![0, 2] : Fin 2 → Fin S10000x1x128.rank)
  bcast_S10000x1x128_S10000x32x128_0_1_2 : S10000x1x128.BroadcastsInDim S10000x32x128 (![0, 1, 2] : Fin 3 → Fin S10000x32x128.rank)
  concatenates_S10000x32x128_S10000x32x128_S10000x32x16_S10000x32x272_d2 : Shape.Concatenates [S10000x32x128, S10000x32x128, S10000x32x16] S10000x32x272 2
  bcast_S256_S1x1x256_2 : S256.BroadcastsInDim S1x1x256 (![2] : Fin 1 → Fin S1x1x256.rank)
  bcast_S1x1x256_S10000x32x256_0_1_2 : S1x1x256.BroadcastsInDim S10000x32x256 (![0, 1, 2] : Fin 3 → Fin S10000x32x256.rank)
  shapeCasts_S10000x32x256_S320000x256 : S10000x32x256.ShapeCasts S320000x256
  reducesTo_S320000x256_S256_d0 : S320000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S320000x256_0_1 : S1x256.BroadcastsInDim S320000x256 (![0, 1] : Fin 2 → Fin S320000x256.rank)
  shapeCasts_S320000x256_S10000x32x256 : S320000x256.ShapeCasts S10000x32x256
  slices_S10000x32x256_S10000x32x128_0_0_0 : S10000x32x256.Slices ![0, 0, 0] S10000x32x128
  slices_S10000x32x256_S10000x32x128_0_0_128 : S10000x32x256.Slices ![0, 0, 128] S10000x32x128
  bcast_S10000x32x1_S10000x32x128_0_1_2 : S10000x32x1.BroadcastsInDim S10000x32x128 (![0, 1, 2] : Fin 3 → Fin S10000x32x128.rank)
  reducesTo_S10000x32x128_S10000x128_d1 : S10000x32x128.ReducesTo [1] S10000x128
  reducesTo_S10000x128_S128_d0 : S10000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  gather_S10000x128_S10000x32x1_S10000x32x128_2_0_n_n_0_2_1128_wf : GatherDims.WF S10000x128 S10000x32x1 S10000x32x128 [2] [0] [] [0] [] 2 ![1, 128]
  dot_S10000x32x272_S272x256_S10000x32x256_2_0_01_1_n_n_wf : DotDims.WF S10000x32x272 S272x256 S10000x32x256 [2] [0] [0, 1] [1] [] []

variable [Facts₀]

def gather_S10000x128_S10000x32x1_S10000x32x128_2_0_n_n_0_2_1128 : GatherDims S10000x128 S10000x32x1 S10000x32x128 where
  offsetDims := [2]
  collapsedSliceDims := [0]
  operandBatchingDims := []
  startIndicesBatchingDims := []
  startIndexMap := [0]
  indexVectorDim := 2
  sliceSizes := ![1, 128]
  wf := gather_S10000x128_S10000x32x1_S10000x32x128_2_0_n_n_0_2_1128_wf
def dot_S10000x32x272_S272x256_S10000x32x256_2_0_01_1_n_n : DotDims S10000x32x272 S272x256 S10000x32x256 where
  lhsContracting := [2]
  rhsContracting := [0]
  lhsNonContracting := [0, 1]
  rhsNonContracting := [1]
  lhsBatch := []
  rhsBatch := []
  wf := dot_S10000x32x272_S272x256_S10000x32x256_2_0_01_1_n_n_wf

class Facts : Prop extends Facts₀ where

variable [Facts]
-- ==== Proof.KI.Setup.lean ====
import proofs.«202994_g19078244729258_cont_8to1_1405_21_alg».proof.Defs
import proofs.«202994_g19078244729258_cont_8to1_1405_21_alg».proof.Proof.Gen.KernelIdeal
import proofs.«202994_g19078244729258_cont_8to1_1405_21_alg».proof.Proof.Gen.KernelIdeal.Skeleton
import proofs.«202994_g19078244729258_cont_8to1_1405_21_alg».proof.Proof.Gen.KernelIdeal.Launch
import proofs.«202994_g19078244729258_cont_8to1_1405_21_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 5) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 2) : (K (F := F)).nCore q = 2 := by fin_cases q <;> rfl
theorem nSub_eq (q : Fin 2) : (K (F := F)).nSub q = 16 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := URounds (GSem nD τ sig) Unit

abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP : Emb UP 𝕄).LandsIn (upEmb : UEmb _ 𝕄) := by unfold EP; infer_instance

end Cert.Proof.KI

end
-- ==== Proof.KI.Pay.lean ====
import proofs.«202994_g19078244729258_cont_8to1_1405_21_alg».proof.Proof.KI.Setup
import Idealize.ShloMosaic.Lib.ValueIdx
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type}

local notation "𝕄" => MT nD τ sig (HIx 2) (Elt F) ℕ UU ℕ

abbrev tabLoc (d : Dev nD) : Loc nD τ sig := (SparseCore.T d).loc main_arg0
abbrev idxLoc0 (d : Dev nD) : Loc nD τ sig := (SparseCore.T d).loc main_v5
abbrev outLoc0 (d : Dev nD) : Loc nD τ sig := (SparseCore.T d).loc main_v6
abbrev idxLoc1 (d : Dev nD) : Loc nD τ sig := (SparseCore.T d).loc main_v7
abbrev outLoc1 (d : Dev nD) : Loc nD τ sig := (SparseCore.T d).loc main_v8

theorem hdivI0 : 32 ∣ S153600.size 0 := ⟨4800, rfl⟩
theorem hdivO0 : 32 ∣ S153600x128.size 0 := ⟨4800, rfl⟩
theorem hdivI1 : 32 ∣ S166400.size 0 := ⟨5200, rfl⟩
theorem hdivO1 : 32 ∣ S166400x128.size 0 := ⟨5200, rfl⟩

def tileNo (c : Fin 2) (s : Fin 16) : Fin 32 := ⟨s.val * 2 + c.val, by omega⟩

abbrev idxPart0 (w : Fin 32) : Rect S153600 := Rect.part (s := S153600) (a₀ := 0) hdivI0 w
abbrev outPart0 (w : Fin 32) : Rect S153600x128 := Rect.part (s := S153600x128) (a₀ := 0) hdivO0 w
abbrev idxPart1 (w : Fin 32) : Rect S166400 := Rect.part (s := S166400) (a₀ := 0) hdivI1 w
abbrev outPart1 (w : Fin 32) : Rect S166400x128 := Rect.part (s := S166400x128) (a₀ := 0) hdivO1 w

abbrev idxSet0 (w : Fin 32) : Finset S153600.Idx := ((Memref.whole main_v5_scv : Memref sig .scVector .hbm S153600 .i32).view.slice (idxPart0 w)).set
abbrev outSet0 (w : Fin 32) : Finset S153600x128.Idx := ((Memref.whole main_v6_scv : Memref sig .scVector .hbm S153600x128 .f32).view.slice (outPart0 w)).set
abbrev idxSet1 (w : Fin 32) : Finset S166400.Idx := ((Memref.whole main_v7_scv : Memref sig .scVector .hbm S166400 .i32).view.slice (idxPart1 w)).set
abbrev outSet1 (w : Fin 32) : Finset S166400x128.Idx := ((Memref.whole main_v8_scv : Memref sig .scVector .hbm S166400x128 .f32).view.slice (outPart1 w)).set

def gathered0 (tab : S10000x128.Idx → Elt F .f32) (ix : S153600.Idx → Elt F .i32) : S153600x128.Idx → Elt F .f32 :=
  fun j => tab (ValueIdx.ix2 (⟨(ix (ValueIdx.ix1 (j 0))).toNat % 10000, Nat.mod_lt _ (by decide)⟩ : Fin 10000) (j 1))
def gathered1 (tab : S10000x128.Idx → Elt F .f32) (ix : S166400.Idx → Elt F .i32) : S166400x128.Idx → Elt F .f32 :=
  fun j => tab (ValueIdx.ix2 (⟨(ix (ValueIdx.ix1 (j 0))).toNat % 10000, Nat.mod_lt _ (by decide)⟩ : Fin 10000) (j 1))

variable (m : (ℓ : Loc nD τ sig) → Buf (Elt F) ℓ)

abbrev tabShare (d : Dev nD) (w : Fin 32) : sProp 𝕄 := tabLoc d ↦{shareTok fullShare 32 w} m (tabLoc d)

def go0 (I0 : (d : Dev nD) → Buf (Elt F) (idxLoc0 d)) (d : Dev nD) (w : Fin 32) : sProp 𝕄 :=
  iprop(tabShare m d w ∗ (idxLoc0 d ↦[idxSet0 w]{fullShare} I0 d) ∗ ∃ f, outLoc0 d ↦[outSet0 w]{fullShare} f)

def td0 (I0 : (d : Dev nD) → Buf (Elt F) (idxLoc0 d)) (d : Dev nD) (w : Fin 32) : sProp 𝕄 :=
  iprop(tabShare m d w ∗ (idxLoc0 d ↦[idxSet0 w]{fullShare} I0 d) ∗ outLoc0 d ↦[outSet0 w]{fullShare} gathered0 (m (tabLoc d)) (I0 d))
def go1 (I1 : (d : Dev nD) → Buf (Elt F) (idxLoc1 d)) (d : Dev nD) (w : Fin 32) : sProp 𝕄 :=
  iprop(tabShare m d w ∗ (idxLoc1 d ↦[idxSet1 w]{fullShare} I1 d) ∗ ∃ f, outLoc1 d ↦[outSet1 w]{fullShare} f)
def td1 (I1 : (d : Dev nD) → Buf (Elt F) (idxLoc1 d)) (d : Dev nD) (w : Fin 32) : sProp 𝕄 :=
  iprop(tabShare m d w ∗ (idxLoc1 d ↦[idxSet1 w]{fullShare} I1 d) ∗ outLoc1 d ↦[outSet1 w]{fullShare} gathered1 (m (tabLoc d)) (I1 d))

def P (I0 : (d : Dev nD) → Buf (Elt F) (idxLoc0 d)) (I1 : (d : Dev nD) → Buf (Elt F) (idxLoc1 d)) :
    (K (F := F)).Pay (nD := nD) (Val := Elt F) (Name := ℕ) (U := UU) where
  st := fun q d c => match q with
    | 0 => bigSep Finset.univ fun s : Fin 16 => go0 m I0 d (tileNo (Fin.cast (nCore_eq 0) c) s)
    | 1 => bigSep Finset.univ fun s : Fin 16 => go1 m I1 d (tileNo (Fin.cast (nCore_eq 1) c) s)
  dn := fun q d c => match q with
    | 0 => bigSep Finset.univ fun s : Fin 16 => td0 m I0 d (tileNo (Fin.cast (nCore_eq 0) c) s)
    | 1 => bigSep Finset.univ fun s : Fin 16 => td1 m I1 d (tileNo (Fin.cast (nCore_eq 1) c) s)
  go := fun q d c i => match q with
    | 0 => go0 m I0 d (tileNo (Fin.cast (nCore_eq 0) c) (Fin.cast (nSub_eq 0) i))
    | 1 => go1 m I1 d (tileNo (Fin.cast (nCore_eq 1) c) (Fin.cast (nSub_eq 1) i))
  td := fun q d c i => match q with
    | 0 => td0 m I0 d (tileNo (Fin.cast (nCore_eq 0) c) (Fin.cast (nSub_eq 0) i))
    | 1 => td1 m I1 d (tileNo (Fin.cast (nCore_eq 1) c) (Fin.cast (nSub_eq 1) i))
  x := fun _ _ => iprop(emp)

end Cert.Proof.KI

end
-- ==== Proof.KI.HostOps.lean ====
import proofs.«202994_g19078244729258_cont_8to1_1405_21_alg».proof.KernelIdeal
import proofs.«202994_g19078244729258_cont_8to1_1405_21_alg».proof.Proof.Gen.KernelIdeal

noncomputable section

namespace Cert.Proof.KI

open Cert.KernelIdeal Cert.KernelIdeal.Facts₀ Cert.KernelIdeal.Facts Idealize.ShloMosaic

variable {F : FTy → Type} [FloatOps F]

/-- %0 = stablehlo.slice %arg4 [0:128, 0:256] : (tensor<272x256xf32>) -> tensor<128x256xf32>  @ kernel:219 -/
abbrev hop0 : HloOp τ sig (Elt F) := StableHlo.unary main_arg4 main_v0 ((extractStridedSlice S128x256 ![0, 0] · slices_S272x256_S128x256_0_0) : (⟨S272x256, .f32⟩ : BufTy).Contents (Elt F) → (⟨S128x256, .f32⟩ : BufTy).Contents (Elt F))
/-- %1 = stablehlo.slice %arg4 [128:256, 0:256] : (tensor<272x256xf32>) -> tensor<128x256xf32>  @ kernel:220 -/
abbrev hop1 : HloOp τ sig (Elt F) := StableHlo.unary main_arg4 main_v1 ((extractStridedSlice S128x256 ![128, 0] · slices_S272x256_S128x256_128_0) : (⟨S272x256, .f32⟩ : BufTy).Contents (Elt F) → (⟨S128x256, .f32⟩ : BufTy).Contents (Elt F))
/-- %2 = stablehlo.slice %arg4 [256:272, 0:256] : (tensor<272x256xf32>) -> tensor<16x256xf32>  @ kernel:221 -/
abbrev hop2 : HloOp τ sig (Elt F) := StableHlo.unary main_arg4 main_v2 ((extractStridedSlice S16x256 ![256, 0] · slices_S272x256_S16x256_256_0) : (⟨S272x256, .f32⟩ : BufTy).Contents (Elt F) → (⟨S16x256, .f32⟩ : BufTy).Contents (Elt F))
/-- %3 = stablehlo.broadcast_in_dim %arg5, dims = [1] : (tensor<256xf32>) -> tensor<1x256xf32>  @ kernel:222 -/
abbrev hop3 : HloOp τ sig (Elt F) := StableHlo.unary main_arg5 main_v3 (broadcastInDim S1x256 ![1] bcast_S256_S1x256_1 : (⟨S256, .f32⟩ : BufTy).Contents (Elt F) → (⟨S1x256, .f32⟩ : BufTy).Contents (Elt F))
/-- %4 = stablehlo.reshape %arg2 : (tensor<10000x32xi32>) -> tensor<320000xi32>  @ kernel:224 -/
abbrev hop4 : HloOp τ sig (Elt F) := StableHlo.reshape main_arg2 main_v4 rfl shapeCasts_S10000x32_S320000
/-- %5 = stablehlo.slice %4 [0:153600] : (tensor<320000xi32>) -> tensor<153600xi32>  @ kernel:226 -/
abbrev hop5 : HloOp τ sig (Elt F) := StableHlo.unary main_v4 main_v5 ((extractStridedSlice S153600 ![0] · slices_S320000_S153600_0) : (⟨S320000, .i32⟩ : BufTy).Contents (Elt F) → (⟨S153600, .i32⟩ : BufTy).Contents (Elt F))
/-- %7 = stablehlo.slice %4 [153600:320000] : (tensor<320000xi32>) -> tensor<166400xi32>  @ kernel:227 -/
abbrev hop6 : HloOp τ sig (Elt F) := StableHlo.unary main_v4 main_v7 ((extractStridedSlice S166400 ![153600] · slices_S320000_S166400_153600) : (⟨S320000, .i32⟩ : BufTy).Contents (Elt F) → (⟨S166400, .i32⟩ : BufTy).Contents (Elt F))
/-- %9 = stablehlo.reshape %6 : (tensor<153600x128xf32>) -> tensor<4800x32x128xf32>  @ kernel:228 -/
abbrev hop7 : HloOp τ sig (Elt F) := StableHlo.reshape main_v6 main_v9 rfl shapeCasts_S153600x128_S4800x32x128
/-- %10 = stablehlo.reshape %8 : (tensor<166400x128xf32>) -> tensor<5200x32x128xf32>  @ kernel:229 -/
abbrev hop8 : HloOp τ sig (Elt F) := StableHlo.reshape main_v8 main_v10 rfl shapeCasts_S166400x128_S5200x32x128
/-- %11 = stablehlo.reshape %arg1 : (tensor<10000x32x16xf32>) -> tensor<320000x16xf32>  @ kernel:231 -/
abbrev hop9 : HloOp τ sig (Elt F) := StableHlo.reshape main_arg1 main_v11 rfl shapeCasts_S10000x32x16_S320000x16
/-- %12 = stablehlo.transpose %11, dims = [1, 0] : (tensor<320000x16xf32>) -> tensor<16x320000xf32>  @ kernel:231 -/
abbrev hop10 : HloOp τ sig (Elt F) := StableHlo.unary main_v11 main_v12 ((transpose S16x320000 [1, 0] · transposes_S320000x16_S16x320000_1_0) : (⟨S320000x16, .f32⟩ : BufTy).Contents (Elt F) → (⟨S16x320000, .f32⟩ : BufTy).Contents (Elt F))
/-- %15 = stablehlo.add %13#0, %14#0 : tensor<1x256xf32>  @ kernel:237 -/
abbrev hop11 : HloOp τ sig (Elt F) := StableHlo.binary main_v13_0 main_v14_0 main_v15 (addf : (⟨S1x256, .f32⟩ : BufTy).Contents (Elt F) → (⟨S1x256, .f32⟩ : BufTy).Contents (Elt F) → (⟨S1x256, .f32⟩ : BufTy).Contents (Elt F))
/-- %16 = stablehlo.add %13#1, %14#1 : tensor<1x256xf32>  @ kernel:238 -/
abbrev hop12 : HloOp τ sig (Elt F) := StableHlo.binary main_v13_1 main_v14_1 main_v16 (addf : (⟨S1x256, .f32⟩ : BufTy).Contents (Elt F) → (⟨S1x256, .f32⟩ : BufTy).Contents (Elt F) → (⟨S1x256, .f32⟩ : BufTy).Contents (Elt F))
/-- %cst = stablehlo.constant dense<3.200000e+05> : tensor<f32> -/
abbrev hop13 : HloOp τ sig (Elt F) := StableHlo.nullary main_cst (constant S_ .f32 0x489C4000#32)
/-- %17 = stablehlo.broadcast_in_dim %cst, dims = [] : (tensor<f32>) -> tensor<1x256xf32>  @ kernel:240 -/
abbrev hop14 : HloOp τ sig (Elt F) := StableHlo.unary main_cst main_v17 (broadcastInDim S1x256 ![] bcast_S_S1x256 : (⟨S_, .f32⟩ : BufTy).Contents (Elt F) → (⟨S1x256, .f32⟩ : BufTy).Contents (Elt F))
/-- %18 = stablehlo.divide %15, %17 : tensor<1x256xf32>  @ kernel:240 -/
abbrev hop15 : HloOp τ sig (Elt F) := StableHlo.binary main_v15 main_v17 main_v18 (Host.divf : (⟨S1x256, .f32⟩ : BufTy).Contents (Elt F) → (⟨S1x256, .f32⟩ : BufTy).Contents (Elt F) → (⟨S1x256, .f32⟩ : BufTy).Contents (Elt F))
/-- %cst_0 = stablehlo.constant dense<3.200000e+05> : tensor<f32> -/
abbrev hop16 : HloOp τ sig (Elt F) := StableHlo.nullary main_cst_0 (constant S_ .f32 0x489C4000#32)
/-- %19 = stablehlo.broadcast_in_dim %cst_0, dims = [] : (tensor<f32>) -> tensor<1x256xf32>  @ kernel:241 -/
abbrev hop17 : HloOp τ sig (Elt F) := StableHlo.unary main_cst_0 main_v19 (broadcastInDim S1x256 ![] bcast_S_S1x256 : (⟨S_, .f32⟩ : BufTy).Contents (Elt F) → (⟨S1x256, .f32⟩ : BufTy).Contents (Elt F))
/-- %20 = stablehlo.divide %16, %19 : tensor<1x256xf32>  @ kernel:241 -/
abbrev hop18 : HloOp τ sig (Elt F) := StableHlo.binary main_v16 main_v19 main_v20 (Host.divf : (⟨S1x256, .f32⟩ : BufTy).Contents (Elt F) → (⟨S1x256, .f32⟩ : BufTy).Contents (Elt F) → (⟨S1x256, .f32⟩ : BufTy).Contents (Elt F))
/-- %21 = stablehlo.multiply %18, %18 : tensor<1x256xf32>  @ kernel:241 -/
abbrev hop19 : HloOp τ sig (Elt F) := StableHlo.binary main_v18 main_v18 main_v21 (mulf : (⟨S1x256, .f32⟩ : BufTy).Contents (Elt F) → (⟨S1x256, .f32⟩ : BufTy).Contents (Elt F) → (⟨S1x256, .f32⟩ : BufTy).Contents (Elt F))
/-- %22 = stablehlo.subtract %20, %21 : tensor<1x256xf32>  @ kernel:241 -/
abbrev hop20 : HloOp τ sig (Elt F) := StableHlo.binary main_v20 main_v21 main_v22 (subf : (⟨S1x256, .f32⟩ : BufTy).Contents (Elt F) → (⟨S1x256, .f32⟩ : BufTy).Contents (Elt F) → (⟨S1x256, .f32⟩ : BufTy).Contents (Elt F))
/-- %cst_1 = stablehlo.constant dense<0.000000e+00> : tensor<f32> -/
abbrev hop21 : HloOp τ sig (Elt F) := StableHlo.nullary main_cst_1 (constant S_ .f32 0x00000000#32)
/-- %23 = stablehlo.broadcast_in_dim %cst_1, dims = [] : (tensor<f32>) -> tensor<1x256xf32>  @ kernel:241 -/
abbrev hop22 : HloOp τ sig (Elt F) := StableHlo.unary main_cst_1 main_v23 (broadcastInDim S1x256 ![] bcast_S_S1x256 : (⟨S_, .f32⟩ : BufTy).Contents (Elt F) → (⟨S1x256, .f32⟩ : BufTy).Contents (Elt F))
/-- %24 = stablehlo.maximum %22, %23 : tensor<1x256xf32>  @ kernel:241 -/
abbrev hop23 : HloOp τ sig (Elt F) := StableHlo.binary main_v22 main_v23 main_v24 (maximumf : (⟨S1x256, .f32⟩ : BufTy).Contents (Elt F) → (⟨S1x256, .f32⟩ : BufTy).Contents (Elt F) → (⟨S1x256, .f32⟩ : BufTy).Contents (Elt F))
/-- %25 = stablehlo.broadcast_in_dim %arg6, dims = [1] : (tensor<256xf32>) -> tensor<1x256xf32>  @ kernel:242 -/
abbrev hop24 : HloOp τ sig (Elt F) := StableHlo.unary main_arg6 main_v25 (broadcastInDim S1x256 ![1] bcast_S256_S1x256_1 : (⟨S256, .f32⟩ : BufTy).Contents (Elt F) → (⟨S1x256, .f32⟩ : BufTy).Contents (Elt F))
/-- %cst_2 = stablehlo.constant dense<9.99999974E-6> : tensor<f32> -/
abbrev hop25 : HloOp τ sig (Elt F) := StableHlo.nullary main_cst_2 (constant S_ .f32 0x3727C5AC#32)
/-- %26 = stablehlo.broadcast_in_dim %cst_2, dims = [] : (tensor<f32>) -> tensor<1x256xf32>  @ kernel:242 -/
abbrev hop26 : HloOp τ sig (Elt F) := StableHlo.unary main_cst_2 main_v26 (broadcastInDim S1x256 ![] bcast_S_S1x256 : (⟨S_, .f32⟩ : BufTy).Contents (Elt F) → (⟨S1x256, .f32⟩ : BufTy).Contents (Elt F))
/-- %27 = stablehlo.add %24, %26 : tensor<1x256xf32>  @ kernel:242 -/
abbrev hop27 : HloOp τ sig (Elt F) := StableHlo.binary main_v24 main_v26 main_v27 (addf : (⟨S1x256, .f32⟩ : BufTy).Contents (Elt F) → (⟨S1x256, .f32⟩ : BufTy).Contents (Elt F) → (⟨S1x256, .f32⟩ : BufTy).Contents (Elt F))
/-- %28 = stablehlo.rsqrt %27 : tensor<1x256xf32>  @ kernel:242 -/
abbrev hop28 : HloOp τ sig (Elt F) := StableHlo.unary main_v27 main_v28 (Host.rsqrt : (⟨S1x256, .f32⟩ : BufTy).Contents (Elt F) → (⟨S1x256, .f32⟩ : BufTy).Contents (Elt F))
/-- %29 = stablehlo.multiply %25, %28 : tensor<1x256xf32>  @ kernel:242 -/
abbrev hop29 : HloOp τ sig (Elt F) := StableHlo.binary main_v25 main_v28 main_v29 (mulf : (⟨S1x256, .f32⟩ : BufTy).Contents (Elt F) → (⟨S1x256, .f32⟩ : BufTy).Contents (Elt F) → (⟨S1x256, .f32⟩ : BufTy).Contents (Elt F))
/-- %30 = stablehlo.broadcast_in_dim %arg7, dims = [1] : (tensor<256xf32>) -> tensor<1x256xf32>  @ kernel:243 -/
abbrev hop30 : HloOp τ sig (Elt F) := StableHlo.unary main_arg7 main_v30 (broadcastInDim S1x256 ![1] bcast_S256_S1x256_1 : (⟨S256, .f32⟩ : BufTy).Contents (Elt F) → (⟨S1x256, .f32⟩ : BufTy).Contents (Elt F))
/-- %31 = stablehlo.multiply %18, %29 : tensor<1x256xf32>  @ kernel:243 -/
abbrev hop31 : HloOp τ sig (Elt F) := StableHlo.binary main_v18 main_v29 main_v31 (mulf : (⟨S1x256, .f32⟩ : BufTy).Contents (Elt F) → (⟨S1x256, .f32⟩ : BufTy).Contents (Elt F) → (⟨S1x256, .f32⟩ : BufTy).Contents (Elt F))
/-- %32 = stablehlo.subtract %30, %31 : tensor<1x256xf32>  @ kernel:243 -/
abbrev hop32 : HloOp τ sig (Elt F) := StableHlo.binary main_v30 main_v31 main_v32 (subf : (⟨S1x256, .f32⟩ : BufTy).Contents (Elt F) → (⟨S1x256, .f32⟩ : BufTy).Contents (Elt F) → (⟨S1x256, .f32⟩ : BufTy).Contents (Elt F))
/-- %33 = stablehlo.broadcast_in_dim %29, dims = [0, 1] : (tensor<1x256xf32>) -> tensor<128x256xf32>  @ kernel:245 -/
abbrev hop33 : HloOp τ sig (Elt F) := StableHlo.unary main_v29 main_v33 (broadcastInDim S128x256 ![0, 1] bcast_S1x256_S128x256_0_1 : (⟨S1x256, .f32⟩ : BufTy).Contents (Elt F) → (⟨S128x256, .f32⟩ : BufTy).Contents (Elt F))
/-- %34 = stablehlo.multiply %0, %33 : tensor<128x256xf32>  @ kernel:245 -/
abbrev hop34 : HloOp τ sig (Elt F) := StableHlo.binary main_v0 main_v33 main_v34 (mulf : (⟨S128x256, .f32⟩ : BufTy).Contents (Elt F) → (⟨S128x256, .f32⟩ : BufTy).Contents (Elt F) → (⟨S128x256, .f32⟩ : BufTy).Contents (Elt F))
/-- %35 = stablehlo.broadcast_in_dim %29, dims = [0, 1] : (tensor<1x256xf32>) -> tensor<128x256xf32>  @ kernel:246 -/
abbrev hop35 : HloOp τ sig (Elt F) := StableHlo.unary main_v29 main_v35 (broadcastInDim S128x256 ![0, 1] bcast_S1x256_S128x256_0_1 : (⟨S1x256, .f32⟩ : BufTy).Contents (Elt F) → (⟨S128x256, .f32⟩ : BufTy).Contents (Elt F))
/-- %36 = stablehlo.multiply %1, %35 : tensor<128x256xf32>  @ kernel:246 -/
abbrev hop36 : HloOp τ sig (Elt F) := StableHlo.binary main_v1 main_v35 main_v36 (mulf : (⟨S128x256, .f32⟩ : BufTy).Contents (Elt F) → (⟨S128x256, .f32⟩ : BufTy).Contents (Elt F) → (⟨S128x256, .f32⟩ : BufTy).Contents (Elt F))
/-- %37 = stablehlo.broadcast_in_dim %29, dims = [0, 1] : (tensor<1x256xf32>) -> tensor<16x256xf32>  @ kernel:247 -/
abbrev hop37 : HloOp τ sig (Elt F) := StableHlo.unary main_v29 main_v37 (broadcastInDim S16x256 ![0, 1] bcast_S1x256_S16x256_0_1 : (⟨S1x256, .f32⟩ : BufTy).Contents (Elt F) → (⟨S16x256, .f32⟩ : BufTy).Contents (Elt F))
/-- %38 = stablehlo.multiply %2, %37 : tensor<16x256xf32>  @ kernel:247 -/
abbrev hop38 : HloOp τ sig (Elt F) := StableHlo.binary main_v2 main_v37 main_v38 (mulf : (⟨S16x256, .f32⟩ : BufTy).Contents (Elt F) → (⟨S16x256, .f32⟩ : BufTy).Contents (Elt F) → (⟨S16x256, .f32⟩ : BufTy).Contents (Elt F))
/-- %39 = stablehlo.multiply %3, %29 : tensor<1x256xf32>  @ kernel:248 -/
abbrev hop39 : HloOp τ sig (Elt F) := StableHlo.binary main_v3 main_v29 main_v39 (mulf : (⟨S1x256, .f32⟩ : BufTy).Contents (Elt F) → (⟨S1x256, .f32⟩ : BufTy).Contents (Elt F) → (⟨S1x256, .f32⟩ : BufTy).Contents (Elt F))
/-- %40 = stablehlo.add %39, %32 : tensor<1x256xf32>  @ kernel:248 -/
abbrev hop40 : HloOp τ sig (Elt F) := StableHlo.binary main_v39 main_v32 main_v40 (addf : (⟨S1x256, .f32⟩ : BufTy).Contents (Elt F) → (⟨S1x256, .f32⟩ : BufTy).Contents (Elt F) → (⟨S1x256, .f32⟩ : BufTy).Contents (Elt F))
/-- %43 = stablehlo.concatenate %41#0, %42#0, dim = 0 : (tensor<4800x128xf32>, tensor<5200x128xf32>) -> tensor<10000x128xf32>  @ kernel:255 -/
abbrev hop41 : HloOp τ sig (Elt F) := StableHlo.binary main_v41_0 main_v42_0 main_v43 ((fun a b => concatenate S10000x128 0 [⟨S4800x128, a⟩, ⟨S5200x128, b⟩] concatenates_S4800x128_S5200x128_S10000x128_d0) : (⟨S4800x128, .f32⟩ : BufTy).Contents (Elt F) → (⟨S5200x128, .f32⟩ : BufTy).Contents (Elt F) → (⟨S10000x128, .f32⟩ : BufTy).Contents (Elt F))
/-- %44 = stablehlo.add %41#1, %42#1 : tensor<1x128xf32>  @ kernel:256 -/
abbrev hop42 : HloOp τ sig (Elt F) := StableHlo.binary main_v41_1 main_v42_1 main_v44 (addf : (⟨S1x128, .f32⟩ : BufTy).Contents (Elt F) → (⟨S1x128, .f32⟩ : BufTy).Contents (Elt F) → (⟨S1x128, .f32⟩ : BufTy).Contents (Elt F))
/-- %45 = stablehlo.add %41#2, %42#2 : tensor<1x128xf32>  @ kernel:257 -/
abbrev hop43 : HloOp τ sig (Elt F) := StableHlo.binary main_v41_2 main_v42_2 main_v45 (addf : (⟨S1x128, .f32⟩ : BufTy).Contents (Elt F) → (⟨S1x128, .f32⟩ : BufTy).Contents (Elt F) → (⟨S1x128, .f32⟩ : BufTy).Contents (Elt F))
/-- %cst_3 = stablehlo.constant dense<1.000000e+04> : tensor<f32> -/
abbrev hop44 : HloOp τ sig (Elt F) := StableHlo.nullary main_cst_3 (constant S_ .f32 0x461C4000#32)
/-- %46 = stablehlo.broadcast_in_dim %cst_3, dims = [] : (tensor<f32>) -> tensor<1x128xf32>  @ kernel:258 -/
abbrev hop45 : HloOp τ sig (Elt F) := StableHlo.unary main_cst_3 main_v46 (broadcastInDim S1x128 ![] bcast_S_S1x128 : (⟨S_, .f32⟩ : BufTy).Contents (Elt F) → (⟨S1x128, .f32⟩ : BufTy).Contents (Elt F))
/-- %47 = stablehlo.divide %44, %46 : tensor<1x128xf32>  @ kernel:258 -/
abbrev hop46 : HloOp τ sig (Elt F) := StableHlo.binary main_v44 main_v46 main_v47 (Host.divf : (⟨S1x128, .f32⟩ : BufTy).Contents (Elt F) → (⟨S1x128, .f32⟩ : BufTy).Contents (Elt F) → (⟨S1x128, .f32⟩ : BufTy).Contents (Elt F))
/-- %cst_4 = stablehlo.constant dense<1.000000e+04> : tensor<f32> -/
abbrev hop47 : HloOp τ sig (Elt F) := StableHlo.nullary main_cst_4 (constant S_ .f32 0x461C4000#32)
/-- %48 = stablehlo.broadcast_in_dim %cst_4, dims = [] : (tensor<f32>) -> tensor<1x128xf32>  @ kernel:259 -/
abbrev hop48 : HloOp τ sig (Elt F) := StableHlo.unary main_cst_4 main_v48 (broadcastInDim S1x128 ![] bcast_S_S1x128 : (⟨S_, .f32⟩ : BufTy).Contents (Elt F) → (⟨S1x128, .f32⟩ : BufTy).Contents (Elt F))
/-- %49 = stablehlo.divide %45, %48 : tensor<1x128xf32>  @ kernel:259 -/
abbrev hop49 : HloOp τ sig (Elt F) := StableHlo.binary main_v45 main_v48 main_v49 (Host.divf : (⟨S1x128, .f32⟩ : BufTy).Contents (Elt F) → (⟨S1x128, .f32⟩ : BufTy).Contents (Elt F) → (⟨S1x128, .f32⟩ : BufTy).Contents (Elt F))
/-- %50 = stablehlo.multiply %47, %47 : tensor<1x128xf32>  @ kernel:259 -/
abbrev hop50 : HloOp τ sig (Elt F) := StableHlo.binary main_v47 main_v47 main_v50 (mulf : (⟨S1x128, .f32⟩ : BufTy).Contents (Elt F) → (⟨S1x128, .f32⟩ : BufTy).Contents (Elt F) → (⟨S1x128, .f32⟩ : BufTy).Contents (Elt F))
/-- %51 = stablehlo.subtract %49, %50 : tensor<1x128xf32>  @ kernel:259 -/
abbrev hop51 : HloOp τ sig (Elt F) := StableHlo.binary main_v49 main_v50 main_v51 (subf : (⟨S1x128, .f32⟩ : BufTy).Contents (Elt F) → (⟨S1x128, .f32⟩ : BufTy).Contents (Elt F) → (⟨S1x128, .f32⟩ : BufTy).Contents (Elt F))
/-- %cst_5 = stablehlo.constant dense<0.000000e+00> : tensor<f32> -/
abbrev hop52 : HloOp τ sig (Elt F) := StableHlo.nullary main_cst_5 (constant S_ .f32 0x00000000#32)
/-- %52 = stablehlo.broadcast_in_dim %cst_5, dims = [] : (tensor<f32>) -> tensor<1x128xf32>  @ kernel:259 -/
abbrev hop53 : HloOp τ sig (Elt F) := StableHlo.unary main_cst_5 main_v52 (broadcastInDim S1x128 ![] bcast_S_S1x128 : (⟨S_, .f32⟩ : BufTy).Contents (Elt F) → (⟨S1x128, .f32⟩ : BufTy).Contents (Elt F))
/-- %53 = stablehlo.maximum %51, %52 : tensor<1x128xf32>  @ kernel:259 -/
abbrev hop54 : HloOp τ sig (Elt F) := StableHlo.binary main_v51 main_v52 main_v53 (maximumf : (⟨S1x128, .f32⟩ : BufTy).Contents (Elt F) → (⟨S1x128, .f32⟩ : BufTy).Contents (Elt F) → (⟨S1x128, .f32⟩ : BufTy).Contents (Elt F))
/-- %54 = stablehlo.broadcast_in_dim %arg8, dims = [1] : (tensor<128xf32>) -> tensor<1x128xf32>  @ kernel:260 -/
abbrev hop55 : HloOp τ sig (Elt F) := StableHlo.unary main_arg8 main_v54 (broadcastInDim S1x128 ![1] bcast_S128_S1x128_1 : (⟨S128, .f32⟩ : BufTy).Contents (Elt F) → (⟨S1x128, .f32⟩ : BufTy).Contents (Elt F))
/-- %cst_6 = stablehlo.constant dense<9.99999974E-6> : tensor<f32> -/
abbrev hop56 : HloOp τ sig (Elt F) := StableHlo.nullary main_cst_6 (constant S_ .f32 0x3727C5AC#32)
/-- %55 = stablehlo.broadcast_in_dim %cst_6, dims = [] : (tensor<f32>) -> tensor<1x128xf32>  @ kernel:260 -/
abbrev hop57 : HloOp τ sig (Elt F) := StableHlo.unary main_cst_6 main_v55 (broadcastInDim S1x128 ![] bcast_S_S1x128 : (⟨S_, .f32⟩ : BufTy).Contents (Elt F) → (⟨S1x128, .f32⟩ : BufTy).Contents (Elt F))
/-- %56 = stablehlo.add %53, %55 : tensor<1x128xf32>  @ kernel:260 -/
abbrev hop58 : HloOp τ sig (Elt F) := StableHlo.binary main_v53 main_v55 main_v56 (addf : (⟨S1x128, .f32⟩ : BufTy).Contents (Elt F) → (⟨S1x128, .f32⟩ : BufTy).Contents (Elt F) → (⟨S1x128, .f32⟩ : BufTy).Contents (Elt F))
/-- %57 = stablehlo.rsqrt %56 : tensor<1x128xf32>  @ kernel:260 -/
abbrev hop59 : HloOp τ sig (Elt F) := StableHlo.unary main_v56 main_v57 (Host.rsqrt : (⟨S1x128, .f32⟩ : BufTy).Contents (Elt F) → (⟨S1x128, .f32⟩ : BufTy).Contents (Elt F))
/-- %58 = stablehlo.multiply %54, %57 : tensor<1x128xf32>  @ kernel:260 -/
abbrev hop60 : HloOp τ sig (Elt F) := StableHlo.binary main_v54 main_v57 main_v58 (mulf : (⟨S1x128, .f32⟩ : BufTy).Contents (Elt F) → (⟨S1x128, .f32⟩ : BufTy).Contents (Elt F) → (⟨S1x128, .f32⟩ : BufTy).Contents (Elt F))
/-- %59 = stablehlo.broadcast_in_dim %arg9, dims = [1] : (tensor<128xf32>) -> tensor<1x128xf32>  @ kernel:261 -/
abbrev hop61 : HloOp τ sig (Elt F) := StableHlo.unary main_arg9 main_v59 (broadcastInDim S1x128 ![1] bcast_S128_S1x128_1 : (⟨S128, .f32⟩ : BufTy).Contents (Elt F) → (⟨S1x128, .f32⟩ : BufTy).Contents (Elt F))
/-- %60 = stablehlo.multiply %47, %58 : tensor<1x128xf32>  @ kernel:261 -/
abbrev hop62 : HloOp τ sig (Elt F) := StableHlo.binary main_v47 main_v58 main_v60 (mulf : (⟨S1x128, .f32⟩ : BufTy).Contents (Elt F) → (⟨S1x128, .f32⟩ : BufTy).Contents (Elt F) → (⟨S1x128, .f32⟩ : BufTy).Contents (Elt F))
/-- %61 = stablehlo.subtract %59, %60 : tensor<1x128xf32>  @ kernel:261 -/
abbrev hop63 : HloOp τ sig (Elt F) := StableHlo.binary main_v59 main_v60 main_v61 (subf : (⟨S1x128, .f32⟩ : BufTy).Contents (Elt F) → (⟨S1x128, .f32⟩ : BufTy).Contents (Elt F) → (⟨S1x128, .f32⟩ : BufTy).Contents (Elt F))

/-! @main in order: seg0 ; sc.run 0 ; seg1 ; sc.run 1 ; seg2 ; region 0 ; seg3 ; region 1 ; seg4 ; region 2 ; seg5 ; region 3 ; seg6 ; region 4 ; seg7 -/
abbrev seg0 : List (HloOp τ sig (Elt F)) := [hop0 (F := F), hop1 (F := F), hop2 (F := F), hop3 (F := F), hop4 (F := F), hop5 (F := F)]
abbrev seg1 : List (HloOp τ sig (Elt F)) := [hop6 (F := F)]
abbrev seg2 : List (HloOp τ sig (Elt F)) := [hop7 (F := F), hop8 (F := F), hop9 (F := F), hop10 (F := F)]
abbrev seg3 : List (HloOp τ sig (Elt F)) := []
abbrev seg4 : List (HloOp τ sig (Elt F)) := [hop11 (F := F), hop12 (F := F), hop13 (F := F), hop14 (F := F), hop15 (F := F), hop16 (F := F), hop17 (F := F), hop18 (F := F), hop19 (F := F), hop20 (F := F), hop21 (F := F), hop22 (F := F), hop23 (F := F), hop24 (F := F), hop25 (F := F), hop26 (F := F), hop27 (F := F), hop28 (F := F), hop29 (F := F), hop30 (F := F), hop31 (F := F), hop32 (F := F), hop33 (F := F), hop34 (F := F), hop35 (F := F), hop36 (F := F), hop37 (F := F), hop38 (F := F), hop39 (F := F), hop40 (F := F)]
abbrev seg5 : List (HloOp τ sig (Elt F)) := []
abbrev seg6 : List (HloOp τ sig (Elt F)) := [hop41 (F := F), hop42 (F := F), hop43 (F := F), hop44 (F := F), hop45 (F := F), hop46 (F := F), hop47 (F := F), hop48 (F := F), hop49 (F := F), hop50 (F := F), hop51 (F := F), hop52 (F := F), hop53 (F := F), hop54 (F := F), hop55 (F := F), hop56 (F := F), hop57 (F := F), hop58 (F := F), hop59 (F := F), hop60 (F := F), hop61 (F := F), hop62 (F := F), hop63 (F := F)]
abbrev seg7 : List (HloOp τ sig (Elt F)) := []

end Cert.Proof.KI

end
-- ==== Proof.KI.Launch.lean ====
import proofs.«202994_g19078244729258_cont_8to1_1405_21_alg».proof.Proof.KI.Pay
import Idealize.ShloMosaic.Lib.SparseCore.Launch
import Idealize.ShloMosaic.Lib.Pipeline.Kit
import Idealize.ShloMosaic.Lib.Pipeline.Sound
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type}

local notation "𝕄" => MT nD τ sig (HIx 2) (Elt F) ℕ UU ℕ

variable (m : (ℓ : Loc nD τ sig) → Buf (Elt F) ℓ)
  (I0 : (d : Dev nD) → Buf (Elt F) (idxLoc0 d)) (I1 : (d : Dev nD) → Buf (Elt F) (idxLoc1 d))

instance go0_storable (d : Dev nD) (w : Fin 32) : BI.Storable (upEmb : UEmb _ 𝕄) (go0 m I0 d w) := by unfold go0; infer_instance
instance td0_storable (d : Dev nD) (w : Fin 32) : BI.Storable (upEmb : UEmb _ 𝕄) (td0 m I0 d w) := by unfold td0; infer_instance
instance go1_storable (d : Dev nD) (w : Fin 32) : BI.Storable (upEmb : UEmb _ 𝕄) (go1 m I1 d w) := by unfold go1; infer_instance
instance td1_storable (d : Dev nD) (w : Fin 32) : BI.Storable (upEmb : UEmb _ 𝕄) (td1 m I1 d w) := by unfold td1; infer_instance

instance P_storable : (P (F := F) m I0 I1).IsStorable where
  st q d c := match q with
    | 0 => (inferInstance : BI.Storable (upEmb : UEmb _ 𝕄) (bigSep Finset.univ fun s : Fin 16 => go0 m I0 d (tileNo (Fin.cast (nCore_eq 0) c) s)))
    | 1 => (inferInstance : BI.Storable (upEmb : UEmb _ 𝕄) (bigSep Finset.univ fun s : Fin 16 => go1 m I1 d (tileNo (Fin.cast (nCore_eq 1) c) s)))
  dn q d c := match q with
    | 0 => (inferInstance : BI.Storable (upEmb : UEmb _ 𝕄) (bigSep Finset.univ fun s : Fin 16 => td0 m I0 d (tileNo (Fin.cast (nCore_eq 0) c) s)))
    | 1 => (inferInstance : BI.Storable (upEmb : UEmb _ 𝕄) (bigSep Finset.univ fun s : Fin 16 => td1 m I1 d (tileNo (Fin.cast (nCore_eq 1) c) s)))
  go q d c i := match q with
    | 0 => (inferInstance : BI.Storable (upEmb : UEmb _ 𝕄) (go0 m I0 d (tileNo (Fin.cast (nCore_eq 0) c) (Fin.cast (nSub_eq 0) i))))
    | 1 => (inferInstance : BI.Storable (upEmb : UEmb _ 𝕄) (go1 m I1 d (tileNo (Fin.cast (nCore_eq 1) c) (Fin.cast (nSub_eq 1) i))))
  td q d c i := match q with
    | 0 => (inferInstance : BI.Storable (upEmb : UEmb _ 𝕄) (td0 m I0 d (tileNo (Fin.cast (nCore_eq 0) c) (Fin.cast (nSub_eq 0) i))))
    | 1 => (inferInstance : BI.Storable (upEmb : UEmb _ 𝕄) (td1 m I1 d (tileNo (Fin.cast (nCore_eq 1) c) (Fin.cast (nSub_eq 1) i))))

theorem bigSep_fin_cast {n k : ℕ} (h : n = k) (Φ : Fin k → sProp 𝕄) :
    (bigSep Finset.univ fun i : Fin n => Φ (Fin.cast h i)) = bigSep Finset.univ Φ := by
  subst h; rfl

theorem bigSep_tasks (q : Fin 2) (Φ : Fin 16 → sProp 𝕄) :
    (bigSep Finset.univ fun i : Fin ((K (F := F)).nSub q) => Φ (Fin.cast (nSub_eq q) i)) = bigSep Finset.univ Φ :=
  bigSep_fin_cast (nSub_eq q) Φ

theorem vecSplit (q : Fin 2) : (K (F := F)).VecSplit' (P m I0 I1) q := by
  intro d c
  match q with
  | 0 =>
    show (bigSep Finset.univ fun s : Fin 16 => go0 m I0 d (tileNo (Fin.cast (nCore_eq 0) c) s)) ⊢ |={Set.univ}=> iprop(
        (bigSep Finset.univ fun i : Fin ((K (F := F)).nSub 0) => go0 m I0 d (tileNo (Fin.cast (nCore_eq 0) c) (Fin.cast (nSub_eq 0) i)))
        ∗ ((bigSep Finset.univ fun i : Fin ((K (F := F)).nSub 0) => td0 m I0 d (tileNo (Fin.cast (nCore_eq 0) c) (Fin.cast (nSub_eq 0) i)))
          -∗ bigSep Finset.univ fun s : Fin 16 => td0 m I0 d (tileNo (Fin.cast (nCore_eq 0) c) s)))
    rw [bigSep_tasks (F := F) 0 (fun s => go0 m I0 d (tileNo (Fin.cast (nCore_eq 0) c) s)),
      bigSep_tasks (F := F) 0 (fun s => td0 m I0 d (tileNo (Fin.cast (nCore_eq 0) c) s))]
    iintro H; imodintro
    isplitl [H]; · iexact H
    iintro H'; iexact H'
  | 1 =>
    show (bigSep Finset.univ fun s : Fin 16 => go1 m I1 d (tileNo (Fin.cast (nCore_eq 1) c) s)) ⊢ |={Set.univ}=> iprop(
        (bigSep Finset.univ fun i : Fin ((K (F := F)).nSub 1) => go1 m I1 d (tileNo (Fin.cast (nCore_eq 1) c) (Fin.cast (nSub_eq 1) i)))
        ∗ ((bigSep Finset.univ fun i : Fin ((K (F := F)).nSub 1) => td1 m I1 d (tileNo (Fin.cast (nCore_eq 1) c) (Fin.cast (nSub_eq 1) i)))
          -∗ bigSep Finset.univ fun s : Fin 16 => td1 m I1 d (tileNo (Fin.cast (nCore_eq 1) c) s)))
    rw [bigSep_tasks (F := F) 1 (fun s => go1 m I1 d (tileNo (Fin.cast (nCore_eq 1) c) s)),
      bigSep_tasks (F := F) 1 (fun s => td1 m I1 d (tileNo (Fin.cast (nCore_eq 1) c) s))]
    iintro H; imodintro
    isplitl [H]; · iexact H
    iintro H'; iexact H'

abbrev adm : (p : Fin 5) → (pcfgs (F := F) p).Adm := fun p => (cfgs p).toPCfg_adm

def u₀ : UU :=
  (initOf (K (F := F)).hsCells (K (F := F)).hsToks,
    (initOf (Pipeline.cells (nD := nD) (τ := τ) (Pipeline.pin (pcfgs (F := F)) adm) cellOf_inj)
        (Pipeline.launchToks (nD := nD) (τ := τ) (Pipeline.pin (pcfgs (F := F)) adm) cellOf_inj), 1))

def G (d : Dev nD) : sProp 𝕄 := Pipeline.ghostOn (pcfgs (F := F)) adm EP Finset.univ d

theorem G_eq (d : Dev nD) : G (F := F) d = bigSep Finset.univ fun p : Fin 5 =>
    iprop(Pipeline.cellsGhost (Pipeline.pin (pcfgs (F := F)) adm) EP p d ∗ Pipeline.toksInit (Pipeline.pin (pcfgs (F := F)) adm) EP p d) := rfl

theorem G_split (d : Dev nD) : G (F := F) d = iprop(
    (Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)
    ∗ (Pipeline.cellsGhost (Pipeline.pin (pcfgs (F := F)) adm) EP 2 d ∗ Pipeline.toksInit (Pipeline.pin (pcfgs (F := F)) adm) EP 2 d)
    ∗ (Pipeline.cellsGhost (Pipeline.pin (pcfgs (F := F)) adm) EP 3 d ∗ Pipeline.toksInit (Pipeline.pin (pcfgs (F := F)) adm) EP 3 d)
    ∗ (Pipeline.cellsGhost (Pipeline.pin (pcfgs (F := F)) adm) EP 4 d ∗ Pipeline.toksInit (Pipeline.pin (pcfgs (F := F)) adm) EP 4 d)) := by
  rw [G_eq, show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]

theorem ghost_deal :
    iprop((bigSep Finset.univ fun c : Dev nD => bigSep Finset.univ fun p : Fin 5 =>
          (Pipeline.cellsGhost (Pipeline.pin (pcfgs (F := F)) adm) EP p c : sProp 𝕄))
        ∗ (bigSep Finset.univ fun c : Dev nD => bigSep Finset.univ fun p : Fin 5 =>
          (Pipeline.toksInit (Pipeline.pin (pcfgs (F := F)) adm) EP p c : sProp 𝕄)))
      = bigSep Finset.univ (G (F := F)) := by
  rw [← bigSep_sep']
  refine bigSep_congr fun c _ => ?_
  rw [G_eq, bigSep_sep']

theorem x_emp : (bigSep Finset.univ fun thr : Thread nD τ => bigSep Finset.univ fun q : Fin 2 => (P m I0 I1).x q thr) = (iprop(emp) : sProp 𝕄) := by
  have h (I : Type) (s : Finset I) : (bigSep s fun _ => iprop(emp)) = (iprop(emp) : sProp 𝕄) := BI.bigSep_emp_const s
  show (bigSep Finset.univ fun _ : Thread nD τ => bigSep Finset.univ fun _ : Fin 2 => (iprop(emp) : sProp 𝕄)) = iprop(emp)
  rw [bigSep_congr fun _ _ => h _ _, h]

theorem own_pipes (b : UP) (c : Counters) :
    (BI.own ((embR : Emb (UP × Counters) 𝕄) (b, c)) : sProp 𝕄) ⊢ BI.own ((EP : Emb UP 𝕄) b) := by
  refine (own_pair_emb (embR : Emb (UP × Counters) 𝕄) b c).trans ?_
  unfold EP
  exact sep_elim_left

theorem hu₀ : iprop(ownU (u₀ (F := F)) ∗ (P m I0 I1).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 2 => (P m I0 I1).x q thr) := by
  rw [x_emp, ← ghost_deal]
  unfold u₀
  iintro ⟨Hu, -, -⟩
  ihave H := (ownU_pair _ _) $$ Hu
  icases H with ⟨HH, HR⟩
  ihave HP := (own_pipes _ _) $$ HR
  imod (Pipeline.fund_ghost (Pipeline.pin (pcfgs (F := F)) adm) EP cellOf_inj) $$ HP with ⟨Hg, Ht⟩
  imodintro
  isplitl [HH]; · iexact HH
  isplitl [Hg Ht]
  · isplitl [Hg]; · iexact Hg
    iexact Ht
  iempintro

end Cert.Proof.KI

end
-- ==== Proof.KI.Main.lean ====
import proofs.«202994_g19078244729258_cont_8to1_1405_21_alg».proof.Proof.KI.Pay
import proofs.«202994_g19078244729258_cont_8to1_1405_21_alg».proof.Proof.KI.HostOps
import proofs.«202994_g19078244729258_cont_8to1_1405_21_alg».proof.Proof.KI.Launch
import Idealize.ShloMosaic.Lib.SparseCore.Launch
import Idealize.ShloMosaic.Lib.StableHlo.Run
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held seq after launchContents)

variable {F : FTy → Type} [FloatOps F]

local notation "𝕄" => MT nD τ sig (HIx 2) (Elt F) ℕ UU ℕ

abbrev region (p : Fin 5) : Prog (TpuEff nD τ sig (Elt F) (SparseCore.Sig (ΛP (F := F)) 2) .tc) PUnit :=
  Prog.lift (.customCall (SparseCore.inner (Pipeline.entry p)) ())

theorem main_eq (d : Dev nD) : main (F := F) d =
    (seq seg0 >>= fun _ => (K (F := F)).run d 0 >>= fun _ => seq seg1 >>= fun _ => (K (F := F)).run d 1 >>= fun _ => seq seg2 >>= fun _ =>
      region 0 >>= fun _ => region 1 >>= fun _ => seq seg4 >>= fun _ => region 2 >>= fun _ => region 3 >>= fun _ => seq seg6 >>= fun _ =>
      region 4 >>= fun _ => pure ⟨⟩) := by
  chain_rfl

def SU : Finset (DevRef τ sig) :=
  (Finset.univ.filter fun b : Ref sig .tc => ¬ b.isScoped).map ⟨Proc.devRef (sig := sig) (.tc : Proc τ), Proc.devRef_injective _⟩

omit [FloatOps F] in
theorem mem_SU {b : Ref sig .tc} (h : b.isScoped = false) : Proc.devRef (τ := τ) .tc b ∈ SU :=
  Finset.mem_map_of_mem _ (Finset.mem_filter.mpr ⟨Finset.mem_univ b, by simp [h]⟩)

omit [FloatOps F] in

theorem unscoped_held (W : Valuation τ sig (Elt F)) (d : Dev nD) :
    (unscopedBufs d (fun b => W (Proc.devRef .tc b)) : sProp 𝕄) = held (T d) SU W := by
  unfold unscopedBufs held SU; rw [bigSep_map]; rfl

omit [FloatOps F] in

theorem unscoped_held_launch (m : (ℓ : Loc nD τ sig) → Buf (Elt F) ℓ) (d : Dev nD) :
    (unscopedBufs d (fun b => m ((SparseCore.T d).loc b)) : sProp 𝕄) = held (SparseCore.T d) SU (launchContents m d) := by
  unfold unscopedBufs held SU; rw [bigSep_map]; rfl

abbrev DK : Defs nD τ sig (Elt F) (SparseCore.Sig (ΛP (F := F)) 2) := (K (F := F)).defs (D (F := F))

set_option backward.isDefEq.respectTransparency.types false in
theorem wp_host (d : Dev nD) (ops : List (HloOp τ sig (Elt F))) (hS : ∀ op ∈ ops, op.bufs ⊆ SU) (hf : ∀ op ∈ ops, op.fresh = ∅)
    (W : Valuation τ sig (Elt F)) {β : Type} (k : PUnit → Prog (TpuEff nD τ sig (Elt F) (SparseCore.Sig (ΛP (F := F)) 2) .tc) β) (Φ : β → sProp 𝕄) :
    iprop(boundary (T d) ∗ (held (T d) SU W : sProp 𝕄)
        ∗ ((boundary (T d) ∗ (held (T d) SU (after ops W) : sProp 𝕄)) -∗ wp frame (wpE (DK (F := F)) 𝒱 (T d) none) Set.univ (k ⟨⟩) Φ))
      ⊢ wp frame (wpE (DK (F := F)) 𝒱 (T d) none) Set.univ (seq ops >>= k) Φ := by
  iintro ⟨Hb, Hh, Hk⟩
  iapply (StableHlo.wp_seq 𝒱 none Set.univ d SU k ops hS hf W) $$ [Hb Hh]
  · isplitl [Hb]; · iexact Hb
    iexact Hh
  iexact Hk

def tileEquiv : Fin 2 × Fin 16 ≃ Fin 32 where
  toFun p := tileNo p.1 p.2
  invFun w := (⟨w.val % 2, Nat.mod_lt _ (by decide)⟩, ⟨w.val / 2, by omega⟩)
  left_inv := by rintro ⟨c, s⟩; simp only [tileNo]; ext <;> simp <;> omega
  right_inv := by intro w; simp only [tileNo]; ext; simp; omega

omit [FloatOps F] in
theorem bigSep_tiles {M : Type} [URA M] (Φ : Fin 32 → sProp M) :
    (bigSep Finset.univ fun c : Fin 2 => bigSep Finset.univ fun s : Fin 16 => Φ (tileNo c s)) = bigSep Finset.univ Φ := by
  rw [bigSep_univ_equiv tileEquiv Φ, bigSep_univ_prod]; rfl

omit [FloatOps F] in
theorem idxSet0_eq (w : Fin 32) : idxSet0 w = (idxPart0 w).set := by
  show ((View.whole (main_v5_scv : Ref sig .scVector)).slice (idxPart0 w)).set = _
  rw [View.set_slice]; exact Finset.map_refl
omit [FloatOps F] in
theorem idx0_disjoint : ∀ i ∈ (Finset.univ : Finset (Fin 32)), ∀ j ∈ (Finset.univ : Finset (Fin 32)), i ≠ j → Disjoint (idxSet0 i) (idxSet0 j) :=
  fun i _ j _ h => by rw [idxSet0_eq, idxSet0_eq]; exact Rect.part_disjoint hdivI0 h
omit [FloatOps F] in
theorem idx0_cover : (Finset.univ : Finset (Fin 32)).biUnion idxSet0 = Finset.univ :=
  (Finset.biUnion_congr rfl fun i _ => idxSet0_eq i).trans (Rect.biUnion_part hdivI0)
omit [FloatOps F] in

theorem idx0_parts (d : Dev nD) (f : Buf (Elt F) (idxLoc0 d)) :
    (idxLoc0 d ↦{fullShare} f : sProp 𝕄) = bigSep Finset.univ fun w : Fin 32 => idxLoc0 d ↦[idxSet0 w]{fullShare} f := by
  rw [← pointsTo_biUnion Finset.univ (ℓ := idxLoc0 d) idxSet0 idx0_disjoint, idx0_cover]; try rfl

omit [FloatOps F] in
theorem outSet0_eq (w : Fin 32) : outSet0 w = (outPart0 w).set := by
  show ((View.whole (main_v6_scv : Ref sig .scVector)).slice (outPart0 w)).set = _
  rw [View.set_slice]; exact Finset.map_refl
omit [FloatOps F] in
theorem out0_disjoint : ∀ i ∈ (Finset.univ : Finset (Fin 32)), ∀ j ∈ (Finset.univ : Finset (Fin 32)), i ≠ j → Disjoint (outSet0 i) (outSet0 j) :=
  fun i _ j _ h => by rw [outSet0_eq, outSet0_eq]; exact Rect.part_disjoint hdivO0 h
omit [FloatOps F] in
theorem out0_cover : (Finset.univ : Finset (Fin 32)).biUnion outSet0 = Finset.univ :=
  (Finset.biUnion_congr rfl fun i _ => outSet0_eq i).trans (Rect.biUnion_part hdivO0)
omit [FloatOps F] in

theorem out0_parts (d : Dev nD) (f : Buf (Elt F) (outLoc0 d)) :
    (outLoc0 d ↦{fullShare} f : sProp 𝕄) = bigSep Finset.univ fun w : Fin 32 => outLoc0 d ↦[outSet0 w]{fullShare} f := by
  rw [← pointsTo_biUnion Finset.univ (ℓ := outLoc0 d) outSet0 out0_disjoint, out0_cover]; try rfl

omit [FloatOps F] in
theorem idxSet1_eq (w : Fin 32) : idxSet1 w = (idxPart1 w).set := by
  show ((View.whole (main_v7_scv : Ref sig .scVector)).slice (idxPart1 w)).set = _
  rw [View.set_slice]; exact Finset.map_refl
omit [FloatOps F] in
theorem idx1_disjoint : ∀ i ∈ (Finset.univ : Finset (Fin 32)), ∀ j ∈ (Finset.univ : Finset (Fin 32)), i ≠ j → Disjoint (idxSet1 i) (idxSet1 j) :=
  fun i _ j _ h => by rw [idxSet1_eq, idxSet1_eq]; exact Rect.part_disjoint hdivI1 h
omit [FloatOps F] in
theorem idx1_cover : (Finset.univ : Finset (Fin 32)).biUnion idxSet1 = Finset.univ :=
  (Finset.biUnion_congr rfl fun i _ => idxSet1_eq i).trans (Rect.biUnion_part hdivI1)
omit [FloatOps F] in

theorem idx1_parts (d : Dev nD) (f : Buf (Elt F) (idxLoc1 d)) :
    (idxLoc1 d ↦{fullShare} f : sProp 𝕄) = bigSep Finset.univ fun w : Fin 32 => idxLoc1 d ↦[idxSet1 w]{fullShare} f := by
  rw [← pointsTo_biUnion Finset.univ (ℓ := idxLoc1 d) idxSet1 idx1_disjoint, idx1_cover]; try rfl

omit [FloatOps F] in
theorem outSet1_eq (w : Fin 32) : outSet1 w = (outPart1 w).set := by
  show ((View.whole (main_v8_scv : Ref sig .scVector)).slice (outPart1 w)).set = _
  rw [View.set_slice]; exact Finset.map_refl
omit [FloatOps F] in
theorem out1_disjoint : ∀ i ∈ (Finset.univ : Finset (Fin 32)), ∀ j ∈ (Finset.univ : Finset (Fin 32)), i ≠ j → Disjoint (outSet1 i) (outSet1 j) :=
  fun i _ j _ h => by rw [outSet1_eq, outSet1_eq]; exact Rect.part_disjoint hdivO1 h
omit [FloatOps F] in
theorem out1_cover : (Finset.univ : Finset (Fin 32)).biUnion outSet1 = Finset.univ :=
  (Finset.biUnion_congr rfl fun i _ => outSet1_eq i).trans (Rect.biUnion_part hdivO1)
omit [FloatOps F] in

theorem out1_parts (d : Dev nD) (f : Buf (Elt F) (outLoc1 d)) :
    (outLoc1 d ↦{fullShare} f : sProp 𝕄) = bigSep Finset.univ fun w : Fin 32 => outLoc1 d ↦[outSet1 w]{fullShare} f := by
  rw [← pointsTo_biUnion Finset.univ (ℓ := outLoc1 d) outSet1 out1_disjoint, out1_cover]; try rfl

variable (m : (ℓ : Loc nD τ sig) → Buf (Elt F) ℓ)
variable (I0 : (d : Dev nD) → Buf (Elt F) (idxLoc0 d)) (I1 : (d : Dev nD) → Buf (Elt F) (idxLoc1 d))

omit [FloatOps F] in

theorem st0_eq (d : Dev nD) :
    (bigSep Finset.univ fun c : Fin ((K (F := F)).nCore 0) => (P m I0 I1).st 0 d c) = bigSep Finset.univ fun w : Fin 32 => go0 m I0 d w := by
  rw [← bigSep_tiles (fun w => go0 m I0 d w)]
  show (bigSep (Finset.univ : Finset (Fin 2)) fun c => bigSep Finset.univ fun s : Fin 16 => go0 m I0 d (tileNo (Fin.cast (nCore_eq 0) c) s)) = _
  rfl
omit [FloatOps F] in

theorem dn0_eq (d : Dev nD) :
    (bigSep Finset.univ fun c : Fin ((K (F := F)).nCore 0) => (P m I0 I1).dn 0 d c) = bigSep Finset.univ fun w : Fin 32 => td0 m I0 d w := by
  rw [← bigSep_tiles (fun w => td0 m I0 d w)]
  show (bigSep (Finset.univ : Finset (Fin 2)) fun c => bigSep Finset.univ fun s : Fin 16 => td0 m I0 d (tileNo (Fin.cast (nCore_eq 0) c) s)) = _
  rfl

omit [FloatOps F] in

theorem call0_split (d : Dev nD) (f : Buf (Elt F) (outLoc0 d)) :
    iprop((tabLoc d ↦{fullShare} m (tabLoc d)) ∗ (idxLoc0 d ↦{fullShare} I0 d) ∗ (outLoc0 d ↦{fullShare} f))
      ⊢ (iprop((tabLoc d ↦{shareDrop fullShare 32} m (tabLoc d)) ∗ bigSep Finset.univ fun c : Fin ((K (F := F)).nCore 0) => (P m I0 I1).st 0 d c) : sProp 𝕄) := by
  rw [st0_eq, idx0_parts, out0_parts]
  unfold go0
  rw [bigSep_sep', bigSep_sep']
  iintro ⟨Ht, Hi, Ho⟩
  ihave Ht' := (Transfers.pointsTo_toks_split fullShare 32) $$ Ht
  icases Ht' with ⟨Htd, Hts⟩
  isplitl [Htd]; · iexact Htd
  isplitl [Hts]; · iexact Hts
  isplitl [Hi]; · iexact Hi
  iapply (SparseCore.ent (bigSep_mono (Φ := fun w : Fin 32 => (outLoc0 d ↦[outSet0 w]{fullShare} f : sProp 𝕄)) (Ψ := fun w : Fin 32 => iprop(∃ f', outLoc0 d ↦[outSet0 w]{fullShare} f'))
    fun w _ => (show (outLoc0 d ↦[outSet0 w]{fullShare} f : sProp 𝕄) ⊢ iprop(∃ f', outLoc0 d ↦[outSet0 w]{fullShare} f') from by iintro H; iexists f; iexact H)))
  iexact Ho

omit [FloatOps F] in

theorem call0_join (d : Dev nD) :
    iprop((tabLoc d ↦{shareDrop fullShare 32} m (tabLoc d)) ∗ bigSep Finset.univ fun c : Fin ((K (F := F)).nCore 0) => (P m I0 I1).dn 0 d c)
      ⊢ (iprop((tabLoc d ↦{fullShare} m (tabLoc d)) ∗ (idxLoc0 d ↦{fullShare} I0 d) ∗ (outLoc0 d ↦{fullShare} gathered0 (m (tabLoc d)) (I0 d))) : sProp 𝕄) := by
  rw [dn0_eq, idx0_parts, out0_parts]
  unfold td0
  rw [bigSep_sep', bigSep_sep']
  iintro ⟨Htd, Hts, Hi, Ho⟩
  isplitl [Htd Hts]
  · iapply (Transfers.pointsTo_toks_join fullShare 32)
    isplitl [Htd]; · iexact Htd
    iexact Hts
  isplitl [Hi]; · iexact Hi
  iexact Ho

omit [FloatOps F] in

theorem st1_eq (d : Dev nD) :
    (bigSep Finset.univ fun c : Fin ((K (F := F)).nCore 1) => (P m I0 I1).st 1 d c) = bigSep Finset.univ fun w : Fin 32 => go1 m I1 d w := by
  rw [← bigSep_tiles (fun w => go1 m I1 d w)]
  show (bigSep (Finset.univ : Finset (Fin 2)) fun c => bigSep Finset.univ fun s : Fin 16 => go1 m I1 d (tileNo (Fin.cast (nCore_eq 1) c) s)) = _
  rfl
omit [FloatOps F] in

theorem dn1_eq (d : Dev nD) :
    (bigSep Finset.univ fun c : Fin ((K (F := F)).nCore 1) => (P m I0 I1).dn 1 d c) = bigSep Finset.univ fun w : Fin 32 => td1 m I1 d w := by
  rw [← bigSep_tiles (fun w => td1 m I1 d w)]
  show (bigSep (Finset.univ : Finset (Fin 2)) fun c => bigSep Finset.univ fun s : Fin 16 => td1 m I1 d (tileNo (Fin.cast (nCore_eq 1) c) s)) = _
  rfl

omit [FloatOps F] in

theorem call1_split (d : Dev nD) (f : Buf (Elt F) (outLoc1 d)) :
    iprop((tabLoc d ↦{fullShare} m (tabLoc d)) ∗ (idxLoc1 d ↦{fullShare} I1 d) ∗ (outLoc1 d ↦{fullShare} f))
      ⊢ (iprop((tabLoc d ↦{shareDrop fullShare 32} m (tabLoc d)) ∗ bigSep Finset.univ fun c : Fin ((K (F := F)).nCore 1) => (P m I0 I1).st 1 d c) : sProp 𝕄) := by
  rw [st1_eq, idx1_parts, out1_parts]
  unfold go1
  rw [bigSep_sep', bigSep_sep']
  iintro ⟨Ht, Hi, Ho⟩
  ihave Ht' := (Transfers.pointsTo_toks_split fullShare 32) $$ Ht
  icases Ht' with ⟨Htd, Hts⟩
  isplitl [Htd]; · iexact Htd
  isplitl [Hts]; · iexact Hts
  isplitl [Hi]; · iexact Hi
  iapply (SparseCore.ent (bigSep_mono (Φ := fun w : Fin 32 => (outLoc1 d ↦[outSet1 w]{fullShare} f : sProp 𝕄)) (Ψ := fun w : Fin 32 => iprop(∃ f', outLoc1 d ↦[outSet1 w]{fullShare} f'))
    fun w _ => (show (outLoc1 d ↦[outSet1 w]{fullShare} f : sProp 𝕄) ⊢ iprop(∃ f', outLoc1 d ↦[outSet1 w]{fullShare} f') from by iintro H; iexists f; iexact H)))
  iexact Ho

omit [FloatOps F] in

theorem call1_join (d : Dev nD) :
    iprop((tabLoc d ↦{shareDrop fullShare 32} m (tabLoc d)) ∗ bigSep Finset.univ fun c : Fin ((K (F := F)).nCore 1) => (P m I0 I1).dn 1 d c)
      ⊢ (iprop((tabLoc d ↦{fullShare} m (tabLoc d)) ∗ (idxLoc1 d ↦{fullShare} I1 d) ∗ (outLoc1 d ↦{fullShare} gathered1 (m (tabLoc d)) (I1 d))) : sProp 𝕄) := by
  rw [dn1_eq, idx1_parts, out1_parts]
  unfold td1
  rw [bigSep_sep', bigSep_sep']
  iintro ⟨Htd, Hts, Hi, Ho⟩
  isplitl [Htd Hts]
  · iapply (Transfers.pointsTo_toks_join fullShare 32)
    isplitl [Htd]; · iexact Htd
    iexact Hts
  isplitl [Hi]; · iexact Hi
  iexact Ho

abbrev tab' : DevRef τ sig := Proc.devRef .tc main_arg0
abbrev idx0' : DevRef τ sig := Proc.devRef .tc main_v5
abbrev out0' : DevRef τ sig := Proc.devRef .tc main_v6
abbrev idx1' : DevRef τ sig := Proc.devRef .tc main_v7
abbrev out1' : DevRef τ sig := Proc.devRef .tc main_v8

omit [FloatOps F] in

theorem held_three (d : Dev nD) {a b c : DevRef τ sig} (hab : a ≠ b) (hac : a ≠ c) (hbc : b ≠ c) (hS : ({a, b, c} : Finset (DevRef τ sig)) ⊆ SU)
    (W : Valuation τ sig (Elt F)) :
    (held (T d) SU W : sProp 𝕄)
      = iprop(((((d, a) : Loc nD τ sig) ↦{fullShare} W a) ∗ (((d, b) : Loc nD τ sig) ↦{fullShare} W b) ∗ (((d, c) : Loc nD τ sig) ↦{fullShare} W c))
          ∗ held (T d) (SU \ {a, b, c}) W) := by
  rw [StableHlo.held_sub_split (T d) hS W]
  unfold held
  rw [SparseCore.bigSep_insert' (by simp [hab, hac]), SparseCore.bigSep_insert' (by simp [hbc]), bigSep_singleton]

omit [FloatOps F] in

theorem held_three_update (d : Dev nD) {a b c : DevRef τ sig} (hab : a ≠ b) (hac : a ≠ c) (hbc : b ≠ c) (hS : ({a, b, c} : Finset (DevRef τ sig)) ⊆ SU)
    (W : Valuation τ sig (Elt F)) (g : c.ty.Contents (Elt F)) :
    (held (T d) SU (Function.update W c g) : sProp 𝕄)
      = iprop(((((d, a) : Loc nD τ sig) ↦{fullShare} W a) ∗ (((d, b) : Loc nD τ sig) ↦{fullShare} W b) ∗ (((d, c) : Loc nD τ sig) ↦{fullShare} g))
          ∗ held (T d) (SU \ {a, b, c}) W) := by
  rw [held_three d hab hac hbc hS, Function.update_of_ne hac, Function.update_of_ne hbc, Function.update_self,
    StableHlo.held_congr (T d) (V := Function.update W c g) (V' := W) fun x hx => Function.update_of_ne (fun e => by
      subst e; exact (Finset.mem_sdiff.mp hx).2 (by simp)) _ _]

omit [FloatOps F] in
theorem call0_sub : ({tab', idx0', out0'} : Finset (DevRef τ sig)) ⊆ SU := by
  intro x hx
  simp only [Finset.mem_insert, Finset.mem_singleton] at hx
  rcases hx with rfl | rfl | rfl <;> exact mem_SU (by decide)

set_option backward.isDefEq.respectTransparency.types false in

theorem wp_call0 (κ : GSem nD τ sig → ℕ) (d : Dev nD) (W : Valuation τ sig (Elt F)) (hT : W tab' = m (tabLoc d)) (hI : W idx0' = I0 d)
    {β : Type} (k : PUnit → Prog (TpuEff nD τ sig (Elt F) (SparseCore.Sig (ΛP (F := F)) 2) .tc) β) (Φ : β → sProp 𝕄) :
    iprop((K (F := F)).ctx EH (P m I0 I1) κ ∗ (K (F := F)).tcSt EH d 0 ∗ (held (T d) SU W : sProp 𝕄)
        ∗ (((K (F := F)).tcSt EH d (0 + 1) ∗ (held (T d) SU (Function.update W out0' (gathered0 (m (tabLoc d)) (I0 d))) : sProp 𝕄))
            -∗ wp frame (wpE (DK (F := F)) 𝒱 (T d) none) Set.univ (k ⟨⟩) Φ))
      ⊢ wp frame (wpE (DK (F := F)) 𝒱 (T d) none) Set.univ ((K (F := F)).run d 0 >>= k) Φ := by
  rw [wp_bind, held_three d (a := tab') (b := idx0') (c := out0') (by decide) (by decide) (by decide) call0_sub,
    held_three_update d (a := tab') (b := idx0') (c := out0') (by decide) (by decide) (by decide) call0_sub, hT, hI]
  iintro ⟨#Hctx, Hst, ⟨H3, Hrest⟩, Hk⟩
  ihave Hsp := (call0_split m I0 I1 d (W out0')) $$ H3
  icases Hsp with ⟨Htd, Hgo⟩
  iapply ((K (F := F)).wp_run (D (F := F)) 𝒱 (EH := EH) (P := P m I0 I1) κ d 0)
  isplitr; · iexact Hctx
  isplitl [Hst]; · iexact Hst
  isplitl [Hgo]; · iexact Hgo
  iintro ⟨Hst, Hdn⟩
  ihave Hj := (call0_join m I0 I1 d) $$ [Htd Hdn]
  · isplitl [Htd]; · iexact Htd
    iexact Hdn
  iapply Hk
  isplitl [Hst]; · iexact Hst
  isplitl [Hj]; · iexact Hj
  iexact Hrest

omit [FloatOps F] in
theorem call1_sub : ({tab', idx1', out1'} : Finset (DevRef τ sig)) ⊆ SU := by
  intro x hx
  simp only [Finset.mem_insert, Finset.mem_singleton] at hx
  rcases hx with rfl | rfl | rfl <;> exact mem_SU (by decide)

set_option backward.isDefEq.respectTransparency.types false in

theorem wp_call1 (κ : GSem nD τ sig → ℕ) (d : Dev nD) (W : Valuation τ sig (Elt F)) (hT : W tab' = m (tabLoc d)) (hI : W idx1' = I1 d)
    {β : Type} (k : PUnit → Prog (TpuEff nD τ sig (Elt F) (SparseCore.Sig (ΛP (F := F)) 2) .tc) β) (Φ : β → sProp 𝕄) :
    iprop((K (F := F)).ctx EH (P m I0 I1) κ ∗ (K (F := F)).tcSt EH d 1 ∗ (held (T d) SU W : sProp 𝕄)
        ∗ (((K (F := F)).tcSt EH d (1 + 1) ∗ (held (T d) SU (Function.update W out1' (gathered1 (m (tabLoc d)) (I1 d))) : sProp 𝕄))
            -∗ wp frame (wpE (DK (F := F)) 𝒱 (T d) none) Set.univ (k ⟨⟩) Φ))
      ⊢ wp frame (wpE (DK (F := F)) 𝒱 (T d) none) Set.univ ((K (F := F)).run d 1 >>= k) Φ := by
  rw [wp_bind, held_three d (a := tab') (b := idx1') (c := out1') (by decide) (by decide) (by decide) call1_sub,
    held_three_update d (a := tab') (b := idx1') (c := out1') (by decide) (by decide) (by decide) call1_sub, hT, hI]
  iintro ⟨#Hctx, Hst, ⟨H3, Hrest⟩, Hk⟩
  ihave Hsp := (call1_split m I0 I1 d (W out1')) $$ H3
  icases Hsp with ⟨Htd, Hgo⟩
  iapply ((K (F := F)).wp_run (D (F := F)) 𝒱 (EH := EH) (P := P m I0 I1) κ d 1)
  isplitr; · iexact Hctx
  isplitl [Hst]; · iexact Hst
  isplitl [Hgo]; · iexact Hgo
  iintro ⟨Hst, Hdn⟩
  ihave Hj := (call1_join m I0 I1 d) $$ [Htd Hdn]
  · isplitl [Htd]; · iexact Htd
    iexact Hdn
  iapply Hk
  isplitl [Hst]; · iexact Hst
  isplitl [Hj]; · iexact Hj
  iexact Hrest

omit [FloatOps F] in

theorem wBelow_all (d : Dev nD) (Wt : Waits sig (HIx 2)) : (K (F := F)).WBelow (T d) Wt (8 * 2) := fun p _ => by
  rcases h : p.2 with _ | q
  · rw [SparseCore.Cfg.lev_none]; omega
  · have h1 := (K (F := F)).lev_some_le (nD := nD) (T d, p.1) q
    have h2 := q.isLt
    omega

omit [FloatOps F] in

theorem tcSt_two_owes (d : Dev nD) :
    (K (F := F)).tcSt EH d 2
      ⊢ (iprop((∃ Wt, owes (T d) (0 : CellTallies nD τ sig (HIx 2)) Wt) ∗ ((∃ Wt, owes (T d) (0 : CellTallies nD τ sig (HIx 2)) Wt) -∗ (K (F := F)).tcSt EH d 2)) : sProp 𝕄) := by
  unfold SparseCore.Cfg.tcSt
  rw [(K (F := F)).Otc_end d (le_refl 2)]
  iintro ⟨⟨%Wt, -, HO⟩, Hrest⟩
  isplitl [HO]; · iexists Wt; iexact HO
  iintro ⟨%Wt', HO⟩
  isplitl [HO]
  · iexists Wt'
    isplitr; · ipureintro; exact wBelow_all d Wt'
    iexact HO
  iexact Hrest

omit [FloatOps F] in

theorem region_eq (p : Fin 5) :
    (region p : Prog (TpuEff nD τ sig (Elt F) (SparseCore.Sig (ΛP (F := F)) 2) .tc) PUnit)
      = SparseCore.liftProg (Q := 2) (Prog.op (.customCall (Pipeline.entry p) ()) fun _ => Prog.ret PUnit.unit) := rfl

set_option backward.isDefEq.respectTransparency.types false in

theorem wp_region [∀ e, Nonempty (Elt F e)] (κ : GSem nD τ sig → ℕ) (d : Dev nD) {p : Fin 5}
    {rdats : (p : Fin 5) → (c : Dev nD) → Pipeline.RDat τ (Elt F) (HIx 2) ℕ UU ℕ (Pipeline.pin (pcfgs (F := F)) adm p) c}
    (R : Pipeline.RDat.RegionSeg (pcfgs (F := F)) adm rdats (none : HIx 2) defs₀ 𝒱₀ (K (F := F)).L (K (F := F)).lev p)
    (W W' : Valuation τ sig (Elt F))
    (hpre : iprop((held (T d) SU W : sProp 𝕄) ∗ ∃ Wt, owes (T d) (0 : CellTallies nD τ sig (HIx 2)) Wt) ⊢ R.pre d)
    (hpost : R.post d ⊢ iprop((held (T d) SU W' : sProp 𝕄) ∗ ∃ Wt, owes (T d) (0 : CellTallies nD τ sig (HIx 2)) Wt))
    {β : Type} (k : PUnit → Prog (TpuEff nD τ sig (Elt F) (SparseCore.Sig (ΛP (F := F)) 2) .tc) β) (Φ : β → sProp 𝕄) :
    iprop((K (F := F)).ctx EH (P m I0 I1) κ ∗ boundary (T d) ∗ (held (T d) SU W : sProp 𝕄) ∗ (∃ Wt, owes (T d) (0 : CellTallies nD τ sig (HIx 2)) Wt)
        ∗ (Pipeline.cellsGhost (Pipeline.pin (pcfgs (F := F)) adm) EP p d ∗ Pipeline.toksInit (Pipeline.pin (pcfgs (F := F)) adm) EP p d)
        ∗ ((boundary (T d) ∗ (held (T d) SU W' : sProp 𝕄) ∗ ∃ Wt, owes (T d) (0 : CellTallies nD τ sig (HIx 2)) Wt)
            -∗ wp frame (wpE (DK (F := F)) 𝒱 (T d) none) Set.univ (k ⟨⟩) Φ))
      ⊢ wp frame (wpE (DK (F := F)) 𝒱 (T d) none) Set.univ (region p >>= k) Φ := by
  rw [wp_bind, region_eq]
  iintro ⟨#Hctx, Hb, Hh, HO, ⟨Hcg, Hti⟩, Hk⟩
  ihave Hlev := (SparseCore.Cfg.ctx_levAts κ) $$ Hctx
  iapply ((K (F := F)).wp_liftProg (D (F := F)) 𝒱 (T d) Set.univ none (Prog.op (.customCall (Pipeline.entry p) ()) fun _ => Prog.ret PUnit.unit) _)
  iapply (Pipeline.RDat.RegionSeg.wp (pcfgs (F := F)) adm rdats (none : HIx 2) cellOf_inj EP defs₀ 𝒱₀ (K (F := F)).L (K (F := F)).lev R d none
    (fun u hu => nomatch hu) (fun _ => .ret ⟨⟩) _)
  isplitl [Hk]
  · iintro ⟨Hb, Hpost⟩
    ihave Hp := hpost $$ Hpost
    icases Hp with ⟨Hh, HO⟩
    rw [wp_ret]; imodintro
    iapply Hk
    isplitl [Hb]; · iexact Hb
    isplitl [Hh]; · iexact Hh
    iexact HO
  isplitl [Hb]; · iexact Hb
  isplitl [Hh HO]
  · iapply hpre
    isplitl [Hh]; · iexact Hh
    iexact HO
  isplitr; · iexact Hlev
  isplitl [Hcg]; · iexact Hcg
  iexact Hti

theorem seg0_bufs : ∀ op ∈ (seg0 : List (HloOp τ sig (Elt F))), op.bufs ⊆ SU :=
  List.forall_iff_forall_mem.1 (by
    simp only [List.Forall, StableHlo.nullary_bufs, StableHlo.unary_bufs, StableHlo.binary_bufs, StableHlo.reshape_bufs, Finset.insert_subset_iff, Finset.singleton_subset_iff]
    split_ands <;> exact mem_SU (by decide))
theorem seg0_fresh : ∀ op ∈ (seg0 : List (HloOp τ sig (Elt F))), op.fresh = ∅ :=
  List.forall_iff_forall_mem.1 (by simp only [List.Forall]; split_ands <;> rfl)

abbrev seg0_W : List (Ref sig .tc) := [main_v0, main_v1, main_v2, main_v3, main_v4, main_v5]
theorem seg0_writes : (seg0 : List (HloOp τ sig (Elt F))).Forall fun op => op.writes ⊆ (seg0_W.map (Proc.devRef (τ := τ) .tc)).toFinset := by
  simp only [List.Forall, StableHlo.nullary_writes, StableHlo.unary_writes, StableHlo.binary_writes, StableHlo.reshape_writes, Finset.singleton_subset_iff, List.mem_toFinset]
  split_ands <;> exact List.mem_map_of_mem (by decide)

theorem after_seg0_of (W : Valuation τ sig (Elt F)) (r : Ref sig .tc) (h : r ∉ seg0_W) :
    after seg0 W (Proc.devRef .tc r) = W (Proc.devRef .tc r) :=
  StableHlo.after_of_writes_sub seg0 W seg0_writes h

theorem seg1_bufs : ∀ op ∈ (seg1 : List (HloOp τ sig (Elt F))), op.bufs ⊆ SU :=
  List.forall_iff_forall_mem.1 (by
    simp only [List.Forall, StableHlo.nullary_bufs, StableHlo.unary_bufs, StableHlo.binary_bufs, StableHlo.reshape_bufs, Finset.insert_subset_iff, Finset.singleton_subset_iff]
    split_ands <;> exact mem_SU (by decide))
theorem seg1_fresh : ∀ op ∈ (seg1 : List (HloOp τ sig (Elt F))), op.fresh = ∅ :=
  List.forall_iff_forall_mem.1 (by simp only [List.Forall]; split_ands <;> rfl)

abbrev seg1_W : List (Ref sig .tc) := [main_v7]
theorem seg1_writes : (seg1 : List (HloOp τ sig (Elt F))).Forall fun op => op.writes ⊆ (seg1_W.map (Proc.devRef (τ := τ) .tc)).toFinset := by
  simp only [List.Forall, StableHlo.nullary_writes, StableHlo.unary_writes, StableHlo.binary_writes, StableHlo.reshape_writes, Finset.singleton_subset_iff, List.mem_toFinset]
  exact List.mem_map_of_mem (by decide)

theorem after_seg1_of (W : Valuation τ sig (Elt F)) (r : Ref sig .tc) (h : r ∉ seg1_W) :
    after seg1 W (Proc.devRef .tc r) = W (Proc.devRef .tc r) :=
  StableHlo.after_of_writes_sub seg1 W seg1_writes h

theorem seg2_bufs : ∀ op ∈ (seg2 : List (HloOp τ sig (Elt F))), op.bufs ⊆ SU :=
  List.forall_iff_forall_mem.1 (by
    simp only [List.Forall, StableHlo.nullary_bufs, StableHlo.unary_bufs, StableHlo.binary_bufs, StableHlo.reshape_bufs, Finset.insert_subset_iff, Finset.singleton_subset_iff]
    split_ands <;> exact mem_SU (by decide))
theorem seg2_fresh : ∀ op ∈ (seg2 : List (HloOp τ sig (Elt F))), op.fresh = ∅ :=
  List.forall_iff_forall_mem.1 (by simp only [List.Forall]; split_ands <;> rfl)

abbrev seg2_W : List (Ref sig .tc) := [main_v9, main_v10, main_v11, main_v12]
theorem seg2_writes : (seg2 : List (HloOp τ sig (Elt F))).Forall fun op => op.writes ⊆ (seg2_W.map (Proc.devRef (τ := τ) .tc)).toFinset := by
  simp only [List.Forall, StableHlo.nullary_writes, StableHlo.unary_writes, StableHlo.binary_writes, StableHlo.reshape_writes, Finset.singleton_subset_iff, List.mem_toFinset]
  split_ands <;> exact List.mem_map_of_mem (by decide)

theorem after_seg2_of (W : Valuation τ sig (Elt F)) (r : Ref sig .tc) (h : r ∉ seg2_W) :
    after seg2 W (Proc.devRef .tc r) = W (Proc.devRef .tc r) :=
  StableHlo.after_of_writes_sub seg2 W seg2_writes h

theorem seg4_bufs : ∀ op ∈ (seg4 : List (HloOp τ sig (Elt F))), op.bufs ⊆ SU :=
  List.forall_iff_forall_mem.1 (by
    simp only [List.Forall, StableHlo.nullary_bufs, StableHlo.unary_bufs, StableHlo.binary_bufs, StableHlo.reshape_bufs, Finset.insert_subset_iff, Finset.singleton_subset_iff]
    split_ands <;> exact mem_SU (by decide))
theorem seg4_fresh : ∀ op ∈ (seg4 : List (HloOp τ sig (Elt F))), op.fresh = ∅ :=
  List.forall_iff_forall_mem.1 (by simp only [List.Forall]; split_ands <;> rfl)

abbrev seg4_W : List (Ref sig .tc) := [main_v15, main_v16, main_cst, main_v17, main_v18, main_cst_0, main_v19, main_v20, main_v21, main_v22, main_cst_1, main_v23, main_v24, main_v25, main_cst_2, main_v26, main_v27, main_v28, main_v29, main_v30, main_v31, main_v32, main_v33, main_v34, main_v35, main_v36, main_v37, main_v38, main_v39, main_v40]
theorem seg4_writes : (seg4 : List (HloOp τ sig (Elt F))).Forall fun op => op.writes ⊆ (seg4_W.map (Proc.devRef (τ := τ) .tc)).toFinset := by
  simp only [List.Forall, StableHlo.nullary_writes, StableHlo.unary_writes, StableHlo.binary_writes, StableHlo.reshape_writes, Finset.singleton_subset_iff, List.mem_toFinset]
  split_ands <;> exact List.mem_map_of_mem (by decide)

theorem after_seg4_of (W : Valuation τ sig (Elt F)) (r : Ref sig .tc) (h : r ∉ seg4_W) :
    after seg4 W (Proc.devRef .tc r) = W (Proc.devRef .tc r) :=
  StableHlo.after_of_writes_sub seg4 W seg4_writes h

theorem seg6_bufs : ∀ op ∈ (seg6 : List (HloOp τ sig (Elt F))), op.bufs ⊆ SU :=
  List.forall_iff_forall_mem.1 (by
    simp only [List.Forall, StableHlo.nullary_bufs, StableHlo.unary_bufs, StableHlo.binary_bufs, StableHlo.reshape_bufs, Finset.insert_subset_iff, Finset.singleton_subset_iff]
    split_ands <;> exact mem_SU (by decide))
theorem seg6_fresh : ∀ op ∈ (seg6 : List (HloOp τ sig (Elt F))), op.fresh = ∅ :=
  List.forall_iff_forall_mem.1 (by simp only [List.Forall]; split_ands <;> rfl)

abbrev seg6_W : List (Ref sig .tc) := [main_v43, main_v44, main_v45, main_cst_3, main_v46, main_v47, main_cst_4, main_v48, main_v49, main_v50, main_v51, main_cst_5, main_v52, main_v53, main_v54, main_cst_6, main_v55, main_v56, main_v57, main_v58, main_v59, main_v60, main_v61]
theorem seg6_writes : (seg6 : List (HloOp τ sig (Elt F))).Forall fun op => op.writes ⊆ (seg6_W.map (Proc.devRef (τ := τ) .tc)).toFinset := by
  simp only [List.Forall, StableHlo.nullary_writes, StableHlo.unary_writes, StableHlo.binary_writes, StableHlo.reshape_writes, Finset.singleton_subset_iff, List.mem_toFinset]
  split_ands <;> exact List.mem_map_of_mem (by decide)

theorem after_seg6_of (W : Valuation τ sig (Elt F)) (r : Ref sig .tc) (h : r ∉ seg6_W) :
    after seg6 W (Proc.devRef .tc r) = W (Proc.devRef .tc r) :=
  StableHlo.after_of_writes_sub seg6 W seg6_writes h

variable (upd : Fin 5 → Valuation τ sig (Elt F) → Valuation τ sig (Elt F))

def VA (d : Dev nD) : Valuation τ sig (Elt F) := after seg0 (launchContents m d)

def Ix0 (d : Dev nD) : Buf (Elt F) (idxLoc0 d) := VA m d idx0'

def VB (d : Dev nD) : Valuation τ sig (Elt F) := Function.update (VA m d) out0' (gathered0 (m (tabLoc d)) (Ix0 m d))

def VC (d : Dev nD) : Valuation τ sig (Elt F) := after seg1 (VB m d)

def Ix1 (d : Dev nD) : Buf (Elt F) (idxLoc1 d) := VC m d idx1'

def VD (d : Dev nD) : Valuation τ sig (Elt F) := Function.update (VC m d) out1' (gathered1 (m (tabLoc d)) (Ix1 m d))

def VE (d : Dev nD) : Valuation τ sig (Elt F) := after seg2 (VD m d)

def VF (d : Dev nD) : Valuation τ sig (Elt F) := upd 0 (VE m d)

def VG (d : Dev nD) : Valuation τ sig (Elt F) := upd 1 (VF m upd d)

def VH (d : Dev nD) : Valuation τ sig (Elt F) := after seg4 (VG m upd d)

def VI (d : Dev nD) : Valuation τ sig (Elt F) := upd 2 (VH m upd d)

def VJ (d : Dev nD) : Valuation τ sig (Elt F) := upd 3 (VI m upd d)

def VK (d : Dev nD) : Valuation τ sig (Elt F) := after seg6 (VJ m upd d)

def Vfin (d : Dev nD) : Valuation τ sig (Elt F) := upd 4 (VK m upd d)

def Vin (d : Dev nD) : Fin 5 → Valuation τ sig (Elt F)
  | 0 => VE m d | 1 => VF m upd d | 2 => VH m upd d | 3 => VI m upd d | 4 => VK m upd d

theorem VA_tab (d : Dev nD) : VA m d tab' = m (tabLoc d) := after_seg0_of _ main_arg0 (by decide)
theorem VC_tab (d : Dev nD) : VC m d tab' = m (tabLoc d) := by
  unfold VC VB
  rw [after_seg1_of _ main_arg0 (by decide), Function.update_of_ne (by decide)]
  exact VA_tab m d

def FIN (d : Dev nD) : sProp 𝕄 := held (T d) SU (Vfin m upd d)

set_option backward.isDefEq.respectTransparency.types false in

theorem hmain [∀ e, Nonempty (Elt F e)] (g : Dev nD → PrngReg)
    {rdats : (p : Fin 5) → (c : Dev nD) → Pipeline.RDat τ (Elt F) (HIx 2) ℕ UU ℕ (Pipeline.pin (pcfgs (F := F)) adm p) c}
    (R : (p : Fin 5) → Pipeline.RDat.RegionSeg (pcfgs (F := F)) adm rdats (none : HIx 2) defs₀ 𝒱₀ (K (F := F)).L (K (F := F)).lev p)
    (hpre : ∀ (p : Fin 5) (d : Dev nD),
      iprop((held (T d) SU (Vin m upd d p) : sProp 𝕄) ∗ ∃ Wt, owes (T d) (0 : CellTallies nD τ sig (HIx 2)) Wt) ⊢ (R p).pre d)
    (hpost : ∀ (p : Fin 5) (d : Dev nD),
      (R p).post d ⊢ iprop((held (T d) SU (upd p (Vin m upd d p)) : sProp 𝕄) ∗ ∃ Wt, owes (T d) (0 : CellTallies nD τ sig (HIx 2)) Wt))
    (κ : GSem nD τ sig → ℕ) (d : Dev nD) :
    iprop((K (F := F)).ctx EH (P m (Ix0 m) (Ix1 m)) κ ∗ (K (F := F)).tcSt EH d 0 ∗ (K (F := F)).tcRes m g d ∗ G d)
      ⊢ wp frame (wpE (DK (F := F)) 𝒱 (T d) none) Set.univ (main d) fun _ => iprop((K (F := F)).tcSt EH d 2 ∗ FIN m upd d) := by
  rw [main_eq]
  unfold SparseCore.Cfg.tcRes
  rw [unscoped_held_launch m d, G_split]
  iintro ⟨#Hctx, Hst, ⟨Hb, Hh, -, -⟩, Hg0, Hg1, Hg2, Hg3, Hg4⟩
  iapply (wp_host d seg0 seg0_bufs seg0_fresh (launchContents m d) _ _)
  isplitl [Hb]; · iexact Hb
  isplitl [Hh]; · iexact Hh
  iintro ⟨Hb, Hh⟩
  iapply (wp_call0 m (Ix0 m) (Ix1 m) κ d (VA m d) (VA_tab m d) rfl _ _)
  isplitr; · iexact Hctx
  isplitl [Hst]; · iexact Hst
  isplitl [Hh]; · iexact Hh
  iintro ⟨Hst, Hh⟩
  iapply (wp_host d seg1 seg1_bufs seg1_fresh (VB m d) _ _)
  isplitl [Hb]; · iexact Hb
  isplitl [Hh]; · iexact Hh
  iintro ⟨Hb, Hh⟩
  iapply (wp_call1 m (Ix0 m) (Ix1 m) κ d (VC m d) (VC_tab m d) rfl _ _)
  isplitr; · iexact Hctx
  isplitl [Hst]; · iexact Hst
  isplitl [Hh]; · iexact Hh
  iintro ⟨Hst, Hh⟩
  iapply (wp_host d seg2 seg2_bufs seg2_fresh (VD m d) _ _)
  isplitl [Hb]; · iexact Hb
  isplitl [Hh]; · iexact Hh
  iintro ⟨Hb, Hh⟩

  ihave Hs := (tcSt_two_owes d) $$ Hst
  icases Hs with ⟨HO, Hback⟩
  iapply (wp_region m (Ix0 m) (Ix1 m) κ d (R 0) (VE m d) (VF m upd d) (hpre 0 d) (hpost 0 d) _ _)
  isplitr; · iexact Hctx
  isplitl [Hb]; · iexact Hb
  isplitl [Hh]; · iexact Hh
  isplitl [HO]; · iexact HO
  isplitl [Hg0]; · iexact Hg0
  iintro ⟨Hb, Hh, HO⟩
  iapply (wp_region m (Ix0 m) (Ix1 m) κ d (R 1) (VF m upd d) (VG m upd d) (hpre 1 d) (hpost 1 d) _ _)
  isplitr; · iexact Hctx
  isplitl [Hb]; · iexact Hb
  isplitl [Hh]; · iexact Hh
  isplitl [HO]; · iexact HO
  isplitl [Hg1]; · iexact Hg1
  iintro ⟨Hb, Hh, HO⟩
  iapply (wp_host d seg4 seg4_bufs seg4_fresh (VG m upd d) _ _)
  isplitl [Hb]; · iexact Hb
  isplitl [Hh]; · iexact Hh
  iintro ⟨Hb, Hh⟩
  iapply (wp_region m (Ix0 m) (Ix1 m) κ d (R 2) (VH m upd d) (VI m upd d) (hpre 2 d) (hpost 2 d) _ _)
  isplitr; · iexact Hctx
  isplitl [Hb]; · iexact Hb
  isplitl [Hh]; · iexact Hh
  isplitl [HO]; · iexact HO
  isplitl [Hg2]; · iexact Hg2
  iintro ⟨Hb, Hh, HO⟩
  iapply (wp_region m (Ix0 m) (Ix1 m) κ d (R 3) (VI m upd d) (VJ m upd d) (hpre 3 d) (hpost 3 d) _ _)
  isplitr; · iexact Hctx
  isplitl [Hb]; · iexact Hb
  isplitl [Hh]; · iexact Hh
  isplitl [HO]; · iexact HO
  isplitl [Hg3]; · iexact Hg3
  iintro ⟨Hb, Hh, HO⟩
  iapply (wp_host d seg6 seg6_bufs seg6_fresh (VJ m upd d) _ _)
  isplitl [Hb]; · iexact Hb
  isplitl [Hh]; · iexact Hh
  iintro ⟨Hb, Hh⟩
  iapply (wp_region m (Ix0 m) (Ix1 m) κ d (R 4) (VK m upd d) (Vfin m upd d) (hpre 4 d) (hpost 4 d) _ _)
  isplitr; · iexact Hctx
  isplitl [Hb]; · iexact Hb
  isplitl [Hh]; · iexact Hh
  isplitl [HO]; · iexact HO
  isplitl [Hg4]; · iexact Hg4
  iintro ⟨Hb, Hh, HO⟩
  rw [wp_pure]; imodintro
  isplitl [HO Hback]
  · iapply Hback; iexact HO
  unfold FIN; iexact Hh

abbrev regionOuts : Fin 5 → List (Ref sig .tc)
  | 0 => [main_v13_0, main_v13_1] | 1 => [main_v14_0, main_v14_1] | 2 => [main_v41_0, main_v41_1, main_v41_2]
  | 3 => [main_v42_0, main_v42_1, main_v42_2] | 4 => [main_v62]

theorem Vfin_of (hupd : ∀ (p : Fin 5) (W : Valuation τ sig (Elt F)) (r : Ref sig .tc), r ∉ regionOuts p → upd p W (Proc.devRef .tc r) = W (Proc.devRef .tc r))
    (d : Dev nD) (r : Ref sig .tc) (h0 : r ∉ seg0_W) (h1 : r ∉ seg1_W) (h2 : r ∉ seg2_W) (h4 : r ∉ seg4_W) (h6 : r ∉ seg6_W)
    (ho0 : r ≠ main_v6) (ho1 : r ≠ main_v8) (hr : ∀ p, r ∉ regionOuts p) :
    Vfin m upd d (Proc.devRef .tc r) = m (d, Proc.devRef .tc r) := by
  unfold Vfin VK VJ VI VH VG VF VE VD VC VB VA
  rw [hupd 4 _ r (hr 4), after_seg6_of _ r h6, hupd 3 _ r (hr 3), hupd 2 _ r (hr 2), after_seg4_of _ r h4, hupd 1 _ r (hr 1), hupd 0 _ r (hr 0),
    after_seg2_of _ r h2, Function.update_of_ne (StableHlo.devRef_ne_of_ne ho1), after_seg1_of _ r h1,
    Function.update_of_ne (StableHlo.devRef_ne_of_ne ho0), after_seg0_of _ r h0]

theorem Vfin_args (hupd : ∀ (p : Fin 5) (W : Valuation τ sig (Elt F)) (r : Ref sig .tc), r ∉ regionOuts p → upd p W (Proc.devRef .tc r) = W (Proc.devRef .tc r))
    (d : Dev nD) :
    ∀ r ∈ ([main_arg0, main_arg1, main_arg2, main_arg3, main_arg4, main_arg5, main_arg6, main_arg7, main_arg8, main_arg9] : List (Ref sig .tc)),
      Vfin m upd d (Proc.devRef .tc r) = m (d, Proc.devRef .tc r) := by
  intro r hr
  have hall : ∀ r ∈ ([main_arg0, main_arg1, main_arg2, main_arg3, main_arg4, main_arg5, main_arg6, main_arg7, main_arg8, main_arg9] : List (Ref sig .tc)),
      r ∉ seg0_W ∧ r ∉ seg1_W ∧ r ∉ seg2_W ∧ r ∉ seg4_W ∧ r ∉ seg6_W ∧ r ≠ main_v6 ∧ r ≠ main_v8 ∧ ∀ p, r ∉ regionOuts p := by decide
  obtain ⟨h0, h1, h2, h4, h6, ho0, ho1, hp⟩ := hall r hr
  exact Vfin_of m upd hupd d r h0 h1 h2 h4 h6 ho0 ho1 hp

omit [FloatOps F] in

omit [FloatOps F] in

theorem held_agree (d : Dev nD) (W : Valuation τ sig (Elt F)) (s' : Phys nD τ sig (Elt F)) :
    iprop((held (T d) SU W : sProp 𝕄) ∗ SI s') ⊢ (⌜∀ b ∈ SU, s'.mem.mem (d, b) = W b⌝ : sProp 𝕄) := by
  unfold held
  iintro ⟨H, HSI⟩
  ihave %h := (SI_pointsTo_bufs_agree (qs := fun _ => fullShare) SU) $$ [HSI H]
  · isplitl [HSI]; · iexact HSI
    iexact H
  ipureintro
  exact h

theorem FIN_agree (d : Dev nD) (s' : Phys nD τ sig (Elt F)) :
    iprop(FIN m upd d ∗ SI s') ⊢ (⌜∀ r : Ref sig .tc, r.isScoped = false → s'.mem.mem (d, Proc.devRef .tc r) = Vfin m upd d (Proc.devRef .tc r)⌝ : sProp 𝕄) := by
  unfold FIN
  refine (held_agree d _ s').trans ?_
  iintro %h
  ipureintro
  exact fun r hr => h _ (mem_SU hr)

end Cert.Proof.KI

end
-- ==== Proof.KI.Run.lean ====
import proofs.«202994_g19078244729258_cont_8to1_1405_21_alg».proof.Proof.KI.Main
import proofs.«202994_g19078244729258_cont_8to1_1405_21_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ) (ρ : Dev nD → PrngReg)
variable (upd : Fin 5 → Valuation τ sig (Elt F) → Valuation τ sig (Elt F))

def fq (d : Dev nD) (s' : Phys nD τ sig (Elt F)) : Prop :=
  ∀ r : Ref sig .tc, r.isScoped = false → s'.mem.mem (d, Proc.devRef .tc r) = Vfin m upd d (Proc.devRef .tc r)

theorem hfin (d : Dev nD) (s' : Phys nD τ sig (Elt F)) : iprop(FIN m upd d ∗ SI s') ⊢ (⌜fq m upd d s'⌝ : sProp 𝕄) :=
  FIN_agree m upd d s'

def QV : PUnit × MemSt nD τ sig (Elt F) → Prop :=
  fun r => ∀ (c : Dev nD) (b : Ref sig .tc), b.isScoped = false → r.2.mem ((c.tc : Thread nD τ).loc b) = Vfin m upd c (Proc.devRef .tc b)

theorem run_main [∀ e, Nonempty (Elt F e)]
    {rdats : (p : Fin 5) → (c : Dev nD) → Pipeline.RDat τ (Elt F) (HIx 2) ℕ UU ℕ (Pipeline.pin (pcfgs (F := F)) adm p) c}
    (R : (p : Fin 5) → Pipeline.RDat.RegionSeg (pcfgs (F := F)) adm rdats (none : HIx 2) defs₀ 𝒱₀ (K (F := F)).L (K (F := F)).lev p)
    (hpre : ∀ (p : Fin 5) (d : Dev nD),
      iprop((held (T d) SU (Vin m upd d p) : sProp 𝕄) ∗ ∃ Wt, owes (T d) (0 : CellTallies nD τ sig (HIx 2)) Wt) ⊢ (R p).pre d)
    (hpost : ∀ (p : Fin 5) (d : Dev nD),
      (R p).post d ⊢ iprop((held (T d) SU (upd p (Vin m upd d p)) : sProp 𝕄) ∗ ∃ Wt, owes (T d) (0 : CellTallies nD τ sig (HIx 2)) Wt))
    (hT0 : (K (F := F)).TileObl (D (F := F)) 𝒱 (P m (Ix0 m) (Ix1 m)) v₀ 0)
    (hT1 : (K (F := F)).TileObl (D (F := F)) 𝒱 (P m (Ix0 m) (Ix1 m)) v₀ 1) :
    θ_run (Cert.KernelIdeal.defs (F := F)) (Cert.KernelIdeal.threads (F := F)) ⟨m, fun _ => 0, ρ⟩ (QV m upd) :=
  SparseCore.Cfg.θ_run_sc (K := K (F := F)) (D := D (F := F)) (𝒱 := 𝒱) (EH := EH) (P := P m (Ix0 m) (Ix1 m)) facts v₀
    (fun q hq => match q with | 0 => nomatch hq | 1 => nomatch hq)
    (fun q _ => match q with | 0 => hT0 | 1 => hT1)
    (fun q _ => SparseCore.Cfg.VecSplit.of_plain (vecSplit m (Ix0 m) (Ix1 m) q))
    m ρ main (G (F := F)) (FIN m upd) (u₀ (F := F)) (hu₀ m (Ix0 m) (Ix1 m)) (hmain m upd ρ R hpre hpost) (fq m upd) (hfin m upd) (QV m upd)
    (fun _ h c b hb => h c b hb)

theorem run_frame [∀ e, Nonempty (Elt F e)]
    {rdats : (p : Fin 5) → (c : Dev nD) → Pipeline.RDat τ (Elt F) (HIx 2) ℕ UU ℕ (Pipeline.pin (pcfgs (F := F)) adm p) c}
    (R : (p : Fin 5) → Pipeline.RDat.RegionSeg (pcfgs (F := F)) adm rdats (none : HIx 2) defs₀ 𝒱₀ (K (F := F)).L (K (F := F)).lev p)
    (hpre : ∀ (p : Fin 5) (d : Dev nD),
      iprop((held (T d) SU (Vin m upd d p) : sProp 𝕄) ∗ ∃ Wt, owes (T d) (0 : CellTallies nD τ sig (HIx 2)) Wt) ⊢ (R p).pre d)
    (hpost : ∀ (p : Fin 5) (d : Dev nD),
      (R p).post d ⊢ iprop((held (T d) SU (upd p (Vin m upd d p)) : sProp 𝕄) ∗ ∃ Wt, owes (T d) (0 : CellTallies nD τ sig (HIx 2)) Wt))
    (hT0 : (K (F := F)).TileObl (D (F := F)) 𝒱 (P m (Ix0 m) (Ix1 m)) v₀ 0)
    (hT1 : (K (F := F)).TileObl (D (F := F)) 𝒱 (P m (Ix0 m) (Ix1 m)) v₀ 1)
    (hupd : ∀ (p : Fin 5) (W : Valuation τ sig (Elt F)) (r : Ref sig .tc), r ∉ regionOuts p → upd p W (Proc.devRef .tc r) = W (Proc.devRef .tc r)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.KernelIdeal.defs (F := F)) _ _).mono (fun r h c =>
    ⟨(h c main_arg0 (by decide)).trans (Vfin_args m upd hupd c main_arg0 (by simp)),
     (h c main_arg1 (by decide)).trans (Vfin_args m upd hupd c main_arg1 (by simp)),
     (h c main_arg2 (by decide)).trans (Vfin_args m upd hupd c main_arg2 (by simp)),
     (h c main_arg3 (by decide)).trans (Vfin_args m upd hupd c main_arg3 (by simp)),
     (h c main_arg4 (by decide)).trans (Vfin_args m upd hupd c main_arg4 (by simp)),
     (h c main_arg5 (by decide)).trans (Vfin_args m upd hupd c main_arg5 (by simp)),
     (h c main_arg6 (by decide)).trans (Vfin_args m upd hupd c main_arg6 (by simp)),
     (h c main_arg7 (by decide)).trans (Vfin_args m upd hupd c main_arg7 (by simp)),
     (h c main_arg8 (by decide)).trans (Vfin_args m upd hupd c main_arg8 (by simp)),
     (h c main_arg9 (by decide)).trans (Vfin_args m upd hupd c main_arg9 (by simp))⟩)
    (run_main m ρ upd R hpre hpost hT0 hT1)

theorem run_valued [∀ e, Nonempty (Elt F e)]
    {rdats : (p : Fin 5) → (c : Dev nD) → Pipeline.RDat τ (Elt F) (HIx 2) ℕ UU ℕ (Pipeline.pin (pcfgs (F := F)) adm p) c}
    (R : (p : Fin 5) → Pipeline.RDat.RegionSeg (pcfgs (F := F)) adm rdats (none : HIx 2) defs₀ 𝒱₀ (K (F := F)).L (K (F := F)).lev p)
    (hpre : ∀ (p : Fin 5) (d : Dev nD),
      iprop((held (T d) SU (Vin m upd d p) : sProp 𝕄) ∗ ∃ Wt, owes (T d) (0 : CellTallies nD τ sig (HIx 2)) Wt) ⊢ (R p).pre d)
    (hpost : ∀ (p : Fin 5) (d : Dev nD),
      (R p).post d ⊢ iprop((held (T d) SU (upd p (Vin m upd d p)) : sProp 𝕄) ∗ ∃ Wt, owes (T d) (0 : CellTallies nD τ sig (HIx 2)) Wt))
    (hT0 : (K (F := F)).TileObl (D (F := F)) 𝒱 (P m (Ix0 m) (Ix1 m)) v₀ 0)
    (hT1 : (K (F := F)).TileObl (D (F := F)) 𝒱 (P m (Ix0 m) (Ix1 m)) v₀ 1)
    (hupd : ∀ (p : Fin 5) (W : Valuation τ sig (Elt F)) (r : Ref sig .tc), r ∉ regionOuts p → upd p W (Proc.devRef .tc r) = W (Proc.devRef .tc r)) :
    θ_run (Cert.KernelIdeal.defs (F := F)) (Cert.KernelIdeal.threads (F := F)) ⟨m, fun _ => 0, ρ⟩ (fun r => ∀ c : Dev nD,
      r.2.mem ((c.tc : Thread nD τ).loc main_v62) = Vfin m upd c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.KernelIdeal.defs (F := F)) _ _).mono (fun r h c =>
    ⟨h c main_v62 (by decide),
     (h c main_arg0 (by decide)).trans (Vfin_args m upd hupd c main_arg0 (by simp)),
     (h c main_arg1 (by decide)).trans (Vfin_args m upd hupd c main_arg1 (by simp)),
     (h c main_arg2 (by decide)).trans (Vfin_args m upd hupd c main_arg2 (by simp)),
     (h c main_arg3 (by decide)).trans (Vfin_args m upd hupd c main_arg3 (by simp)),
     (h c main_arg4 (by decide)).trans (Vfin_args m upd hupd c main_arg4 (by simp)),
     (h c main_arg5 (by decide)).trans (Vfin_args m upd hupd c main_arg5 (by simp)),
     (h c main_arg6 (by decide)).trans (Vfin_args m upd hupd c main_arg6 (by simp)),
     (h c main_arg7 (by decide)).trans (Vfin_args m upd hupd c main_arg7 (by simp)),
     (h c main_arg8 (by decide)).trans (Vfin_args m upd hupd c main_arg8 (by simp)),
     (h c main_arg9 (by decide)).trans (Vfin_args m upd hupd c main_arg9 (by simp))⟩)
    (run_main m ρ upd R hpre hpost hT0 hT1)

end Cert.Proof.KI

end
-- ==== Proof.PreFacts.lean ====
import proofs.«202994_g19078244729258_cont_8to1_1405_21_alg».proof.Pre_input_domain
import proofs.«202994_g19078244729258_cont_8to1_1405_21_alg».proof.Proof.Gen.Pre_input_domain
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_input_domain

instance subsingleton_scalar_idx : Subsingleton S_.Idx := ⟨fun a b => funext fun d => d.elim0⟩

section Generic

variable {F : FTy → Type} [FloatOps F] [hP : Cert.Pre_input_domain.Facts]

theorem idx_signed_range (a0 : FVec F S10000x128 .f32) (a1 : FVec F S10000x32x16 .f32) (a2 : IVec S10000x32 32)
    (a3 : FVec F S10000x32 .f32) (a4 : FVec F S272x256 .f32) (a5 a6 a7 : FVec F S256 .f32) (a8 a9 : FVec F S128 .f32)
    (h : Cert.Pre_input_domain.fn (F := F) a0 a1 a2 a3 a4 a5 a6 a7 a8 a9 = (fun _ => 1#1)) (i : S10000x32.Idx) :
    0 ≤ (a2 i).toInt ∧ (a2 i).toInt ≤ 9999 := by

  have h0 := congrFun h ValueIdx.ix0
  dsimp only [Cert.Pre_input_domain.fn, Cert.Pre_input_domain.fn_part1, Cert.Pre_input_domain.fn_part2,
    Idealize.ShloMosaic.andi] at h0
  simp only [IntOp.andi_eq_one] at h0
  obtain ⟨-, hall⟩ := h0

  obtain ⟨hge, hle⟩ := IntOp.andi_eq_one.1 (Host.reduce_andi_all _ _ _ _ _ hall i)

  have hge' : (0#32 : BitVec 32).toInt ≤ (a2 i).toInt := IntOp.cmpi_sge.1 hge
  have hle' : (a2 i).toInt ≤ (9999#32 : BitVec 32).toInt := IntOp.cmpi_sle.1 hle
  have e0 : (0#32 : BitVec 32).toInt = 0 := by decide
  have e1 : (9999#32 : BitVec 32).toInt = 9999 := by decide
  rw [e0] at hge'
  rw [e1] at hle'
  exact ⟨hge', hle'⟩

theorem idx_range (a0 : FVec F S10000x128 .f32) (a1 : FVec F S10000x32x16 .f32) (a2 : IVec S10000x32 32)
    (a3 : FVec F S10000x32 .f32) (a4 : FVec F S272x256 .f32) (a5 a6 a7 : FVec F S256 .f32) (a8 a9 : FVec F S128 .f32)
    (h : Cert.Pre_input_domain.fn (F := F) a0 a1 a2 a3 a4 a5 a6 a7 a8 a9 = (fun _ => 1#1)) (i : S10000x32.Idx) :
    (a2 i).toNat < 10000 := by
  obtain ⟨hge, hle⟩ := idx_signed_range a0 a1 a2 a3 a4 a5 a6 a7 a8 a9 h i
  have hw := (a2 i).isLt
  have hc := BitVec.toInt_eq_toNat_cond (a2 i)
  split_ifs at hc <;> omega

end Generic

section AtIdeal

variable [hP : Cert.Pre_input_domain.Facts]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by

  have htop : Ideal.ofBits .f32 0x7F800000#32 = ⊤ := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h

  induction x using EReal.rec with
  | bot => simp at h
  | coe r => exact ⟨r, rfl⟩
  | top => simp at h

theorem finite_inputs (a0 : FVec Ideal S10000x128 .f32) (a1 : FVec Ideal S10000x32x16 .f32) (a2 : IVec S10000x32 32)
    (a3 : FVec Ideal S10000x32 .f32) (a4 : FVec Ideal S272x256 .f32) (a5 a6 a7 : FVec Ideal S256 .f32)
    (a8 a9 : FVec Ideal S128 .f32)
    (h : Cert.Pre_input_domain.fn (F := Ideal) a0 a1 a2 a3 a4 a5 a6 a7 a8 a9 = (fun _ => 1#1)) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal)) := by
  have h0 := congrFun h ValueIdx.ix0
  dsimp only [Cert.Pre_input_domain.fn, Cert.Pre_input_domain.fn_part1, Cert.Pre_input_domain.fn_part2,
    Idealize.ShloMosaic.andi] at h0
  simp only [IntOp.andi_eq_one] at h0
  obtain ⟨⟨⟨⟨⟨⟨⟨⟨⟨c0, c1⟩, c3⟩, c4⟩, c5⟩, c6⟩, c7⟩, c8⟩, c9⟩, -⟩ := h0

  exact ⟨fun i => real_of_abs_lt_inf _ (Host.reduce_andi_all _ _ _ _ _ c0 i),
    fun i => real_of_abs_lt_inf _ (Host.reduce_andi_all _ _ _ _ _ c1 i),
    fun i => real_of_abs_lt_inf _ (Host.reduce_andi_all _ _ _ _ _ c3 i),
    fun i => real_of_abs_lt_inf _ (Host.reduce_andi_all _ _ _ _ _ c4 i),
    fun i => real_of_abs_lt_inf _ (Host.reduce_andi_all _ _ _ _ _ c5 i),
    fun i => real_of_abs_lt_inf _ (Host.reduce_andi_all _ _ _ _ _ c6 i),
    fun i => real_of_abs_lt_inf _ (Host.reduce_andi_all _ _ _ _ _ c7 i),
    fun i => real_of_abs_lt_inf _ (Host.reduce_andi_all _ _ _ _ _ c8 i),
    fun i => real_of_abs_lt_inf _ (Host.reduce_andi_all _ _ _ _ _ c9 i)⟩

section Projections

variable (a0 : FVec Ideal S10000x128 .f32) (a1 : FVec Ideal S10000x32x16 .f32) (a2 : IVec S10000x32 32)
  (a3 : FVec Ideal S10000x32 .f32) (a4 : FVec Ideal S272x256 .f32) (a5 a6 a7 : FVec Ideal S256 .f32)
  (a8 a9 : FVec Ideal S128 .f32)
  (h : Cert.Pre_input_domain.fn (F := Ideal) a0 a1 a2 a3 a4 a5 a6 a7 a8 a9 = (fun _ => 1#1))
include h

theorem finite_arg0 (i : S10000x128.Idx) : ∃ r : ℝ, a0 i = (r : EReal) :=
  (finite_inputs a0 a1 a2 a3 a4 a5 a6 a7 a8 a9 h).1 i
theorem finite_arg1 (i : S10000x32x16.Idx) : ∃ r : ℝ, a1 i = (r : EReal) :=
  (finite_inputs a0 a1 a2 a3 a4 a5 a6 a7 a8 a9 h).2.1 i
theorem finite_arg3 (i : S10000x32.Idx) : ∃ r : ℝ, a3 i = (r : EReal) :=
  (finite_inputs a0 a1 a2 a3 a4 a5 a6 a7 a8 a9 h).2.2.1 i
theorem finite_arg4 (i : S272x256.Idx) : ∃ r : ℝ, a4 i = (r : EReal) :=
  (finite_inputs a0 a1 a2 a3 a4 a5 a6 a7 a8 a9 h).2.2.2.1 i
theorem finite_arg5 (i : S256.Idx) : ∃ r : ℝ, a5 i = (r : EReal) :=
  (finite_inputs a0 a1 a2 a3 a4 a5 a6 a7 a8 a9 h).2.2.2.2.1 i
theorem finite_arg6 (i : S256.Idx) : ∃ r : ℝ, a6 i = (r : EReal) :=
  (finite_inputs a0 a1 a2 a3 a4 a5 a6 a7 a8 a9 h).2.2.2.2.2.1 i
theorem finite_arg7 (i : S256.Idx) : ∃ r : ℝ, a7 i = (r : EReal) :=
  (finite_inputs a0 a1 a2 a3 a4 a5 a6 a7 a8 a9 h).2.2.2.2.2.2.1 i
theorem finite_arg8 (i : S128.Idx) : ∃ r : ℝ, a8 i = (r : EReal) :=
  (finite_inputs a0 a1 a2 a3 a4 a5 a6 a7 a8 a9 h).2.2.2.2.2.2.2.1 i
theorem finite_arg9 (i : S128.Idx) : ∃ r : ℝ, a9 i = (r : EReal) :=
  (finite_inputs a0 a1 a2 a3 a4 a5 a6 a7 a8 a9 h).2.2.2.2.2.2.2.2 i

end Projections

end AtIdeal

end Cert.PreFacts

end
-- ==== Proof.KI.IdxRange.lean ====
import proofs.«202994_g19078244729258_cont_8to1_1405_21_alg».proof.Proof.KI.Main
import proofs.«202994_g19078244729258_cont_8to1_1405_21_alg».proof.Proof.PreFacts
import Idealize.ShloMosaic.Lib.Pipeline.Value
import Idealize.ShloMosaic.Lib.ValueLayout
import Idealize.ShloMosaic.Lib.ValueIdx

noncomputable section

namespace Cert.Proof.KI

open Cert.KernelIdeal Cert.KernelIdeal.Facts₀ Cert.KernelIdeal.Facts Idealize.ShloMosaic Idealize.ShloMosaic.ValueIdx
open Idealize.ShloMosaic.StableHlo

variable {F : FTy → Type} [FloatOps F]

section Layout

variable (V : Valuation τ sig (Elt F))

theorem idxFlat_read (t : Fin 320000) :
    (StableHlo.after (seg0 (F := F)) V (Proc.devRef .tc main_v4) : S320000.Idx → BitVec 32) (ix1 t)
      = (V (Proc.devRef .tc main_arg2) : S10000x32.Idx → BitVec 32) (ix2 ⟨t.val / 32, by have := t.isLt; omega⟩ ⟨t.val % 32, by omega⟩) := by
  after_results_simp
  show shapeCast S320000 (V (Proc.devRef .tc main_arg2) : S10000x32.Idx → BitVec 32) shapeCasts_S10000x32_S320000 (ix1 t) = _
  refine shapeCast_apply (s := S10000x32) (t := S320000) _ _ _ _ ?_
  rw [Shape.rowMajor_val_two, Shape.rowMajor_val_one]
  show t.val / 32 * 32 + t.val % 32 = t.val
  omega

theorem idxA_read (t : Fin 153600) :
    (StableHlo.after (seg0 (F := F)) V (Proc.devRef .tc main_v5) : S153600.Idx → BitVec 32) (ix1 t)
      = (V (Proc.devRef .tc main_arg2) : S10000x32.Idx → BitVec 32) (ix2 ⟨t.val / 32, by have := t.isLt; omega⟩ ⟨t.val % 32, by omega⟩) := by
  after_results_simp
  refine (extractStridedSlice_apply _ _ _ (ix1 t) (ix1 (⟨t.val, by have := t.isLt; omega⟩ : Fin 320000)) fun a => by
    match a with
    | ⟨0, _⟩ => exact (Nat.zero_add _).symm).trans ?_
  show shapeCast S320000 (V (Proc.devRef .tc main_arg2) : S10000x32.Idx → BitVec 32) shapeCasts_S10000x32_S320000
    (ix1 (⟨t.val, by have := t.isLt; omega⟩ : Fin 320000)) = _
  refine shapeCast_apply (s := S10000x32) (t := S320000) _ _ _ _ ?_
  rw [Shape.rowMajor_val_two, Shape.rowMajor_val_one]
  show t.val / 32 * 32 + t.val % 32 = t.val
  omega

theorem idxB_read (t : Fin 166400) :
    (StableHlo.after (seg1 (F := F)) V (Proc.devRef .tc main_v7) : S166400.Idx → BitVec 32) (ix1 t)
      = (V (Proc.devRef .tc main_v4) : S320000.Idx → BitVec 32) (ix1 ⟨153600 + t.val, by have := t.isLt; omega⟩) := by
  after_results_simp
  exact extractStridedSlice_apply _ _ _ (ix1 t) (ix1 (⟨153600 + t.val, by have := t.isLt; omega⟩ : Fin 320000)) fun a => by
    match a with
    | ⟨0, _⟩ => rfl

end Layout

variable (m : (ℓ : Loc nD τ sig) → Buf (Elt F) ℓ)

theorem Ix0_read (d : Dev nD) (t : Fin 153600) :
    (Ix0 m d : S153600.Idx → BitVec 32) (ix1 t)
      = (m ((d.tc : Thread nD τ).loc main_arg2) : S10000x32.Idx → BitVec 32) (ix2 ⟨t.val / 32, by have := t.isLt; omega⟩ ⟨t.val % 32, by omega⟩) :=
  idxA_read (launchContents m d) t

theorem Ix1_read (d : Dev nD) (t : Fin 166400) :
    (Ix1 m d : S166400.Idx → BitVec 32) (ix1 t)
      = (m ((d.tc : Thread nD τ).loc main_arg2) : S10000x32.Idx → BitVec 32)
          (ix2 ⟨(153600 + t.val) / 32, by have := t.isLt; omega⟩ ⟨(153600 + t.val) % 32, by omega⟩) := by
  refine (idxB_read (VB m d) t).trans ?_
  unfold VB
  rw [Function.update_of_ne (show (Proc.devRef .tc main_v4 : DevRef τ sig) ≠ out0' by decide)]
  exact idxFlat_read (launchContents m d) _

variable [hP : Cert.Pre_input_domain.Facts]

theorem Ix0_range
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = (fun _ => 1#1)) :
    ∀ (d : Dev nD) (j : S153600.Idx), ((Ix0 m d : S153600.Idx → BitVec 32) j).toNat < 10000 := by
  intro d j
  have e := (congrArg (Ix0 m d : S153600.Idx → BitVec 32) (eq_ix1 j)).trans (Ix0_read m d (j 0))
  exact lt_of_eq_of_lt (congrArg BitVec.toNat e) (Cert.PreFacts.idx_range _ _ _ _ _ _ _ _ _ _ (hpre d) _)

theorem Ix1_range
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = (fun _ => 1#1)) :
    ∀ (d : Dev nD) (j : S166400.Idx), ((Ix1 m d : S166400.Idx → BitVec 32) j).toNat < 10000 := by
  intro d j
  have e := (congrArg (Ix1 m d : S166400.Idx → BitVec 32) (eq_ix1 j)).trans (Ix1_read m d (j 0))
  exact lt_of_eq_of_lt (congrArg BitVec.toNat e) (Cert.PreFacts.idx_range _ _ _ _ _ _ _ _ _ _ (hpre d) _)

end Cert.Proof.KI

end
-- ==== Proof.KI.Frame.lean ====
import proofs.«202994_g19078244729258_cont_8to1_1405_21_alg».proof.Proof.KI.Run
import proofs.«202994_g19078244729258_cont_8to1_1405_21_alg».proof.Proof.KI.IdxRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable (F : FTy → Type) [FloatOps F]

local notation "𝕄" => MT nD τ sig (HIx 2) (Elt F) ℕ UU ℕ

/-- The frame of the program's text read at the float instance `F`: under the precondition every weakly fair run of all
    its threads ends, faulting nowhere, with the ten arguments unchanged. -/
def FrameAt [hP : Cert.Pre_input_domain.Facts] : Prop :=
  ∀ (m : (ℓ : Loc nD τ sig) → Buf (Elt F) ℓ) (g : Dev nD → PrngReg),
    (∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = (fun _ => 1#1)) →
    θ_run (Cert.KernelIdeal.defs (F := F)) (Cert.KernelIdeal.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))

variable {F}

-- The run's frame form with the tiles' index ranges read off the precondition; nothing in it depends on the instance.
theorem frame_of [∀ e, Nonempty (Elt F e)] [hP : Cert.Pre_input_domain.Facts]
    (upd : Fin 5 → Valuation τ sig (Elt F) → Valuation τ sig (Elt F))
    (hupd : ∀ (p : Fin 5) (W : Valuation τ sig (Elt F)) (r : Ref sig .tc), r ∉ regionOuts p → upd p W (Proc.devRef .tc r) = W (Proc.devRef .tc r))
    (hrec : ∀ m : (ℓ : Loc nD τ sig) → Buf (Elt F) ℓ,
      ∃ (rdats : (p : Fin 5) → (c : Dev nD) → Pipeline.RDat τ (Elt F) (HIx 2) ℕ UU ℕ (Pipeline.pin (pcfgs (F := F)) adm p) c)
        (R : (p : Fin 5) → Pipeline.RDat.RegionSeg (pcfgs (F := F)) adm rdats (none : HIx 2) defs₀ 𝒱₀ (K (F := F)).L (K (F := F)).lev p),
        (∀ (p : Fin 5) (d : Dev nD),
          iprop((held (T d) SU (Vin m upd d p) : sProp 𝕄) ∗ ∃ Wt, owes (T d) (0 : CellTallies nD τ sig (HIx 2)) Wt) ⊢ (R p).pre d)
        ∧ ∀ (p : Fin 5) (d : Dev nD),
          (R p).post d ⊢ iprop((held (T d) SU (upd p (Vin m upd d p)) : sProp 𝕄) ∗ ∃ Wt, owes (T d) (0 : CellTallies nD τ sig (HIx 2)) Wt))
    (hT0 : ∀ (m : (ℓ : Loc nD τ sig) → Buf (Elt F) ℓ) (I0 : (d : Dev nD) → Buf (Elt F) (idxLoc0 d)) (I1 : (d : Dev nD) → Buf (Elt F) (idxLoc1 d)),
      (∀ d j, (I0 d j).toNat < 10000) → (K (F := F)).TileObl (D (F := F)) 𝒱 (P m I0 I1) v₀ 0)
    (hT1 : ∀ (m : (ℓ : Loc nD τ sig) → Buf (Elt F) ℓ) (I0 : (d : Dev nD) → Buf (Elt F) (idxLoc0 d)) (I1 : (d : Dev nD) → Buf (Elt F) (idxLoc1 d)),
      (∀ d j, (I1 d j).toNat < 10000) → (K (F := F)).TileObl (D (F := F)) 𝒱 (P m I0 I1) v₀ 1) :
    FrameAt F := fun m g hpre => by
  obtain ⟨rdats, R, hp, hq⟩ := hrec m
  exact run_frame m g upd R hp hq (hT0 m _ _ (Ix0_range m hpre)) (hT1 m _ _ (Ix1_range m hpre)) hupd

end Cert.Proof.KI

end
-- ==== Proof.KI.Region6.lean ====
import proofs.«202994_g19078244729258_cont_8to1_1405_21_alg».proof.Proof.KI.Setup
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig (HIx 2) (Elt F) ℕ UU ℕ

abbrev Arr6 (c : Dev nD) : Type :=
  (w : Fin cfg6.W) → Buf (Elt F) ((cfg6.win w).arr.view.loc (c.tc : Thread nD τ))

variable (c : Dev nD) (A : Arr6 (F := F) c)

def iblk6 (w : Fin cfg6.W) (t : Fin cfg6.N) : ((cfg6.win w).xblock (cfg6.grid.coords t)).Idx → Elt F (cfg6.win w).elt :=
  ((cfg6.win w).blk t).view.read (Elt F) (A w)

abbrev rB6 : Rect S2000x128 := Rect.unit (s := S2000x128) ![0, 0] S2000x128.size inb_S2000x128_S2000x128_0_0
abbrev rV6 : Rect S1x128 := Rect.unit (s := S1x128) ![0, 0] S1x128.size inb_S1x128_S1x128_0_0

def out6 (x0 x1 : Vec F S2000x128 .f32) (x2 x3 : Vec F S1x128 .f32) : Vec F S2000x128 .f32 :=
  View.canon [⟨rB6, k6_pay1 (View.ld x1 rB6) (View.ld x2 rV6) (View.ld x3 rV6) (View.ld x0 rB6)⟩]

theorem cover6 (p0 : Vec F S2000x128 .f32) (y : S2000x128.Idx) :
    ∃ pc ∈ ([⟨rB6, p0⟩] : List (View.Piece (Elt F) S2000x128 .f32)), y ∈ pc.1.set :=
  View.cover_of_tiled [⟨rB6, p0⟩] S2000x128.size (by rfl) y

set_option maxHeartbeats 1000000 in

theorem sound_kernel6 (E : Set ℕ) (i : grid6.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole)
    (x0 x1 : Vec F S2000x128 .f32) (x2 x3 : Vec F S1x128 .f32) (Kc : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out6 x0 x1 x2 x3)) -∗ Kc ⟨⟩))
      ⊢ wp frame (wpE (defs₀ (F := F)) Variants.none c none) E (cc6__final_kernel i arg1 harg1 arg2 harg2 arg3 harg3 arg4 harg4 arg5 harg5) Kc := by
  simp only [cc6__final_kernel_eq_skeleton]; unfold cc6__final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6 _)

def dat6 : Dat τ (Elt F) (HIx 2) ℕ UU ℕ cfg6 c where
  A := A
  after w t := match w with
    | ⟨0, _⟩ => iblk6 c A 0 t
    | ⟨1, _⟩ => iblk6 c A 1 t
    | ⟨2, _⟩ => iblk6 c A 2 t
    | ⟨3, _⟩ => iblk6 c A 3 t
    | ⟨4, _⟩ => out6 (iblk6 c A 0 t) (iblk6 c A 1 t) (iblk6 c A 2 t) (iblk6 c A 3 t)
  Φ _ := Pipeline.scopedRest spec6 c
  q _ := fullShare
  owed _ := 0

theorem A6_eq (w : Fin cfg6.W) : (dat6 c A).A w = A w := by dsimp only [dat6]

theorem after6_0 (t : Fin cfg6.N) : (dat6 c A).after 0 t = iblk6 c A 0 t := by dsimp only [dat6]
theorem after6_1 (t : Fin cfg6.N) : (dat6 c A).after 1 t = iblk6 c A 1 t := by dsimp only [dat6]
theorem after6_2 (t : Fin cfg6.N) : (dat6 c A).after 2 t = iblk6 c A 2 t := by dsimp only [dat6]
theorem after6_3 (t : Fin cfg6.N) : (dat6 c A).after 3 t = iblk6 c A 3 t := by dsimp only [dat6]
theorem after6_4 (t : Fin cfg6.N) :
    (dat6 c A).after 4 t = out6 (iblk6 c A 0 t) (iblk6 c A 1 t) (iblk6 c A 2 t) (iblk6 c A 3 t) := by dsimp only [dat6]

theorem before6_0 (t : Fin cfg6.N) (d) : (dat6 c A).before 0 t d = iblk6 c A 0 t :=
  ((dat6 c A).before_in_eq_fetched 0 rfl (fun _ => rfl) (fun _ _ _ => rfl)
    (fun t => by rw [after6_0]; unfold Dat.blockOf iblk6; rw [A6_eq]; try rfl) t d).trans
    (by unfold Dat.fetched Dat.blockOf iblk6; rw [A6_eq]; try rfl)
theorem before6_1 (t : Fin cfg6.N) (d) : (dat6 c A).before 1 t d = iblk6 c A 1 t :=
  ((dat6 c A).before_in_eq_fetched 1 rfl (fun _ => rfl) (fun _ _ _ => rfl)
    (fun t => by rw [after6_1]; unfold Dat.blockOf iblk6; rw [A6_eq]; try rfl) t d).trans
    (by unfold Dat.fetched Dat.blockOf iblk6; rw [A6_eq]; try rfl)
theorem before6_2 (t : Fin cfg6.N) (d) : (dat6 c A).before 2 t d = iblk6 c A 2 t :=
  ((dat6 c A).before_in_eq_fetched 2 rfl (fun _ => rfl) (fun _ _ _ => rfl)
    (fun t => by rw [after6_2]; unfold Dat.blockOf iblk6; rw [A6_eq]; try rfl) t d).trans
    (by unfold Dat.fetched Dat.blockOf iblk6; rw [A6_eq]; try rfl)
theorem before6_3 (t : Fin cfg6.N) (d) : (dat6 c A).before 3 t d = iblk6 c A 3 t :=
  ((dat6 c A).before_in_eq_fetched 3 rfl (fun _ => rfl) (fun _ _ _ => rfl)
    (fun t => by rw [after6_3]; unfold Dat.blockOf iblk6; rw [A6_eq]; try rfl) t d).trans
    (by unfold Dat.fetched Dat.blockOf iblk6; rw [A6_eq]; try rfl)

def bodyPre6 (t : Fin cfg6.N) : sProp 𝕄 :=
  iprop((dat6 c A).Φ t.castSucc ∗ (dat6 c A).owesAt (none : HIx 2) t.castSucc
    ∗ (∃ d, owns (c : Thread nD τ) (st6_0 t) fullShare ((dat6 c A).before 0 t d))
    ∗ (∃ d, owns (c : Thread nD τ) (st6_1 t) fullShare ((dat6 c A).before 1 t d))
    ∗ (∃ d, owns (c : Thread nD τ) (st6_2 t) fullShare ((dat6 c A).before 2 t d))
    ∗ (∃ d, owns (c : Thread nD τ) (st6_3 t) fullShare ((dat6 c A).before 3 t d))
    ∗ (∃ d, owns (c : Thread nD τ) (st6_4 t) fullShare ((dat6 c A).before 4 t d)))

def bodyPost6 (t : Fin cfg6.N) : sProp 𝕄 :=
  iprop((dat6 c A).Φ t.succ ∗ (dat6 c A).owesAt (none : HIx 2) t.succ
    ∗ owns (c : Thread nD τ) (st6_0 t) fullShare ((dat6 c A).after 0 t)
    ∗ owns (c : Thread nD τ) (st6_1 t) fullShare ((dat6 c A).after 1 t)
    ∗ owns (c : Thread nD τ) (st6_2 t) fullShare ((dat6 c A).after 2 t)
    ∗ owns (c : Thread nD τ) (st6_3 t) fullShare ((dat6 c A).after 3 t)
    ∗ owns (c : Thread nD τ) (st6_4 t) fullShare ((dat6 c A).after 4 t))

theorem sound_body6 (t : Fin cfg6.N) :
    bodyPre6 c A t ⊢ wp frame (wpE (defs₀ (F := F)) Variants.none c none) Set.univ (bodyAt6 t) (fun _ => bodyPost6 c A t) := by
  unfold bodyPre6 bodyPost6 bodyAt6
  simp only [before6_0, before6_1, before6_2, before6_3]
  rw [show (dat6 c A).Φ t.succ = (dat6 c A).Φ t.castSucc from rfl,
    show (dat6 c A).owesAt (none : HIx 2) t.succ = (dat6 c A).owesAt (none : HIx 2) t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 c A 0 t) (iblk6 c A 1 t) (iblk6 c A 2 t) (iblk6 c A 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 : BodyObligation (dat6 (F := F) c A) (defs₀ (F := F)) Variants.none (none : HIx 2) Set.univ := fun t => by
  rw [bigSep_W6, bigSep_W6]
  exact sound_body6 c A t

def rdat6 (a : (p : Fin 5) → (pcfgs (F := F) p).Adm) (c : Dev nD) (A : Arr6 (F := F) c) :
    RDat τ (Elt F) (HIx 2) ℕ UU ℕ (Pipeline.pin (pcfgs (F := F)) a 4) c :=
  (dat6 c A).toR

theorem body6 (a : (p : Fin 5) → (pcfgs (F := F) p).Adm) (c : Dev nD) (A : Arr6 (F := F) c) :
    (rdat6 a c A).BodyObligation (defs₀ (F := F)) 𝒱₀ (none : HIx 2) Set.univ :=
  (body_obligation6 c A).toR

theorem hwaits6 (a : (p : Fin 5) → (pcfgs (F := F) p).Adm)
    (rdats : (p : Fin 5) → (c : Dev nD) → RDat τ (Elt F) (HIx 2) ℕ UU ℕ (Pipeline.pin (pcfgs (F := F)) a p) c)
    (howed : ∀ c t, (rdats 4 c).owed t = 0) (c : Dev nD) :
    (levAts (K (F := F)).L (K (F := F)).lev : sProp 𝕄)
      ⊢ RDat.cellsWaits (Pipeline.pin (pcfgs (F := F)) a) rdats (none : HIx 2) 4 c :=
  RDat.hwaits_of_owed_zero (pcfgs (F := F)) a rdats (none : HIx 2) (K (F := F)).L (K (F := F)).lev 4 howed c

theorem hz6 : (![0, 0] : Fin 2 → Nat) = fun _ => 0 := funext fun a => by fin_cases a <;> rfl

def fin6 (x n sc sh : F .f32) : F .f32 :=
  Scalar.select
    (FloatOps.cmpf .one
      (FloatOps.subf (FloatOps.addf x (FloatOps.addf (FloatOps.mulf n sc) sh)) (Scalar.ofBits .f32 0x00000000#32))
      (FloatOps.subf (FloatOps.addf x (FloatOps.addf (FloatOps.mulf n sc) sh)) (Scalar.ofBits .f32 0x00000000#32)))
    (FloatOps.addf (FloatOps.addf x (FloatOps.addf (FloatOps.mulf n sc) sh)) (Scalar.ofBits .f32 0x00000000#32))
    (FloatOps.addf
      (FloatOps.maximumf (FloatOps.addf x (FloatOps.addf (FloatOps.mulf n sc) sh)) (Scalar.ofBits .f32 0x00000000#32))
      (FloatOps.log1p (FloatOps.exp (FloatOps.subf (Scalar.ofBits .f32 0x00000000#32)
        (FloatOps.absf (FloatOps.subf (FloatOps.addf x (FloatOps.addf (FloatOps.mulf n sc) sh)) (Scalar.ofBits .f32 0x00000000#32)))))))

def G6 (atom ns : Vec F S10000x128 .f32) (scale shift : Vec F S1x128 .f32) : Vec F S10000x128 .f32 :=
  fun i => fin6 (atom i) (ns i) (scale (ValueIdx.ix2 0 (i 1))) (shift (ValueIdx.ix2 0 (i 1)))

theorem bcast6_apply (v : Vec F S1x128 .f32) (j : S2000x128.Idx) :
    broadcastTo S2000x128 v broadcasts_S1x128_S2000x128 j = v (ValueIdx.ix2 0 (j 1)) := by
  unfold broadcastTo
  congr 1
  funext a
  match a with
  | ⟨0, _⟩ => rfl
  | ⟨1, _⟩ => rfl

theorem pay6_apply (v0 : Vec F S2000x128 .f32) (v2 v6 : Vec F S1x128 .f32) (v10 : Vec F S2000x128 .f32) (j : S2000x128.Idx) :
    k6_pay1 v0 v2 v6 v10 j = fin6 (v10 j) (v0 j) (v2 (ValueIdx.ix2 0 (j 1))) (v6 (ValueIdx.ix2 0 (j 1))) := by
  have e1 : shapeCast S2000x128 v0 shapeCasts_S2000x128_S2000x128 = v0 := shapeCast_self _ _
  have e2 : shapeCast S1x128 v2 shapeCasts_S1x128_S1x128 = v2 := shapeCast_self _ _
  have e3 : shapeCast S1x128 v6 shapeCasts_S1x128_S1x128 = v6 := shapeCast_self _ _
  unfold k6_pay1
  rw [e1, e2, e3]
  show fin6 (v10 j) (v0 j) (broadcastTo S2000x128 v2 broadcasts_S1x128_S2000x128 j) (broadcastTo S2000x128 v6 broadcasts_S1x128_S2000x128 j) = _
  rw [bcast6_apply, bcast6_apply]

theorem idx_facts6 : ∀ t : Fin cfg6.N,
    win6_0.index t (0 : Fin 2) = win6_4.index t (0 : Fin 2) ∧ win6_0.index t (1 : Fin 2) = win6_4.index t (1 : Fin 2)
    ∧ win6_1.index t (0 : Fin 2) = win6_4.index t (0 : Fin 2) ∧ win6_1.index t (1 : Fin 2) = win6_4.index t (1 : Fin 2)
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

theorem idx_onto6 : ∀ q0 : Fin 5, ∃ t : Fin cfg6.N, win6_4.index t = ![q0.val, 0] :=
  (by decide +kernel : ∀ q0 : Fin 5, ∃ t : Fin grid6.N, win6_4.index t = ![q0.val, 0])

set_option maxHeartbeats 1000000 in

theorem flushed6_eq (t : Fin cfg6.N) :
    (dat6 c A).flushed 4 t = ((cfg6.win 4).blk t).view.read (Elt F) (G6 (A 0) (A 1) (A 2) (A 3)) := by
  show (cfg6.win 4).cut (grid6.coords t) ((dat6 c A).after 4 t) = _
  rw [after6_4]
  unfold out6
  rw [View.canon_unit_zero hz6]
  simp only [View.ld_unit_zero (S := S2000x128) hz6, View.ld_unit_zero (S := S1x128) hz6]
  obtain ⟨e0, e1, e2, e3, e4, e5, e6, e7, e8, e9⟩ := idx_facts6 t
  funext j
  show k6_pay1 (iblk6 c A 1 t) (iblk6 c A 2 t) (iblk6 c A 3 t) (iblk6 c A 0 t) j
    = G6 (A 0) (A 1) (A 2) (A 3) (((cfg6.win 4).blk t).view.emb j)
  rw [pay6_apply]
  unfold G6 iblk6
  show fin6 (A 0 (((cfg6.win 0).blk t).view.emb j)) (A 1 (((cfg6.win 1).blk t).view.emb j))
      (A 2 (((cfg6.win 2).blk t).view.emb (ValueIdx.ix2 0 (j 1)))) (A 3 (((cfg6.win 3).blk t).view.emb (ValueIdx.ix2 0 (j 1))))
    = fin6 (A 0 (((cfg6.win 4).blk t).view.emb j)) (A 1 (((cfg6.win 4).blk t).view.emb j))
      (A 2 (ValueIdx.ix2 0 ((((cfg6.win 4).blk t).view.emb j) 1))) (A 3 (ValueIdx.ix2 0 ((((cfg6.win 4).blk t).view.emb j) 1)))
  have h0 : ((cfg6.win 0).blk t).view.emb j = ((cfg6.win 4).blk t).view.emb j := by
    funext a; apply Fin.ext
    match a with
    | ⟨0, _⟩ => show win6_0.index t (0 : Fin 2) * 2000 + 1 * (j 0).val = win6_4.index t (0 : Fin 2) * 2000 + 1 * (j 0).val; omega
    | ⟨1, _⟩ => show win6_0.index t (1 : Fin 2) * 128 + 1 * (j 1).val = win6_4.index t (1 : Fin 2) * 128 + 1 * (j 1).val; omega
  have h1 : ((cfg6.win 1).blk t).view.emb j = ((cfg6.win 4).blk t).view.emb j := by
    funext a; apply Fin.ext
    match a with
    | ⟨0, _⟩ => show win6_1.index t (0 : Fin 2) * 2000 + 1 * (j 0).val = win6_4.index t (0 : Fin 2) * 2000 + 1 * (j 0).val; omega
    | ⟨1, _⟩ => show win6_1.index t (1 : Fin 2) * 128 + 1 * (j 1).val = win6_4.index t (1 : Fin 2) * 128 + 1 * (j 1).val; omega
  have h2 : ((cfg6.win 2).blk t).view.emb (ValueIdx.ix2 0 (j 1)) = ValueIdx.ix2 0 ((((cfg6.win 4).blk t).view.emb j) 1) := by
    funext a; apply Fin.ext
    match a with
    | ⟨0, _⟩ => show win6_2.index t (0 : Fin 2) * 1 + 1 * 0 = 0; omega
    | ⟨1, _⟩ => show win6_2.index t (1 : Fin 2) * 128 + 1 * (j 1).val = win6_4.index t (1 : Fin 2) * 128 + 1 * (j 1).val; omega
  have h3 : ((cfg6.win 3).blk t).view.emb (ValueIdx.ix2 0 (j 1)) = ValueIdx.ix2 0 ((((cfg6.win 4).blk t).view.emb j) 1) := by
    funext a; apply Fin.ext
    match a with
    | ⟨0, _⟩ => show win6_3.index t (0 : Fin 2) * 1 + 1 * 0 = 0; omega
    | ⟨1, _⟩ => show win6_3.index t (1 : Fin 2) * 128 + 1 * (j 1).val = win6_4.index t (1 : Fin 2) * 128 + 1 * (j 1).val; omega
  rw [h0, h1, h2, h3]
  rfl

theorem mem_blk6 (t : Fin cfg6.N) (i : S10000x128.Idx) :
    i ∈ ((cfg6.win 4).blk t).view.set ↔ ∀ a : Fin 2, win6_4.index t a * S2000x128.size a ≤ (i a).val ∧ (i a).val < win6_4.index t a * S2000x128.size a + S2000x128.size a := by
  show i ∈ ((View.whole main_v62).slice (win6_4.rect t)).set ↔ _
  rw [View.set_slice_whole, Rect.mem_set_unit]
  exact Iff.rfl

theorem cover6_arr (i : S10000x128.Idx) :
    ∃ t : Fin cfg6.N, (cfg6.win 4).flush t = true ∧ i ∈ ((cfg6.win 4).blk t).view.set := by
  have hi0 : (i 0).val < 10000 := (i 0).isLt
  have hi1 : (i 1).val < 128 := (i 1).isLt
  obtain ⟨t, ht⟩ := idx_onto6 ⟨(i 0).val / 2000, by omega⟩
  have q0 : win6_4.index t (0 : Fin 2) = (i 0).val / 2000 := congrFun ht 0
  have q1 : win6_4.index t (1 : Fin 2) = 0 := congrFun ht 1
  refine ⟨t, flush6_4 t, ?_⟩
  rw [mem_blk6]
  intro a
  match a with
  | ⟨0, _⟩ => show win6_4.index t (0 : Fin 2) * 2000 ≤ (i 0).val ∧ (i 0).val < win6_4.index t (0 : Fin 2) * 2000 + 2000; omega
  | ⟨1, _⟩ => show win6_4.index t (1 : Fin 2) * 128 ≤ (i 1).val ∧ (i 1).val < win6_4.index t (1 : Fin 2) * 128 + 128; omega

theorem arrAt6_out : (dat6 c A).arrAt 4 cfg6.N = G6 (A 0) (A 1) (A 2) (A 3) :=
  (dat6 c A).arrAt_eq_of_cover 4 (G6 (A 0) (A 1) (A 2) (A 3)) (fun t _ => flushed6_eq c A t) cover6_arr

theorem ArrAt6_out (a : (p : Fin 5) → (pcfgs (F := F) p).Adm) (G) (h : (rdat6 a c A).ArrAt 4 cfg6.N G) :
    G = G6 (A 0) (A 1) (A 2) (A 3) :=
  ((dat6 c A).toR_arrAt 4 cfg6.N G h).trans (arrAt6_out c A)

theorem ArrAt6_in (a : (p : Fin 5) → (pcfgs (F := F) p).Adm) (w : Fin cfg6.W) (hw : (cfg6.win w).isOut = false) (n : ℕ) (G)
    (h : (rdat6 a c A).ArrAt w n G) : G = A w :=
  ((dat6 c A).toR_arrAt w n G h).trans (((dat6 c A).arrAt_in w hw n).trans (A6_eq c A w))

end Cert.Proof.KI

end
-- ==== Proof.KI.Region2.lean ====
import proofs.«202994_g19078244729258_cont_8to1_1405_21_alg».proof.Proof.KI.Setup
import Idealize.ShloMosaic.Lib.Pipeline.FrameBody
import Idealize.ShloMosaic.Lib.Pipeline.Value

noncomputable section

namespace Cert.Proof.KI.R2

open Cert.KernelIdeal Cert.KernelIdeal.Gen Cert.Proof.KI

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [∀ e, Nonempty (Elt F e)]

local notation "𝕄" => MT nD τ sig (HIx 2) (Elt F) ℕ UU ℕ

abbrev Arrs (c : Dev nD) : Type := (w : Fin cfg2.W) → Buf (Elt F) ((cfg2.win w).arr.view.loc (c.tc : Thread nD τ))

variable (A : (c : Dev nD) → Arrs (F := F) c)

def inBlk (c : Dev nD) (w : Fin cfg2.W) (t : Fin cfg2.N) : (cfg2.win w).block.Idx → Elt F (cfg2.win w).elt :=
  (cfg2.win w).fill (cfg2.grid.coords t) (fun _ => Classical.arbitrary _) (((cfg2.win w).blk t).view.read (Elt F) (A c w))

def paySum (c : Dev nD) (t : Fin cfg2.N) : FVec F S1x256 .f32 :=
  k2_pay4 (inBlk A c 0 t) (inBlk A c 3 t) (inBlk A c 6 t) (inBlk A c 1 t) (inBlk A c 4 t) (inBlk A c 2 t) (inBlk A c 5 t)

def paySq (c : Dev nD) (t : Fin cfg2.N) : FVec F S1x256 .f32 :=
  k2_pay5 (inBlk A c 0 t) (inBlk A c 3 t) (inBlk A c 6 t) (inBlk A c 1 t) (inBlk A c 4 t) (inBlk A c 2 t) (inBlk A c 5 t)

def stepSum (c : Dev nD) (t : Fin cfg2.N) (Y : Vec F S1x256 .f32) : Vec F S1x256 .f32 :=
  k2_pay1 (paySum A c t) (if t.val = 0 then k2_pay6 (F := F) else Y)
def stepSq (c : Dev nD) (t : Fin cfg2.N) (Y : Vec F S1x256 .f32) : Vec F S1x256 .f32 :=
  k2_pay2 (paySq A c t) (if t.val = 0 then k2_pay7 (F := F) else Y)

def rdat (c : Dev nD) : RDat τ (Elt F) (HIx 2) ℕ UU ℕ cfg2 c where
  A := A c
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = stepSum A c t Y
    | ⟨8, _⟩ => fun Y X => X = stepSq A c t Y
    | ⟨_ + 9, h⟩ => absurd h (Nat.not_lt.2 (Nat.le_add_left _ _))
  Φ _ := Pipeline.scopedRest (Ix := HIx 2) (Name := ℕ) (U := UU) (Lvl := ℕ) (Val := Elt F) cfg2.spec c
  q _ := fullShare
  owed _ := 0

theorem rdat_A (c : Dev nD) (w : Fin cfg2.W) : (rdat A c).A w = A c w := rfl
theorem rdat_owed (c : Dev nD) (t : Fin (cfg2.N + 1)) : (rdat A c).owed t = 0 := rfl
theorem rdat_q (c : Dev nD) (w : Fin cfg2.W) : (rdat A c).q w = fullShare := rfl
theorem rdat_Φ (c : Dev nD) (t : Fin (cfg2.N + 1)) :
    (rdat A c).Φ t = Pipeline.scopedRest (Ix := HIx 2) (Name := ℕ) (U := UU) (Lvl := ℕ) (Val := Elt F) cfg2.spec c := rfl

abbrev cond (i : grid2.Coords) : Prop :=
  (Scalar.cmpi .ne (Scalar.extui (Scalar.cmpi .eq (BitVec.ofNat 32 (i 0).val) 0#32)) 0#32) = 1#1

theorem hcond : ∀ t : Fin cfg2.N, cond (grid2.coords t) ↔ t.val = 0 :=
  (by decide +kernel : ∀ t : Fin grid2.N, cond (grid2.coords t) ↔ t.val = 0)

theorem hz2 : (![0, 0] : Fin 2 → ℕ) = fun _ => 0 := by funext a; fin_cases a <;> rfl
theorem hz3 : (![0, 0, 0] : Fin 3 → ℕ) = fun _ => 0 := by funext a; fin_cases a <;> rfl

theorem read_store_row {κ : Kind} {sp : Space} (v : View sig κ sp S1x256 .f32) (f : v.ty.Contents (Elt F))
    (inb : ∀ a, (![0, 0] : Fin 2 → ℕ) a + S1x256.size a ≤ S1x256.size a) (w : S1x256.Idx → Elt F .f32)
    (L : List (View.Piece (Elt F) S1x256 .f32)) :
    v.read (Elt F) (v.writes (Elt F) f ((⟨Rect.unit ![0, 0] S1x256.size inb, w⟩ : View.Piece (Elt F) S1x256 .f32) :: L)) = w := by
  rw [View.read_writes_eq_canon v f _ (fun y => ⟨_, List.mem_cons_self, by
    rw [Rect.mem_set_unit]; intro a; exact ⟨by rw [hz2]; exact Nat.zero_le _, by rw [hz2]; simpa using (y a).isLt⟩⟩)]
  exact View.canon_cons_unit_zero (S := S1x256) hz2 inb w L

set_option maxHeartbeats 1600000 in

theorem run_first (c : Dev nD) (i : grid2.Coords) (hc : cond i) (arg1 : Memref sig .tc .vmem S400x128 .f32) (harg1 : arg1.IsWhole) (arg2 : Memref sig .tc .vmem S400x32x128 .f32) (harg2 : arg2.IsWhole) (arg3 : Memref sig .tc .vmem S16x12800 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S16x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (x0 : Vec F S400x128 .f32) (x1 : Vec F S400x32x128 .f32) (x2 : Vec F S16x12800 .f32) (x3 : Vec F S128x256 .f32) (x4 : Vec F S128x256 .f32) (x5 : Vec F S16x256 .f32) (x6 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay1 (k2_pay4 x0 x3 x6 x1 x4 x2 x5) (k2_pay6 (F := F)))
            ∗ owns (c : Thread nD τ) arg9 fullShare (k2_pay2 (k2_pay5 x0 x3 x6 x1 x4 x2 x5) (k2_pay7 (F := F)))) -∗ K ⟨⟩))
      ⊢ wp frame (wpE (defs₀ (F := F)) 𝒱₀ c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [read_store_row]
    sl_unfold_words
    simp only [View.readAt_eq_ld, harg1.read_unread, harg2.read_unread, harg3.read_unread, harg4.read_unread, harg5.read_unread, harg6.read_unread, harg7.read_unread, harg8.read_unread, harg9.read_unread,
      View.ld_unit_zero (S := S400x128) hz2, View.ld_unit_zero (S := S400x32x128) hz3, View.ld_unit_zero (S := S16x12800) hz2, View.ld_unit_zero (S := S128x256) hz2, View.ld_unit_zero (S := S16x256) hz2, View.ld_unit_zero (S := S1x256) hz2,
      View.readCov_unit_zero (S := S1x256) _ hz2]
  · iexists _; isplitr
    swap; · iexact H9
    ipureintro
    rw [read_store_row]
    sl_unfold_words
    simp only [View.readAt_eq_ld, harg1.read_unread, harg2.read_unread, harg3.read_unread, harg4.read_unread, harg5.read_unread, harg6.read_unread, harg7.read_unread, harg8.read_unread, harg9.read_unread,
      View.ld_unit_zero (S := S400x128) hz2, View.ld_unit_zero (S := S400x32x128) hz3, View.ld_unit_zero (S := S16x12800) hz2, View.ld_unit_zero (S := S128x256) hz2, View.ld_unit_zero (S := S16x256) hz2, View.ld_unit_zero (S := S1x256) hz2,
      View.readCov_unit_zero (S := S1x256) _ hz2]

set_option maxHeartbeats 1600000 in

theorem run_later (c : Dev nD) (i : grid2.Coords) (hc : ¬cond i) (arg1 : Memref sig .tc .vmem S400x128 .f32) (harg1 : arg1.IsWhole) (arg2 : Memref sig .tc .vmem S400x32x128 .f32) (harg2 : arg2.IsWhole) (arg3 : Memref sig .tc .vmem S16x12800 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S16x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (x0 : Vec F S400x128 .f32) (x1 : Vec F S400x32x128 .f32) (x2 : Vec F S16x12800 .f32) (x3 : Vec F S128x256 .f32) (x4 : Vec F S128x256 .f32) (x5 : Vec F S16x256 .f32) (x6 : Vec F S1x256 .f32) (y8 : Vec F S1x256 .f32) (y9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k2_pay1 (k2_pay4 x0 x3 x6 x1 x4 x2 x5) y8)
            ∗ owns (c : Thread nD τ) arg9 fullShare (k2_pay2 (k2_pay5 x0 x3 x6 x1 x4 x2 x5) y9)) -∗ K ⟨⟩))
      ⊢ wp frame (wpE (defs₀ (F := F)) 𝒱₀ c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [read_store_row]
    sl_unfold_words
    simp only [View.readAt_eq_ld, harg1.read_unread, harg2.read_unread, harg3.read_unread, harg4.read_unread, harg5.read_unread, harg6.read_unread, harg7.read_unread, harg8.read_unread, harg9.read_unread,
      View.ld_unit_zero (S := S400x128) hz2, View.ld_unit_zero (S := S400x32x128) hz3, View.ld_unit_zero (S := S16x12800) hz2, View.ld_unit_zero (S := S128x256) hz2, View.ld_unit_zero (S := S16x256) hz2, View.ld_unit_zero (S := S1x256) hz2,
      View.readCov_unit_zero (S := S1x256) _ hz2]
  · iexists _; isplitr
    swap; · iexact H9
    ipureintro
    rw [read_store_row]
    sl_unfold_words
    simp only [View.readAt_eq_ld, harg1.read_unread, harg2.read_unread, harg3.read_unread, harg4.read_unread, harg5.read_unread, harg6.read_unread, harg7.read_unread, harg8.read_unread, harg9.read_unread,
      View.ld_unit_zero (S := S400x128) hz2, View.ld_unit_zero (S := S400x32x128) hz3, View.ld_unit_zero (S := S16x12800) hz2, View.ld_unit_zero (S := S128x256) hz2, View.ld_unit_zero (S := S16x256) hz2, View.ld_unit_zero (S := S1x256) hz2,
      View.readCov_unit_zero (S := S1x256) _ hz2]

theorem fetched_eq (c : Dev nD) (w : Fin cfg2.W) (hclip : ∀ i a, (cfg2.win w).clip i a = none) (t : Fin cfg2.N)
    (d : (cfg2.win w).block.Idx → Elt F (cfg2.win w).elt) : (rdat A c).fetched w t d = inBlk A c w t :=
  Pipeline.Dat.fetched_of_clip_none
    ({ A := (rdat A c).A, after := fun _ _ _ => Classical.arbitrary _, Φ := (rdat A c).Φ, q := (rdat A c).q, owed := (rdat A c).owed } :
      Pipeline.Dat τ (Elt F) (HIx 2) ℕ UU ℕ cfg2 c) w t (hclip _) d (fun _ => Classical.arbitrary _)

theorem finds_in (c : Dev nD) (w : Fin cfg2.W) (hw : (cfg2.win w).isOut = false) (hclip : ∀ i a, (cfg2.win w).clip i a = none)
    (hkeep : ∀ t Y X, (rdat A c).after w t Y X → X = Y) (t : Fin cfg2.N)
    (Y : (cfg2.win w).block.Idx → Elt F (cfg2.win w).elt) (h : (rdat A c).Finds w t Y) : Y = inBlk A c w t := by
  obtain ⟨d, rfl⟩ := (rdat A c).finds_in_eq_fetched w hw
    (fun t t' _ => funext fun a => (hclip _ a).trans (hclip _ a).symm) hkeep t Y h
  exact fetched_eq A c w hclip t d

def bodyPre (c : Dev nD) (t : Fin cfg2.N) (Y : (w : Fin cfg2.W) → (cfg2.win w).block.Idx → Elt F (cfg2.win w).elt) : sProp 𝕄 :=
  iprop((rdat A c).Φ t.castSucc ∗ (rdat A c).owesAt (none : HIx 2) t.castSucc
    ∗ owns (c : Thread nD τ) (win2_0.stage (cfg2.slots t 0)) fullShare (Y 0)
    ∗ owns (c : Thread nD τ) (win2_1.stage (cfg2.slots t 1)) fullShare (Y 1)
    ∗ owns (c : Thread nD τ) (win2_2.stage (cfg2.slots t 2)) fullShare (Y 2)
    ∗ owns (c : Thread nD τ) (win2_3.stage (cfg2.slots t 3)) fullShare (Y 3)
    ∗ owns (c : Thread nD τ) (win2_4.stage (cfg2.slots t 4)) fullShare (Y 4)
    ∗ owns (c : Thread nD τ) (win2_5.stage (cfg2.slots t 5)) fullShare (Y 5)
    ∗ owns (c : Thread nD τ) (win2_6.stage (cfg2.slots t 6)) fullShare (Y 6)
    ∗ owns (c : Thread nD τ) (win2_7.stage (cfg2.slots t 7)) fullShare (Y 7)
    ∗ owns (c : Thread nD τ) (win2_8.stage (cfg2.slots t 8)) fullShare (Y 8))

def bodyPost (c : Dev nD) (t : Fin cfg2.N) (Y : (w : Fin cfg2.W) → (cfg2.win w).block.Idx → Elt F (cfg2.win w).elt) : sProp 𝕄 :=
  iprop((rdat A c).Φ t.succ ∗ (rdat A c).owesAt (none : HIx 2) t.succ
    ∗ (∃ X, ⌜(rdat A c).after 0 t (Y 0) X⌝ ∗ owns (c : Thread nD τ) (win2_0.stage (cfg2.slots t 0)) fullShare X)
    ∗ (∃ X, ⌜(rdat A c).after 1 t (Y 1) X⌝ ∗ owns (c : Thread nD τ) (win2_1.stage (cfg2.slots t 1)) fullShare X)
    ∗ (∃ X, ⌜(rdat A c).after 2 t (Y 2) X⌝ ∗ owns (c : Thread nD τ) (win2_2.stage (cfg2.slots t 2)) fullShare X)
    ∗ (∃ X, ⌜(rdat A c).after 3 t (Y 3) X⌝ ∗ owns (c : Thread nD τ) (win2_3.stage (cfg2.slots t 3)) fullShare X)
    ∗ (∃ X, ⌜(rdat A c).after 4 t (Y 4) X⌝ ∗ owns (c : Thread nD τ) (win2_4.stage (cfg2.slots t 4)) fullShare X)
    ∗ (∃ X, ⌜(rdat A c).after 5 t (Y 5) X⌝ ∗ owns (c : Thread nD τ) (win2_5.stage (cfg2.slots t 5)) fullShare X)
    ∗ (∃ X, ⌜(rdat A c).after 6 t (Y 6) X⌝ ∗ owns (c : Thread nD τ) (win2_6.stage (cfg2.slots t 6)) fullShare X)
    ∗ (∃ X, ⌜(rdat A c).after 7 t (Y 7) X⌝ ∗ owns (c : Thread nD τ) (win2_7.stage (cfg2.slots t 7)) fullShare X)
    ∗ (∃ X, ⌜(rdat A c).after 8 t (Y 8) X⌝ ∗ owns (c : Thread nD τ) (win2_8.stage (cfg2.slots t 8)) fullShare X))

set_option maxHeartbeats 1600000 in

theorem sound_body (c : Dev nD) (t : Fin cfg2.N) (Y : (w : Fin cfg2.W) → (cfg2.win w).block.Idx → Elt F (cfg2.win w).elt)
    (e0 : Y 0 = inBlk A c 0 t) (e1 : Y 1 = inBlk A c 1 t) (e2 : Y 2 = inBlk A c 2 t) (e3 : Y 3 = inBlk A c 3 t) (e4 : Y 4 = inBlk A c 4 t) (e5 : Y 5 = inBlk A c 5 t) (e6 : Y 6 = inBlk A c 6 t) :
    bodyPre A c t Y ⊢ wp frame (wpE (defs₀ (F := F)) 𝒱₀ c none) Set.univ (bodyAt2 t) (fun _ => bodyPost A c t Y) := by
  unfold bodyPre bodyPost bodyAt2
  rw [show (rdat A c).Φ t.succ = (rdat A c).Φ t.castSucc from rfl,
    show (rdat A c).owesAt (none : HIx 2) t.succ = (rdat A c).owesAt (none : HIx 2) t.castSucc from rfl]
  iintro ⟨HΦ, Ho, H0, H1, H2, H3, H4, H5, H6, H7, H8⟩
  by_cases h0 : t.val = 0
  · have e7 : stepSum A c t (Y 7) = k2_pay1 (k2_pay4 (Y 0) (Y 3) (Y 6) (Y 1) (Y 4) (Y 2) (Y 5)) (k2_pay6 (F := F)) := by
      unfold stepSum paySum; rw [if_pos h0, ← e0, ← e1, ← e2, ← e3, ← e4, ← e5, ← e6]
    have e8 : stepSq A c t (Y 8) = k2_pay2 (k2_pay5 (Y 0) (Y 3) (Y 6) (Y 1) (Y 4) (Y 2) (Y 5)) (k2_pay7 (F := F)) := by
      unfold stepSq paySq; rw [if_pos h0, ← e0, ← e1, ← e2, ← e3, ← e4, ← e5, ← e6]
    iapply (run_first c (grid2.coords t) ((hcond t).mpr h0) _ _ _ _ _ _ _ _ _ _ _ _ _ _ _ _ _ _ (Y 0) (Y 1) (Y 2) (Y 3) (Y 4) (Y 5) (Y 6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]
    · iexists (Y 0); isplitr; · ipureintro; exact (rfl : Y 0 = Y 0)
      iexact H0
    isplitl [H1]
    · iexists (Y 1); isplitr; · ipureintro; exact (rfl : Y 1 = Y 1)
      iexact H1
    isplitl [H2]
    · iexists (Y 2); isplitr; · ipureintro; exact (rfl : Y 2 = Y 2)
      iexact H2
    isplitl [H3]
    · iexists (Y 3); isplitr; · ipureintro; exact (rfl : Y 3 = Y 3)
      iexact H3
    isplitl [H4]
    · iexists (Y 4); isplitr; · ipureintro; exact (rfl : Y 4 = Y 4)
      iexact H4
    isplitl [H5]
    · iexists (Y 5); isplitr; · ipureintro; exact (rfl : Y 5 = Y 5)
      iexact H5
    isplitl [H6]
    · iexists (Y 6); isplitr; · ipureintro; exact (rfl : Y 6 = Y 6)
      iexact H6
    isplitl [H7]
    · iexists (stepSum A c t (Y 7)); isplitr; · ipureintro; exact (rfl : stepSum A c t (Y 7) = stepSum A c t (Y 7))
      rw [e7]; iexact H7
    · iexists (stepSq A c t (Y 8)); isplitr; · ipureintro; exact (rfl : stepSq A c t (Y 8) = stepSq A c t (Y 8))
      rw [e8]; iexact H8
  · have e7 : stepSum A c t (Y 7) = k2_pay1 (k2_pay4 (Y 0) (Y 3) (Y 6) (Y 1) (Y 4) (Y 2) (Y 5)) (Y 7) := by
      unfold stepSum paySum; rw [if_neg h0, ← e0, ← e1, ← e2, ← e3, ← e4, ← e5, ← e6]
    have e8 : stepSq A c t (Y 8) = k2_pay2 (k2_pay5 (Y 0) (Y 3) (Y 6) (Y 1) (Y 4) (Y 2) (Y 5)) (Y 8) := by
      unfold stepSq paySq; rw [if_neg h0, ← e0, ← e1, ← e2, ← e3, ← e4, ← e5, ← e6]
    iapply (run_later c (grid2.coords t) (fun h => h0 ((hcond t).mp h)) _ _ _ _ _ _ _ _ _ _ _ _ _ _ _ _ _ _ (Y 0) (Y 1) (Y 2) (Y 3) (Y 4) (Y 5) (Y 6) (Y 7) (Y 8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]
    · iexists (Y 0); isplitr; · ipureintro; exact (rfl : Y 0 = Y 0)
      iexact H0
    isplitl [H1]
    · iexists (Y 1); isplitr; · ipureintro; exact (rfl : Y 1 = Y 1)
      iexact H1
    isplitl [H2]
    · iexists (Y 2); isplitr; · ipureintro; exact (rfl : Y 2 = Y 2)
      iexact H2
    isplitl [H3]
    · iexists (Y 3); isplitr; · ipureintro; exact (rfl : Y 3 = Y 3)
      iexact H3
    isplitl [H4]
    · iexists (Y 4); isplitr; · ipureintro; exact (rfl : Y 4 = Y 4)
      iexact H4
    isplitl [H5]
    · iexists (Y 5); isplitr; · ipureintro; exact (rfl : Y 5 = Y 5)
      iexact H5
    isplitl [H6]
    · iexists (Y 6); isplitr; · ipureintro; exact (rfl : Y 6 = Y 6)
      iexact H6
    isplitl [H7]
    · iexists (stepSum A c t (Y 7)); isplitr; · ipureintro; exact (rfl : stepSum A c t (Y 7) = stepSum A c t (Y 7))
      rw [e7]; iexact H7
    · iexists (stepSq A c t (Y 8)); isplitr; · ipureintro; exact (rfl : stepSq A c t (Y 8) = stepSq A c t (Y 8))
      rw [e8]; iexact H8

theorem body (c : Dev nD) : (rdat A c).BodyObligation (defs₀ (F := F)) 𝒱₀ (none : HIx 2) Set.univ := fun t Y hY => by
  rw [bigSep_W2, bigSep_W2]
  exact sound_body A c t Y
      (finds_in A c 0 rfl (fun _ _ => rfl) (fun _ _ _ h => h) t _ (hY 0))
      (finds_in A c 1 rfl (fun _ _ => rfl) (fun _ _ _ h => h) t _ (hY 1))
      (finds_in A c 2 rfl (fun _ _ => rfl) (fun _ _ _ h => h) t _ (hY 2))
      (finds_in A c 3 rfl (fun _ _ => rfl) (fun _ _ _ h => h) t _ (hY 3))
      (finds_in A c 4 rfl (fun _ _ => rfl) (fun _ _ _ h => h) t _ (hY 4))
      (finds_in A c 5 rfl (fun _ _ => rfl) (fun _ _ _ h => h) t _ (hY 5))
      (finds_in A c 6 rfl (fun _ _ => rfl) (fun _ _ _ h => h) t _ (hY 6))

def sumAt (c : Dev nD) : (n : ℕ) → n < cfg2.N → Vec F S1x256 .f32
  | 0, h => stepSum A c ⟨0, h⟩ (k2_pay6 (F := F))
  | n + 1, h => stepSum A c ⟨n + 1, h⟩ (sumAt c n (Nat.lt_of_succ_lt h))
def sqAt (c : Dev nD) : (n : ℕ) → n < cfg2.N → Vec F S1x256 .f32
  | 0, h => stepSq A c ⟨0, h⟩ (k2_pay7 (F := F))
  | n + 1, h => stepSq A c ⟨n + 1, h⟩ (sqAt c n (Nat.lt_of_succ_lt h))

theorem fetch_7 (t : Fin cfg2.N) : (cfg2.win 7).fetch t = false := rfl

theorem finds_7 (c : Dev nD) (t : Fin cfg2.N) (ht : t.val ≠ 0) (Y : (cfg2.win 7).block.Idx → Elt F (cfg2.win 7).elt)
    (h : (rdat A c).Finds 7 t Y) :
    (rdat A c).Leaves 7 ⟨t.val - 1, Nat.lt_of_le_of_lt (Nat.sub_le _ _) t.isLt⟩ Y := by
  rcases ((rdat A c).finds_of_pos (fetch_7 t) ht Y).mp h with hfl | hl
  · exfalso
    have h1 := (flush2_7 _).mp hfl
    have h2 : t.val < 12 := lt_of_lt_of_eq t.isLt N_2
    dsimp only at h1
    omega
  · exact hl

theorem leaves_7 (c : Dev nD) : ∀ (n : ℕ) (h : n < cfg2.N) (X : (cfg2.win 7).block.Idx → Elt F (cfg2.win 7).elt),
    (rdat A c).Leaves 7 ⟨n, h⟩ X → X = sumAt A c n h
  | 0, h, X, ⟨Y, _, hX⟩ => by
    have hX' : X = stepSum A c ⟨0, h⟩ Y := hX
    rw [hX']
    show stepSum A c ⟨0, h⟩ Y = stepSum A c ⟨0, h⟩ (k2_pay6 (F := F))
    unfold stepSum
    rw [if_pos (show (⟨0, h⟩ : Fin cfg2.N).val = 0 from rfl), if_pos (show (⟨0, h⟩ : Fin cfg2.N).val = 0 from rfl)]
  | n + 1, h, X, ⟨Y, hY, hX⟩ => by
    have hX' : X = stepSum A c ⟨n + 1, h⟩ Y := hX
    have hl := finds_7 A c ⟨n + 1, h⟩ (Nat.succ_ne_zero n) Y hY
    have hY' : Y = sumAt A c n (Nat.lt_of_succ_lt h) := leaves_7 c n (Nat.lt_of_succ_lt h) Y hl
    rw [hX', hY']
    rfl

theorem idx_7 (t : Fin cfg2.N) (a : Fin (cfg2.win 7).shape.rank) : (cfg2.win 7).index t a = 0 := by
  revert a
  show ∀ a : Fin 2, cc2_transform_7 (grid2.coords t) a = 0
  intro a; fin_cases a <;> rfl

theorem emb_7 (t : Fin cfg2.N) (j : ((cfg2.win 7).xblock (cfg2.grid.coords t)).Idx) :
    ((cfg2.win 7).blk t).view.emb j = j := by
  funext a; apply Fin.ext
  exact (cfg2.win 7).rect_emb_val_of_index_zero t a (idx_7 t a) j

theorem sum_val (c : Dev nD) (G : Buf (Elt F) ((cfg2.win 7).arr.view.loc (c.tc : Thread nD τ)))
    (hG : (rdat A c).ArrAt 7 cfg2.N G) : G = sumAt A c 11 (by decide) := by
  have h11 : 11 < cfg2.N := by decide
  have hG' : (rdat A c).ArrAt 7 ((⟨11, h11⟩ : Fin cfg2.N).val + 1) G :=
    (congrArg (fun n => (rdat A c).ArrAt 7 n G) N_2).mp hG
  rw [(rdat A c).ArrAt_succ 7 ⟨11, h11⟩, if_pos ((flush2_7 ⟨11, h11⟩).mpr rfl)] at hG'
  obtain ⟨G₀, X, -, hX, rfl⟩ := hG'
  obtain rfl := leaves_7 A c 11 h11 X hX
  funext i
  have hw := View.write_emb_of_mem (Val := Elt F) (v := ((cfg2.win 7).blk ⟨11, h11⟩).view) G₀
    ((cfg2.win 7).cut (cfg2.grid.coords ⟨11, h11⟩) (sumAt A c 11 h11)) (M := Finset.univ) (x := i) (Finset.mem_univ _)
  rw [emb_7] at hw
  first | exact hw | exact hw.trans (cast_eq _ _)

theorem fetch_8 (t : Fin cfg2.N) : (cfg2.win 8).fetch t = false := rfl

theorem finds_8 (c : Dev nD) (t : Fin cfg2.N) (ht : t.val ≠ 0) (Y : (cfg2.win 8).block.Idx → Elt F (cfg2.win 8).elt)
    (h : (rdat A c).Finds 8 t Y) :
    (rdat A c).Leaves 8 ⟨t.val - 1, Nat.lt_of_le_of_lt (Nat.sub_le _ _) t.isLt⟩ Y := by
  rcases ((rdat A c).finds_of_pos (fetch_8 t) ht Y).mp h with hfl | hl
  · exfalso
    have h1 := (flush2_8 _).mp hfl
    have h2 : t.val < 12 := lt_of_lt_of_eq t.isLt N_2
    dsimp only at h1
    omega
  · exact hl

theorem leaves_8 (c : Dev nD) : ∀ (n : ℕ) (h : n < cfg2.N) (X : (cfg2.win 8).block.Idx → Elt F (cfg2.win 8).elt),
    (rdat A c).Leaves 8 ⟨n, h⟩ X → X = sqAt A c n h
  | 0, h, X, ⟨Y, _, hX⟩ => by
    have hX' : X = stepSq A c ⟨0, h⟩ Y := hX
    rw [hX']
    show stepSq A c ⟨0, h⟩ Y = stepSq A c ⟨0, h⟩ (k2_pay7 (F := F))
    unfold stepSq
    rw [if_pos (show (⟨0, h⟩ : Fin cfg2.N).val = 0 from rfl), if_pos (show (⟨0, h⟩ : Fin cfg2.N).val = 0 from rfl)]
  | n + 1, h, X, ⟨Y, hY, hX⟩ => by
    have hX' : X = stepSq A c ⟨n + 1, h⟩ Y := hX
    have hl := finds_8 A c ⟨n + 1, h⟩ (Nat.succ_ne_zero n) Y hY
    have hY' : Y = sqAt A c n (Nat.lt_of_succ_lt h) := leaves_8 c n (Nat.lt_of_succ_lt h) Y hl
    rw [hX', hY']
    rfl

theorem idx_8 (t : Fin cfg2.N) (a : Fin (cfg2.win 8).shape.rank) : (cfg2.win 8).index t a = 0 := by
  revert a
  show ∀ a : Fin 2, cc2_transform_8 (grid2.coords t) a = 0
  intro a; fin_cases a <;> rfl

theorem emb_8 (t : Fin cfg2.N) (j : ((cfg2.win 8).xblock (cfg2.grid.coords t)).Idx) :
    ((cfg2.win 8).blk t).view.emb j = j := by
  funext a; apply Fin.ext
  exact (cfg2.win 8).rect_emb_val_of_index_zero t a (idx_8 t a) j

theorem sq_val (c : Dev nD) (G : Buf (Elt F) ((cfg2.win 8).arr.view.loc (c.tc : Thread nD τ)))
    (hG : (rdat A c).ArrAt 8 cfg2.N G) : G = sqAt A c 11 (by decide) := by
  have h11 : 11 < cfg2.N := by decide
  have hG' : (rdat A c).ArrAt 8 ((⟨11, h11⟩ : Fin cfg2.N).val + 1) G :=
    (congrArg (fun n => (rdat A c).ArrAt 8 n G) N_2).mp hG
  rw [(rdat A c).ArrAt_succ 8 ⟨11, h11⟩, if_pos ((flush2_8 ⟨11, h11⟩).mpr rfl)] at hG'
  obtain ⟨G₀, X, -, hX, rfl⟩ := hG'
  obtain rfl := leaves_8 A c 11 h11 X hX
  funext i
  have hw := View.write_emb_of_mem (Val := Elt F) (v := ((cfg2.win 8).blk ⟨11, h11⟩).view) G₀
    ((cfg2.win 8).cut (cfg2.grid.coords ⟨11, h11⟩) (sqAt A c 11 h11)) (M := Finset.univ) (x := i) (Finset.mem_univ _)
  rw [emb_8] at hw
  first | exact hw | exact hw.trans (cast_eq _ _)

end Cert.Proof.KI.R2

end
-- ==== Proof.KI.Region3.lean ====
import proofs.«202994_g19078244729258_cont_8to1_1405_21_alg».proof.Proof.KI.Setup
import Idealize.ShloMosaic.Lib.Pipeline.FrameBody
import Idealize.ShloMosaic.Lib.Pipeline.Value

noncomputable section

namespace Cert.Proof.KI.R3

open Cert.KernelIdeal Cert.KernelIdeal.Gen Cert.Proof.KI

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [∀ e, Nonempty (Elt F e)]

local notation "𝕄" => MT nD τ sig (HIx 2) (Elt F) ℕ UU ℕ

abbrev Arrs (c : Dev nD) : Type := (w : Fin cfg3.W) → Buf (Elt F) ((cfg3.win w).arr.view.loc (c.tc : Thread nD τ))

variable (A : (c : Dev nD) → Arrs (F := F) c)

def inBlk (c : Dev nD) (w : Fin cfg3.W) (t : Fin cfg3.N) : (cfg3.win w).block.Idx → Elt F (cfg3.win w).elt :=
  (cfg3.win w).fill (cfg3.grid.coords t) (fun _ => Classical.arbitrary _) (((cfg3.win w).blk t).view.read (Elt F) (A c w))

def paySum (c : Dev nD) (t : Fin cfg3.N) : FVec F S1x256 .f32 :=
  k3_pay4 (inBlk A c 0 t) (inBlk A c 3 t) (inBlk A c 6 t) (inBlk A c 1 t) (inBlk A c 4 t) (inBlk A c 2 t) (inBlk A c 5 t)

def paySq (c : Dev nD) (t : Fin cfg3.N) : FVec F S1x256 .f32 :=
  k3_pay5 (inBlk A c 0 t) (inBlk A c 3 t) (inBlk A c 6 t) (inBlk A c 1 t) (inBlk A c 4 t) (inBlk A c 2 t) (inBlk A c 5 t)

def stepSum (c : Dev nD) (t : Fin cfg3.N) (Y : Vec F S1x256 .f32) : Vec F S1x256 .f32 :=
  k3_pay1 (paySum A c t) (if t.val = 0 then k3_pay6 (F := F) else Y)
def stepSq (c : Dev nD) (t : Fin cfg3.N) (Y : Vec F S1x256 .f32) : Vec F S1x256 .f32 :=
  k3_pay2 (paySq A c t) (if t.val = 0 then k3_pay7 (F := F) else Y)

def rdat (c : Dev nD) : RDat τ (Elt F) (HIx 2) ℕ UU ℕ cfg3 c where
  A := A c
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = stepSum A c t Y
    | ⟨8, _⟩ => fun Y X => X = stepSq A c t Y
    | ⟨_ + 9, h⟩ => absurd h (Nat.not_lt.2 (Nat.le_add_left _ _))
  Φ _ := Pipeline.scopedRest (Ix := HIx 2) (Name := ℕ) (U := UU) (Lvl := ℕ) (Val := Elt F) cfg3.spec c
  q _ := fullShare
  owed _ := 0

theorem rdat_A (c : Dev nD) (w : Fin cfg3.W) : (rdat A c).A w = A c w := rfl
theorem rdat_owed (c : Dev nD) (t : Fin (cfg3.N + 1)) : (rdat A c).owed t = 0 := rfl
theorem rdat_q (c : Dev nD) (w : Fin cfg3.W) : (rdat A c).q w = fullShare := rfl
theorem rdat_Φ (c : Dev nD) (t : Fin (cfg3.N + 1)) :
    (rdat A c).Φ t = Pipeline.scopedRest (Ix := HIx 2) (Name := ℕ) (U := UU) (Lvl := ℕ) (Val := Elt F) cfg3.spec c := rfl

abbrev cond (i : grid3.Coords) : Prop :=
  (Scalar.cmpi .ne (Scalar.extui (Scalar.cmpi .eq (BitVec.ofNat 32 (i 0).val) 0#32)) 0#32) = 1#1

theorem hcond : ∀ t : Fin cfg3.N, cond (grid3.coords t) ↔ t.val = 0 :=
  (by decide +kernel : ∀ t : Fin grid3.N, cond (grid3.coords t) ↔ t.val = 0)

theorem hz2 : (![0, 0] : Fin 2 → ℕ) = fun _ => 0 := by funext a; fin_cases a <;> rfl
theorem hz3 : (![0, 0, 0] : Fin 3 → ℕ) = fun _ => 0 := by funext a; fin_cases a <;> rfl

theorem read_store_row {κ : Kind} {sp : Space} (v : View sig κ sp S1x256 .f32) (f : v.ty.Contents (Elt F))
    (inb : ∀ a, (![0, 0] : Fin 2 → ℕ) a + S1x256.size a ≤ S1x256.size a) (w : S1x256.Idx → Elt F .f32)
    (L : List (View.Piece (Elt F) S1x256 .f32)) :
    v.read (Elt F) (v.writes (Elt F) f ((⟨Rect.unit ![0, 0] S1x256.size inb, w⟩ : View.Piece (Elt F) S1x256 .f32) :: L)) = w := by
  rw [View.read_writes_eq_canon v f _ (fun y => ⟨_, List.mem_cons_self, by
    rw [Rect.mem_set_unit]; intro a; exact ⟨by rw [hz2]; exact Nat.zero_le _, by rw [hz2]; simpa using (y a).isLt⟩⟩)]
  exact View.canon_cons_unit_zero (S := S1x256) hz2 inb w L

set_option maxHeartbeats 1600000 in

theorem run_first (c : Dev nD) (i : grid3.Coords) (hc : cond i) (arg1 : Memref sig .tc .vmem S400x128 .f32) (harg1 : arg1.IsWhole) (arg2 : Memref sig .tc .vmem S400x32x128 .f32) (harg2 : arg2.IsWhole) (arg3 : Memref sig .tc .vmem S16x12800 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S16x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (x0 : Vec F S400x128 .f32) (x1 : Vec F S400x32x128 .f32) (x2 : Vec F S16x12800 .f32) (x3 : Vec F S128x256 .f32) (x4 : Vec F S128x256 .f32) (x5 : Vec F S16x256 .f32) (x6 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k3_pay1 (k3_pay4 x0 x3 x6 x1 x4 x2 x5) (k3_pay6 (F := F)))
            ∗ owns (c : Thread nD τ) arg9 fullShare (k3_pay2 (k3_pay5 x0 x3 x6 x1 x4 x2 x5) (k3_pay7 (F := F)))) -∗ K ⟨⟩))
      ⊢ wp frame (wpE (defs₀ (F := F)) 𝒱₀ c none) E (cc3__stats_kernel i arg1 harg1 arg2 harg2 arg3 harg3 arg4 harg4 arg5 harg5 arg6 harg6 arg7 harg7 arg8 harg8 arg9 harg9) K := by
  simp only [cc3__stats_kernel_eq_skeleton]; unfold cc3__stats_kernel_skel
  simp only [k3_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [read_store_row]
    sl_unfold_words
    simp only [View.readAt_eq_ld, harg1.read_unread, harg2.read_unread, harg3.read_unread, harg4.read_unread, harg5.read_unread, harg6.read_unread, harg7.read_unread, harg8.read_unread, harg9.read_unread,
      View.ld_unit_zero (S := S400x128) hz2, View.ld_unit_zero (S := S400x32x128) hz3, View.ld_unit_zero (S := S16x12800) hz2, View.ld_unit_zero (S := S128x256) hz2, View.ld_unit_zero (S := S16x256) hz2, View.ld_unit_zero (S := S1x256) hz2,
      View.readCov_unit_zero (S := S1x256) _ hz2]
  · iexists _; isplitr
    swap; · iexact H9
    ipureintro
    rw [read_store_row]
    sl_unfold_words
    simp only [View.readAt_eq_ld, harg1.read_unread, harg2.read_unread, harg3.read_unread, harg4.read_unread, harg5.read_unread, harg6.read_unread, harg7.read_unread, harg8.read_unread, harg9.read_unread,
      View.ld_unit_zero (S := S400x128) hz2, View.ld_unit_zero (S := S400x32x128) hz3, View.ld_unit_zero (S := S16x12800) hz2, View.ld_unit_zero (S := S128x256) hz2, View.ld_unit_zero (S := S16x256) hz2, View.ld_unit_zero (S := S1x256) hz2,
      View.readCov_unit_zero (S := S1x256) _ hz2]

set_option maxHeartbeats 1600000 in

theorem run_later (c : Dev nD) (i : grid3.Coords) (hc : ¬cond i) (arg1 : Memref sig .tc .vmem S400x128 .f32) (harg1 : arg1.IsWhole) (arg2 : Memref sig .tc .vmem S400x32x128 .f32) (harg2 : arg2.IsWhole) (arg3 : Memref sig .tc .vmem S16x12800 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S16x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (x0 : Vec F S400x128 .f32) (x1 : Vec F S400x32x128 .f32) (x2 : Vec F S16x12800 .f32) (x3 : Vec F S128x256 .f32) (x4 : Vec F S128x256 .f32) (x5 : Vec F S16x256 .f32) (x6 : Vec F S1x256 .f32) (y8 : Vec F S1x256 .f32) (y9 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y8 ∗ owns (c : Thread nD τ) arg9 fullShare y9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k3_pay1 (k3_pay4 x0 x3 x6 x1 x4 x2 x5) y8)
            ∗ owns (c : Thread nD τ) arg9 fullShare (k3_pay2 (k3_pay5 x0 x3 x6 x1 x4 x2 x5) y9)) -∗ K ⟨⟩))
      ⊢ wp frame (wpE (defs₀ (F := F)) 𝒱₀ c none) E (cc3__stats_kernel i arg1 harg1 arg2 harg2 arg3 harg3 arg4 harg4 arg5 harg5 arg6 harg6 arg7 harg7 arg8 harg8 arg9 harg9) K := by
  simp only [cc3__stats_kernel_eq_skeleton]; unfold cc3__stats_kernel_skel
  simp only [k3_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [read_store_row]
    sl_unfold_words
    simp only [View.readAt_eq_ld, harg1.read_unread, harg2.read_unread, harg3.read_unread, harg4.read_unread, harg5.read_unread, harg6.read_unread, harg7.read_unread, harg8.read_unread, harg9.read_unread,
      View.ld_unit_zero (S := S400x128) hz2, View.ld_unit_zero (S := S400x32x128) hz3, View.ld_unit_zero (S := S16x12800) hz2, View.ld_unit_zero (S := S128x256) hz2, View.ld_unit_zero (S := S16x256) hz2, View.ld_unit_zero (S := S1x256) hz2,
      View.readCov_unit_zero (S := S1x256) _ hz2]
  · iexists _; isplitr
    swap; · iexact H9
    ipureintro
    rw [read_store_row]
    sl_unfold_words
    simp only [View.readAt_eq_ld, harg1.read_unread, harg2.read_unread, harg3.read_unread, harg4.read_unread, harg5.read_unread, harg6.read_unread, harg7.read_unread, harg8.read_unread, harg9.read_unread,
      View.ld_unit_zero (S := S400x128) hz2, View.ld_unit_zero (S := S400x32x128) hz3, View.ld_unit_zero (S := S16x12800) hz2, View.ld_unit_zero (S := S128x256) hz2, View.ld_unit_zero (S := S16x256) hz2, View.ld_unit_zero (S := S1x256) hz2,
      View.readCov_unit_zero (S := S1x256) _ hz2]

theorem fetched_eq (c : Dev nD) (w : Fin cfg3.W) (hclip : ∀ i a, (cfg3.win w).clip i a = none) (t : Fin cfg3.N)
    (d : (cfg3.win w).block.Idx → Elt F (cfg3.win w).elt) : (rdat A c).fetched w t d = inBlk A c w t :=
  Pipeline.Dat.fetched_of_clip_none
    ({ A := (rdat A c).A, after := fun _ _ _ => Classical.arbitrary _, Φ := (rdat A c).Φ, q := (rdat A c).q, owed := (rdat A c).owed } :
      Pipeline.Dat τ (Elt F) (HIx 2) ℕ UU ℕ cfg3 c) w t (hclip _) d (fun _ => Classical.arbitrary _)

theorem finds_in (c : Dev nD) (w : Fin cfg3.W) (hw : (cfg3.win w).isOut = false) (hclip : ∀ i a, (cfg3.win w).clip i a = none)
    (hkeep : ∀ t Y X, (rdat A c).after w t Y X → X = Y) (t : Fin cfg3.N)
    (Y : (cfg3.win w).block.Idx → Elt F (cfg3.win w).elt) (h : (rdat A c).Finds w t Y) : Y = inBlk A c w t := by
  obtain ⟨d, rfl⟩ := (rdat A c).finds_in_eq_fetched w hw
    (fun t t' _ => funext fun a => (hclip _ a).trans (hclip _ a).symm) hkeep t Y h
  exact fetched_eq A c w hclip t d

def bodyPre (c : Dev nD) (t : Fin cfg3.N) (Y : (w : Fin cfg3.W) → (cfg3.win w).block.Idx → Elt F (cfg3.win w).elt) : sProp 𝕄 :=
  iprop((rdat A c).Φ t.castSucc ∗ (rdat A c).owesAt (none : HIx 2) t.castSucc
    ∗ owns (c : Thread nD τ) (win3_0.stage (cfg3.slots t 0)) fullShare (Y 0)
    ∗ owns (c : Thread nD τ) (win3_1.stage (cfg3.slots t 1)) fullShare (Y 1)
    ∗ owns (c : Thread nD τ) (win3_2.stage (cfg3.slots t 2)) fullShare (Y 2)
    ∗ owns (c : Thread nD τ) (win3_3.stage (cfg3.slots t 3)) fullShare (Y 3)
    ∗ owns (c : Thread nD τ) (win3_4.stage (cfg3.slots t 4)) fullShare (Y 4)
    ∗ owns (c : Thread nD τ) (win3_5.stage (cfg3.slots t 5)) fullShare (Y 5)
    ∗ owns (c : Thread nD τ) (win3_6.stage (cfg3.slots t 6)) fullShare (Y 6)
    ∗ owns (c : Thread nD τ) (win3_7.stage (cfg3.slots t 7)) fullShare (Y 7)
    ∗ owns (c : Thread nD τ) (win3_8.stage (cfg3.slots t 8)) fullShare (Y 8))

def bodyPost (c : Dev nD) (t : Fin cfg3.N) (Y : (w : Fin cfg3.W) → (cfg3.win w).block.Idx → Elt F (cfg3.win w).elt) : sProp 𝕄 :=
  iprop((rdat A c).Φ t.succ ∗ (rdat A c).owesAt (none : HIx 2) t.succ
    ∗ (∃ X, ⌜(rdat A c).after 0 t (Y 0) X⌝ ∗ owns (c : Thread nD τ) (win3_0.stage (cfg3.slots t 0)) fullShare X)
    ∗ (∃ X, ⌜(rdat A c).after 1 t (Y 1) X⌝ ∗ owns (c : Thread nD τ) (win3_1.stage (cfg3.slots t 1)) fullShare X)
    ∗ (∃ X, ⌜(rdat A c).after 2 t (Y 2) X⌝ ∗ owns (c : Thread nD τ) (win3_2.stage (cfg3.slots t 2)) fullShare X)
    ∗ (∃ X, ⌜(rdat A c).after 3 t (Y 3) X⌝ ∗ owns (c : Thread nD τ) (win3_3.stage (cfg3.slots t 3)) fullShare X)
    ∗ (∃ X, ⌜(rdat A c).after 4 t (Y 4) X⌝ ∗ owns (c : Thread nD τ) (win3_4.stage (cfg3.slots t 4)) fullShare X)
    ∗ (∃ X, ⌜(rdat A c).after 5 t (Y 5) X⌝ ∗ owns (c : Thread nD τ) (win3_5.stage (cfg3.slots t 5)) fullShare X)
    ∗ (∃ X, ⌜(rdat A c).after 6 t (Y 6) X⌝ ∗ owns (c : Thread nD τ) (win3_6.stage (cfg3.slots t 6)) fullShare X)
    ∗ (∃ X, ⌜(rdat A c).after 7 t (Y 7) X⌝ ∗ owns (c : Thread nD τ) (win3_7.stage (cfg3.slots t 7)) fullShare X)
    ∗ (∃ X, ⌜(rdat A c).after 8 t (Y 8) X⌝ ∗ owns (c : Thread nD τ) (win3_8.stage (cfg3.slots t 8)) fullShare X))

set_option maxHeartbeats 1600000 in

theorem sound_body (c : Dev nD) (t : Fin cfg3.N) (Y : (w : Fin cfg3.W) → (cfg3.win w).block.Idx → Elt F (cfg3.win w).elt)
    (e0 : Y 0 = inBlk A c 0 t) (e1 : Y 1 = inBlk A c 1 t) (e2 : Y 2 = inBlk A c 2 t) (e3 : Y 3 = inBlk A c 3 t) (e4 : Y 4 = inBlk A c 4 t) (e5 : Y 5 = inBlk A c 5 t) (e6 : Y 6 = inBlk A c 6 t) :
    bodyPre A c t Y ⊢ wp frame (wpE (defs₀ (F := F)) 𝒱₀ c none) Set.univ (bodyAt3 t) (fun _ => bodyPost A c t Y) := by
  unfold bodyPre bodyPost bodyAt3
  rw [show (rdat A c).Φ t.succ = (rdat A c).Φ t.castSucc from rfl,
    show (rdat A c).owesAt (none : HIx 2) t.succ = (rdat A c).owesAt (none : HIx 2) t.castSucc from rfl]
  iintro ⟨HΦ, Ho, H0, H1, H2, H3, H4, H5, H6, H7, H8⟩
  by_cases h0 : t.val = 0
  · have e7 : stepSum A c t (Y 7) = k3_pay1 (k3_pay4 (Y 0) (Y 3) (Y 6) (Y 1) (Y 4) (Y 2) (Y 5)) (k3_pay6 (F := F)) := by
      unfold stepSum paySum; rw [if_pos h0, ← e0, ← e1, ← e2, ← e3, ← e4, ← e5, ← e6]
    have e8 : stepSq A c t (Y 8) = k3_pay2 (k3_pay5 (Y 0) (Y 3) (Y 6) (Y 1) (Y 4) (Y 2) (Y 5)) (k3_pay7 (F := F)) := by
      unfold stepSq paySq; rw [if_pos h0, ← e0, ← e1, ← e2, ← e3, ← e4, ← e5, ← e6]
    iapply (run_first c (grid3.coords t) ((hcond t).mpr h0) _ _ _ _ _ _ _ _ _ _ _ _ _ _ _ _ _ _ (Y 0) (Y 1) (Y 2) (Y 3) (Y 4) (Y 5) (Y 6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]
    · iexists (Y 0); isplitr; · ipureintro; exact (rfl : Y 0 = Y 0)
      iexact H0
    isplitl [H1]
    · iexists (Y 1); isplitr; · ipureintro; exact (rfl : Y 1 = Y 1)
      iexact H1
    isplitl [H2]
    · iexists (Y 2); isplitr; · ipureintro; exact (rfl : Y 2 = Y 2)
      iexact H2
    isplitl [H3]
    · iexists (Y 3); isplitr; · ipureintro; exact (rfl : Y 3 = Y 3)
      iexact H3
    isplitl [H4]
    · iexists (Y 4); isplitr; · ipureintro; exact (rfl : Y 4 = Y 4)
      iexact H4
    isplitl [H5]
    · iexists (Y 5); isplitr; · ipureintro; exact (rfl : Y 5 = Y 5)
      iexact H5
    isplitl [H6]
    · iexists (Y 6); isplitr; · ipureintro; exact (rfl : Y 6 = Y 6)
      iexact H6
    isplitl [H7]
    · iexists (stepSum A c t (Y 7)); isplitr; · ipureintro; exact (rfl : stepSum A c t (Y 7) = stepSum A c t (Y 7))
      rw [e7]; iexact H7
    · iexists (stepSq A c t (Y 8)); isplitr; · ipureintro; exact (rfl : stepSq A c t (Y 8) = stepSq A c t (Y 8))
      rw [e8]; iexact H8
  · have e7 : stepSum A c t (Y 7) = k3_pay1 (k3_pay4 (Y 0) (Y 3) (Y 6) (Y 1) (Y 4) (Y 2) (Y 5)) (Y 7) := by
      unfold stepSum paySum; rw [if_neg h0, ← e0, ← e1, ← e2, ← e3, ← e4, ← e5, ← e6]
    have e8 : stepSq A c t (Y 8) = k3_pay2 (k3_pay5 (Y 0) (Y 3) (Y 6) (Y 1) (Y 4) (Y 2) (Y 5)) (Y 8) := by
      unfold stepSq paySq; rw [if_neg h0, ← e0, ← e1, ← e2, ← e3, ← e4, ← e5, ← e6]
    iapply (run_later c (grid3.coords t) (fun h => h0 ((hcond t).mp h)) _ _ _ _ _ _ _ _ _ _ _ _ _ _ _ _ _ _ (Y 0) (Y 1) (Y 2) (Y 3) (Y 4) (Y 5) (Y 6) (Y 7) (Y 8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]
    · iexists (Y 0); isplitr; · ipureintro; exact (rfl : Y 0 = Y 0)
      iexact H0
    isplitl [H1]
    · iexists (Y 1); isplitr; · ipureintro; exact (rfl : Y 1 = Y 1)
      iexact H1
    isplitl [H2]
    · iexists (Y 2); isplitr; · ipureintro; exact (rfl : Y 2 = Y 2)
      iexact H2
    isplitl [H3]
    · iexists (Y 3); isplitr; · ipureintro; exact (rfl : Y 3 = Y 3)
      iexact H3
    isplitl [H4]
    · iexists (Y 4); isplitr; · ipureintro; exact (rfl : Y 4 = Y 4)
      iexact H4
    isplitl [H5]
    · iexists (Y 5); isplitr; · ipureintro; exact (rfl : Y 5 = Y 5)
      iexact H5
    isplitl [H6]
    · iexists (Y 6); isplitr; · ipureintro; exact (rfl : Y 6 = Y 6)
      iexact H6
    isplitl [H7]
    · iexists (stepSum A c t (Y 7)); isplitr; · ipureintro; exact (rfl : stepSum A c t (Y 7) = stepSum A c t (Y 7))
      rw [e7]; iexact H7
    · iexists (stepSq A c t (Y 8)); isplitr; · ipureintro; exact (rfl : stepSq A c t (Y 8) = stepSq A c t (Y 8))
      rw [e8]; iexact H8

theorem body (c : Dev nD) : (rdat A c).BodyObligation (defs₀ (F := F)) 𝒱₀ (none : HIx 2) Set.univ := fun t Y hY => by
  rw [bigSep_W3, bigSep_W3]
  exact sound_body A c t Y
      (finds_in A c 0 rfl (fun _ _ => rfl) (fun _ _ _ h => h) t _ (hY 0))
      (finds_in A c 1 rfl (fun _ _ => rfl) (fun _ _ _ h => h) t _ (hY 1))
      (finds_in A c 2 rfl (fun _ _ => rfl) (fun _ _ _ h => h) t _ (hY 2))
      (finds_in A c 3 rfl (fun _ _ => rfl) (fun _ _ _ h => h) t _ (hY 3))
      (finds_in A c 4 rfl (fun _ _ => rfl) (fun _ _ _ h => h) t _ (hY 4))
      (finds_in A c 5 rfl (fun _ _ => rfl) (fun _ _ _ h => h) t _ (hY 5))
      (finds_in A c 6 rfl (fun _ _ => rfl) (fun _ _ _ h => h) t _ (hY 6))

def sumAt (c : Dev nD) : (n : ℕ) → n < cfg3.N → Vec F S1x256 .f32
  | 0, h => stepSum A c ⟨0, h⟩ (k3_pay6 (F := F))
  | n + 1, h => stepSum A c ⟨n + 1, h⟩ (sumAt c n (Nat.lt_of_succ_lt h))
def sqAt (c : Dev nD) : (n : ℕ) → n < cfg3.N → Vec F S1x256 .f32
  | 0, h => stepSq A c ⟨0, h⟩ (k3_pay7 (F := F))
  | n + 1, h => stepSq A c ⟨n + 1, h⟩ (sqAt c n (Nat.lt_of_succ_lt h))

theorem fetch_7 (t : Fin cfg3.N) : (cfg3.win 7).fetch t = false := rfl

theorem finds_7 (c : Dev nD) (t : Fin cfg3.N) (ht : t.val ≠ 0) (Y : (cfg3.win 7).block.Idx → Elt F (cfg3.win 7).elt)
    (h : (rdat A c).Finds 7 t Y) :
    (rdat A c).Leaves 7 ⟨t.val - 1, Nat.lt_of_le_of_lt (Nat.sub_le _ _) t.isLt⟩ Y := by
  rcases ((rdat A c).finds_of_pos (fetch_7 t) ht Y).mp h with hfl | hl
  · exfalso
    have h1 := (flush3_7 _).mp hfl
    have h2 : t.val < 13 := lt_of_lt_of_eq t.isLt N_3
    dsimp only at h1
    omega
  · exact hl

theorem leaves_7 (c : Dev nD) : ∀ (n : ℕ) (h : n < cfg3.N) (X : (cfg3.win 7).block.Idx → Elt F (cfg3.win 7).elt),
    (rdat A c).Leaves 7 ⟨n, h⟩ X → X = sumAt A c n h
  | 0, h, X, ⟨Y, _, hX⟩ => by
    have hX' : X = stepSum A c ⟨0, h⟩ Y := hX
    rw [hX']
    show stepSum A c ⟨0, h⟩ Y = stepSum A c ⟨0, h⟩ (k3_pay6 (F := F))
    unfold stepSum
    rw [if_pos (show (⟨0, h⟩ : Fin cfg3.N).val = 0 from rfl), if_pos (show (⟨0, h⟩ : Fin cfg3.N).val = 0 from rfl)]
  | n + 1, h, X, ⟨Y, hY, hX⟩ => by
    have hX' : X = stepSum A c ⟨n + 1, h⟩ Y := hX
    have hl := finds_7 A c ⟨n + 1, h⟩ (Nat.succ_ne_zero n) Y hY
    have hY' : Y = sumAt A c n (Nat.lt_of_succ_lt h) := leaves_7 c n (Nat.lt_of_succ_lt h) Y hl
    rw [hX', hY']
    rfl

theorem idx_7 (t : Fin cfg3.N) (a : Fin (cfg3.win 7).shape.rank) : (cfg3.win 7).index t a = 0 := by
  revert a
  show ∀ a : Fin 2, cc3_transform_7 (grid3.coords t) a = 0
  intro a; fin_cases a <;> rfl

theorem emb_7 (t : Fin cfg3.N) (j : ((cfg3.win 7).xblock (cfg3.grid.coords t)).Idx) :
    ((cfg3.win 7).blk t).view.emb j = j := by
  funext a; apply Fin.ext
  exact (cfg3.win 7).rect_emb_val_of_index_zero t a (idx_7 t a) j

theorem sum_val (c : Dev nD) (G : Buf (Elt F) ((cfg3.win 7).arr.view.loc (c.tc : Thread nD τ)))
    (hG : (rdat A c).ArrAt 7 cfg3.N G) : G = sumAt A c 12 (by decide) := by
  have h11 : 12 < cfg3.N := by decide
  have hG' : (rdat A c).ArrAt 7 ((⟨12, h11⟩ : Fin cfg3.N).val + 1) G :=
    (congrArg (fun n => (rdat A c).ArrAt 7 n G) N_3).mp hG
  rw [(rdat A c).ArrAt_succ 7 ⟨12, h11⟩, if_pos ((flush3_7 ⟨12, h11⟩).mpr rfl)] at hG'
  obtain ⟨G₀, X, -, hX, rfl⟩ := hG'
  obtain rfl := leaves_7 A c 12 h11 X hX
  funext i
  have hw := View.write_emb_of_mem (Val := Elt F) (v := ((cfg3.win 7).blk ⟨12, h11⟩).view) G₀
    ((cfg3.win 7).cut (cfg3.grid.coords ⟨12, h11⟩) (sumAt A c 12 h11)) (M := Finset.univ) (x := i) (Finset.mem_univ _)
  rw [emb_7] at hw
  first | exact hw | exact hw.trans (cast_eq _ _)

theorem fetch_8 (t : Fin cfg3.N) : (cfg3.win 8).fetch t = false := rfl

theorem finds_8 (c : Dev nD) (t : Fin cfg3.N) (ht : t.val ≠ 0) (Y : (cfg3.win 8).block.Idx → Elt F (cfg3.win 8).elt)
    (h : (rdat A c).Finds 8 t Y) :
    (rdat A c).Leaves 8 ⟨t.val - 1, Nat.lt_of_le_of_lt (Nat.sub_le _ _) t.isLt⟩ Y := by
  rcases ((rdat A c).finds_of_pos (fetch_8 t) ht Y).mp h with hfl | hl
  · exfalso
    have h1 := (flush3_8 _).mp hfl
    have h2 : t.val < 13 := lt_of_lt_of_eq t.isLt N_3
    dsimp only at h1
    omega
  · exact hl

theorem leaves_8 (c : Dev nD) : ∀ (n : ℕ) (h : n < cfg3.N) (X : (cfg3.win 8).block.Idx → Elt F (cfg3.win 8).elt),
    (rdat A c).Leaves 8 ⟨n, h⟩ X → X = sqAt A c n h
  | 0, h, X, ⟨Y, _, hX⟩ => by
    have hX' : X = stepSq A c ⟨0, h⟩ Y := hX
    rw [hX']
    show stepSq A c ⟨0, h⟩ Y = stepSq A c ⟨0, h⟩ (k3_pay7 (F := F))
    unfold stepSq
    rw [if_pos (show (⟨0, h⟩ : Fin cfg3.N).val = 0 from rfl), if_pos (show (⟨0, h⟩ : Fin cfg3.N).val = 0 from rfl)]
  | n + 1, h, X, ⟨Y, hY, hX⟩ => by
    have hX' : X = stepSq A c ⟨n + 1, h⟩ Y := hX
    have hl := finds_8 A c ⟨n + 1, h⟩ (Nat.succ_ne_zero n) Y hY
    have hY' : Y = sqAt A c n (Nat.lt_of_succ_lt h) := leaves_8 c n (Nat.lt_of_succ_lt h) Y hl
    rw [hX', hY']
    rfl

theorem idx_8 (t : Fin cfg3.N) (a : Fin (cfg3.win 8).shape.rank) : (cfg3.win 8).index t a = 0 := by
  revert a
  show ∀ a : Fin 2, cc3_transform_8 (grid3.coords t) a = 0
  intro a; fin_cases a <;> rfl

theorem emb_8 (t : Fin cfg3.N) (j : ((cfg3.win 8).xblock (cfg3.grid.coords t)).Idx) :
    ((cfg3.win 8).blk t).view.emb j = j := by
  funext a; apply Fin.ext
  exact (cfg3.win 8).rect_emb_val_of_index_zero t a (idx_8 t a) j

theorem sq_val (c : Dev nD) (G : Buf (Elt F) ((cfg3.win 8).arr.view.loc (c.tc : Thread nD τ)))
    (hG : (rdat A c).ArrAt 8 cfg3.N G) : G = sqAt A c 12 (by decide) := by
  have h11 : 12 < cfg3.N := by decide
  have hG' : (rdat A c).ArrAt 8 ((⟨12, h11⟩ : Fin cfg3.N).val + 1) G :=
    (congrArg (fun n => (rdat A c).ArrAt 8 n G) N_3).mp hG
  rw [(rdat A c).ArrAt_succ 8 ⟨12, h11⟩, if_pos ((flush3_8 ⟨12, h11⟩).mpr rfl)] at hG'
  obtain ⟨G₀, X, -, hX, rfl⟩ := hG'
  obtain rfl := leaves_8 A c 12 h11 X hX
  funext i
  have hw := View.write_emb_of_mem (Val := Elt F) (v := ((cfg3.win 8).blk ⟨12, h11⟩).view) G₀
    ((cfg3.win 8).cut (cfg3.grid.coords ⟨12, h11⟩) (sqAt A c 12 h11)) (M := Finset.univ) (x := i) (Finset.mem_univ _)
  rw [emb_8] at hw
  first | exact hw | exact hw.trans (cast_eq _ _)

end Cert.Proof.KI.R3

end
-- ==== Proof.KI.Region4.lean ====
import proofs.«202994_g19078244729258_cont_8to1_1405_21_alg».proof.Proof.KI.Setup
import Idealize.ShloMosaic.Lib.Pipeline.FrameBody
import Idealize.ShloMosaic.Lib.Pipeline.Value
import Idealize.ShloMosaic.Lib.ValueIdx

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig (HIx 2) (Elt F) ℕ UU ℕ

structure Blk4 (F : FTy → Type) where

  x0 : Vec F S400x128 .f32

  x1 : Vec F S400x32x128 .f32

  x2 : Vec F S16x12800 .f32

  x3 : Vec F S400x32 .f32

  x4 : Vec F S128x256 .f32

  x5 : Vec F S128x256 .f32

  x6 : Vec F S16x256 .f32

  x7 : Vec F S1x256 .f32

def gate4 (b : Blk4 F) : FVec F S400x32x128 .f32 := k4_pay7 b.x0 b.x4 b.x7 b.x1 b.x5 b.x2 b.x6

def core4 (b : Blk4 F) : FVec F S400x32x128 .f32 := k4_pay8 b.x0 b.x4 b.x7 b.x1 b.x5 b.x2 b.x6

def ns4 (b : Blk4 F) : Vec F S400x128 .f32 := k4_pay1 (gate4 b) (core4 b) b.x3

def sum4 (b : Blk4 F) (y : Vec F S1x128 .f32) : Vec F S1x128 .f32 := k4_pay4 (gate4 b) (core4 b) b.x3 y

def sq4 (b : Blk4 F) (y : Vec F S1x128 .f32) : Vec F S1x128 .f32 := k4_pay5 (gate4 b) (core4 b) b.x3 y

def zero4 : Vec F S1x128 .f32 := k4_pay2 (F := F)

abbrev cond4 (i : grid4.Coords) : Prop :=
  (Scalar.cmpi .ne (Scalar.extui (Scalar.cmpi .eq (BitVec.ofNat 32 (i 0).val) 0#32)) 0#32) = 1#1

theorem hcond4 : ∀ t : Fin cfg4.N, cond4 (grid4.coords t) ↔ t.val = 0 :=
  (by decide +kernel : ∀ t : Fin grid4.N, cond4 (grid4.coords t) ↔ t.val = 0)

theorem hz2_4 : (![0, 0] : Fin 2 → ℕ) = fun _ => 0 := by funext a; fin_cases a <;> rfl
theorem hz3_4 : (![0, 0, 0] : Fin 3 → ℕ) = fun _ => 0 := by funext a; fin_cases a <;> rfl

set_option maxHeartbeats 4000000 in

theorem run4_B (c : Dev nD) (E : Set ℕ) (i : grid4.Coords)
    (arg1 : Memref sig .tc .vmem S400x128 .f32) (harg1 : arg1.IsWhole) (arg2 : Memref sig .tc .vmem S400x32x128 .f32) (harg2 : arg2.IsWhole)
    (arg3 : Memref sig .tc .vmem S16x12800 .f32) (harg3 : arg3.IsWhole) (arg4 : Memref sig .tc .vmem S400x32 .f32) (harg4 : arg4.IsWhole)
    (arg5 : Memref sig .tc .vmem S128x256 .f32) (harg5 : arg5.IsWhole) (arg6 : Memref sig .tc .vmem S128x256 .f32) (harg6 : arg6.IsWhole)
    (arg7 : Memref sig .tc .vmem S16x256 .f32) (harg7 : arg7.IsWhole) (arg8 : Memref sig .tc .vmem S1x256 .f32) (harg8 : arg8.IsWhole)
    (arg9 : Memref sig .tc .vmem S400x128 .f32) (harg9 : arg9.IsWhole) (arg10 : Memref sig .tc .vmem S1x128 .f32) (harg10 : arg10.IsWhole)
    (arg11 : Memref sig .tc .vmem S1x128 .f32) (harg11 : arg11.IsWhole) (hc : ¬cond4 i)
    (b : Blk4 F) (y9 y10 : Vec F S1x128 .f32) (K : PUnit → sProp 𝕄) :
    iprop(owns (c : Thread nD τ) arg1 fullShare b.x0 ∗ owns (c : Thread nD τ) arg2 fullShare b.x1 ∗ owns (c : Thread nD τ) arg3 fullShare b.x2
        ∗ owns (c : Thread nD τ) arg4 fullShare b.x3 ∗ owns (c : Thread nD τ) arg5 fullShare b.x4 ∗ owns (c : Thread nD τ) arg6 fullShare b.x5
        ∗ owns (c : Thread nD τ) arg7 fullShare b.x6 ∗ owns (c : Thread nD τ) arg8 fullShare b.x7
        ∗ (∃ d, owns (c : Thread nD τ) arg9 fullShare d) ∗ owns (c : Thread nD τ) arg10 fullShare y9 ∗ owns (c : Thread nD τ) arg11 fullShare y10
        ∗ (iprop(owns (c : Thread nD τ) arg1 fullShare b.x0 ∗ owns (c : Thread nD τ) arg2 fullShare b.x1 ∗ owns (c : Thread nD τ) arg3 fullShare b.x2
            ∗ owns (c : Thread nD τ) arg4 fullShare b.x3 ∗ owns (c : Thread nD τ) arg5 fullShare b.x4 ∗ owns (c : Thread nD τ) arg6 fullShare b.x5
            ∗ owns (c : Thread nD τ) arg7 fullShare b.x6 ∗ owns (c : Thread nD τ) arg8 fullShare b.x7
            ∗ owns (c : Thread nD τ) arg9 fullShare (ns4 b) ∗ owns (c : Thread nD τ) arg10 fullShare (sum4 b y9)
            ∗ owns (c : Thread nD τ) arg11 fullShare (sq4 b y10)) -∗ K ⟨⟩))
      ⊢ wp frame (wpE (defs₀ (F := F)) Variants.none c none) E
          (cc4__gate_kernel i arg1 harg1 arg2 harg2 arg3 harg3 arg4 harg4 arg5 harg5 arg6 harg6 arg7 harg7 arg8 harg8 arg9 harg9 arg10 harg10 arg11 harg11) K := by
  obtain ⟨x0, x1, x2, x3, x4, x5, x6, x7⟩ := b
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%f9, %hf9, H9⟩, ⟨%f10, %hf10, H10⟩, Hk⟩
  subst hf0 hf1 hf2 hf3 hf4 hf5 hf6 hf7 hf9 hf10
  sl_unfold [cc4__gate_kernel]
  sl_exec (disch := first | exact hc)

  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    rw [View.read_writes_eq_canon _ _ _ (fun y => ⟨_, List.mem_singleton_self _, View.mem_set_unit_zero hz2_4 inb_S400x128_S400x128_0_0 y⟩), View.canon_unit_zero hz2_4]
    sl_unfold_run_names
    simp only [View.readAt_eq_ld, View.ld_unit_zero (S := S400x128) hz2_4, View.ld_unit_zero (S := S400x32x128) hz3_4, View.ld_unit_zero (S := S16x12800) hz2_4,
      View.ld_unit_zero (S := S400x32) hz2_4, View.ld_unit_zero (S := S128x256) hz2_4, View.ld_unit_zero (S := S16x256) hz2_4, View.ld_unit_zero (S := S1x256) hz2_4,
      View.ld_unit_zero (S := S1x128) hz2_4]
    rfl
  isplitl [H9]
  · iexists _; isplitr
    swap; · iexact H9
    ipureintro
    rw [View.read_writes_eq_canon _ _ _ (fun y => ⟨_, List.mem_singleton_self _, View.mem_set_unit_zero hz2_4 inb_S1x128_S1x128_0_0 y⟩), View.canon_unit_zero hz2_4]
    sl_unfold_run_names
    simp only [View.readAt_eq_ld, View.ld_unit_zero (S := S400x128) hz2_4, View.ld_unit_zero (S := S400x32x128) hz3_4, View.ld_unit_zero (S := S16x12800) hz2_4,
      View.ld_unit_zero (S := S400x32) hz2_4, View.ld_unit_zero (S := S128x256) hz2_4, View.ld_unit_zero (S := S16x256) hz2_4, View.ld_unit_zero (S := S1x256) hz2_4,
      View.ld_unit_zero (S := S1x128) hz2_4]
    rfl
  iexists _; isplitr
  swap; · iexact H10
  ipureintro
  rw [View.read_writes_eq_canon _ _ _ (fun y => ⟨_, List.mem_singleton_self _, View.mem_set_unit_zero hz2_4 inb_S1x128_S1x128_0_0 y⟩), View.canon_unit_zero hz2_4]
  sl_unfold_run_names
  simp only [View.readAt_eq_ld, View.ld_unit_zero (S := S400x128) hz2_4, View.ld_unit_zero (S := S400x32x128) hz3_4, View.ld_unit_zero (S := S16x12800) hz2_4,
      View.ld_unit_zero (S := S400x32) hz2_4, View.ld_unit_zero (S := S128x256) hz2_4, View.ld_unit_zero (S := S16x256) hz2_4, View.ld_unit_zero (S := S1x256) hz2_4,
      View.ld_unit_zero (S := S1x128) hz2_4]
  rfl

set_option maxHeartbeats 4000000 in

theorem run4_A (c : Dev nD) (E : Set ℕ) (i : grid4.Coords)
    (arg1 : Memref sig .tc .vmem S400x128 .f32) (harg1 : arg1.IsWhole) (arg2 : Memref sig .tc .vmem S400x32x128 .f32) (harg2 : arg2.IsWhole)
    (arg3 : Memref sig .tc .vmem S16x12800 .f32) (harg3 : arg3.IsWhole) (arg4 : Memref sig .tc .vmem S400x32 .f32) (harg4 : arg4.IsWhole)
    (arg5 : Memref sig .tc .vmem S128x256 .f32) (harg5 : arg5.IsWhole) (arg6 : Memref sig .tc .vmem S128x256 .f32) (harg6 : arg6.IsWhole)
    (arg7 : Memref sig .tc .vmem S16x256 .f32) (harg7 : arg7.IsWhole) (arg8 : Memref sig .tc .vmem S1x256 .f32) (harg8 : arg8.IsWhole)
    (arg9 : Memref sig .tc .vmem S400x128 .f32) (harg9 : arg9.IsWhole) (arg10 : Memref sig .tc .vmem S1x128 .f32) (harg10 : arg10.IsWhole)
    (arg11 : Memref sig .tc .vmem S1x128 .f32) (harg11 : arg11.IsWhole) (hc : cond4 i)
    (b : Blk4 F) (K : PUnit → sProp 𝕄) :
    iprop(owns (c : Thread nD τ) arg1 fullShare b.x0 ∗ owns (c : Thread nD τ) arg2 fullShare b.x1 ∗ owns (c : Thread nD τ) arg3 fullShare b.x2
        ∗ owns (c : Thread nD τ) arg4 fullShare b.x3 ∗ owns (c : Thread nD τ) arg5 fullShare b.x4 ∗ owns (c : Thread nD τ) arg6 fullShare b.x5
        ∗ owns (c : Thread nD τ) arg7 fullShare b.x6 ∗ owns (c : Thread nD τ) arg8 fullShare b.x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare b.x0 ∗ owns (c : Thread nD τ) arg2 fullShare b.x1 ∗ owns (c : Thread nD τ) arg3 fullShare b.x2
            ∗ owns (c : Thread nD τ) arg4 fullShare b.x3 ∗ owns (c : Thread nD τ) arg5 fullShare b.x4 ∗ owns (c : Thread nD τ) arg6 fullShare b.x5
            ∗ owns (c : Thread nD τ) arg7 fullShare b.x6 ∗ owns (c : Thread nD τ) arg8 fullShare b.x7
            ∗ owns (c : Thread nD τ) arg9 fullShare (ns4 b) ∗ owns (c : Thread nD τ) arg10 fullShare (sum4 b zero4)
            ∗ owns (c : Thread nD τ) arg11 fullShare (sq4 b zero4)) -∗ K ⟨⟩))
      ⊢ wp frame (wpE (defs₀ (F := F)) Variants.none c none) E
          (cc4__gate_kernel i arg1 harg1 arg2 harg2 arg3 harg3 arg4 harg4 arg5 harg5 arg6 harg6 arg7 harg7 arg8 harg8 arg9 harg9 arg10 harg10 arg11 harg11) K := by
  obtain ⟨x0, x1, x2, x3, x4, x5, x6, x7⟩ := b
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf0 hf1 hf2 hf3 hf4 hf5 hf6 hf7
  sl_unfold [cc4__gate_kernel]
  sl_exec (disch := first | exact hc)

  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    rw [View.read_writes_eq_canon _ _ _ (fun y => ⟨_, List.mem_singleton_self _, View.mem_set_unit_zero hz2_4 inb_S400x128_S400x128_0_0 y⟩), View.canon_unit_zero hz2_4]
    sl_unfold_run_names
    simp only [View.readAt_eq_ld, View.ld_unit_zero (S := S400x128) hz2_4, View.ld_unit_zero (S := S400x32x128) hz3_4, View.ld_unit_zero (S := S16x12800) hz2_4,
      View.ld_unit_zero (S := S400x32) hz2_4, View.ld_unit_zero (S := S128x256) hz2_4, View.ld_unit_zero (S := S16x256) hz2_4, View.ld_unit_zero (S := S1x256) hz2_4,
      View.ld_unit_zero (S := S1x128) hz2_4]
    rfl
  isplitl [H9]
  · iexists _; isplitr
    swap; · iexact H9
    ipureintro
    sl_unfold_run_names
    rw [View.read_writes_eq_canon _ _ _ (fun y => ⟨_, List.mem_cons.mpr (Or.inl rfl), View.mem_set_unit_zero hz2_4 inb_S1x128_S1x128_0_0 y⟩), View.canon_cons_unit_zero hz2_4]
    simp only [View.readAt_eq_ld, View.ld_unit_zero (S := S400x128) hz2_4, View.ld_unit_zero (S := S400x32x128) hz3_4, View.ld_unit_zero (S := S16x12800) hz2_4,
      View.ld_unit_zero (S := S400x32) hz2_4, View.ld_unit_zero (S := S128x256) hz2_4, View.ld_unit_zero (S := S16x256) hz2_4, View.ld_unit_zero (S := S1x256) hz2_4,
      View.ld_unit_zero (S := S1x128) hz2_4, View.readCov_unit_zero (S := S1x128) _ hz2_4]
    rfl
  iexists _; isplitr
  swap; · iexact H10
  ipureintro
  sl_unfold_run_names
  rw [View.read_writes_eq_canon _ _ _ (fun y => ⟨_, List.mem_cons.mpr (Or.inl rfl), View.mem_set_unit_zero hz2_4 inb_S1x128_S1x128_0_0 y⟩), View.canon_cons_unit_zero hz2_4]
  simp only [View.readAt_eq_ld, View.ld_unit_zero (S := S400x128) hz2_4, View.ld_unit_zero (S := S400x32x128) hz3_4, View.ld_unit_zero (S := S16x12800) hz2_4,
      View.ld_unit_zero (S := S400x32) hz2_4, View.ld_unit_zero (S := S128x256) hz2_4, View.ld_unit_zero (S := S16x256) hz2_4, View.ld_unit_zero (S := S1x256) hz2_4,
      View.ld_unit_zero (S := S1x128) hz2_4, View.readCov_unit_zero (S := S1x128) _ hz2_4]
  rfl

abbrev Arrs4 (c : Dev nD) : Type := (w : Fin cfg4.W) → Buf (Elt F) ((cfg4.win w).arr.view.loc (c.tc : Thread nD τ))

section Data

variable {c : Dev nD} (A : Arrs4 (F := F) c)

def iblk4 (w : Fin cfg4.W) (t : Fin cfg4.N) : ((cfg4.win w).xblock (cfg4.grid.coords t)).Idx → Elt F (cfg4.win w).elt :=
  ((cfg4.win w).blk t).view.read (Elt F) (A w)

def blk4 (t : Fin cfg4.N) : Blk4 F :=
  ⟨iblk4 A 0 t, iblk4 A 1 t, iblk4 A 2 t, iblk4 A 3 t, iblk4 A 4 t, iblk4 A 5 t, iblk4 A 6 t, iblk4 A 7 t⟩

def sumAt4 : (n : ℕ) → n < cfg4.N → Vec F S1x128 .f32
  | 0, h => sum4 (blk4 A ⟨0, h⟩) zero4
  | n + 1, h => sum4 (blk4 A ⟨n + 1, h⟩) (sumAt4 n (Nat.lt_of_succ_lt h))

def sqAt4 : (n : ℕ) → n < cfg4.N → Vec F S1x128 .f32
  | 0, h => sq4 (blk4 A ⟨0, h⟩) zero4
  | n + 1, h => sq4 (blk4 A ⟨n + 1, h⟩) (sqAt4 n (Nat.lt_of_succ_lt h))

theorem sumAt4_zero (t : Fin cfg4.N) (h0 : t.val = 0) : sumAt4 A t.val t.isLt = sum4 (blk4 A t) zero4 := by
  obtain ⟨n, hn⟩ := t
  cases n with
  | zero => rfl
  | succ n => exact absurd h0 (Nat.succ_ne_zero n)

theorem sumAt4_pos (t : Fin cfg4.N) (h0 : t.val ≠ 0) :
    sumAt4 A t.val t.isLt = sum4 (blk4 A t) (sumAt4 A (t.val - 1) (Nat.lt_of_le_of_lt (Nat.sub_le _ _) t.isLt)) := by
  obtain ⟨n, hn⟩ := t
  cases n with
  | zero => exact absurd rfl h0
  | succ n => rfl

theorem sqAt4_zero (t : Fin cfg4.N) (h0 : t.val = 0) : sqAt4 A t.val t.isLt = sq4 (blk4 A t) zero4 := by
  obtain ⟨n, hn⟩ := t
  cases n with
  | zero => rfl
  | succ n => exact absurd h0 (Nat.succ_ne_zero n)

theorem sqAt4_pos (t : Fin cfg4.N) (h0 : t.val ≠ 0) :
    sqAt4 A t.val t.isLt = sq4 (blk4 A t) (sqAt4 A (t.val - 1) (Nat.lt_of_le_of_lt (Nat.sub_le _ _) t.isLt)) := by
  obtain ⟨n, hn⟩ := t
  cases n with
  | zero => exact absurd rfl h0
  | succ n => rfl

def dat4 (Φ₀ : sProp 𝕄) : Dat τ (Elt F) (HIx 2) ℕ UU ℕ cfg4 c where
  A := A
  after w t := match w with
    | ⟨0, _⟩ => iblk4 A 0 t
    | ⟨1, _⟩ => iblk4 A 1 t
    | ⟨2, _⟩ => iblk4 A 2 t
    | ⟨3, _⟩ => iblk4 A 3 t
    | ⟨4, _⟩ => iblk4 A 4 t
    | ⟨5, _⟩ => iblk4 A 5 t
    | ⟨6, _⟩ => iblk4 A 6 t
    | ⟨7, _⟩ => iblk4 A 7 t
    | ⟨8, _⟩ => ns4 (blk4 A t)
    | ⟨9, _⟩ => sumAt4 A t.val t.isLt
    | ⟨10, _⟩ => sqAt4 A t.val t.isLt
  Φ _ := Φ₀
  q _ := fullShare
  owed _ := 0

theorem after4_0 (Φ₀ : sProp 𝕄) (t : Fin cfg4.N) : (dat4 A Φ₀).after 0 t = iblk4 A 0 t := by dsimp only [dat4]
theorem after4_1 (Φ₀ : sProp 𝕄) (t : Fin cfg4.N) : (dat4 A Φ₀).after 1 t = iblk4 A 1 t := by dsimp only [dat4]
theorem after4_2 (Φ₀ : sProp 𝕄) (t : Fin cfg4.N) : (dat4 A Φ₀).after 2 t = iblk4 A 2 t := by dsimp only [dat4]
theorem after4_3 (Φ₀ : sProp 𝕄) (t : Fin cfg4.N) : (dat4 A Φ₀).after 3 t = iblk4 A 3 t := by dsimp only [dat4]
theorem after4_4 (Φ₀ : sProp 𝕄) (t : Fin cfg4.N) : (dat4 A Φ₀).after 4 t = iblk4 A 4 t := by dsimp only [dat4]
theorem after4_5 (Φ₀ : sProp 𝕄) (t : Fin cfg4.N) : (dat4 A Φ₀).after 5 t = iblk4 A 5 t := by dsimp only [dat4]
theorem after4_6 (Φ₀ : sProp 𝕄) (t : Fin cfg4.N) : (dat4 A Φ₀).after 6 t = iblk4 A 6 t := by dsimp only [dat4]
theorem after4_7 (Φ₀ : sProp 𝕄) (t : Fin cfg4.N) : (dat4 A Φ₀).after 7 t = iblk4 A 7 t := by dsimp only [dat4]
theorem after4_8 (Φ₀ : sProp 𝕄) (t : Fin cfg4.N) : (dat4 A Φ₀).after 8 t = ns4 (blk4 A t) := by dsimp only [dat4]
theorem after4_9 (Φ₀ : sProp 𝕄) (t : Fin cfg4.N) : (dat4 A Φ₀).after 9 t = sumAt4 A t.val t.isLt := by dsimp only [dat4]
theorem after4_10 (Φ₀ : sProp 𝕄) (t : Fin cfg4.N) : (dat4 A Φ₀).after 10 t = sqAt4 A t.val t.isLt := by dsimp only [dat4]

theorem before4_0 (Φ₀ : sProp 𝕄) (t : Fin cfg4.N) (d) : (dat4 A Φ₀).before 0 t d = iblk4 A 0 t :=
  ((dat4 A Φ₀).before_in_eq_fetched 0 rfl (fun _ => rfl) (fun _ _ _ => rfl) (fun t => by rw [after4_0]; rfl) t d).trans rfl
theorem before4_1 (Φ₀ : sProp 𝕄) (t : Fin cfg4.N) (d) : (dat4 A Φ₀).before 1 t d = iblk4 A 1 t :=
  ((dat4 A Φ₀).before_in_eq_fetched 1 rfl (fun _ => rfl) (fun _ _ _ => rfl) (fun t => by rw [after4_1]; rfl) t d).trans rfl
theorem before4_2 (Φ₀ : sProp 𝕄) (t : Fin cfg4.N) (d) : (dat4 A Φ₀).before 2 t d = iblk4 A 2 t :=
  ((dat4 A Φ₀).before_in_eq_fetched 2 rfl (fun _ => rfl) (fun _ _ _ => rfl) (fun t => by rw [after4_2]; rfl) t d).trans rfl
theorem before4_3 (Φ₀ : sProp 𝕄) (t : Fin cfg4.N) (d) : (dat4 A Φ₀).before 3 t d = iblk4 A 3 t :=
  ((dat4 A Φ₀).before_in_eq_fetched 3 rfl (fun _ => rfl) (fun _ _ _ => rfl) (fun t => by rw [after4_3]; rfl) t d).trans rfl
theorem before4_4 (Φ₀ : sProp 𝕄) (t : Fin cfg4.N) (d) : (dat4 A Φ₀).before 4 t d = iblk4 A 4 t :=
  ((dat4 A Φ₀).before_in_eq_fetched 4 rfl (fun _ => rfl) (fun _ _ _ => rfl) (fun t => by rw [after4_4]; rfl) t d).trans rfl
theorem before4_5 (Φ₀ : sProp 𝕄) (t : Fin cfg4.N) (d) : (dat4 A Φ₀).before 5 t d = iblk4 A 5 t :=
  ((dat4 A Φ₀).before_in_eq_fetched 5 rfl (fun _ => rfl) (fun _ _ _ => rfl) (fun t => by rw [after4_5]; rfl) t d).trans rfl
theorem before4_6 (Φ₀ : sProp 𝕄) (t : Fin cfg4.N) (d) : (dat4 A Φ₀).before 6 t d = iblk4 A 6 t :=
  ((dat4 A Φ₀).before_in_eq_fetched 6 rfl (fun _ => rfl) (fun _ _ _ => rfl) (fun t => by rw [after4_6]; rfl) t d).trans rfl
theorem before4_7 (Φ₀ : sProp 𝕄) (t : Fin cfg4.N) (d) : (dat4 A Φ₀).before 7 t d = iblk4 A 7 t :=
  ((dat4 A Φ₀).before_in_eq_fetched 7 rfl (fun _ => rfl) (fun _ _ _ => rfl) (fun t => by rw [after4_7]; rfl) t d).trans rfl

theorem before4_8 (Φ₀ : sProp 𝕄) (t : Fin cfg4.N) (d) : (dat4 A Φ₀).before 8 t d = d :=
  (dat4 A Φ₀).before_out_reset 8 rfl t (by
    by_cases h : t.val = 0
    · exact .inl h
    · exact .inr ⟨h, flush4_8 _⟩) d

theorem before4_9_A (Φ₀ : sProp 𝕄) (t : Fin cfg4.N) (h0 : t.val = 0) (d) : (dat4 A Φ₀).before 9 t d = d :=
  (dat4 A Φ₀).before_out_reset 9 rfl t (.inl h0) d
theorem before4_10_A (Φ₀ : sProp 𝕄) (t : Fin cfg4.N) (h0 : t.val = 0) (d) : (dat4 A Φ₀).before 10 t d = d :=
  (dat4 A Φ₀).before_out_reset 10 rfl t (.inl h0) d

theorem before4_9_B (Φ₀ : sProp 𝕄) (t : Fin cfg4.N) (h0 : t.val ≠ 0) (d) :
    (dat4 A Φ₀).before 9 t d = sumAt4 A (t.val - 1) (Nat.lt_of_le_of_lt (Nat.sub_le _ _) t.isLt) := by
  have hN : t.val < 12 := lt_of_lt_of_eq t.isLt (show cfg4.N = 12 from N_4)
  rw [Dat.before_out_kept _ 9 rfl t h0 (Bool.eq_false_iff.mpr fun h => by have := (flush4_9 _).mp h; dsimp only at this; omega)
    (fun _ => rfl) (fun _ _ => rfl)]
  dsimp only [dat4]
theorem before4_10_B (Φ₀ : sProp 𝕄) (t : Fin cfg4.N) (h0 : t.val ≠ 0) (d) :
    (dat4 A Φ₀).before 10 t d = sqAt4 A (t.val - 1) (Nat.lt_of_le_of_lt (Nat.sub_le _ _) t.isLt) := by
  have hN : t.val < 12 := lt_of_lt_of_eq t.isLt (show cfg4.N = 12 from N_4)
  rw [Dat.before_out_kept _ 10 rfl t h0 (Bool.eq_false_iff.mpr fun h => by have := (flush4_10 _).mp h; dsimp only at this; omega)
    (fun _ => rfl) (fun _ _ => rfl)]
  dsimp only [dat4]

end Data

section Body

variable {c : Dev nD} (A : Arrs4 (F := F) c)

def bodyPre4 (Φ₀ : sProp 𝕄) (t : Fin cfg4.N) : sProp 𝕄 :=
  iprop((dat4 A Φ₀).Φ t.castSucc ∗ (dat4 A Φ₀).owesAt (none : HIx 2) t.castSucc
    ∗ (∃ d, owns (c : Thread nD τ) (st4_0 t) fullShare ((dat4 A Φ₀).before 0 t d))
    ∗ (∃ d, owns (c : Thread nD τ) (st4_1 t) fullShare ((dat4 A Φ₀).before 1 t d))
    ∗ (∃ d, owns (c : Thread nD τ) (st4_2 t) fullShare ((dat4 A Φ₀).before 2 t d))
    ∗ (∃ d, owns (c : Thread nD τ) (st4_3 t) fullShare ((dat4 A Φ₀).before 3 t d))
    ∗ (∃ d, owns (c : Thread nD τ) (st4_4 t) fullShare ((dat4 A Φ₀).before 4 t d))
    ∗ (∃ d, owns (c : Thread nD τ) (st4_5 t) fullShare ((dat4 A Φ₀).before 5 t d))
    ∗ (∃ d, owns (c : Thread nD τ) (st4_6 t) fullShare ((dat4 A Φ₀).before 6 t d))
    ∗ (∃ d, owns (c : Thread nD τ) (st4_7 t) fullShare ((dat4 A Φ₀).before 7 t d))
    ∗ (∃ d, owns (c : Thread nD τ) (st4_8 t) fullShare ((dat4 A Φ₀).before 8 t d))
    ∗ (∃ d, owns (c : Thread nD τ) (st4_9 t) fullShare ((dat4 A Φ₀).before 9 t d))
    ∗ (∃ d, owns (c : Thread nD τ) (st4_10 t) fullShare ((dat4 A Φ₀).before 10 t d)))

def bodyPost4 (Φ₀ : sProp 𝕄) (t : Fin cfg4.N) : sProp 𝕄 :=
  iprop((dat4 A Φ₀).Φ t.succ ∗ (dat4 A Φ₀).owesAt (none : HIx 2) t.succ
    ∗ owns (c : Thread nD τ) (st4_0 t) fullShare ((dat4 A Φ₀).after 0 t)
    ∗ owns (c : Thread nD τ) (st4_1 t) fullShare ((dat4 A Φ₀).after 1 t)
    ∗ owns (c : Thread nD τ) (st4_2 t) fullShare ((dat4 A Φ₀).after 2 t)
    ∗ owns (c : Thread nD τ) (st4_3 t) fullShare ((dat4 A Φ₀).after 3 t)
    ∗ owns (c : Thread nD τ) (st4_4 t) fullShare ((dat4 A Φ₀).after 4 t)
    ∗ owns (c : Thread nD τ) (st4_5 t) fullShare ((dat4 A Φ₀).after 5 t)
    ∗ owns (c : Thread nD τ) (st4_6 t) fullShare ((dat4 A Φ₀).after 6 t)
    ∗ owns (c : Thread nD τ) (st4_7 t) fullShare ((dat4 A Φ₀).after 7 t)
    ∗ owns (c : Thread nD τ) (st4_8 t) fullShare ((dat4 A Φ₀).after 8 t)
    ∗ owns (c : Thread nD τ) (st4_9 t) fullShare ((dat4 A Φ₀).after 9 t)
    ∗ owns (c : Thread nD τ) (st4_10 t) fullShare ((dat4 A Φ₀).after 10 t))

set_option maxHeartbeats 1600000 in

theorem sound_body4 (Φ₀ : sProp 𝕄) (t : Fin cfg4.N) :
    bodyPre4 A Φ₀ t ⊢ wp frame (wpE (defs₀ (F := F)) Variants.none c none) Set.univ (bodyAt4 t) (fun _ => bodyPost4 A Φ₀ t) := by
  unfold bodyPre4 bodyPost4 bodyAt4
  simp only [before4_0, before4_1, before4_2, before4_3, before4_4, before4_5, before4_6, before4_7, before4_8]
  rw [show (dat4 A Φ₀).Φ t.succ = (dat4 A Φ₀).Φ t.castSucc from rfl,
    show (dat4 A Φ₀).owesAt (none : HIx 2) t.succ = (dat4 A Φ₀).owesAt (none : HIx 2) t.castSucc from rfl,
    after4_0, after4_1, after4_2, after4_3, after4_4, after4_5, after4_6, after4_7, after4_8, after4_9, after4_10]
  by_cases h0 : t.val = 0
  · simp only [before4_9_A A Φ₀ t h0, before4_10_A A Φ₀ t h0]
    rw [sumAt4_zero A t h0, sqAt4_zero A t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run4_A c Set.univ (grid4.coords t) _ _ _ _ _ _ _ _ _ _ _ _ _ _ _ _ _ _ _ _ _ _ ((hcond4 t).mpr h0) (blk4 A t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before4_9_B A Φ₀ t h0, before4_10_B A Φ₀ t h0]
    rw [sumAt4_pos A t h0, sqAt4_pos A t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run4_B c Set.univ (grid4.coords t) _ _ _ _ _ _ _ _ _ _ _ _ _ _ _ _ _ _ _ _ _ _ (fun h => h0 ((hcond4 t).mp h)) (blk4 A t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_obligation4 (Φ₀ : sProp 𝕄) : BodyObligation (dat4 A Φ₀) (defs₀ (F := F)) Variants.none (none : HIx 2) Set.univ := fun t => by
  rw [bigSep_W4, bigSep_W4]
  exact sound_body4 A Φ₀ t

def rdat4 (Φ₀ : sProp 𝕄) : RDat τ (Elt F) (HIx 2) ℕ UU ℕ cfg4 c := (dat4 A Φ₀).toR

abbrev rdat4P (Φ₀ : sProp 𝕄) (a : (p : Fin 5) → (pcfgs (F := F) p).Adm) : RDat τ (Elt F) (HIx 2) ℕ UU ℕ (Pipeline.pin pcfgs a 2) c := rdat4 A Φ₀

theorem body4 (Φ₀ : sProp 𝕄) : (rdat4 A Φ₀).BodyObligation (defs₀ (F := F)) 𝒱₀ (none : HIx 2) Set.univ := (body_obligation4 A Φ₀).toR

end Body

section Values

variable {c : Dev nD} (A : Arrs4 (F := F) c)

theorem idx4_8 : ∀ t : Fin cfg4.N, win4_8.index t (0 : Fin 2) = t.val ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)
theorem idx4_10 : ∀ t : Fin cfg4.N, win4_10.index t (0 : Fin 2) = 0 ∧ win4_10.index t (1 : Fin 2) = 0 :=
  (by decide +kernel : ∀ t : Fin grid4.N, _)

theorem point4_lt (r : ℕ) (h : r < 4800) : r / 400 < cfg4.N := by
  rw [show cfg4.N = 12 from N_4]; omega

theorem last4_lt : 11 < cfg4.N := by rw [show cfg4.N = 12 from N_4]; omega

def out4_8 : Vec F S4800x128 .f32 := fun i =>
  ns4 (blk4 A ⟨(i 0).val / 400, point4_lt _ (i 0).isLt⟩)
    (ValueIdx.ix2 (⟨(i 0).val % 400, Nat.mod_lt _ (by decide)⟩ : Fin 400) (⟨(i 1).val, (i 1).isLt⟩ : Fin 128))

def out4_9 : Vec F S1x128 .f32 := sumAt4 A 11 last4_lt
def out4_10 : Vec F S1x128 .f32 := sqAt4 A 11 last4_lt

theorem mem_blk4_8 (t : Fin cfg4.N) (i : S4800x128.Idx) :
    i ∈ ((cfg4.win 8).blk t).view.set ↔ ∀ a : Fin 2, win4_8.index t a * S400x128.size a ≤ (i a).val ∧ (i a).val < win4_8.index t a * S400x128.size a + S400x128.size a := by
  show i ∈ ((View.whole main_v41_0).slice (win4_8.rect t)).set ↔ _
  rw [View.set_slice_whole, Rect.mem_set_unit]
  exact Iff.rfl
theorem mem_blk4_9 (t : Fin cfg4.N) (i : S1x128.Idx) :
    i ∈ ((cfg4.win 9).blk t).view.set ↔ ∀ a : Fin 2, win4_9.index t a * S1x128.size a ≤ (i a).val ∧ (i a).val < win4_9.index t a * S1x128.size a + S1x128.size a := by
  show i ∈ ((View.whole main_v41_1).slice (win4_9.rect t)).set ↔ _
  rw [View.set_slice_whole, Rect.mem_set_unit]
  exact Iff.rfl
theorem mem_blk4_10 (t : Fin cfg4.N) (i : S1x128.Idx) :
    i ∈ ((cfg4.win 10).blk t).view.set ↔ ∀ a : Fin 2, win4_10.index t a * S1x128.size a ≤ (i a).val ∧ (i a).val < win4_10.index t a * S1x128.size a + S1x128.size a := by
  show i ∈ ((View.whole main_v41_2).slice (win4_10.rect t)).set ↔ _
  rw [View.set_slice_whole, Rect.mem_set_unit]
  exact Iff.rfl

theorem flushed4_8 (Φ₀ : sProp 𝕄) (t : Fin cfg4.N) :
    (dat4 A Φ₀).flushed 8 t = ((cfg4.win 8).blk t).view.read (Elt F) (out4_8 A) := by
  show (cfg4.win 8).cut (grid4.coords t) ((dat4 A Φ₀).after 8 t) = _
  rw [after4_8]
  obtain ⟨e0, e1⟩ := idx4_8 t
  funext j
  show ns4 (blk4 A t) j = out4_8 A (((cfg4.win 8).blk t).view.emb j)
  have hj0 : (j 0).val < 400 := (j 0).isLt
  have hj1 : (j 1).val < 128 := (j 1).isLt
  have h0 : ((((cfg4.win 8).blk t).view.emb j) 0).val = t.val * 400 + (j 0).val := by
    show win4_8.index t (0 : Fin 2) * 400 + 1 * (j 0).val = _; omega
  have h1 : ((((cfg4.win 8).blk t).view.emb j) 1).val = (j 1).val := by
    show win4_8.index t (1 : Fin 2) * 128 + 1 * (j 1).val = _; omega
  have key : ∀ (t' : Fin cfg4.N) (j' : S400x128.Idx), t' = t → j' = j → ns4 (blk4 A t') j' = ns4 (blk4 A t) j := by
    rintro _ _ rfl rfl; rfl
  unfold out4_8
  refine (key _ _ (Fin.ext ?_) ?_).symm
  · show ((((cfg4.win 8).blk t).view.emb j) 0).val / 400 = t.val
    rw [h0]; omega
  · funext a
    match a with
    | ⟨0, _⟩ => exact Fin.ext (by show ((((cfg4.win 8).blk t).view.emb j) 0).val % 400 = (j 0).val; rw [h0]; omega)
    | ⟨1, _⟩ => exact Fin.ext h1

theorem cover4_8 (i : S4800x128.Idx) : ∃ t : Fin cfg4.N, (cfg4.win 8).flush t = true ∧ i ∈ ((cfg4.win 8).blk t).view.set := by
  have hi0 : (i 0).val < 4800 := (i 0).isLt
  have hi1 : (i 1).val < 128 := (i 1).isLt
  refine ⟨⟨(i 0).val / 400, point4_lt _ hi0⟩, flush4_8 _, ?_⟩
  rw [mem_blk4_8]
  obtain ⟨e0, e1⟩ := idx4_8 ⟨(i 0).val / 400, point4_lt _ hi0⟩
  intro a
  match a with
  | ⟨0, _⟩ =>
    show win4_8.index ⟨(i 0).val / 400, point4_lt _ hi0⟩ (0 : Fin 2) * 400 ≤ (i 0).val ∧ (i 0).val < win4_8.index ⟨(i 0).val / 400, point4_lt _ hi0⟩ (0 : Fin 2) * 400 + 400
    rw [e0]; show (i 0).val / 400 * 400 ≤ (i 0).val ∧ (i 0).val < (i 0).val / 400 * 400 + 400; omega
  | ⟨1, _⟩ =>
    show win4_8.index ⟨(i 0).val / 400, point4_lt _ hi0⟩ (1 : Fin 2) * 128 ≤ (i 1).val ∧ (i 1).val < win4_8.index ⟨(i 0).val / 400, point4_lt _ hi0⟩ (1 : Fin 2) * 128 + 128
    rw [e1]; omega

theorem final4_8 (Φ₀ : sProp 𝕄) : (dat4 A Φ₀).arrAt 8 cfg4.N = out4_8 A :=
  (dat4 A Φ₀).arrAt_eq_of_cover 8 (out4_8 A) (fun t _ => flushed4_8 A Φ₀ t) (cover4_8)

theorem sumAt4_congr (n : ℕ) (h : n < cfg4.N) (e : n = 11) : sumAt4 A n h = sumAt4 A 11 last4_lt := by subst e; rfl
theorem sqAt4_congr (n : ℕ) (h : n < cfg4.N) (e : n = 11) : sqAt4 A n h = sqAt4 A 11 last4_lt := by subst e; rfl

theorem flushed4_9 (Φ₀ : sProp 𝕄) (t : Fin cfg4.N) (hf : (cfg4.win 9).flush t = true) :
    (dat4 A Φ₀).flushed 9 t = ((cfg4.win 9).blk t).view.read (Elt F) (out4_9 A) := by
  have hN : t.val < 12 := lt_of_lt_of_eq t.isLt (show cfg4.N = 12 from N_4)
  have h11 : t.val = 11 := by have := (flush4_9 t).mp hf; omega
  obtain ⟨e0, e1⟩ := idx4_9 t
  show (cfg4.win 9).cut (grid4.coords t) ((dat4 A Φ₀).after 9 t) = _
  rw [after4_9]
  funext j
  show sumAt4 A t.val t.isLt j = out4_9 A (((cfg4.win 9).blk t).view.emb j)
  have hj0 : (j 0).val < 1 := (j 0).isLt
  have hj1 : (j 1).val < 128 := (j 1).isLt
  have hemb : ((cfg4.win 9).blk t).view.emb j = j := by
    funext a; apply Fin.ext
    match a with
    | ⟨0, _⟩ => show win4_9.index t (0 : Fin 2) * 1 + 1 * (j 0).val = (j 0).val; omega
    | ⟨1, _⟩ => show win4_9.index t (1 : Fin 2) * 128 + 1 * (j 1).val = (j 1).val; omega
  rw [hemb]
  exact congrFun (sumAt4_congr A _ _ h11) j

theorem flushed4_10 (Φ₀ : sProp 𝕄) (t : Fin cfg4.N) (hf : (cfg4.win 10).flush t = true) :
    (dat4 A Φ₀).flushed 10 t = ((cfg4.win 10).blk t).view.read (Elt F) (out4_10 A) := by
  have hN : t.val < 12 := lt_of_lt_of_eq t.isLt (show cfg4.N = 12 from N_4)
  have h11 : t.val = 11 := by have := (flush4_10 t).mp hf; omega
  obtain ⟨e0, e1⟩ := idx4_10 t
  show (cfg4.win 10).cut (grid4.coords t) ((dat4 A Φ₀).after 10 t) = _
  rw [after4_10]
  funext j
  show sqAt4 A t.val t.isLt j = out4_10 A (((cfg4.win 10).blk t).view.emb j)
  have hj0 : (j 0).val < 1 := (j 0).isLt
  have hj1 : (j 1).val < 128 := (j 1).isLt
  have hemb : ((cfg4.win 10).blk t).view.emb j = j := by
    funext a; apply Fin.ext
    match a with
    | ⟨0, _⟩ => show win4_10.index t (0 : Fin 2) * 1 + 1 * (j 0).val = (j 0).val; omega
    | ⟨1, _⟩ => show win4_10.index t (1 : Fin 2) * 128 + 1 * (j 1).val = (j 1).val; omega
  rw [hemb]
  exact congrFun (sqAt4_congr A _ _ h11) j

theorem cover4_9 (i : S1x128.Idx) : ∃ t : Fin cfg4.N, (cfg4.win 9).flush t = true ∧ i ∈ ((cfg4.win 9).blk t).view.set := by
  have hi0 : (i 0).val < 1 := (i 0).isLt
  have hi1 : (i 1).val < 128 := (i 1).isLt
  refine ⟨⟨11, last4_lt⟩, (flush4_9 _).mpr rfl, ?_⟩
  rw [mem_blk4_9]
  obtain ⟨e0, e1⟩ := idx4_9 ⟨11, last4_lt⟩
  intro a
  match a with
  | ⟨0, _⟩ =>
    show win4_9.index ⟨11, last4_lt⟩ (0 : Fin 2) * 1 ≤ (i 0).val ∧ (i 0).val < win4_9.index ⟨11, last4_lt⟩ (0 : Fin 2) * 1 + 1
    rw [e0]; omega
  | ⟨1, _⟩ =>
    show win4_9.index ⟨11, last4_lt⟩ (1 : Fin 2) * 128 ≤ (i 1).val ∧ (i 1).val < win4_9.index ⟨11, last4_lt⟩ (1 : Fin 2) * 128 + 128
    rw [e1]; omega
theorem cover4_10 (i : S1x128.Idx) : ∃ t : Fin cfg4.N, (cfg4.win 10).flush t = true ∧ i ∈ ((cfg4.win 10).blk t).view.set := by
  have hi0 : (i 0).val < 1 := (i 0).isLt
  have hi1 : (i 1).val < 128 := (i 1).isLt
  refine ⟨⟨11, last4_lt⟩, (flush4_10 _).mpr rfl, ?_⟩
  rw [mem_blk4_10]
  obtain ⟨e0, e1⟩ := idx4_10 ⟨11, last4_lt⟩
  intro a
  match a with
  | ⟨0, _⟩ =>
    show win4_10.index ⟨11, last4_lt⟩ (0 : Fin 2) * 1 ≤ (i 0).val ∧ (i 0).val < win4_10.index ⟨11, last4_lt⟩ (0 : Fin 2) * 1 + 1
    rw [e0]; omega
  | ⟨1, _⟩ =>
    show win4_10.index ⟨11, last4_lt⟩ (1 : Fin 2) * 128 ≤ (i 1).val ∧ (i 1).val < win4_10.index ⟨11, last4_lt⟩ (1 : Fin 2) * 128 + 128
    rw [e1]; omega

theorem final4_9 (Φ₀ : sProp 𝕄) : (dat4 A Φ₀).arrAt 9 cfg4.N = out4_9 A :=
  (dat4 A Φ₀).arrAt_eq_of_cover 9 (out4_9 A) (fun t hf => flushed4_9 A Φ₀ t hf) (cover4_9)
theorem final4_10 (Φ₀ : sProp 𝕄) : (dat4 A Φ₀).arrAt 10 cfg4.N = out4_10 A :=
  (dat4 A Φ₀).arrAt_eq_of_cover 10 (out4_10 A) (fun t hf => flushed4_10 A Φ₀ t hf) (cover4_10)

theorem arrAt4_8 (Φ₀ : sProp 𝕄) (G) (h : (rdat4 A Φ₀).ArrAt 8 cfg4.N G) : G = out4_8 A :=
  ((dat4 A Φ₀).toR_arrAt 8 cfg4.N G h).trans (final4_8 A Φ₀)
theorem arrAt4_9 (Φ₀ : sProp 𝕄) (G) (h : (rdat4 A Φ₀).ArrAt 9 cfg4.N G) : G = out4_9 A :=
  ((dat4 A Φ₀).toR_arrAt 9 cfg4.N G h).trans (final4_9 A Φ₀)
theorem arrAt4_10 (Φ₀ : sProp 𝕄) (G) (h : (rdat4 A Φ₀).ArrAt 10 cfg4.N G) : G = out4_10 A :=
  ((dat4 A Φ₀).toR_arrAt 10 cfg4.N G h).trans (final4_10 A Φ₀)
theorem arrAt4_in (Φ₀ : sProp 𝕄) (w : Fin cfg4.W) (hw : (cfg4.win w).isOut = false) (G) (h : (rdat4 A Φ₀).ArrAt w cfg4.N G) : G = A w := by
  rw [(rdat4 A Φ₀).ArrAt_in w hw] at h; exact h

end Values

theorem hwaits4 (a : (p : Fin 5) → (pcfgs (F := F) p).Adm)
    (rdats : (p : Fin 5) → (c : Dev nD) → RDat τ (Elt F) (HIx 2) ℕ UU ℕ (Pipeline.pin pcfgs a p) c)
    (howed : ∀ c t, (rdats 2 c).owed t = 0) (c : Dev nD) :
    (levAts (K (F := F)).L (K (F := F)).lev : sProp 𝕄) ⊢ Pipeline.RDat.cellsWaits (Pipeline.pin pcfgs a) rdats (none : HIx 2) 2 c :=
  Pipeline.RDat.hwaits_of_owed_zero pcfgs a rdats (none : HIx 2) (K (F := F)).L (K (F := F)).lev 2 howed c

end Cert.Proof.KI

end
-- ==== Proof.KI.Region5.lean ====
import proofs.«202994_g19078244729258_cont_8to1_1405_21_alg».proof.Proof.KI.Setup
import Idealize.ShloMosaic.Lib.Pipeline.FrameBody
import Idealize.ShloMosaic.Lib.Pipeline.Value
import Idealize.ShloMosaic.Lib.ValueIdx

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig (HIx 2) (Elt F) ℕ UU ℕ

structure Blk5 (F : FTy → Type) where

  x0 : Vec F S400x128 .f32

  x1 : Vec F S400x32x128 .f32

  x2 : Vec F S16x12800 .f32

  x3 : Vec F S400x32 .f32

  x4 : Vec F S128x256 .f32

  x5 : Vec F S128x256 .f32

  x6 : Vec F S16x256 .f32

  x7 : Vec F S1x256 .f32

def gate5 (b : Blk5 F) : FVec F S400x32x128 .f32 := k5_pay7 b.x0 b.x4 b.x7 b.x1 b.x5 b.x2 b.x6

def core5 (b : Blk5 F) : FVec F S400x32x128 .f32 := k5_pay8 b.x0 b.x4 b.x7 b.x1 b.x5 b.x2 b.x6

def ns5 (b : Blk5 F) : Vec F S400x128 .f32 := k5_pay1 (gate5 b) (core5 b) b.x3

def sum5 (b : Blk5 F) (y : Vec F S1x128 .f32) : Vec F S1x128 .f32 := k5_pay4 (gate5 b) (core5 b) b.x3 y

def sq5 (b : Blk5 F) (y : Vec F S1x128 .f32) : Vec F S1x128 .f32 := k5_pay5 (gate5 b) (core5 b) b.x3 y

def zero5 : Vec F S1x128 .f32 := k5_pay2 (F := F)

abbrev cond5 (i : grid5.Coords) : Prop :=
  (Scalar.cmpi .ne (Scalar.extui (Scalar.cmpi .eq (BitVec.ofNat 32 (i 0).val) 0#32)) 0#32) = 1#1

theorem hcond5 : ∀ t : Fin cfg5.N, cond5 (grid5.coords t) ↔ t.val = 0 :=
  (by decide +kernel : ∀ t : Fin grid5.N, cond5 (grid5.coords t) ↔ t.val = 0)

theorem hz2_5 : (![0, 0] : Fin 2 → ℕ) = fun _ => 0 := by funext a; fin_cases a <;> rfl
theorem hz3_5 : (![0, 0, 0] : Fin 3 → ℕ) = fun _ => 0 := by funext a; fin_cases a <;> rfl

set_option maxHeartbeats 4000000 in

theorem run5_B (c : Dev nD) (E : Set ℕ) (i : grid5.Coords)
    (arg1 : Memref sig .tc .vmem S400x128 .f32) (harg1 : arg1.IsWhole) (arg2 : Memref sig .tc .vmem S400x32x128 .f32) (harg2 : arg2.IsWhole)
    (arg3 : Memref sig .tc .vmem S16x12800 .f32) (harg3 : arg3.IsWhole) (arg4 : Memref sig .tc .vmem S400x32 .f32) (harg4 : arg4.IsWhole)
    (arg5 : Memref sig .tc .vmem S128x256 .f32) (harg5 : arg5.IsWhole) (arg6 : Memref sig .tc .vmem S128x256 .f32) (harg6 : arg6.IsWhole)
    (arg7 : Memref sig .tc .vmem S16x256 .f32) (harg7 : arg7.IsWhole) (arg8 : Memref sig .tc .vmem S1x256 .f32) (harg8 : arg8.IsWhole)
    (arg9 : Memref sig .tc .vmem S400x128 .f32) (harg9 : arg9.IsWhole) (arg10 : Memref sig .tc .vmem S1x128 .f32) (harg10 : arg10.IsWhole)
    (arg11 : Memref sig .tc .vmem S1x128 .f32) (harg11 : arg11.IsWhole) (hc : ¬cond5 i)
    (b : Blk5 F) (y9 y10 : Vec F S1x128 .f32) (K : PUnit → sProp 𝕄) :
    iprop(owns (c : Thread nD τ) arg1 fullShare b.x0 ∗ owns (c : Thread nD τ) arg2 fullShare b.x1 ∗ owns (c : Thread nD τ) arg3 fullShare b.x2
        ∗ owns (c : Thread nD τ) arg4 fullShare b.x3 ∗ owns (c : Thread nD τ) arg5 fullShare b.x4 ∗ owns (c : Thread nD τ) arg6 fullShare b.x5
        ∗ owns (c : Thread nD τ) arg7 fullShare b.x6 ∗ owns (c : Thread nD τ) arg8 fullShare b.x7
        ∗ (∃ d, owns (c : Thread nD τ) arg9 fullShare d) ∗ owns (c : Thread nD τ) arg10 fullShare y9 ∗ owns (c : Thread nD τ) arg11 fullShare y10
        ∗ (iprop(owns (c : Thread nD τ) arg1 fullShare b.x0 ∗ owns (c : Thread nD τ) arg2 fullShare b.x1 ∗ owns (c : Thread nD τ) arg3 fullShare b.x2
            ∗ owns (c : Thread nD τ) arg4 fullShare b.x3 ∗ owns (c : Thread nD τ) arg5 fullShare b.x4 ∗ owns (c : Thread nD τ) arg6 fullShare b.x5
            ∗ owns (c : Thread nD τ) arg7 fullShare b.x6 ∗ owns (c : Thread nD τ) arg8 fullShare b.x7
            ∗ owns (c : Thread nD τ) arg9 fullShare (ns5 b) ∗ owns (c : Thread nD τ) arg10 fullShare (sum5 b y9)
            ∗ owns (c : Thread nD τ) arg11 fullShare (sq5 b y10)) -∗ K ⟨⟩))
      ⊢ wp frame (wpE (defs₀ (F := F)) Variants.none c none) E
          (cc5__gate_kernel i arg1 harg1 arg2 harg2 arg3 harg3 arg4 harg4 arg5 harg5 arg6 harg6 arg7 harg7 arg8 harg8 arg9 harg9 arg10 harg10 arg11 harg11) K := by
  obtain ⟨x0, x1, x2, x3, x4, x5, x6, x7⟩ := b
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%f9, %hf9, H9⟩, ⟨%f10, %hf10, H10⟩, Hk⟩
  subst hf0 hf1 hf2 hf3 hf4 hf5 hf6 hf7 hf9 hf10
  sl_unfold [cc5__gate_kernel]
  sl_exec (disch := first | exact hc)

  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    rw [View.read_writes_eq_canon _ _ _ (fun y => ⟨_, List.mem_singleton_self _, View.mem_set_unit_zero hz2_5 inb_S400x128_S400x128_0_0 y⟩), View.canon_unit_zero hz2_5]
    sl_unfold_run_names
    simp only [View.readAt_eq_ld, View.ld_unit_zero (S := S400x128) hz2_5, View.ld_unit_zero (S := S400x32x128) hz3_5, View.ld_unit_zero (S := S16x12800) hz2_5,
      View.ld_unit_zero (S := S400x32) hz2_5, View.ld_unit_zero (S := S128x256) hz2_5, View.ld_unit_zero (S := S16x256) hz2_5, View.ld_unit_zero (S := S1x256) hz2_5,
      View.ld_unit_zero (S := S1x128) hz2_5]
    rfl
  isplitl [H9]
  · iexists _; isplitr
    swap; · iexact H9
    ipureintro
    rw [View.read_writes_eq_canon _ _ _ (fun y => ⟨_, List.mem_singleton_self _, View.mem_set_unit_zero hz2_5 inb_S1x128_S1x128_0_0 y⟩), View.canon_unit_zero hz2_5]
    sl_unfold_run_names
    simp only [View.readAt_eq_ld, View.ld_unit_zero (S := S400x128) hz2_5, View.ld_unit_zero (S := S400x32x128) hz3_5, View.ld_unit_zero (S := S16x12800) hz2_5,
      View.ld_unit_zero (S := S400x32) hz2_5, View.ld_unit_zero (S := S128x256) hz2_5, View.ld_unit_zero (S := S16x256) hz2_5, View.ld_unit_zero (S := S1x256) hz2_5,
      View.ld_unit_zero (S := S1x128) hz2_5]
    rfl
  iexists _; isplitr
  swap; · iexact H10
  ipureintro
  rw [View.read_writes_eq_canon _ _ _ (fun y => ⟨_, List.mem_singleton_self _, View.mem_set_unit_zero hz2_5 inb_S1x128_S1x128_0_0 y⟩), View.canon_unit_zero hz2_5]
  sl_unfold_run_names
  simp only [View.readAt_eq_ld, View.ld_unit_zero (S := S400x128) hz2_5, View.ld_unit_zero (S := S400x32x128) hz3_5, View.ld_unit_zero (S := S16x12800) hz2_5,
      View.ld_unit_zero (S := S400x32) hz2_5, View.ld_unit_zero (S := S128x256) hz2_5, View.ld_unit_zero (S := S16x256) hz2_5, View.ld_unit_zero (S := S1x256) hz2_5,
      View.ld_unit_zero (S := S1x128) hz2_5]
  rfl

set_option maxHeartbeats 4000000 in

theorem run5_A (c : Dev nD) (E : Set ℕ) (i : grid5.Coords)
    (arg1 : Memref sig .tc .vmem S400x128 .f32) (harg1 : arg1.IsWhole) (arg2 : Memref sig .tc .vmem S400x32x128 .f32) (harg2 : arg2.IsWhole)
    (arg3 : Memref sig .tc .vmem S16x12800 .f32) (harg3 : arg3.IsWhole) (arg4 : Memref sig .tc .vmem S400x32 .f32) (harg4 : arg4.IsWhole)
    (arg5 : Memref sig .tc .vmem S128x256 .f32) (harg5 : arg5.IsWhole) (arg6 : Memref sig .tc .vmem S128x256 .f32) (harg6 : arg6.IsWhole)
    (arg7 : Memref sig .tc .vmem S16x256 .f32) (harg7 : arg7.IsWhole) (arg8 : Memref sig .tc .vmem S1x256 .f32) (harg8 : arg8.IsWhole)
    (arg9 : Memref sig .tc .vmem S400x128 .f32) (harg9 : arg9.IsWhole) (arg10 : Memref sig .tc .vmem S1x128 .f32) (harg10 : arg10.IsWhole)
    (arg11 : Memref sig .tc .vmem S1x128 .f32) (harg11 : arg11.IsWhole) (hc : cond5 i)
    (b : Blk5 F) (K : PUnit → sProp 𝕄) :
    iprop(owns (c : Thread nD τ) arg1 fullShare b.x0 ∗ owns (c : Thread nD τ) arg2 fullShare b.x1 ∗ owns (c : Thread nD τ) arg3 fullShare b.x2
        ∗ owns (c : Thread nD τ) arg4 fullShare b.x3 ∗ owns (c : Thread nD τ) arg5 fullShare b.x4 ∗ owns (c : Thread nD τ) arg6 fullShare b.x5
        ∗ owns (c : Thread nD τ) arg7 fullShare b.x6 ∗ owns (c : Thread nD τ) arg8 fullShare b.x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare b.x0 ∗ owns (c : Thread nD τ) arg2 fullShare b.x1 ∗ owns (c : Thread nD τ) arg3 fullShare b.x2
            ∗ owns (c : Thread nD τ) arg4 fullShare b.x3 ∗ owns (c : Thread nD τ) arg5 fullShare b.x4 ∗ owns (c : Thread nD τ) arg6 fullShare b.x5
            ∗ owns (c : Thread nD τ) arg7 fullShare b.x6 ∗ owns (c : Thread nD τ) arg8 fullShare b.x7
            ∗ owns (c : Thread nD τ) arg9 fullShare (ns5 b) ∗ owns (c : Thread nD τ) arg10 fullShare (sum5 b zero5)
            ∗ owns (c : Thread nD τ) arg11 fullShare (sq5 b zero5)) -∗ K ⟨⟩))
      ⊢ wp frame (wpE (defs₀ (F := F)) Variants.none c none) E
          (cc5__gate_kernel i arg1 harg1 arg2 harg2 arg3 harg3 arg4 harg4 arg5 harg5 arg6 harg6 arg7 harg7 arg8 harg8 arg9 harg9 arg10 harg10 arg11 harg11) K := by
  obtain ⟨x0, x1, x2, x3, x4, x5, x6, x7⟩ := b
  dsimp only
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf0 hf1 hf2 hf3 hf4 hf5 hf6 hf7
  sl_unfold [cc5__gate_kernel]
  sl_exec (disch := first | exact hc)

  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    rw [View.read_writes_eq_canon _ _ _ (fun y => ⟨_, List.mem_singleton_self _, View.mem_set_unit_zero hz2_5 inb_S400x128_S400x128_0_0 y⟩), View.canon_unit_zero hz2_5]
    sl_unfold_run_names
    simp only [View.readAt_eq_ld, View.ld_unit_zero (S := S400x128) hz2_5, View.ld_unit_zero (S := S400x32x128) hz3_5, View.ld_unit_zero (S := S16x12800) hz2_5,
      View.ld_unit_zero (S := S400x32) hz2_5, View.ld_unit_zero (S := S128x256) hz2_5, View.ld_unit_zero (S := S16x256) hz2_5, View.ld_unit_zero (S := S1x256) hz2_5,
      View.ld_unit_zero (S := S1x128) hz2_5]
    rfl
  isplitl [H9]
  · iexists _; isplitr
    swap; · iexact H9
    ipureintro
    sl_unfold_run_names
    rw [View.read_writes_eq_canon _ _ _ (fun y => ⟨_, List.mem_cons.mpr (Or.inl rfl), View.mem_set_unit_zero hz2_5 inb_S1x128_S1x128_0_0 y⟩), View.canon_cons_unit_zero hz2_5]
    simp only [View.readAt_eq_ld, View.ld_unit_zero (S := S400x128) hz2_5, View.ld_unit_zero (S := S400x32x128) hz3_5, View.ld_unit_zero (S := S16x12800) hz2_5,
      View.ld_unit_zero (S := S400x32) hz2_5, View.ld_unit_zero (S := S128x256) hz2_5, View.ld_unit_zero (S := S16x256) hz2_5, View.ld_unit_zero (S := S1x256) hz2_5,
      View.ld_unit_zero (S := S1x128) hz2_5, View.readCov_unit_zero (S := S1x128) _ hz2_5]
    rfl
  iexists _; isplitr
  swap; · iexact H10
  ipureintro
  sl_unfold_run_names
  rw [View.read_writes_eq_canon _ _ _ (fun y => ⟨_, List.mem_cons.mpr (Or.inl rfl), View.mem_set_unit_zero hz2_5 inb_S1x128_S1x128_0_0 y⟩), View.canon_cons_unit_zero hz2_5]
  simp only [View.readAt_eq_ld, View.ld_unit_zero (S := S400x128) hz2_5, View.ld_unit_zero (S := S400x32x128) hz3_5, View.ld_unit_zero (S := S16x12800) hz2_5,
      View.ld_unit_zero (S := S400x32) hz2_5, View.ld_unit_zero (S := S128x256) hz2_5, View.ld_unit_zero (S := S16x256) hz2_5, View.ld_unit_zero (S := S1x256) hz2_5,
      View.ld_unit_zero (S := S1x128) hz2_5, View.readCov_unit_zero (S := S1x128) _ hz2_5]
  rfl

abbrev Arrs5 (c : Dev nD) : Type := (w : Fin cfg5.W) → Buf (Elt F) ((cfg5.win w).arr.view.loc (c.tc : Thread nD τ))

section Data

variable {c : Dev nD} (A : Arrs5 (F := F) c)

def iblk5 (w : Fin cfg5.W) (t : Fin cfg5.N) : ((cfg5.win w).xblock (cfg5.grid.coords t)).Idx → Elt F (cfg5.win w).elt :=
  ((cfg5.win w).blk t).view.read (Elt F) (A w)

def blk5 (t : Fin cfg5.N) : Blk5 F :=
  ⟨iblk5 A 0 t, iblk5 A 1 t, iblk5 A 2 t, iblk5 A 3 t, iblk5 A 4 t, iblk5 A 5 t, iblk5 A 6 t, iblk5 A 7 t⟩

def sumAt5 : (n : ℕ) → n < cfg5.N → Vec F S1x128 .f32
  | 0, h => sum5 (blk5 A ⟨0, h⟩) zero5
  | n + 1, h => sum5 (blk5 A ⟨n + 1, h⟩) (sumAt5 n (Nat.lt_of_succ_lt h))

def sqAt5 : (n : ℕ) → n < cfg5.N → Vec F S1x128 .f32
  | 0, h => sq5 (blk5 A ⟨0, h⟩) zero5
  | n + 1, h => sq5 (blk5 A ⟨n + 1, h⟩) (sqAt5 n (Nat.lt_of_succ_lt h))

theorem sumAt5_zero (t : Fin cfg5.N) (h0 : t.val = 0) : sumAt5 A t.val t.isLt = sum5 (blk5 A t) zero5 := by
  obtain ⟨n, hn⟩ := t
  cases n with
  | zero => rfl
  | succ n => exact absurd h0 (Nat.succ_ne_zero n)

theorem sumAt5_pos (t : Fin cfg5.N) (h0 : t.val ≠ 0) :
    sumAt5 A t.val t.isLt = sum5 (blk5 A t) (sumAt5 A (t.val - 1) (Nat.lt_of_le_of_lt (Nat.sub_le _ _) t.isLt)) := by
  obtain ⟨n, hn⟩ := t
  cases n with
  | zero => exact absurd rfl h0
  | succ n => rfl

theorem sqAt5_zero (t : Fin cfg5.N) (h0 : t.val = 0) : sqAt5 A t.val t.isLt = sq5 (blk5 A t) zero5 := by
  obtain ⟨n, hn⟩ := t
  cases n with
  | zero => rfl
  | succ n => exact absurd h0 (Nat.succ_ne_zero n)

theorem sqAt5_pos (t : Fin cfg5.N) (h0 : t.val ≠ 0) :
    sqAt5 A t.val t.isLt = sq5 (blk5 A t) (sqAt5 A (t.val - 1) (Nat.lt_of_le_of_lt (Nat.sub_le _ _) t.isLt)) := by
  obtain ⟨n, hn⟩ := t
  cases n with
  | zero => exact absurd rfl h0
  | succ n => rfl

def dat5 (Φ₀ : sProp 𝕄) : Dat τ (Elt F) (HIx 2) ℕ UU ℕ cfg5 c where
  A := A
  after w t := match w with
    | ⟨0, _⟩ => iblk5 A 0 t
    | ⟨1, _⟩ => iblk5 A 1 t
    | ⟨2, _⟩ => iblk5 A 2 t
    | ⟨3, _⟩ => iblk5 A 3 t
    | ⟨4, _⟩ => iblk5 A 4 t
    | ⟨5, _⟩ => iblk5 A 5 t
    | ⟨6, _⟩ => iblk5 A 6 t
    | ⟨7, _⟩ => iblk5 A 7 t
    | ⟨8, _⟩ => ns5 (blk5 A t)
    | ⟨9, _⟩ => sumAt5 A t.val t.isLt
    | ⟨10, _⟩ => sqAt5 A t.val t.isLt
  Φ _ := Φ₀
  q _ := fullShare
  owed _ := 0

theorem after5_0 (Φ₀ : sProp 𝕄) (t : Fin cfg5.N) : (dat5 A Φ₀).after 0 t = iblk5 A 0 t := by dsimp only [dat5]
theorem after5_1 (Φ₀ : sProp 𝕄) (t : Fin cfg5.N) : (dat5 A Φ₀).after 1 t = iblk5 A 1 t := by dsimp only [dat5]
theorem after5_2 (Φ₀ : sProp 𝕄) (t : Fin cfg5.N) : (dat5 A Φ₀).after 2 t = iblk5 A 2 t := by dsimp only [dat5]
theorem after5_3 (Φ₀ : sProp 𝕄) (t : Fin cfg5.N) : (dat5 A Φ₀).after 3 t = iblk5 A 3 t := by dsimp only [dat5]
theorem after5_4 (Φ₀ : sProp 𝕄) (t : Fin cfg5.N) : (dat5 A Φ₀).after 4 t = iblk5 A 4 t := by dsimp only [dat5]
theorem after5_5 (Φ₀ : sProp 𝕄) (t : Fin cfg5.N) : (dat5 A Φ₀).after 5 t = iblk5 A 5 t := by dsimp only [dat5]
theorem after5_6 (Φ₀ : sProp 𝕄) (t : Fin cfg5.N) : (dat5 A Φ₀).after 6 t = iblk5 A 6 t := by dsimp only [dat5]
theorem after5_7 (Φ₀ : sProp 𝕄) (t : Fin cfg5.N) : (dat5 A Φ₀).after 7 t = iblk5 A 7 t := by dsimp only [dat5]
theorem after5_8 (Φ₀ : sProp 𝕄) (t : Fin cfg5.N) : (dat5 A Φ₀).after 8 t = ns5 (blk5 A t) := by dsimp only [dat5]
theorem after5_9 (Φ₀ : sProp 𝕄) (t : Fin cfg5.N) : (dat5 A Φ₀).after 9 t = sumAt5 A t.val t.isLt := by dsimp only [dat5]
theorem after5_10 (Φ₀ : sProp 𝕄) (t : Fin cfg5.N) : (dat5 A Φ₀).after 10 t = sqAt5 A t.val t.isLt := by dsimp only [dat5]

theorem before5_0 (Φ₀ : sProp 𝕄) (t : Fin cfg5.N) (d) : (dat5 A Φ₀).before 0 t d = iblk5 A 0 t :=
  ((dat5 A Φ₀).before_in_eq_fetched 0 rfl (fun _ => rfl) (fun _ _ _ => rfl) (fun t => by rw [after5_0]; rfl) t d).trans rfl
theorem before5_1 (Φ₀ : sProp 𝕄) (t : Fin cfg5.N) (d) : (dat5 A Φ₀).before 1 t d = iblk5 A 1 t :=
  ((dat5 A Φ₀).before_in_eq_fetched 1 rfl (fun _ => rfl) (fun _ _ _ => rfl) (fun t => by rw [after5_1]; rfl) t d).trans rfl
theorem before5_2 (Φ₀ : sProp 𝕄) (t : Fin cfg5.N) (d) : (dat5 A Φ₀).before 2 t d = iblk5 A 2 t :=
  ((dat5 A Φ₀).before_in_eq_fetched 2 rfl (fun _ => rfl) (fun _ _ _ => rfl) (fun t => by rw [after5_2]; rfl) t d).trans rfl
theorem before5_3 (Φ₀ : sProp 𝕄) (t : Fin cfg5.N) (d) : (dat5 A Φ₀).before 3 t d = iblk5 A 3 t :=
  ((dat5 A Φ₀).before_in_eq_fetched 3 rfl (fun _ => rfl) (fun _ _ _ => rfl) (fun t => by rw [after5_3]; rfl) t d).trans rfl
theorem before5_4 (Φ₀ : sProp 𝕄) (t : Fin cfg5.N) (d) : (dat5 A Φ₀).before 4 t d = iblk5 A 4 t :=
  ((dat5 A Φ₀).before_in_eq_fetched 4 rfl (fun _ => rfl) (fun _ _ _ => rfl) (fun t => by rw [after5_4]; rfl) t d).trans rfl
theorem before5_5 (Φ₀ : sProp 𝕄) (t : Fin cfg5.N) (d) : (dat5 A Φ₀).before 5 t d = iblk5 A 5 t :=
  ((dat5 A Φ₀).before_in_eq_fetched 5 rfl (fun _ => rfl) (fun _ _ _ => rfl) (fun t => by rw [after5_5]; rfl) t d).trans rfl
theorem before5_6 (Φ₀ : sProp 𝕄) (t : Fin cfg5.N) (d) : (dat5 A Φ₀).before 6 t d = iblk5 A 6 t :=
  ((dat5 A Φ₀).before_in_eq_fetched 6 rfl (fun _ => rfl) (fun _ _ _ => rfl) (fun t => by rw [after5_6]; rfl) t d).trans rfl
theorem before5_7 (Φ₀ : sProp 𝕄) (t : Fin cfg5.N) (d) : (dat5 A Φ₀).before 7 t d = iblk5 A 7 t :=
  ((dat5 A Φ₀).before_in_eq_fetched 7 rfl (fun _ => rfl) (fun _ _ _ => rfl) (fun t => by rw [after5_7]; rfl) t d).trans rfl

theorem before5_8 (Φ₀ : sProp 𝕄) (t : Fin cfg5.N) (d) : (dat5 A Φ₀).before 8 t d = d :=
  (dat5 A Φ₀).before_out_reset 8 rfl t (by
    by_cases h : t.val = 0
    · exact .inl h
    · exact .inr ⟨h, flush5_8 _⟩) d

theorem before5_9_A (Φ₀ : sProp 𝕄) (t : Fin cfg5.N) (h0 : t.val = 0) (d) : (dat5 A Φ₀).before 9 t d = d :=
  (dat5 A Φ₀).before_out_reset 9 rfl t (.inl h0) d
theorem before5_10_A (Φ₀ : sProp 𝕄) (t : Fin cfg5.N) (h0 : t.val = 0) (d) : (dat5 A Φ₀).before 10 t d = d :=
  (dat5 A Φ₀).before_out_reset 10 rfl t (.inl h0) d

theorem before5_9_B (Φ₀ : sProp 𝕄) (t : Fin cfg5.N) (h0 : t.val ≠ 0) (d) :
    (dat5 A Φ₀).before 9 t d = sumAt5 A (t.val - 1) (Nat.lt_of_le_of_lt (Nat.sub_le _ _) t.isLt) := by
  have hN : t.val < 13 := lt_of_lt_of_eq t.isLt (show cfg5.N = 13 from N_5)
  rw [Dat.before_out_kept _ 9 rfl t h0 (Bool.eq_false_iff.mpr fun h => by have := (flush5_9 _).mp h; dsimp only at this; omega)
    (fun _ => rfl) (fun _ _ => rfl)]
  dsimp only [dat5]
theorem before5_10_B (Φ₀ : sProp 𝕄) (t : Fin cfg5.N) (h0 : t.val ≠ 0) (d) :
    (dat5 A Φ₀).before 10 t d = sqAt5 A (t.val - 1) (Nat.lt_of_le_of_lt (Nat.sub_le _ _) t.isLt) := by
  have hN : t.val < 13 := lt_of_lt_of_eq t.isLt (show cfg5.N = 13 from N_5)
  rw [Dat.before_out_kept _ 10 rfl t h0 (Bool.eq_false_iff.mpr fun h => by have := (flush5_10 _).mp h; dsimp only at this; omega)
    (fun _ => rfl) (fun _ _ => rfl)]
  dsimp only [dat5]

end Data

section Body

variable {c : Dev nD} (A : Arrs5 (F := F) c)

def bodyPre5 (Φ₀ : sProp 𝕄) (t : Fin cfg5.N) : sProp 𝕄 :=
  iprop((dat5 A Φ₀).Φ t.castSucc ∗ (dat5 A Φ₀).owesAt (none : HIx 2) t.castSucc
    ∗ (∃ d, owns (c : Thread nD τ) (st5_0 t) fullShare ((dat5 A Φ₀).before 0 t d))
    ∗ (∃ d, owns (c : Thread nD τ) (st5_1 t) fullShare ((dat5 A Φ₀).before 1 t d))
    ∗ (∃ d, owns (c : Thread nD τ) (st5_2 t) fullShare ((dat5 A Φ₀).before 2 t d))
    ∗ (∃ d, owns (c : Thread nD τ) (st5_3 t) fullShare ((dat5 A Φ₀).before 3 t d))
    ∗ (∃ d, owns (c : Thread nD τ) (st5_4 t) fullShare ((dat5 A Φ₀).before 4 t d))
    ∗ (∃ d, owns (c : Thread nD τ) (st5_5 t) fullShare ((dat5 A Φ₀).before 5 t d))
    ∗ (∃ d, owns (c : Thread nD τ) (st5_6 t) fullShare ((dat5 A Φ₀).before 6 t d))
    ∗ (∃ d, owns (c : Thread nD τ) (st5_7 t) fullShare ((dat5 A Φ₀).before 7 t d))
    ∗ (∃ d, owns (c : Thread nD τ) (st5_8 t) fullShare ((dat5 A Φ₀).before 8 t d))
    ∗ (∃ d, owns (c : Thread nD τ) (st5_9 t) fullShare ((dat5 A Φ₀).before 9 t d))
    ∗ (∃ d, owns (c : Thread nD τ) (st5_10 t) fullShare ((dat5 A Φ₀).before 10 t d)))

def bodyPost5 (Φ₀ : sProp 𝕄) (t : Fin cfg5.N) : sProp 𝕄 :=
  iprop((dat5 A Φ₀).Φ t.succ ∗ (dat5 A Φ₀).owesAt (none : HIx 2) t.succ
    ∗ owns (c : Thread nD τ) (st5_0 t) fullShare ((dat5 A Φ₀).after 0 t)
    ∗ owns (c : Thread nD τ) (st5_1 t) fullShare ((dat5 A Φ₀).after 1 t)
    ∗ owns (c : Thread nD τ) (st5_2 t) fullShare ((dat5 A Φ₀).after 2 t)
    ∗ owns (c : Thread nD τ) (st5_3 t) fullShare ((dat5 A Φ₀).after 3 t)
    ∗ owns (c : Thread nD τ) (st5_4 t) fullShare ((dat5 A Φ₀).after 4 t)
    ∗ owns (c : Thread nD τ) (st5_5 t) fullShare ((dat5 A Φ₀).after 5 t)
    ∗ owns (c : Thread nD τ) (st5_6 t) fullShare ((dat5 A Φ₀).after 6 t)
    ∗ owns (c : Thread nD τ) (st5_7 t) fullShare ((dat5 A Φ₀).after 7 t)
    ∗ owns (c : Thread nD τ) (st5_8 t) fullShare ((dat5 A Φ₀).after 8 t)
    ∗ owns (c : Thread nD τ) (st5_9 t) fullShare ((dat5 A Φ₀).after 9 t)
    ∗ owns (c : Thread nD τ) (st5_10 t) fullShare ((dat5 A Φ₀).after 10 t))

set_option maxHeartbeats 1600000 in

theorem sound_body5 (Φ₀ : sProp 𝕄) (t : Fin cfg5.N) :
    bodyPre5 A Φ₀ t ⊢ wp frame (wpE (defs₀ (F := F)) Variants.none c none) Set.univ (bodyAt5 t) (fun _ => bodyPost5 A Φ₀ t) := by
  unfold bodyPre5 bodyPost5 bodyAt5
  simp only [before5_0, before5_1, before5_2, before5_3, before5_4, before5_5, before5_6, before5_7, before5_8]
  rw [show (dat5 A Φ₀).Φ t.succ = (dat5 A Φ₀).Φ t.castSucc from rfl,
    show (dat5 A Φ₀).owesAt (none : HIx 2) t.succ = (dat5 A Φ₀).owesAt (none : HIx 2) t.castSucc from rfl,
    after5_0, after5_1, after5_2, after5_3, after5_4, after5_5, after5_6, after5_7, after5_8, after5_9, after5_10]
  by_cases h0 : t.val = 0
  · simp only [before5_9_A A Φ₀ t h0, before5_10_A A Φ₀ t h0]
    rw [sumAt5_zero A t h0, sqAt5_zero A t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run5_A c Set.univ (grid5.coords t) _ _ _ _ _ _ _ _ _ _ _ _ _ _ _ _ _ _ _ _ _ _ ((hcond5 t).mpr h0) (blk5 A t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before5_9_B A Φ₀ t h0, before5_10_B A Φ₀ t h0]
    rw [sumAt5_pos A t h0, sqAt5_pos A t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run5_B c Set.univ (grid5.coords t) _ _ _ _ _ _ _ _ _ _ _ _ _ _ _ _ _ _ _ _ _ _ (fun h => h0 ((hcond5 t).mp h)) (blk5 A t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_obligation5 (Φ₀ : sProp 𝕄) : BodyObligation (dat5 A Φ₀) (defs₀ (F := F)) Variants.none (none : HIx 2) Set.univ := fun t => by
  rw [bigSep_W5, bigSep_W5]
  exact sound_body5 A Φ₀ t

def rdat5 (Φ₀ : sProp 𝕄) : RDat τ (Elt F) (HIx 2) ℕ UU ℕ cfg5 c := (dat5 A Φ₀).toR

abbrev rdat5P (Φ₀ : sProp 𝕄) (a : (p : Fin 5) → (pcfgs (F := F) p).Adm) : RDat τ (Elt F) (HIx 2) ℕ UU ℕ (Pipeline.pin pcfgs a 3) c := rdat5 A Φ₀

theorem body5 (Φ₀ : sProp 𝕄) : (rdat5 A Φ₀).BodyObligation (defs₀ (F := F)) 𝒱₀ (none : HIx 2) Set.univ := (body_obligation5 A Φ₀).toR

end Body

section Values

variable {c : Dev nD} (A : Arrs5 (F := F) c)

theorem idx5_8 : ∀ t : Fin cfg5.N, win5_8.index t (0 : Fin 2) = t.val ∧ win5_8.index t (1 : Fin 2) = 0 :=
  (by decide +kernel : ∀ t : Fin grid5.N, _)
theorem idx5_9 : ∀ t : Fin cfg5.N, win5_9.index t (0 : Fin 2) = 0 ∧ win5_9.index t (1 : Fin 2) = 0 :=
  (by decide +kernel : ∀ t : Fin grid5.N, _)
theorem idx5_10 : ∀ t : Fin cfg5.N, win5_10.index t (0 : Fin 2) = 0 ∧ win5_10.index t (1 : Fin 2) = 0 :=
  (by decide +kernel : ∀ t : Fin grid5.N, _)

theorem point5_lt (r : ℕ) (h : r < 5200) : r / 400 < cfg5.N := by
  rw [show cfg5.N = 13 from N_5]; omega

theorem last5_lt : 12 < cfg5.N := by rw [show cfg5.N = 13 from N_5]; omega

def out5_8 : Vec F S5200x128 .f32 := fun i =>
  ns5 (blk5 A ⟨(i 0).val / 400, point5_lt _ (i 0).isLt⟩)
    (ValueIdx.ix2 (⟨(i 0).val % 400, Nat.mod_lt _ (by decide)⟩ : Fin 400) (⟨(i 1).val, (i 1).isLt⟩ : Fin 128))

def out5_9 : Vec F S1x128 .f32 := sumAt5 A 12 last5_lt
def out5_10 : Vec F S1x128 .f32 := sqAt5 A 12 last5_lt

theorem mem_blk5_8 (t : Fin cfg5.N) (i : S5200x128.Idx) :
    i ∈ ((cfg5.win 8).blk t).view.set ↔ ∀ a : Fin 2, win5_8.index t a * S400x128.size a ≤ (i a).val ∧ (i a).val < win5_8.index t a * S400x128.size a + S400x128.size a := by
  show i ∈ ((View.whole main_v42_0).slice (win5_8.rect t)).set ↔ _
  rw [View.set_slice_whole, Rect.mem_set_unit]
  exact Iff.rfl
theorem mem_blk5_9 (t : Fin cfg5.N) (i : S1x128.Idx) :
    i ∈ ((cfg5.win 9).blk t).view.set ↔ ∀ a : Fin 2, win5_9.index t a * S1x128.size a ≤ (i a).val ∧ (i a).val < win5_9.index t a * S1x128.size a + S1x128.size a := by
  show i ∈ ((View.whole main_v42_1).slice (win5_9.rect t)).set ↔ _
  rw [View.set_slice_whole, Rect.mem_set_unit]
  exact Iff.rfl
theorem mem_blk5_10 (t : Fin cfg5.N) (i : S1x128.Idx) :
    i ∈ ((cfg5.win 10).blk t).view.set ↔ ∀ a : Fin 2, win5_10.index t a * S1x128.size a ≤ (i a).val ∧ (i a).val < win5_10.index t a * S1x128.size a + S1x128.size a := by
  show i ∈ ((View.whole main_v42_2).slice (win5_10.rect t)).set ↔ _
  rw [View.set_slice_whole, Rect.mem_set_unit]
  exact Iff.rfl

theorem flushed5_8 (Φ₀ : sProp 𝕄) (t : Fin cfg5.N) :
    (dat5 A Φ₀).flushed 8 t = ((cfg5.win 8).blk t).view.read (Elt F) (out5_8 A) := by
  show (cfg5.win 8).cut (grid5.coords t) ((dat5 A Φ₀).after 8 t) = _
  rw [after5_8]
  obtain ⟨e0, e1⟩ := idx5_8 t
  funext j
  show ns5 (blk5 A t) j = out5_8 A (((cfg5.win 8).blk t).view.emb j)
  have hj0 : (j 0).val < 400 := (j 0).isLt
  have hj1 : (j 1).val < 128 := (j 1).isLt
  have h0 : ((((cfg5.win 8).blk t).view.emb j) 0).val = t.val * 400 + (j 0).val := by
    show win5_8.index t (0 : Fin 2) * 400 + 1 * (j 0).val = _; omega
  have h1 : ((((cfg5.win 8).blk t).view.emb j) 1).val = (j 1).val := by
    show win5_8.index t (1 : Fin 2) * 128 + 1 * (j 1).val = _; omega
  have key : ∀ (t' : Fin cfg5.N) (j' : S400x128.Idx), t' = t → j' = j → ns5 (blk5 A t') j' = ns5 (blk5 A t) j := by
    rintro _ _ rfl rfl; rfl
  unfold out5_8
  refine (key _ _ (Fin.ext ?_) ?_).symm
  · show ((((cfg5.win 8).blk t).view.emb j) 0).val / 400 = t.val
    rw [h0]; omega
  · funext a
    match a with
    | ⟨0, _⟩ => exact Fin.ext (by show ((((cfg5.win 8).blk t).view.emb j) 0).val % 400 = (j 0).val; rw [h0]; omega)
    | ⟨1, _⟩ => exact Fin.ext h1

theorem cover5_8 (i : S5200x128.Idx) : ∃ t : Fin cfg5.N, (cfg5.win 8).flush t = true ∧ i ∈ ((cfg5.win 8).blk t).view.set := by
  have hi0 : (i 0).val < 5200 := (i 0).isLt
  have hi1 : (i 1).val < 128 := (i 1).isLt
  refine ⟨⟨(i 0).val / 400, point5_lt _ hi0⟩, flush5_8 _, ?_⟩
  rw [mem_blk5_8]
  obtain ⟨e0, e1⟩ := idx5_8 ⟨(i 0).val / 400, point5_lt _ hi0⟩
  intro a
  match a with
  | ⟨0, _⟩ =>
    show win5_8.index ⟨(i 0).val / 400, point5_lt _ hi0⟩ (0 : Fin 2) * 400 ≤ (i 0).val ∧ (i 0).val < win5_8.index ⟨(i 0).val / 400, point5_lt _ hi0⟩ (0 : Fin 2) * 400 + 400
    rw [e0]; show (i 0).val / 400 * 400 ≤ (i 0).val ∧ (i 0).val < (i 0).val / 400 * 400 + 400; omega
  | ⟨1, _⟩ =>
    show win5_8.index ⟨(i 0).val / 400, point5_lt _ hi0⟩ (1 : Fin 2) * 128 ≤ (i 1).val ∧ (i 1).val < win5_8.index ⟨(i 0).val / 400, point5_lt _ hi0⟩ (1 : Fin 2) * 128 + 128
    rw [e1]; omega

theorem final5_8 (Φ₀ : sProp 𝕄) : (dat5 A Φ₀).arrAt 8 cfg5.N = out5_8 A :=
  (dat5 A Φ₀).arrAt_eq_of_cover 8 (out5_8 A) (fun t _ => flushed5_8 A Φ₀ t) (cover5_8)

theorem sumAt5_congr (n : ℕ) (h : n < cfg5.N) (e : n = 12) : sumAt5 A n h = sumAt5 A 12 last5_lt := by subst e; rfl
theorem sqAt5_congr (n : ℕ) (h : n < cfg5.N) (e : n = 12) : sqAt5 A n h = sqAt5 A 12 last5_lt := by subst e; rfl

theorem flushed5_9 (Φ₀ : sProp 𝕄) (t : Fin cfg5.N) (hf : (cfg5.win 9).flush t = true) :
    (dat5 A Φ₀).flushed 9 t = ((cfg5.win 9).blk t).view.read (Elt F) (out5_9 A) := by
  have hN : t.val < 13 := lt_of_lt_of_eq t.isLt (show cfg5.N = 13 from N_5)
  have h11 : t.val = 12 := by have := (flush5_9 t).mp hf; omega
  obtain ⟨e0, e1⟩ := idx5_9 t
  show (cfg5.win 9).cut (grid5.coords t) ((dat5 A Φ₀).after 9 t) = _
  rw [after5_9]
  funext j
  show sumAt5 A t.val t.isLt j = out5_9 A (((cfg5.win 9).blk t).view.emb j)
  have hj0 : (j 0).val < 1 := (j 0).isLt
  have hj1 : (j 1).val < 128 := (j 1).isLt
  have hemb : ((cfg5.win 9).blk t).view.emb j = j := by
    funext a; apply Fin.ext
    match a with
    | ⟨0, _⟩ => show win5_9.index t (0 : Fin 2) * 1 + 1 * (j 0).val = (j 0).val; omega
    | ⟨1, _⟩ => show win5_9.index t (1 : Fin 2) * 128 + 1 * (j 1).val = (j 1).val; omega
  rw [hemb]
  exact congrFun (sumAt5_congr A _ _ h11) j

theorem flushed5_10 (Φ₀ : sProp 𝕄) (t : Fin cfg5.N) (hf : (cfg5.win 10).flush t = true) :
    (dat5 A Φ₀).flushed 10 t = ((cfg5.win 10).blk t).view.read (Elt F) (out5_10 A) := by
  have hN : t.val < 13 := lt_of_lt_of_eq t.isLt (show cfg5.N = 13 from N_5)
  have h11 : t.val = 12 := by have := (flush5_10 t).mp hf; omega
  obtain ⟨e0, e1⟩ := idx5_10 t
  show (cfg5.win 10).cut (grid5.coords t) ((dat5 A Φ₀).after 10 t) = _
  rw [after5_10]
  funext j
  show sqAt5 A t.val t.isLt j = out5_10 A (((cfg5.win 10).blk t).view.emb j)
  have hj0 : (j 0).val < 1 := (j 0).isLt
  have hj1 : (j 1).val < 128 := (j 1).isLt
  have hemb : ((cfg5.win 10).blk t).view.emb j = j := by
    funext a; apply Fin.ext
    match a with
    | ⟨0, _⟩ => show win5_10.index t (0 : Fin 2) * 1 + 1 * (j 0).val = (j 0).val; omega
    | ⟨1, _⟩ => show win5_10.index t (1 : Fin 2) * 128 + 1 * (j 1).val = (j 1).val; omega
  rw [hemb]
  exact congrFun (sqAt5_congr A _ _ h11) j

theorem cover5_9 (i : S1x128.Idx) : ∃ t : Fin cfg5.N, (cfg5.win 9).flush t = true ∧ i ∈ ((cfg5.win 9).blk t).view.set := by
  have hi0 : (i 0).val < 1 := (i 0).isLt
  have hi1 : (i 1).val < 128 := (i 1).isLt
  refine ⟨⟨12, last5_lt⟩, (flush5_9 _).mpr rfl, ?_⟩
  rw [mem_blk5_9]
  obtain ⟨e0, e1⟩ := idx5_9 ⟨12, last5_lt⟩
  intro a
  match a with
  | ⟨0, _⟩ =>
    show win5_9.index ⟨12, last5_lt⟩ (0 : Fin 2) * 1 ≤ (i 0).val ∧ (i 0).val < win5_9.index ⟨12, last5_lt⟩ (0 : Fin 2) * 1 + 1
    rw [e0]; omega
  | ⟨1, _⟩ =>
    show win5_9.index ⟨12, last5_lt⟩ (1 : Fin 2) * 128 ≤ (i 1).val ∧ (i 1).val < win5_9.index ⟨12, last5_lt⟩ (1 : Fin 2) * 128 + 128
    rw [e1]; omega
theorem cover5_10 (i : S1x128.Idx) : ∃ t : Fin cfg5.N, (cfg5.win 10).flush t = true ∧ i ∈ ((cfg5.win 10).blk t).view.set := by
  have hi0 : (i 0).val < 1 := (i 0).isLt
  have hi1 : (i 1).val < 128 := (i 1).isLt
  refine ⟨⟨12, last5_lt⟩, (flush5_10 _).mpr rfl, ?_⟩
  rw [mem_blk5_10]
  obtain ⟨e0, e1⟩ := idx5_10 ⟨12, last5_lt⟩
  intro a
  match a with
  | ⟨0, _⟩ =>
    show win5_10.index ⟨12, last5_lt⟩ (0 : Fin 2) * 1 ≤ (i 0).val ∧ (i 0).val < win5_10.index ⟨12, last5_lt⟩ (0 : Fin 2) * 1 + 1
    rw [e0]; omega
  | ⟨1, _⟩ =>
    show win5_10.index ⟨12, last5_lt⟩ (1 : Fin 2) * 128 ≤ (i 1).val ∧ (i 1).val < win5_10.index ⟨12, last5_lt⟩ (1 : Fin 2) * 128 + 128
    rw [e1]; omega

theorem final5_9 (Φ₀ : sProp 𝕄) : (dat5 A Φ₀).arrAt 9 cfg5.N = out5_9 A :=
  (dat5 A Φ₀).arrAt_eq_of_cover 9 (out5_9 A) (fun t hf => flushed5_9 A Φ₀ t hf) (cover5_9)
theorem final5_10 (Φ₀ : sProp 𝕄) : (dat5 A Φ₀).arrAt 10 cfg5.N = out5_10 A :=
  (dat5 A Φ₀).arrAt_eq_of_cover 10 (out5_10 A) (fun t hf => flushed5_10 A Φ₀ t hf) (cover5_10)

theorem arrAt5_8 (Φ₀ : sProp 𝕄) (G) (h : (rdat5 A Φ₀).ArrAt 8 cfg5.N G) : G = out5_8 A :=
  ((dat5 A Φ₀).toR_arrAt 8 cfg5.N G h).trans (final5_8 A Φ₀)
theorem arrAt5_9 (Φ₀ : sProp 𝕄) (G) (h : (rdat5 A Φ₀).ArrAt 9 cfg5.N G) : G = out5_9 A :=
  ((dat5 A Φ₀).toR_arrAt 9 cfg5.N G h).trans (final5_9 A Φ₀)
theorem arrAt5_10 (Φ₀ : sProp 𝕄) (G) (h : (rdat5 A Φ₀).ArrAt 10 cfg5.N G) : G = out5_10 A :=
  ((dat5 A Φ₀).toR_arrAt 10 cfg5.N G h).trans (final5_10 A Φ₀)
theorem arrAt5_in (Φ₀ : sProp 𝕄) (w : Fin cfg5.W) (hw : (cfg5.win w).isOut = false) (G) (h : (rdat5 A Φ₀).ArrAt w cfg5.N G) : G = A w := by
  rw [(rdat5 A Φ₀).ArrAt_in w hw] at h; exact h

end Values

theorem hwaits5 (a : (p : Fin 5) → (pcfgs (F := F) p).Adm)
    (rdats : (p : Fin 5) → (c : Dev nD) → RDat τ (Elt F) (HIx 2) ℕ UU ℕ (Pipeline.pin pcfgs a p) c)
    (howed : ∀ c t, (rdats 3 c).owed t = 0) (c : Dev nD) :
    (levAts (K (F := F)).L (K (F := F)).lev : sProp 𝕄) ⊢ Pipeline.RDat.cellsWaits (Pipeline.pin pcfgs a) rdats (none : HIx 2) 3 c :=
  Pipeline.RDat.hwaits_of_owed_zero pcfgs a rdats (none : HIx 2) (K (F := F)).L (K (F := F)).lev 3 howed c

end Cert.Proof.KI

end
-- ==== Proof.KI.RegionStep.lean ====
import proofs.«202994_g19078244729258_cont_8to1_1405_21_alg».proof.Proof.KI.Setup
import proofs.«202994_g19078244729258_cont_8to1_1405_21_alg».proof.Proof.KI.Region6
import proofs.«202994_g19078244729258_cont_8to1_1405_21_alg».proof.Proof.KI.Region2
import proofs.«202994_g19078244729258_cont_8to1_1405_21_alg».proof.Proof.KI.Region3
import proofs.«202994_g19078244729258_cont_8to1_1405_21_alg».proof.Proof.KI.Region4
import proofs.«202994_g19078244729258_cont_8to1_1405_21_alg».proof.Proof.KI.Region5
import Idealize.ShloMosaic.Lib.Pipeline.Kit
import Idealize.ShloMosaic.Lib.Pipeline.Regions
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

section Conversions

variable {cfg : Pipeline.Cfg sig Λ₀} {c : Dev nD} (rd : Pipeline.RDat τ (Elt F) (HIx 2) ℕ UU ℕ cfg c)

omit [FloatOps F] in

theorem owesAt_of_zero (t : Fin (cfg.N + 1)) (h0 : rd.owed t = 0) (hr : rd.recorded t = Set.univ) :
    (iprop(∃ Wt, owes (T c) (0 : CellTallies nD τ sig (HIx 2)) Wt) : sProp 𝕄) ⊢ rd.owesAt (none : HIx 2) t := by
  show _ ⊢ iprop(∃ Wt, ⌜↑Wt ⊆ rd.bound (none : HIx 2) t⌝ ∗ owes (c.tc : Thread nD τ) (rd.owed t) Wt)
  rw [h0]
  iintro ⟨%Wt, H⟩
  iexists Wt
  isplitr
  · ipureintro
    intro x _
    exact Or.inl (by rw [hr]; trivial)
  iexact H

omit [FloatOps F] in

theorem zero_of_owesAt (t : Fin (cfg.N + 1)) (h0 : rd.owed t = 0) :
    rd.owesAt (none : HIx 2) t ⊢ (iprop(∃ Wt, owes (T c) (0 : CellTallies nD τ sig (HIx 2)) Wt) : sProp 𝕄) := by
  show iprop(∃ Wt, ⌜↑Wt ⊆ rd.bound (none : HIx 2) t⌝ ∗ owes (c.tc : Thread nD τ) (rd.owed t) Wt) ⊢ _
  rw [h0]
  iintro ⟨%Wt, -, H⟩
  iexists Wt
  iexact H

omit [FloatOps F] in

theorem arraysAt_to (harr : ∀ w, (cfg.spec w).arr.IsWhole) (hshare : ∀ w, rd.share w = fullShare) (n : ℕ)
    (G : (w : Fin cfg.W) → Buf (Elt F) ((c.tc : Thread nD τ).loc (Pipeline.arrRef cfg.spec w)))
    (hG : ∀ w X, rd.ArrAt w n X → X = G w) :
    rd.arraysAt n ⊢ (bigSep Finset.univ fun w => ((c.tc : Thread nD τ).loc (Pipeline.arrRef cfg.spec w)) ↦{fullShare} G w : sProp 𝕄) := by
  have h : ∀ w, (iprop(∃ X, ⌜rd.ArrAt w n X⌝
        ∗ (cfg.win w).arr.view.loc (c.tc : Thread nD τ) ↦[(cfg.win w).arr.view.set]{rd.share w} X) : sProp 𝕄)
      ⊢ (((c.tc : Thread nD τ).loc (Pipeline.arrRef cfg.spec w)) ↦{fullShare} G w) := by
    intro w
    iintro ⟨%X, %hX, H⟩
    have e := hG w X hX
    subst e
    rw [(harr w).set_eq_univ, hshare w]
    iexact H
  unfold Pipeline.RDat.arraysAt
  exact bigSep_mono fun w _ => h w

end Conversions

def heldSeg (a : (p : Fin 5) → (pcfgs (F := F) p).Adm)
    (rdats : (p : Fin 5) → (c : Dev nD) → Pipeline.RDat τ (Elt F) (HIx 2) ℕ UU ℕ (Pipeline.pin (pcfgs (F := F)) a p) c)
    (p : Fin 5) (lf : Pipeline.LaunchFacts (nD := nD) (τ := τ) cfgs p)
    (SS : Finset (DevRef τ sig))
    (hS : ∀ (W : Valuation τ sig (Elt F)) (d : Dev nD),
      (unscopedBufs d (fun b => W (Proc.devRef .tc b)) : sProp 𝕄) = held (T d) SS W)
    (W W' : Dev nD → Valuation τ sig (Elt F))
    (hbody : ∀ c, (rdats p c).BodyObligation (defs₀ (F := F)) 𝒱₀ (none : HIx 2) Set.univ)
    (hwaits : ∀ c, (levAts (K (F := F)).L (K (F := F)).lev : sProp 𝕄)
      ⊢ Pipeline.RDat.cellsWaits (Pipeline.pin (pcfgs (F := F)) a) rdats (none : HIx 2) p c)
    (hA : ∀ c w, (rdats p c).A w = W c (Proc.devRef .tc (Pipeline.arrRef (cfgs p).spec w)))
    (hq : ∀ c w, (rdats p c).q w = fullShare)
    (hΦ0 : ∀ c, (Pipeline.scopedRest (cfgs p).spec c : sProp 𝕄) ⊢ (rdats p c).Φ 0)
    (hΦN : ∀ c, (rdats p c).Φ (Fin.last (cfgs p).N) ⊢ (Pipeline.scopedRest (cfgs p).spec c : sProp 𝕄))
    (ho0 : ∀ c, (rdats p c).owed 0 = 0) (hoN : ∀ c, (rdats p c).owed (Fin.last (cfgs p).N) = 0)
    (hr0 : ∀ c, (rdats p c).recorded 0 = Set.univ)
    (hfin : ∀ c w G, (rdats p c).ArrAt w (cfgs p).N G → G = W' c (Proc.devRef .tc (Pipeline.arrRef (cfgs p).spec w)))
    (hrest : ∀ c (b : Ref sig .tc), b ∉ Finset.univ.image (Pipeline.arrRef (cfgs p).spec) →
      W' c (Proc.devRef .tc b) = W c (Proc.devRef .tc b)) :
    Pipeline.RDat.RegionSeg (pcfgs (F := F)) a rdats (none : HIx 2) (defs₀ (F := F)) 𝒱₀ (K (F := F)).L (K (F := F)).lev p where
  win := lf.win.to₀
  block_pos := lf.block_pos
  stage_whole := lf.stage_whole
  K := PEmpty
  osem := fun k => k.elim
  ho := Pipeline.OwnSemFacts.none _
  hbody := hbody
  hwaits := hwaits
  pre d := iprop((held (T d) SS (W d) : sProp 𝕄) ∗ ∃ Wt, owes (T d) (0 : CellTallies nD τ sig (HIx 2)) Wt)
  post d := iprop((held (T d) SS (W' d) : sProp 𝕄) ∗ ∃ Wt, owes (T d) (0 : CellTallies nD τ sig (HIx 2)) Wt)
  X _ := iprop(emp)
  Y _ := iprop(emp)
  Z d := Pipeline.unscopedRest (cfgs p).spec d (fun b => W d (Proc.devRef .tc b))
  hentry c := by
    rw [← hS (W c) c, Pipeline.unscopedBufs_split cfgs p lf.win.arr_unscoped lf.win.arr_inj c (fun b => W c (Proc.devRef .tc b)),
      Pipeline.RDat.arrays_eq (pcfgs (F := F)) a rdats p c lf.arr_whole (fun w => Pipeline.RDat.share_full _ (hq c) w) (rdats p c).A]
    iintro ⟨⟨⟨Harr, Hrest⟩, HO⟩, -, -⟩
    imodintro
    isplitl [Harr]
    · iapply (Entails.of_eq (bigSep_congr fun w _ => by rw [hA c w]))
      iexact Harr
    isplitr
    · unfold Pipeline.prefHeld
      rw [Finset.univ_eq_empty, BI.bigSep_empty]
      iempintro
    isplitl [HO]
    · iapply (owesAt_of_zero (rdats p c) 0 (ho0 c) (hr0 c))
      iexact HO
    isplitr
    · iempintro
    iexact Hrest
  hin c := by
    iintro ⟨-, -, H⟩
    iapply (hΦ0 c)
    iexact H
  hout c := by
    unfold Pipeline.ownSems0
    rw [Finset.univ_eq_empty, BI.bigSep_empty]
    iintro H
    isplitr
    · iempintro
    isplitr
    · iempintro
    iapply (hΦN c)
    iexact H
  hexit c := by
    have erest : (Pipeline.unscopedRest (cfgs p).spec c (fun b => W' c (Proc.devRef .tc b)) : sProp 𝕄)
        = Pipeline.unscopedRest (cfgs p).spec c (fun b => W c (Proc.devRef .tc b)) := by
      unfold Pipeline.unscopedRest
      exact bigSep_congr fun b hb => by dsimp only; rw [hrest c b (Finset.mem_sdiff.mp hb).2]
    iintro ⟨Ha, HO, -, Hz⟩
    imodintro
    isplitl [Ha Hz]
    · rw [← hS (W' c) c, Pipeline.unscopedBufs_split cfgs p lf.win.arr_unscoped lf.win.arr_inj c (fun b => W' c (Proc.devRef .tc b)), erest]
      isplitl [Ha]
      · iapply (arraysAt_to (rdats p c) lf.arr_whole (fun w => Pipeline.RDat.share_full _ (hq c) w) _
          (fun w => W' c (Proc.devRef .tc (Pipeline.arrRef (cfgs p).spec w))) (fun w X hX => hfin c w X hX))
        iexact Ha
      · iexact Hz
    · iapply (zero_of_owesAt (rdats p c) _ (hoN c))
      iexact HO

section Final

def arrs6 (W : Valuation τ sig (Elt F)) (c : Dev nD) : Arr6 (F := F) c :=
  fun w => W (Proc.devRef .tc (Pipeline.arrRef cfg6.spec w))

def upd6 (W : Valuation τ sig (Elt F)) : Valuation τ sig (Elt F) :=
  Function.update W (Proc.devRef .tc main_v62)
    (G6 (W (Proc.devRef .tc main_arg0)) (W (Proc.devRef .tc main_v43)) (W (Proc.devRef .tc main_v58))
      (W (Proc.devRef .tc main_v61)))

theorem upd6_in (W : Valuation τ sig (Elt F)) {r : Ref sig .tc} (h : r ≠ main_v62) :
    upd6 W (Proc.devRef .tc r) = W (Proc.devRef .tc r) :=
  Function.update_of_ne (StableHlo.devRef_ne_of_ne h) _ _

theorem upd6_out (W : Valuation τ sig (Elt F)) :
    upd6 W (Proc.devRef .tc main_v62)
      = G6 (W (Proc.devRef .tc main_arg0)) (W (Proc.devRef .tc main_v43)) (W (Proc.devRef .tc main_v58))
          (W (Proc.devRef .tc main_v61)) :=
  Function.update_self _ _ _

set_option maxHeartbeats 1000000 in

theorem fin6_vals (a : (p : Fin 5) → (pcfgs (F := F) p).Adm) (W : Valuation τ sig (Elt F)) (c : Dev nD) :
    ∀ (w : Fin cfg6.W) (G : Buf (Elt F) ((cfg6.win w).arr.view.loc (c.tc : Thread nD τ))),
      (rdat6 a c (arrs6 W c)).ArrAt w cfg6.N G → G = upd6 W (Proc.devRef .tc (Pipeline.arrRef cfg6.spec w))
  | ⟨0, h⟩, G, hG => (ArrAt6_in c (arrs6 W c) a ⟨0, h⟩ rfl _ G hG).trans (upd6_in W (r := main_arg0) (by decide)).symm
  | ⟨1, h⟩, G, hG => (ArrAt6_in c (arrs6 W c) a ⟨1, h⟩ rfl _ G hG).trans (upd6_in W (r := main_v43) (by decide)).symm
  | ⟨2, h⟩, G, hG => (ArrAt6_in c (arrs6 W c) a ⟨2, h⟩ rfl _ G hG).trans (upd6_in W (r := main_v58) (by decide)).symm
  | ⟨3, h⟩, G, hG => (ArrAt6_in c (arrs6 W c) a ⟨3, h⟩ rfl _ G hG).trans (upd6_in W (r := main_v61) (by decide)).symm
  | ⟨4, h⟩, G, hG => (ArrAt6_out c (arrs6 W c) a G hG).trans (upd6_out W).symm

def seg6R (a : (p : Fin 5) → (pcfgs (F := F) p).Adm)
    (rdats : (p : Fin 5) → (c : Dev nD) → Pipeline.RDat τ (Elt F) (HIx 2) ℕ UU ℕ (Pipeline.pin (pcfgs (F := F)) a p) c)
    (SS : Finset (DevRef τ sig))
    (hS : ∀ (W : Valuation τ sig (Elt F)) (d : Dev nD),
      (unscopedBufs d (fun b => W (Proc.devRef .tc b)) : sProp 𝕄) = held (T d) SS W)
    (W : Dev nD → Valuation τ sig (Elt F))
    (h4 : ∀ c, rdats 4 c = rdat6 a c (arrs6 (W c) c)) :
    Pipeline.RDat.RegionSeg (pcfgs (F := F)) a rdats (none : HIx 2) (defs₀ (F := F)) 𝒱₀ (K (F := F)).L (K (F := F)).lev 4 :=
  heldSeg a rdats 4 launch6 SS hS W (fun c => upd6 (W c))
    (fun c => by rw [h4 c]; exact body6 a c _)
    (fun c => hwaits6 a rdats (fun c t => by rw [h4 c]; rfl) c)
    (fun c w => by rw [h4 c]; rfl)
    (fun c w => by rw [h4 c]; rfl)
    (fun c => by rw [h4 c]; exact BI.Entails.refl _)
    (fun c => by rw [h4 c]; exact BI.Entails.refl _)
    (fun c => by rw [h4 c]; rfl)
    (fun c => by rw [h4 c]; rfl)
    (fun c => by rw [h4 c]; rfl)
    (fun c w G hG => fin6_vals a (W c) c w G (by rw [h4 c] at hG; exact hG))
    (fun c b hb => upd6_in (W c) fun e => hb (e ▸ Finset.mem_image.mpr ⟨4, Finset.mem_univ _, rfl⟩))

end Final

section Stats0

variable [∀ e, Nonempty (Elt F e)]

def arrs2 (W : Valuation τ sig (Elt F)) (c : Dev nD) : R2.Arrs (F := F) c :=
  fun w => W (Proc.devRef .tc (Pipeline.arrRef cfg2.spec w))

def upd2 (c : Dev nD) (W : Valuation τ sig (Elt F)) : Valuation τ sig (Elt F) :=
  Function.update
    (Function.update W (Proc.devRef .tc main_v13_0) (R2.sumAt (fun c' => arrs2 W c') c 11 (by decide)))
    (Proc.devRef .tc main_v13_1) (R2.sqAt (fun c' => arrs2 W c') c 11 (by decide))

theorem upd2_in (c : Dev nD) (W : Valuation τ sig (Elt F)) {r : Ref sig .tc} (h0 : r ≠ main_v13_0) (h1 : r ≠ main_v13_1) :
    upd2 c W (Proc.devRef .tc r) = W (Proc.devRef .tc r) :=
  (Function.update_of_ne (StableHlo.devRef_ne_of_ne h1) _ _).trans (Function.update_of_ne (StableHlo.devRef_ne_of_ne h0) _ _)

theorem upd2_sum (c : Dev nD) (W : Valuation τ sig (Elt F)) :
    upd2 c W (Proc.devRef .tc main_v13_0) = R2.sumAt (fun c' => arrs2 W c') c 11 (by decide) :=
  (Function.update_of_ne (StableHlo.devRef_ne_of_ne (by decide)) _ _).trans (Function.update_self _ _ _)

theorem upd2_sq (c : Dev nD) (W : Valuation τ sig (Elt F)) :
    upd2 c W (Proc.devRef .tc main_v13_1) = R2.sqAt (fun c' => arrs2 W c') c 11 (by decide) :=
  Function.update_self _ _ _

set_option maxHeartbeats 1000000 in

theorem fin2_vals (W : Valuation τ sig (Elt F)) (c : Dev nD) :
    ∀ (w : Fin cfg2.W) (G : Buf (Elt F) ((cfg2.win w).arr.view.loc (c.tc : Thread nD τ))),
      (R2.rdat (fun c' => arrs2 W c') c).ArrAt w cfg2.N G → G = upd2 c W (Proc.devRef .tc (Pipeline.arrRef cfg2.spec w))
  | ⟨0, h⟩, G, hG => ((congrFun ((R2.rdat (fun c' => arrs2 W c') c).ArrAt_in ⟨0, h⟩ rfl cfg2.N) G).mp hG).trans
      (upd2_in c W (r := main_arg0) (by decide) (by decide)).symm
  | ⟨1, h⟩, G, hG => ((congrFun ((R2.rdat (fun c' => arrs2 W c') c).ArrAt_in ⟨1, h⟩ rfl cfg2.N) G).mp hG).trans
      (upd2_in c W (r := main_v9) (by decide) (by decide)).symm
  | ⟨2, h⟩, G, hG => ((congrFun ((R2.rdat (fun c' => arrs2 W c') c).ArrAt_in ⟨2, h⟩ rfl cfg2.N) G).mp hG).trans
      (upd2_in c W (r := main_v12) (by decide) (by decide)).symm
  | ⟨3, h⟩, G, hG => ((congrFun ((R2.rdat (fun c' => arrs2 W c') c).ArrAt_in ⟨3, h⟩ rfl cfg2.N) G).mp hG).trans
      (upd2_in c W (r := main_v0) (by decide) (by decide)).symm
  | ⟨4, h⟩, G, hG => ((congrFun ((R2.rdat (fun c' => arrs2 W c') c).ArrAt_in ⟨4, h⟩ rfl cfg2.N) G).mp hG).trans
      (upd2_in c W (r := main_v1) (by decide) (by decide)).symm
  | ⟨5, h⟩, G, hG => ((congrFun ((R2.rdat (fun c' => arrs2 W c') c).ArrAt_in ⟨5, h⟩ rfl cfg2.N) G).mp hG).trans
      (upd2_in c W (r := main_v2) (by decide) (by decide)).symm
  | ⟨6, h⟩, G, hG => ((congrFun ((R2.rdat (fun c' => arrs2 W c') c).ArrAt_in ⟨6, h⟩ rfl cfg2.N) G).mp hG).trans
      (upd2_in c W (r := main_v3) (by decide) (by decide)).symm
  | ⟨7, h⟩, G, hG => (R2.sum_val (fun c' => arrs2 W c') c G hG).trans (upd2_sum c W).symm
  | ⟨8, h⟩, G, hG => (R2.sq_val (fun c' => arrs2 W c') c G hG).trans (upd2_sq c W).symm

def seg2R (a : (p : Fin 5) → (pcfgs (F := F) p).Adm)
    (rdats : (p : Fin 5) → (c : Dev nD) → Pipeline.RDat τ (Elt F) (HIx 2) ℕ UU ℕ (Pipeline.pin (pcfgs (F := F)) a p) c)
    (SS : Finset (DevRef τ sig))
    (hS : ∀ (W : Valuation τ sig (Elt F)) (d : Dev nD),
      (unscopedBufs d (fun b => W (Proc.devRef .tc b)) : sProp 𝕄) = held (T d) SS W)
    (W : Dev nD → Valuation τ sig (Elt F))
    (h0 : ∀ c, rdats 0 c = R2.rdat (fun c' => arrs2 (W c) c') c) :
    Pipeline.RDat.RegionSeg (pcfgs (F := F)) a rdats (none : HIx 2) (defs₀ (F := F)) 𝒱₀ (K (F := F)).L (K (F := F)).lev 0 :=
  heldSeg a rdats 0 launch2 SS hS W (fun c => upd2 c (W c))
    (fun c => by rw [h0 c]; exact R2.body _ c)
    (fun c => Pipeline.RDat.hwaits_of_owed_zero (pcfgs (F := F)) a rdats (none : HIx 2) (K (F := F)).L (K (F := F)).lev 0
      (fun c t => by rw [h0 c]; rfl) c)
    (fun c w => by rw [h0 c]; rfl)
    (fun c w => by rw [h0 c]; rfl)
    (fun c => by rw [h0 c]; exact BI.Entails.refl _)
    (fun c => by rw [h0 c]; exact BI.Entails.refl _)
    (fun c => by rw [h0 c]; rfl)
    (fun c => by rw [h0 c]; rfl)
    (fun c => by rw [h0 c]; rfl)
    (fun c w G hG => fin2_vals (W c) c w G (by rw [h0 c] at hG; exact hG))
    (fun c b hb => upd2_in c (W c)
      (fun e => hb (e ▸ Finset.mem_image.mpr ⟨7, Finset.mem_univ _, rfl⟩))
      (fun e => hb (e ▸ Finset.mem_image.mpr ⟨8, Finset.mem_univ _, rfl⟩)))

end Stats0

section Stats1

variable [∀ e, Nonempty (Elt F e)]

def arrs3 (W : Valuation τ sig (Elt F)) (c : Dev nD) : R3.Arrs (F := F) c :=
  fun w => W (Proc.devRef .tc (Pipeline.arrRef cfg3.spec w))

def upd3 (c : Dev nD) (W : Valuation τ sig (Elt F)) : Valuation τ sig (Elt F) :=
  Function.update
    (Function.update W (Proc.devRef .tc main_v14_0) (R3.sumAt (fun c' => arrs3 W c') c 12 (by decide)))
    (Proc.devRef .tc main_v14_1) (R3.sqAt (fun c' => arrs3 W c') c 12 (by decide))

theorem upd3_in (c : Dev nD) (W : Valuation τ sig (Elt F)) {r : Ref sig .tc} (h0 : r ≠ main_v14_0) (h1 : r ≠ main_v14_1) :
    upd3 c W (Proc.devRef .tc r) = W (Proc.devRef .tc r) :=
  (Function.update_of_ne (StableHlo.devRef_ne_of_ne h1) _ _).trans (Function.update_of_ne (StableHlo.devRef_ne_of_ne h0) _ _)

theorem upd3_sum (c : Dev nD) (W : Valuation τ sig (Elt F)) :
    upd3 c W (Proc.devRef .tc main_v14_0) = R3.sumAt (fun c' => arrs3 W c') c 12 (by decide) :=
  (Function.update_of_ne (StableHlo.devRef_ne_of_ne (by decide)) _ _).trans (Function.update_self _ _ _)

theorem upd3_sq (c : Dev nD) (W : Valuation τ sig (Elt F)) :
    upd3 c W (Proc.devRef .tc main_v14_1) = R3.sqAt (fun c' => arrs3 W c') c 12 (by decide) :=
  Function.update_self _ _ _

set_option maxHeartbeats 1000000 in

theorem fin3_vals (W : Valuation τ sig (Elt F)) (c : Dev nD) :
    ∀ (w : Fin cfg3.W) (G : Buf (Elt F) ((cfg3.win w).arr.view.loc (c.tc : Thread nD τ))),
      (R3.rdat (fun c' => arrs3 W c') c).ArrAt w cfg3.N G → G = upd3 c W (Proc.devRef .tc (Pipeline.arrRef cfg3.spec w))
  | ⟨0, h⟩, G, hG => ((congrFun ((R3.rdat (fun c' => arrs3 W c') c).ArrAt_in ⟨0, h⟩ rfl cfg3.N) G).mp hG).trans
      (upd3_in c W (r := main_arg0) (by decide) (by decide)).symm
  | ⟨1, h⟩, G, hG => ((congrFun ((R3.rdat (fun c' => arrs3 W c') c).ArrAt_in ⟨1, h⟩ rfl cfg3.N) G).mp hG).trans
      (upd3_in c W (r := main_v10) (by decide) (by decide)).symm
  | ⟨2, h⟩, G, hG => ((congrFun ((R3.rdat (fun c' => arrs3 W c') c).ArrAt_in ⟨2, h⟩ rfl cfg3.N) G).mp hG).trans
      (upd3_in c W (r := main_v12) (by decide) (by decide)).symm
  | ⟨3, h⟩, G, hG => ((congrFun ((R3.rdat (fun c' => arrs3 W c') c).ArrAt_in ⟨3, h⟩ rfl cfg3.N) G).mp hG).trans
      (upd3_in c W (r := main_v0) (by decide) (by decide)).symm
  | ⟨4, h⟩, G, hG => ((congrFun ((R3.rdat (fun c' => arrs3 W c') c).ArrAt_in ⟨4, h⟩ rfl cfg3.N) G).mp hG).trans
      (upd3_in c W (r := main_v1) (by decide) (by decide)).symm
  | ⟨5, h⟩, G, hG => ((congrFun ((R3.rdat (fun c' => arrs3 W c') c).ArrAt_in ⟨5, h⟩ rfl cfg3.N) G).mp hG).trans
      (upd3_in c W (r := main_v2) (by decide) (by decide)).symm
  | ⟨6, h⟩, G, hG => ((congrFun ((R3.rdat (fun c' => arrs3 W c') c).ArrAt_in ⟨6, h⟩ rfl cfg3.N) G).mp hG).trans
      (upd3_in c W (r := main_v3) (by decide) (by decide)).symm
  | ⟨7, h⟩, G, hG => (R3.sum_val (fun c' => arrs3 W c') c G hG).trans (upd3_sum c W).symm
  | ⟨8, h⟩, G, hG => (R3.sq_val (fun c' => arrs3 W c') c G hG).trans (upd3_sq c W).symm

def seg3R (a : (p : Fin 5) → (pcfgs (F := F) p).Adm)
    (rdats : (p : Fin 5) → (c : Dev nD) → Pipeline.RDat τ (Elt F) (HIx 2) ℕ UU ℕ (Pipeline.pin (pcfgs (F := F)) a p) c)
    (SS : Finset (DevRef τ sig))
    (hS : ∀ (W : Valuation τ sig (Elt F)) (d : Dev nD),
      (unscopedBufs d (fun b => W (Proc.devRef .tc b)) : sProp 𝕄) = held (T d) SS W)
    (W : Dev nD → Valuation τ sig (Elt F))
    (h1 : ∀ c, rdats 1 c = R3.rdat (fun c' => arrs3 (W c) c') c) :
    Pipeline.RDat.RegionSeg (pcfgs (F := F)) a rdats (none : HIx 2) (defs₀ (F := F)) 𝒱₀ (K (F := F)).L (K (F := F)).lev 1 :=
  heldSeg a rdats 1 launch3 SS hS W (fun c => upd3 c (W c))
    (fun c => by rw [h1 c]; exact R3.body _ c)
    (fun c => Pipeline.RDat.hwaits_of_owed_zero (pcfgs (F := F)) a rdats (none : HIx 2) (K (F := F)).L (K (F := F)).lev 1
      (fun c t => by rw [h1 c]; rfl) c)
    (fun c w => by rw [h1 c]; rfl)
    (fun c w => by rw [h1 c]; rfl)
    (fun c => by rw [h1 c]; exact BI.Entails.refl _)
    (fun c => by rw [h1 c]; exact BI.Entails.refl _)
    (fun c => by rw [h1 c]; rfl)
    (fun c => by rw [h1 c]; rfl)
    (fun c => by rw [h1 c]; rfl)
    (fun c w G hG => fin3_vals (W c) c w G (by rw [h1 c] at hG; exact hG))
    (fun c b hb => upd3_in c (W c)
      (fun e => hb (e ▸ Finset.mem_image.mpr ⟨7, Finset.mem_univ _, rfl⟩))
      (fun e => hb (e ▸ Finset.mem_image.mpr ⟨8, Finset.mem_univ _, rfl⟩)))

end Stats1

section Gate2

def arrs4 (W : Valuation τ sig (Elt F)) (c : Dev nD) : Arrs4 (F := F) c :=
  fun w => W (Proc.devRef .tc (Pipeline.arrRef cfg4.spec w))

def rdat4W (a : (p : Fin 5) → (pcfgs (F := F) p).Adm) (W : Valuation τ sig (Elt F)) (c : Dev nD) :
    Pipeline.RDat τ (Elt F) (HIx 2) ℕ UU ℕ (Pipeline.pin (pcfgs (F := F)) a 2) c :=
  rdat4P (arrs4 W c) (Pipeline.scopedRest cfg4.spec c) a

def upd4 (c : Dev nD) (W : Valuation τ sig (Elt F)) : Valuation τ sig (Elt F) :=
  Function.update
    (Function.update
      (Function.update W (Proc.devRef .tc main_v41_0) (out4_8 (arrs4 W c)))
      (Proc.devRef .tc main_v41_1) (out4_9 (arrs4 W c)))
    (Proc.devRef .tc main_v41_2) (out4_10 (arrs4 W c))

theorem upd4_in (c : Dev nD) (W : Valuation τ sig (Elt F)) {r : Ref sig .tc}
    (h0 : r ≠ main_v41_0) (h1 : r ≠ main_v41_1) (h2 : r ≠ main_v41_2) :
    upd4 c W (Proc.devRef .tc r) = W (Proc.devRef .tc r) :=
  (Function.update_of_ne (StableHlo.devRef_ne_of_ne h2) _ _).trans
    ((Function.update_of_ne (StableHlo.devRef_ne_of_ne h1) _ _).trans (Function.update_of_ne (StableHlo.devRef_ne_of_ne h0) _ _))

theorem upd4_out8 (c : Dev nD) (W : Valuation τ sig (Elt F)) :
    upd4 c W (Proc.devRef .tc main_v41_0) = out4_8 (arrs4 W c) :=
  (Function.update_of_ne (StableHlo.devRef_ne_of_ne (by decide)) _ _).trans
    ((Function.update_of_ne (StableHlo.devRef_ne_of_ne (by decide)) _ _).trans (Function.update_self _ _ _))

theorem upd4_out9 (c : Dev nD) (W : Valuation τ sig (Elt F)) :
    upd4 c W (Proc.devRef .tc main_v41_1) = out4_9 (arrs4 W c) :=
  (Function.update_of_ne (StableHlo.devRef_ne_of_ne (by decide)) _ _).trans (Function.update_self _ _ _)

theorem upd4_out10 (c : Dev nD) (W : Valuation τ sig (Elt F)) :
    upd4 c W (Proc.devRef .tc main_v41_2) = out4_10 (arrs4 W c) :=
  Function.update_self _ _ _

set_option maxHeartbeats 1000000 in

theorem fin4_vals (a : (p : Fin 5) → (pcfgs (F := F) p).Adm) (W : Valuation τ sig (Elt F)) (c : Dev nD) :
    ∀ (w : Fin cfg4.W) (G : Buf (Elt F) ((cfg4.win w).arr.view.loc (c.tc : Thread nD τ))),
      (rdat4W a W c).ArrAt w cfg4.N G → G = upd4 c W (Proc.devRef .tc (Pipeline.arrRef cfg4.spec w))
  | ⟨0, h⟩, G, hG => (arrAt4_in (arrs4 W c) _ ⟨0, h⟩ rfl G hG).trans
      (upd4_in c W (r := main_arg0) (by decide) (by decide) (by decide)).symm
  | ⟨1, h⟩, G, hG => (arrAt4_in (arrs4 W c) _ ⟨1, h⟩ rfl G hG).trans
      (upd4_in c W (r := main_v9) (by decide) (by decide) (by decide)).symm
  | ⟨2, h⟩, G, hG => (arrAt4_in (arrs4 W c) _ ⟨2, h⟩ rfl G hG).trans
      (upd4_in c W (r := main_v12) (by decide) (by decide) (by decide)).symm
  | ⟨3, h⟩, G, hG => (arrAt4_in (arrs4 W c) _ ⟨3, h⟩ rfl G hG).trans
      (upd4_in c W (r := main_arg3) (by decide) (by decide) (by decide)).symm
  | ⟨4, h⟩, G, hG => (arrAt4_in (arrs4 W c) _ ⟨4, h⟩ rfl G hG).trans
      (upd4_in c W (r := main_v34) (by decide) (by decide) (by decide)).symm
  | ⟨5, h⟩, G, hG => (arrAt4_in (arrs4 W c) _ ⟨5, h⟩ rfl G hG).trans
      (upd4_in c W (r := main_v36) (by decide) (by decide) (by decide)).symm
  | ⟨6, h⟩, G, hG => (arrAt4_in (arrs4 W c) _ ⟨6, h⟩ rfl G hG).trans
      (upd4_in c W (r := main_v38) (by decide) (by decide) (by decide)).symm
  | ⟨7, h⟩, G, hG => (arrAt4_in (arrs4 W c) _ ⟨7, h⟩ rfl G hG).trans
      (upd4_in c W (r := main_v40) (by decide) (by decide) (by decide)).symm
  | ⟨8, h⟩, G, hG => (arrAt4_8 (arrs4 W c) _ G hG).trans (upd4_out8 c W).symm
  | ⟨9, h⟩, G, hG => (arrAt4_9 (arrs4 W c) _ G hG).trans (upd4_out9 c W).symm
  | ⟨10, h⟩, G, hG => (arrAt4_10 (arrs4 W c) _ G hG).trans (upd4_out10 c W).symm

def seg4R (a : (p : Fin 5) → (pcfgs (F := F) p).Adm)
    (rdats : (p : Fin 5) → (c : Dev nD) → Pipeline.RDat τ (Elt F) (HIx 2) ℕ UU ℕ (Pipeline.pin (pcfgs (F := F)) a p) c)
    (SS : Finset (DevRef τ sig))
    (hS : ∀ (W : Valuation τ sig (Elt F)) (d : Dev nD),
      (unscopedBufs d (fun b => W (Proc.devRef .tc b)) : sProp 𝕄) = held (T d) SS W)
    (W : Dev nD → Valuation τ sig (Elt F))
    (h2 : ∀ c, rdats 2 c = rdat4W a (W c) c) :
    Pipeline.RDat.RegionSeg (pcfgs (F := F)) a rdats (none : HIx 2) (defs₀ (F := F)) 𝒱₀ (K (F := F)).L (K (F := F)).lev 2 :=
  heldSeg a rdats 2 launch4 SS hS W (fun c => upd4 c (W c))
    (fun c => by rw [h2 c]; exact body4 (arrs4 (W c) c) _)
    (fun c => hwaits4 a rdats (fun c t => by rw [h2 c]; rfl) c)
    (fun c w => by rw [h2 c]; rfl)
    (fun c w => by rw [h2 c]; rfl)
    (fun c => by rw [h2 c]; exact BI.Entails.refl _)
    (fun c => by rw [h2 c]; exact BI.Entails.refl _)
    (fun c => by rw [h2 c]; rfl)
    (fun c => by rw [h2 c]; rfl)
    (fun c => by rw [h2 c]; rfl)
    (fun c w G hG => fin4_vals a (W c) c w G (by rw [h2 c] at hG; exact hG))
    (fun c b hb => upd4_in c (W c)
      (fun e => hb (e ▸ Finset.mem_image.mpr ⟨8, Finset.mem_univ _, rfl⟩))
      (fun e => hb (e ▸ Finset.mem_image.mpr ⟨9, Finset.mem_univ _, rfl⟩))
      (fun e => hb (e ▸ Finset.mem_image.mpr ⟨10, Finset.mem_univ _, rfl⟩)))

end Gate2

section Gate3

def arrs5 (W : Valuation τ sig (Elt F)) (c : Dev nD) : Arrs5 (F := F) c :=
  fun w => W (Proc.devRef .tc (Pipeline.arrRef cfg5.spec w))

def rdat5W (a : (p : Fin 5) → (pcfgs (F := F) p).Adm) (W : Valuation τ sig (Elt F)) (c : Dev nD) :
    Pipeline.RDat τ (Elt F) (HIx 2) ℕ UU ℕ (Pipeline.pin (pcfgs (F := F)) a 3) c :=
  rdat5P (arrs5 W c) (Pipeline.scopedRest cfg5.spec c) a

def upd5 (c : Dev nD) (W : Valuation τ sig (Elt F)) : Valuation τ sig (Elt F) :=
  Function.update
    (Function.update
      (Function.update W (Proc.devRef .tc main_v42_0) (out5_8 (arrs5 W c)))
      (Proc.devRef .tc main_v42_1) (out5_9 (arrs5 W c)))
    (Proc.devRef .tc main_v42_2) (out5_10 (arrs5 W c))

theorem upd5_in (c : Dev nD) (W : Valuation τ sig (Elt F)) {r : Ref sig .tc}
    (h0 : r ≠ main_v42_0) (h1 : r ≠ main_v42_1) (h2 : r ≠ main_v42_2) :
    upd5 c W (Proc.devRef .tc r) = W (Proc.devRef .tc r) :=
  (Function.update_of_ne (StableHlo.devRef_ne_of_ne h2) _ _).trans
    ((Function.update_of_ne (StableHlo.devRef_ne_of_ne h1) _ _).trans (Function.update_of_ne (StableHlo.devRef_ne_of_ne h0) _ _))

theorem upd5_out8 (c : Dev nD) (W : Valuation τ sig (Elt F)) :
    upd5 c W (Proc.devRef .tc main_v42_0) = out5_8 (arrs5 W c) :=
  (Function.update_of_ne (StableHlo.devRef_ne_of_ne (by decide)) _ _).trans
    ((Function.update_of_ne (StableHlo.devRef_ne_of_ne (by decide)) _ _).trans (Function.update_self _ _ _))

theorem upd5_out9 (c : Dev nD) (W : Valuation τ sig (Elt F)) :
    upd5 c W (Proc.devRef .tc main_v42_1) = out5_9 (arrs5 W c) :=
  (Function.update_of_ne (StableHlo.devRef_ne_of_ne (by decide)) _ _).trans (Function.update_self _ _ _)

theorem upd5_out10 (c : Dev nD) (W : Valuation τ sig (Elt F)) :
    upd5 c W (Proc.devRef .tc main_v42_2) = out5_10 (arrs5 W c) :=
  Function.update_self _ _ _

set_option maxHeartbeats 1000000 in

theorem fin5_vals (a : (p : Fin 5) → (pcfgs (F := F) p).Adm) (W : Valuation τ sig (Elt F)) (c : Dev nD) :
    ∀ (w : Fin cfg5.W) (G : Buf (Elt F) ((cfg5.win w).arr.view.loc (c.tc : Thread nD τ))),
      (rdat5W a W c).ArrAt w cfg5.N G → G = upd5 c W (Proc.devRef .tc (Pipeline.arrRef cfg5.spec w))
  | ⟨0, h⟩, G, hG => (arrAt5_in (arrs5 W c) _ ⟨0, h⟩ rfl G hG).trans
      (upd5_in c W (r := main_arg0) (by decide) (by decide) (by decide)).symm
  | ⟨1, h⟩, G, hG => (arrAt5_in (arrs5 W c) _ ⟨1, h⟩ rfl G hG).trans
      (upd5_in c W (r := main_v10) (by decide) (by decide) (by decide)).symm
  | ⟨2, h⟩, G, hG => (arrAt5_in (arrs5 W c) _ ⟨2, h⟩ rfl G hG).trans
      (upd5_in c W (r := main_v12) (by decide) (by decide) (by decide)).symm
  | ⟨3, h⟩, G, hG => (arrAt5_in (arrs5 W c) _ ⟨3, h⟩ rfl G hG).trans
      (upd5_in c W (r := main_arg3) (by decide) (by decide) (by decide)).symm
  | ⟨4, h⟩, G, hG => (arrAt5_in (arrs5 W c) _ ⟨4, h⟩ rfl G hG).trans
      (upd5_in c W (r := main_v34) (by decide) (by decide) (by decide)).symm
  | ⟨5, h⟩, G, hG => (arrAt5_in (arrs5 W c) _ ⟨5, h⟩ rfl G hG).trans
      (upd5_in c W (r := main_v36) (by decide) (by decide) (by decide)).symm
  | ⟨6, h⟩, G, hG => (arrAt5_in (arrs5 W c) _ ⟨6, h⟩ rfl G hG).trans
      (upd5_in c W (r := main_v38) (by decide) (by decide) (by decide)).symm
  | ⟨7, h⟩, G, hG => (arrAt5_in (arrs5 W c) _ ⟨7, h⟩ rfl G hG).trans
      (upd5_in c W (r := main_v40) (by decide) (by decide) (by decide)).symm
  | ⟨8, h⟩, G, hG => (arrAt5_8 (arrs5 W c) _ G hG).trans (upd5_out8 c W).symm
  | ⟨9, h⟩, G, hG => (arrAt5_9 (arrs5 W c) _ G hG).trans (upd5_out9 c W).symm
  | ⟨10, h⟩, G, hG => (arrAt5_10 (arrs5 W c) _ G hG).trans (upd5_out10 c W).symm

def seg5R (a : (p : Fin 5) → (pcfgs (F := F) p).Adm)
    (rdats : (p : Fin 5) → (c : Dev nD) → Pipeline.RDat τ (Elt F) (HIx 2) ℕ UU ℕ (Pipeline.pin (pcfgs (F := F)) a p) c)
    (SS : Finset (DevRef τ sig))
    (hS : ∀ (W : Valuation τ sig (Elt F)) (d : Dev nD),
      (unscopedBufs d (fun b => W (Proc.devRef .tc b)) : sProp 𝕄) = held (T d) SS W)
    (W : Dev nD → Valuation τ sig (Elt F))
    (h3 : ∀ c, rdats 3 c = rdat5W a (W c) c) :
    Pipeline.RDat.RegionSeg (pcfgs (F := F)) a rdats (none : HIx 2) (defs₀ (F := F)) 𝒱₀ (K (F := F)).L (K (F := F)).lev 3 :=
  heldSeg a rdats 3 launch5 SS hS W (fun c => upd5 c (W c))
    (fun c => by rw [h3 c]; exact body5 (arrs5 (W c) c) _)
    (fun c => hwaits5 a rdats (fun c t => by rw [h3 c]; rfl) c)
    (fun c w => by rw [h3 c]; rfl)
    (fun c w => by rw [h3 c]; rfl)
    (fun c => by rw [h3 c]; exact BI.Entails.refl _)
    (fun c => by rw [h3 c]; exact BI.Entails.refl _)
    (fun c => by rw [h3 c]; rfl)
    (fun c => by rw [h3 c]; rfl)
    (fun c => by rw [h3 c]; rfl)
    (fun c w G hG => fin5_vals a (W c) c w G (by rw [h3 c] at hG; exact hG))
    (fun c b hb => upd5_in c (W c)
      (fun e => hb (e ▸ Finset.mem_image.mpr ⟨8, Finset.mem_univ _, rfl⟩))
      (fun e => hb (e ▸ Finset.mem_image.mpr ⟨9, Finset.mem_univ _, rfl⟩))
      (fun e => hb (e ▸ Finset.mem_image.mpr ⟨10, Finset.mem_univ _, rfl⟩)))

end Gate3

end Cert.Proof.KI

end
-- ==== Proof.KI.Records.lean ====
import proofs.«202994_g19078244729258_cont_8to1_1405_21_alg».proof.Proof.KI.Main
import proofs.«202994_g19078244729258_cont_8to1_1405_21_alg».proof.Proof.KI.RegionStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 2) (Elt F) ℕ UU ℕ

abbrev d0 : Dev nD := 0

def upd : Fin 5 → Valuation τ sig (Elt F) → Valuation τ sig (Elt F)
  | 0 => upd2 d0
  | 1 => upd3 d0
  | 2 => upd4 d0
  | 3 => upd5 d0
  | 4 => upd6

theorem hupd : ∀ (p : Fin 5) (W : Valuation τ sig (Elt F)) (r : Ref sig .tc), r ∉ regionOuts p →
    upd (F := F) p W (Proc.devRef .tc r) = W (Proc.devRef .tc r)
  | 0, W, r, h => upd2_in d0 W (List.ne_of_not_mem_cons h) (List.ne_of_not_mem_cons (List.not_mem_of_not_mem_cons h))
  | 1, W, r, h => upd3_in d0 W (List.ne_of_not_mem_cons h) (List.ne_of_not_mem_cons (List.not_mem_of_not_mem_cons h))
  | 2, W, r, h => upd4_in d0 W (List.ne_of_not_mem_cons h) (List.ne_of_not_mem_cons (List.not_mem_of_not_mem_cons h))
      (List.ne_of_not_mem_cons (List.not_mem_of_not_mem_cons (List.not_mem_of_not_mem_cons h)))
  | 3, W, r, h => upd5_in d0 W (List.ne_of_not_mem_cons h) (List.ne_of_not_mem_cons (List.not_mem_of_not_mem_cons h))
      (List.ne_of_not_mem_cons (List.not_mem_of_not_mem_cons (List.not_mem_of_not_mem_cons h)))
  | 4, W, r, h => upd6_in W (List.ne_of_not_mem_cons h)

variable (m : (ℓ : Loc nD τ sig) → Buf (Elt F) ℓ)

def rdats : (p : Fin 5) → (c : Dev nD) → Pipeline.RDat τ (Elt F) (HIx 2) ℕ UU ℕ (Pipeline.pin (pcfgs (F := F)) adm p) c
  | 0, c => R2.rdat (fun c' => arrs2 (Vin m upd c 0) c') c
  | 1, c => R3.rdat (fun c' => arrs3 (Vin m upd c 1) c') c
  | 2, c => rdat4W adm (Vin m upd c 2) c
  | 3, c => rdat5W adm (Vin m upd c 3) c
  | 4, c => rdat6 adm c (arrs6 (Vin m upd c 4) c)

def rec0 : Pipeline.RDat.RegionSeg (pcfgs (F := F)) adm (rdats m) (none : HIx 2) (defs₀ (F := F)) 𝒱₀ (K (F := F)).L (K (F := F)).lev 0 :=
  seg2R adm (rdats m) SU (fun W d => unscoped_held W d) (fun d => Vin m upd d 0) (fun _ => rfl)
def rec1 : Pipeline.RDat.RegionSeg (pcfgs (F := F)) adm (rdats m) (none : HIx 2) (defs₀ (F := F)) 𝒱₀ (K (F := F)).L (K (F := F)).lev 1 :=
  seg3R adm (rdats m) SU (fun W d => unscoped_held W d) (fun d => Vin m upd d 1) (fun _ => rfl)
def rec2 : Pipeline.RDat.RegionSeg (pcfgs (F := F)) adm (rdats m) (none : HIx 2) (defs₀ (F := F)) 𝒱₀ (K (F := F)).L (K (F := F)).lev 2 :=
  seg4R adm (rdats m) SU (fun W d => unscoped_held W d) (fun d => Vin m upd d 2) (fun _ => rfl)
def rec3 : Pipeline.RDat.RegionSeg (pcfgs (F := F)) adm (rdats m) (none : HIx 2) (defs₀ (F := F)) 𝒱₀ (K (F := F)).L (K (F := F)).lev 3 :=
  seg5R adm (rdats m) SU (fun W d => unscoped_held W d) (fun d => Vin m upd d 3) (fun _ => rfl)
def rec4 : Pipeline.RDat.RegionSeg (pcfgs (F := F)) adm (rdats m) (none : HIx 2) (defs₀ (F := F)) 𝒱₀ (K (F := F)).L (K (F := F)).lev 4 :=
  seg6R adm (rdats m) SU (fun W d => unscoped_held W d) (fun d => Vin m upd d 4) (fun _ => rfl)

def recs : (p : Fin 5) → Pipeline.RDat.RegionSeg (pcfgs (F := F)) adm (rdats m) (none : HIx 2) (defs₀ (F := F)) 𝒱₀ (K (F := F)).L (K (F := F)).lev p
  | 0 => rec0 m | 1 => rec1 m | 2 => rec2 m | 3 => rec3 m | 4 => rec4 m

theorem rec0_pre (d : Dev nD) : iprop((held (T d) SU (Vin m upd d 0) : sProp 𝕄) ∗ ∃ Wt, owes (T d) (0 : CellTallies nD τ sig (HIx 2)) Wt) ⊢ (rec0 m).pre d := BI.Entails.refl _
theorem rec1_pre (d : Dev nD) : iprop((held (T d) SU (Vin m upd d 1) : sProp 𝕄) ∗ ∃ Wt, owes (T d) (0 : CellTallies nD τ sig (HIx 2)) Wt) ⊢ (rec1 m).pre d := BI.Entails.refl _
theorem rec2_pre (d : Dev nD) : iprop((held (T d) SU (Vin m upd d 2) : sProp 𝕄) ∗ ∃ Wt, owes (T d) (0 : CellTallies nD τ sig (HIx 2)) Wt) ⊢ (rec2 m).pre d := BI.Entails.refl _
theorem rec3_pre (d : Dev nD) : iprop((held (T d) SU (Vin m upd d 3) : sProp 𝕄) ∗ ∃ Wt, owes (T d) (0 : CellTallies nD τ sig (HIx 2)) Wt) ⊢ (rec3 m).pre d := BI.Entails.refl _
theorem rec4_pre (d : Dev nD) : iprop((held (T d) SU (Vin m upd d 4) : sProp 𝕄) ∗ ∃ Wt, owes (T d) (0 : CellTallies nD τ sig (HIx 2)) Wt) ⊢ (rec4 m).pre d := BI.Entails.refl _

theorem recs_pre (p : Fin 5) (d : Dev nD) :
    iprop((held (T d) SU (Vin m upd d p) : sProp 𝕄) ∗ ∃ Wt, owes (T d) (0 : CellTallies nD τ sig (HIx 2)) Wt) ⊢ (recs m p).pre d :=
  match p with
  | 0 => rec0_pre m d | 1 => rec1_pre m d | 2 => rec2_pre m d | 3 => rec3_pre m d | 4 => rec4_pre m d

theorem rec0_post (d : Dev nD) : (rec0 m).post d ⊢ iprop((held (T d) SU (upd 0 (Vin m upd d 0)) : sProp 𝕄) ∗ ∃ Wt, owes (T d) (0 : CellTallies nD τ sig (HIx 2)) Wt) := by
  obtain rfl : d = d0 := Subsingleton.elim _ _
  exact BI.Entails.refl _
theorem rec1_post (d : Dev nD) : (rec1 m).post d ⊢ iprop((held (T d) SU (upd 1 (Vin m upd d 1)) : sProp 𝕄) ∗ ∃ Wt, owes (T d) (0 : CellTallies nD τ sig (HIx 2)) Wt) := by
  obtain rfl : d = d0 := Subsingleton.elim _ _
  exact BI.Entails.refl _
theorem rec2_post (d : Dev nD) : (rec2 m).post d ⊢ iprop((held (T d) SU (upd 2 (Vin m upd d 2)) : sProp 𝕄) ∗ ∃ Wt, owes (T d) (0 : CellTallies nD τ sig (HIx 2)) Wt) := by
  obtain rfl : d = d0 := Subsingleton.elim _ _
  exact BI.Entails.refl _
theorem rec3_post (d : Dev nD) : (rec3 m).post d ⊢ iprop((held (T d) SU (upd 3 (Vin m upd d 3)) : sProp 𝕄) ∗ ∃ Wt, owes (T d) (0 : CellTallies nD τ sig (HIx 2)) Wt) := by
  obtain rfl : d = d0 := Subsingleton.elim _ _
  exact BI.Entails.refl _
theorem rec4_post (d : Dev nD) : (rec4 m).post d ⊢ iprop((held (T d) SU (upd 4 (Vin m upd d 4)) : sProp 𝕄) ∗ ∃ Wt, owes (T d) (0 : CellTallies nD τ sig (HIx 2)) Wt) := BI.Entails.refl _

theorem recs_post (p : Fin 5) (d : Dev nD) :
    (recs m p).post d ⊢ iprop((held (T d) SU (upd p (Vin m upd d p)) : sProp 𝕄) ∗ ∃ Wt, owes (T d) (0 : CellTallies nD τ sig (HIx 2)) Wt) :=
  match p with
  | 0 => rec0_post m d | 1 => rec1_post m d | 2 => rec2_post m d | 3 => rec3_post m d | 4 => rec4_post m d

theorem hrec : ∃ (rdats : (p : Fin 5) → (c : Dev nD) → Pipeline.RDat τ (Elt F) (HIx 2) ℕ UU ℕ (Pipeline.pin (pcfgs (F := F)) adm p) c)
    (R : (p : Fin 5) → Pipeline.RDat.RegionSeg (pcfgs (F := F)) adm rdats (none : HIx 2) (defs₀ (F := F)) 𝒱₀ (K (F := F)).L (K (F := F)).lev p),
    (∀ (p : Fin 5) (d : Dev nD), iprop((held (T d) SU (Vin m upd d p) : sProp 𝕄) ∗ ∃ Wt, owes (T d) (0 : CellTallies nD τ sig (HIx 2)) Wt) ⊢ (R p).pre d)
    ∧ ∀ (p : Fin 5) (d : Dev nD), (R p).post d ⊢ iprop((held (T d) SU (upd p (Vin m upd d p)) : sProp 𝕄) ∗ ∃ Wt, owes (T d) (0 : CellTallies nD τ sig (HIx 2)) Wt) :=
  ⟨rdats m, recs m, recs_pre m, recs_post m⟩

end Cert.Proof.KI

end
-- ==== Proof.LibIdealReal.lean ====
import Idealize.ShloMosaic.PureOps.Ideal
import Idealize.ShloMosaic.PureOps.Ideal.Laws
import Mathlib.Data.EReal.Inv
import Mathlib.Analysis.SpecialFunctions.Log.Basic
import Mathlib.Analysis.SpecialFunctions.Sqrt
import Mathlib.Algebra.BigOperators.Field
import Mathlib.Algebra.Order.BigOperators.Ring.Finset
import Mathlib.Tactic.Ring
import Mathlib.Tactic.FieldSimp
import Mathlib.Tactic.Linarith
import Mathlib.Tactic.Positivity
import Mathlib.Tactic.NormNum

noncomputable section

namespace Cert.LibIdealReal

open Idealize.ShloMosaic
open scoped BigOperators

variable {φ : FTy}

theorem addf_coe (x y : ℝ) :
    FloatOps.addf (F := Ideal) (φ := φ) (x : EReal) (y : EReal) = ((x + y : ℝ) : EReal) := (EReal.coe_add x y).symm

theorem subf_coe (x y : ℝ) :
    FloatOps.subf (F := Ideal) (φ := φ) (x : EReal) (y : EReal) = ((x - y : ℝ) : EReal) := (EReal.coe_sub x y).symm

theorem mulf_coe (x y : ℝ) :
    FloatOps.mulf (F := Ideal) (φ := φ) (x : EReal) (y : EReal) = ((x * y : ℝ) : EReal) := (EReal.coe_mul x y).symm

theorem hostNegf_coe (x : ℝ) :
    FloatOps.hostNegf (F := Ideal) (φ := φ) (x : EReal) = ((-x : ℝ) : EReal) := (EReal.coe_neg x).symm

theorem coe_max (x y : ℝ) : ((max x y : ℝ) : EReal) = max (x : EReal) (y : EReal) := EReal.coe_strictMono.monotone.map_max

theorem max_coe_neg_coe (x : ℝ) : max (x : EReal) (-(x : EReal)) = ((|x| : ℝ) : EReal) := by
  rw [abs_eq_max_neg, coe_max, EReal.coe_neg]

theorem maximumf_coe (x y : ℝ) :
    FloatOps.maximumf (F := Ideal) (φ := φ) (x : EReal) (y : EReal) = ((max x y : ℝ) : EReal) := (coe_max x y).symm

theorem absf_coe (x : ℝ) :
    FloatOps.absf (F := Ideal) (φ := φ) (x : EReal) = ((|x| : ℝ) : EReal) := max_coe_neg_coe x

theorem hostAbsf_coe (x : ℝ) :
    FloatOps.hostAbsf (F := Ideal) (φ := φ) (x : EReal) = ((|x| : ℝ) : EReal) := max_coe_neg_coe x

theorem div_coe_coe (x : ℝ) {y : ℝ} (hy : y ≠ 0) :
    Ideal.div (x : EReal) (y : EReal) = ((x / y : ℝ) : EReal) := by
  rw [Ideal.div_coe hy, ← EReal.coe_mul, mul_one_div]

theorem divf_coe (x : ℝ) {y : ℝ} (hy : y ≠ 0) :
    FloatOps.divf (F := Ideal) (φ := φ) (x : EReal) (y : EReal) = ((x / y : ℝ) : EReal) := div_coe_coe x hy

theorem hostDivf_coe (x : ℝ) {y : ℝ} (hy : y ≠ 0) :
    FloatOps.hostDivf (F := Ideal) (φ := φ) (x : EReal) (y : EReal) = ((x / y : ℝ) : EReal) := div_coe_coe x hy

theorem exp_coe (x : ℝ) :
    FloatOps.exp (F := Ideal) (φ := φ) (x : EReal) = ((Real.exp x : ℝ) : EReal) := rfl

theorem hostExp_coe (x : ℝ) :
    FloatOps.hostUnary (F := Ideal) (φ := φ) .exp (x : EReal) = ((Real.exp x : ℝ) : EReal) := rfl

theorem Ideal_log1p_coe {x : ℝ} (hx : -1 < x) :
    Ideal.log1p (x : EReal) = ((Real.log (1 + x) : ℝ) : EReal) := by
  have h : (1 : EReal) + (x : EReal) = ((1 + x : ℝ) : EReal) := by rw [EReal.coe_add, EReal.coe_one]
  rw [Ideal.log1p, h, Ideal.log_coe, if_neg (by linarith)]

theorem log1p_coe {x : ℝ} (hx : -1 < x) :
    FloatOps.log1p (F := Ideal) (φ := φ) (x : EReal) = ((Real.log (1 + x) : ℝ) : EReal) := Ideal_log1p_coe hx

theorem hostLog1p_coe {x : ℝ} (hx : -1 < x) :
    FloatOps.hostUnary (F := Ideal) (φ := φ) .log1p (x : EReal) = ((Real.log (1 + x) : ℝ) : EReal) := Ideal_log1p_coe hx

theorem Ideal_sqrt_coe {x : ℝ} (hx : 0 ≤ x) :
    Ideal.sqrt (x : EReal) = ((Real.sqrt x : ℝ) : EReal) := by
  rw [Ideal.sqrt_coe, if_neg (not_lt.mpr hx)]

theorem sqrt_coe {x : ℝ} (hx : 0 ≤ x) :
    FloatOps.sqrt (F := Ideal) (φ := φ) (x : EReal) = ((Real.sqrt x : ℝ) : EReal) := Ideal_sqrt_coe hx

theorem hostSqrt_coe {x : ℝ} (hx : 0 ≤ x) :
    FloatOps.hostUnary (F := Ideal) (φ := φ) .sqrt (x : EReal) = ((Real.sqrt x : ℝ) : EReal) := Ideal_sqrt_coe hx

theorem Ideal_rsqrt_coe {x : ℝ} (hx : 0 < x) :
    Ideal.rsqrt (x : EReal) = (((Real.sqrt x)⁻¹ : ℝ) : EReal) := by
  rw [Ideal.rsqrt_coe, if_neg (not_lt.mpr hx.le), if_neg hx.ne']

theorem rsqrt_coe {x : ℝ} (hx : 0 < x) :
    FloatOps.rsqrt (F := Ideal) (φ := φ) (x : EReal) = (((Real.sqrt x)⁻¹ : ℝ) : EReal) := Ideal_rsqrt_coe hx

theorem hostRsqrt_coe {x : ℝ} (hx : 0 < x) :
    FloatOps.hostUnary (F := Ideal) (φ := φ) .rsqrt (x : EReal) = (((Real.sqrt x)⁻¹ : ℝ) : EReal) := Ideal_rsqrt_coe hx

theorem one_add_exp_pos (x : ℝ) : 0 < 1 + Real.exp x := by positivity

theorem one_add_exp_ne_zero (x : ℝ) : 1 + Real.exp x ≠ 0 := (one_add_exp_pos x).ne'

theorem neg_one_lt_exp (x : ℝ) : -1 < Real.exp x := lt_trans (by norm_num) (Real.exp_pos x)

theorem sqrt_add_pos {v e : ℝ} (hv : 0 ≤ v) (he : 0 < e) : 0 < Real.sqrt (v + e) :=
  Real.sqrt_pos.mpr (add_pos_of_nonneg_of_pos hv he)

theorem sqrt_add_ne_zero {v e : ℝ} (hv : 0 ≤ v) (he : 0 < e) : Real.sqrt (v + e) ≠ 0 :=
  (sqrt_add_pos hv he).ne'

theorem cmpf_one_self (a : Ideal φ) : FloatOps.cmpf (F := Ideal) .one a a = 0#1 := by
  show Ideal.cmp .one a a = 0#1
  simp [Ideal.cmp]

theorem cmpf_une_self (a : Ideal φ) : FloatOps.cmpf (F := Ideal) .une a a = 0#1 := by
  show Ideal.cmp .une a a = 0#1
  simp [Ideal.cmp]

theorem cmpf_ogt_coe (x y : ℝ) :
    FloatOps.cmpf (F := Ideal) (φ := φ) .ogt (x : EReal) (y : EReal) = BitVec.ofBool (decide (y < x)) := by
  show Ideal.cmp .ogt (x : EReal) (y : EReal) = _
  simp only [Ideal.cmp, EReal.coe_lt_coe_iff]

theorem cmpf_ogt_coe_of_lt {x y : ℝ} (h : y < x) :
    FloatOps.cmpf (F := Ideal) (φ := φ) .ogt (x : EReal) (y : EReal) = 1#1 := by
  rw [cmpf_ogt_coe, decide_eq_true h]; rfl

theorem cmpf_ogt_zero_of_pos {x : ℝ} (h : 0 < x) :
    FloatOps.cmpf (F := Ideal) (φ := φ) .ogt (x : EReal) (0 : EReal) = 1#1 := by
  rw [← EReal.coe_zero]; exact cmpf_ogt_coe_of_lt h

theorem select_one {α : Type} (a b : α) : Scalar.select 1#1 a b = a := by
  simp [Scalar.select]

theorem select_zero {α : Type} (a b : α) : Scalar.select 0#1 a b = b := by
  simp [Scalar.select]

theorem select_cmpf_one_self {α : Type} (a : Ideal φ) (b c : α) :
    Scalar.select (FloatOps.cmpf (F := Ideal) .one a a) b c = c := by
  rw [cmpf_one_self, select_zero]

theorem select_cmpf_une_self {α : Type} (a : Ideal φ) (b c : α) :
    Scalar.select (FloatOps.cmpf (F := Ideal) .une a a) b c = c := by
  rw [cmpf_une_self, select_zero]

theorem ofBits_one_f32 : Ideal.ofBits .f32 0x3F800000#32 = ((1 : ℝ) : EReal) := by
  simp [Ideal.ofBits, Ideal.ieee, -EReal.coe_mul]; norm_num

theorem ofBits_zero_f32 : Ideal.ofBits .f32 0x00000000#32 = ((0 : ℝ) : EReal) := by
  simp [Ideal.ofBits, Ideal.ieee]

theorem ofBits_320000_f32 : Ideal.ofBits .f32 0x489C4000#32 = ((320000 : ℝ) : EReal) := by
  simp [Ideal.ofBits, Ideal.ieee, -EReal.coe_mul]; norm_num

theorem ofBits_10000_f32 : Ideal.ofBits .f32 0x461C4000#32 = ((10000 : ℝ) : EReal) := by
  simp [Ideal.ofBits, Ideal.ieee, -EReal.coe_mul]; norm_num

theorem ofBits_3727C5AC_f32_pos : ∃ e : ℝ, 0 < e ∧ Ideal.ofBits .f32 0x3727C5AC#32 = (e : EReal) := by

  simp [Ideal.ofBits, Ideal.ieee, -EReal.coe_mul]

theorem coe_finset_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem coe_fintype_sum {ι : Type*} [Fintype ι] (f : ι → ℝ) :
    ((∑ i, f i : ℝ) : EReal) = ∑ i, (f i : EReal) := coe_finset_sum Finset.univ f

theorem coe_fintype_sum_mul {ι : Type*} [Fintype ι] (f g : ι → ℝ) :
    ((∑ i, f i * g i : ℝ) : EReal) = ∑ i, (f i : EReal) * (g i : EReal) := by
  rw [coe_fintype_sum]; exact Finset.sum_congr rfl fun i _ => EReal.coe_mul _ _

theorem softplus_max_add_log_eq (x : ℝ) :
    max x 0 + Real.log (1 + Real.exp (-|x|)) = Real.log (1 + Real.exp x) := by
  rcases le_total 0 x with h | h
  · rw [max_eq_left h, abs_of_nonneg h]
    have h1 : 0 < 1 + Real.exp (-x) := by positivity
    have h2 : 1 + Real.exp x = Real.exp x * (1 + Real.exp (-x)) := by
      rw [mul_add, mul_one, ← Real.exp_add, add_neg_cancel, Real.exp_zero, add_comm]
    rw [h2, Real.log_mul (Real.exp_pos x).ne' h1.ne', Real.log_exp]
  · rw [max_eq_right h, abs_of_nonpos h, neg_neg, zero_add]

theorem softplus_max_add_log_sub_zero_eq (x : ℝ) :
    max x 0 + Real.log (1 + Real.exp (0 - |x - 0|)) = Real.log (1 + Real.exp x) := by
  rw [sub_zero, zero_sub]; exact softplus_max_add_log_eq x

section Variance
variable {ι : Type*} [Fintype ι]

theorem variance_centered_eq_moment (x : ι → ℝ) (n : ℝ) (hn : n = (Fintype.card ι : ℝ)) (hpos : 0 < n) :
    (∑ i, (x i - (∑ j, x j) / n) * (x i - (∑ j, x j) / n)) / n
      = (∑ i, x i * x i) / n - (∑ j, x j) / n * ((∑ j, x j) / n) := by
  have hne : n ≠ 0 := hpos.ne'
  obtain ⟨S, hS⟩ : ∃ S : ℝ, S = ∑ j, x j := ⟨_, rfl⟩
  rw [← hS]
  have hterm : ∀ i, (x i - S / n) * (x i - S / n) = x i * x i - 2 * (S / n) * x i + S / n * (S / n) :=
    fun i => by ring
  have hexp : ∑ i, (x i - S / n) * (x i - S / n)
      = (∑ i, x i * x i) - 2 * (S / n) * S + n * (S / n * (S / n)) := by
    simp only [hterm, Finset.sum_add_distrib, Finset.sum_sub_distrib, ← Finset.mul_sum, Finset.sum_const,
      Finset.card_univ, nsmul_eq_mul, ← hn, ← hS]
    ring
  rw [hexp]
  field_simp
  ring

theorem variance_centered_nonneg (x : ι → ℝ) (μ : ℝ) {n : ℝ} (hpos : 0 < n) :
    0 ≤ (∑ i, (x i - μ) * (x i - μ)) / n := div_nonneg (Finset.sum_nonneg fun i _ => mul_self_nonneg _) hpos.le

theorem variance_moment_nonneg (x : ι → ℝ) (n : ℝ) (hn : n = (Fintype.card ι : ℝ)) (hpos : 0 < n) :
    0 ≤ (∑ i, x i * x i) / n - (∑ j, x j) / n * ((∑ j, x j) / n) := by
  rw [← variance_centered_eq_moment x n hn hpos]; exact variance_centered_nonneg x _ hpos

theorem max_variance_moment_zero (x : ι → ℝ) (n : ℝ) (hn : n = (Fintype.card ι : ℝ)) (hpos : 0 < n) :
    max ((∑ i, x i * x i) / n - (∑ j, x j) / n * ((∑ j, x j) / n)) 0
      = (∑ i, (x i - (∑ j, x j) / n) * (x i - (∑ j, x j) / n)) / n := by
  rw [max_eq_left (variance_moment_nonneg x n hn hpos), variance_centered_eq_moment x n hn hpos]

end Variance

theorem batchnorm_fold (x μ γ β v e : ℝ) :
    (x - μ) / Real.sqrt (v + e) * γ + β
      = x * (γ * (Real.sqrt (v + e))⁻¹) + (β - μ * (γ * (Real.sqrt (v + e))⁻¹)) := by
  rw [div_eq_mul_inv]; ring

example (x μ γ β v e : ℝ) (hv : 0 ≤ v) (he : 0 < e) :
    FloatOps.addf (F := Ideal) (φ := .f32)
        (FloatOps.mulf (FloatOps.hostDivf (FloatOps.subf (x : EReal) (μ : EReal))
          (FloatOps.hostUnary .sqrt (FloatOps.addf (v : EReal) (e : EReal)))) (γ : EReal)) (β : EReal)
      = FloatOps.addf (F := Ideal) (φ := .f32)
          (FloatOps.mulf (x : EReal) (FloatOps.mulf (γ : EReal) (FloatOps.rsqrt (FloatOps.addf (v : EReal) (e : EReal)))))
          (FloatOps.subf (β : EReal)
            (FloatOps.mulf (μ : EReal) (FloatOps.mulf (γ : EReal) (FloatOps.rsqrt (FloatOps.addf (v : EReal) (e : EReal)))))) := by
  have hpos : 0 < v + e := add_pos_of_nonneg_of_pos hv he
  simp only [addf_coe, subf_coe, mulf_coe, hostSqrt_coe hpos.le, rsqrt_coe hpos,
    hostDivf_coe _ (sqrt_add_ne_zero hv he), batchnorm_fold]

example (x : ℝ) :
    Scalar.select (FloatOps.cmpf (F := Ideal) (φ := .f32) .une (x : EReal) (x : EReal)) (FloatOps.addf (x : EReal) (0 : EReal))
        (FloatOps.addf (FloatOps.maximumf (x : EReal) ((0 : ℝ) : EReal))
          (FloatOps.hostUnary .log1p (FloatOps.hostUnary .exp (FloatOps.hostNegf (FloatOps.hostAbsf (x : EReal))))))
      = FloatOps.log1p (F := Ideal) (φ := .f32) (FloatOps.exp (x : EReal)) := by
  rw [select_cmpf_une_self]
  simp only [hostAbsf_coe, hostNegf_coe, hostExp_coe, hostLog1p_coe (neg_one_lt_exp _), maximumf_coe, addf_coe,
    exp_coe, log1p_coe (neg_one_lt_exp _), softplus_max_add_log_eq]

end Cert.LibIdealReal

end
-- ==== Proof.Spec.lean ====
import proofs.«202994_g19078244729258_cont_8to1_1405_21_alg».proof.Proof.LibIdealReal
import Mathlib.Algebra.BigOperators.Fin
import Mathlib.Logic.Equiv.Fin.Basic
import Mathlib.Data.Fintype.BigOperators

noncomputable section

namespace Cert.Spec

open scoped BigOperators
open Cert.LibIdealReal

def iSelf (p : Fin 128) : Fin 272 := ⟨p.val, by omega⟩

def iNbr (p : Fin 128) : Fin 272 := ⟨128 + p.val, by omega⟩

def iEdge (q : Fin 16) : Fin 272 := ⟨256 + q.val, by omega⟩

def kFilt (k : Fin 128) : Fin 256 := ⟨k.val, by omega⟩

def kCore (k : Fin 128) : Fin 256 := ⟨128 + k.val, by omega⟩

def blk (i : Fin 25) (r : Fin 400) : Fin 10000 := ⟨400 * i.val + r.val, by omega⟩

def blkA (i : Fin 12) (r : Fin 400) : Fin 10000 := ⟨400 * i.val + r.val, by omega⟩

def blkB (i : Fin 13) (r : Fin 400) : Fin 10000 := ⟨4800 + 400 * i.val + r.val, by omega⟩

theorem sum_fin272_split {β : Type*} [AddCommMonoid β] (f : Fin 272 → β) :
    ∑ r, f r = (∑ p : Fin 128, f (iSelf p)) + (∑ p : Fin 128, f (iNbr p)) + ∑ q : Fin 16, f (iEdge q) := by
  have h : 128 + 128 + 16 = 272 := by norm_num
  have e1 : ∀ p : Fin 128, finCongr h (Fin.castAdd 16 (Fin.castAdd 128 p)) = iSelf p := fun p => Fin.ext rfl
  have e2 : ∀ p : Fin 128, finCongr h (Fin.castAdd 16 (Fin.natAdd 128 p)) = iNbr p := fun p => Fin.ext rfl
  have e3 : ∀ q : Fin 16, finCongr h (Fin.natAdd (128 + 128) q) = iEdge q := fun q => Fin.ext rfl
  rw [← Equiv.sum_comp (finCongr h) f, Fin.sum_univ_add, Fin.sum_univ_add]
  simp only [e1, e2, e3]

theorem sum_fin_mul_eq_sum_blocks {β : Type*} [AddCommMonoid β] (m n : ℕ) (f : Fin (m * n) → β) :
    ∑ t, f t = ∑ i : Fin m, ∑ r : Fin n, f (finProdFinEquiv (i, r)) := by
  rw [← Equiv.sum_comp finProdFinEquiv f, Fintype.sum_prod_type]

theorem sum_atoms_eq_sum_blk {β : Type*} [AddCommMonoid β] (f : Fin 10000 → β) :
    ∑ n, f n = ∑ i : Fin 25, ∑ r : Fin 400, f (blk i r) := by
  have h : 25 * 400 = 10000 := by norm_num
  rw [← Equiv.sum_comp (finCongr h) f, sum_fin_mul_eq_sum_blocks]
  refine Finset.sum_congr rfl fun i _ => Finset.sum_congr rfl fun r _ => congrArg f (Fin.ext ?_)
  simp only [finCongr_apply_coe, finProdFinEquiv_apply_val, blk]
  omega

theorem sum_atoms_eq_sum_blocks {β : Type*} [AddCommMonoid β] (f : Fin 10000 → β) :
    ∑ n, f n = (∑ i : Fin 12, ∑ r : Fin 400, f (blkA i r)) + ∑ i : Fin 13, ∑ r : Fin 400, f (blkB i r) := by
  have h : 12 + 13 = 25 := by norm_num
  rw [sum_atoms_eq_sum_blk, ← Equiv.sum_comp (finCongr h) (fun i => ∑ r : Fin 400, f (blk i r)), Fin.sum_univ_add]
  refine congrArg₂ (· + ·) ?_ ?_ <;>
    refine Finset.sum_congr rfl fun i _ => Finset.sum_congr rfl fun r _ => congrArg f (Fin.ext ?_)
  · simp only [blk, blkA, finCongr_apply_coe, Fin.coe_castAdd]
  · simp only [blk, blkB, finCongr_apply_coe, Fin.coe_natAdd]
    omega

theorem sum_pairs_eq_sum_blocks {β : Type*} [AddCommMonoid β] (f : Fin 10000 → Fin 32 → β) :
    ∑ n, ∑ j, f n j
      = (∑ i : Fin 12, ∑ r : Fin 400, ∑ j, f (blkA i r) j) + ∑ i : Fin 13, ∑ r : Fin 400, ∑ j, f (blkB i r) j := sum_atoms_eq_sum_blocks fun n => ∑ j, f n j

theorem sum_mul_mul_right {ι : Type*} [Fintype ι] (f g : ι → ℝ) (s : ℝ) :
    ∑ p, f p * (g p * s) = (∑ p, f p * g p) * s := by
  rw [Finset.sum_mul]; exact Finset.sum_congr rfl fun p _ => (mul_assoc _ _ _).symm

structure Inputs where
  a : Fin 10000 → Fin 128 → ℝ
  e : Fin 10000 → Fin 32 → Fin 16 → ℝ
  idx : Fin 10000 → Fin 32 → Fin 10000
  bw : Fin 10000 → Fin 32 → ℝ
  W : Fin 272 → Fin 256 → ℝ
  b : Fin 256 → ℝ
  γ1 : Fin 256 → ℝ
  β1 : Fin 256 → ℝ
  γ2 : Fin 128 → ℝ
  β2 : Fin 128 → ℝ
  ε : ℝ

def sigmoid (t : ℝ) : ℝ := 1 / (1 + Real.exp (-t))

def softplusRef (t : ℝ) : ℝ := max t 0 + Real.log (1 + Real.exp (-|t|))

def softplusKer (t : ℝ) : ℝ := Real.log (1 + Real.exp t)

theorem softplusKer_eq_softplusRef (t : ℝ) : softplusKer t = softplusRef t := (softplus_max_add_log_eq t).symm

variable (I : Inputs)

def cat (n : Fin 10000) (j : Fin 32) (r : Fin 272) : ℝ :=
  if h : r.val < 128 then I.a n ⟨r.val, h⟩
  else if h' : r.val < 256 then I.a (I.idx n j) ⟨r.val - 128, by omega⟩
  else I.e n j ⟨r.val - 256, by omega⟩

theorem cat_iSelf (n : Fin 10000) (j : Fin 32) (p : Fin 128) : cat I n j (iSelf p) = I.a n p := by
  unfold cat
  rw [dif_pos (show (iSelf p).val < 128 from p.isLt)]
  rfl
theorem cat_iNbr (n : Fin 10000) (j : Fin 32) (p : Fin 128) : cat I n j (iNbr p) = I.a (I.idx n j) p := by
  have h1 : ¬ (iNbr p).val < 128 := by simp [iNbr]
  have h2 : (iNbr p).val < 256 := by simp only [iNbr]; omega
  unfold cat
  rw [dif_neg h1, dif_pos h2]
  exact congrArg (I.a (I.idx n j)) (Fin.ext (by simp [iNbr]))
theorem cat_iEdge (n : Fin 10000) (j : Fin 32) (q : Fin 16) : cat I n j (iEdge q) = I.e n j q := by
  have h1 : ¬ (iEdge q).val < 128 := by simp only [iEdge]; omega
  have h2 : ¬ (iEdge q).val < 256 := by simp [iEdge]
  unfold cat
  rw [dif_neg h1, dif_neg h2]
  exact congrArg (I.e n j) (Fin.ext (by simp [iEdge]))

def specX (n : Fin 10000) (j : Fin 32) (k : Fin 256) : ℝ := (∑ r : Fin 272, cat I n j r * I.W r k) + I.b k
def specMu1 (k : Fin 256) : ℝ := (∑ n, ∑ j, specX I n j k) / 320000
def specVar1 (k : Fin 256) : ℝ :=
  (∑ n, ∑ j, (specX I n j k - specMu1 I k) * (specX I n j k - specMu1 I k)) / 320000
def specY (n : Fin 10000) (j : Fin 32) (k : Fin 256) : ℝ :=
  (specX I n j k - specMu1 I k) / Real.sqrt (specVar1 I k + I.ε) * I.γ1 k + I.β1 k
def specS (n : Fin 10000) (k : Fin 128) : ℝ :=
  ∑ j, (sigmoid (specY I n j (kFilt k)) * I.bw n j) * (softplusRef (specY I n j (kCore k)) * I.bw n j)
def specMu2 (k : Fin 128) : ℝ := (∑ n, specS I n k) / 10000
def specVar2 (k : Fin 128) : ℝ := (∑ n, (specS I n k - specMu2 I k) * (specS I n k - specMu2 I k)) / 10000
def specZ (n : Fin 10000) (k : Fin 128) : ℝ :=
  (specS I n k - specMu2 I k) / Real.sqrt (specVar2 I k + I.ε) * I.γ2 k + I.β2 k
def specOut (n : Fin 10000) (k : Fin 128) : ℝ := softplusRef (I.a n k + specZ I n k)

def kerX (n : Fin 10000) (j : Fin 32) (k : Fin 256) : ℝ :=
  ((∑ p : Fin 128, I.a n p * I.W (iSelf p) k) + I.b k) + (∑ p : Fin 128, I.a (I.idx n j) p * I.W (iNbr p) k)
    + ∑ q : Fin 16, I.e n j q * I.W (iEdge q) k
def kerSum1 (k : Fin 256) : ℝ := ∑ n, ∑ j, kerX I n j k
def kerSq1 (k : Fin 256) : ℝ := ∑ n, ∑ j, kerX I n j k * kerX I n j k
def kerMu1 (k : Fin 256) : ℝ := kerSum1 I k / 320000
def kerVar1 (k : Fin 256) : ℝ := max (kerSq1 I k / 320000 - kerMu1 I k * kerMu1 I k) 0
def kerScale1 (k : Fin 256) : ℝ := I.γ1 k * (Real.sqrt (kerVar1 I k + I.ε))⁻¹
def kerShift1 (k : Fin 256) : ℝ := I.β1 k - kerMu1 I k * kerScale1 I k
def kerY (n : Fin 10000) (j : Fin 32) (k : Fin 256) : ℝ :=
  ((∑ p : Fin 128, I.a n p * (I.W (iSelf p) k * kerScale1 I k)) + (I.b k * kerScale1 I k + kerShift1 I k))
    + (∑ p : Fin 128, I.a (I.idx n j) p * (I.W (iNbr p) k * kerScale1 I k))
    + ∑ q : Fin 16, I.e n j q * (I.W (iEdge q) k * kerScale1 I k)
def kerS (n : Fin 10000) (k : Fin 128) : ℝ :=
  ∑ j, sigmoid (kerY I n j (kFilt k)) * softplusKer (kerY I n j (kCore k)) * (I.bw n j * I.bw n j)
def kerSum2 (k : Fin 128) : ℝ := ∑ n, kerS I n k
def kerSq2 (k : Fin 128) : ℝ := ∑ n, kerS I n k * kerS I n k
def kerMu2 (k : Fin 128) : ℝ := kerSum2 I k / 10000
def kerVar2 (k : Fin 128) : ℝ := max (kerSq2 I k / 10000 - kerMu2 I k * kerMu2 I k) 0
def kerScale2 (k : Fin 128) : ℝ := I.γ2 k * (Real.sqrt (kerVar2 I k + I.ε))⁻¹
def kerShift2 (k : Fin 128) : ℝ := I.β2 k - kerMu2 I k * kerScale2 I k
def kerZ (n : Fin 10000) (k : Fin 128) : ℝ := kerS I n k * kerScale2 I k + kerShift2 I k
def kerOut (n : Fin 10000) (k : Fin 128) : ℝ := softplusRef (I.a n k + kerZ I n k)

theorem kerX_eq_specX (n : Fin 10000) (j : Fin 32) (k : Fin 256) : kerX I n j k = specX I n j k := by
  unfold kerX specX
  rw [sum_fin272_split]
  simp only [cat_iSelf, cat_iNbr, cat_iEdge]
  ring
theorem kerMu1_eq_specMu1 (k : Fin 256) : kerMu1 I k = specMu1 I k := by
  unfold kerMu1 kerSum1 specMu1
  simp only [kerX_eq_specX]
theorem kerVar1_eq_specVar1 (k : Fin 256) : kerVar1 I k = specVar1 I k := by
  unfold kerVar1 kerSq1 specVar1
  rw [kerMu1_eq_specMu1]
  simp only [kerX_eq_specX]
  unfold specMu1
  have h := max_variance_moment_zero (ι := Fin 10000 × Fin 32) (fun p => specX I p.1 p.2 k) 320000
    (by simp only [Fintype.card_prod, Fintype.card_fin]; norm_num) (by norm_num)
  simp only [Fintype.sum_prod_type] at h
  exact h
theorem specVar1_nonneg (k : Fin 256) : 0 ≤ specVar1 I k := div_nonneg (Finset.sum_nonneg fun n _ => Finset.sum_nonneg fun j _ => mul_self_nonneg _) (by norm_num)

theorem kerY_eq_specY (n : Fin 10000) (j : Fin 32) (k : Fin 256) : kerY I n j k = specY I n j k := by
  have hs : kerScale1 I k = I.γ1 k * (Real.sqrt (kerVar1 I k + I.ε))⁻¹ := rfl
  unfold kerY specY
  rw [batchnorm_fold, ← kerX_eq_specX, ← kerMu1_eq_specMu1, ← kerVar1_eq_specVar1, ← hs]
  unfold kerShift1 kerX
  rw [sum_mul_mul_right, sum_mul_mul_right, sum_mul_mul_right]
  ring
theorem kerS_eq_specS (n : Fin 10000) (k : Fin 128) : kerS I n k = specS I n k := by
  unfold kerS specS
  refine Finset.sum_congr rfl fun j _ => ?_
  rw [kerY_eq_specY, kerY_eq_specY, softplusKer_eq_softplusRef]
  ring
theorem kerMu2_eq_specMu2 (k : Fin 128) : kerMu2 I k = specMu2 I k := by
  unfold kerMu2 kerSum2 specMu2
  simp only [kerS_eq_specS]
theorem kerVar2_eq_specVar2 (k : Fin 128) : kerVar2 I k = specVar2 I k := by
  unfold kerVar2 kerSq2 specVar2
  rw [kerMu2_eq_specMu2]
  simp only [kerS_eq_specS]
  unfold specMu2
  exact max_variance_moment_zero (fun n => specS I n k) 10000 (by simp only [Fintype.card_fin]; norm_num) (by norm_num)
theorem specVar2_nonneg (k : Fin 128) : 0 ≤ specVar2 I k := div_nonneg (Finset.sum_nonneg fun n _ => mul_self_nonneg _) (by norm_num)

theorem kerZ_eq_specZ (n : Fin 10000) (k : Fin 128) : kerZ I n k = specZ I n k := by
  have hs : kerScale2 I k = I.γ2 k * (Real.sqrt (kerVar2 I k + I.ε))⁻¹ := rfl
  unfold kerZ specZ
  rw [batchnorm_fold, ← kerS_eq_specS, ← kerMu2_eq_specMu2, ← kerVar2_eq_specVar2, ← hs]
  rfl
theorem kerOut_eq_specOut (n : Fin 10000) (k : Fin 128) : kerOut I n k = specOut I n k := by
  unfold kerOut specOut
  rw [kerZ_eq_specZ]

theorem kerSum1_eq_sum_blocks (k : Fin 256) :
    kerSum1 I k = (∑ i : Fin 12, ∑ r : Fin 400, ∑ j, kerX I (blkA i r) j k)
      + ∑ i : Fin 13, ∑ r : Fin 400, ∑ j, kerX I (blkB i r) j k := sum_pairs_eq_sum_blocks fun n j => kerX I n j k
theorem kerSq1_eq_sum_blocks (k : Fin 256) :
    kerSq1 I k = (∑ i : Fin 12, ∑ r : Fin 400, ∑ j, kerX I (blkA i r) j k * kerX I (blkA i r) j k)
      + ∑ i : Fin 13, ∑ r : Fin 400, ∑ j, kerX I (blkB i r) j k * kerX I (blkB i r) j k := sum_pairs_eq_sum_blocks fun n j => kerX I n j k * kerX I n j k
theorem kerSum2_eq_sum_blocks (k : Fin 128) :
    kerSum2 I k = (∑ i : Fin 12, ∑ r : Fin 400, kerS I (blkA i r) k) + ∑ i : Fin 13, ∑ r : Fin 400, kerS I (blkB i r) k := sum_atoms_eq_sum_blocks fun n => kerS I n k
theorem kerSq2_eq_sum_blocks (k : Fin 128) :
    kerSq2 I k = (∑ i : Fin 12, ∑ r : Fin 400, kerS I (blkA i r) k * kerS I (blkA i r) k)
      + ∑ i : Fin 13, ∑ r : Fin 400, kerS I (blkB i r) k * kerS I (blkB i r) k := sum_atoms_eq_sum_blocks fun n => kerS I n k * kerS I n k

end Cert.Spec

end
-- ==== Proof.KI.KerValueDefs.lean ====
import proofs.«202994_g19078244729258_cont_8to1_1405_21_alg».proof.Proof.KI.Main
import proofs.«202994_g19078244729258_cont_8to1_1405_21_alg».proof.Proof.KI.Region6
import proofs.«202994_g19078244729258_cont_8to1_1405_21_alg».proof.Proof.Spec
import Idealize.ShloMosaic.Lib.ValueIdx

noncomputable section

namespace Cert.Proof.KI

open Cert.KernelIdeal Cert.KernelIdeal.Gen
open Idealize.ShloMosaic Idealize.ShloMosaic.ValueIdx
open Idealize.ShloMosaic.StableHlo (after launchContents)
open Cert.Spec
open scoped BigOperators

def atomA (r : Fin 4800) : Fin 10000 := ⟨r.val, by omega⟩

def atomB (r : Fin 5200) : Fin 10000 := ⟨4800 + r.val, by omega⟩

def pairCol (n : Fin 10000) (j : Fin 32) : Fin 320000 := ⟨32 * n.val + j.val, by omega⟩

variable (I : Inputs)

structure LaunchReads (m : (ℓ : Loc nD τ sig) → Buf (Elt Ideal) ℓ) (d : Dev nD) : Prop where
  a : ∀ (n : Fin 10000) (p : Fin 128), (m (d, Proc.devRef .tc main_arg0) : S10000x128.Idx → EReal) (ix2 n p) = ((I.a n p : ℝ) : EReal)
  e : ∀ (n : Fin 10000) (j : Fin 32) (q : Fin 16), (m (d, Proc.devRef .tc main_arg1) : S10000x32x16.Idx → EReal) (ix3 n j q) = ((I.e n j q : ℝ) : EReal)
  idx : ∀ (n : Fin 10000) (j : Fin 32), ((m (d, Proc.devRef .tc main_arg2) : S10000x32.Idx → BitVec 32) (ix2 n j)).toNat = (I.idx n j).val
  bw : ∀ (n : Fin 10000) (j : Fin 32), (m (d, Proc.devRef .tc main_arg3) : S10000x32.Idx → EReal) (ix2 n j) = ((I.bw n j : ℝ) : EReal)
  W : ∀ (r : Fin 272) (k : Fin 256), (m (d, Proc.devRef .tc main_arg4) : S272x256.Idx → EReal) (ix2 r k) = ((I.W r k : ℝ) : EReal)
  b : ∀ k : Fin 256, (m (d, Proc.devRef .tc main_arg5) : S256.Idx → EReal) (ix1 k) = ((I.b k : ℝ) : EReal)
  γ1 : ∀ k : Fin 256, (m (d, Proc.devRef .tc main_arg6) : S256.Idx → EReal) (ix1 k) = ((I.γ1 k : ℝ) : EReal)
  β1 : ∀ k : Fin 256, (m (d, Proc.devRef .tc main_arg7) : S256.Idx → EReal) (ix1 k) = ((I.β1 k : ℝ) : EReal)
  γ2 : ∀ k : Fin 128, (m (d, Proc.devRef .tc main_arg8) : S128.Idx → EReal) (ix1 k) = ((I.γ2 k : ℝ) : EReal)
  β2 : ∀ k : Fin 128, (m (d, Proc.devRef .tc main_arg9) : S128.Idx → EReal) (ix1 k) = ((I.β2 k : ℝ) : EReal)
  eps : Ideal.ofBits .f32 0x3727C5AC#32 = ((I.ε : ℝ) : EReal)
  eps_pos : 0 < I.ε

structure ReadsLayout (V : Valuation τ sig (Elt Ideal)) : Prop where
  atom : ∀ (n : Fin 10000) (p : Fin 128), (V (Proc.devRef .tc main_arg0) : S10000x128.Idx → EReal) (ix2 n p) = ((I.a n p : ℝ) : EReal)
  gA : ∀ (r : Fin 4800) (j : Fin 32) (p : Fin 128), (V (Proc.devRef .tc main_v9) : S4800x32x128.Idx → EReal) (ix3 r j p) = ((I.a (I.idx (atomA r) j) p : ℝ) : EReal)
  gB : ∀ (r : Fin 5200) (j : Fin 32) (p : Fin 128), (V (Proc.devRef .tc main_v10) : S5200x32x128.Idx → EReal) (ix3 r j p) = ((I.a (I.idx (atomB r) j) p : ℝ) : EReal)
  eT : ∀ (q : Fin 16) (n : Fin 10000) (j : Fin 32), (V (Proc.devRef .tc main_v12) : S16x320000.Idx → EReal) (ix2 q (pairCol n j)) = ((I.e n j q : ℝ) : EReal)
  bw : ∀ (n : Fin 10000) (j : Fin 32), (V (Proc.devRef .tc main_arg3) : S10000x32.Idx → EReal) (ix2 n j) = ((I.bw n j : ℝ) : EReal)
  ws : ∀ (p : Fin 128) (k : Fin 256), (V (Proc.devRef .tc main_v0) : S128x256.Idx → EReal) (ix2 p k) = ((I.W (iSelf p) k : ℝ) : EReal)
  wn : ∀ (p : Fin 128) (k : Fin 256), (V (Proc.devRef .tc main_v1) : S128x256.Idx → EReal) (ix2 p k) = ((I.W (iNbr p) k : ℝ) : EReal)
  we : ∀ (q : Fin 16) (k : Fin 256), (V (Proc.devRef .tc main_v2) : S16x256.Idx → EReal) (ix2 q k) = ((I.W (iEdge q) k : ℝ) : EReal)
  bias : ∀ k : Fin 256, (V (Proc.devRef .tc main_v3) : S1x256.Idx → EReal) (ix2 0 k) = ((I.b k : ℝ) : EReal)

structure ReadsStats (V : Valuation τ sig (Elt Ideal)) : Prop where
  sumA : ∀ k : Fin 256, (V (Proc.devRef .tc main_v13_0) : S1x256.Idx → EReal) (ix2 0 k)
    = ((∑ i : Fin 12, ∑ r : Fin 400, ∑ j : Fin 32, kerX I (blkA i r) j k : ℝ) : EReal)
  sqA : ∀ k : Fin 256, (V (Proc.devRef .tc main_v13_1) : S1x256.Idx → EReal) (ix2 0 k)
    = ((∑ i : Fin 12, ∑ r : Fin 400, ∑ j : Fin 32, kerX I (blkA i r) j k * kerX I (blkA i r) j k : ℝ) : EReal)
  sumB : ∀ k : Fin 256, (V (Proc.devRef .tc main_v14_0) : S1x256.Idx → EReal) (ix2 0 k)
    = ((∑ i : Fin 13, ∑ r : Fin 400, ∑ j : Fin 32, kerX I (blkB i r) j k : ℝ) : EReal)
  sqB : ∀ k : Fin 256, (V (Proc.devRef .tc main_v14_1) : S1x256.Idx → EReal) (ix2 0 k)
    = ((∑ i : Fin 13, ∑ r : Fin 400, ∑ j : Fin 32, kerX I (blkB i r) j k * kerX I (blkB i r) j k : ℝ) : EReal)

structure ReadsFolded (V : Valuation τ sig (Elt Ideal)) : Prop where
  ws : ∀ (p : Fin 128) (k : Fin 256), (V (Proc.devRef .tc main_v34) : S128x256.Idx → EReal) (ix2 p k) = ((I.W (iSelf p) k * kerScale1 I k : ℝ) : EReal)
  wn : ∀ (p : Fin 128) (k : Fin 256), (V (Proc.devRef .tc main_v36) : S128x256.Idx → EReal) (ix2 p k) = ((I.W (iNbr p) k * kerScale1 I k : ℝ) : EReal)
  we : ∀ (q : Fin 16) (k : Fin 256), (V (Proc.devRef .tc main_v38) : S16x256.Idx → EReal) (ix2 q k) = ((I.W (iEdge q) k * kerScale1 I k : ℝ) : EReal)
  bg : ∀ k : Fin 256, (V (Proc.devRef .tc main_v40) : S1x256.Idx → EReal) (ix2 0 k) = ((I.b k * kerScale1 I k + kerShift1 I k : ℝ) : EReal)

structure ReadsGate (V : Valuation τ sig (Elt Ideal)) : Prop where
  nsA : ∀ (r : Fin 4800) (k : Fin 128), (V (Proc.devRef .tc main_v41_0) : S4800x128.Idx → EReal) (ix2 r k) = ((kerS I (atomA r) k : ℝ) : EReal)
  nsB : ∀ (r : Fin 5200) (k : Fin 128), (V (Proc.devRef .tc main_v42_0) : S5200x128.Idx → EReal) (ix2 r k) = ((kerS I (atomB r) k : ℝ) : EReal)
  sumA : ∀ k : Fin 128, (V (Proc.devRef .tc main_v41_1) : S1x128.Idx → EReal) (ix2 0 k) = ((∑ i : Fin 12, ∑ r : Fin 400, kerS I (blkA i r) k : ℝ) : EReal)
  sqA : ∀ k : Fin 128, (V (Proc.devRef .tc main_v41_2) : S1x128.Idx → EReal) (ix2 0 k) = ((∑ i : Fin 12, ∑ r : Fin 400, kerS I (blkA i r) k * kerS I (blkA i r) k : ℝ) : EReal)
  sumB : ∀ k : Fin 128, (V (Proc.devRef .tc main_v42_1) : S1x128.Idx → EReal) (ix2 0 k) = ((∑ i : Fin 13, ∑ r : Fin 400, kerS I (blkB i r) k : ℝ) : EReal)
  sqB : ∀ k : Fin 128, (V (Proc.devRef .tc main_v42_2) : S1x128.Idx → EReal) (ix2 0 k) = ((∑ i : Fin 13, ∑ r : Fin 400, kerS I (blkB i r) k * kerS I (blkB i r) k : ℝ) : EReal)

structure ReadsFinal (V : Valuation τ sig (Elt Ideal)) : Prop where
  atom : ∀ (n : Fin 10000) (k : Fin 128), (V (Proc.devRef .tc main_arg0) : S10000x128.Idx → EReal) (ix2 n k) = ((I.a n k : ℝ) : EReal)
  ns : ∀ (n : Fin 10000) (k : Fin 128), (V (Proc.devRef .tc main_v43) : S10000x128.Idx → EReal) (ix2 n k) = ((kerS I n k : ℝ) : EReal)
  scale : ∀ k : Fin 128, (V (Proc.devRef .tc main_v58) : S1x128.Idx → EReal) (ix2 0 k) = ((kerScale2 I k : ℝ) : EReal)
  shift : ∀ k : Fin 128, (V (Proc.devRef .tc main_v61) : S1x128.Idx → EReal) (ix2 0 k) = ((kerShift2 I k : ℝ) : EReal)

structure UpdSpec (upd : Fin 5 → Valuation τ sig (Elt Ideal) → Valuation τ sig (Elt Ideal)) : Prop where
  frame : ∀ (p : Fin 5) (W : Valuation τ sig (Elt Ideal)) (r : Ref sig .tc), r ∉ regionOuts p →
    upd p W (Proc.devRef .tc r) = W (Proc.devRef .tc r)
  out4 : ∀ W : Valuation τ sig (Elt Ideal), (upd 4 W (Proc.devRef .tc main_v62) : S10000x128.Idx → EReal)
    = G6 (F := Ideal) (W (Proc.devRef .tc main_arg0)) (W (Proc.devRef .tc main_v43)) (W (Proc.devRef .tc main_v58)) (W (Proc.devRef .tc main_v61))

variable (m : (ℓ : Loc nD τ sig) → Buf (Elt Ideal) ℓ) (upd : Fin 5 → Valuation τ sig (Elt Ideal) → Valuation τ sig (Elt Ideal)) (d : Dev nD)

theorem VJ_of (hU : UpdSpec upd) (r : Ref sig .tc) (h0 : r ∉ seg0_W) (h1 : r ∉ seg1_W) (h2 : r ∉ seg2_W) (h4 : r ∉ seg4_W)
    (ho0 : r ≠ main_v6) (ho1 : r ≠ main_v8) (hr : ∀ p, r ∉ regionOuts p) :
    VJ m upd d (Proc.devRef .tc r) = m (d, Proc.devRef .tc r) := by
  unfold VJ VI VH VG VF VE VD VC VB VA
  rw [hU.frame 3 _ r (hr 3), hU.frame 2 _ r (hr 2), after_seg4_of _ r h4, hU.frame 1 _ r (hr 1), hU.frame 0 _ r (hr 0),
    after_seg2_of _ r h2, Function.update_of_ne (StableHlo.devRef_ne_of_ne ho1), after_seg1_of _ r h1,
    Function.update_of_ne (StableHlo.devRef_ne_of_ne ho0), after_seg0_of _ r h0]

theorem VK_of (hU : UpdSpec upd) (r : Ref sig .tc) (h0 : r ∉ seg0_W) (h1 : r ∉ seg1_W) (h2 : r ∉ seg2_W) (h4 : r ∉ seg4_W) (h6 : r ∉ seg6_W)
    (ho0 : r ≠ main_v6) (ho1 : r ≠ main_v8) (hr : ∀ p, r ∉ regionOuts p) :
    VK m upd d (Proc.devRef .tc r) = m (d, Proc.devRef .tc r) := by
  unfold VK
  rw [after_seg6_of _ r h6, VJ_of m upd d hU r h0 h1 h2 h4 ho0 ho1 hr]

theorem VH_eq_VE (hU : UpdSpec upd) (r : Ref sig .tc) (h4 : r ∉ seg4_W) (hr : ∀ p, r ∉ regionOuts p) :
    VH m upd d (Proc.devRef .tc r) = VE m d (Proc.devRef .tc r) := by
  unfold VH VG VF
  rw [after_seg4_of _ r h4, hU.frame 1 _ r (hr 1), hU.frame 0 _ r (hr 0)]

theorem layout_VH (hU : UpdSpec upd) (hE : ReadsLayout I (VE m d)) : ReadsLayout I (VH m upd d) where
  atom n p := by rw [VH_eq_VE m upd d hU main_arg0 (by decide) (by decide)]; exact hE.atom n p
  gA r j p := by rw [VH_eq_VE m upd d hU main_v9 (by decide) (by decide)]; exact hE.gA r j p
  gB r j p := by rw [VH_eq_VE m upd d hU main_v10 (by decide) (by decide)]; exact hE.gB r j p
  eT q n j := by rw [VH_eq_VE m upd d hU main_v12 (by decide) (by decide)]; exact hE.eT q n j
  bw n j := by rw [VH_eq_VE m upd d hU main_arg3 (by decide) (by decide)]; exact hE.bw n j
  ws p k := by rw [VH_eq_VE m upd d hU main_v0 (by decide) (by decide)]; exact hE.ws p k
  wn p k := by rw [VH_eq_VE m upd d hU main_v1 (by decide) (by decide)]; exact hE.wn p k
  we q k := by rw [VH_eq_VE m upd d hU main_v2 (by decide) (by decide)]; exact hE.we q k
  bias k := by rw [VH_eq_VE m upd d hU main_v3 (by decide) (by decide)]; exact hE.bias k

def LayoutLink : Prop :=
  ∀ (I : Inputs) (m : (ℓ : Loc nD τ sig) → Buf (Elt Ideal) ℓ) (d : Dev nD), LaunchReads I m d → ReadsLayout I (VE m d)

def StatsLink (upd : Fin 5 → Valuation τ sig (Elt Ideal) → Valuation τ sig (Elt Ideal)) : Prop :=
  ∀ (I : Inputs) (m : (ℓ : Loc nD τ sig) → Buf (Elt Ideal) ℓ) (d : Dev nD), ReadsLayout I (VE m d) → ReadsStats I (VG m upd d)

def FoldedLink (upd : Fin 5 → Valuation τ sig (Elt Ideal) → Valuation τ sig (Elt Ideal)) : Prop :=
  ∀ (I : Inputs) (m : (ℓ : Loc nD τ sig) → Buf (Elt Ideal) ℓ) (d : Dev nD),
    LaunchReads I m d → ReadsLayout I (VE m d) → ReadsStats I (VG m upd d) → ReadsFolded I (VH m upd d)

def GateLink (upd : Fin 5 → Valuation τ sig (Elt Ideal) → Valuation τ sig (Elt Ideal)) : Prop :=
  ∀ (I : Inputs) (m : (ℓ : Loc nD τ sig) → Buf (Elt Ideal) ℓ) (d : Dev nD),
    ReadsFolded I (VH m upd d) → ReadsLayout I (VH m upd d) → ReadsGate I (VJ m upd d)

def FinalLink (upd : Fin 5 → Valuation τ sig (Elt Ideal) → Valuation τ sig (Elt Ideal)) : Prop :=
  ∀ (I : Inputs) (m : (ℓ : Loc nD τ sig) → Buf (Elt Ideal) ℓ) (d : Dev nD),
    LaunchReads I m d → ReadsGate I (VJ m upd d) → ReadsFinal I (VK m upd d)

end Cert.Proof.KI

end
-- ==== Proof.KI.ValStatsLib.lean ====
import proofs.«202994_g19078244729258_cont_8to1_1405_21_alg».proof.Proof.LibIdealReal
import Idealize.ShloMosaic.Lib.ValueIdx
import Idealize.ShloMosaic.Lib.ValueLayout
import Idealize.ShloMosaic.Lib.Decide
import Idealize.ShloMosaic.PureOps.Ideal.Laws
import Mathlib.Data.Fintype.BigOperators
import Mathlib.Algebra.BigOperators.Intervals

noncomputable section

namespace Cert.Proof.KI.ValStatsLib

open Idealize.ShloMosaic Idealize.ShloMosaic.ValueIdx
open scoped BigOperators
open Cert.LibIdealReal

abbrev Sa : Shape := ⟨2, ![400, 128]⟩
abbrev Sw : Shape := ⟨2, ![128, 256]⟩
abbrev Sb : Shape := ⟨2, ![1, 256]⟩
abbrev Sg : Shape := ⟨3, ![400, 32, 128]⟩
abbrev Sgf : Shape := ⟨2, ![12800, 128]⟩
abbrev Se : Shape := ⟨2, ![16, 12800]⟩
abbrev Swe : Shape := ⟨2, ![16, 256]⟩
abbrev Sy : Shape := ⟨2, ![400, 256]⟩
abbrev Sy1 : Shape := ⟨3, ![400, 1, 256]⟩
abbrev Sz : Shape := ⟨2, ![12800, 256]⟩
abbrev Sx : Shape := ⟨3, ![400, 32, 256]⟩
abbrev Sk : Shape := ⟨1, ![256]⟩

def rj (r : Fin 400) (j : Fin 32) : Fin 12800 := ⟨32 * r.val + j.val, by omega⟩

section Layout

variable {α : Type}

theorem cast_flat_apply (x : Sg.Idx → α) (h : Sg.ShapeCasts Sgf) (r : Fin 400) (j : Fin 32) (p : Fin 128) :
    shapeCast Sgf x h (ix2 (rj r j) p) = x (ix3 r j p) :=
  shapeCast_apply x h _ _ (by
    rw [Shape.rowMajor_val_three, Shape.rowMajor_val_two]
    show (r.val * 32 + j.val) * 128 + p.val = (32 * r.val + j.val) * 128 + p.val
    omega)

theorem cast_unflat_apply (x : Sz.Idx → α) (h : Sz.ShapeCasts Sx) (r : Fin 400) (j : Fin 32) (k : Fin 256) :
    shapeCast Sx x h (ix3 r j k) = x (ix2 (rj r j) k) :=
  shapeCast_apply x h _ _ (by
    rw [Shape.rowMajor_val_three, Shape.rowMajor_val_two]
    show (32 * r.val + j.val) * 256 + k.val = (r.val * 32 + j.val) * 256 + k.val
    omega)

theorem cast_unit_apply (x : Sy.Idx → α) (h : Sy.ShapeCasts Sy1) (r : Fin 400) (u : Fin 1) (k : Fin 256) :
    shapeCast Sy1 x h (ix3 r u k) = x (ix2 r k) :=
  shapeCast_apply x h _ _ (by
    have hu : u.val = 0 := by omega
    rw [Shape.rowMajor_val_three, Shape.rowMajor_val_two]
    show r.val * 256 + k.val = (r.val * 1 + u.val) * 256 + k.val
    rw [hu]; omega)

theorem bcast_nbr_apply (x : Sy1.Idx → α) (h : Sy1.Broadcasts Sx) (r : Fin 400) (j : Fin 32) (k : Fin 256) :
    broadcastTo Sx x h (ix3 r j k) = x (ix3 r (0 : Fin 1) k) := by
  refine broadcastTo_apply x h (ix3 r j k) (ix3 r (0 : Fin 1) k) fun ax => ?_
  match ax with
  | ⟨0, _⟩ => rfl
  | ⟨1, _⟩ => rfl
  | ⟨2, _⟩ => rfl

end Layout

theorem matmul_plain_apply {m K n : ℕ} {φ₁ φ₂ : FTy}
    (w : DotDims.WF ⟨2, ![m, K]⟩ ⟨2, ![K, n]⟩ ⟨2, ![m, n]⟩ [1] [0] [0] [1] [] [])
    (prec : Option ContractPrecision) (A : FVec Ideal ⟨2, ![m, K]⟩ φ₁) (B : FVec Ideal ⟨2, ![K, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![m, K]⟩ ⟨2, ![K, n]⟩ ⟨2, ![m, n]⟩) K rfl rfl c
  have l2 : (⟨[1], [0], [0], [1], [], [], w⟩ : DotDims ⟨2, ![m, K]⟩ ⟨2, ![K, n]⟩ ⟨2, ![m, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, K]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem matmul_tn_apply {m K n : ℕ} {φ₁ φ₂ : FTy}
    (w : DotDims.WF ⟨2, ![K, m]⟩ ⟨2, ![K, n]⟩ ⟨2, ![m, n]⟩ [0] [0] [1] [1] [] [])
    (prec : Option ContractPrecision) (A : FVec Ideal ⟨2, ![K, m]⟩ φ₁) (B : FVec Ideal ⟨2, ![K, n]⟩ φ₂) (a : Fin m) (b : Fin n) :
    matmul (⟨[0], [0], [1], [1], [], [], w⟩ : DotDims _ _ _) prec A B (constant (F := Ideal) ⟨2, ![m, n]⟩ .f32 0x00000000#32) (ix2 a b)
      = ∑ c : Fin K, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) K rfl rfl).symm]
  refine Finset.sum_congr rfl fun c _ => ?_
  have c2 := contrEquiv1_symm_val
    (⟨[0], [0], [1], [1], [], [], w⟩ : DotDims ⟨2, ![K, m]⟩ ⟨2, ![K, n]⟩ ⟨2, ![m, n]⟩) K rfl rfl c
  have l2 : (⟨[0], [0], [1], [1], [], [], w⟩ : DotDims ⟨2, ![K, m]⟩ ⟨2, ![K, n]⟩ ⟨2, ![m, n]⟩).lhsIdx (ix2 a b)
      ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![K, m]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem drop01_val (h : Sx.Reduces [0, 1] Sk) (i : Sx.Idx) : (h.drop i 0).val = (i 2).val :=
  h.drop_apply_val_of_eq i 0 2

theorem reduce01_apply (h : Sx.Reduces [0, 1] Sk) (hφ : FKind.Formats .f32)
    (hacc : (0x00000000#32 : BitVec 32) = FKind.add.neutral .f32 hφ) (src : FVec Ideal Sx .f32) (k : Fin 256) :
    multiReduction .add [0, 1] Sk src 0x00000000#32 h hφ hacc (ix1 k) = ∑ r : Fin 400, ∑ j : Fin 32, src (ix3 r j k) := by
  show Ideal.reduceAdd h src (ix1 k) = _
  unfold Ideal.reduceAdd
  refine Eq.trans ?_ (Fintype.sum_prod_type' fun (r : Fin 400) (j : Fin 32) => src (ix3 r j k))
  have hk : ∀ i : Sx.Idx, h.drop i = ix1 k → i = ix3 (i 0) (i 1) k := fun i hi => by
    have h2 : i 2 = k := Fin.ext ((drop01_val h i).symm.trans (congrArg Fin.val (congrFun hi 0)))
    exact (eq_ix3 i).trans (congrArg (ix3 (i 0) (i 1)) h2)
  refine Finset.sum_bij' (fun i _ => ((i 0, i 1) : Fin 400 × Fin 32)) (fun p _ => ix3 p.1 p.2 k)
    (fun _ _ => Finset.mem_univ _) (fun p _ => ?_) (fun i hi => ?_) (fun _ _ => rfl) (fun i hi => ?_)
  · refine Finset.mem_filter.2 ⟨Finset.mem_univ _, funext fun b => Fin.ext ?_⟩
    match b with
    | ⟨0, _⟩ => exact drop01_val h _
  · exact (hk i (Finset.mem_filter.1 hi).2).symm
  · exact congrArg src (hk i (Finset.mem_filter.1 hi).2)

theorem sc_w : Sw.ShapeCasts Sw := by decide
theorem sc_b : Sb.ShapeCasts Sb := by decide
theorem bc_b : Sb.Broadcasts Sy := by decide
theorem sc_g : Sg.ShapeCasts Sg := by decide
theorem sc_gf : Sg.ShapeCasts Sgf := by decide
theorem sc_zx : Sz.ShapeCasts Sx := by decide
theorem sc_e : Se.ShapeCasts Se := by decide
theorem sc_we : Swe.ShapeCasts Swe := by decide
theorem sc_y1 : Sy.ShapeCasts Sy1 := by decide
theorem bc_y1 : Sy1.Broadcasts Sx := by decide
theorem red_x : Sx.Reduces [0, 1] Sk := by decide
theorem sc_k : Sk.ShapeCasts Sb := by decide
theorem wf_a : DotDims.WF Sa Sw Sy [1] [0] [0] [1] [] [] := by decide
theorem wf_g : DotDims.WF Sgf Sw Sz [1] [0] [0] [1] [] [] := by decide
theorem wf_e : DotDims.WF Se Swe Sz [0] [0] [1] [1] [] [] := by decide

def selfTerm (v0 : FVec Ideal Sa .f32) (v1 : FVec Ideal Sw .f32) (v4 : FVec Ideal Sb .f32) : FVec Ideal Sy .f32 :=
  addf (matmul (⟨[1], [0], [0], [1], [], [], wf_a⟩ : DotDims Sa Sw Sy) none v0 (shapeCast Sw v1 sc_w) (constant (F := Ideal) Sy .f32 0x00000000#32))
    (broadcastTo Sy (shapeCast Sb v4 sc_b) bc_b)

def nbrTerm (v8 : FVec Ideal Sg .f32) (v11 : FVec Ideal Sw .f32) : FVec Ideal Sz .f32 :=
  matmul (⟨[1], [0], [0], [1], [], [], wf_g⟩ : DotDims Sgf Sw Sz) none (shapeCast Sgf (shapeCast Sg v8 sc_g) sc_gf) (shapeCast Sw v11 sc_w)
    (constant (F := Ideal) Sz .f32 0x00000000#32)

def edgeTerm (v15 : FVec Ideal Se .f32) (v17 : FVec Ideal Swe .f32) : FVec Ideal Sz .f32 :=
  matmul (⟨[0], [0], [1], [1], [], [], wf_e⟩ : DotDims Se Swe Sz) none (shapeCast Se v15 sc_e) (shapeCast Swe v17 sc_we)
    (constant (F := Ideal) Sz .f32 0x00000000#32)

def statsX (v0 : FVec Ideal Sa .f32) (v1 : FVec Ideal Sw .f32) (v4 : FVec Ideal Sb .f32) (v8 : FVec Ideal Sg .f32)
    (v11 : FVec Ideal Sw .f32) (v15 : FVec Ideal Se .f32) (v17 : FVec Ideal Swe .f32) : FVec Ideal Sx .f32 :=
  addf (addf (broadcastTo Sx (shapeCast Sy1 (selfTerm v0 v1 v4) sc_y1) bc_y1) (shapeCast Sx (nbrTerm v8 v11) sc_zx))
    (shapeCast Sx (edgeTerm v15 v17) sc_zx)

def statsSum (v0 : FVec Ideal Sa .f32) (v1 : FVec Ideal Sw .f32) (v4 : FVec Ideal Sb .f32) (v8 : FVec Ideal Sg .f32)
    (v11 : FVec Ideal Sw .f32) (v15 : FVec Ideal Se .f32) (v17 : FVec Ideal Swe .f32) : FVec Ideal Sb .f32 :=
  shapeCast Sb (multiReduction .add [0, 1] Sk (statsX v0 v1 v4 v8 v11 v15 v17) 0x00000000#32 red_x (.inl rfl) rfl) sc_k

def statsSq (v0 : FVec Ideal Sa .f32) (v1 : FVec Ideal Sw .f32) (v4 : FVec Ideal Sb .f32) (v8 : FVec Ideal Sg .f32)
    (v11 : FVec Ideal Sw .f32) (v15 : FVec Ideal Se .f32) (v17 : FVec Ideal Swe .f32) : FVec Ideal Sb .f32 :=
  shapeCast Sb (multiReduction .add [0, 1] Sk (mulf (statsX v0 v1 v4 v8 v11 v15 v17) (statsX v0 v1 v4 v8 v11 v15 v17)) 0x00000000#32
    red_x (.inl rfl) rfl) sc_k

def statsAcc (s acc : FVec Ideal Sb .f32) : FVec Ideal Sb .f32 := addf (shapeCast Sb acc sc_b) s

def statsZero : FVec Ideal Sb .f32 := broadcast Sb (Scalar.ofBits (F := Ideal) .f32 0x00000000#32)

structure Blocks where
  a : Fin 400 → Fin 128 → ℝ
  g : Fin 400 → Fin 32 → Fin 128 → ℝ
  e : Fin 16 → Fin 12800 → ℝ
  ws : Fin 128 → Fin 256 → ℝ
  wn : Fin 128 → Fin 256 → ℝ
  we : Fin 16 → Fin 256 → ℝ
  b : Fin 256 → ℝ

def Blocks.X (B : Blocks) (r : Fin 400) (j : Fin 32) (k : Fin 256) : ℝ :=
  ((∑ p, B.a r p * B.ws p k) + B.b k) + (∑ p, B.g r j p * B.wn p k) + ∑ q, B.e q (rj r j) * B.we q k

def Blocks.sumX (B : Blocks) (k : Fin 256) : ℝ := ∑ r, ∑ j, B.X r j k

def Blocks.sumSq (B : Blocks) (k : Fin 256) : ℝ := ∑ r, ∑ j, B.X r j k * B.X r j k

structure Holds (B : Blocks) (v0 : FVec Ideal Sa .f32) (v1 : FVec Ideal Sw .f32) (v4 : FVec Ideal Sb .f32) (v8 : FVec Ideal Sg .f32)
    (v11 : FVec Ideal Sw .f32) (v15 : FVec Ideal Se .f32) (v17 : FVec Ideal Swe .f32) : Prop where
  a : ∀ r p, v0 (ix2 r p) = ((B.a r p : ℝ) : EReal)
  ws : ∀ p k, v1 (ix2 p k) = ((B.ws p k : ℝ) : EReal)
  b : ∀ k, v4 (ix2 (0 : Fin 1) k) = ((B.b k : ℝ) : EReal)
  g : ∀ r j p, v8 (ix3 r j p) = ((B.g r j p : ℝ) : EReal)
  wn : ∀ p k, v11 (ix2 p k) = ((B.wn p k : ℝ) : EReal)
  e : ∀ q t, v15 (ix2 q t) = ((B.e q t : ℝ) : EReal)
  we : ∀ q k, v17 (ix2 q k) = ((B.we q k : ℝ) : EReal)

section Values

variable {B : Blocks} {v0 : FVec Ideal Sa .f32} {v1 : FVec Ideal Sw .f32} {v4 : FVec Ideal Sb .f32} {v8 : FVec Ideal Sg .f32}
  {v11 : FVec Ideal Sw .f32} {v15 : FVec Ideal Se .f32} {v17 : FVec Ideal Swe .f32}

theorem selfTerm_apply (ha : ∀ r p, v0 (ix2 r p) = ((B.a r p : ℝ) : EReal)) (hw : ∀ p k, v1 (ix2 p k) = ((B.ws p k : ℝ) : EReal))
    (hb : ∀ k, v4 (ix2 (0 : Fin 1) k) = ((B.b k : ℝ) : EReal)) (r : Fin 400) (k : Fin 256) :
    selfTerm v0 v1 v4 (ix2 r k) = (((∑ p, B.a r p * B.ws p k) + B.b k : ℝ) : EReal) := by
  unfold selfTerm
  rw [addf_apply, matmul_plain_apply, broadcastTo_1b_ab_apply, shapeCast_self, shapeCast_self, hb, EReal.coe_add, coe_fintype_sum_mul]
  exact congrArg (· + ((B.b k : ℝ) : EReal)) (Finset.sum_congr rfl fun p _ => by rw [ha, hw])

theorem nbrTerm_apply (hg : ∀ r j p, v8 (ix3 r j p) = ((B.g r j p : ℝ) : EReal)) (hw : ∀ p k, v11 (ix2 p k) = ((B.wn p k : ℝ) : EReal))
    (r : Fin 400) (j : Fin 32) (k : Fin 256) :
    nbrTerm v8 v11 (ix2 (rj r j) k) = ((∑ p, B.g r j p * B.wn p k : ℝ) : EReal) := by
  unfold nbrTerm
  rw [matmul_plain_apply, shapeCast_self, shapeCast_self, coe_fintype_sum_mul]
  exact Finset.sum_congr rfl fun p _ => by rw [cast_flat_apply, hg, hw]

theorem edgeTerm_apply (he : ∀ q t, v15 (ix2 q t) = ((B.e q t : ℝ) : EReal)) (hw : ∀ q k, v17 (ix2 q k) = ((B.we q k : ℝ) : EReal))
    (t : Fin 12800) (k : Fin 256) :
    edgeTerm v15 v17 (ix2 t k) = ((∑ q, B.e q t * B.we q k : ℝ) : EReal) := by
  unfold edgeTerm
  rw [matmul_tn_apply, shapeCast_self, shapeCast_self, coe_fintype_sum_mul]
  exact Finset.sum_congr rfl fun q _ => by rw [he, hw]

theorem statsX_apply (H : Holds B v0 v1 v4 v8 v11 v15 v17) (r : Fin 400) (j : Fin 32) (k : Fin 256) :
    statsX v0 v1 v4 v8 v11 v15 v17 (ix3 r j k) = ((B.X r j k : ℝ) : EReal) := by
  unfold statsX Blocks.X
  rw [addf_apply, addf_apply, bcast_nbr_apply, cast_unit_apply, cast_unflat_apply, cast_unflat_apply,
    selfTerm_apply H.a H.ws H.b, nbrTerm_apply H.g H.wn, edgeTerm_apply H.e H.we]
  simp only [EReal.coe_add]

theorem statsSum_apply (H : Holds B v0 v1 v4 v8 v11 v15 v17) (k : Fin 256) :
    statsSum v0 v1 v4 v8 v11 v15 v17 (ix2 (0 : Fin 1) k) = ((B.sumX k : ℝ) : EReal) := by
  unfold statsSum Blocks.sumX
  rw [shapeCast_a_1a_apply]
  refine (reduce01_apply _ _ _ _ k).trans ?_
  rw [coe_fintype_sum]
  refine Finset.sum_congr rfl fun r _ => ?_
  rw [coe_fintype_sum]
  exact Finset.sum_congr rfl fun j _ => statsX_apply H r j k

theorem statsSq_apply (H : Holds B v0 v1 v4 v8 v11 v15 v17) (k : Fin 256) :
    statsSq v0 v1 v4 v8 v11 v15 v17 (ix2 (0 : Fin 1) k) = ((B.sumSq k : ℝ) : EReal) := by
  unfold statsSq Blocks.sumSq
  rw [shapeCast_a_1a_apply]
  refine (reduce01_apply _ _ _ _ k).trans ?_
  rw [coe_fintype_sum]
  refine Finset.sum_congr rfl fun r _ => ?_
  rw [coe_fintype_sum]
  exact Finset.sum_congr rfl fun j _ => by rw [mulf_apply, statsX_apply H r j k, EReal.coe_mul]

end Values

theorem statsAcc_apply (s acc : FVec Ideal Sb .f32) (k : Fin 256) (x y : ℝ) (hs : s (ix2 (0 : Fin 1) k) = ((x : ℝ) : EReal))
    (hacc : acc (ix2 (0 : Fin 1) k) = ((y : ℝ) : EReal)) : statsAcc s acc (ix2 (0 : Fin 1) k) = ((y + x : ℝ) : EReal) := by
  unfold statsAcc
  rw [addf_apply, shapeCast_self, hs, hacc, EReal.coe_add]

theorem statsZero_apply (j : Sb.Idx) : statsZero j = ((0 : ℝ) : EReal) := by
  unfold statsZero
  rw [broadcast_apply]
  exact ofBits_zero_f32

theorem fold_apply (N : ℕ) (acc s : (n : ℕ) → n < N → FVec Ideal Sb .f32) (x : ℕ → Fin 256 → ℝ)
    (hs : ∀ n h k, s n h (ix2 (0 : Fin 1) k) = ((x n k : ℝ) : EReal))
    (h0 : ∀ h, acc 0 h = statsAcc (s 0 h) statsZero)
    (hstep : ∀ n h, acc (n + 1) h = statsAcc (s (n + 1) h) (acc n (Nat.lt_of_succ_lt h))) :
    ∀ n h k, acc n h (ix2 (0 : Fin 1) k) = ((∑ i ∈ Finset.range (n + 1), x i k : ℝ) : EReal) := by
  intro n
  induction n with
  | zero =>
    intro h k
    rw [h0 h, statsAcc_apply _ _ k (x 0 k) 0 (hs 0 h k) (statsZero_apply _), Finset.sum_range_one, zero_add]
  | succ n ih =>
    intro h k
    rw [hstep n h, statsAcc_apply _ _ k (x (n + 1) k) _ (hs (n + 1) h k) (ih (Nat.lt_of_succ_lt h) k), Finset.sum_range_succ _ (n + 1)]

end Cert.Proof.KI.ValStatsLib

end
-- ==== Proof.KI.ValStats.lean ====
import proofs.«202994_g19078244729258_cont_8to1_1405_21_alg».proof.Proof.Gen.KernelIdeal
import proofs.«202994_g19078244729258_cont_8to1_1405_21_alg».proof.Proof.Gen.KernelIdeal.Skeleton
import proofs.«202994_g19078244729258_cont_8to1_1405_21_alg».proof.Proof.KI.ValStatsLib

noncomputable section

namespace Cert.Proof.KI.ValStats

open Cert.KernelIdeal Cert.KernelIdeal.Gen
open Idealize.ShloMosaic Idealize.ShloMosaic.ValueIdx
open scoped BigOperators
open Cert.Proof.KI.ValStatsLib (Blocks Holds statsX statsSum statsSq statsAcc statsZero)

section Terms

variable (v0 : Vec Ideal S400x128 .f32) (v1 : Vec Ideal S128x256 .f32) (v4 : Vec Ideal S1x256 .f32) (v8 : Vec Ideal S400x32x128 .f32)
  (v11 : Vec Ideal S128x256 .f32) (v15 : Vec Ideal S16x12800 .f32) (v17 : Vec Ideal S16x256 .f32)

theorem k2_pay4_eq : k2_pay4 (F := Ideal) v0 v1 v4 v8 v11 v15 v17 = statsSum v0 v1 v4 v8 v11 v15 v17 := rfl
theorem k2_pay5_eq : k2_pay5 (F := Ideal) v0 v1 v4 v8 v11 v15 v17 = statsSq v0 v1 v4 v8 v11 v15 v17 := rfl

end Terms

section Point

variable {B : Blocks} {v0 : Vec Ideal S400x128 .f32} {v1 : Vec Ideal S128x256 .f32} {v4 : Vec Ideal S1x256 .f32}
  {v8 : Vec Ideal S400x32x128 .f32} {v11 : Vec Ideal S128x256 .f32} {v15 : Vec Ideal S16x12800 .f32} {v17 : Vec Ideal S16x256 .f32}

theorem k2_pay4_apply (H : Holds B v0 v1 v4 v8 v11 v15 v17) (k : Fin 256) :
    k2_pay4 (F := Ideal) v0 v1 v4 v8 v11 v15 v17 (ix2 (0 : Fin 1) k) = ((B.sumX k : ℝ) : EReal) :=
  (congrFun (k2_pay4_eq v0 v1 v4 v8 v11 v15 v17) _).trans (ValStatsLib.statsSum_apply H k)

theorem k2_pay5_apply (H : Holds B v0 v1 v4 v8 v11 v15 v17) (k : Fin 256) :
    k2_pay5 (F := Ideal) v0 v1 v4 v8 v11 v15 v17 (ix2 (0 : Fin 1) k) = ((B.sumSq k : ℝ) : EReal) :=
  (congrFun (k2_pay5_eq v0 v1 v4 v8 v11 v15 v17) _).trans (ValStatsLib.statsSq_apply H k)

end Point

theorem sum_fold_apply (N : ℕ) (acc s : (n : ℕ) → n < N → Vec Ideal S1x256 .f32) (x : ℕ → Fin 256 → ℝ)
    (hs : ∀ n h k, s n h (ix2 (0 : Fin 1) k) = ((x n k : ℝ) : EReal))
    (h0 : ∀ h, acc 0 h = k2_pay1 (F := Ideal) (s 0 h) (k2_pay6 (F := Ideal)))
    (hstep : ∀ n h, acc (n + 1) h = k2_pay1 (F := Ideal) (s (n + 1) h) (acc n (Nat.lt_of_succ_lt h)))
    (n : ℕ) (h : n < N) (k : Fin 256) :
    acc n h (ix2 (0 : Fin 1) k) = ((∑ i ∈ Finset.range (n + 1), x i k : ℝ) : EReal) :=
  ValStatsLib.fold_apply N acc s x hs h0 hstep n h k

theorem sq_fold_apply (N : ℕ) (acc s : (n : ℕ) → n < N → Vec Ideal S1x256 .f32) (x : ℕ → Fin 256 → ℝ)
    (hs : ∀ n h k, s n h (ix2 (0 : Fin 1) k) = ((x n k : ℝ) : EReal))
    (h0 : ∀ h, acc 0 h = k2_pay2 (F := Ideal) (s 0 h) (k2_pay7 (F := Ideal)))
    (hstep : ∀ n h, acc (n + 1) h = k2_pay2 (F := Ideal) (s (n + 1) h) (acc n (Nat.lt_of_succ_lt h)))
    (n : ℕ) (h : n < N) (k : Fin 256) :
    acc n h (ix2 (0 : Fin 1) k) = ((∑ i ∈ Finset.range (n + 1), x i k : ℝ) : EReal) :=
  ValStatsLib.fold_apply N acc s x hs h0 hstep n h k

end Cert.Proof.KI.ValStats

end
-- ==== Proof.KI.KerValueStats.lean ====
import proofs.«202994_g19078244729258_cont_8to1_1405_21_alg».proof.Proof.KI.Region2
import proofs.«202994_g19078244729258_cont_8to1_1405_21_alg».proof.Proof.KI.ValStats
import proofs.«202994_g19078244729258_cont_8to1_1405_21_alg».proof.Proof.Spec
import Idealize.ShloMosaic.Lib.Pipeline.Value
import Idealize.ShloMosaic.Lib.ValueIdx

noncomputable section

namespace Cert.Proof.KI.R2

open Cert.KernelIdeal Cert.KernelIdeal.Gen Cert.Proof.KI
open Idealize.ShloMosaic Idealize.ShloMosaic.ValueIdx
open Idealize.ShloMosaic.Pipeline (RDat Cfg Window)
open Cert.Spec
open Cert.Proof.KI.ValStatsLib (Blocks Holds rj)
open scoped BigOperators

variable {F : FTy → Type} [FloatOps F] [∀ e, Nonempty (Elt F e)]

def arrs (W : Valuation τ sig (Elt F)) (c : Dev nD) : Arrs (F := F) c :=
  fun w => W (Proc.devRef .tc (Pipeline.arrRef cfg2.spec w))

theorem idx_0 : ∀ (t : Fin cfg2.N) (a : Fin 2), (cfg2.win 0).index t a = ![t.val + 0, 0] a :=
  (by decide +kernel : ∀ (t : Fin grid2.N) (a : Fin 2), cc2_transform_0 (grid2.coords t) a = ![t.val + 0, 0] a)
theorem idx_1 : ∀ (t : Fin cfg2.N) (a : Fin 3), (cfg2.win 1).index t a = ![t.val, 0, 0] a :=
  (by decide +kernel : ∀ (t : Fin grid2.N) (a : Fin 3), cc2_transform_1 (grid2.coords t) a = ![t.val, 0, 0] a)
theorem idx_2 : ∀ (t : Fin cfg2.N) (a : Fin 2), (cfg2.win 2).index t a = ![0, t.val + 0] a :=
  (by decide +kernel : ∀ (t : Fin grid2.N) (a : Fin 2), cc2_transform_2 (grid2.coords t) a = ![0, t.val + 0] a)
theorem idx_3 : ∀ (t : Fin cfg2.N) (a : Fin 2), (cfg2.win 3).index t a = ![0, 0] a :=
  (by decide +kernel : ∀ (t : Fin grid2.N) (a : Fin 2), cc2_transform_3 (grid2.coords t) a = ![0, 0] a)
theorem idx_4 : ∀ (t : Fin cfg2.N) (a : Fin 2), (cfg2.win 4).index t a = ![0, 0] a :=
  (by decide +kernel : ∀ (t : Fin grid2.N) (a : Fin 2), cc2_transform_4 (grid2.coords t) a = ![0, 0] a)
theorem idx_5 : ∀ (t : Fin cfg2.N) (a : Fin 2), (cfg2.win 5).index t a = ![0, 0] a :=
  (by decide +kernel : ∀ (t : Fin grid2.N) (a : Fin 2), cc2_transform_5 (grid2.coords t) a = ![0, 0] a)
theorem idx_6 : ∀ (t : Fin cfg2.N) (a : Fin 2), (cfg2.win 6).index t a = ![0, 0] a :=
  (by decide +kernel : ∀ (t : Fin grid2.N) (a : Fin 2), cc2_transform_6 (grid2.coords t) a = ![0, 0] a)

theorem inBlk_0 (W : Valuation τ sig (Elt F)) (c : Dev nD) (t : Fin cfg2.N) (r : Fin 400) (p : Fin 128)
    (h : 400 * (t.val + 0) + r.val < 10000) :
    (inBlk (arrs W) c 0 t : S400x128.Idx → Elt F .f32) (ix2 r p)
      = (W (Proc.devRef .tc main_arg0) : S10000x128.Idx → Elt F .f32) (ix2 ⟨400 * (t.val + 0) + r.val, h⟩ p) := by
  have hm : (cfg2.win 0).moved (cfg2.grid.coords t) (ix2 r p : S400x128.Idx) = true :=
    ((cfg2.win 0).moved_iff _ _).mpr fun a => ((ix2 r p : S400x128.Idx) a).isLt
  unfold inBlk Window.fill
  rw [dif_pos hm]
  show (W (Proc.devRef .tc main_arg0) : S10000x128.Idx → Elt F .f32) (((cfg2.win 0).rect t).emb _) = _
  refine congrArg _ ?_
  funext a; apply Fin.ext
  rw [Window.rect_emb_val]
  revert a
  show ∀ a : Fin 2, (cfg2.win 0).index t a * (cfg2.win 0).size a + ((ix2 r p : S400x128.Idx) a).val
    = ((ix2 (⟨400 * (t.val + 0) + r.val, h⟩ : Fin 10000) p : S10000x128.Idx) a).val
  intro a; rw [idx_0 t a]
  fin_cases a
  · show (t.val + 0) * 400 + r.val = 400 * (t.val + 0) + r.val
    omega
  · show 0 * 128 + p.val = p.val
    omega

theorem inBlk_1 (W : Valuation τ sig (Elt F)) (c : Dev nD) (t : Fin cfg2.N) (r : Fin 400) (j : Fin 32) (p : Fin 128)
    (h : 400 * t.val + r.val < 4800) :
    (inBlk (arrs W) c 1 t : S400x32x128.Idx → Elt F .f32) (ix3 r j p)
      = (W (Proc.devRef .tc main_v9) : S4800x32x128.Idx → Elt F .f32) (ix3 ⟨400 * t.val + r.val, h⟩ j p) := by
  have hm : (cfg2.win 1).moved (cfg2.grid.coords t) (ix3 r j p : S400x32x128.Idx) = true :=
    ((cfg2.win 1).moved_iff _ _).mpr fun a => ((ix3 r j p : S400x32x128.Idx) a).isLt
  unfold inBlk Window.fill
  rw [dif_pos hm]
  show (W (Proc.devRef .tc main_v9) : S4800x32x128.Idx → Elt F .f32) (((cfg2.win 1).rect t).emb _) = _
  refine congrArg _ ?_
  funext a; apply Fin.ext
  rw [Window.rect_emb_val]
  revert a
  show ∀ a : Fin 3, (cfg2.win 1).index t a * (cfg2.win 1).size a + ((ix3 r j p : S400x32x128.Idx) a).val
    = ((ix3 (⟨400 * t.val + r.val, h⟩ : Fin 4800) j p : S4800x32x128.Idx) a).val
  intro a; rw [idx_1 t a]
  fin_cases a
  · show t.val * 400 + r.val = 400 * t.val + r.val
    omega
  · show 0 * 32 + j.val = j.val
    omega
  · show 0 * 128 + p.val = p.val
    omega

theorem inBlk_2 (W : Valuation τ sig (Elt F)) (c : Dev nD) (t : Fin cfg2.N) (q : Fin 16) (s : Fin 12800)
    (h : 12800 * (t.val + 0) + s.val < 320000) :
    (inBlk (arrs W) c 2 t : S16x12800.Idx → Elt F .f32) (ix2 q s)
      = (W (Proc.devRef .tc main_v12) : S16x320000.Idx → Elt F .f32) (ix2 q ⟨12800 * (t.val + 0) + s.val, h⟩) := by
  have hm : (cfg2.win 2).moved (cfg2.grid.coords t) (ix2 q s : S16x12800.Idx) = true :=
    ((cfg2.win 2).moved_iff _ _).mpr fun a => ((ix2 q s : S16x12800.Idx) a).isLt
  unfold inBlk Window.fill
  rw [dif_pos hm]
  show (W (Proc.devRef .tc main_v12) : S16x320000.Idx → Elt F .f32) (((cfg2.win 2).rect t).emb _) = _
  refine congrArg _ ?_
  funext a; apply Fin.ext
  rw [Window.rect_emb_val]
  revert a
  show ∀ a : Fin 2, (cfg2.win 2).index t a * (cfg2.win 2).size a + ((ix2 q s : S16x12800.Idx) a).val
    = ((ix2 q (⟨12800 * (t.val + 0) + s.val, h⟩ : Fin 320000) : S16x320000.Idx) a).val
  intro a; rw [idx_2 t a]
  fin_cases a
  · show 0 * 16 + q.val = q.val
    omega
  · show (t.val + 0) * 12800 + s.val = 12800 * (t.val + 0) + s.val
    omega

theorem inBlk_3 (W : Valuation τ sig (Elt F)) (c : Dev nD) (t : Fin cfg2.N) (p : Fin 128) (k : Fin 256) :
    (inBlk (arrs W) c 3 t : S128x256.Idx → Elt F .f32) (ix2 p k)
      = (W (Proc.devRef .tc main_v0) : S128x256.Idx → Elt F .f32) (ix2 p k) := by
  have hm : (cfg2.win 3).moved (cfg2.grid.coords t) (ix2 p k : S128x256.Idx) = true :=
    ((cfg2.win 3).moved_iff _ _).mpr fun a => ((ix2 p k : S128x256.Idx) a).isLt
  unfold inBlk Window.fill
  rw [dif_pos hm]
  show (W (Proc.devRef .tc main_v0) : S128x256.Idx → Elt F .f32) (((cfg2.win 3).rect t).emb _) = _
  refine congrArg _ ?_
  funext a; apply Fin.ext
  rw [Window.rect_emb_val]
  revert a
  show ∀ a : Fin 2, (cfg2.win 3).index t a * (cfg2.win 3).size a + ((ix2 p k : S128x256.Idx) a).val
    = ((ix2 p k : S128x256.Idx) a).val
  intro a; rw [idx_3 t a]
  fin_cases a
  · show 0 * 128 + p.val = p.val
    omega
  · show 0 * 256 + k.val = k.val
    omega

theorem inBlk_4 (W : Valuation τ sig (Elt F)) (c : Dev nD) (t : Fin cfg2.N) (p : Fin 128) (k : Fin 256) :
    (inBlk (arrs W) c 4 t : S128x256.Idx → Elt F .f32) (ix2 p k)
      = (W (Proc.devRef .tc main_v1) : S128x256.Idx → Elt F .f32) (ix2 p k) := by
  have hm : (cfg2.win 4).moved (cfg2.grid.coords t) (ix2 p k : S128x256.Idx) = true :=
    ((cfg2.win 4).moved_iff _ _).mpr fun a => ((ix2 p k : S128x256.Idx) a).isLt
  unfold inBlk Window.fill
  rw [dif_pos hm]
  show (W (Proc.devRef .tc main_v1) : S128x256.Idx → Elt F .f32) (((cfg2.win 4).rect t).emb _) = _
  refine congrArg _ ?_
  funext a; apply Fin.ext
  rw [Window.rect_emb_val]
  revert a
  show ∀ a : Fin 2, (cfg2.win 4).index t a * (cfg2.win 4).size a + ((ix2 p k : S128x256.Idx) a).val
    = ((ix2 p k : S128x256.Idx) a).val
  intro a; rw [idx_4 t a]
  fin_cases a
  · show 0 * 128 + p.val = p.val
    omega
  · show 0 * 256 + k.val = k.val
    omega

theorem inBlk_5 (W : Valuation τ sig (Elt F)) (c : Dev nD) (t : Fin cfg2.N) (q : Fin 16) (k : Fin 256) :
    (inBlk (arrs W) c 5 t : S16x256.Idx → Elt F .f32) (ix2 q k)
      = (W (Proc.devRef .tc main_v2) : S16x256.Idx → Elt F .f32) (ix2 q k) := by
  have hm : (cfg2.win 5).moved (cfg2.grid.coords t) (ix2 q k : S16x256.Idx) = true :=
    ((cfg2.win 5).moved_iff _ _).mpr fun a => ((ix2 q k : S16x256.Idx) a).isLt
  unfold inBlk Window.fill
  rw [dif_pos hm]
  show (W (Proc.devRef .tc main_v2) : S16x256.Idx → Elt F .f32) (((cfg2.win 5).rect t).emb _) = _
  refine congrArg _ ?_
  funext a; apply Fin.ext
  rw [Window.rect_emb_val]
  revert a
  show ∀ a : Fin 2, (cfg2.win 5).index t a * (cfg2.win 5).size a + ((ix2 q k : S16x256.Idx) a).val
    = ((ix2 q k : S16x256.Idx) a).val
  intro a; rw [idx_5 t a]
  fin_cases a
  · show 0 * 16 + q.val = q.val
    omega
  · show 0 * 256 + k.val = k.val
    omega

theorem inBlk_6 (W : Valuation τ sig (Elt F)) (c : Dev nD) (t : Fin cfg2.N) (u : Fin 1) (k : Fin 256) :
    (inBlk (arrs W) c 6 t : S1x256.Idx → Elt F .f32) (ix2 u k)
      = (W (Proc.devRef .tc main_v3) : S1x256.Idx → Elt F .f32) (ix2 u k) := by
  have hm : (cfg2.win 6).moved (cfg2.grid.coords t) (ix2 u k : S1x256.Idx) = true :=
    ((cfg2.win 6).moved_iff _ _).mpr fun a => ((ix2 u k : S1x256.Idx) a).isLt
  unfold inBlk Window.fill
  rw [dif_pos hm]
  show (W (Proc.devRef .tc main_v3) : S1x256.Idx → Elt F .f32) (((cfg2.win 6).rect t).emb _) = _
  refine congrArg _ ?_
  funext a; apply Fin.ext
  rw [Window.rect_emb_val]
  revert a
  show ∀ a : Fin 2, (cfg2.win 6).index t a * (cfg2.win 6).size a + ((ix2 u k : S1x256.Idx) a).val
    = ((ix2 u k : S1x256.Idx) a).val
  intro a; rw [idx_6 t a]
  fin_cases a
  · show 0 * 1 + u.val = u.val
    omega
  · show 0 * 256 + k.val = k.val
    omega

section Value

variable (I : Inputs)

def rowAtom (r : Fin 4800) : Fin 10000 := ⟨r.val, by omega⟩

structure Layout (W : Valuation τ sig (Elt Ideal)) : Prop where
  atom : ∀ (n : Fin 10000) (p : Fin 128), (W (Proc.devRef .tc main_arg0) : S10000x128.Idx → EReal) (ix2 n p) = ((I.a n p : ℝ) : EReal)
  g : ∀ (r : Fin 4800) (j : Fin 32) (p : Fin 128), (W (Proc.devRef .tc main_v9) : S4800x32x128.Idx → EReal) (ix3 r j p) = ((I.a (I.idx (rowAtom r) j) p : ℝ) : EReal)
  eT : ∀ (q : Fin 16) (n : Fin 10000) (j : Fin 32), (W (Proc.devRef .tc main_v12) : S16x320000.Idx → EReal) (ix2 q (⟨32 * n.val + j.val, by omega⟩ : Fin 320000)) = ((I.e n j q : ℝ) : EReal)
  ws : ∀ (p : Fin 128) (k : Fin 256), (W (Proc.devRef .tc main_v0) : S128x256.Idx → EReal) (ix2 p k) = ((I.W (iSelf p) k : ℝ) : EReal)
  wn : ∀ (p : Fin 128) (k : Fin 256), (W (Proc.devRef .tc main_v1) : S128x256.Idx → EReal) (ix2 p k) = ((I.W (iNbr p) k : ℝ) : EReal)
  we : ∀ (q : Fin 16) (k : Fin 256), (W (Proc.devRef .tc main_v2) : S16x256.Idx → EReal) (ix2 q k) = ((I.W (iEdge q) k : ℝ) : EReal)
  bias : ∀ k : Fin 256, (W (Proc.devRef .tc main_v3) : S1x256.Idx → EReal) (ix2 (0 : Fin 1) k) = ((I.b k : ℝ) : EReal)

def colRow (s : Fin 12800) : Fin 400 := ⟨s.val / 32, by omega⟩
def colNbr (s : Fin 12800) : Fin 32 := ⟨s.val % 32, Nat.mod_lt _ (by decide)⟩
theorem colRow_rj (r : Fin 400) (j : Fin 32) : colRow (rj r j) = r := Fin.ext (by show (32 * r.val + j.val) / 32 = r.val; omega)
theorem colNbr_rj (r : Fin 400) (j : Fin 32) : colNbr (rj r j) = j := Fin.ext (by show (32 * r.val + j.val) % 32 = j.val; omega)

def blocks (t : Fin 12) : Blocks where
  a r p := I.a (blkA t r) p
  g r j p := I.a (I.idx (blkA t r) j) p
  e q s := I.e (blkA t (colRow s)) (colNbr s) q
  ws p k := I.W (iSelf p) k
  wn p k := I.W (iNbr p) k
  we q k := I.W (iEdge q) k
  b k := I.b k

theorem blocks_X (t : Fin 12) (r : Fin 400) (j : Fin 32) (k : Fin 256) : (blocks I t).X r j k = kerX I (blkA t r) j k := by
  have he : ∀ q, (blocks I t).e q (rj r j) = I.e (blkA t r) j q := fun q => by
    show I.e (blkA t (colRow (rj r j))) (colNbr (rj r j)) q = _
    rw [colRow_rj, colNbr_rj]
  unfold Blocks.X kerX
  simp only [he]
  rfl

theorem ltN (t : Fin cfg2.N) : t.val < 12 := lt_of_lt_of_eq t.isLt N_2

variable (W : Valuation τ sig (Elt Ideal)) (d : Dev nD)

theorem holds (hL : Layout I W) (t : Fin cfg2.N) :
    Holds (blocks I ⟨t.val, ltN t⟩) (inBlk (arrs W) d 0 t) (inBlk (arrs W) d 3 t) (inBlk (arrs W) d 6 t) (inBlk (arrs W) d 1 t)
      (inBlk (arrs W) d 4 t) (inBlk (arrs W) d 2 t) (inBlk (arrs W) d 5 t) where
  a r p := by
    have ht := ltN t
    have h : 400 * (t.val + 0) + r.val < 10000 := by omega
    refine (inBlk_0 W d t r p h).trans ((hL.atom ⟨400 * (t.val + 0) + r.val, h⟩ p).trans ?_)
    exact congrArg (fun n => ((I.a n p : ℝ) : EReal)) (Fin.ext (by unfold blkA; dsimp only; omega))
  ws p k := (inBlk_3 W d t p k).trans (hL.ws p k)
  b k := (inBlk_6 W d t (0 : Fin 1) k).trans (hL.bias k)
  g r j p := by
    have ht := ltN t
    have h : 400 * t.val + r.val < 4800 := by omega
    refine (inBlk_1 W d t r j p h).trans ((hL.g ⟨400 * t.val + r.val, h⟩ j p).trans ?_)
    exact congrArg (fun n => ((I.a (I.idx n j) p : ℝ) : EReal)) (Fin.ext (by unfold rowAtom blkA; first | rfl | (dsimp only; omega)))
  wn p k := (inBlk_4 W d t p k).trans (hL.wn p k)
  e q s := by
    have ht := ltN t
    have h : 12800 * (t.val + 0) + s.val < 320000 := by omega
    have e : (⟨12800 * (t.val + 0) + s.val, h⟩ : Fin 320000)
        = ⟨32 * (blkA ⟨t.val, ht⟩ (colRow s)).val + (colNbr s).val, by omega⟩ :=
      Fin.ext (by unfold blkA colRow colNbr; dsimp only; omega)
    refine (inBlk_2 W d t q s h).trans ?_
    rw [e]
    exact hL.eT q (blkA ⟨t.val, ht⟩ (colRow s)) (colNbr s)
  we q k := (inBlk_5 W d t q k).trans (hL.we q k)

def colSum (n : ℕ) (k : Fin 256) : ℝ := if h : n < 12 then ∑ r : Fin 400, ∑ j : Fin 32, kerX I (blkA ⟨n, h⟩ r) j k else 0
def colSq (n : ℕ) (k : Fin 256) : ℝ :=
  if h : n < 12 then ∑ r : Fin 400, ∑ j : Fin 32, kerX I (blkA ⟨n, h⟩ r) j k * kerX I (blkA ⟨n, h⟩ r) j k else 0

theorem paySum_apply (hL : Layout I W) (n : ℕ) (h : n < cfg2.N) (k : Fin 256) :
    paySum (arrs W) d ⟨n, h⟩ (ix2 (0 : Fin 1) k) = ((colSum I n k : ℝ) : EReal) := by
  unfold paySum
  rw [ValStats.k2_pay4_apply (holds I W d hL ⟨n, h⟩) k]
  unfold colSum Blocks.sumX
  rw [dif_pos (ltN ⟨n, h⟩)]
  simp only [blocks_X]

theorem paySq_apply (hL : Layout I W) (n : ℕ) (h : n < cfg2.N) (k : Fin 256) :
    paySq (arrs W) d ⟨n, h⟩ (ix2 (0 : Fin 1) k) = ((colSq I n k : ℝ) : EReal) := by
  unfold paySq
  rw [ValStats.k2_pay5_apply (holds I W d hL ⟨n, h⟩) k]
  unfold colSq Blocks.sumSq
  rw [dif_pos (ltN ⟨n, h⟩)]
  simp only [blocks_X]

theorem sumAt_zero (A : (c : Dev nD) → Arrs (F := F) c) (c : Dev nD) (h : 0 < cfg2.N) :
    sumAt A c 0 h = k2_pay1 (paySum A c ⟨0, h⟩) (k2_pay6 (F := F)) := by
  show stepSum A c ⟨0, h⟩ (k2_pay6 (F := F)) = _
  unfold stepSum
  rw [if_pos (show (⟨0, h⟩ : Fin cfg2.N).val = 0 from rfl)]
theorem sumAt_succ (A : (c : Dev nD) → Arrs (F := F) c) (c : Dev nD) (n : ℕ) (h : n + 1 < cfg2.N) :
    sumAt A c (n + 1) h = k2_pay1 (paySum A c ⟨n + 1, h⟩) (sumAt A c n (Nat.lt_of_succ_lt h)) := by
  show stepSum A c ⟨n + 1, h⟩ (sumAt A c n (Nat.lt_of_succ_lt h)) = _
  unfold stepSum
  rw [if_neg (show ¬(⟨n + 1, h⟩ : Fin cfg2.N).val = 0 from Nat.succ_ne_zero n)]
theorem sqAt_zero (A : (c : Dev nD) → Arrs (F := F) c) (c : Dev nD) (h : 0 < cfg2.N) :
    sqAt A c 0 h = k2_pay2 (paySq A c ⟨0, h⟩) (k2_pay7 (F := F)) := by
  show stepSq A c ⟨0, h⟩ (k2_pay7 (F := F)) = _
  unfold stepSq
  rw [if_pos (show (⟨0, h⟩ : Fin cfg2.N).val = 0 from rfl)]
theorem sqAt_succ (A : (c : Dev nD) → Arrs (F := F) c) (c : Dev nD) (n : ℕ) (h : n + 1 < cfg2.N) :
    sqAt A c (n + 1) h = k2_pay2 (paySq A c ⟨n + 1, h⟩) (sqAt A c n (Nat.lt_of_succ_lt h)) := by
  show stepSq A c ⟨n + 1, h⟩ (sqAt A c n (Nat.lt_of_succ_lt h)) = _
  unfold stepSq
  rw [if_neg (show ¬(⟨n + 1, h⟩ : Fin cfg2.N).val = 0 from Nat.succ_ne_zero n)]

theorem sumAt_value (hL : Layout I W) (k : Fin 256) :
    (sumAt (arrs W) d 11 (by decide) : S1x256.Idx → EReal) (ix2 (0 : Fin 1) k)
      = ((∑ i : Fin 12, ∑ r : Fin 400, ∑ j : Fin 32, kerX I (blkA i r) j k : ℝ) : EReal) := by
  rw [ValStats.sum_fold_apply cfg2.N (sumAt (arrs W) d) (fun n h => paySum (arrs W) d ⟨n, h⟩) (colSum I)
    (fun n h k => paySum_apply I W d hL n h k) (fun h => sumAt_zero (arrs W) d h) (fun n h => sumAt_succ (arrs W) d n h)
    11 (by decide) k, Finset.sum_range]
  refine congrArg (fun x : ℝ => (x : EReal)) (Finset.sum_congr rfl fun i _ => ?_)
  unfold colSum
  rw [dif_pos i.isLt]

theorem sqAt_value (hL : Layout I W) (k : Fin 256) :
    (sqAt (arrs W) d 11 (by decide) : S1x256.Idx → EReal) (ix2 (0 : Fin 1) k)
      = ((∑ i : Fin 12, ∑ r : Fin 400, ∑ j : Fin 32, kerX I (blkA i r) j k * kerX I (blkA i r) j k : ℝ) : EReal) := by
  rw [ValStats.sq_fold_apply cfg2.N (sqAt (arrs W) d) (fun n h => paySq (arrs W) d ⟨n, h⟩) (colSq I)
    (fun n h k => paySq_apply I W d hL n h k) (fun h => sqAt_zero (arrs W) d h) (fun n h => sqAt_succ (arrs W) d n h)
    11 (by decide) k, Finset.sum_range]
  refine congrArg (fun x : ℝ => (x : EReal)) (Finset.sum_congr rfl fun i _ => ?_)
  unfold colSq
  rw [dif_pos i.isLt]

end Value

end Cert.Proof.KI.R2

end
-- ==== Proof.KI.ValStats3.lean ====
import proofs.«202994_g19078244729258_cont_8to1_1405_21_alg».proof.Proof.Gen.KernelIdeal
import proofs.«202994_g19078244729258_cont_8to1_1405_21_alg».proof.Proof.Gen.KernelIdeal.Skeleton
import proofs.«202994_g19078244729258_cont_8to1_1405_21_alg».proof.Proof.KI.ValStatsLib

noncomputable section

namespace Cert.Proof.KI.ValStats3

open Cert.KernelIdeal Cert.KernelIdeal.Gen
open Idealize.ShloMosaic Idealize.ShloMosaic.ValueIdx
open scoped BigOperators
open Cert.Proof.KI.ValStatsLib (Blocks Holds statsX statsSum statsSq statsAcc statsZero)

section Terms

variable (v0 : Vec Ideal S400x128 .f32) (v1 : Vec Ideal S128x256 .f32) (v4 : Vec Ideal S1x256 .f32) (v8 : Vec Ideal S400x32x128 .f32)
  (v11 : Vec Ideal S128x256 .f32) (v15 : Vec Ideal S16x12800 .f32) (v17 : Vec Ideal S16x256 .f32)

theorem k3_pay4_eq : k3_pay4 (F := Ideal) v0 v1 v4 v8 v11 v15 v17 = statsSum v0 v1 v4 v8 v11 v15 v17 := rfl
theorem k3_pay5_eq : k3_pay5 (F := Ideal) v0 v1 v4 v8 v11 v15 v17 = statsSq v0 v1 v4 v8 v11 v15 v17 := rfl

end Terms

section Point

variable {B : Blocks} {v0 : Vec Ideal S400x128 .f32} {v1 : Vec Ideal S128x256 .f32} {v4 : Vec Ideal S1x256 .f32}
  {v8 : Vec Ideal S400x32x128 .f32} {v11 : Vec Ideal S128x256 .f32} {v15 : Vec Ideal S16x12800 .f32} {v17 : Vec Ideal S16x256 .f32}

theorem k3_pay4_apply (H : Holds B v0 v1 v4 v8 v11 v15 v17) (k : Fin 256) :
    k3_pay4 (F := Ideal) v0 v1 v4 v8 v11 v15 v17 (ix2 (0 : Fin 1) k) = ((B.sumX k : ℝ) : EReal) :=
  (congrFun (k3_pay4_eq v0 v1 v4 v8 v11 v15 v17) _).trans (ValStatsLib.statsSum_apply H k)

theorem k3_pay5_apply (H : Holds B v0 v1 v4 v8 v11 v15 v17) (k : Fin 256) :
    k3_pay5 (F := Ideal) v0 v1 v4 v8 v11 v15 v17 (ix2 (0 : Fin 1) k) = ((B.sumSq k : ℝ) : EReal) :=
  (congrFun (k3_pay5_eq v0 v1 v4 v8 v11 v15 v17) _).trans (ValStatsLib.statsSq_apply H k)

end Point

theorem sum_fold_apply (N : ℕ) (acc s : (n : ℕ) → n < N → Vec Ideal S1x256 .f32) (x : ℕ → Fin 256 → ℝ)
    (hs : ∀ n h k, s n h (ix2 (0 : Fin 1) k) = ((x n k : ℝ) : EReal))
    (h0 : ∀ h, acc 0 h = k3_pay1 (F := Ideal) (s 0 h) (k3_pay6 (F := Ideal)))
    (hstep : ∀ n h, acc (n + 1) h = k3_pay1 (F := Ideal) (s (n + 1) h) (acc n (Nat.lt_of_succ_lt h)))
    (n : ℕ) (h : n < N) (k : Fin 256) :
    acc n h (ix2 (0 : Fin 1) k) = ((∑ i ∈ Finset.range (n + 1), x i k : ℝ) : EReal) :=
  ValStatsLib.fold_apply N acc s x hs h0 hstep n h k

theorem sq_fold_apply (N : ℕ) (acc s : (n : ℕ) → n < N → Vec Ideal S1x256 .f32) (x : ℕ → Fin 256 → ℝ)
    (hs : ∀ n h k, s n h (ix2 (0 : Fin 1) k) = ((x n k : ℝ) : EReal))
    (h0 : ∀ h, acc 0 h = k3_pay2 (F := Ideal) (s 0 h) (k3_pay7 (F := Ideal)))
    (hstep : ∀ n h, acc (n + 1) h = k3_pay2 (F := Ideal) (s (n + 1) h) (acc n (Nat.lt_of_succ_lt h)))
    (n : ℕ) (h : n < N) (k : Fin 256) :
    acc n h (ix2 (0 : Fin 1) k) = ((∑ i ∈ Finset.range (n + 1), x i k : ℝ) : EReal) :=
  ValStatsLib.fold_apply N acc s x hs h0 hstep n h k

end Cert.Proof.KI.ValStats3

end
-- ==== Proof.KI.KerValueStatsB.lean ====
import proofs.«202994_g19078244729258_cont_8to1_1405_21_alg».proof.Proof.KI.Region3
import proofs.«202994_g19078244729258_cont_8to1_1405_21_alg».proof.Proof.KI.ValStats3
import proofs.«202994_g19078244729258_cont_8to1_1405_21_alg».proof.Proof.Spec
import Idealize.ShloMosaic.Lib.Pipeline.Value
import Idealize.ShloMosaic.Lib.ValueIdx

noncomputable section

namespace Cert.Proof.KI.R3

open Cert.KernelIdeal Cert.KernelIdeal.Gen Cert.Proof.KI
open Idealize.ShloMosaic Idealize.ShloMosaic.ValueIdx
open Idealize.ShloMosaic.Pipeline (RDat Cfg Window)
open Cert.Spec
open Cert.Proof.KI.ValStatsLib (Blocks Holds rj)
open scoped BigOperators

variable {F : FTy → Type} [FloatOps F] [∀ e, Nonempty (Elt F e)]

def arrs (W : Valuation τ sig (Elt F)) (c : Dev nD) : Arrs (F := F) c :=
  fun w => W (Proc.devRef .tc (Pipeline.arrRef cfg3.spec w))

theorem idx_0 : ∀ (t : Fin cfg3.N) (a : Fin 2), (cfg3.win 0).index t a = ![t.val + 12, 0] a :=
  (by decide +kernel : ∀ (t : Fin grid3.N) (a : Fin 2), cc3_transform_0 (grid3.coords t) a = ![t.val + 12, 0] a)
theorem idx_1 : ∀ (t : Fin cfg3.N) (a : Fin 3), (cfg3.win 1).index t a = ![t.val, 0, 0] a :=
  (by decide +kernel : ∀ (t : Fin grid3.N) (a : Fin 3), cc3_transform_1 (grid3.coords t) a = ![t.val, 0, 0] a)
theorem idx_2 : ∀ (t : Fin cfg3.N) (a : Fin 2), (cfg3.win 2).index t a = ![0, t.val + 12] a :=
  (by decide +kernel : ∀ (t : Fin grid3.N) (a : Fin 2), cc3_transform_2 (grid3.coords t) a = ![0, t.val + 12] a)
theorem idx_3 : ∀ (t : Fin cfg3.N) (a : Fin 2), (cfg3.win 3).index t a = ![0, 0] a :=
  (by decide +kernel : ∀ (t : Fin grid3.N) (a : Fin 2), cc3_transform_3 (grid3.coords t) a = ![0, 0] a)
theorem idx_4 : ∀ (t : Fin cfg3.N) (a : Fin 2), (cfg3.win 4).index t a = ![0, 0] a :=
  (by decide +kernel : ∀ (t : Fin grid3.N) (a : Fin 2), cc3_transform_4 (grid3.coords t) a = ![0, 0] a)
theorem idx_5 : ∀ (t : Fin cfg3.N) (a : Fin 2), (cfg3.win 5).index t a = ![0, 0] a :=
  (by decide +kernel : ∀ (t : Fin grid3.N) (a : Fin 2), cc3_transform_5 (grid3.coords t) a = ![0, 0] a)
theorem idx_6 : ∀ (t : Fin cfg3.N) (a : Fin 2), (cfg3.win 6).index t a = ![0, 0] a :=
  (by decide +kernel : ∀ (t : Fin grid3.N) (a : Fin 2), cc3_transform_6 (grid3.coords t) a = ![0, 0] a)

theorem inBlk_0 (W : Valuation τ sig (Elt F)) (c : Dev nD) (t : Fin cfg3.N) (r : Fin 400) (p : Fin 128)
    (h : 400 * (t.val + 12) + r.val < 10000) :
    (inBlk (arrs W) c 0 t : S400x128.Idx → Elt F .f32) (ix2 r p)
      = (W (Proc.devRef .tc main_arg0) : S10000x128.Idx → Elt F .f32) (ix2 ⟨400 * (t.val + 12) + r.val, h⟩ p) := by
  have hm : (cfg3.win 0).moved (cfg3.grid.coords t) (ix2 r p : S400x128.Idx) = true :=
    ((cfg3.win 0).moved_iff _ _).mpr fun a => ((ix2 r p : S400x128.Idx) a).isLt
  unfold inBlk Window.fill
  rw [dif_pos hm]
  show (W (Proc.devRef .tc main_arg0) : S10000x128.Idx → Elt F .f32) (((cfg3.win 0).rect t).emb _) = _
  refine congrArg _ ?_
  funext a; apply Fin.ext
  rw [Window.rect_emb_val]
  revert a
  show ∀ a : Fin 2, (cfg3.win 0).index t a * (cfg3.win 0).size a + ((ix2 r p : S400x128.Idx) a).val
    = ((ix2 (⟨400 * (t.val + 12) + r.val, h⟩ : Fin 10000) p : S10000x128.Idx) a).val
  intro a; rw [idx_0 t a]
  fin_cases a
  · show (t.val + 12) * 400 + r.val = 400 * (t.val + 12) + r.val
    omega
  · show 0 * 128 + p.val = p.val
    omega

theorem inBlk_1 (W : Valuation τ sig (Elt F)) (c : Dev nD) (t : Fin cfg3.N) (r : Fin 400) (j : Fin 32) (p : Fin 128)
    (h : 400 * t.val + r.val < 5200) :
    (inBlk (arrs W) c 1 t : S400x32x128.Idx → Elt F .f32) (ix3 r j p)
      = (W (Proc.devRef .tc main_v10) : S5200x32x128.Idx → Elt F .f32) (ix3 ⟨400 * t.val + r.val, h⟩ j p) := by
  have hm : (cfg3.win 1).moved (cfg3.grid.coords t) (ix3 r j p : S400x32x128.Idx) = true :=
    ((cfg3.win 1).moved_iff _ _).mpr fun a => ((ix3 r j p : S400x32x128.Idx) a).isLt
  unfold inBlk Window.fill
  rw [dif_pos hm]
  show (W (Proc.devRef .tc main_v10) : S5200x32x128.Idx → Elt F .f32) (((cfg3.win 1).rect t).emb _) = _
  refine congrArg _ ?_
  funext a; apply Fin.ext
  rw [Window.rect_emb_val]
  revert a
  show ∀ a : Fin 3, (cfg3.win 1).index t a * (cfg3.win 1).size a + ((ix3 r j p : S400x32x128.Idx) a).val
    = ((ix3 (⟨400 * t.val + r.val, h⟩ : Fin 5200) j p : S5200x32x128.Idx) a).val
  intro a; rw [idx_1 t a]
  fin_cases a
  · show t.val * 400 + r.val = 400 * t.val + r.val
    omega
  · show 0 * 32 + j.val = j.val
    omega
  · show 0 * 128 + p.val = p.val
    omega

theorem inBlk_2 (W : Valuation τ sig (Elt F)) (c : Dev nD) (t : Fin cfg3.N) (q : Fin 16) (s : Fin 12800)
    (h : 12800 * (t.val + 12) + s.val < 320000) :
    (inBlk (arrs W) c 2 t : S16x12800.Idx → Elt F .f32) (ix2 q s)
      = (W (Proc.devRef .tc main_v12) : S16x320000.Idx → Elt F .f32) (ix2 q ⟨12800 * (t.val + 12) + s.val, h⟩) := by
  have hm : (cfg3.win 2).moved (cfg3.grid.coords t) (ix2 q s : S16x12800.Idx) = true :=
    ((cfg3.win 2).moved_iff _ _).mpr fun a => ((ix2 q s : S16x12800.Idx) a).isLt
  unfold inBlk Window.fill
  rw [dif_pos hm]
  show (W (Proc.devRef .tc main_v12) : S16x320000.Idx → Elt F .f32) (((cfg3.win 2).rect t).emb _) = _
  refine congrArg _ ?_
  funext a; apply Fin.ext
  rw [Window.rect_emb_val]
  revert a
  show ∀ a : Fin 2, (cfg3.win 2).index t a * (cfg3.win 2).size a + ((ix2 q s : S16x12800.Idx) a).val
    = ((ix2 q (⟨12800 * (t.val + 12) + s.val, h⟩ : Fin 320000) : S16x320000.Idx) a).val
  intro a; rw [idx_2 t a]
  fin_cases a
  · show 0 * 16 + q.val = q.val
    omega
  · show (t.val + 12) * 12800 + s.val = 12800 * (t.val + 12) + s.val
    omega

theorem inBlk_3 (W : Valuation τ sig (Elt F)) (c : Dev nD) (t : Fin cfg3.N) (p : Fin 128) (k : Fin 256) :
    (inBlk (arrs W) c 3 t : S128x256.Idx → Elt F .f32) (ix2 p k)
      = (W (Proc.devRef .tc main_v0) : S128x256.Idx → Elt F .f32) (ix2 p k) := by
  have hm : (cfg3.win 3).moved (cfg3.grid.coords t) (ix2 p k : S128x256.Idx) = true :=
    ((cfg3.win 3).moved_iff _ _).mpr fun a => ((ix2 p k : S128x256.Idx) a).isLt
  unfold inBlk Window.fill
  rw [dif_pos hm]
  show (W (Proc.devRef .tc main_v0) : S128x256.Idx → Elt F .f32) (((cfg3.win 3).rect t).emb _) = _
  refine congrArg _ ?_
  funext a; apply Fin.ext
  rw [Window.rect_emb_val]
  revert a
  show ∀ a : Fin 2, (cfg3.win 3).index t a * (cfg3.win 3).size a + ((ix2 p k : S128x256.Idx) a).val
    = ((ix2 p k : S128x256.Idx) a).val
  intro a; rw [idx_3 t a]
  fin_cases a
  · show 0 * 128 + p.val = p.val
    omega
  · show 0 * 256 + k.val = k.val
    omega

theorem inBlk_4 (W : Valuation τ sig (Elt F)) (c : Dev nD) (t : Fin cfg3.N) (p : Fin 128) (k : Fin 256) :
    (inBlk (arrs W) c 4 t : S128x256.Idx → Elt F .f32) (ix2 p k)
      = (W (Proc.devRef .tc main_v1) : S128x256.Idx → Elt F .f32) (ix2 p k) := by
  have hm : (cfg3.win 4).moved (cfg3.grid.coords t) (ix2 p k : S128x256.Idx) = true :=
    ((cfg3.win 4).moved_iff _ _).mpr fun a => ((ix2 p k : S128x256.Idx) a).isLt
  unfold inBlk Window.fill
  rw [dif_pos hm]
  show (W (Proc.devRef .tc main_v1) : S128x256.Idx → Elt F .f32) (((cfg3.win 4).rect t).emb _) = _
  refine congrArg _ ?_
  funext a; apply Fin.ext
  rw [Window.rect_emb_val]
  revert a
  show ∀ a : Fin 2, (cfg3.win 4).index t a * (cfg3.win 4).size a + ((ix2 p k : S128x256.Idx) a).val
    = ((ix2 p k : S128x256.Idx) a).val
  intro a; rw [idx_4 t a]
  fin_cases a
  · show 0 * 128 + p.val = p.val
    omega
  · show 0 * 256 + k.val = k.val
    omega

theorem inBlk_5 (W : Valuation τ sig (Elt F)) (c : Dev nD) (t : Fin cfg3.N) (q : Fin 16) (k : Fin 256) :
    (inBlk (arrs W) c 5 t : S16x256.Idx → Elt F .f32) (ix2 q k)
      = (W (Proc.devRef .tc main_v2) : S16x256.Idx → Elt F .f32) (ix2 q k) := by
  have hm : (cfg3.win 5).moved (cfg3.grid.coords t) (ix2 q k : S16x256.Idx) = true :=
    ((cfg3.win 5).moved_iff _ _).mpr fun a => ((ix2 q k : S16x256.Idx) a).isLt
  unfold inBlk Window.fill
  rw [dif_pos hm]
  show (W (Proc.devRef .tc main_v2) : S16x256.Idx → Elt F .f32) (((cfg3.win 5).rect t).emb _) = _
  refine congrArg _ ?_
  funext a; apply Fin.ext
  rw [Window.rect_emb_val]
  revert a
  show ∀ a : Fin 2, (cfg3.win 5).index t a * (cfg3.win 5).size a + ((ix2 q k : S16x256.Idx) a).val
    = ((ix2 q k : S16x256.Idx) a).val
  intro a; rw [idx_5 t a]
  fin_cases a
  · show 0 * 16 + q.val = q.val
    omega
  · show 0 * 256 + k.val = k.val
    omega

theorem inBlk_6 (W : Valuation τ sig (Elt F)) (c : Dev nD) (t : Fin cfg3.N) (u : Fin 1) (k : Fin 256) :
    (inBlk (arrs W) c 6 t : S1x256.Idx → Elt F .f32) (ix2 u k)
      = (W (Proc.devRef .tc main_v3) : S1x256.Idx → Elt F .f32) (ix2 u k) := by
  have hm : (cfg3.win 6).moved (cfg3.grid.coords t) (ix2 u k : S1x256.Idx) = true :=
    ((cfg3.win 6).moved_iff _ _).mpr fun a => ((ix2 u k : S1x256.Idx) a).isLt
  unfold inBlk Window.fill
  rw [dif_pos hm]
  show (W (Proc.devRef .tc main_v3) : S1x256.Idx → Elt F .f32) (((cfg3.win 6).rect t).emb _) = _
  refine congrArg _ ?_
  funext a; apply Fin.ext
  rw [Window.rect_emb_val]
  revert a
  show ∀ a : Fin 2, (cfg3.win 6).index t a * (cfg3.win 6).size a + ((ix2 u k : S1x256.Idx) a).val
    = ((ix2 u k : S1x256.Idx) a).val
  intro a; rw [idx_6 t a]
  fin_cases a
  · show 0 * 1 + u.val = u.val
    omega
  · show 0 * 256 + k.val = k.val
    omega

section Value

variable (I : Inputs)

def rowAtom (r : Fin 5200) : Fin 10000 := ⟨4800 + r.val, by omega⟩

structure Layout (W : Valuation τ sig (Elt Ideal)) : Prop where
  atom : ∀ (n : Fin 10000) (p : Fin 128), (W (Proc.devRef .tc main_arg0) : S10000x128.Idx → EReal) (ix2 n p) = ((I.a n p : ℝ) : EReal)
  g : ∀ (r : Fin 5200) (j : Fin 32) (p : Fin 128), (W (Proc.devRef .tc main_v10) : S5200x32x128.Idx → EReal) (ix3 r j p) = ((I.a (I.idx (rowAtom r) j) p : ℝ) : EReal)
  eT : ∀ (q : Fin 16) (n : Fin 10000) (j : Fin 32), (W (Proc.devRef .tc main_v12) : S16x320000.Idx → EReal) (ix2 q (⟨32 * n.val + j.val, by omega⟩ : Fin 320000)) = ((I.e n j q : ℝ) : EReal)
  ws : ∀ (p : Fin 128) (k : Fin 256), (W (Proc.devRef .tc main_v0) : S128x256.Idx → EReal) (ix2 p k) = ((I.W (iSelf p) k : ℝ) : EReal)
  wn : ∀ (p : Fin 128) (k : Fin 256), (W (Proc.devRef .tc main_v1) : S128x256.Idx → EReal) (ix2 p k) = ((I.W (iNbr p) k : ℝ) : EReal)
  we : ∀ (q : Fin 16) (k : Fin 256), (W (Proc.devRef .tc main_v2) : S16x256.Idx → EReal) (ix2 q k) = ((I.W (iEdge q) k : ℝ) : EReal)
  bias : ∀ k : Fin 256, (W (Proc.devRef .tc main_v3) : S1x256.Idx → EReal) (ix2 (0 : Fin 1) k) = ((I.b k : ℝ) : EReal)

def colRow (s : Fin 12800) : Fin 400 := ⟨s.val / 32, by omega⟩
def colNbr (s : Fin 12800) : Fin 32 := ⟨s.val % 32, Nat.mod_lt _ (by decide)⟩
theorem colRow_rj (r : Fin 400) (j : Fin 32) : colRow (rj r j) = r := Fin.ext (by show (32 * r.val + j.val) / 32 = r.val; omega)
theorem colNbr_rj (r : Fin 400) (j : Fin 32) : colNbr (rj r j) = j := Fin.ext (by show (32 * r.val + j.val) % 32 = j.val; omega)

def blocks (t : Fin 13) : Blocks where
  a r p := I.a (blkB t r) p
  g r j p := I.a (I.idx (blkB t r) j) p
  e q s := I.e (blkB t (colRow s)) (colNbr s) q
  ws p k := I.W (iSelf p) k
  wn p k := I.W (iNbr p) k
  we q k := I.W (iEdge q) k
  b k := I.b k

theorem blocks_X (t : Fin 13) (r : Fin 400) (j : Fin 32) (k : Fin 256) : (blocks I t).X r j k = kerX I (blkB t r) j k := by
  have he : ∀ q, (blocks I t).e q (rj r j) = I.e (blkB t r) j q := fun q => by
    show I.e (blkB t (colRow (rj r j))) (colNbr (rj r j)) q = _
    rw [colRow_rj, colNbr_rj]
  unfold Blocks.X kerX
  simp only [he]
  rfl

theorem ltN (t : Fin cfg3.N) : t.val < 13 := lt_of_lt_of_eq t.isLt N_3

variable (W : Valuation τ sig (Elt Ideal)) (d : Dev nD)

theorem holds (hL : Layout I W) (t : Fin cfg3.N) :
    Holds (blocks I ⟨t.val, ltN t⟩) (inBlk (arrs W) d 0 t) (inBlk (arrs W) d 3 t) (inBlk (arrs W) d 6 t) (inBlk (arrs W) d 1 t)
      (inBlk (arrs W) d 4 t) (inBlk (arrs W) d 2 t) (inBlk (arrs W) d 5 t) where
  a r p := by
    have ht := ltN t
    have h : 400 * (t.val + 12) + r.val < 10000 := by omega
    refine (inBlk_0 W d t r p h).trans ((hL.atom ⟨400 * (t.val + 12) + r.val, h⟩ p).trans ?_)
    exact congrArg (fun n => ((I.a n p : ℝ) : EReal)) (Fin.ext (by unfold blkB; dsimp only; omega))
  ws p k := (inBlk_3 W d t p k).trans (hL.ws p k)
  b k := (inBlk_6 W d t (0 : Fin 1) k).trans (hL.bias k)
  g r j p := by
    have ht := ltN t
    have h : 400 * t.val + r.val < 5200 := by omega
    refine (inBlk_1 W d t r j p h).trans ((hL.g ⟨400 * t.val + r.val, h⟩ j p).trans ?_)
    exact congrArg (fun n => ((I.a (I.idx n j) p : ℝ) : EReal)) (Fin.ext (by unfold rowAtom blkB; first | rfl | (dsimp only; omega)))
  wn p k := (inBlk_4 W d t p k).trans (hL.wn p k)
  e q s := by
    have ht := ltN t
    have h : 12800 * (t.val + 12) + s.val < 320000 := by omega
    have e : (⟨12800 * (t.val + 12) + s.val, h⟩ : Fin 320000)
        = ⟨32 * (blkB ⟨t.val, ht⟩ (colRow s)).val + (colNbr s).val, by omega⟩ :=
      Fin.ext (by unfold blkB colRow colNbr; dsimp only; omega)
    refine (inBlk_2 W d t q s h).trans ?_
    rw [e]
    exact hL.eT q (blkB ⟨t.val, ht⟩ (colRow s)) (colNbr s)
  we q k := (inBlk_5 W d t q k).trans (hL.we q k)

def colSum (n : ℕ) (k : Fin 256) : ℝ := if h : n < 13 then ∑ r : Fin 400, ∑ j : Fin 32, kerX I (blkB ⟨n, h⟩ r) j k else 0
def colSq (n : ℕ) (k : Fin 256) : ℝ :=
  if h : n < 13 then ∑ r : Fin 400, ∑ j : Fin 32, kerX I (blkB ⟨n, h⟩ r) j k * kerX I (blkB ⟨n, h⟩ r) j k else 0

theorem paySum_apply (hL : Layout I W) (n : ℕ) (h : n < cfg3.N) (k : Fin 256) :
    paySum (arrs W) d ⟨n, h⟩ (ix2 (0 : Fin 1) k) = ((colSum I n k : ℝ) : EReal) := by
  unfold paySum
  rw [ValStats3.k3_pay4_apply (holds I W d hL ⟨n, h⟩) k]
  unfold colSum Blocks.sumX
  rw [dif_pos (ltN ⟨n, h⟩)]
  simp only [blocks_X]

theorem paySq_apply (hL : Layout I W) (n : ℕ) (h : n < cfg3.N) (k : Fin 256) :
    paySq (arrs W) d ⟨n, h⟩ (ix2 (0 : Fin 1) k) = ((colSq I n k : ℝ) : EReal) := by
  unfold paySq
  rw [ValStats3.k3_pay5_apply (holds I W d hL ⟨n, h⟩) k]
  unfold colSq Blocks.sumSq
  rw [dif_pos (ltN ⟨n, h⟩)]
  simp only [blocks_X]

theorem sumAt_zero (A : (c : Dev nD) → Arrs (F := F) c) (c : Dev nD) (h : 0 < cfg3.N) :
    sumAt A c 0 h = k3_pay1 (paySum A c ⟨0, h⟩) (k3_pay6 (F := F)) := by
  show stepSum A c ⟨0, h⟩ (k3_pay6 (F := F)) = _
  unfold stepSum
  rw [if_pos (show (⟨0, h⟩ : Fin cfg3.N).val = 0 from rfl)]
theorem sumAt_succ (A : (c : Dev nD) → Arrs (F := F) c) (c : Dev nD) (n : ℕ) (h : n + 1 < cfg3.N) :
    sumAt A c (n + 1) h = k3_pay1 (paySum A c ⟨n + 1, h⟩) (sumAt A c n (Nat.lt_of_succ_lt h)) := by
  show stepSum A c ⟨n + 1, h⟩ (sumAt A c n (Nat.lt_of_succ_lt h)) = _
  unfold stepSum
  rw [if_neg (show ¬(⟨n + 1, h⟩ : Fin cfg3.N).val = 0 from Nat.succ_ne_zero n)]
theorem sqAt_zero (A : (c : Dev nD) → Arrs (F := F) c) (c : Dev nD) (h : 0 < cfg3.N) :
    sqAt A c 0 h = k3_pay2 (paySq A c ⟨0, h⟩) (k3_pay7 (F := F)) := by
  show stepSq A c ⟨0, h⟩ (k3_pay7 (F := F)) = _
  unfold stepSq
  rw [if_pos (show (⟨0, h⟩ : Fin cfg3.N).val = 0 from rfl)]
theorem sqAt_succ (A : (c : Dev nD) → Arrs (F := F) c) (c : Dev nD) (n : ℕ) (h : n + 1 < cfg3.N) :
    sqAt A c (n + 1) h = k3_pay2 (paySq A c ⟨n + 1, h⟩) (sqAt A c n (Nat.lt_of_succ_lt h)) := by
  show stepSq A c ⟨n + 1, h⟩ (sqAt A c n (Nat.lt_of_succ_lt h)) = _
  unfold stepSq
  rw [if_neg (show ¬(⟨n + 1, h⟩ : Fin cfg3.N).val = 0 from Nat.succ_ne_zero n)]

theorem sumAt_value (hL : Layout I W) (k : Fin 256) :
    (sumAt (arrs W) d 12 (by decide) : S1x256.Idx → EReal) (ix2 (0 : Fin 1) k)
      = ((∑ i : Fin 13, ∑ r : Fin 400, ∑ j : Fin 32, kerX I (blkB i r) j k : ℝ) : EReal) := by
  rw [ValStats3.sum_fold_apply cfg3.N (sumAt (arrs W) d) (fun n h => paySum (arrs W) d ⟨n, h⟩) (colSum I)
    (fun n h k => paySum_apply I W d hL n h k) (fun h => sumAt_zero (arrs W) d h) (fun n h => sumAt_succ (arrs W) d n h)
    12 (by decide) k, Finset.sum_range]
  refine congrArg (fun x : ℝ => (x : EReal)) (Finset.sum_congr rfl fun i _ => ?_)
  unfold colSum
  rw [dif_pos i.isLt]

theorem sqAt_value (hL : Layout I W) (k : Fin 256) :
    (sqAt (arrs W) d 12 (by decide) : S1x256.Idx → EReal) (ix2 (0 : Fin 1) k)
      = ((∑ i : Fin 13, ∑ r : Fin 400, ∑ j : Fin 32, kerX I (blkB i r) j k * kerX I (blkB i r) j k : ℝ) : EReal) := by
  rw [ValStats3.sq_fold_apply cfg3.N (sqAt (arrs W) d) (fun n h => paySq (arrs W) d ⟨n, h⟩) (colSq I)
    (fun n h k => paySq_apply I W d hL n h k) (fun h => sqAt_zero (arrs W) d h) (fun n h => sqAt_succ (arrs W) d n h)
    12 (by decide) k, Finset.sum_range]
  refine congrArg (fun x : ℝ => (x : EReal)) (Finset.sum_congr rfl fun i _ => ?_)
  unfold colSq
  rw [dif_pos i.isLt]

end Value

end Cert.Proof.KI.R3

end
-- ==== Proof.KI.KerValueStatsLink.lean ====
import proofs.«202994_g19078244729258_cont_8to1_1405_21_alg».proof.Proof.KI.KerValueStats
import proofs.«202994_g19078244729258_cont_8to1_1405_21_alg».proof.Proof.KI.KerValueStatsB
import proofs.«202994_g19078244729258_cont_8to1_1405_21_alg».proof.Proof.KI.KerValueDefs

noncomputable section

namespace Cert.Proof.KI

open Cert.KernelIdeal Cert.KernelIdeal.Gen
open Idealize.ShloMosaic Idealize.ShloMosaic.ValueIdx
open Cert.Spec
open scoped BigOperators

variable (upd : Fin 5 → Valuation τ sig (Elt Ideal) → Valuation τ sig (Elt Ideal))

theorem stats_VG (hU : UpdSpec upd)
    (h0 : ∀ (d : Dev nD) (W : Valuation τ sig (Elt Ideal)),
      (upd 0 W (Proc.devRef .tc main_v13_0) : S1x256.Idx → EReal) = R2.sumAt (R2.arrs W) d 11 (by decide)
        ∧ (upd 0 W (Proc.devRef .tc main_v13_1) : S1x256.Idx → EReal) = R2.sqAt (R2.arrs W) d 11 (by decide))
    (h1 : ∀ (d : Dev nD) (W : Valuation τ sig (Elt Ideal)),
      (upd 1 W (Proc.devRef .tc main_v14_0) : S1x256.Idx → EReal) = R3.sumAt (R3.arrs W) d 12 (by decide)
        ∧ (upd 1 W (Proc.devRef .tc main_v14_1) : S1x256.Idx → EReal) = R3.sqAt (R3.arrs W) d 12 (by decide)) :
    StatsLink upd := by
  intro I m d hE
  have hA : R2.Layout I (VE m d) := ⟨hE.atom, hE.gA, hE.eT, hE.ws, hE.wn, hE.we, hE.bias⟩
  have hF : ∀ r : Ref sig .tc, r ∉ regionOuts 0 → VF m upd d (Proc.devRef .tc r) = VE m d (Proc.devRef .tc r) :=
    fun r hr => hU.frame 0 _ r hr
  have hB : R3.Layout I (VF m upd d) :=
    ⟨fun n p => by rw [hF main_arg0 (by decide)]; exact hE.atom n p,
      fun r j p => by rw [hF main_v10 (by decide)]; exact hE.gB r j p,
      fun q n j => by rw [hF main_v12 (by decide)]; exact hE.eT q n j,
      fun p k => by rw [hF main_v0 (by decide)]; exact hE.ws p k,
      fun p k => by rw [hF main_v1 (by decide)]; exact hE.wn p k,
      fun q k => by rw [hF main_v2 (by decide)]; exact hE.we q k,
      fun k => by rw [hF main_v3 (by decide)]; exact hE.bias k⟩
  refine ⟨fun k => ?_, fun k => ?_, fun k => ?_, fun k => ?_⟩
  · have e : VG m upd d (Proc.devRef .tc main_v13_0) = upd 0 (VE m d) (Proc.devRef .tc main_v13_0) :=
      hU.frame 1 _ main_v13_0 (by decide)
    rw [e, (h0 d (VE m d)).1]
    exact R2.sumAt_value I (VE m d) d hA k
  · have e : VG m upd d (Proc.devRef .tc main_v13_1) = upd 0 (VE m d) (Proc.devRef .tc main_v13_1) :=
      hU.frame 1 _ main_v13_1 (by decide)
    rw [e, (h0 d (VE m d)).2]
    exact R2.sqAt_value I (VE m d) d hA k
  · have e : VG m upd d (Proc.devRef .tc main_v14_0) = upd 1 (VF m upd d) (Proc.devRef .tc main_v14_0) := rfl
    rw [e, (h1 d (VF m upd d)).1]
    exact R3.sumAt_value I (VF m upd d) d hB k
  · have e : VG m upd d (Proc.devRef .tc main_v14_1) = upd 1 (VF m upd d) (Proc.devRef .tc main_v14_1) := rfl
    rw [e, (h1 d (VF m upd d)).2]
    exact R3.sqAt_value I (VF m upd d) d hB k

end Cert.Proof.KI

end
-- ==== Proof.KI.ValGate.lean ====
import proofs.«202994_g19078244729258_cont_8to1_1405_21_alg».proof.Proof.Gen.KernelIdeal.Skeleton
import proofs.«202994_g19078244729258_cont_8to1_1405_21_alg».proof.Proof.Spec
import proofs.«202994_g19078244729258_cont_8to1_1405_21_alg».proof.Proof.LibIdealReal
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KI.ValGate

open Cert.KernelIdeal Cert.KernelIdeal.Gen
open Idealize.ShloMosaic Idealize.ShloMosaic.ValueIdx
open Cert.LibIdealReal Cert.Spec
open scoped BigOperators

def cell (r : Fin 400) (j : Fin 32) : Fin 12800 := ⟨32 * r.val + j.val, by omega⟩

structure RBlk where
  a : Fin 400 → Fin 128 → ℝ
  g : Fin 400 → Fin 32 → Fin 128 → ℝ
  e : Fin 16 → Fin 12800 → ℝ
  bw : Fin 400 → Fin 32 → ℝ
  ws : Fin 128 → Fin 256 → ℝ
  wn : Fin 128 → Fin 256 → ℝ
  we : Fin 16 → Fin 256 → ℝ
  bg : Fin 256 → ℝ

def RBlk.Y (B : RBlk) (r : Fin 400) (j : Fin 32) (k : Fin 256) : ℝ :=
  ((∑ p : Fin 128, B.a r p * B.ws p k) + B.bg k) + (∑ p : Fin 128, B.g r j p * B.wn p k)
    + ∑ q : Fin 16, B.e q (cell r j) * B.we q k

def RBlk.NS (B : RBlk) (r : Fin 400) (k : Fin 128) : ℝ :=
  ∑ j : Fin 32, sigmoid (B.Y r j (kFilt k)) * softplusKer (B.Y r j (kCore k)) * (B.bw r j * B.bw r j)

structure Reads (B : RBlk) (v0 : FVec Ideal S400x128 .f32) (v1 : FVec Ideal S128x256 .f32) (v4 : FVec Ideal S1x256 .f32)
    (v8 : FVec Ideal S400x32x128 .f32) (v11 : FVec Ideal S128x256 .f32) (v15 : FVec Ideal S16x12800 .f32)
    (v17 : FVec Ideal S16x256 .f32) : Prop where
  h0 : ∀ (r : Fin 400) (p : Fin 128), v0 (ix2 r p) = ((B.a r p : ℝ) : EReal)
  h1 : ∀ (p : Fin 128) (k : Fin 256), v1 (ix2 p k) = ((B.ws p k : ℝ) : EReal)
  h4 : ∀ (z : Fin 1) (k : Fin 256), v4 (ix2 z k) = ((B.bg k : ℝ) : EReal)
  h8 : ∀ (r : Fin 400) (j : Fin 32) (p : Fin 128), v8 (ix3 r j p) = ((B.g r j p : ℝ) : EReal)
  h11 : ∀ (p : Fin 128) (k : Fin 256), v11 (ix2 p k) = ((B.wn p k : ℝ) : EReal)
  h15 : ∀ (q : Fin 16) (c : Fin 12800), v15 (ix2 q c) = ((B.e q c : ℝ) : EReal)
  h17 : ∀ (q : Fin 16) (k : Fin 256), v17 (ix2 q k) = ((B.we q k : ℝ) : EReal)

theorem lhs_self_0 (i : S400x256.Idx) (q : dot_S400x128_S128x256_S400x256_1_0_0_1_n_n.contr.Idx) : (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide),
    dif_pos (show (0 : Fin S400x128.rank) ∈ dot_S400x128_S128x256_S400x256_1_0_0_1_n_n.lhsNonContracting by decide)]
  rfl

theorem lhs_self_1 (i : S400x256.Idx) (q : dot_S400x128_S128x256_S400x256_1_0_0_1_n_n.contr.Idx) :
    (dot_S400x128_S128x256_S400x256_1_0_0_1_n_n.lhsIdx i q 1).val = (q ⟨0, by decide⟩).val :=
  dot_S400x128_S128x256_S400x256_1_0_0_1_n_n.lhsIdx_val_of_single rfl i q

theorem rhs_self_0 (i : S400x256.Idx) (q : dot_S400x128_S128x256_S400x256_1_0_0_1_n_n.contr.Idx) : (dot_S400x128_S128x256_S400x256_1_0_0_1_n_n.rhsIdx i q 0).val = (q ⟨0, by decide⟩).val :=
  dot_S400x128_S128x256_S400x256_1_0_0_1_n_n.rhsIdx_val_of_single rfl i q

theorem rhs_self_1 (i : S400x256.Idx) (q : dot_S400x128_S128x256_S400x256_1_0_0_1_n_n.contr.Idx) : (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide),
    dif_pos (show (1 : Fin S128x256.rank) ∈ dot_S400x128_S128x256_S400x256_1_0_0_1_n_n.rhsNonContracting by decide)]
  rfl

theorem mm_self_apply (x : FVec Ideal S400x128 .f32) (w : FVec Ideal S128x256 .f32) (r : Fin 400) (k : Fin 256) :
    matmul (F := Ideal) dot_S400x128_S128x256_S400x256_1_0_0_1_n_n none x w (constant (F := Ideal) S400x256 .f32 0x00000000#32) (ix2 r k)
      = ∑ p : Fin 128, x (ix2 r p) * w (ix2 p k) := by
  simp only [matmul]
  rw [Ideal.matmul_constant_zero_apply, ← Equiv.sum_comp (ValueIdx.contrEquiv1 dot_S400x128_S128x256_S400x256_1_0_0_1_n_n 128 rfl rfl).symm]
  refine Finset.sum_congr rfl fun p _ => ?_
  have hk := ValueIdx.contrEquiv1_symm_val dot_S400x128_S128x256_S400x256_1_0_0_1_n_n 128 rfl rfl p
  have el : dot_S400x128_S128x256_S400x256_1_0_0_1_n_n.lhsIdx (ix2 r k) ((ValueIdx.contrEquiv1 dot_S400x128_S128x256_S400x256_1_0_0_1_n_n 128 rfl rfl).symm p) = ix2 r p :=
    funext fun a => Fin.ext (by
      match a with
      | ⟨0, _⟩ => exact lhs_self_0 _ _
      | ⟨1, _⟩ => exact (lhs_self_1 _ _).trans hk)
  have er : dot_S400x128_S128x256_S400x256_1_0_0_1_n_n.rhsIdx (ix2 r k) ((ValueIdx.contrEquiv1 dot_S400x128_S128x256_S400x256_1_0_0_1_n_n 128 rfl rfl).symm p) = ix2 p k :=
    funext fun a => Fin.ext (by
      match a with
      | ⟨0, _⟩ => exact (rhs_self_0 _ _).trans hk
      | ⟨1, _⟩ => exact rhs_self_1 _ _)
  rw [el, er]

theorem lhs_nbr_0 (i : S12800x256.Idx) (q : dot_S12800x128_S128x256_S12800x256_1_0_0_1_n_n.contr.Idx) : (dot_S12800x128_S128x256_S12800x256_1_0_0_1_n_n.lhsIdx i q 0).val = (i 0).val := by
  unfold DotDims.lhsIdx
  rw [dif_neg (show ¬(0 : Fin S12800x128.rank) ∈ dot_S12800x128_S128x256_S12800x256_1_0_0_1_n_n.lhsBatch by decide),
    dif_pos (show (0 : Fin S12800x128.rank) ∈ dot_S12800x128_S128x256_S12800x256_1_0_0_1_n_n.lhsNonContracting by decide)]
  rfl

theorem lhs_nbr_1 (i : S12800x256.Idx) (q : dot_S12800x128_S128x256_S12800x256_1_0_0_1_n_n.contr.Idx) :
    (dot_S12800x128_S128x256_S12800x256_1_0_0_1_n_n.lhsIdx i q 1).val = (q ⟨0, by decide⟩).val :=
  dot_S12800x128_S128x256_S12800x256_1_0_0_1_n_n.lhsIdx_val_of_single rfl i q

theorem rhs_nbr_0 (i : S12800x256.Idx) (q : dot_S12800x128_S128x256_S12800x256_1_0_0_1_n_n.contr.Idx) : (dot_S12800x128_S128x256_S12800x256_1_0_0_1_n_n.rhsIdx i q 0).val = (q ⟨0, by decide⟩).val :=
  dot_S12800x128_S128x256_S12800x256_1_0_0_1_n_n.rhsIdx_val_of_single rfl i q

theorem rhs_nbr_1 (i : S12800x256.Idx) (q : dot_S12800x128_S128x256_S12800x256_1_0_0_1_n_n.contr.Idx) : (dot_S12800x128_S128x256_S12800x256_1_0_0_1_n_n.rhsIdx i q 1).val = (i 1).val := by
  unfold DotDims.rhsIdx
  rw [dif_neg (show ¬(1 : Fin S128x256.rank) ∈ dot_S12800x128_S128x256_S12800x256_1_0_0_1_n_n.rhsBatch by decide),
    dif_pos (show (1 : Fin S128x256.rank) ∈ dot_S12800x128_S128x256_S12800x256_1_0_0_1_n_n.rhsNonContracting by decide)]
  rfl

theorem mm_nbr_apply (x : FVec Ideal S12800x128 .f32) (w : FVec Ideal S128x256 .f32) (c : Fin 12800) (k : Fin 256) :
    matmul (F := Ideal) dot_S12800x128_S128x256_S12800x256_1_0_0_1_n_n none x w (constant (F := Ideal) S12800x256 .f32 0x00000000#32) (ix2 c k)
      = ∑ p : Fin 128, x (ix2 c p) * w (ix2 p k) := by
  simp only [matmul]
  rw [Ideal.matmul_constant_zero_apply, ← Equiv.sum_comp (ValueIdx.contrEquiv1 dot_S12800x128_S128x256_S12800x256_1_0_0_1_n_n 128 rfl rfl).symm]
  refine Finset.sum_congr rfl fun p _ => ?_
  have hk := ValueIdx.contrEquiv1_symm_val dot_S12800x128_S128x256_S12800x256_1_0_0_1_n_n 128 rfl rfl p
  have el : dot_S12800x128_S128x256_S12800x256_1_0_0_1_n_n.lhsIdx (ix2 c k) ((ValueIdx.contrEquiv1 dot_S12800x128_S128x256_S12800x256_1_0_0_1_n_n 128 rfl rfl).symm p) = ix2 c p :=
    funext fun a => Fin.ext (by
      match a with
      | ⟨0, _⟩ => exact lhs_nbr_0 _ _
      | ⟨1, _⟩ => exact (lhs_nbr_1 _ _).trans hk)
  have er : dot_S12800x128_S128x256_S12800x256_1_0_0_1_n_n.rhsIdx (ix2 c k) ((ValueIdx.contrEquiv1 dot_S12800x128_S128x256_S12800x256_1_0_0_1_n_n 128 rfl rfl).symm p) = ix2 p k :=
    funext fun a => Fin.ext (by
      match a with
      | ⟨0, _⟩ => exact (rhs_nbr_0 _ _).trans hk
      | ⟨1, _⟩ => exact rhs_nbr_1 _ _)
  rw [el, er]

theorem lhs_edge_1 (i : S12800x256.Idx) (q : dot_S16x12800_S16x256_S12800x256_0_0_1_1_n_n.contr.Idx) : (dot_S16x12800_S16x256_S12800x256_0_0_1_1_n_n.lhsIdx i q 1).val = (i 0).val := by
  unfold DotDims.lhsIdx
  rw [dif_neg (show ¬(1 : Fin S16x12800.rank) ∈ dot_S16x12800_S16x256_S12800x256_0_0_1_1_n_n.lhsBatch by decide),
    dif_pos (show (1 : Fin S16x12800.rank) ∈ dot_S16x12800_S16x256_S12800x256_0_0_1_1_n_n.lhsNonContracting by decide)]
  rfl

theorem lhs_edge_0 (i : S12800x256.Idx) (q : dot_S16x12800_S16x256_S12800x256_0_0_1_1_n_n.contr.Idx) :
    (dot_S16x12800_S16x256_S12800x256_0_0_1_1_n_n.lhsIdx i q 0).val = (q ⟨0, by decide⟩).val :=
  dot_S16x12800_S16x256_S12800x256_0_0_1_1_n_n.lhsIdx_val_of_single rfl i q

theorem rhs_edge_0 (i : S12800x256.Idx) (q : dot_S16x12800_S16x256_S12800x256_0_0_1_1_n_n.contr.Idx) : (dot_S16x12800_S16x256_S12800x256_0_0_1_1_n_n.rhsIdx i q 0).val = (q ⟨0, by decide⟩).val :=
  dot_S16x12800_S16x256_S12800x256_0_0_1_1_n_n.rhsIdx_val_of_single rfl i q

theorem rhs_edge_1 (i : S12800x256.Idx) (q : dot_S16x12800_S16x256_S12800x256_0_0_1_1_n_n.contr.Idx) : (dot_S16x12800_S16x256_S12800x256_0_0_1_1_n_n.rhsIdx i q 1).val = (i 1).val := by
  unfold DotDims.rhsIdx
  rw [dif_neg (show ¬(1 : Fin S16x256.rank) ∈ dot_S16x12800_S16x256_S12800x256_0_0_1_1_n_n.rhsBatch by decide),
    dif_pos (show (1 : Fin S16x256.rank) ∈ dot_S16x12800_S16x256_S12800x256_0_0_1_1_n_n.rhsNonContracting by decide)]
  rfl

theorem mm_edge_apply (x : FVec Ideal S16x12800 .f32) (w : FVec Ideal S16x256 .f32) (c : Fin 12800) (k : Fin 256) :
    matmul (F := Ideal) dot_S16x12800_S16x256_S12800x256_0_0_1_1_n_n none x w (constant (F := Ideal) S12800x256 .f32 0x00000000#32) (ix2 c k)
      = ∑ p : Fin 16, x (ix2 p c) * w (ix2 p k) := by
  simp only [matmul]
  rw [Ideal.matmul_constant_zero_apply, ← Equiv.sum_comp (ValueIdx.contrEquiv1 dot_S16x12800_S16x256_S12800x256_0_0_1_1_n_n 16 rfl rfl).symm]
  refine Finset.sum_congr rfl fun p _ => ?_
  have hk := ValueIdx.contrEquiv1_symm_val dot_S16x12800_S16x256_S12800x256_0_0_1_1_n_n 16 rfl rfl p
  have el : dot_S16x12800_S16x256_S12800x256_0_0_1_1_n_n.lhsIdx (ix2 c k) ((ValueIdx.contrEquiv1 dot_S16x12800_S16x256_S12800x256_0_0_1_1_n_n 16 rfl rfl).symm p) = ix2 p c :=
    funext fun a => Fin.ext (by
      match a with
      | ⟨1, _⟩ => exact lhs_edge_1 _ _
      | ⟨0, _⟩ => exact (lhs_edge_0 _ _).trans hk)
  have er : dot_S16x12800_S16x256_S12800x256_0_0_1_1_n_n.rhsIdx (ix2 c k) ((ValueIdx.contrEquiv1 dot_S16x12800_S16x256_S12800x256_0_0_1_1_n_n 16 rfl rfl).symm p) = ix2 p k :=
    funext fun a => Fin.ext (by
      match a with
      | ⟨0, _⟩ => exact (rhs_edge_0 _ _).trans hk
      | ⟨1, _⟩ => exact rhs_edge_1 _ _)
  rw [el, er]

theorem slice_lo_apply {α : Type} (x : S400x32x256.Idx → α) (r : Fin 400) (j : Fin 32) (k : Fin 128) :
    extractStridedSlice S400x32x128 ![0, 0, 0] x slices_S400x32x256_o0_0_0_S400x32x128 (ix3 r j k) = x (ix3 r j (kFilt k)) :=
  extractStridedSlice_apply _ x _ (ix3 r j k) (ix3 r j (kFilt k)) (fun a => match a with
    | ⟨0, _⟩ => by show r.val = 0 + r.val; omega
    | ⟨1, _⟩ => by show j.val = 0 + j.val; omega
    | ⟨2, _⟩ => by show k.val = 0 + k.val; omega)

theorem slice_hi_apply {α : Type} (x : S400x32x256.Idx → α) (r : Fin 400) (j : Fin 32) (k : Fin 128) :
    extractStridedSlice S400x32x128 ![0, 0, 128] x slices_S400x32x256_o0_0_128_S400x32x128 (ix3 r j k) = x (ix3 r j (kCore k)) :=
  extractStridedSlice_apply _ x _ (ix3 r j k) (ix3 r j (kCore k)) (fun a => match a with
    | ⟨0, _⟩ => by show r.val = 0 + r.val; omega
    | ⟨1, _⟩ => by show j.val = 0 + j.val; omega
    | ⟨2, _⟩ => by show 128 + k.val = 128 + k.val; rfl)

section Point
variable {B : RBlk} {v0 : FVec Ideal S400x128 .f32} {v1 : FVec Ideal S128x256 .f32} {v4 : FVec Ideal S1x256 .f32}
  {v8 : FVec Ideal S400x32x128 .f32} {v11 : FVec Ideal S128x256 .f32} {v15 : FVec Ideal S16x12800 .f32}
  {v17 : FVec Ideal S16x256 .f32} (hR : Reads B v0 v1 v4 v8 v11 v15 v17)
include hR

theorem self_term (r : Fin 400) (j : Fin 32) (k : Fin 256) :
    (broadcastTo S400x32x256 (shapeCast S400x1x256 (addf (matmul dot_S400x128_S128x256_S400x256_1_0_0_1_n_n none v0 (shapeCast S128x256 v1 shapeCasts_S128x256_S128x256) (constant (F := Ideal) S400x256 .f32 0x00000000#32)) (broadcastTo S400x256 (shapeCast S1x256 v4 shapeCasts_S1x256_S1x256) broadcasts_S1x256_S400x256)) shapeCasts_S400x256_S400x1x256) broadcasts_S400x1x256_S400x32x256) (ix3 r j k) = (((∑ p : Fin 128, B.a r p * B.ws p k) + B.bg k : ℝ) : EReal) := by
  rw [broadcastTo_apply _ _ (ix3 r j k) (ix3 r (0 : Fin 1) k) (fun a => match a with
    | ⟨0, _⟩ => by show (_ : ℕ) = if (400 : ℕ) = 1 then 0 else _; exact (if_neg (by decide)).symm
    | ⟨1, _⟩ => by show (_ : ℕ) = if (1 : ℕ) = 1 then 0 else _; exact (if_pos rfl).symm
    | ⟨2, _⟩ => by show (_ : ℕ) = if (256 : ℕ) = 1 then 0 else _; exact (if_neg (by decide)).symm),
    shapeCast_apply _ _ (ix3 r (0 : Fin 1) k) (ix2 r k) (by
      rw [Shape.rowMajor_val_two, Shape.rowMajor_val_three]
      show r.val * 256 + k.val = (r.val * 1 + 0) * 256 + k.val
      omega),
    addf_apply, mm_self_apply, shapeCast_self, shapeCast_self,
    broadcastTo_apply _ _ (ix2 r k) (ix2 (0 : Fin 1) k) (fun a => match a with
    | ⟨0, _⟩ => by show (_ : ℕ) = if (1 : ℕ) = 1 then 0 else _; exact (if_pos rfl).symm
    | ⟨1, _⟩ => by show (_ : ℕ) = if (256 : ℕ) = 1 then 0 else _; exact (if_neg (by decide)).symm), hR.h4]
  simp only [hR.h0, hR.h1]
  rw [← coe_fintype_sum_mul, ← EReal.coe_add]

theorem nbr_term (r : Fin 400) (j : Fin 32) (k : Fin 256) :
    (shapeCast S400x32x256 (matmul dot_S12800x128_S128x256_S12800x256_1_0_0_1_n_n none (shapeCast S12800x128 (shapeCast S400x32x128 v8 shapeCasts_S400x32x128_S400x32x128) shapeCasts_S400x32x128_S12800x128) (shapeCast S128x256 v11 shapeCasts_S128x256_S128x256) (constant (F := Ideal) S12800x256 .f32 0x00000000#32)) shapeCasts_S12800x256_S400x32x256) (ix3 r j k) = ((∑ p : Fin 128, B.g r j p * B.wn p k : ℝ) : EReal) := by
  rw [shapeCast_apply _ _ (ix3 r j k) (ix2 (cell r j) k) (by
    rw [Shape.rowMajor_val_two, Shape.rowMajor_val_three]
    show (32 * r.val + j.val) * 256 + k.val = (r.val * 32 + j.val) * 256 + k.val
    omega), mm_nbr_apply, shapeCast_self, shapeCast_self,
    coe_fintype_sum_mul]
  refine Finset.sum_congr rfl fun p _ => ?_
  rw [shapeCast_apply _ _ (ix2 (cell r j) p) (ix3 r j p) (by
    rw [Shape.rowMajor_val_three, Shape.rowMajor_val_two]
    show (r.val * 32 + j.val) * 128 + p.val = (32 * r.val + j.val) * 128 + p.val
    omega), hR.h8, hR.h11]

theorem edge_term (r : Fin 400) (j : Fin 32) (k : Fin 256) :
    (shapeCast S400x32x256 (matmul dot_S16x12800_S16x256_S12800x256_0_0_1_1_n_n none (shapeCast S16x12800 v15 shapeCasts_S16x12800_S16x12800) (shapeCast S16x256 v17 shapeCasts_S16x256_S16x256) (constant (F := Ideal) S12800x256 .f32 0x00000000#32)) shapeCasts_S12800x256_S400x32x256) (ix3 r j k) = ((∑ q : Fin 16, B.e q (cell r j) * B.we q k : ℝ) : EReal) := by
  rw [shapeCast_apply _ _ (ix3 r j k) (ix2 (cell r j) k) (by
    rw [Shape.rowMajor_val_two, Shape.rowMajor_val_three]
    show (32 * r.val + j.val) * 256 + k.val = (r.val * 32 + j.val) * 256 + k.val
    omega), mm_edge_apply, shapeCast_self, shapeCast_self]
  simp only [hR.h15, hR.h17]
  rw [← coe_fintype_sum_mul]

theorem pay6_apply (r : Fin 400) (j : Fin 32) (k : Fin 256) :
    k4_pay6 (F := Ideal) v0 v1 v4 v8 v11 v15 v17 (ix3 r j k) = ((B.Y r j k : ℝ) : EReal) := by
  show (broadcastTo S400x32x256 (shapeCast S400x1x256 (addf (matmul dot_S400x128_S128x256_S400x256_1_0_0_1_n_n none v0 (shapeCast S128x256 v1 shapeCasts_S128x256_S128x256) (constant (F := Ideal) S400x256 .f32 0x00000000#32)) (broadcastTo S400x256 (shapeCast S1x256 v4 shapeCasts_S1x256_S1x256) broadcasts_S1x256_S400x256)) shapeCasts_S400x256_S400x1x256) broadcasts_S400x1x256_S400x32x256) (ix3 r j k) + (shapeCast S400x32x256 (matmul dot_S12800x128_S128x256_S12800x256_1_0_0_1_n_n none (shapeCast S12800x128 (shapeCast S400x32x128 v8 shapeCasts_S400x32x128_S400x32x128) shapeCasts_S400x32x128_S12800x128) (shapeCast S128x256 v11 shapeCasts_S128x256_S128x256) (constant (F := Ideal) S12800x256 .f32 0x00000000#32)) shapeCasts_S12800x256_S400x32x256) (ix3 r j k) + (shapeCast S400x32x256 (matmul dot_S16x12800_S16x256_S12800x256_0_0_1_1_n_n none (shapeCast S16x12800 v15 shapeCasts_S16x12800_S16x12800) (shapeCast S16x256 v17 shapeCasts_S16x256_S16x256) (constant (F := Ideal) S12800x256 .f32 0x00000000#32)) shapeCasts_S12800x256_S400x32x256) (ix3 r j k) = _
  rw [self_term hR, nbr_term hR, edge_term hR, ← EReal.coe_add, ← EReal.coe_add]
  rfl

theorem pay7_apply (r : Fin 400) (j : Fin 32) (k : Fin 128) :
    k4_pay7 (F := Ideal) v0 v1 v4 v8 v11 v15 v17 (ix3 r j k) = ((sigmoid (B.Y r j (kFilt k)) : ℝ) : EReal) := by
  show FloatOps.divf (F := Ideal) (φ := .f32) (Ideal.ofBits .f32 0x3F800000#32)
    (FloatOps.addf (F := Ideal) (φ := .f32) (Ideal.ofBits .f32 0x3F800000#32)
      (FloatOps.exp (F := Ideal) (φ := .f32) (FloatOps.subf (F := Ideal) (φ := .f32) (Ideal.ofBits .f32 0x00000000#32)
        (extractStridedSlice S400x32x128 ![0, 0, 0] (k4_pay6 (F := Ideal) v0 v1 v4 v8 v11 v15 v17) slices_S400x32x256_o0_0_0_S400x32x128
          (ix3 r j k))))) = _
  rw [slice_lo_apply, pay6_apply hR, ofBits_one_f32, ofBits_zero_f32, subf_coe, exp_coe, addf_coe,
    divf_coe _ (one_add_exp_ne_zero _), zero_sub]
  rfl

theorem pay8_apply (r : Fin 400) (j : Fin 32) (k : Fin 128) :
    k4_pay8 (F := Ideal) v0 v1 v4 v8 v11 v15 v17 (ix3 r j k) = ((softplusKer (B.Y r j (kCore k)) : ℝ) : EReal) := by
  show FloatOps.log1p (F := Ideal) (φ := .f32) (FloatOps.exp (F := Ideal) (φ := .f32)
    (extractStridedSlice S400x32x128 ![0, 0, 128] (k4_pay6 (F := Ideal) v0 v1 v4 v8 v11 v15 v17) slices_S400x32x256_o0_0_128_S400x32x128
      (ix3 r j k))) = _
  rw [slice_hi_apply, pay6_apply hR, exp_coe, log1p_coe (neg_one_lt_exp _)]
  rfl

end Point

theorem pay1_apply {v32 v35 : FVec Ideal S400x32x128 .f32} {v36 : FVec Ideal S400x32 .f32}
    (f c : Fin 400 → Fin 32 → Fin 128 → ℝ) (w : Fin 400 → Fin 32 → ℝ)
    (hf : ∀ (r : Fin 400) (j : Fin 32) (k : Fin 128), v32 (ix3 r j k) = ((f r j k : ℝ) : EReal))
    (hc : ∀ (r : Fin 400) (j : Fin 32) (k : Fin 128), v35 (ix3 r j k) = ((c r j k : ℝ) : EReal))
    (hw : ∀ (r : Fin 400) (j : Fin 32), v36 (ix2 r j) = ((w r j : ℝ) : EReal)) (r : Fin 400) (k : Fin 128) :
    k4_pay1 (F := Ideal) v32 v35 v36 (ix2 r k) = ((∑ j : Fin 32, f r j k * c r j k * (w r j * w r j) : ℝ) : EReal) := by
  show multiReduction (F := Ideal) .add [1] S400x128 (mulf (mulf v32 v35) (broadcastTo S400x32x128
    (shapeCast S400x32x1 (mulf v36 v36) shapeCasts_S400x32_S400x32x1) broadcasts_S400x32x1_S400x32x128)) 0x00000000#32
    reduces_S400x32x128_S400x128 (.inl rfl) rfl (ix2 r k) = _
  refine (Ideal.multiReduction_add_single _ 0x00000000#32 reduces_S400x32x128_S400x128 (.inl rfl) rfl (ix2 r k)).trans ?_
  rw [coe_fintype_sum]
  refine Finset.sum_congr rfl fun (j : Fin 32) _ => ?_
  have hl : reduces_S400x32x128_S400x128.lift (ix2 r k) j = ix3 r j k :=
    funext fun a => Fin.ext (by match a with | ⟨0, _⟩ => rfl | ⟨1, _⟩ => rfl | ⟨2, _⟩ => rfl)
  rw [hl, mulf_apply, mulf_apply,
    broadcastTo_apply _ _ (ix3 r j k) (ix3 r j (0 : Fin 1)) (fun a => match a with
    | ⟨0, _⟩ => by show (_ : ℕ) = if (400 : ℕ) = 1 then 0 else _; exact (if_neg (by decide)).symm
    | ⟨1, _⟩ => by show (_ : ℕ) = if (32 : ℕ) = 1 then 0 else _; exact (if_neg (by decide)).symm
    | ⟨2, _⟩ => by show (_ : ℕ) = if (1 : ℕ) = 1 then 0 else _; exact (if_pos rfl).symm),
    shapeCast_apply _ _ (ix3 r j (0 : Fin 1)) (ix2 r j) (by
      rw [Shape.rowMajor_val_two, Shape.rowMajor_val_three]
      show r.val * 32 + j.val = (r.val * 32 + j.val) * 1 + 0
      omega),
    mulf_apply, hf, hc, hw, ← EReal.coe_mul, ← EReal.coe_mul, ← EReal.coe_mul]

theorem ns_apply {B : RBlk} {v0 : FVec Ideal S400x128 .f32} {v1 : FVec Ideal S128x256 .f32} {v4 : FVec Ideal S1x256 .f32}
    {v8 : FVec Ideal S400x32x128 .f32} {v11 : FVec Ideal S128x256 .f32} {v15 : FVec Ideal S16x12800 .f32}
    {v17 : FVec Ideal S16x256 .f32} {v36 : FVec Ideal S400x32 .f32} (hR : Reads B v0 v1 v4 v8 v11 v15 v17)
    (hw : ∀ (r : Fin 400) (j : Fin 32), v36 (ix2 r j) = ((B.bw r j : ℝ) : EReal)) (r : Fin 400) (k : Fin 128) :
    k4_pay1 (F := Ideal) (k4_pay7 v0 v1 v4 v8 v11 v15 v17) (k4_pay8 v0 v1 v4 v8 v11 v15 v17) v36 (ix2 r k) = ((B.NS r k : ℝ) : EReal) := pay1_apply _ _ _ (pay7_apply hR) (pay8_apply hR) hw r k

theorem pay2_apply (z : Fin 1) (k : Fin 128) : k4_pay2 (F := Ideal) (ix2 z k) = ((0 : ℝ) : EReal) := ofBits_zero_f32

theorem pay4_apply {v32 v35 : FVec Ideal S400x32x128 .f32} {v36 : FVec Ideal S400x32 .f32} {v47 : FVec Ideal S1x128 .f32}
    (ns : Fin 400 → Fin 128 → ℝ)
    (hns : ∀ (r : Fin 400) (k : Fin 128), k4_pay1 (F := Ideal) v32 v35 v36 (ix2 r k) = ((ns r k : ℝ) : EReal))
    (z : Fin 1) (k : Fin 128) :
    k4_pay4 (F := Ideal) v32 v35 v36 v47 (ix2 z k) = v47 (ix2 z k) + ((∑ r : Fin 400, ns r k : ℝ) : EReal) := by
  show shapeCast S1x128 v47 shapeCasts_S1x128_S1x128 (ix2 z k)
    + shapeCast S1x128 (multiReduction (F := Ideal) .add [0] S128 (k4_pay1 (F := Ideal) v32 v35 v36) 0x00000000#32
        reduces_S400x128_S128 (.inl rfl) rfl) shapeCasts_S128_S1x128 (ix2 z k) = _
  rw [shapeCast_self, shapeCast_apply _ _ (ix2 z k) (ix1 k) (by
    rw [Shape.rowMajor_val_one, Shape.rowMajor_val_two]
    show k.val = z.val * 128 + k.val
    have := z.isLt
    omega)]
  refine congrArg (v47 (ix2 z k) + ·) ?_
  refine (Ideal.multiReduction_add_single _ 0x00000000#32 reduces_S400x128_S128 (.inl rfl) rfl (ix1 k)).trans ?_
  rw [coe_fintype_sum]
  refine Finset.sum_congr rfl fun (r : Fin 400) _ => ?_
  have hl : reduces_S400x128_S128.lift (ix1 k) r = ix2 r k :=
    funext fun a => Fin.ext (by match a with | ⟨0, _⟩ => rfl | ⟨1, _⟩ => rfl)
  rw [hl, hns]

theorem pay5_apply {v32 v35 : FVec Ideal S400x32x128 .f32} {v36 : FVec Ideal S400x32 .f32} {v53 : FVec Ideal S1x128 .f32}
    (ns : Fin 400 → Fin 128 → ℝ)
    (hns : ∀ (r : Fin 400) (k : Fin 128), k4_pay1 (F := Ideal) v32 v35 v36 (ix2 r k) = ((ns r k : ℝ) : EReal))
    (z : Fin 1) (k : Fin 128) :
    k4_pay5 (F := Ideal) v32 v35 v36 v53 (ix2 z k) = v53 (ix2 z k) + ((∑ r : Fin 400, ns r k * ns r k : ℝ) : EReal) := by
  show shapeCast S1x128 v53 shapeCasts_S1x128_S1x128 (ix2 z k)
    + shapeCast S1x128 (multiReduction (F := Ideal) .add [0] S128
        (mulf (k4_pay1 (F := Ideal) v32 v35 v36) (k4_pay1 (F := Ideal) v32 v35 v36)) 0x00000000#32
        reduces_S400x128_S128 (.inl rfl) rfl) shapeCasts_S128_S1x128 (ix2 z k) = _
  rw [shapeCast_self, shapeCast_apply _ _ (ix2 z k) (ix1 k) (by
    rw [Shape.rowMajor_val_one, Shape.rowMajor_val_two]
    show k.val = z.val * 128 + k.val
    have := z.isLt
    omega)]
  refine congrArg (v53 (ix2 z k) + ·) ?_
  refine (Ideal.multiReduction_add_single _ 0x00000000#32 reduces_S400x128_S128 (.inl rfl) rfl (ix1 k)).trans ?_
  rw [coe_fintype_sum]
  refine Finset.sum_congr rfl fun (r : Fin 400) _ => ?_
  have hl : reduces_S400x128_S128.lift (ix1 k) r = ix2 r k :=
    funext fun a => Fin.ext (by match a with | ⟨0, _⟩ => rfl | ⟨1, _⟩ => rfl)
  rw [hl, mulf_apply, hns, ← EReal.coe_mul]

section Run
variable {N : ℕ} (v32 v35 : (n : ℕ) → n < N → FVec Ideal S400x32x128 .f32) (v36 : (n : ℕ) → n < N → FVec Ideal S400x32 .f32)
  (ns : ℕ → Fin 400 → Fin 128 → ℝ)
  (hns : ∀ (n : ℕ) (h : n < N) (r : Fin 400) (k : Fin 128),
    k4_pay1 (F := Ideal) (v32 n h) (v35 n h) (v36 n h) (ix2 r k) = ((ns n r k : ℝ) : EReal))
include hns

theorem run_sum_apply (S : (n : ℕ) → n < N → FVec Ideal S1x128 .f32) (Z : FVec Ideal S1x128 .f32)
    (hZ : ∀ (z : Fin 1) (k : Fin 128), Z (ix2 z k) = ((0 : ℝ) : EReal))
    (hz : ∀ h : 0 < N, S 0 h = k4_pay4 (F := Ideal) (v32 0 h) (v35 0 h) (v36 0 h) Z)
    (hs : ∀ (n : ℕ) (h : n + 1 < N),
      S (n + 1) h = k4_pay4 (F := Ideal) (v32 (n + 1) h) (v35 (n + 1) h) (v36 (n + 1) h) (S n (Nat.lt_of_succ_lt h)))
    (n : ℕ) (h : n < N) (z : Fin 1) (k : Fin 128) :
    S n h (ix2 z k) = ((∑ m ∈ Finset.range (n + 1), ∑ r : Fin 400, ns m r k : ℝ) : EReal) := by
  induction n with
  | zero =>
    rw [hz h, pay4_apply (ns 0) (hns 0 h), hZ, Finset.sum_range_one, ← EReal.coe_add, zero_add]
  | succ n ih =>
    rw [hs n h, pay4_apply (ns (n + 1)) (hns (n + 1) h), ih (Nat.lt_of_succ_lt h), Finset.sum_range_succ _ (n + 1),
      ← EReal.coe_add]

theorem run_sq_apply (S : (n : ℕ) → n < N → FVec Ideal S1x128 .f32) (Z : FVec Ideal S1x128 .f32)
    (hZ : ∀ (z : Fin 1) (k : Fin 128), Z (ix2 z k) = ((0 : ℝ) : EReal))
    (hz : ∀ h : 0 < N, S 0 h = k4_pay5 (F := Ideal) (v32 0 h) (v35 0 h) (v36 0 h) Z)
    (hs : ∀ (n : ℕ) (h : n + 1 < N),
      S (n + 1) h = k4_pay5 (F := Ideal) (v32 (n + 1) h) (v35 (n + 1) h) (v36 (n + 1) h) (S n (Nat.lt_of_succ_lt h)))
    (n : ℕ) (h : n < N) (z : Fin 1) (k : Fin 128) :
    S n h (ix2 z k) = ((∑ m ∈ Finset.range (n + 1), ∑ r : Fin 400, ns m r k * ns m r k : ℝ) : EReal) := by
  induction n with
  | zero =>
    rw [hz h, pay5_apply (ns 0) (hns 0 h), hZ, Finset.sum_range_one, ← EReal.coe_add, zero_add]
  | succ n ih =>
    rw [hs n h, pay5_apply (ns (n + 1)) (hns (n + 1) h), ih (Nat.lt_of_succ_lt h), Finset.sum_range_succ _ (n + 1),
      ← EReal.coe_add]

end Run

theorem sum_range_eq_sum_fin {β : Type*} [AddCommMonoid β] (N : ℕ) (f : ℕ → β) :
    ∑ m ∈ Finset.range N, f m = ∑ i : Fin N, f i.val := (Fin.sum_univ_eq_sum_range f N).symm

end Cert.Proof.KI.ValGate

end
-- ==== Proof.KI.KerValueGateA.lean ====
import proofs.«202994_g19078244729258_cont_8to1_1405_21_alg».proof.Proof.KI.Region4
import proofs.«202994_g19078244729258_cont_8to1_1405_21_alg».proof.Proof.KI.ValGate
import proofs.«202994_g19078244729258_cont_8to1_1405_21_alg».proof.Proof.KI.KerValueDefs

noncomputable section

namespace Cert.Proof.KI.KerValueGateA

open Cert.KernelIdeal Cert.KernelIdeal.Gen
open Idealize.ShloMosaic Idealize.ShloMosaic.ValueIdx
open Cert.LibIdealReal Cert.Spec Cert.Proof.KI Cert.Proof.KI.ValGate
open scoped BigOperators

variable (I : Inputs)

def off : ℕ := 0

def rblkA (i : Fin 12) : RBlk where
  a r p := I.a (blkA i r) p
  g r j p := I.a (I.idx (blkA i r) j) p
  e q cc := I.e (blkA i ⟨cc.val / 32, by have := cc.isLt; omega⟩) ⟨cc.val % 32, Nat.mod_lt _ (by norm_num)⟩ q
  bw r j := I.bw (blkA i r) j
  ws p k := I.W (iSelf p) k * kerScale1 I k
  wn p k := I.W (iNbr p) k * kerScale1 I k
  we q k := I.W (iEdge q) k * kerScale1 I k
  bg k := I.b k * kerScale1 I k + kerShift1 I k

theorem rblkA_e (i : Fin 12) (r : Fin 400) (j : Fin 32) (q : Fin 16) :
    (rblkA I i).e q (cell r j) = I.e (blkA i r) j q := by
  have h1 : (⟨(cell r j).val / 32, by have := (cell r j).isLt; omega⟩ : Fin 400) = r :=
    Fin.ext (by show (32 * r.val + j.val) / 32 = r.val; have := j.isLt; omega)
  have h2 : (⟨(cell r j).val % 32, Nat.mod_lt _ (by norm_num)⟩ : Fin 32) = j :=
    Fin.ext (by show (32 * r.val + j.val) % 32 = j.val; have := j.isLt; omega)
  show I.e (blkA i ⟨(cell r j).val / 32, _⟩) ⟨(cell r j).val % 32, _⟩ q = _
  rw [h1, h2]

theorem rblkA_Y (i : Fin 12) (r : Fin 400) (j : Fin 32) (k : Fin 256) : (rblkA I i).Y r j k = kerY I (blkA i r) j k := by
  unfold RBlk.Y kerY
  simp only [rblkA_e]
  rfl

theorem rblkA_NS (i : Fin 12) (r : Fin 400) (k : Fin 128) : (rblkA I i).NS r k = kerS I (blkA i r) k := by
  unfold RBlk.NS kerS
  simp only [rblkA_Y]
  rfl

section Blocks

variable {c : Dev nD} (A : Arrs4 (F := Ideal) c)

theorem idx4_0 : ∀ t : Fin cfg4.N, win4_0.index t (0 : Fin 2) = t.val + off ∧ win4_0.index t (1 : Fin 2) = 0 :=
  (by decide +kernel : ∀ t : Fin grid4.N, _)
theorem idx4_1 : ∀ t : Fin cfg4.N, win4_1.index t (0 : Fin 3) = t.val ∧ win4_1.index t (1 : Fin 3) = 0 ∧ win4_1.index t (2 : Fin 3) = 0 :=
  (by decide +kernel : ∀ t : Fin grid4.N, _)
theorem idx4_2 : ∀ t : Fin cfg4.N, win4_2.index t (0 : Fin 2) = 0 ∧ win4_2.index t (1 : Fin 2) = t.val + off :=
  (by decide +kernel : ∀ t : Fin grid4.N, _)
theorem idx4_3 : ∀ t : Fin cfg4.N, win4_3.index t (0 : Fin 2) = t.val + off ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)

theorem blk0_apply (t : Fin cfg4.N) (i : Fin 12) (hi : t.val = i.val) (r : Fin 400) (p : Fin 128) :
    ((blk4 A t).x0 : S400x128.Idx → EReal) (ix2 r p) = (A 0 : S10000x128.Idx → EReal) (ix2 (blkA i r) p) := by
  obtain ⟨e0, e1⟩ := idx4_0 t
  show (A 0 : S10000x128.Idx → EReal) (((cfg4.win 0).blk t).view.emb (ix2 r p)) = _
  refine congrArg (A 0 : S10000x128.Idx → EReal) (funext fun a => Fin.ext ?_)
  match a with
  | ⟨0, _⟩ =>
    show win4_0.index t (0 : Fin 2) * 400 + 1 * r.val = (blkA i r).val
    rw [e0, hi]
    simp only [blkA, off] <;> omega
  | ⟨1, _⟩ => show win4_0.index t (1 : Fin 2) * 128 + 1 * p.val = p.val; rw [e1]; omega

theorem blk1_apply (t : Fin cfg4.N) (i : Fin 12) (hi : t.val = i.val) (r : Fin 400) (j : Fin 32) (p : Fin 128) :
    ((blk4 A t).x1 : S400x32x128.Idx → EReal) (ix3 r j p)
      = (A 1 : S4800x32x128.Idx → EReal) (ix3 (⟨400 * i.val + r.val, by omega⟩ : Fin 4800) j p) := by
  obtain ⟨e0, e1, e2⟩ := idx4_1 t
  show (A 1 : S4800x32x128.Idx → EReal) (((cfg4.win 1).blk t).view.emb (ix3 r j p)) = _
  refine congrArg (A 1 : S4800x32x128.Idx → EReal) (funext fun a => Fin.ext ?_)
  match a with
  | ⟨0, _⟩ => show win4_1.index t (0 : Fin 3) * 400 + 1 * r.val = 400 * i.val + r.val; rw [e0, hi]; omega
  | ⟨1, _⟩ => show win4_1.index t (1 : Fin 3) * 32 + 1 * j.val = j.val; rw [e1]; omega
  | ⟨2, _⟩ => show win4_1.index t (2 : Fin 3) * 128 + 1 * p.val = p.val; rw [e2]; omega

theorem blk2_apply (t : Fin cfg4.N) (i : Fin 12) (hi : t.val = i.val) (q : Fin 16) (cc : Fin 12800) :
    ((blk4 A t).x2 : S16x12800.Idx → EReal) (ix2 q cc)
      = (A 2 : S16x320000.Idx → EReal) (ix2 q (⟨12800 * (i.val + off) + cc.val, by have := i.isLt; have := cc.isLt; unfold off; omega⟩ : Fin 320000)) := by
  obtain ⟨e0, e1⟩ := idx4_2 t
  show (A 2 : S16x320000.Idx → EReal) (((cfg4.win 2).blk t).view.emb (ix2 q cc)) = _
  refine congrArg (A 2 : S16x320000.Idx → EReal) (funext fun a => Fin.ext ?_)
  match a with
  | ⟨0, _⟩ => show win4_2.index t (0 : Fin 2) * 16 + 1 * q.val = q.val; rw [e0]; omega
  | ⟨1, _⟩ => show win4_2.index t (1 : Fin 2) * 12800 + 1 * cc.val = 12800 * (i.val + off) + cc.val; rw [e1, hi]; omega

theorem blk3_apply (t : Fin cfg4.N) (i : Fin 12) (hi : t.val = i.val) (r : Fin 400) (j : Fin 32) :
    ((blk4 A t).x3 : S400x32.Idx → EReal) (ix2 r j) = (A 3 : S10000x32.Idx → EReal) (ix2 (blkA i r) j) := by
  obtain ⟨e0, e1⟩ := idx4_3 t
  show (A 3 : S10000x32.Idx → EReal) (((cfg4.win 3).blk t).view.emb (ix2 r j)) = _
  refine congrArg (A 3 : S10000x32.Idx → EReal) (funext fun a => Fin.ext ?_)
  match a with
  | ⟨0, _⟩ =>
    show win4_3.index t (0 : Fin 2) * 400 + 1 * r.val = (blkA i r).val
    rw [e0, hi]
    simp only [blkA, off] <;> omega
  | ⟨1, _⟩ => show win4_3.index t (1 : Fin 2) * 32 + 1 * j.val = j.val; rw [e1]; omega

theorem blk4_apply (t : Fin cfg4.N) (p : Fin 128) (k : Fin 256) :
    ((blk4 A t).x4 : S128x256.Idx → EReal) (ix2 p k) = (A 4 : S128x256.Idx → EReal) (ix2 p k) := by
  obtain ⟨e0, e1⟩ := idx4_4 t
  show (A 4 : S128x256.Idx → EReal) (((cfg4.win 4).blk t).view.emb (ix2 p k)) = _
  refine congrArg (A 4 : S128x256.Idx → EReal) (funext fun a => Fin.ext ?_)
  match a with
  | ⟨0, _⟩ => show win4_4.index t (0 : Fin 2) * 128 + 1 * p.val = p.val; rw [e0]; omega
  | ⟨1, _⟩ => show win4_4.index t (1 : Fin 2) * 256 + 1 * k.val = k.val; rw [e1]; omega

theorem blk5_apply (t : Fin cfg4.N) (p : Fin 128) (k : Fin 256) :
    ((blk4 A t).x5 : S128x256.Idx → EReal) (ix2 p k) = (A 5 : S128x256.Idx → EReal) (ix2 p k) := by
  obtain ⟨e0, e1⟩ := idx4_5 t
  show (A 5 : S128x256.Idx → EReal) (((cfg4.win 5).blk t).view.emb (ix2 p k)) = _
  refine congrArg (A 5 : S128x256.Idx → EReal) (funext fun a => Fin.ext ?_)
  match a with
  | ⟨0, _⟩ => show win4_5.index t (0 : Fin 2) * 128 + 1 * p.val = p.val; rw [e0]; omega
  | ⟨1, _⟩ => show win4_5.index t (1 : Fin 2) * 256 + 1 * k.val = k.val; rw [e1]; omega

theorem blk6_apply (t : Fin cfg4.N) (q : Fin 16) (k : Fin 256) :
    ((blk4 A t).x6 : S16x256.Idx → EReal) (ix2 q k) = (A 6 : S16x256.Idx → EReal) (ix2 q k) := by
  obtain ⟨e0, e1⟩ := idx4_6 t
  show (A 6 : S16x256.Idx → EReal) (((cfg4.win 6).blk t).view.emb (ix2 q k)) = _
  refine congrArg (A 6 : S16x256.Idx → EReal) (funext fun a => Fin.ext ?_)
  match a with
  | ⟨0, _⟩ => show win4_6.index t (0 : Fin 2) * 16 + 1 * q.val = q.val; rw [e0]; omega
  | ⟨1, _⟩ => show win4_6.index t (1 : Fin 2) * 256 + 1 * k.val = k.val; rw [e1]; omega

theorem blk7_apply (t : Fin cfg4.N) (z : Fin 1) (k : Fin 256) :
    ((blk4 A t).x7 : S1x256.Idx → EReal) (ix2 z k) = (A 7 : S1x256.Idx → EReal) (ix2 (0 : Fin 1) k) := by
  obtain ⟨e0, e1⟩ := idx4_7 t
  show (A 7 : S1x256.Idx → EReal) (((cfg4.win 7).blk t).view.emb (ix2 z k)) = _
  refine congrArg (A 7 : S1x256.Idx → EReal) (funext fun a => Fin.ext ?_)
  match a with
  | ⟨0, _⟩ => show win4_7.index t (0 : Fin 2) * 1 + 1 * z.val = 0; rw [e0]; have := z.isLt; omega
  | ⟨1, _⟩ => show win4_7.index t (1 : Fin 2) * 256 + 1 * k.val = k.val; rw [e1]; omega

structure ReadsA : Prop where
  atom : ∀ (n : Fin 10000) (p : Fin 128), (A 0 : S10000x128.Idx → EReal) (ix2 n p) = ((I.a n p : ℝ) : EReal)
  g : ∀ (r : Fin 4800) (j : Fin 32) (p : Fin 128), (A 1 : S4800x32x128.Idx → EReal) (ix3 r j p) = ((I.a (I.idx (atomA r) j) p : ℝ) : EReal)
  eT : ∀ (q : Fin 16) (n : Fin 10000) (j : Fin 32), (A 2 : S16x320000.Idx → EReal) (ix2 q (pairCol n j)) = ((I.e n j q : ℝ) : EReal)
  bw : ∀ (n : Fin 10000) (j : Fin 32), (A 3 : S10000x32.Idx → EReal) (ix2 n j) = ((I.bw n j : ℝ) : EReal)
  ws : ∀ (p : Fin 128) (k : Fin 256), (A 4 : S128x256.Idx → EReal) (ix2 p k) = ((I.W (iSelf p) k * kerScale1 I k : ℝ) : EReal)
  wn : ∀ (p : Fin 128) (k : Fin 256), (A 5 : S128x256.Idx → EReal) (ix2 p k) = ((I.W (iNbr p) k * kerScale1 I k : ℝ) : EReal)
  we : ∀ (q : Fin 16) (k : Fin 256), (A 6 : S16x256.Idx → EReal) (ix2 q k) = ((I.W (iEdge q) k * kerScale1 I k : ℝ) : EReal)
  bg : ∀ k : Fin 256, (A 7 : S1x256.Idx → EReal) (ix2 (0 : Fin 1) k) = ((I.b k * kerScale1 I k + kerShift1 I k : ℝ) : EReal)

variable {I A} (hA : ReadsA I A)
include hA

theorem reads_point (t : Fin cfg4.N) (i : Fin 12) (hi : t.val = i.val) :
    Reads (rblkA I i) (blk4 A t).x0 (blk4 A t).x4 (blk4 A t).x7 (blk4 A t).x1 (blk4 A t).x5 (blk4 A t).x2 (blk4 A t).x6 where
  h0 r p := (blk0_apply A t i hi r p).trans (hA.atom _ _)
  h1 p k := (blk4_apply A t p k).trans (hA.ws p k)
  h4 z k := (blk7_apply A t z k).trans (hA.bg k)
  h8 r j p := by
    have hrow : atomA (⟨400 * i.val + r.val, by omega⟩ : Fin 4800) = blkA i r :=
      Fin.ext (by simp only [atomA, blkA] <;> omega)
    refine (blk1_apply A t i hi r j p).trans ((hA.g _ j p).trans ?_)
    exact congrArg (fun n => ((I.a (I.idx n j) p : ℝ) : EReal)) hrow
  h11 p k := (blk5_apply A t p k).trans (hA.wn p k)
  h15 q cc := by
    refine (blk2_apply A t i hi q cc).trans ?_
    have hcol : (⟨12800 * (i.val + off) + cc.val, by have := i.isLt; have := cc.isLt; unfold off; omega⟩ : Fin 320000)
        = pairCol (blkA i ⟨cc.val / 32, by have := cc.isLt; omega⟩) ⟨cc.val % 32, Nat.mod_lt _ (by norm_num)⟩ :=
      Fin.ext (by simp only [pairCol, blkA, off] <;> omega)
    rw [hcol]
    exact hA.eT q _ _
  h17 q k := (blk6_apply A t q k).trans (hA.we q k)

theorem reads_bw (t : Fin cfg4.N) (i : Fin 12) (hi : t.val = i.val) (r : Fin 400) (j : Fin 32) :
    ((blk4 A t).x3 : S400x32.Idx → EReal) (ix2 r j) = (((rblkA I i).bw r j : ℝ) : EReal) :=
  (blk3_apply A t i hi r j).trans (hA.bw _ _)

theorem ns4_apply (t : Fin cfg4.N) (i : Fin 12) (hi : t.val = i.val) (r : Fin 400) (k : Fin 128) :
    (ns4 (blk4 A t) : S400x128.Idx → EReal) (ix2 r k) = ((kerS I (blkA i r) k : ℝ) : EReal) := by
  rw [← rblkA_NS]
  exact ns_apply (reads_point hA t i hi) (reads_bw hA t i hi) r k

theorem out8_apply (r : Fin 4800) (k : Fin 128) :
    (out4_8 A : S4800x128.Idx → EReal) (ix2 r k) = ((kerS I (atomA r) k : ℝ) : EReal) := by
  have hr : r.val / 400 < 12 := by have := r.isLt; omega
  have hrow : blkA ⟨r.val / 400, hr⟩ ⟨r.val % 400, Nat.mod_lt _ (by norm_num)⟩ = atomA r :=
    Fin.ext (by simp only [blkA, atomA] <;> omega)
  rw [← hrow]
  exact ns4_apply hA ⟨r.val / 400, point4_lt _ r.isLt⟩ ⟨r.val / 400, hr⟩ rfl ⟨r.val % 400, Nat.mod_lt _ (by norm_num)⟩ k

def nsPt (I : Inputs) (n : ℕ) (r : Fin 400) (k : Fin 128) : ℝ := if h : n < 12 then kerS I (blkA ⟨n, h⟩ r) k else 0

theorem nsPt_apply (n : ℕ) (h : n < cfg4.N) (r : Fin 400) (k : Fin 128) :
    k4_pay1 (F := Ideal) (gate4 (blk4 A ⟨n, h⟩)) (core4 (blk4 A ⟨n, h⟩)) (blk4 A ⟨n, h⟩).x3 (ix2 r k) = ((nsPt I n r k : ℝ) : EReal) := by
  have h12 : n < 12 := by rw [← N_4]; exact h
  unfold nsPt
  rw [dif_pos h12]
  exact ns4_apply hA ⟨n, h⟩ ⟨n, h12⟩ rfl r k

theorem out9_apply (z : Fin 1) (k : Fin 128) :
    (out4_9 A : S1x128.Idx → EReal) (ix2 z k) = ((∑ i : Fin 12, ∑ r : Fin 400, kerS I (blkA i r) k : ℝ) : EReal) := by
  have h := run_sum_apply (N := cfg4.N) (fun n h => gate4 (blk4 A ⟨n, h⟩)) (fun n h => core4 (blk4 A ⟨n, h⟩))
    (fun n h => (blk4 A ⟨n, h⟩).x3) (nsPt I) (fun n h r k => nsPt_apply hA n h r k) (sumAt4 A) (zero4 (F := Ideal)) pay2_apply
    (fun _ => rfl) (fun _ _ => rfl) 11 last4_lt z k
  refine h.trans (congrArg _ ?_)
  rw [sum_range_eq_sum_fin 12 fun m => ∑ r : Fin 400, nsPt I m r k]
  refine Finset.sum_congr rfl fun i _ => Finset.sum_congr rfl fun r _ => ?_
  unfold nsPt
  rw [dif_pos i.isLt]

theorem out10_apply (z : Fin 1) (k : Fin 128) :
    (out4_10 A : S1x128.Idx → EReal) (ix2 z k)
      = ((∑ i : Fin 12, ∑ r : Fin 400, kerS I (blkA i r) k * kerS I (blkA i r) k : ℝ) : EReal) := by
  have h := run_sq_apply (N := cfg4.N) (fun n h => gate4 (blk4 A ⟨n, h⟩)) (fun n h => core4 (blk4 A ⟨n, h⟩))
    (fun n h => (blk4 A ⟨n, h⟩).x3) (nsPt I) (fun n h r k => nsPt_apply hA n h r k) (sqAt4 A) (zero4 (F := Ideal)) pay2_apply
    (fun _ => rfl) (fun _ _ => rfl) 11 last4_lt z k
  refine h.trans (congrArg _ ?_)
  rw [sum_range_eq_sum_fin 12 fun m => ∑ r : Fin 400, nsPt I m r k * nsPt I m r k]
  refine Finset.sum_congr rfl fun i _ => Finset.sum_congr rfl fun r _ => ?_
  unfold nsPt
  rw [dif_pos i.isLt]

end Blocks

end Cert.Proof.KI.KerValueGateA

end
-- ==== Proof.KI.KerValueGateB.lean ====
import proofs.«202994_g19078244729258_cont_8to1_1405_21_alg».proof.Proof.KI.Region5
import proofs.«202994_g19078244729258_cont_8to1_1405_21_alg».proof.Proof.KI.ValGate
import proofs.«202994_g19078244729258_cont_8to1_1405_21_alg».proof.Proof.KI.KerValueDefs

noncomputable section

namespace Cert.Proof.KI.KerValueGateB

open Cert.KernelIdeal Cert.KernelIdeal.Gen
open Idealize.ShloMosaic Idealize.ShloMosaic.ValueIdx
open Cert.LibIdealReal Cert.Spec Cert.Proof.KI Cert.Proof.KI.ValGate
open scoped BigOperators

variable (I : Inputs)

def off : ℕ := 12

def rblkB (i : Fin 13) : RBlk where
  a r p := I.a (blkB i r) p
  g r j p := I.a (I.idx (blkB i r) j) p
  e q cc := I.e (blkB i ⟨cc.val / 32, by have := cc.isLt; omega⟩) ⟨cc.val % 32, Nat.mod_lt _ (by norm_num)⟩ q
  bw r j := I.bw (blkB i r) j
  ws p k := I.W (iSelf p) k * kerScale1 I k
  wn p k := I.W (iNbr p) k * kerScale1 I k
  we q k := I.W (iEdge q) k * kerScale1 I k
  bg k := I.b k * kerScale1 I k + kerShift1 I k

theorem rblkB_e (i : Fin 13) (r : Fin 400) (j : Fin 32) (q : Fin 16) :
    (rblkB I i).e q (cell r j) = I.e (blkB i r) j q := by
  have h1 : (⟨(cell r j).val / 32, by have := (cell r j).isLt; omega⟩ : Fin 400) = r :=
    Fin.ext (by show (32 * r.val + j.val) / 32 = r.val; have := j.isLt; omega)
  have h2 : (⟨(cell r j).val % 32, Nat.mod_lt _ (by norm_num)⟩ : Fin 32) = j :=
    Fin.ext (by show (32 * r.val + j.val) % 32 = j.val; have := j.isLt; omega)
  show I.e (blkB i ⟨(cell r j).val / 32, _⟩) ⟨(cell r j).val % 32, _⟩ q = _
  rw [h1, h2]

theorem rblkB_Y (i : Fin 13) (r : Fin 400) (j : Fin 32) (k : Fin 256) : (rblkB I i).Y r j k = kerY I (blkB i r) j k := by
  unfold RBlk.Y kerY
  simp only [rblkB_e]
  rfl

theorem rblkB_NS (i : Fin 13) (r : Fin 400) (k : Fin 128) : (rblkB I i).NS r k = kerS I (blkB i r) k := by
  unfold RBlk.NS kerS
  simp only [rblkB_Y]
  rfl

section Blocks

variable {c : Dev nD} (A : Arrs5 (F := Ideal) c)

theorem idx5_0 : ∀ t : Fin cfg5.N, win5_0.index t (0 : Fin 2) = t.val + off ∧ win5_0.index t (1 : Fin 2) = 0 :=
  (by decide +kernel : ∀ t : Fin grid5.N, _)
theorem idx5_1 : ∀ t : Fin cfg5.N, win5_1.index t (0 : Fin 3) = t.val ∧ win5_1.index t (1 : Fin 3) = 0 ∧ win5_1.index t (2 : Fin 3) = 0 :=
  (by decide +kernel : ∀ t : Fin grid5.N, _)
theorem idx5_2 : ∀ t : Fin cfg5.N, win5_2.index t (0 : Fin 2) = 0 ∧ win5_2.index t (1 : Fin 2) = t.val + off :=
  (by decide +kernel : ∀ t : Fin grid5.N, _)
theorem idx5_3 : ∀ t : Fin cfg5.N, win5_3.index t (0 : Fin 2) = t.val + off ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)

theorem blk0_apply (t : Fin cfg5.N) (i : Fin 13) (hi : t.val = i.val) (r : Fin 400) (p : Fin 128) :
    ((blk5 A t).x0 : S400x128.Idx → EReal) (ix2 r p) = (A 0 : S10000x128.Idx → EReal) (ix2 (blkB i r) p) := by
  obtain ⟨e0, e1⟩ := idx5_0 t
  show (A 0 : S10000x128.Idx → EReal) (((cfg5.win 0).blk t).view.emb (ix2 r p)) = _
  refine congrArg (A 0 : S10000x128.Idx → EReal) (funext fun a => Fin.ext ?_)
  match a with
  | ⟨0, _⟩ =>
    show win5_0.index t (0 : Fin 2) * 400 + 1 * r.val = (blkB i r).val
    rw [e0, hi]
    simp only [blkB, off] <;> omega
  | ⟨1, _⟩ => show win5_0.index t (1 : Fin 2) * 128 + 1 * p.val = p.val; rw [e1]; omega

theorem blk1_apply (t : Fin cfg5.N) (i : Fin 13) (hi : t.val = i.val) (r : Fin 400) (j : Fin 32) (p : Fin 128) :
    ((blk5 A t).x1 : S400x32x128.Idx → EReal) (ix3 r j p)
      = (A 1 : S5200x32x128.Idx → EReal) (ix3 (⟨400 * i.val + r.val, by omega⟩ : Fin 5200) j p) := by
  obtain ⟨e0, e1, e2⟩ := idx5_1 t
  show (A 1 : S5200x32x128.Idx → EReal) (((cfg5.win 1).blk t).view.emb (ix3 r j p)) = _
  refine congrArg (A 1 : S5200x32x128.Idx → EReal) (funext fun a => Fin.ext ?_)
  match a with
  | ⟨0, _⟩ => show win5_1.index t (0 : Fin 3) * 400 + 1 * r.val = 400 * i.val + r.val; rw [e0, hi]; omega
  | ⟨1, _⟩ => show win5_1.index t (1 : Fin 3) * 32 + 1 * j.val = j.val; rw [e1]; omega
  | ⟨2, _⟩ => show win5_1.index t (2 : Fin 3) * 128 + 1 * p.val = p.val; rw [e2]; omega

theorem blk2_apply (t : Fin cfg5.N) (i : Fin 13) (hi : t.val = i.val) (q : Fin 16) (cc : Fin 12800) :
    ((blk5 A t).x2 : S16x12800.Idx → EReal) (ix2 q cc)
      = (A 2 : S16x320000.Idx → EReal) (ix2 q (⟨12800 * (i.val + off) + cc.val, by have := i.isLt; have := cc.isLt; unfold off; omega⟩ : Fin 320000)) := by
  obtain ⟨e0, e1⟩ := idx5_2 t
  show (A 2 : S16x320000.Idx → EReal) (((cfg5.win 2).blk t).view.emb (ix2 q cc)) = _
  refine congrArg (A 2 : S16x320000.Idx → EReal) (funext fun a => Fin.ext ?_)
  match a with
  | ⟨0, _⟩ => show win5_2.index t (0 : Fin 2) * 16 + 1 * q.val = q.val; rw [e0]; omega
  | ⟨1, _⟩ => show win5_2.index t (1 : Fin 2) * 12800 + 1 * cc.val = 12800 * (i.val + off) + cc.val; rw [e1, hi]; omega

theorem blk3_apply (t : Fin cfg5.N) (i : Fin 13) (hi : t.val = i.val) (r : Fin 400) (j : Fin 32) :
    ((blk5 A t).x3 : S400x32.Idx → EReal) (ix2 r j) = (A 3 : S10000x32.Idx → EReal) (ix2 (blkB i r) j) := by
  obtain ⟨e0, e1⟩ := idx5_3 t
  show (A 3 : S10000x32.Idx → EReal) (((cfg5.win 3).blk t).view.emb (ix2 r j)) = _
  refine congrArg (A 3 : S10000x32.Idx → EReal) (funext fun a => Fin.ext ?_)
  match a with
  | ⟨0, _⟩ =>
    show win5_3.index t (0 : Fin 2) * 400 + 1 * r.val = (blkB i r).val
    rw [e0, hi]
    simp only [blkB, off] <;> omega
  | ⟨1, _⟩ => show win5_3.index t (1 : Fin 2) * 32 + 1 * j.val = j.val; rw [e1]; omega

theorem blk4_apply (t : Fin cfg5.N) (p : Fin 128) (k : Fin 256) :
    ((blk5 A t).x4 : S128x256.Idx → EReal) (ix2 p k) = (A 4 : S128x256.Idx → EReal) (ix2 p k) := by
  obtain ⟨e0, e1⟩ := idx5_4 t
  show (A 4 : S128x256.Idx → EReal) (((cfg5.win 4).blk t).view.emb (ix2 p k)) = _
  refine congrArg (A 4 : S128x256.Idx → EReal) (funext fun a => Fin.ext ?_)
  match a with
  | ⟨0, _⟩ => show win5_4.index t (0 : Fin 2) * 128 + 1 * p.val = p.val; rw [e0]; omega
  | ⟨1, _⟩ => show win5_4.index t (1 : Fin 2) * 256 + 1 * k.val = k.val; rw [e1]; omega

theorem blk5_apply (t : Fin cfg5.N) (p : Fin 128) (k : Fin 256) :
    ((blk5 A t).x5 : S128x256.Idx → EReal) (ix2 p k) = (A 5 : S128x256.Idx → EReal) (ix2 p k) := by
  obtain ⟨e0, e1⟩ := idx5_5 t
  show (A 5 : S128x256.Idx → EReal) (((cfg5.win 5).blk t).view.emb (ix2 p k)) = _
  refine congrArg (A 5 : S128x256.Idx → EReal) (funext fun a => Fin.ext ?_)
  match a with
  | ⟨0, _⟩ => show win5_5.index t (0 : Fin 2) * 128 + 1 * p.val = p.val; rw [e0]; omega
  | ⟨1, _⟩ => show win5_5.index t (1 : Fin 2) * 256 + 1 * k.val = k.val; rw [e1]; omega

theorem blk6_apply (t : Fin cfg5.N) (q : Fin 16) (k : Fin 256) :
    ((blk5 A t).x6 : S16x256.Idx → EReal) (ix2 q k) = (A 6 : S16x256.Idx → EReal) (ix2 q k) := by
  obtain ⟨e0, e1⟩ := idx5_6 t
  show (A 6 : S16x256.Idx → EReal) (((cfg5.win 6).blk t).view.emb (ix2 q k)) = _
  refine congrArg (A 6 : S16x256.Idx → EReal) (funext fun a => Fin.ext ?_)
  match a with
  | ⟨0, _⟩ => show win5_6.index t (0 : Fin 2) * 16 + 1 * q.val = q.val; rw [e0]; omega
  | ⟨1, _⟩ => show win5_6.index t (1 : Fin 2) * 256 + 1 * k.val = k.val; rw [e1]; omega

theorem blk7_apply (t : Fin cfg5.N) (z : Fin 1) (k : Fin 256) :
    ((blk5 A t).x7 : S1x256.Idx → EReal) (ix2 z k) = (A 7 : S1x256.Idx → EReal) (ix2 (0 : Fin 1) k) := by
  obtain ⟨e0, e1⟩ := idx5_7 t
  show (A 7 : S1x256.Idx → EReal) (((cfg5.win 7).blk t).view.emb (ix2 z k)) = _
  refine congrArg (A 7 : S1x256.Idx → EReal) (funext fun a => Fin.ext ?_)
  match a with
  | ⟨0, _⟩ => show win5_7.index t (0 : Fin 2) * 1 + 1 * z.val = 0; rw [e0]; have := z.isLt; omega
  | ⟨1, _⟩ => show win5_7.index t (1 : Fin 2) * 256 + 1 * k.val = k.val; rw [e1]; omega

structure ReadsB : Prop where
  atom : ∀ (n : Fin 10000) (p : Fin 128), (A 0 : S10000x128.Idx → EReal) (ix2 n p) = ((I.a n p : ℝ) : EReal)
  g : ∀ (r : Fin 5200) (j : Fin 32) (p : Fin 128), (A 1 : S5200x32x128.Idx → EReal) (ix3 r j p) = ((I.a (I.idx (atomB r) j) p : ℝ) : EReal)
  eT : ∀ (q : Fin 16) (n : Fin 10000) (j : Fin 32), (A 2 : S16x320000.Idx → EReal) (ix2 q (pairCol n j)) = ((I.e n j q : ℝ) : EReal)
  bw : ∀ (n : Fin 10000) (j : Fin 32), (A 3 : S10000x32.Idx → EReal) (ix2 n j) = ((I.bw n j : ℝ) : EReal)
  ws : ∀ (p : Fin 128) (k : Fin 256), (A 4 : S128x256.Idx → EReal) (ix2 p k) = ((I.W (iSelf p) k * kerScale1 I k : ℝ) : EReal)
  wn : ∀ (p : Fin 128) (k : Fin 256), (A 5 : S128x256.Idx → EReal) (ix2 p k) = ((I.W (iNbr p) k * kerScale1 I k : ℝ) : EReal)
  we : ∀ (q : Fin 16) (k : Fin 256), (A 6 : S16x256.Idx → EReal) (ix2 q k) = ((I.W (iEdge q) k * kerScale1 I k : ℝ) : EReal)
  bg : ∀ k : Fin 256, (A 7 : S1x256.Idx → EReal) (ix2 (0 : Fin 1) k) = ((I.b k * kerScale1 I k + kerShift1 I k : ℝ) : EReal)

variable {I A} (hA : ReadsB I A)
include hA

theorem reads_point (t : Fin cfg5.N) (i : Fin 13) (hi : t.val = i.val) :
    Reads (rblkB I i) (blk5 A t).x0 (blk5 A t).x4 (blk5 A t).x7 (blk5 A t).x1 (blk5 A t).x5 (blk5 A t).x2 (blk5 A t).x6 where
  h0 r p := (blk0_apply A t i hi r p).trans (hA.atom _ _)
  h1 p k := (blk4_apply A t p k).trans (hA.ws p k)
  h4 z k := (blk7_apply A t z k).trans (hA.bg k)
  h8 r j p := by
    have hrow : atomB (⟨400 * i.val + r.val, by omega⟩ : Fin 5200) = blkB i r :=
      Fin.ext (by simp only [atomB, blkB] <;> omega)
    refine (blk1_apply A t i hi r j p).trans ((hA.g _ j p).trans ?_)
    exact congrArg (fun n => ((I.a (I.idx n j) p : ℝ) : EReal)) hrow
  h11 p k := (blk5_apply A t p k).trans (hA.wn p k)
  h15 q cc := by
    refine (blk2_apply A t i hi q cc).trans ?_
    have hcol : (⟨12800 * (i.val + off) + cc.val, by have := i.isLt; have := cc.isLt; unfold off; omega⟩ : Fin 320000)
        = pairCol (blkB i ⟨cc.val / 32, by have := cc.isLt; omega⟩) ⟨cc.val % 32, Nat.mod_lt _ (by norm_num)⟩ :=
      Fin.ext (by simp only [pairCol, blkB, off] <;> omega)
    rw [hcol]
    exact hA.eT q _ _
  h17 q k := (blk6_apply A t q k).trans (hA.we q k)

theorem reads_bw (t : Fin cfg5.N) (i : Fin 13) (hi : t.val = i.val) (r : Fin 400) (j : Fin 32) :
    ((blk5 A t).x3 : S400x32.Idx → EReal) (ix2 r j) = (((rblkB I i).bw r j : ℝ) : EReal) :=
  (blk3_apply A t i hi r j).trans (hA.bw _ _)

theorem ns4_apply (t : Fin cfg5.N) (i : Fin 13) (hi : t.val = i.val) (r : Fin 400) (k : Fin 128) :
    (ns5 (blk5 A t) : S400x128.Idx → EReal) (ix2 r k) = ((kerS I (blkB i r) k : ℝ) : EReal) := by
  rw [← rblkB_NS]
  exact ns_apply (reads_point hA t i hi) (reads_bw hA t i hi) r k

theorem out8_apply (r : Fin 5200) (k : Fin 128) :
    (out5_8 A : S5200x128.Idx → EReal) (ix2 r k) = ((kerS I (atomB r) k : ℝ) : EReal) := by
  have hr : r.val / 400 < 13 := by have := r.isLt; omega
  have hrow : blkB ⟨r.val / 400, hr⟩ ⟨r.val % 400, Nat.mod_lt _ (by norm_num)⟩ = atomB r :=
    Fin.ext (by simp only [blkB, atomB] <;> omega)
  rw [← hrow]
  exact ns4_apply hA ⟨r.val / 400, point5_lt _ r.isLt⟩ ⟨r.val / 400, hr⟩ rfl ⟨r.val % 400, Nat.mod_lt _ (by norm_num)⟩ k

def nsPt (I : Inputs) (n : ℕ) (r : Fin 400) (k : Fin 128) : ℝ := if h : n < 13 then kerS I (blkB ⟨n, h⟩ r) k else 0

theorem nsPt_apply (n : ℕ) (h : n < cfg5.N) (r : Fin 400) (k : Fin 128) :
    k4_pay1 (F := Ideal) (gate5 (blk5 A ⟨n, h⟩)) (core5 (blk5 A ⟨n, h⟩)) (blk5 A ⟨n, h⟩).x3 (ix2 r k) = ((nsPt I n r k : ℝ) : EReal) := by
  have h12 : n < 13 := by rw [← N_5]; exact h
  unfold nsPt
  rw [dif_pos h12]
  exact ns4_apply hA ⟨n, h⟩ ⟨n, h12⟩ rfl r k

theorem out9_apply (z : Fin 1) (k : Fin 128) :
    (out5_9 A : S1x128.Idx → EReal) (ix2 z k) = ((∑ i : Fin 13, ∑ r : Fin 400, kerS I (blkB i r) k : ℝ) : EReal) := by
  have h := run_sum_apply (N := cfg5.N) (fun n h => gate5 (blk5 A ⟨n, h⟩)) (fun n h => core5 (blk5 A ⟨n, h⟩))
    (fun n h => (blk5 A ⟨n, h⟩).x3) (nsPt I) (fun n h r k => nsPt_apply hA n h r k) (sumAt5 A) (zero5 (F := Ideal)) pay2_apply
    (fun _ => rfl) (fun _ _ => rfl) 12 last5_lt z k
  refine h.trans (congrArg _ ?_)
  rw [sum_range_eq_sum_fin 13 fun m => ∑ r : Fin 400, nsPt I m r k]
  refine Finset.sum_congr rfl fun i _ => Finset.sum_congr rfl fun r _ => ?_
  unfold nsPt
  rw [dif_pos i.isLt]

theorem out10_apply (z : Fin 1) (k : Fin 128) :
    (out5_10 A : S1x128.Idx → EReal) (ix2 z k)
      = ((∑ i : Fin 13, ∑ r : Fin 400, kerS I (blkB i r) k * kerS I (blkB i r) k : ℝ) : EReal) := by
  have h := run_sq_apply (N := cfg5.N) (fun n h => gate5 (blk5 A ⟨n, h⟩)) (fun n h => core5 (blk5 A ⟨n, h⟩))
    (fun n h => (blk5 A ⟨n, h⟩).x3) (nsPt I) (fun n h r k => nsPt_apply hA n h r k) (sqAt5 A) (zero5 (F := Ideal)) pay2_apply
    (fun _ => rfl) (fun _ _ => rfl) 12 last5_lt z k
  refine h.trans (congrArg _ ?_)
  rw [sum_range_eq_sum_fin 13 fun m => ∑ r : Fin 400, nsPt I m r k * nsPt I m r k]
  refine Finset.sum_congr rfl fun i _ => Finset.sum_congr rfl fun r _ => ?_
  unfold nsPt
  rw [dif_pos i.isLt]

end Blocks

end Cert.Proof.KI.KerValueGateB

end
-- ==== Proof.KI.KerValueGate.lean ====
import proofs.«202994_g19078244729258_cont_8to1_1405_21_alg».proof.Proof.KI.KerValueGateA
import proofs.«202994_g19078244729258_cont_8to1_1405_21_alg».proof.Proof.KI.KerValueGateB
import proofs.«202994_g19078244729258_cont_8to1_1405_21_alg».proof.Proof.KI.RegionStep

noncomputable section

namespace Cert.Proof.KI

open Cert.KernelIdeal Cert.KernelIdeal.Gen
open Idealize.ShloMosaic Idealize.ShloMosaic.ValueIdx
open Cert.Spec
open scoped BigOperators

structure Upd2Spec (upd : Fin 5 → Valuation τ sig (Elt Ideal) → Valuation τ sig (Elt Ideal)) (d : Dev nD) : Prop where
  ns : ∀ W : Valuation τ sig (Elt Ideal), (upd 2 W (Proc.devRef .tc main_v41_0) : S4800x128.Idx → EReal) = out4_8 (arrs4 W d)
  sum : ∀ W : Valuation τ sig (Elt Ideal), (upd 2 W (Proc.devRef .tc main_v41_1) : S1x128.Idx → EReal) = out4_9 (arrs4 W d)
  sq : ∀ W : Valuation τ sig (Elt Ideal), (upd 2 W (Proc.devRef .tc main_v41_2) : S1x128.Idx → EReal) = out4_10 (arrs4 W d)

structure Upd3Spec (upd : Fin 5 → Valuation τ sig (Elt Ideal) → Valuation τ sig (Elt Ideal)) (d : Dev nD) : Prop where
  ns : ∀ W : Valuation τ sig (Elt Ideal), (upd 3 W (Proc.devRef .tc main_v42_0) : S5200x128.Idx → EReal) = out5_8 (arrs5 W d)
  sum : ∀ W : Valuation τ sig (Elt Ideal), (upd 3 W (Proc.devRef .tc main_v42_1) : S1x128.Idx → EReal) = out5_9 (arrs5 W d)
  sq : ∀ W : Valuation τ sig (Elt Ideal), (upd 3 W (Proc.devRef .tc main_v42_2) : S1x128.Idx → EReal) = out5_10 (arrs5 W d)

variable {upd : Fin 5 → Valuation τ sig (Elt Ideal) → Valuation τ sig (Elt Ideal)}

set_option maxHeartbeats 2000000 in

theorem gate_VJ (hU : UpdSpec upd) (h2 : ∀ d, Upd2Spec upd d) (h3 : ∀ d, Upd3Spec upd d) : GateLink upd := by
  intro I m d hF hH

  have hA : KerValueGateA.ReadsA I (arrs4 (VH m upd d) d) :=
    ⟨fun n p => by
        show (VH m upd d (Proc.devRef .tc main_arg0) : S10000x128.Idx → EReal) (ix2 n p) = _
        exact hH.atom n p,
      fun r j p => by
        show (VH m upd d (Proc.devRef .tc main_v9) : S4800x32x128.Idx → EReal) (ix3 r j p) = _
        exact hH.gA r j p,
      fun q n j => by
        show (VH m upd d (Proc.devRef .tc main_v12) : S16x320000.Idx → EReal) (ix2 q (pairCol n j)) = _
        exact hH.eT q n j,
      fun n j => by
        show (VH m upd d (Proc.devRef .tc main_arg3) : S10000x32.Idx → EReal) (ix2 n j) = _
        exact hH.bw n j,
      fun p k => by
        show (VH m upd d (Proc.devRef .tc main_v34) : S128x256.Idx → EReal) (ix2 p k) = _
        exact hF.ws p k,
      fun p k => by
        show (VH m upd d (Proc.devRef .tc main_v36) : S128x256.Idx → EReal) (ix2 p k) = _
        exact hF.wn p k,
      fun q k => by
        show (VH m upd d (Proc.devRef .tc main_v38) : S16x256.Idx → EReal) (ix2 q k) = _
        exact hF.we q k,
      fun k => by
        show (VH m upd d (Proc.devRef .tc main_v40) : S1x256.Idx → EReal) (ix2 (0 : Fin 1) k) = _
        exact hF.bg k⟩

  have hI : ∀ r : Ref sig .tc, r ∉ regionOuts 2 →
      VI m upd d (Proc.devRef .tc r) = VH m upd d (Proc.devRef .tc r) := fun r hr => hU.frame 2 _ r hr
  have hB : KerValueGateB.ReadsB I (arrs5 (VI m upd d) d) :=
    ⟨fun n p => by
        show (VI m upd d (Proc.devRef .tc main_arg0) : S10000x128.Idx → EReal) (ix2 n p) = _
        rw [hI main_arg0 (by decide)]; exact hH.atom n p,
      fun r j p => by
        show (VI m upd d (Proc.devRef .tc main_v10) : S5200x32x128.Idx → EReal) (ix3 r j p) = _
        rw [hI main_v10 (by decide)]; exact hH.gB r j p,
      fun q n j => by
        show (VI m upd d (Proc.devRef .tc main_v12) : S16x320000.Idx → EReal) (ix2 q (pairCol n j)) = _
        rw [hI main_v12 (by decide)]; exact hH.eT q n j,
      fun n j => by
        show (VI m upd d (Proc.devRef .tc main_arg3) : S10000x32.Idx → EReal) (ix2 n j) = _
        rw [hI main_arg3 (by decide)]; exact hH.bw n j,
      fun p k => by
        show (VI m upd d (Proc.devRef .tc main_v34) : S128x256.Idx → EReal) (ix2 p k) = _
        rw [hI main_v34 (by decide)]; exact hF.ws p k,
      fun p k => by
        show (VI m upd d (Proc.devRef .tc main_v36) : S128x256.Idx → EReal) (ix2 p k) = _
        rw [hI main_v36 (by decide)]; exact hF.wn p k,
      fun q k => by
        show (VI m upd d (Proc.devRef .tc main_v38) : S16x256.Idx → EReal) (ix2 q k) = _
        rw [hI main_v38 (by decide)]; exact hF.we q k,
      fun k => by
        show (VI m upd d (Proc.devRef .tc main_v40) : S1x256.Idx → EReal) (ix2 (0 : Fin 1) k) = _
        rw [hI main_v40 (by decide)]; exact hF.bg k⟩

  have hJ : ∀ r : Ref sig .tc, r ∉ regionOuts 3 →
      VJ m upd d (Proc.devRef .tc r) = VI m upd d (Proc.devRef .tc r) := fun r hr => hU.frame 3 _ r hr
  refine ⟨fun r k => ?_, fun r k => ?_, fun k => ?_, fun k => ?_, fun k => ?_, fun k => ?_⟩
  · rw [hJ main_v41_0 (by decide)]
    show (upd 2 (VH m upd d) (Proc.devRef .tc main_v41_0) : S4800x128.Idx → EReal) (ix2 r k) = _
    rw [(h2 d).ns]
    exact KerValueGateA.out8_apply hA r k
  · show (upd 3 (VI m upd d) (Proc.devRef .tc main_v42_0) : S5200x128.Idx → EReal) (ix2 r k) = _
    rw [(h3 d).ns]
    exact KerValueGateB.out8_apply hB r k
  · rw [hJ main_v41_1 (by decide)]
    show (upd 2 (VH m upd d) (Proc.devRef .tc main_v41_1) : S1x128.Idx → EReal) (ix2 0 k) = _
    rw [(h2 d).sum]
    exact KerValueGateA.out9_apply hA 0 k
  · rw [hJ main_v41_2 (by decide)]
    show (upd 2 (VH m upd d) (Proc.devRef .tc main_v41_2) : S1x128.Idx → EReal) (ix2 0 k) = _
    rw [(h2 d).sq]
    exact KerValueGateA.out10_apply hA 0 k
  · show (upd 3 (VI m upd d) (Proc.devRef .tc main_v42_1) : S1x128.Idx → EReal) (ix2 0 k) = _
    rw [(h3 d).sum]
    exact KerValueGateB.out9_apply hB 0 k
  · show (upd 3 (VI m upd d) (Proc.devRef .tc main_v42_2) : S1x128.Idx → EReal) (ix2 0 k) = _
    rw [(h3 d).sq]
    exact KerValueGateB.out10_apply hB 0 k

end Cert.Proof.KI

end
-- ==== Proof.KI.RecordsSpec.lean ====
import proofs.«202994_g19078244729258_cont_8to1_1405_21_alg».proof.Proof.KI.Records
import proofs.«202994_g19078244729258_cont_8to1_1405_21_alg».proof.Proof.KI.KerValueDefs
import proofs.«202994_g19078244729258_cont_8to1_1405_21_alg».proof.Proof.KI.KerValueStatsLink
import proofs.«202994_g19078244729258_cont_8to1_1405_21_alg».proof.Proof.KI.KerValueGate

noncomputable section

namespace Cert.Proof.KI

open Cert.KernelIdeal Cert.KernelIdeal.Gen
open Idealize.ShloMosaic

theorem updSpec : UpdSpec (upd (F := Ideal)) where
  frame := hupd
  out4 W := upd6_out W

theorem upd_stats0 (d : Dev nD) (W : Valuation τ sig (Elt Ideal)) :
    (upd (F := Ideal) 0 W (Proc.devRef .tc main_v13_0) : S1x256.Idx → EReal) = R2.sumAt (R2.arrs W) d 11 (by decide)
      ∧ (upd (F := Ideal) 0 W (Proc.devRef .tc main_v13_1) : S1x256.Idx → EReal) = R2.sqAt (R2.arrs W) d 11 (by decide) := by
  obtain rfl : d = d0 := Subsingleton.elim _ _
  exact ⟨upd2_sum d0 W, upd2_sq d0 W⟩

theorem upd_stats1 (d : Dev nD) (W : Valuation τ sig (Elt Ideal)) :
    (upd (F := Ideal) 1 W (Proc.devRef .tc main_v14_0) : S1x256.Idx → EReal) = R3.sumAt (R3.arrs W) d 12 (by decide)
      ∧ (upd (F := Ideal) 1 W (Proc.devRef .tc main_v14_1) : S1x256.Idx → EReal) = R3.sqAt (R3.arrs W) d 12 (by decide) := by
  obtain rfl : d = d0 := Subsingleton.elim _ _
  exact ⟨upd3_sum d0 W, upd3_sq d0 W⟩

theorem upd2Spec (d : Dev nD) : Upd2Spec (upd (F := Ideal)) d := by
  obtain rfl : d = d0 := Subsingleton.elim _ _
  exact ⟨fun W => upd4_out8 d0 W, fun W => upd4_out9 d0 W, fun W => upd4_out10 d0 W⟩

theorem upd3Spec (d : Dev nD) : Upd3Spec (upd (F := Ideal)) d := by
  obtain rfl : d = d0 := Subsingleton.elim _ _
  exact ⟨fun W => upd5_out8 d0 W, fun W => upd5_out9 d0 W, fun W => upd5_out10 d0 W⟩

end Cert.Proof.KI

end
-- ==== Proof.KI.Tile0.lean ====
import proofs.«202994_g19078244729258_cont_8to1_1405_21_alg».proof.Proof.KI.Pay
import Idealize.ShloMosaic.Lib.SparseCore.Ops
import Idealize.ShloMosaic.Lib.SparseCore.Stream
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 2) (Elt F) ℕ UU ℕ

namespace Tile0

local notation "tabM" => (Memref.whole Cert.KernelIdeal.main_arg0_scv : Memref Cert.KernelIdeal.sig Kind.scVector Space.hbm Cert.KernelIdeal.S10000x128 EltTy.f32)
local notation "idxM" => (Memref.whole Cert.KernelIdeal.main_v5_scv : Memref Cert.KernelIdeal.sig Kind.scVector Space.hbm Cert.KernelIdeal.S153600 EltTy.i32)
local notation "outM" => (Memref.whole Cert.KernelIdeal.main_v6_scv : Memref Cert.KernelIdeal.sig Kind.scVector Space.hbm Cert.KernelIdeal.S153600x128 EltTy.f32)
local notation "ivM" => (Memref.whole Cert.KernelIdeal.cc0_scratch0 : Memref Cert.KernelIdeal.sig Kind.scVector Space.vmem Cert.KernelIdeal.S4800 EltTy.i32)
local notation "r0M" => (Memref.whole Cert.KernelIdeal.cc0_scratch1 : Memref Cert.KernelIdeal.sig Kind.scVector Space.vmem Cert.KernelIdeal.S80x128 EltTy.f32)
local notation "r1M" => (Memref.whole Cert.KernelIdeal.cc0_scratch2 : Memref Cert.KernelIdeal.sig Kind.scVector Space.vmem Cert.KernelIdeal.S80x128 EltTy.f32)
local notation "r2M" => (Memref.whole Cert.KernelIdeal.cc0_scratch3 : Memref Cert.KernelIdeal.sig Kind.scVector Space.vmem Cert.KernelIdeal.S80x128 EltTy.f32)
local notation "r3M" => (Memref.whole Cert.KernelIdeal.cc0_scratch4 : Memref Cert.KernelIdeal.sig Kind.scVector Space.vmem Cert.KernelIdeal.S80x128 EltTy.f32)
local notation "r4M" => (Memref.whole Cert.KernelIdeal.cc0_scratch5 : Memref Cert.KernelIdeal.sig Kind.scVector Space.vmem Cert.KernelIdeal.S80x128 EltTy.f32)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem bound_zero : grid0.bound 0 = 2 := rfl
theorem bound_one : grid0.bound 1 = 16 := rfl

abbrev wL (L : grid0.Coords) : Fin 32 := tileNo (Fin.cast bound_zero (L 0)) (Fin.cast bound_one (L 1))

def kNums : Finset (DmaSem sig) :=
  {cc0_scratch6.sem, cc0_scratch7.sem, cc0_scratch8.sem, cc0_scratch9.sem, cc0_scratch10.sem, cc0_scratch11.sem, cc0_scratch12.sem,
    cc0_scratch13.sem, cc0_scratch14.sem, cc0_scratch15.sem, cc0_scoped0.sem}

def cellEmb (d : Dev nD) (L : grid0.Coords) : DmaSem sig ↪ GSem nD τ sig :=
  ⟨fun n => (thr d L, SemLoc.dma n), fun _ _ e => SemLoc.dma.inj (Prod.mk.inj e).2⟩

theorem kNums_scoped : ∀ n ∈ kNums, (SemLoc.dma n : SemLoc sig).isScoped .scVector = true := by decide

theorem kCells_sub (d : Dev nD) (L : grid0.Coords) : kNums.map (cellEmb d L) ⊆ ownCells (thr d L) := by
  intro g hg
  obtain ⟨n, hn, rfl⟩ := Finset.mem_map.mp hg
  exact mem_ownCells.mpr ⟨rfl, kNums_scoped n hn⟩

theorem ownSems0_V (d : Dev nD) (L : grid0.Coords) :
    (ownSems0 (thr d L) : sProp 𝕄)
      = iprop((semVal (thr d L, SemLoc.dma cc0_scratch6.sem) 0 ∗ semVal (thr d L, SemLoc.dma cc0_scratch7.sem) 0 ∗ semVal (thr d L, SemLoc.dma cc0_scratch8.sem) 0
            ∗ semVal (thr d L, SemLoc.dma cc0_scratch9.sem) 0 ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0 ∗ semVal (thr d L, SemLoc.dma cc0_scratch14.sem) 0
            ∗ semVal (thr d L, SemLoc.dma cc0_scratch15.sem) 0 ∗ semVal (thr d L, SemLoc.dma cc0_scoped0.sem) 0)
          ∗ bigSep (ownCells (thr d L) \ kNums.map (cellEmb d L)) fun g => semVal g 0) := by
  unfold SparseCore.Cfg.ownSems0
  rw [SparseCore.bigSep_sdiff_split' (kCells_sub d L), BI.bigSep_map]
  unfold kNums
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

def kRefs : Finset (Ref sig .scVector) := {cc0_scratch0, cc0_scratch1, cc0_scratch2, cc0_scratch3, cc0_scratch4, cc0_scratch5}

def refEmb (L : grid0.Coords) : Ref sig .scVector ↪ DevRef τ sig :=
  ⟨(Proc.scVector (cV L) (jV L)).devRef, Proc.devRef_injective _⟩

theorem kRefs_sub (L : grid0.Coords) : kRefs.map (refEmb L) ⊆ ownRefs (τ := τ) (.scVector (cV L) (jV L)) := by
  intro b hb
  obtain ⟨r, hr, rfl⟩ := Finset.mem_map.mp hb
  simp only [kRefs, Finset.mem_insert, Finset.mem_singleton] at hr
  rcases hr with rfl | rfl | rfl | rfl | rfl | rfl <;> exact SparseCore.Cfg.mem_ownRefs_of_owner rfl

theorem ownBufs_V (d : Dev nD) (L : grid0.Coords) :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
            ∗ (∃ f, (thr d L).loc cc0_scratch3 ↦{fullShare} f) ∗ (∃ f, (thr d L).loc cc0_scratch4 ↦{fullShare} f) ∗ (∃ f, (thr d L).loc cc0_scratch5 ↦{fullShare} f))
          ∗ bigSep (ownRefs (τ := τ) (.scVector (cV L) (jV L)) \ kRefs.map (refEmb L)) fun b => iprop(∃ f, ((d, b) : Loc nD τ sig) ↦{fullShare} f)) := by
  unfold SparseCore.Cfg.ownBufs
  rw [show (thr d L).2 = Proc.scVector (cV L) (jV L) from rfl, SparseCore.bigSep_sdiff_split' (kRefs_sub L), BI.bigSep_map]
  unfold kRefs
  rw [SparseCore.bigSep_insert' (by decide), SparseCore.bigSep_insert' (by decide), SparseCore.bigSep_insert' (by decide), SparseCore.bigSep_insert' (by decide),
    SparseCore.bigSep_insert' (by decide), bigSep_singleton]
  rfl

section Tile

variable (m : (ℓ : Loc nD τ sig) → Buf (Elt F) ℓ) (I0 : (d : Dev nD) → Buf (Elt F) (idxLoc0 d))
variable (d : Dev nD) (L : grid0.Coords)

abbrev idxR (L : grid0.Coords) : Rect S153600 := Rect.unit (s := S153600) (k0_off1 L) S4800.size (k0_off1_inb L)
abbrev idxSl (L : grid0.Coords) : Memref sig .scVector .hbm S4800 .i32 := (idxM).slice (idxR L) (fun _ => rfl)

abbrev tabSl : Memref sig .scVector .hbm S10000x128 .f32 :=
  (tabM).slice (Rect.unit (s := S10000x128) ![0, 0] S10000x128.size inb_S10000x128_S10000x128_0_0) (fun _ => rfl)

theorem idxR_eq : idxR L = idxPart0 (wL L) := by
  unfold idxR idxPart0 Rect.part Rect.block
  congr 1 <;> funext a
  · rw [k0_off1_eq]
    match a with
    | 0 =>
      show 9600 * (L 1).val + 4800 * (L 0).val = ((L 1).val * 2 + (L 0).val) * (153600 / 32)
      omega
  · match a with
    | 0 => rfl

theorem set_idxSl : (idxSl L).view.set = idxSet0 (wL L) := by
  show ((idxM).view.slice (idxR L)).set = ((idxM).view.slice (idxPart0 (wL L))).set
  rw [idxR_eq]

theorem pts_idxSl (f : Buf (Elt F) (idxLoc0 d)) :
    ((idxSl L).view.loc (thr d L) ↦[(idxSl L).view.set]{fullShare} f : sProp 𝕄) = idxLoc0 d ↦[idxSet0 (wL L)]{fullShare} f := by
  rw [set_idxSl]

theorem pts_tab (q : PosShare TreeShare) (f : Buf (Elt F) (tabLoc d)) :
    ((tabM).view.loc (thr d L) ↦{q} f : sProp 𝕄) = tabLoc d ↦{q} f := rfl

theorem pts_iv (f : Buf (Elt F) ((thr d L).loc cc0_scratch0)) :
    ((ivM).view.loc (thr d L) ↦{fullShare} f : sProp 𝕄) = (thr d L).loc cc0_scratch0 ↦{fullShare} f := rfl
theorem pts_r0 (f : Buf (Elt F) ((thr d L).loc cc0_scratch1)) :
    ((r0M).view.loc (thr d L) ↦{fullShare} f : sProp 𝕄) = (thr d L).loc cc0_scratch1 ↦{fullShare} f := rfl
theorem pts_r1 (f : Buf (Elt F) ((thr d L).loc cc0_scratch2)) :
    ((r1M).view.loc (thr d L) ↦{fullShare} f : sProp 𝕄) = (thr d L).loc cc0_scratch2 ↦{fullShare} f := rfl
theorem pts_r2 (f : Buf (Elt F) ((thr d L).loc cc0_scratch3)) :
    ((r2M).view.loc (thr d L) ↦{fullShare} f : sProp 𝕄) = (thr d L).loc cc0_scratch3 ↦{fullShare} f := rfl
theorem pts_r3 (f : Buf (Elt F) ((thr d L).loc cc0_scratch4)) :
    ((r3M).view.loc (thr d L) ↦{fullShare} f : sProp 𝕄) = (thr d L).loc cc0_scratch4 ↦{fullShare} f := rfl
theorem pts_r4 (f : Buf (Elt F) ((thr d L).loc cc0_scratch5)) :
    ((r4M).view.loc (thr d L) ↦{fullShare} f : sProp 𝕄) = (thr d L).loc cc0_scratch5 ↦{fullShare} f := rfl

theorem toks5 {ℓ : Loc nD τ sig} (q : PosShare TreeShare) (f : Buf (Elt F) ℓ) :
    (ℓ ↦{q} f : sProp 𝕄) ⊣⊢ iprop((ℓ ↦{shareDrop q 5} f) ∗ (ℓ ↦{shareTokN q 0} f) ∗ (ℓ ↦{shareTokN q 1} f) ∗ (ℓ ↦{shareTokN q 2} f)
      ∗ (ℓ ↦{shareTokN q 3} f) ∗ (ℓ ↦{shareTokN q 4} f)) := by
  have h := Transfers.pointsTo_toks_range (nD := nD) (τ := τ) (sig := sig) (Ix := HIx 2) (Val := Elt F) (Name := ℕ) (U := UU) (Lvl := ℕ)
    (ℓ := ℓ) (S := Finset.univ) (f := f) q 5
  rw [show Finset.range 5 = insert 0 (insert 1 (insert 2 (insert 3 {4}))) by decide,
    BI.bigSep_insert (by decide), BI.bigSep_insert (by decide), BI.bigSep_insert (by decide), BI.bigSep_insert (by decide), bigSep_singleton] at h
  exact h

def ivCh (j : ℕ) : Finset S4800.Idx := Finset.univ.filter fun x => 80 * j ≤ (x 0).val ∧ (x 0).val < 80 * j + 80

def outCh (w : Fin 32) (j : ℕ) : Finset S153600x128.Idx :=
  Finset.univ.filter fun x => 4800 * w.val + 80 * j ≤ (x 0).val ∧ (x 0).val < 4800 * w.val + 80 * j + 80

def aft (a : ℕ) : Finset ℕ := (Finset.range 60).filter fun j => a ≤ j

theorem aft_zero : aft 0 = Finset.range 60 := by ext j; simp [aft]
theorem aft_empty {a : ℕ} (h : 60 ≤ a) : aft a = ∅ := by ext j; simp [aft]; omega
theorem aft_peel {a : ℕ} (h : a < 60) : aft a = insert a (aft (a + 1)) := by
  ext j; simp only [aft, Finset.mem_filter, Finset.mem_range, Finset.mem_insert]; omega
theorem not_mem_aft (a : ℕ) : a ∉ aft (a + 1) := by simp [aft]

theorem bigSep_aft_peel {a : ℕ} (h : a < 60) (Φ : ℕ → sProp 𝕄) : bigSep (aft a) Φ = iprop(Φ a ∗ bigSep (aft (a + 1)) Φ) := by
  rw [aft_peel h, BI.bigSep_insert (not_mem_aft a)]; rfl

theorem bigSep_aft5 {a : ℕ} (h : a + 5 ≤ 60) (Φ : ℕ → sProp 𝕄) :
    bigSep (aft a) Φ = iprop(Φ a ∗ Φ (a + 1) ∗ Φ (a + 2) ∗ Φ (a + 3) ∗ Φ (a + 4) ∗ bigSep (aft (a + 5)) Φ) := by
  rw [bigSep_aft_peel (by omega), bigSep_aft_peel (a := a + 1) (by omega), bigSep_aft_peel (a := a + 1 + 1) (by omega),
    bigSep_aft_peel (a := a + 1 + 1 + 1) (by omega), bigSep_aft_peel (a := a + 1 + 1 + 1 + 1) (by omega)]

theorem bigSep_range_succ (n : ℕ) (Φ : ℕ → sProp 𝕄) : bigSep (Finset.range (n + 1)) Φ = iprop(Φ n ∗ bigSep (Finset.range n) Φ) := by
  rw [Finset.range_add_one, BI.bigSep_insert Finset.notMem_range_self]; rfl

theorem bigSep_range5 (a : ℕ) (Φ : ℕ → sProp 𝕄) :
    bigSep (Finset.range (a + 5)) Φ = iprop(Φ (a + 4) ∗ Φ (a + 3) ∗ Φ (a + 2) ∗ Φ (a + 1) ∗ Φ a ∗ bigSep (Finset.range a) Φ) := by
  rw [show a + 5 = a + 1 + 1 + 1 + 1 + 1 from rfl, bigSep_range_succ, bigSep_range_succ, bigSep_range_succ, bigSep_range_succ, bigSep_range_succ]

theorem ivCh_disjoint : ∀ i ∈ Finset.range 60, ∀ j ∈ Finset.range 60, i ≠ j → Disjoint (ivCh i) (ivCh j) := by
  intro i _ j _ hij
  rw [Finset.disjoint_left]
  intro x hx hx'
  simp only [ivCh, Finset.mem_filter, Finset.mem_univ, true_and] at hx hx'
  omega

theorem ivCh_cover : (Finset.range 60).biUnion ivCh = Finset.univ := by
  ext x
  simp only [Finset.mem_biUnion, Finset.mem_range, ivCh, Finset.mem_filter, Finset.mem_univ, true_and, iff_true]
  have hx : (x 0).val < 4800 := (x 0).isLt
  exact ⟨(x 0).val / 80, by omega, by omega, by omega⟩

theorem outCh_disjoint (w : Fin 32) : ∀ i ∈ Finset.range 60, ∀ j ∈ Finset.range 60, i ≠ j → Disjoint (outCh w i) (outCh w j) := by
  intro i _ j _ hij
  rw [Finset.disjoint_left]
  intro x hx hx'
  simp only [outCh, Finset.mem_filter, Finset.mem_univ, true_and] at hx hx'
  omega

abbrev ivSlAt (o : Fin 1 → ℕ) (h : ∀ a, o a + S80.size a ≤ S4800.size a) : Memref sig .scVector .vmem S80 .i32 :=
  (ivM).slice (Rect.unit (s := S4800) o S80.size h) (fun _ => rfl)

theorem set_ivSlAt (o : Fin 1 → ℕ) (h : ∀ a, o a + S80.size a ≤ S4800.size a) (j : ℕ) (ho : o 0 = 80 * j) :
    (ivSlAt o h).view.set = ivCh j := by
  refine Eq.trans (View.set_slice_whole (sig := sig) (κ := .scVector) cc0_scratch0 (Rect.unit (s := S4800) o S80.size h)) ?_
  ext x
  rw [Rect.mem_set_unit]
  simp only [ivCh, Finset.mem_filter, Finset.mem_univ, true_and]
  constructor
  · intro hx; have := hx 0; rw [ho] at this; exact ⟨this.1, by simpa using this.2⟩
  · intro hx a
    match a with
    | 0 => rw [ho]; exact ⟨hx.1, by simpa using hx.2⟩

theorem set_tabSl : (tabSl).view.set = (Finset.univ : Finset S10000x128.Idx) := by
  refine Eq.trans (View.set_slice_whole (sig := sig) (κ := .scVector) main_arg0_scv
    (Rect.unit (s := S10000x128) ![0, 0] S10000x128.size inb_S10000x128_S10000x128_0_0)) ?_
  ext x
  simp only [Finset.mem_univ, iff_true, Rect.mem_set_unit]
  intro a
  match a with
  | 0 => exact ⟨Nat.zero_le _, by have h : (x 0).val < 10000 := (x 0).isLt; show (x 0).val < 0 + 10000; omega⟩
  | 1 => exact ⟨Nat.zero_le _, by have h : (x 1).val < 128 := (x 1).isLt; show (x 1).val < 0 + 128; omega⟩

theorem pts_tabSl (q : PosShare TreeShare) (f : Buf (Elt F) (tabLoc d)) :
    ((tabSl).view.loc (thr d L) ↦[(tabSl).view.set]{q} f : sProp 𝕄) = tabLoc d ↦{q} f := by
  rw [set_tabSl]

theorem pts_ivSlAt (o : Fin 1 → ℕ) (h : ∀ a, o a + S80.size a ≤ S4800.size a) (j : ℕ) (ho : o 0 = 80 * j)
    (f : Buf (Elt F) ((thr d L).loc cc0_scratch0)) :
    ((ivSlAt o h).view.loc (thr d L) ↦[(ivSlAt o h).view.set]{fullShare} f : sProp 𝕄) = (thr d L).loc cc0_scratch0 ↦[ivCh j]{fullShare} f := by
  rw [set_ivSlAt o h j ho]

def ivC : Buf (Elt F) ((thr d L).loc cc0_scratch0) := (idxSl L).view.read (Elt F) (I0 d)

theorem ivC_lt (hin : ∀ d j, (I0 d j).toNat < 10000) (x : S4800.Idx) : (ivC I0 d L x).toNat < 10000 := hin d _

theorem hin_ivSlAt (hin : ∀ d j, (I0 d j).toNat < 10000) (o : Fin 1 → ℕ) (h : ∀ a, o a + S80.size a ≤ S4800.size a) :
    ∀ x : S80.Idx, ((ivSlAt o h).view.read (Elt F) (ivC I0 d L) x).toNat < 10000 := fun _ => ivC_lt I0 d L hin _

theorem iv_chunks (f : Buf (Elt F) ((thr d L).loc cc0_scratch0)) :
    ((thr d L).loc cc0_scratch0 ↦{fullShare} f : sProp 𝕄)
      = iprop(((thr d L).loc cc0_scratch0 ↦[ivCh 0]{fullShare} f) ∗ ((thr d L).loc cc0_scratch0 ↦[ivCh 1]{fullShare} f)
          ∗ ((thr d L).loc cc0_scratch0 ↦[ivCh 2]{fullShare} f) ∗ ((thr d L).loc cc0_scratch0 ↦[ivCh 3]{fullShare} f)
          ∗ ((thr d L).loc cc0_scratch0 ↦[ivCh 4]{fullShare} f) ∗ bigSep (aft 5) fun j => (thr d L).loc cc0_scratch0 ↦[ivCh j]{fullShare} f) := by
  rw [← bigSep_aft5 (a := 0) (by omega) (fun j => ((thr d L).loc cc0_scratch0 ↦[ivCh j]{fullShare} f : sProp 𝕄)), aft_zero,
    ← pointsTo_biUnion _ _ ivCh_disjoint, ivCh_cover]

abbrev outSlAt (o : Fin 2 → ℕ) (h : ∀ a, o a + S80x128.size a ≤ S153600x128.size a) : Memref sig .scVector .hbm S80x128 .f32 :=
  (outM).slice (Rect.unit (s := S153600x128) o S80x128.size h) (fun _ => rfl)

theorem set_outSlAt (o : Fin 2 → ℕ) (h : ∀ a, o a + S80x128.size a ≤ S153600x128.size a) (w : Fin 32) (j : ℕ)
    (ho0 : o 0 = 4800 * w.val + 80 * j) (ho1 : o 1 = 0) : (outSlAt o h).view.set = outCh w j := by
  refine Eq.trans (View.set_slice_whole (sig := sig) (κ := .scVector) main_v6_scv (Rect.unit (s := S153600x128) o S80x128.size h)) ?_
  ext x
  rw [Rect.mem_set_unit]
  simp only [outCh, Finset.mem_filter, Finset.mem_univ, true_and]
  constructor
  · intro hx; have := hx 0; rw [ho0] at this; exact ⟨this.1, by simpa using this.2⟩
  · intro hx a
    match a with
    | 0 => rw [ho0]; exact ⟨hx.1, by simpa using hx.2⟩
    | 1 => rw [ho1]; exact ⟨Nat.zero_le _, by have h1 : (x 1).val < 128 := (x 1).isLt; show (x 1).val < 0 + 128; omega⟩

theorem pts_outSlAt (o : Fin 2 → ℕ) (h : ∀ a, o a + S80x128.size a ≤ S153600x128.size a) (w : Fin 32) (j : ℕ)
    (ho0 : o 0 = 4800 * w.val + 80 * j) (ho1 : o 1 = 0) (f : Buf (Elt F) (outLoc0 d)) :
    ((outSlAt o h).view.loc (thr d L) ↦[(outSlAt o h).view.set]{fullShare} f : sProp 𝕄) = outLoc0 d ↦[outCh w j]{fullShare} f := by
  rw [set_outSlAt o h w j ho0 ho1]

theorem off2_0 (t : Fin k0_t1_loop.trips) (b : Fin 5) :
    (k0_off2 L t (BitVec.ofNat 32 b.val)) 0 = 4800 * (wL L).val + 80 * (5 * t.val + b.val) := by
  rw [k0_off2_eq]
  show 9600 * (L 1).val + 4800 * (L 0).val + 400 * t.val + 80 * b.val = 4800 * ((L 1).val * 2 + (L 0).val) + 80 * (5 * t.val + b.val)
  omega
theorem off2_1 (t : Fin k0_t1_loop.trips) (b : Fin 5) : (k0_off2 L t (BitVec.ofNat 32 b.val)) 1 = 0 := by
  rw [k0_off2_eq]; rfl

theorem outCh_cover (w : Fin 32) : (Finset.range 60).biUnion (outCh w) = outSet0 w := by
  rw [show outSet0 w = (outPart0 w).set from View.set_slice_whole (sig := sig) (κ := .scVector) main_v6_scv (outPart0 w)]
  ext x
  rw [Rect.mem_set_unit]
  simp only [Finset.mem_biUnion, Finset.mem_range, outCh, Finset.mem_filter, Finset.mem_univ, true_and]
  have h0 : (x 0).val < 153600 := (x 0).isLt
  have h1 : (x 1).val < 128 := (x 1).isLt
  have hw : w.val < 32 := w.isLt
  constructor
  · rintro ⟨j, hj, hl, hu⟩ a
    match a with
    | 0 => show w.val * (153600 / 32) ≤ (x 0).val ∧ (x 0).val < w.val * (153600 / 32) + 153600 / 32; omega
    | 1 => show 0 * 128 ≤ (x 1).val ∧ (x 1).val < 0 * 128 + 128; omega
  · intro hx
    have hx0 : w.val * (153600 / 32) ≤ (x 0).val ∧ (x 0).val < w.val * (153600 / 32) + 153600 / 32 := hx 0
    exact ⟨((x 0).val - 4800 * w.val) / 80, by omega, by omega, by omega⟩

theorem out_chunks (w : Fin 32) (f : Buf (Elt F) (outLoc0 d)) :
    (outLoc0 d ↦[outSet0 w]{fullShare} f : sProp 𝕄) = bigSep (aft 0) fun j => outLoc0 d ↦[outCh w j]{fullShare} f := by
  rw [aft_zero, ← pointsTo_biUnion _ _ (outCh_disjoint w), outCh_cover]

theorem out_join (w : Fin 32) (f : Buf (Elt F) (outLoc0 d)) :
    (bigSep (Finset.range 60) fun j => (outLoc0 d ↦[outCh w j]{fullShare} f : sProp 𝕄)) = outLoc0 d ↦[outSet0 w]{fullShare} f := by
  rw [← pointsTo_biUnion _ _ (outCh_disjoint w), outCh_cover]
theorem iv_join (f : Buf (Elt F) ((thr d L).loc cc0_scratch0)) :
    (bigSep (Finset.range 60) fun j => ((thr d L).loc cc0_scratch0 ↦[ivCh j]{fullShare} f : sProp 𝕄)) = (thr d L).loc cc0_scratch0 ↦{fullShare} f := by
  rw [← pointsTo_biUnion _ _ ivCh_disjoint, ivCh_cover]
theorem bigSep_range0 (Φ : ℕ → sProp 𝕄) : (iprop(emp) : sProp 𝕄) ⊢ bigSep (Finset.range (5 * 0)) Φ := by
  show _ ⊢ bigSep (Finset.range 0) Φ
  rw [Finset.range_zero, bigSep_empty]; exact .rfl

section Loop

variable (O : CellTallies nD τ sig (HIx 2)) (W : Waits sig (HIx 2)) (f0 : Buf (Elt F) (outLoc0 d))

abbrev qT (L : grid0.Coords) : PosShare TreeShare := shareTok fullShare 32 (wL L)

def outRow (L : grid0.Coords) (j : ℕ) (x : Fin 80) : Fin 153600 := ⟨(4800 * (wL L).val + 80 * j + x.val) % 153600, Nat.mod_lt _ (by decide)⟩

def rowsV (j : ℕ) : S80x128.Idx → Elt F .f32 :=
  fun x => gathered0 (m (tabLoc d)) (I0 d) (ValueIdx.ix2 (outRow L j (x 0)) (x 1 : Fin 128))

abbrev ivP (j : ℕ) : sProp 𝕄 := (thr d L).loc cc0_scratch0 ↦[ivCh j]{fullShare} ivC I0 d L
abbrev outDone (j : ℕ) : sProp 𝕄 := outLoc0 d ↦[outCh (wL L) j]{fullShare} gathered0 (m (tabLoc d)) (I0 d)
abbrev outTodo (j : ℕ) : sProp 𝕄 := outLoc0 d ↦[outCh (wL L) j]{fullShare} f0

def Dg0 (j : ℕ) : sProp 𝕄 :=
  iprop((((r0M).view.loc (thr d L) ↦{fullShare} rowsV m I0 d L j) ∗ ((thr d L).loc cc0_scratch0 ↦[ivCh j]{fullShare} ivC I0 d L))
    ∗ ((tabSl).view.loc (thr d L) ↦[(tabSl).view.set]{shareTokN (qT L) 0} m (tabLoc d)))

def Fl0 (j : ℕ) : sProp 𝕄 :=
  Transfers.Flight (countersEmb : UEmb Counters 𝕄) (thr d L) (SemLoc.dma cc0_scratch6.sem) (default : HIx 2) 327680 (Dg0 m I0 d L j)

def Idle0 : sProp 𝕄 :=
  iprop((∃ f, (r0M).view.loc (thr d L) ↦{fullShare} f) ∗ ((tabSl).view.loc (thr d L) ↦[(tabSl).view.set]{shareTokN (qT L) 0} m (tabLoc d))
    ∗ semVal (thr d L, SemLoc.dma cc0_scratch6.sem) 0)

def Dg1 (j : ℕ) : sProp 𝕄 :=
  iprop((((r1M).view.loc (thr d L) ↦{fullShare} rowsV m I0 d L j) ∗ ((thr d L).loc cc0_scratch0 ↦[ivCh j]{fullShare} ivC I0 d L))
    ∗ ((tabSl).view.loc (thr d L) ↦[(tabSl).view.set]{shareTokN (qT L) 1} m (tabLoc d)))

def Fl1 (j : ℕ) : sProp 𝕄 :=
  Transfers.Flight (countersEmb : UEmb Counters 𝕄) (thr d L) (SemLoc.dma cc0_scratch7.sem) (default : HIx 2) 327680 (Dg1 m I0 d L j)

def Idle1 : sProp 𝕄 :=
  iprop((∃ f, (r1M).view.loc (thr d L) ↦{fullShare} f) ∗ ((tabSl).view.loc (thr d L) ↦[(tabSl).view.set]{shareTokN (qT L) 1} m (tabLoc d))
    ∗ semVal (thr d L, SemLoc.dma cc0_scratch7.sem) 0)

def Dg2 (j : ℕ) : sProp 𝕄 :=
  iprop((((r2M).view.loc (thr d L) ↦{fullShare} rowsV m I0 d L j) ∗ ((thr d L).loc cc0_scratch0 ↦[ivCh j]{fullShare} ivC I0 d L))
    ∗ ((tabSl).view.loc (thr d L) ↦[(tabSl).view.set]{shareTokN (qT L) 2} m (tabLoc d)))

def Fl2 (j : ℕ) : sProp 𝕄 :=
  Transfers.Flight (countersEmb : UEmb Counters 𝕄) (thr d L) (SemLoc.dma cc0_scratch8.sem) (default : HIx 2) 327680 (Dg2 m I0 d L j)

def Idle2 : sProp 𝕄 :=
  iprop((∃ f, (r2M).view.loc (thr d L) ↦{fullShare} f) ∗ ((tabSl).view.loc (thr d L) ↦[(tabSl).view.set]{shareTokN (qT L) 2} m (tabLoc d))
    ∗ semVal (thr d L, SemLoc.dma cc0_scratch8.sem) 0)

def Dg3 (j : ℕ) : sProp 𝕄 :=
  iprop((((r3M).view.loc (thr d L) ↦{fullShare} rowsV m I0 d L j) ∗ ((thr d L).loc cc0_scratch0 ↦[ivCh j]{fullShare} ivC I0 d L))
    ∗ ((tabSl).view.loc (thr d L) ↦[(tabSl).view.set]{shareTokN (qT L) 3} m (tabLoc d)))

def Fl3 (j : ℕ) : sProp 𝕄 :=
  Transfers.Flight (countersEmb : UEmb Counters 𝕄) (thr d L) (SemLoc.dma cc0_scratch9.sem) (default : HIx 2) 327680 (Dg3 m I0 d L j)

def Idle3 : sProp 𝕄 :=
  iprop((∃ f, (r3M).view.loc (thr d L) ↦{fullShare} f) ∗ ((tabSl).view.loc (thr d L) ↦[(tabSl).view.set]{shareTokN (qT L) 3} m (tabLoc d))
    ∗ semVal (thr d L, SemLoc.dma cc0_scratch9.sem) 0)

def Dg4 (j : ℕ) : sProp 𝕄 :=
  iprop((((r4M).view.loc (thr d L) ↦{fullShare} rowsV m I0 d L j) ∗ ((thr d L).loc cc0_scratch0 ↦[ivCh j]{fullShare} ivC I0 d L))
    ∗ ((tabSl).view.loc (thr d L) ↦[(tabSl).view.set]{shareTokN (qT L) 4} m (tabLoc d)))

def Fl4 (j : ℕ) : sProp 𝕄 :=
  Transfers.Flight (countersEmb : UEmb Counters 𝕄) (thr d L) (SemLoc.dma cc0_scratch10.sem) (default : HIx 2) 327680 (Dg4 m I0 d L j)

def Idle4 : sProp 𝕄 :=
  iprop((∃ f, (r4M).view.loc (thr d L) ↦{fullShare} f) ∗ ((tabSl).view.loc (thr d L) ↦[(tabSl).view.set]{shareTokN (qT L) 4} m (tabLoc d))
    ∗ semVal (thr d L, SemLoc.dma cc0_scratch10.sem) 0)

def slots (k : ℕ) : sProp 𝕄 :=
  if k < 12 then iprop(Fl0 m I0 d L (5 * k) ∗ Fl1 m I0 d L (5 * k + 1) ∗ Fl2 m I0 d L (5 * k + 2) ∗ Fl3 m I0 d L (5 * k + 3) ∗ Fl4 m I0 d L (5 * k + 4))
  else iprop(Idle0 m d L ∗ Idle1 m d L ∗ Idle2 m d L ∗ Idle3 m d L ∗ Idle4 m d L)

def inv (k : ℕ) (_ : Unit) : sProp 𝕄 :=
  iprop(Transfers.MayWaits (thr d L) (none : HIx 2) O ∗ slots m I0 d L k
    ∗ (semVal (thr d L, SemLoc.dma cc0_scratch11.sem) 0 ∗ semVal (thr d L, SemLoc.dma cc0_scratch12.sem) 0 ∗ semVal (thr d L, SemLoc.dma cc0_scratch13.sem) 0
        ∗ semVal (thr d L, SemLoc.dma cc0_scratch14.sem) 0 ∗ semVal (thr d L, SemLoc.dma cc0_scratch15.sem) 0)
    ∗ bigSep (Finset.range (5 * k)) (ivP I0 d L) ∗ bigSep (aft (5 * k + 5)) (ivP I0 d L)
    ∗ bigSep (Finset.range (5 * k)) (outDone m I0 d L) ∗ bigSep (aft (5 * k)) (outTodo d L f0)
    ∗ ∃ W', ⌜∀ p ∈ W', p ∈ W ∨ p.2 = none⌝ ∗ owes (thr d L) O W')

theorem trips_eq : k0_t1_loop.trips = 12 := by decide

theorem cond1_pos : ∀ t : Fin k0_t1_loop.trips, t.val < 11 → k0_cond1 t = 1#1 := by decide +kernel
theorem cond2_pos : ∀ t : Fin k0_t1_loop.trips, t.val < 11 → k0_cond2 t = 1#1 := by decide +kernel
theorem cond3_pos : ∀ t : Fin k0_t1_loop.trips, t.val < 11 → k0_cond3 t = 1#1 := by decide +kernel
theorem cond4_pos : ∀ t : Fin k0_t1_loop.trips, t.val < 11 → k0_cond4 t = 1#1 := by decide +kernel
theorem cond5_pos : ∀ t : Fin k0_t1_loop.trips, t.val < 11 → k0_cond5 t = 1#1 := by decide +kernel
theorem cond1_neg : ∀ t : Fin k0_t1_loop.trips, ¬ t.val < 11 → ¬ k0_cond1 t = 1#1 := by decide +kernel
theorem cond2_neg : ∀ t : Fin k0_t1_loop.trips, ¬ t.val < 11 → ¬ k0_cond2 t = 1#1 := by decide +kernel
theorem cond3_neg : ∀ t : Fin k0_t1_loop.trips, ¬ t.val < 11 → ¬ k0_cond3 t = 1#1 := by decide +kernel
theorem cond4_neg : ∀ t : Fin k0_t1_loop.trips, ¬ t.val < 11 → ¬ k0_cond4 t = 1#1 := by decide +kernel
theorem cond5_neg : ∀ t : Fin k0_t1_loop.trips, ¬ t.val < 11 → ¬ k0_cond5 t = 1#1 := by decide +kernel

theorem off3_0 (t : Fin k0_t1_loop.trips) : (k0_off3 t) 0 = 80 * (5 * t.val + 5) := by
  rw [k0_off3_eq]; show 400 * t.val + 400 = 80 * (5 * t.val + 5); omega
theorem off4_0 (t : Fin k0_t1_loop.trips) : (k0_off4 t) 0 = 80 * (5 * t.val + 5 + 1) := by
  rw [k0_off4_eq]; show 400 * t.val + 480 = 80 * (5 * t.val + 5 + 1); omega
theorem off5_0 (t : Fin k0_t1_loop.trips) : (k0_off5 t) 0 = 80 * (5 * t.val + 5 + 2) := by
  rw [k0_off5_eq]; show 400 * t.val + 560 = 80 * (5 * t.val + 5 + 2); omega
theorem off6_0 (t : Fin k0_t1_loop.trips) : (k0_off6 t) 0 = 80 * (5 * t.val + 5 + 3) := by
  rw [k0_off6_eq]; show 400 * t.val + 640 = 80 * (5 * t.val + 5 + 3); omega
theorem off7_0 (t : Fin k0_t1_loop.trips) : (k0_off7 t) 0 = 80 * (5 * t.val + 5 + 4) := by
  rw [k0_off7_eq]; show 400 * t.val + 720 = 80 * (5 * t.val + 5 + 4); omega

theorem writes_whole_emb {κ : Kind} {sp : Space} {s : Shape} {e : EltTy} (v : View sig κ sp s e) (f : v.ty.Contents (Elt F))
    (w : (Rect.whole s).shape.Idx → Elt F e) (x : s.Idx) :
    v.writes (Elt F) f [⟨Rect.whole s, w⟩] (v.emb x) = _root_.cast (congrArg (Elt F) v.elt_eq.symm) (w x) := by
  rw [View.writes_singleton]
  have hx : v.emb x = (v.slice (Rect.whole s)).emb x := by
    rw [View.emb_slice]
    show v.emb x = v.emb ((Rect.whole s).emb x)
    rw [Rect.emb_whole_apply]
  rw [hx, View.write_emb_of_mem _ _ (Finset.mem_univ x)]

theorem writes_whole {κ : Kind} (b : Ref sig κ) (f : (View.whole b).ty.Contents (Elt F)) (w : (Rect.whole b.ty.shape).shape.Idx → Elt F b.ty.elt) (i : b.ty.shape.Idx) :
    (View.whole b).writes (Elt F) f [⟨Rect.whole b.ty.shape, w⟩] i = w i :=
  writes_whole_emb (View.whole b) f w i

theorem iv_emb (j : ℕ) (hj : j < 60) (o : Fin 1 → ℕ) (h : ∀ a, o a + S80.size a ≤ S4800.size a) (ho : o 0 = 80 * j) (y : S80.Idx) (k : Fin 80)
    (hy : (y 0).val = k.val) :
    (idxSl L).view.emb ((ivSlAt o h).view.emb y) = ValueIdx.ix1 (outRow L j k) := by
  funext a
  match a with
  | ⟨0, _⟩ =>
    apply Fin.ext
    show (k0_off1 L) 0 + 1 * (o 0 + 1 * (y 0).val) = (4800 * (wL L).val + 80 * j + k.val) % 153600
    rw [k0_off1_eq, ho, hy]
    show 9600 * (L 1).val + 4800 * (L 0).val + 1 * (80 * j + 1 * k.val) = (4800 * ((L 1).val * 2 + (L 0).val) + 80 * j + k.val) % 153600
    have h1 : (L 1).val < 16 := (L 1).isLt
    have h0 : (L 0).val < 2 := (L 0).isLt
    have hk : k.val < 80 := k.isLt
    omega

theorem gather_payload (hin : ∀ d j, (I0 d j).toNat < 10000) (j : ℕ) (hj : j < 60) (o : Fin 1 → ℕ) (h : ∀ a, o a + S80.size a ≤ S4800.size a)
    (ho : o 0 = 80 * j) (hn : S80.numel = S80x128.size gathers_S10000x128_S80x128.axis')
    (hx : ∀ x : S80.Idx, ((ivSlAt o h).view.read (Elt F) (ivC I0 d L) x).toNat < 10000) :
    SparseCore.gatherPayload gathers_S10000x128_S80x128 ((tabSl).view.read (Elt F) (m (tabLoc d)))
        (SparseCore.rows ((ivSlAt o h).view.read (Elt F) (ivC I0 d L)) hn hx) = rowsV m I0 d L j := by
  funext x
  unfold SparseCore.gatherPayload rowsV gathered0
  show m (tabLoc d) ((tabSl).view.emb (gathers_S10000x128_S80x128.idx _ x)) = _
  congr 1
  funext a
  match a with
  | ⟨0, _⟩ =>
    apply Fin.ext
    show 0 + 1 * ((gathers_S10000x128_S80x128.idx (SparseCore.rows ((ivSlAt o h).view.read (Elt F) (ivC I0 d L)) hn hx) x) 0).val
      = (I0 d (ValueIdx.ix1 (outRow L j (x 0)))).toNat % 10000
    have e0 := Shape.Gathers.idx_axis gathers_S10000x128_S80x128 (SparseCore.rows ((ivSlAt o h).view.read (Elt F) (ivC I0 d L)) hn hx) x
    rw [show (gathers_S10000x128_S80x128.idx (SparseCore.rows ((ivSlAt o h).view.read (Elt F) (ivC I0 d L)) hn hx) x) 0
        = SparseCore.rows ((ivSlAt o h).view.read (Elt F) (ivC I0 d L)) hn hx (x 0) from e0]
    have hy : ((S80.rowMajor.symm ((x 0).cast hn.symm)) 0).val = (x 0).val := by
      have := Shape.rowMajor_val_one (d := ![80]) (S80.rowMajor.symm ((x 0).cast hn.symm))
      rw [Equiv.apply_symm_apply] at this
      exact this.symm
    show 0 + 1 * (I0 d ((idxSl L).view.emb ((ivSlAt o h).view.emb (S80.rowMajor.symm ((x 0).cast hn.symm))))).toNat = _
    rw [iv_emb L j hj o h ho _ (x 0) hy, Nat.mod_eq_of_lt (hin d _)]
    omega
  | ⟨1, _⟩ =>
    apply Fin.ext
    show 0 + 1 * ((gathers_S10000x128_S80x128.idx (SparseCore.rows ((ivSlAt o h).view.read (Elt F) (ivC I0 d L)) hn hx) x) 1).val = (x 1).val
    rw [Shape.Gathers.idx_of_ne gathers_S10000x128_S80x128 _ x 1 (by decide)]
    show 0 + 1 * (x 1).val = (x 1).val
    omega

theorem out_emb (j : ℕ) (hj : j < 60) (o : Fin 2 → ℕ) (h : ∀ a, o a + S80x128.size a ≤ S153600x128.size a)
    (ho0 : o 0 = 4800 * (wL L).val + 80 * j) (ho1 : o 1 = 0) (x : S80x128.Idx) :
    (outSlAt o h).view.emb x = ValueIdx.ix2 (outRow L j (x 0)) (x 1 : Fin 128) := by
  funext a
  match a with
  | ⟨0, _⟩ =>
    apply Fin.ext
    show o 0 + 1 * (x 0).val = (4800 * (wL L).val + 80 * j + (x 0).val) % 153600
    rw [ho0]
    have h0 : (x 0).val < 80 := (x 0).isLt
    have hw : (wL L).val < 32 := (wL L).isLt
    omega
  | ⟨1, _⟩ =>
    apply Fin.ext
    show o 1 + 1 * (x 1).val = (x 1).val
    rw [ho1]; omega

theorem out_written (j : ℕ) (hj : j < 60) (o : Fin 2 → ℕ) (h : ∀ a, o a + S80x128.size a ≤ S153600x128.size a)
    (ho0 : o 0 = 4800 * (wL L).val + 80 * j) (ho1 : o 1 = 0) (f : Buf (Elt F) (outLoc0 d)) (w : S80x128.Idx → Elt F .f32) (hw : ∀ x, w x = rowsV m I0 d L j x) :
    ((outSlAt o h).view.loc (thr d L) ↦[(outSlAt o h).view.set]{fullShare} (outSlAt o h).view.writes (Elt F) f [⟨Rect.whole S80x128, w⟩] : sProp 𝕄)
      = outLoc0 d ↦[outCh (wL L) j]{fullShare} gathered0 (m (tabLoc d)) (I0 d) := by
  rw [← set_outSlAt o h (wL L) j ho0 ho1]
  refine pointsTo_congr fun i hi => ?_
  obtain ⟨x, -, rfl⟩ := Finset.mem_map.mp hi
  refine (writes_whole_emb (outSlAt o h).view f w x).trans ?_
  show w x = gathered0 (m (tabLoc d)) (I0 d) ((outSlAt o h).view.emb x)
  rw [hw x, out_emb L j hj o h ho0 ho1 x]
  rfl

variable [FloatOps F]

theorem flight_conv0 (hin : ∀ d j, (I0 d j).toNat < 10000) (j : ℕ) (hj : j < 60) (o : Fin 1 → ℕ) (h : ∀ a, o a + S80.size a ≤ S4800.size a) (ho : o 0 = 80 * j)
    {sm : SemLoc sig} (fr : Buf (Elt F) ((r0M).view.loc (thr d L)))
    (hn : S80.numel = S80x128.size gathers_S10000x128_S80x128.axis')
    (hx : ∀ x : S80.Idx, ((ivSlAt o h).view.read (Elt F) (ivC I0 d L) x).toNat < 10000) :
    Transfers.Flight (countersEmb : UEmb Counters 𝕄) (thr d L) sm (default : HIx 2) 327680
        iprop((((r0M).view.loc (thr d L) ↦{fullShare} (r0M).view.writes (Elt F) fr
              [⟨Rect.whole cc0_scratch1.ty.shape, SparseCore.gatherPayload gathers_S10000x128_S80x128 ((tabSl).view.read (Elt F) (m (tabLoc d)))
                (SparseCore.rows ((ivSlAt o h).view.read (Elt F) (ivC I0 d L)) hn hx)⟩])
            ∗ ((ivSlAt o h).view.loc (thr d L) ↦[(ivSlAt o h).view.set]{fullShare} ivC I0 d L))
          ∗ ((tabSl).view.loc (thr d L) ↦[(tabSl).view.set]{shareTokN (qT L) 0} m (tabLoc d)))
      ⊢ Transfers.Flight (countersEmb : UEmb Counters 𝕄) (thr d L) sm (default : HIx 2) 327680
        iprop((((r0M).view.loc (thr d L) ↦{fullShare} rowsV m I0 d L j) ∗ ((thr d L).loc cc0_scratch0 ↦[ivCh j]{fullShare} ivC I0 d L))
          ∗ ((tabSl).view.loc (thr d L) ↦[(tabSl).view.set]{shareTokN (qT L) 0} m (tabLoc d))) := by
  refine Transfers.Flight_mono _ _ ?_
  rw [pts_ivSlAt d L o h j ho, gather_payload m I0 d L hin j hj o h ho hn hx,
    show (((r0M).view.loc (thr d L) ↦{fullShare} (r0M).view.writes (Elt F) fr [⟨Rect.whole cc0_scratch1.ty.shape, rowsV m I0 d L j⟩]) : sProp 𝕄)
      = ((r0M).view.loc (thr d L) ↦{fullShare} rowsV m I0 d L j) from pointsTo_congr fun i _ => writes_whole cc0_scratch1 fr _ i]

theorem flight_conv1 (hin : ∀ d j, (I0 d j).toNat < 10000) (j : ℕ) (hj : j < 60) (o : Fin 1 → ℕ) (h : ∀ a, o a + S80.size a ≤ S4800.size a) (ho : o 0 = 80 * j)
    {sm : SemLoc sig} (fr : Buf (Elt F) ((r1M).view.loc (thr d L)))
    (hn : S80.numel = S80x128.size gathers_S10000x128_S80x128.axis')
    (hx : ∀ x : S80.Idx, ((ivSlAt o h).view.read (Elt F) (ivC I0 d L) x).toNat < 10000) :
    Transfers.Flight (countersEmb : UEmb Counters 𝕄) (thr d L) sm (default : HIx 2) 327680
        iprop((((r1M).view.loc (thr d L) ↦{fullShare} (r1M).view.writes (Elt F) fr
              [⟨Rect.whole cc0_scratch2.ty.shape, SparseCore.gatherPayload gathers_S10000x128_S80x128 ((tabSl).view.read (Elt F) (m (tabLoc d)))
                (SparseCore.rows ((ivSlAt o h).view.read (Elt F) (ivC I0 d L)) hn hx)⟩])
            ∗ ((ivSlAt o h).view.loc (thr d L) ↦[(ivSlAt o h).view.set]{fullShare} ivC I0 d L))
          ∗ ((tabSl).view.loc (thr d L) ↦[(tabSl).view.set]{shareTokN (qT L) 1} m (tabLoc d)))
      ⊢ Transfers.Flight (countersEmb : UEmb Counters 𝕄) (thr d L) sm (default : HIx 2) 327680
        iprop((((r1M).view.loc (thr d L) ↦{fullShare} rowsV m I0 d L j) ∗ ((thr d L).loc cc0_scratch0 ↦[ivCh j]{fullShare} ivC I0 d L))
          ∗ ((tabSl).view.loc (thr d L) ↦[(tabSl).view.set]{shareTokN (qT L) 1} m (tabLoc d))) := by
  refine Transfers.Flight_mono _ _ ?_
  rw [pts_ivSlAt d L o h j ho, gather_payload m I0 d L hin j hj o h ho hn hx,
    show (((r1M).view.loc (thr d L) ↦{fullShare} (r1M).view.writes (Elt F) fr [⟨Rect.whole cc0_scratch2.ty.shape, rowsV m I0 d L j⟩]) : sProp 𝕄)
      = ((r1M).view.loc (thr d L) ↦{fullShare} rowsV m I0 d L j) from pointsTo_congr fun i _ => writes_whole cc0_scratch2 fr _ i]

theorem flight_conv2 (hin : ∀ d j, (I0 d j).toNat < 10000) (j : ℕ) (hj : j < 60) (o : Fin 1 → ℕ) (h : ∀ a, o a + S80.size a ≤ S4800.size a) (ho : o 0 = 80 * j)
    {sm : SemLoc sig} (fr : Buf (Elt F) ((r2M).view.loc (thr d L)))
    (hn : S80.numel = S80x128.size gathers_S10000x128_S80x128.axis')
    (hx : ∀ x : S80.Idx, ((ivSlAt o h).view.read (Elt F) (ivC I0 d L) x).toNat < 10000) :
    Transfers.Flight (countersEmb : UEmb Counters 𝕄) (thr d L) sm (default : HIx 2) 327680
        iprop((((r2M).view.loc (thr d L) ↦{fullShare} (r2M).view.writes (Elt F) fr
              [⟨Rect.whole cc0_scratch3.ty.shape, SparseCore.gatherPayload gathers_S10000x128_S80x128 ((tabSl).view.read (Elt F) (m (tabLoc d)))
                (SparseCore.rows ((ivSlAt o h).view.read (Elt F) (ivC I0 d L)) hn hx)⟩])
            ∗ ((ivSlAt o h).view.loc (thr d L) ↦[(ivSlAt o h).view.set]{fullShare} ivC I0 d L))
          ∗ ((tabSl).view.loc (thr d L) ↦[(tabSl).view.set]{shareTokN (qT L) 2} m (tabLoc d)))
      ⊢ Transfers.Flight (countersEmb : UEmb Counters 𝕄) (thr d L) sm (default : HIx 2) 327680
        iprop((((r2M).view.loc (thr d L) ↦{fullShare} rowsV m I0 d L j) ∗ ((thr d L).loc cc0_scratch0 ↦[ivCh j]{fullShare} ivC I0 d L))
          ∗ ((tabSl).view.loc (thr d L) ↦[(tabSl).view.set]{shareTokN (qT L) 2} m (tabLoc d))) := by
  refine Transfers.Flight_mono _ _ ?_
  rw [pts_ivSlAt d L o h j ho, gather_payload m I0 d L hin j hj o h ho hn hx,
    show (((r2M).view.loc (thr d L) ↦{fullShare} (r2M).view.writes (Elt F) fr [⟨Rect.whole cc0_scratch3.ty.shape, rowsV m I0 d L j⟩]) : sProp 𝕄)
      = ((r2M).view.loc (thr d L) ↦{fullShare} rowsV m I0 d L j) from pointsTo_congr fun i _ => writes_whole cc0_scratch3 fr _ i]

theorem flight_conv3 (hin : ∀ d j, (I0 d j).toNat < 10000) (j : ℕ) (hj : j < 60) (o : Fin 1 → ℕ) (h : ∀ a, o a + S80.size a ≤ S4800.size a) (ho : o 0 = 80 * j)
    {sm : SemLoc sig} (fr : Buf (Elt F) ((r3M).view.loc (thr d L)))
    (hn : S80.numel = S80x128.size gathers_S10000x128_S80x128.axis')
    (hx : ∀ x : S80.Idx, ((ivSlAt o h).view.read (Elt F) (ivC I0 d L) x).toNat < 10000) :
    Transfers.Flight (countersEmb : UEmb Counters 𝕄) (thr d L) sm (default : HIx 2) 327680
        iprop((((r3M).view.loc (thr d L) ↦{fullShare} (r3M).view.writes (Elt F) fr
              [⟨Rect.whole cc0_scratch4.ty.shape, SparseCore.gatherPayload gathers_S10000x128_S80x128 ((tabSl).view.read (Elt F) (m (tabLoc d)))
                (SparseCore.rows ((ivSlAt o h).view.read (Elt F) (ivC I0 d L)) hn hx)⟩])
            ∗ ((ivSlAt o h).view.loc (thr d L) ↦[(ivSlAt o h).view.set]{fullShare} ivC I0 d L))
          ∗ ((tabSl).view.loc (thr d L) ↦[(tabSl).view.set]{shareTokN (qT L) 3} m (tabLoc d)))
      ⊢ Transfers.Flight (countersEmb : UEmb Counters 𝕄) (thr d L) sm (default : HIx 2) 327680
        iprop((((r3M).view.loc (thr d L) ↦{fullShare} rowsV m I0 d L j) ∗ ((thr d L).loc cc0_scratch0 ↦[ivCh j]{fullShare} ivC I0 d L))
          ∗ ((tabSl).view.loc (thr d L) ↦[(tabSl).view.set]{shareTokN (qT L) 3} m (tabLoc d))) := by
  refine Transfers.Flight_mono _ _ ?_
  rw [pts_ivSlAt d L o h j ho, gather_payload m I0 d L hin j hj o h ho hn hx,
    show (((r3M).view.loc (thr d L) ↦{fullShare} (r3M).view.writes (Elt F) fr [⟨Rect.whole cc0_scratch4.ty.shape, rowsV m I0 d L j⟩]) : sProp 𝕄)
      = ((r3M).view.loc (thr d L) ↦{fullShare} rowsV m I0 d L j) from pointsTo_congr fun i _ => writes_whole cc0_scratch4 fr _ i]

theorem flight_conv4 (hin : ∀ d j, (I0 d j).toNat < 10000) (j : ℕ) (hj : j < 60) (o : Fin 1 → ℕ) (h : ∀ a, o a + S80.size a ≤ S4800.size a) (ho : o 0 = 80 * j)
    {sm : SemLoc sig} (fr : Buf (Elt F) ((r4M).view.loc (thr d L)))
    (hn : S80.numel = S80x128.size gathers_S10000x128_S80x128.axis')
    (hx : ∀ x : S80.Idx, ((ivSlAt o h).view.read (Elt F) (ivC I0 d L) x).toNat < 10000) :
    Transfers.Flight (countersEmb : UEmb Counters 𝕄) (thr d L) sm (default : HIx 2) 327680
        iprop((((r4M).view.loc (thr d L) ↦{fullShare} (r4M).view.writes (Elt F) fr
              [⟨Rect.whole cc0_scratch5.ty.shape, SparseCore.gatherPayload gathers_S10000x128_S80x128 ((tabSl).view.read (Elt F) (m (tabLoc d)))
                (SparseCore.rows ((ivSlAt o h).view.read (Elt F) (ivC I0 d L)) hn hx)⟩])
            ∗ ((ivSlAt o h).view.loc (thr d L) ↦[(ivSlAt o h).view.set]{fullShare} ivC I0 d L))
          ∗ ((tabSl).view.loc (thr d L) ↦[(tabSl).view.set]{shareTokN (qT L) 4} m (tabLoc d)))
      ⊢ Transfers.Flight (countersEmb : UEmb Counters 𝕄) (thr d L) sm (default : HIx 2) 327680
        iprop((((r4M).view.loc (thr d L) ↦{fullShare} rowsV m I0 d L j) ∗ ((thr d L).loc cc0_scratch0 ↦[ivCh j]{fullShare} ivC I0 d L))
          ∗ ((tabSl).view.loc (thr d L) ↦[(tabSl).view.set]{shareTokN (qT L) 4} m (tabLoc d))) := by
  refine Transfers.Flight_mono _ _ ?_
  rw [pts_ivSlAt d L o h j ho, gather_payload m I0 d L hin j hj o h ho hn hx,
    show (((r4M).view.loc (thr d L) ↦{fullShare} (r4M).view.writes (Elt F) fr [⟨Rect.whole cc0_scratch5.ty.shape, rowsV m I0 d L j⟩]) : sProp 𝕄)
      = ((r4M).view.loc (thr d L) ↦{fullShare} rowsV m I0 d L j) from pointsTo_congr fun i _ => writes_whole cc0_scratch5 fr _ i]

theorem trip (hin : ∀ d j, (I0 d j).toNat < 10000) (v2 : BitVec 32) (t : Fin k0_t1_loop.trips) (x : Unit) (ht : t.val < 11) :
    inv m I0 d L O W f0 t.val x
      ⊢ wp frame (wpE (defs₀ (F := F)) 𝒱₀ (thr d L) none) Set.univ
          (k0_t1_body L tabM (Memref.isWhole_whole _) idxM (Memref.isWhole_whole _) outM (Memref.isWhole_whole _) ivM (Memref.isWhole_whole _)
            r0M (Memref.isWhole_whole _) r1M (Memref.isWhole_whole _) r2M (Memref.isWhole_whole _) r3M (Memref.isWhole_whole _) r4M (Memref.isWhole_whole _)
            cc0_scratch6 cc0_scratch7 cc0_scratch8 cc0_scratch9 cc0_scratch10 cc0_scratch11 cc0_scratch12 cc0_scratch13 cc0_scratch14 cc0_scratch15 cc0_scoped0
            v2 t x)
          (inv m I0 d L O W f0 (t.val + 1)) := by
  have k0_h1 := cond1_pos t ht
  have k0_h2 := cond2_pos t ht
  have k0_h3 := cond3_pos t ht
  have k0_h4 := cond4_pos t ht
  have k0_h5 := cond5_pos t ht
  unfold inv slots
  rw [if_pos (show t.val < 12 by omega), if_pos (show t.val + 1 < 12 by omega),
    bigSep_aft5 (a := 5 * t.val) (by omega) (outTodo d L f0), bigSep_aft5 (a := 5 * t.val + 5) (by omega) (ivP I0 d L),
    show 5 * (t.val + 1) = 5 * t.val + 5 from by omega,
    bigSep_range5 (5 * t.val) (ivP I0 d L), bigSep_range5 (5 * t.val) (outDone m I0 d L)]
  unfold Fl0 Fl1 Fl2 Fl3 Fl4 Dg0 Dg1 Dg2 Dg3 Dg4
  unfold k0_t1_body
  iintro ⟨Hmw, ⟨Hf0, Hf1, Hf2, Hf3, Hf4⟩, ⟨Ho0, Ho1, Ho2, Ho3, Ho4⟩, Hib, ⟨Hn0, Hn1, Hn2, Hn3, Hn4, Hia⟩, Hod, ⟨Hc0, Hc1, Hc2, Hc3, Hc4, Hot⟩, %W', %hW', HO⟩

  ihave Hc0 := (Entails.of_eq (pts_outSlAt (F := F) d L (k0_off2 L t 0#32) (k0_off2_inb L t 0) (wL L) (5 * t.val) (off2_0 L t 0) (off2_1 L t 0) _).symm) $$ Hc0
  ihave Hc1 := (Entails.of_eq (pts_outSlAt (F := F) d L (k0_off2 L t 1#32) (k0_off2_inb L t 1) (wL L) (5 * t.val + 1) (off2_0 L t 1) (off2_1 L t 1) _).symm) $$ Hc1
  ihave Hc2 := (Entails.of_eq (pts_outSlAt (F := F) d L (k0_off2 L t 2#32) (k0_off2_inb L t 2) (wL L) (5 * t.val + 2) (off2_0 L t 2) (off2_1 L t 2) _).symm) $$ Hc2
  ihave Hc3 := (Entails.of_eq (pts_outSlAt (F := F) d L (k0_off2 L t 3#32) (k0_off2_inb L t 3) (wL L) (5 * t.val + 3) (off2_0 L t 3) (off2_1 L t 3) _).symm) $$ Hc3
  ihave Hc4 := (Entails.of_eq (pts_outSlAt (F := F) d L (k0_off2 L t 4#32) (k0_off2_inb L t 4) (wL L) (5 * t.val + 4) (off2_0 L t 4) (off2_1 L t 4) _).symm) $$ Hc4
  ihave Hn0 := (Entails.of_eq (pts_ivSlAt (F := F) d L (k0_off3 t) (k0_off3_inb t k0_h1) (5 * t.val + 5) (off3_0 t) _).symm) $$ Hn0
  ihave Hn1 := (Entails.of_eq (pts_ivSlAt (F := F) d L (k0_off4 t) (k0_off4_inb t k0_h2) (5 * t.val + 5 + 1) (off4_0 t) _).symm) $$ Hn1
  ihave Hn2 := (Entails.of_eq (pts_ivSlAt (F := F) d L (k0_off5 t) (k0_off5_inb t k0_h3) (5 * t.val + 5 + 2) (off5_0 t) _).symm) $$ Hn2
  ihave Hn3 := (Entails.of_eq (pts_ivSlAt (F := F) d L (k0_off6 t) (k0_off6_inb t k0_h4) (5 * t.val + 5 + 3) (off6_0 t) _).symm) $$ Hn3
  ihave Hn4 := (Entails.of_eq (pts_ivSlAt (F := F) d L (k0_off7 t) (k0_off7_inb t k0_h5) (5 * t.val + 5 + 4) (off7_0 t) _).symm) $$ Hn4
  have hinA := hin_ivSlAt (F := F) I0 d L hin (k0_off3 t) (k0_off3_inb t k0_h1)
  have hinB := hin_ivSlAt (F := F) I0 d L hin (k0_off4 t) (k0_off4_inb t k0_h2)
  have hinC := hin_ivSlAt (F := F) I0 d L hin (k0_off5 t) (k0_off5_inb t k0_h3)
  have hinD := hin_ivSlAt (F := F) I0 d L hin (k0_off6 t) (k0_off6_inb t k0_h4)
  have hinE := hin_ivSlAt (F := F) I0 d L hin (k0_off7 t) (k0_off7_inb t k0_h5)
  sl_exec
  icases Hf0_dst with ⟨Hr0, Hi0⟩
  sl_exec
  icases Hf1_dst with ⟨Hr1, Hi1⟩
  sl_exec
  icases Hf2_dst with ⟨Hr2, Hi2⟩
  sl_exec
  icases Hf3_dst with ⟨Hr3, Hi3⟩
  sl_exec
  icases Hf4_dst with ⟨Hr4, Hi4⟩
  sl_exec
  sl_step
  sl_unfold_run_names

  iclear Hf0_src Hf1_src Hf2_src Hf3_src Hf4_src
  ihave Hc0 := (Entails.of_eq (out_written (F := F) m I0 d L (5 * t.val) (by omega) (k0_off2 L t 0#32) (k0_off2_inb L t 0) (off2_0 L t 0) (off2_1 L t 0) f0 (ReadAs.apply ReadAs.same (View.read (Elt F) (r0M).view (rowsV m I0 d L (5 * t.val)))) (fun _ => rfl))) $$ Hc0
  ihave Hc1 := (Entails.of_eq (out_written (F := F) m I0 d L (5 * t.val + 1) (by omega) (k0_off2 L t 1#32) (k0_off2_inb L t 1) (off2_0 L t 1) (off2_1 L t 1) f0 (ReadAs.apply ReadAs.same (View.read (Elt F) (r1M).view (rowsV m I0 d L (5 * t.val + 1)))) (fun _ => rfl))) $$ Hc1
  ihave Hc2 := (Entails.of_eq (out_written (F := F) m I0 d L (5 * t.val + 2) (by omega) (k0_off2 L t 2#32) (k0_off2_inb L t 2) (off2_0 L t 2) (off2_1 L t 2) f0 (ReadAs.apply ReadAs.same (View.read (Elt F) (r2M).view (rowsV m I0 d L (5 * t.val + 2)))) (fun _ => rfl))) $$ Hc2
  ihave Hc3 := (Entails.of_eq (out_written (F := F) m I0 d L (5 * t.val + 3) (by omega) (k0_off2 L t 3#32) (k0_off2_inb L t 3) (off2_0 L t 3) (off2_1 L t 3) f0 (ReadAs.apply ReadAs.same (View.read (Elt F) (r3M).view (rowsV m I0 d L (5 * t.val + 3)))) (fun _ => rfl))) $$ Hc3
  ihave Hc4 := (Entails.of_eq (out_written (F := F) m I0 d L (5 * t.val + 4) (by omega) (k0_off2 L t 4#32) (k0_off2_inb L t 4) (off2_0 L t 4) (off2_1 L t 4) f0 (ReadAs.apply ReadAs.same (View.read (Elt F) (r4M).view (rowsV m I0 d L (5 * t.val + 4)))) (fun _ => rfl))) $$ Hc4
  isplitl [Hmw]; · iexact Hmw
  isplitl [Hf0 Hf1 Hf2 Hf3 Hf4]
  · isplitl [Hf0]; · iapply (flight_conv0 (F := F) m I0 d L hin (5 * t.val + 5) (by omega) (k0_off3 t) (k0_off3_inb t k0_h1) (off3_0 t) (rowsV m I0 d L (5 * t.val)) rfl hinA); iexact Hf0
    isplitl [Hf1]; · iapply (flight_conv1 (F := F) m I0 d L hin (5 * t.val + 5 + 1) (by omega) (k0_off4 t) (k0_off4_inb t k0_h2) (off4_0 t) (rowsV m I0 d L (5 * t.val + 1)) rfl hinB); iexact Hf1
    isplitl [Hf2]; · iapply (flight_conv2 (F := F) m I0 d L hin (5 * t.val + 5 + 2) (by omega) (k0_off5 t) (k0_off5_inb t k0_h3) (off5_0 t) (rowsV m I0 d L (5 * t.val + 2)) rfl hinC); iexact Hf2
    isplitl [Hf3]; · iapply (flight_conv3 (F := F) m I0 d L hin (5 * t.val + 5 + 3) (by omega) (k0_off6 t) (k0_off6_inb t k0_h4) (off6_0 t) (rowsV m I0 d L (5 * t.val + 3)) rfl hinD); iexact Hf3
    iapply (flight_conv4 (F := F) m I0 d L hin (5 * t.val + 5 + 4) (by omega) (k0_off7 t) (k0_off7_inb t k0_h5) (off7_0 t) (rowsV m I0 d L (5 * t.val + 4)) rfl hinE); iexact Hf4
  isplitl [Ho0 Ho1 Ho2 Ho3 Ho4]
  ·
    isplitl [Ho0]; · iexact Ho0
    isplitl [Ho1]; · iexact Ho1
    isplitl [Ho2]; · iexact Ho2
    isplitl [Ho3]; · iexact Ho3
    iexact Ho4
  isplitl [Hi0 Hi1 Hi2 Hi3 Hi4 Hib]
  ·
    isplitl [Hi4]; · iexact Hi4
    isplitl [Hi3]; · iexact Hi3
    isplitl [Hi2]; · iexact Hi2
    isplitl [Hi1]; · iexact Hi1
    isplitl [Hi0]; · iexact Hi0
    iexact Hib
  isplitl [Hia]; · iexact Hia
  isplitl [Hc0 Hc1 Hc2 Hc3 Hc4 Hod]
  ·
    isplitl [Hc4]; · iexact Hc4
    isplitl [Hc3]; · iexact Hc3
    isplitl [Hc2]; · iexact Hc2
    isplitl [Hc1]; · iexact Hc1
    isplitl [Hc0]; · iexact Hc0
    iexact Hod
  isplitl [Hot]; · iexact Hot
  iexists _; isplitr
  on_goal 2 => iexact HO
  ipureintro; intro p hp
  simp only [Finset.mem_insert] at hp
  rcases hp with rfl | rfl | rfl | rfl | rfl | rfl | rfl | rfl | rfl | rfl | hp <;> first | exact .inr rfl | exact hW' p hp

theorem trip_last (hin : ∀ d j, (I0 d j).toNat < 10000) (v2 : BitVec 32) (t : Fin k0_t1_loop.trips) (x : Unit) (ht : ¬ t.val < 11) :
    inv m I0 d L O W f0 t.val x
      ⊢ wp frame (wpE (defs₀ (F := F)) 𝒱₀ (thr d L) none) Set.univ
          (k0_t1_body L tabM (Memref.isWhole_whole _) idxM (Memref.isWhole_whole _) outM (Memref.isWhole_whole _) ivM (Memref.isWhole_whole _)
            r0M (Memref.isWhole_whole _) r1M (Memref.isWhole_whole _) r2M (Memref.isWhole_whole _) r3M (Memref.isWhole_whole _) r4M (Memref.isWhole_whole _)
            cc0_scratch6 cc0_scratch7 cc0_scratch8 cc0_scratch9 cc0_scratch10 cc0_scratch11 cc0_scratch12 cc0_scratch13 cc0_scratch14 cc0_scratch15 cc0_scoped0
            v2 t x)
          (inv m I0 d L O W f0 (t.val + 1)) := by
  have ht12 : t.val < 12 := Nat.lt_of_lt_of_le t.isLt k0_t1_abs.2.1
  have k0_h1 := cond1_neg t ht
  have k0_h2 := cond2_neg t ht
  have k0_h3 := cond3_neg t ht
  have k0_h4 := cond4_neg t ht
  have k0_h5 := cond5_neg t ht
  unfold inv slots
  rw [if_pos ht12, if_neg (show ¬ t.val + 1 < 12 by omega),
    bigSep_aft5 (a := 5 * t.val) (by omega) (outTodo d L f0),
    show aft (5 * (t.val + 1) + 5) = aft (5 * t.val + 5) from by rw [aft_empty (by omega), aft_empty (by omega)],
    show 5 * (t.val + 1) = 5 * t.val + 5 from by omega,
    bigSep_range5 (5 * t.val) (ivP I0 d L), bigSep_range5 (5 * t.val) (outDone m I0 d L)]
  unfold Fl0 Fl1 Fl2 Fl3 Fl4 Dg0 Dg1 Dg2 Dg3 Dg4 Idle0 Idle1 Idle2 Idle3 Idle4
  unfold k0_t1_body
  iintro ⟨Hmw, ⟨Hf0, Hf1, Hf2, Hf3, Hf4⟩, ⟨Ho0, Ho1, Ho2, Ho3, Ho4⟩, Hib, Hia, Hod, ⟨Hc0, Hc1, Hc2, Hc3, Hc4, Hot⟩, %W', %hW', HO⟩
  ihave Hc0 := (Entails.of_eq (pts_outSlAt (F := F) d L (k0_off2 L t 0#32) (k0_off2_inb L t 0) (wL L) (5 * t.val) (off2_0 L t 0) (off2_1 L t 0) _).symm) $$ Hc0
  ihave Hc1 := (Entails.of_eq (pts_outSlAt (F := F) d L (k0_off2 L t 1#32) (k0_off2_inb L t 1) (wL L) (5 * t.val + 1) (off2_0 L t 1) (off2_1 L t 1) _).symm) $$ Hc1
  ihave Hc2 := (Entails.of_eq (pts_outSlAt (F := F) d L (k0_off2 L t 2#32) (k0_off2_inb L t 2) (wL L) (5 * t.val + 2) (off2_0 L t 2) (off2_1 L t 2) _).symm) $$ Hc2
  ihave Hc3 := (Entails.of_eq (pts_outSlAt (F := F) d L (k0_off2 L t 3#32) (k0_off2_inb L t 3) (wL L) (5 * t.val + 3) (off2_0 L t 3) (off2_1 L t 3) _).symm) $$ Hc3
  ihave Hc4 := (Entails.of_eq (pts_outSlAt (F := F) d L (k0_off2 L t 4#32) (k0_off2_inb L t 4) (wL L) (5 * t.val + 4) (off2_0 L t 4) (off2_1 L t 4) _).symm) $$ Hc4
  sl_exec
  icases Hf0_dst with ⟨Hr0, Hi0⟩
  sl_exec
  icases Hf1_dst with ⟨Hr1, Hi1⟩
  sl_exec
  icases Hf2_dst with ⟨Hr2, Hi2⟩
  sl_exec
  icases Hf3_dst with ⟨Hr3, Hi3⟩
  sl_exec
  icases Hf4_dst with ⟨Hr4, Hi4⟩
  sl_exec
  sl_step
  sl_unfold_run_names
  ihave Hc0 := (Entails.of_eq (out_written (F := F) m I0 d L (5 * t.val) (by omega) (k0_off2 L t 0#32) (k0_off2_inb L t 0) (off2_0 L t 0) (off2_1 L t 0) f0 (ReadAs.apply ReadAs.same (View.read (Elt F) (r0M).view (rowsV m I0 d L (5 * t.val)))) (fun _ => rfl))) $$ Hc0
  ihave Hc1 := (Entails.of_eq (out_written (F := F) m I0 d L (5 * t.val + 1) (by omega) (k0_off2 L t 1#32) (k0_off2_inb L t 1) (off2_0 L t 1) (off2_1 L t 1) f0 (ReadAs.apply ReadAs.same (View.read (Elt F) (r1M).view (rowsV m I0 d L (5 * t.val + 1)))) (fun _ => rfl))) $$ Hc1
  ihave Hc2 := (Entails.of_eq (out_written (F := F) m I0 d L (5 * t.val + 2) (by omega) (k0_off2 L t 2#32) (k0_off2_inb L t 2) (off2_0 L t 2) (off2_1 L t 2) f0 (ReadAs.apply ReadAs.same (View.read (Elt F) (r2M).view (rowsV m I0 d L (5 * t.val + 2)))) (fun _ => rfl))) $$ Hc2
  ihave Hc3 := (Entails.of_eq (out_written (F := F) m I0 d L (5 * t.val + 3) (by omega) (k0_off2 L t 3#32) (k0_off2_inb L t 3) (off2_0 L t 3) (off2_1 L t 3) f0 (ReadAs.apply ReadAs.same (View.read (Elt F) (r3M).view (rowsV m I0 d L (5 * t.val + 3)))) (fun _ => rfl))) $$ Hc3
  ihave Hc4 := (Entails.of_eq (out_written (F := F) m I0 d L (5 * t.val + 4) (by omega) (k0_off2 L t 4#32) (k0_off2_inb L t 4) (off2_0 L t 4) (off2_1 L t 4) f0 (ReadAs.apply ReadAs.same (View.read (Elt F) (r4M).view (rowsV m I0 d L (5 * t.val + 4)))) (fun _ => rfl))) $$ Hc4
  isplitl [Hmw]; · iexact Hmw
  isplitl [Hr0 Hr1 Hr2 Hr3 Hr4 Hf0_src Hf1_src Hf2_src Hf3_src Hf4_src Hf0 Hf1 Hf2 Hf3 Hf4]
  · isplitl [Hr0 Hf0_src Hf0]
    · isplitl [Hr0]; · iexists _; iexact Hr0
      isplitl [Hf0_src]; · iexact Hf0_src
      iexact Hf0
    isplitl [Hr1 Hf1_src Hf1]
    · isplitl [Hr1]; · iexists _; iexact Hr1
      isplitl [Hf1_src]; · iexact Hf1_src
      iexact Hf1
    isplitl [Hr2 Hf2_src Hf2]
    · isplitl [Hr2]; · iexists _; iexact Hr2
      isplitl [Hf2_src]; · iexact Hf2_src
      iexact Hf2
    isplitl [Hr3 Hf3_src Hf3]
    · isplitl [Hr3]; · iexists _; iexact Hr3
      isplitl [Hf3_src]; · iexact Hf3_src
      iexact Hf3
    isplitl [Hr4]; · iexists _; iexact Hr4
    isplitl [Hf4_src]; · iexact Hf4_src
    iexact Hf4
  isplitl [Ho0 Ho1 Ho2 Ho3 Ho4]
  ·
    isplitl [Ho0]; · iexact Ho0
    isplitl [Ho1]; · iexact Ho1
    isplitl [Ho2]; · iexact Ho2
    isplitl [Ho3]; · iexact Ho3
    iexact Ho4
  isplitl [Hi0 Hi1 Hi2 Hi3 Hi4 Hib]
  ·
    isplitl [Hi4]; · iexact Hi4
    isplitl [Hi3]; · iexact Hi3
    isplitl [Hi2]; · iexact Hi2
    isplitl [Hi1]; · iexact Hi1
    isplitl [Hi0]; · iexact Hi0
    iexact Hib
  isplitl [Hia]; · iexact Hia
  isplitl [Hc0 Hc1 Hc2 Hc3 Hc4 Hod]
  ·
    isplitl [Hc4]; · iexact Hc4
    isplitl [Hc3]; · iexact Hc3
    isplitl [Hc2]; · iexact Hc2
    isplitl [Hc1]; · iexact Hc1
    isplitl [Hc0]; · iexact Hc0
    iexact Hod
  isplitl [Hot]; · iexact Hot
  iexists _; isplitr
  on_goal 2 => iexact HO
  ipureintro; intro p hp
  simp only [Finset.mem_insert] at hp
  rcases hp with rfl | rfl | rfl | rfl | rfl | rfl | rfl | rfl | rfl | rfl | hp <;> first | exact .inr rfl | exact hW' p hp

end Loop

section Ends

variable (O : CellTallies nD τ sig (HIx 2)) (W : Waits sig (HIx 2)) (f0 : Buf (Elt F) (outLoc0 d))

theorem inv_end (x : Unit) :
    inv m I0 d L O W f0 k0_t1_loop.trips x
      ⊢ iprop(Transfers.MayWaits (thr d L) (none : HIx 2) O ∗ (Idle0 m d L ∗ Idle1 m d L ∗ Idle2 m d L ∗ Idle3 m d L ∗ Idle4 m d L)
        ∗ (semVal (thr d L, SemLoc.dma cc0_scratch11.sem) 0 ∗ semVal (thr d L, SemLoc.dma cc0_scratch12.sem) 0 ∗ semVal (thr d L, SemLoc.dma cc0_scratch13.sem) 0
            ∗ semVal (thr d L, SemLoc.dma cc0_scratch14.sem) 0 ∗ semVal (thr d L, SemLoc.dma cc0_scratch15.sem) 0)
        ∗ bigSep (Finset.range 60) (ivP I0 d L) ∗ bigSep (Finset.range 60) (outDone m I0 d L)
        ∗ ∃ W', ⌜∀ p ∈ W', p ∈ W ∨ p.2 = none⌝ ∗ owes (thr d L) O W') := by
  unfold inv slots
  rw [trips_eq, if_neg (by omega)]
  iintro ⟨Hmw, Hs, Hos, Hib, -, Hod, -, HW⟩
  isplitl [Hmw]; · iexact Hmw
  isplitl [Hs]; · iexact Hs
  isplitl [Hos]; · iexact Hos
  isplitl [Hib]; · iexact Hib
  isplitl [Hod]; · iexact Hod
  iexact HW

theorem inv_zero (x : Unit) :
    iprop(Transfers.MayWaits (thr d L) (none : HIx 2) O
        ∗ (Fl0 m I0 d L 0 ∗ Fl1 m I0 d L 1 ∗ Fl2 m I0 d L 2 ∗ Fl3 m I0 d L 3 ∗ Fl4 m I0 d L 4)
        ∗ (semVal (thr d L, SemLoc.dma cc0_scratch11.sem) 0 ∗ semVal (thr d L, SemLoc.dma cc0_scratch12.sem) 0 ∗ semVal (thr d L, SemLoc.dma cc0_scratch13.sem) 0
            ∗ semVal (thr d L, SemLoc.dma cc0_scratch14.sem) 0 ∗ semVal (thr d L, SemLoc.dma cc0_scratch15.sem) 0)
        ∗ bigSep (aft 5) (ivP I0 d L) ∗ bigSep (aft 0) (outTodo d L f0)
        ∗ ∃ W', ⌜∀ p ∈ W', p ∈ W ∨ p.2 = none⌝ ∗ owes (thr d L) O W')
      ⊢ inv m I0 d L O W f0 0 x := by
  unfold inv slots
  rw [if_pos (by omega)]
  iintro ⟨Hmw, Hfl, Hos, Hia, Hot, HW⟩
  isplitl [Hmw]; · iexact Hmw
  isplitl [Hfl]; · iexact Hfl
  isplitl [Hos]; · iexact Hos
  isplitr [Hia Hot HW]; · iapply (bigSep_range0 (F := F) _); iempintro
  isplitl [Hia]; · iexact Hia
  isplitr [Hot HW]; · iapply (bigSep_range0 (F := F) _); iempintro
  isplitl [Hot]; · iexact Hot
  iexact HW

end Ends

variable [FloatOps F]

set_option maxHeartbeats 1000000 in
theorem tile_body (hF : (K (F := F)).Facts) (hin : ∀ d j, (I0 d j).toNat < 10000)
    (O : CellTallies nD τ sig (HIx 2)) (W : Waits sig (HIx 2)) (hO : ∀ g, O g none = 0) :
    iprop(levAts (K (F := F)).L (K (F := F)).lev ∗ emp ∗ go0 m I0 d (wL L) ∗ scopedBufs (thr d L) ∗ scopedSems0 (thr d L) ∗ owes (thr d L) O W)
      ⊢ wp frame (wpE (defs₀ (F := F)) 𝒱₀ (thr d L) none) Set.univ
          (cc0_k L tabM (Memref.isWhole_whole _) idxM (Memref.isWhole_whole _) outM (Memref.isWhole_whole _) ivM (Memref.isWhole_whole _)
            r0M (Memref.isWhole_whole _) r1M (Memref.isWhole_whole _) r2M (Memref.isWhole_whole _) r3M (Memref.isWhole_whole _) r4M (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(td0 m I0 d (wL L) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold go0 td0 tabShare
  iintro ⟨#Hlv, -, ⟨Htab, Hidx, %f0, Hout⟩, ⟨⟨⟨%fiv, Hiv⟩, ⟨%fr0, Hr0⟩, ⟨%fr1, Hr1⟩, ⟨%fr2, Hr2⟩, ⟨%fr3, Hr3⟩, ⟨%fr4, Hr4⟩⟩, Hbufs⟩,
    ⟨⟨Hg0, Hg1, Hg2, Hg3, Hg4, Ho0, Ho1, Ho2, Ho3, Ho4, Hsc⟩, Hsems⟩, HO⟩
  ihave Hmw := ((K (F := F)).mayWaits_none (thr := thr d L) hO) $$ Hlv
  ihave Hidx := (Entails.of_eq (pts_idxSl (F := F) d L _).symm) $$ Hidx
  ihave Hiv := (Entails.of_eq (pts_iv (F := F) d L _).symm) $$ Hiv

  set_option sl_exec.maxSteps 2 in sl_exec

  ihave Hiv := (Entails.of_eq (pointsTo_congr (g := ivC I0 d L) (by
      intro i _
      sl_unfold_run_names
      exact congrFun (View.read_write_univ (v := (ivM).view) fiv _) i))) $$ Hiv
  ihave Hiv := (Entails.of_eq (pts_iv (F := F) d L _)) $$ Hiv
  ihave Hiv := (Entails.of_eq (iv_chunks (F := F) d L _)) $$ Hiv
  icases Hiv with ⟨Hi0, Hi1, Hi2, Hi3, Hi4, Hiaft⟩
  ihave Hi0 := (Entails.of_eq (pts_ivSlAt (F := F) d L ![0] inb_S4800_S80_0 0 rfl _).symm) $$ Hi0
  ihave Hi1 := (Entails.of_eq (pts_ivSlAt (F := F) d L ![80] inb_S4800_S80_80 1 rfl _).symm) $$ Hi1
  ihave Hi2 := (Entails.of_eq (pts_ivSlAt (F := F) d L ![160] inb_S4800_S80_160 2 rfl _).symm) $$ Hi2
  ihave Hi3 := (Entails.of_eq (pts_ivSlAt (F := F) d L ![240] inb_S4800_S80_240 3 rfl _).symm) $$ Hi3
  ihave Hi4 := (Entails.of_eq (pts_ivSlAt (F := F) d L ![320] inb_S4800_S80_320 4 rfl _).symm) $$ Hi4
  have hin0 := hin_ivSlAt (F := F) I0 d L hin ![0] inb_S4800_S80_0
  have hin1 := hin_ivSlAt (F := F) I0 d L hin ![80] inb_S4800_S80_80
  have hin2 := hin_ivSlAt (F := F) I0 d L hin ![160] inb_S4800_S80_160
  have hin3 := hin_ivSlAt (F := F) I0 d L hin ![240] inb_S4800_S80_240
  have hin4 := hin_ivSlAt (F := F) I0 d L hin ![320] inb_S4800_S80_320

  ihave Htab' := (toks5 (F := F) _ _).1 $$ Htab
  icases Htab' with ⟨Htr, Ht0, Ht1, Ht2, Ht3, Ht4⟩
  ihave Ht0 := (Entails.of_eq (pts_tabSl (F := F) d L _ _).symm) $$ Ht0
  ihave Ht1 := (Entails.of_eq (pts_tabSl (F := F) d L _ _).symm) $$ Ht1
  ihave Ht2 := (Entails.of_eq (pts_tabSl (F := F) d L _ _).symm) $$ Ht2
  ihave Ht3 := (Entails.of_eq (pts_tabSl (F := F) d L _ _).symm) $$ Ht3
  ihave Ht4 := (Entails.of_eq (pts_tabSl (F := F) d L _ _).symm) $$ Ht4
  ihave Hr0 := (Entails.of_eq (pts_r0 (F := F) d L _).symm) $$ Hr0
  ihave Hr1 := (Entails.of_eq (pts_r1 (F := F) d L _).symm) $$ Hr1
  ihave Hr2 := (Entails.of_eq (pts_r2 (F := F) d L _).symm) $$ Hr2
  ihave Hr3 := (Entails.of_eq (pts_r3 (F := F) d L _).symm) $$ Hr3
  ihave Hr4 := (Entails.of_eq (pts_r4 (F := F) d L _).symm) $$ Hr4
  sl_exec

  iclear Ht0 Ht1 Ht2 Ht3 Ht4
  sl_unfold_run_names
  ihave Hout := (Entails.of_eq (out_chunks (F := F) d (wL L) f0)) $$ Hout
  sl_for (inv m I0 d L O W f0) $$ [Hmw Hg0 Hg1 Hg2 Hg3 Hg4 Ho0 Ho1 Ho2 Ho3 Ho4 Hiaft Hout HO]
  case region =>
    intro k x
    sl_respell []
    by_cases hk : k.val < 11
    · exact trip m I0 d L O W f0 hin _ k x hk
    · exact trip_last m I0 d L O W f0 hin _ k x hk
  · iapply (inv_zero (F := F) m I0 d L O W f0 _)
    unfold Fl0 Fl1 Fl2 Fl3 Fl4 Dg0 Dg1 Dg2 Dg3 Dg4
    isplitl [Hmw]; · iexact Hmw
    isplitl [Hg0 Hg1 Hg2 Hg3 Hg4]
    · isplitl [Hg0]; · iapply (flight_conv0 (F := F) m I0 d L hin 0 (by omega) ![0] inb_S4800_S80_0 rfl fr0 rfl hin0); iexact Hg0
      isplitl [Hg1]; · iapply (flight_conv1 (F := F) m I0 d L hin 1 (by omega) ![80] inb_S4800_S80_80 rfl fr1 rfl hin1); iexact Hg1
      isplitl [Hg2]; · iapply (flight_conv2 (F := F) m I0 d L hin 2 (by omega) ![160] inb_S4800_S80_160 rfl fr2 rfl hin2); iexact Hg2
      isplitl [Hg3]; · iapply (flight_conv3 (F := F) m I0 d L hin 3 (by omega) ![240] inb_S4800_S80_240 rfl fr3 rfl hin3); iexact Hg3
      iapply (flight_conv4 (F := F) m I0 d L hin 4 (by omega) ![320] inb_S4800_S80_320 rfl fr4 rfl hin4); iexact Hg4
    isplitl [Ho0 Ho1 Ho2 Ho3 Ho4]
    · isplitl [Ho0]; · iexact Ho0
      isplitl [Ho1]; · iexact Ho1
      isplitl [Ho2]; · iexact Ho2
      isplitl [Ho3]; · iexact Ho3
      iexact Ho4
    isplitl [Hiaft]; · iexact Hiaft
    isplitl [Hout]; · iexact Hout
    iexists (insert (SemLoc.dma cc0_scoped0.sem, (default : HIx 2)) W); isplitr
    · ipureintro; intro p hp
      rcases Finset.mem_insert.mp hp with rfl | hp
      · exact .inr rfl
      · exact .inl hp
    · iexact HO
  iintro %_ HI
  ihave HI := (inv_end (F := F) m I0 d L O W f0 _) $$ HI
  unfold Idle0 Idle1 Idle2 Idle3 Idle4
  icases HI with ⟨Hmw, ⟨⟨⟨%g0, Hr0⟩, Ht0, Hg0⟩, ⟨⟨%g1, Hr1⟩, Ht1, Hg1⟩, ⟨⟨%g2, Hr2⟩, Ht2, Hg2⟩, ⟨⟨%g3, Hr3⟩, Ht3, Hg3⟩, ⟨%g4, Hr4⟩, Ht4, Hg4⟩,
    ⟨Ho0, Ho1, Ho2, Ho3, Ho4⟩, Hiv, Hod, %W', %hW', HO⟩
  sl_exec
  sl_step

  ihave Ht0 := (Entails.of_eq (pts_tabSl (F := F) d L _ _)) $$ Ht0
  ihave Ht1 := (Entails.of_eq (pts_tabSl (F := F) d L _ _)) $$ Ht1
  ihave Ht2 := (Entails.of_eq (pts_tabSl (F := F) d L _ _)) $$ Ht2
  ihave Ht3 := (Entails.of_eq (pts_tabSl (F := F) d L _ _)) $$ Ht3
  ihave Ht4 := (Entails.of_eq (pts_tabSl (F := F) d L _ _)) $$ Ht4
  ihave Hidx := (Entails.of_eq (pts_idxSl (F := F) d L _)) $$ Hidx
  ihave Hod := (Entails.of_eq (out_join (F := F) d (wL L) _)) $$ Hod
  ihave Hiv := (Entails.of_eq (iv_join (F := F) d L _)) $$ Hiv
  isplitl [Htr Ht0 Ht1 Ht2 Ht3 Ht4 Hidx Hod]
  · isplitl [Htr Ht0 Ht1 Ht2 Ht3 Ht4]
    · iapply (toks5 (F := F) _ _).2
      isplitl [Htr]; · iexact Htr
      isplitl [Ht0]; · iexact Ht0
      isplitl [Ht1]; · iexact Ht1
      isplitl [Ht2]; · iexact Ht2
      isplitl [Ht3]; · iexact Ht3
      iexact Ht4
    isplitl [Hidx]; · iexact Hidx
    iexact Hod
  isplitl [Hiv Hr0 Hr1 Hr2 Hr3 Hr4 Hbufs]
  · isplitl [Hiv Hr0 Hr1 Hr2 Hr3 Hr4]
    · isplitl [Hiv]; · iexists _; iexact Hiv
      isplitl [Hr0]; · iexists _; iexact Hr0
      isplitl [Hr1]; · iexists _; iexact Hr1
      isplitl [Hr2]; · iexists _; iexact Hr2
      isplitl [Hr3]; · iexists _; iexact Hr3
      iexists _; iexact Hr4
    iexact Hbufs
  isplitl [Hg0 Hg1 Hg2 Hg3 Hg4 Ho0 Ho1 Ho2 Ho3 Ho4 Hsc Hsems]
  · isplitl [Hg0 Hg1 Hg2 Hg3 Hg4 Ho0 Ho1 Ho2 Ho3 Ho4 Hsc]
    · isplitl [Hg0]; · iexact Hg0
      isplitl [Hg1]; · iexact Hg1
      isplitl [Hg2]; · iexact Hg2
      isplitl [Hg3]; · iexact Hg3
      isplitl [Hg4]; · iexact Hg4
      isplitl [Ho0]; · iexact Ho0
      isplitl [Ho1]; · iexact Ho1
      isplitl [Ho2]; · iexact Ho2
      isplitl [Ho3]; · iexact Ho3
      isplitl [Ho4]; · iexact Ho4
      iexact Hsc
    iexact Hsems
  iexists W'; isplitr
  · ipureintro; exact hW'
  · iexact HO

end Tile

section Obl

variable (m : (ℓ : Loc nD τ sig) → Buf (Elt F) ℓ) (I0 : (d : Dev nD) → Buf (Elt F) (idxLoc0 d)) (I1 : (d : Dev nD) → Buf (Elt F) (idxLoc1 d))
variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tabM (Memref.isWhole_whole _) idxM (Memref.isWhole_whole _) outM (Memref.isWhole_whole _) ivM (Memref.isWhole_whole _)
          r0M (Memref.isWhole_whole _) r1M (Memref.isWhole_whole _) r2M (Memref.isWhole_whole _) r3M (Memref.isWhole_whole _) r4M (Memref.isWhole_whole _)
          cc0_scratch6 cc0_scratch7 cc0_scratch8 cc0_scratch9 cc0_scratch10 cc0_scratch11 cc0_scratch12 cc0_scratch13 cc0_scratch14 cc0_scratch15 cc0_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hin : ∀ d j, (I0 d j).toNat < 10000) :
    (K (F := F)).TileObl (D (F := F)) 𝒱 (P m I0 I1) v₀ 0 := by
  intro d c i O W hO _ _

  simp only [show (P m I0 I1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m I0 d (coordsV ⟨_, hc.1⟩ ⟨_, hc.2⟩) hF hin O W hO).trans (wp_mono frame _ _ fun _ => obl_post)

end Obl

end Tile0

theorem tileObl0 [FloatOps F] (m : (ℓ : Loc nD τ sig) → Buf (Elt F) ℓ) (I0 : (d : Dev nD) → Buf (Elt F) (idxLoc0 d))
    (I1 : (d : Dev nD) → Buf (Elt F) (idxLoc1 d)) (hF : (K (F := F)).Facts) (hin : ∀ d j, (I0 d j).toNat < 10000) :
    (K (F := F)).TileObl (D (F := F)) 𝒱 (P m I0 I1) v₀ 0 := Tile0.tileObl m I0 I1 hF hin

end Cert.Proof.KI
end
-- ==== Proof.KI.Tile1.lean ====
import proofs.«202994_g19078244729258_cont_8to1_1405_21_alg».proof.Proof.KI.Pay
import Idealize.ShloMosaic.Lib.SparseCore.Ops
import Idealize.ShloMosaic.Lib.SparseCore.Stream
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareTokN shareDrop)
open Idealize.ShloMosaic.Tactic

variable {F : FTy → Type}

local notation "𝕄" => MT nD τ sig (HIx 2) (Elt F) ℕ UU ℕ

namespace Tile1

local notation "tabM" => (Memref.whole Cert.KernelIdeal.main_arg0_scv : Memref Cert.KernelIdeal.sig Kind.scVector Space.hbm Cert.KernelIdeal.S10000x128 EltTy.f32)
local notation "idxM" => (Memref.whole Cert.KernelIdeal.main_v7_scv : Memref Cert.KernelIdeal.sig Kind.scVector Space.hbm Cert.KernelIdeal.S166400 EltTy.i32)
local notation "outM" => (Memref.whole Cert.KernelIdeal.main_v8_scv : Memref Cert.KernelIdeal.sig Kind.scVector Space.hbm Cert.KernelIdeal.S166400x128 EltTy.f32)
local notation "ivM" => (Memref.whole Cert.KernelIdeal.cc1_scratch0 : Memref Cert.KernelIdeal.sig Kind.scVector Space.vmem Cert.KernelIdeal.S5200 EltTy.i32)
local notation "r0M" => (Memref.whole Cert.KernelIdeal.cc1_scratch1 : Memref Cert.KernelIdeal.sig Kind.scVector Space.vmem Cert.KernelIdeal.S80x128 EltTy.f32)
local notation "r1M" => (Memref.whole Cert.KernelIdeal.cc1_scratch2 : Memref Cert.KernelIdeal.sig Kind.scVector Space.vmem Cert.KernelIdeal.S80x128 EltTy.f32)
local notation "r2M" => (Memref.whole Cert.KernelIdeal.cc1_scratch3 : Memref Cert.KernelIdeal.sig Kind.scVector Space.vmem Cert.KernelIdeal.S80x128 EltTy.f32)
local notation "r3M" => (Memref.whole Cert.KernelIdeal.cc1_scratch4 : Memref Cert.KernelIdeal.sig Kind.scVector Space.vmem Cert.KernelIdeal.S80x128 EltTy.f32)
local notation "r4M" => (Memref.whole Cert.KernelIdeal.cc1_scratch5 : Memref Cert.KernelIdeal.sig Kind.scVector Space.vmem Cert.KernelIdeal.S80x128 EltTy.f32)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

theorem bound_zero : grid1.bound 0 = 2 := rfl
theorem bound_one : grid1.bound 1 = 16 := rfl

abbrev wL (L : grid1.Coords) : Fin 32 := tileNo (Fin.cast bound_zero (L 0)) (Fin.cast bound_one (L 1))

def kNums : Finset (DmaSem sig) :=
  {cc1_scratch6.sem, cc1_scratch7.sem, cc1_scratch8.sem, cc1_scratch9.sem, cc1_scratch10.sem, cc1_scratch11.sem, cc1_scratch12.sem,
    cc1_scratch13.sem, cc1_scratch14.sem, cc1_scratch15.sem, cc1_scoped0.sem}

def cellEmb (d : Dev nD) (L : grid1.Coords) : DmaSem sig ↪ GSem nD τ sig :=
  ⟨fun n => (thr d L, SemLoc.dma n), fun _ _ e => SemLoc.dma.inj (Prod.mk.inj e).2⟩

theorem kNums_scoped : ∀ n ∈ kNums, (SemLoc.dma n : SemLoc sig).isScoped .scVector = true := by decide

theorem kCells_sub (d : Dev nD) (L : grid1.Coords) : kNums.map (cellEmb d L) ⊆ ownCells (thr d L) := by
  intro g hg
  obtain ⟨n, hn, rfl⟩ := Finset.mem_map.mp hg
  exact mem_ownCells.mpr ⟨rfl, kNums_scoped n hn⟩

theorem ownSems0_V (d : Dev nD) (L : grid1.Coords) :
    (ownSems0 (thr d L) : sProp 𝕄)
      = iprop((semVal (thr d L, SemLoc.dma cc1_scratch6.sem) 0 ∗ semVal (thr d L, SemLoc.dma cc1_scratch7.sem) 0 ∗ semVal (thr d L, SemLoc.dma cc1_scratch8.sem) 0
            ∗ semVal (thr d L, SemLoc.dma cc1_scratch9.sem) 0 ∗ semVal (thr d L, SemLoc.dma cc1_scratch10.sem) 0 ∗ semVal (thr d L, SemLoc.dma cc1_scratch11.sem) 0
            ∗ semVal (thr d L, SemLoc.dma cc1_scratch12.sem) 0 ∗ semVal (thr d L, SemLoc.dma cc1_scratch13.sem) 0 ∗ semVal (thr d L, SemLoc.dma cc1_scratch14.sem) 0
            ∗ semVal (thr d L, SemLoc.dma cc1_scratch15.sem) 0 ∗ semVal (thr d L, SemLoc.dma cc1_scoped0.sem) 0)
          ∗ bigSep (ownCells (thr d L) \ kNums.map (cellEmb d L)) fun g => semVal g 0) := by
  unfold SparseCore.Cfg.ownSems0
  rw [SparseCore.bigSep_sdiff_split' (kCells_sub d L), BI.bigSep_map]
  unfold kNums
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

def kRefs : Finset (Ref sig .scVector) := {cc1_scratch0, cc1_scratch1, cc1_scratch2, cc1_scratch3, cc1_scratch4, cc1_scratch5}

def refEmb (L : grid1.Coords) : Ref sig .scVector ↪ DevRef τ sig :=
  ⟨(Proc.scVector (cV L) (jV L)).devRef, Proc.devRef_injective _⟩

theorem kRefs_sub (L : grid1.Coords) : kRefs.map (refEmb L) ⊆ ownRefs (τ := τ) (.scVector (cV L) (jV L)) := by
  intro b hb
  obtain ⟨r, hr, rfl⟩ := Finset.mem_map.mp hb
  simp only [kRefs, Finset.mem_insert, Finset.mem_singleton] at hr
  rcases hr with rfl | rfl | rfl | rfl | rfl | rfl <;> exact SparseCore.Cfg.mem_ownRefs_of_owner rfl

theorem ownBufs_V (d : Dev nD) (L : grid1.Coords) :
    (ownBufs (thr d L) : sProp 𝕄)
      = iprop(((∃ f, (thr d L).loc cc1_scratch0 ↦{fullShare} f) ∗ (∃ f, (thr d L).loc cc1_scratch1 ↦{fullShare} f) ∗ (∃ f, (thr d L).loc cc1_scratch2 ↦{fullShare} f)
            ∗ (∃ f, (thr d L).loc cc1_scratch3 ↦{fullShare} f) ∗ (∃ f, (thr d L).loc cc1_scratch4 ↦{fullShare} f) ∗ (∃ f, (thr d L).loc cc1_scratch5 ↦{fullShare} f))
          ∗ bigSep (ownRefs (τ := τ) (.scVector (cV L) (jV L)) \ kRefs.map (refEmb L)) fun b => iprop(∃ f, ((d, b) : Loc nD τ sig) ↦{fullShare} f)) := by
  unfold SparseCore.Cfg.ownBufs
  rw [show (thr d L).2 = Proc.scVector (cV L) (jV L) from rfl, SparseCore.bigSep_sdiff_split' (kRefs_sub L), BI.bigSep_map]
  unfold kRefs
  rw [SparseCore.bigSep_insert' (by decide), SparseCore.bigSep_insert' (by decide), SparseCore.bigSep_insert' (by decide), SparseCore.bigSep_insert' (by decide),
    SparseCore.bigSep_insert' (by decide), bigSep_singleton]
  rfl

section Tile

variable (m : (ℓ : Loc nD τ sig) → Buf (Elt F) ℓ) (I1 : (d : Dev nD) → Buf (Elt F) (idxLoc1 d))
variable (d : Dev nD) (L : grid1.Coords)

abbrev idxR (L : grid1.Coords) : Rect S166400 := Rect.unit (s := S166400) (k1_off1 L) S5200.size (k1_off1_inb L)
abbrev idxSl (L : grid1.Coords) : Memref sig .scVector .hbm S5200 .i32 := (idxM).slice (idxR L) (fun _ => rfl)

abbrev tabSl : Memref sig .scVector .hbm S10000x128 .f32 :=
  (tabM).slice (Rect.unit (s := S10000x128) ![0, 0] S10000x128.size inb_S10000x128_S10000x128_0_0) (fun _ => rfl)

theorem idxR_eq : idxR L = idxPart1 (wL L) := by
  unfold idxR idxPart1 Rect.part Rect.block
  congr 1 <;> funext a
  · rw [k1_off1_eq]
    match a with
    | 0 =>
      show 10400 * (L 1).val + 5200 * (L 0).val = ((L 1).val * 2 + (L 0).val) * (166400 / 32)
      omega
  · match a with
    | 0 => rfl

theorem set_idxSl : (idxSl L).view.set = idxSet1 (wL L) := by
  show ((idxM).view.slice (idxR L)).set = ((idxM).view.slice (idxPart1 (wL L))).set
  rw [idxR_eq]

theorem pts_idxSl (f : Buf (Elt F) (idxLoc1 d)) :
    ((idxSl L).view.loc (thr d L) ↦[(idxSl L).view.set]{fullShare} f : sProp 𝕄) = idxLoc1 d ↦[idxSet1 (wL L)]{fullShare} f := by
  rw [set_idxSl]

theorem pts_tab (q : PosShare TreeShare) (f : Buf (Elt F) (tabLoc d)) :
    ((tabM).view.loc (thr d L) ↦{q} f : sProp 𝕄) = tabLoc d ↦{q} f := rfl

theorem pts_iv (f : Buf (Elt F) ((thr d L).loc cc1_scratch0)) :
    ((ivM).view.loc (thr d L) ↦{fullShare} f : sProp 𝕄) = (thr d L).loc cc1_scratch0 ↦{fullShare} f := rfl
theorem pts_r0 (f : Buf (Elt F) ((thr d L).loc cc1_scratch1)) :
    ((r0M).view.loc (thr d L) ↦{fullShare} f : sProp 𝕄) = (thr d L).loc cc1_scratch1 ↦{fullShare} f := rfl
theorem pts_r1 (f : Buf (Elt F) ((thr d L).loc cc1_scratch2)) :
    ((r1M).view.loc (thr d L) ↦{fullShare} f : sProp 𝕄) = (thr d L).loc cc1_scratch2 ↦{fullShare} f := rfl
theorem pts_r2 (f : Buf (Elt F) ((thr d L).loc cc1_scratch3)) :
    ((r2M).view.loc (thr d L) ↦{fullShare} f : sProp 𝕄) = (thr d L).loc cc1_scratch3 ↦{fullShare} f := rfl
theorem pts_r3 (f : Buf (Elt F) ((thr d L).loc cc1_scratch4)) :
    ((r3M).view.loc (thr d L) ↦{fullShare} f : sProp 𝕄) = (thr d L).loc cc1_scratch4 ↦{fullShare} f := rfl
theorem pts_r4 (f : Buf (Elt F) ((thr d L).loc cc1_scratch5)) :
    ((r4M).view.loc (thr d L) ↦{fullShare} f : sProp 𝕄) = (thr d L).loc cc1_scratch5 ↦{fullShare} f := rfl

theorem toks5 {ℓ : Loc nD τ sig} (q : PosShare TreeShare) (f : Buf (Elt F) ℓ) :
    (ℓ ↦{q} f : sProp 𝕄) ⊣⊢ iprop((ℓ ↦{shareDrop q 5} f) ∗ (ℓ ↦{shareTokN q 0} f) ∗ (ℓ ↦{shareTokN q 1} f) ∗ (ℓ ↦{shareTokN q 2} f)
      ∗ (ℓ ↦{shareTokN q 3} f) ∗ (ℓ ↦{shareTokN q 4} f)) := by
  have h := Transfers.pointsTo_toks_range (nD := nD) (τ := τ) (sig := sig) (Ix := HIx 2) (Val := Elt F) (Name := ℕ) (U := UU) (Lvl := ℕ)
    (ℓ := ℓ) (S := Finset.univ) (f := f) q 5
  rw [show Finset.range 5 = insert 0 (insert 1 (insert 2 (insert 3 {4}))) by decide,
    BI.bigSep_insert (by decide), BI.bigSep_insert (by decide), BI.bigSep_insert (by decide), BI.bigSep_insert (by decide), bigSep_singleton] at h
  exact h

def ivCh (j : ℕ) : Finset S5200.Idx := Finset.univ.filter fun x => 80 * j ≤ (x 0).val ∧ (x 0).val < 80 * j + 80

def outCh (w : Fin 32) (j : ℕ) : Finset S166400x128.Idx :=
  Finset.univ.filter fun x => 5200 * w.val + 80 * j ≤ (x 0).val ∧ (x 0).val < 5200 * w.val + 80 * j + 80

def aft (a : ℕ) : Finset ℕ := (Finset.range 65).filter fun j => a ≤ j

theorem aft_zero : aft 0 = Finset.range 65 := by ext j; simp [aft]
theorem aft_empty {a : ℕ} (h : 65 ≤ a) : aft a = ∅ := by ext j; simp [aft]; omega
theorem aft_peel {a : ℕ} (h : a < 65) : aft a = insert a (aft (a + 1)) := by
  ext j; simp only [aft, Finset.mem_filter, Finset.mem_range, Finset.mem_insert]; omega
theorem not_mem_aft (a : ℕ) : a ∉ aft (a + 1) := by simp [aft]

theorem bigSep_aft_peel {a : ℕ} (h : a < 65) (Φ : ℕ → sProp 𝕄) : bigSep (aft a) Φ = iprop(Φ a ∗ bigSep (aft (a + 1)) Φ) := by
  rw [aft_peel h, BI.bigSep_insert (not_mem_aft a)]; rfl

theorem bigSep_aft5 {a : ℕ} (h : a + 5 ≤ 65) (Φ : ℕ → sProp 𝕄) :
    bigSep (aft a) Φ = iprop(Φ a ∗ Φ (a + 1) ∗ Φ (a + 2) ∗ Φ (a + 3) ∗ Φ (a + 4) ∗ bigSep (aft (a + 5)) Φ) := by
  rw [bigSep_aft_peel (by omega), bigSep_aft_peel (a := a + 1) (by omega), bigSep_aft_peel (a := a + 1 + 1) (by omega),
    bigSep_aft_peel (a := a + 1 + 1 + 1) (by omega), bigSep_aft_peel (a := a + 1 + 1 + 1 + 1) (by omega)]

theorem bigSep_range_succ (n : ℕ) (Φ : ℕ → sProp 𝕄) : bigSep (Finset.range (n + 1)) Φ = iprop(Φ n ∗ bigSep (Finset.range n) Φ) := by
  rw [Finset.range_add_one, BI.bigSep_insert Finset.notMem_range_self]; rfl

theorem bigSep_range5 (a : ℕ) (Φ : ℕ → sProp 𝕄) :
    bigSep (Finset.range (a + 5)) Φ = iprop(Φ (a + 4) ∗ Φ (a + 3) ∗ Φ (a + 2) ∗ Φ (a + 1) ∗ Φ a ∗ bigSep (Finset.range a) Φ) := by
  rw [show a + 5 = a + 1 + 1 + 1 + 1 + 1 from rfl, bigSep_range_succ, bigSep_range_succ, bigSep_range_succ, bigSep_range_succ, bigSep_range_succ]

theorem ivCh_disjoint : ∀ i ∈ Finset.range 65, ∀ j ∈ Finset.range 65, i ≠ j → Disjoint (ivCh i) (ivCh j) := by
  intro i _ j _ hij
  rw [Finset.disjoint_left]
  intro x hx hx'
  simp only [ivCh, Finset.mem_filter, Finset.mem_univ, true_and] at hx hx'
  omega

theorem ivCh_cover : (Finset.range 65).biUnion ivCh = Finset.univ := by
  ext x
  simp only [Finset.mem_biUnion, Finset.mem_range, ivCh, Finset.mem_filter, Finset.mem_univ, true_and, iff_true]
  have hx : (x 0).val < 5200 := (x 0).isLt
  exact ⟨(x 0).val / 80, by omega, by omega, by omega⟩

theorem outCh_disjoint (w : Fin 32) : ∀ i ∈ Finset.range 65, ∀ j ∈ Finset.range 65, i ≠ j → Disjoint (outCh w i) (outCh w j) := by
  intro i _ j _ hij
  rw [Finset.disjoint_left]
  intro x hx hx'
  simp only [outCh, Finset.mem_filter, Finset.mem_univ, true_and] at hx hx'
  omega

abbrev ivSlAt (o : Fin 1 → ℕ) (h : ∀ a, o a + S80.size a ≤ S5200.size a) : Memref sig .scVector .vmem S80 .i32 :=
  (ivM).slice (Rect.unit (s := S5200) o S80.size h) (fun _ => rfl)

theorem set_ivSlAt (o : Fin 1 → ℕ) (h : ∀ a, o a + S80.size a ≤ S5200.size a) (j : ℕ) (ho : o 0 = 80 * j) :
    (ivSlAt o h).view.set = ivCh j := by
  refine Eq.trans (View.set_slice_whole (sig := sig) (κ := .scVector) cc1_scratch0 (Rect.unit (s := S5200) o S80.size h)) ?_
  ext x
  rw [Rect.mem_set_unit]
  simp only [ivCh, Finset.mem_filter, Finset.mem_univ, true_and]
  constructor
  · intro hx; have := hx 0; rw [ho] at this; exact ⟨this.1, by simpa using this.2⟩
  · intro hx a
    match a with
    | 0 => rw [ho]; exact ⟨hx.1, by simpa using hx.2⟩

theorem set_tabSl : (tabSl).view.set = (Finset.univ : Finset S10000x128.Idx) := by
  refine Eq.trans (View.set_slice_whole (sig := sig) (κ := .scVector) main_arg0_scv
    (Rect.unit (s := S10000x128) ![0, 0] S10000x128.size inb_S10000x128_S10000x128_0_0)) ?_
  ext x
  simp only [Finset.mem_univ, iff_true, Rect.mem_set_unit]
  intro a
  match a with
  | 0 => exact ⟨Nat.zero_le _, by have h : (x 0).val < 10000 := (x 0).isLt; show (x 0).val < 0 + 10000; omega⟩
  | 1 => exact ⟨Nat.zero_le _, by have h : (x 1).val < 128 := (x 1).isLt; show (x 1).val < 0 + 128; omega⟩

theorem pts_tabSl (q : PosShare TreeShare) (f : Buf (Elt F) (tabLoc d)) :
    ((tabSl).view.loc (thr d L) ↦[(tabSl).view.set]{q} f : sProp 𝕄) = tabLoc d ↦{q} f := by
  rw [set_tabSl]

theorem pts_ivSlAt (o : Fin 1 → ℕ) (h : ∀ a, o a + S80.size a ≤ S5200.size a) (j : ℕ) (ho : o 0 = 80 * j)
    (f : Buf (Elt F) ((thr d L).loc cc1_scratch0)) :
    ((ivSlAt o h).view.loc (thr d L) ↦[(ivSlAt o h).view.set]{fullShare} f : sProp 𝕄) = (thr d L).loc cc1_scratch0 ↦[ivCh j]{fullShare} f := by
  rw [set_ivSlAt o h j ho]

def ivC : Buf (Elt F) ((thr d L).loc cc1_scratch0) := (idxSl L).view.read (Elt F) (I1 d)

theorem ivC_lt (hin : ∀ d j, (I1 d j).toNat < 10000) (x : S5200.Idx) : (ivC I1 d L x).toNat < 10000 := hin d _

theorem hin_ivSlAt (hin : ∀ d j, (I1 d j).toNat < 10000) (o : Fin 1 → ℕ) (h : ∀ a, o a + S80.size a ≤ S5200.size a) :
    ∀ x : S80.Idx, ((ivSlAt o h).view.read (Elt F) (ivC I1 d L) x).toNat < 10000 := fun _ => ivC_lt I1 d L hin _

theorem iv_chunks (f : Buf (Elt F) ((thr d L).loc cc1_scratch0)) :
    ((thr d L).loc cc1_scratch0 ↦{fullShare} f : sProp 𝕄)
      = iprop(((thr d L).loc cc1_scratch0 ↦[ivCh 0]{fullShare} f) ∗ ((thr d L).loc cc1_scratch0 ↦[ivCh 1]{fullShare} f)
          ∗ ((thr d L).loc cc1_scratch0 ↦[ivCh 2]{fullShare} f) ∗ ((thr d L).loc cc1_scratch0 ↦[ivCh 3]{fullShare} f)
          ∗ ((thr d L).loc cc1_scratch0 ↦[ivCh 4]{fullShare} f) ∗ bigSep (aft 5) fun j => (thr d L).loc cc1_scratch0 ↦[ivCh j]{fullShare} f) := by
  rw [← bigSep_aft5 (a := 0) (by omega) (fun j => ((thr d L).loc cc1_scratch0 ↦[ivCh j]{fullShare} f : sProp 𝕄)), aft_zero,
    ← pointsTo_biUnion _ _ ivCh_disjoint, ivCh_cover]

abbrev outSlAt (o : Fin 2 → ℕ) (h : ∀ a, o a + S80x128.size a ≤ S166400x128.size a) : Memref sig .scVector .hbm S80x128 .f32 :=
  (outM).slice (Rect.unit (s := S166400x128) o S80x128.size h) (fun _ => rfl)

theorem set_outSlAt (o : Fin 2 → ℕ) (h : ∀ a, o a + S80x128.size a ≤ S166400x128.size a) (w : Fin 32) (j : ℕ)
    (ho0 : o 0 = 5200 * w.val + 80 * j) (ho1 : o 1 = 0) : (outSlAt o h).view.set = outCh w j := by
  refine Eq.trans (View.set_slice_whole (sig := sig) (κ := .scVector) main_v8_scv (Rect.unit (s := S166400x128) o S80x128.size h)) ?_
  ext x
  rw [Rect.mem_set_unit]
  simp only [outCh, Finset.mem_filter, Finset.mem_univ, true_and]
  constructor
  · intro hx; have := hx 0; rw [ho0] at this; exact ⟨this.1, by simpa using this.2⟩
  · intro hx a
    match a with
    | 0 => rw [ho0]; exact ⟨hx.1, by simpa using hx.2⟩
    | 1 => rw [ho1]; exact ⟨Nat.zero_le _, by have h1 : (x 1).val < 128 := (x 1).isLt; show (x 1).val < 0 + 128; omega⟩

theorem pts_outSlAt (o : Fin 2 → ℕ) (h : ∀ a, o a + S80x128.size a ≤ S166400x128.size a) (w : Fin 32) (j : ℕ)
    (ho0 : o 0 = 5200 * w.val + 80 * j) (ho1 : o 1 = 0) (f : Buf (Elt F) (outLoc1 d)) :
    ((outSlAt o h).view.loc (thr d L) ↦[(outSlAt o h).view.set]{fullShare} f : sProp 𝕄) = outLoc1 d ↦[outCh w j]{fullShare} f := by
  rw [set_outSlAt o h w j ho0 ho1]

theorem off2_0 (t : Fin k1_t1_loop.trips) (b : Fin 5) :
    (k1_off2 L t (BitVec.ofNat 32 b.val)) 0 = 5200 * (wL L).val + 80 * (5 * t.val + b.val) := by
  rw [k1_off2_eq]
  show 10400 * (L 1).val + 5200 * (L 0).val + 400 * t.val + 80 * b.val = 5200 * ((L 1).val * 2 + (L 0).val) + 80 * (5 * t.val + b.val)
  omega
theorem off2_1 (t : Fin k1_t1_loop.trips) (b : Fin 5) : (k1_off2 L t (BitVec.ofNat 32 b.val)) 1 = 0 := by
  rw [k1_off2_eq]; rfl

theorem outCh_cover (w : Fin 32) : (Finset.range 65).biUnion (outCh w) = outSet1 w := by
  rw [show outSet1 w = (outPart1 w).set from View.set_slice_whole (sig := sig) (κ := .scVector) main_v8_scv (outPart1 w)]
  ext x
  rw [Rect.mem_set_unit]
  simp only [Finset.mem_biUnion, Finset.mem_range, outCh, Finset.mem_filter, Finset.mem_univ, true_and]
  have h0 : (x 0).val < 166400 := (x 0).isLt
  have h1 : (x 1).val < 128 := (x 1).isLt
  have hw : w.val < 32 := w.isLt
  constructor
  · rintro ⟨j, hj, hl, hu⟩ a
    match a with
    | 0 => show w.val * (166400 / 32) ≤ (x 0).val ∧ (x 0).val < w.val * (166400 / 32) + 166400 / 32; omega
    | 1 => show 0 * 128 ≤ (x 1).val ∧ (x 1).val < 0 * 128 + 128; omega
  · intro hx
    have hx0 : w.val * (166400 / 32) ≤ (x 0).val ∧ (x 0).val < w.val * (166400 / 32) + 166400 / 32 := hx 0
    exact ⟨((x 0).val - 5200 * w.val) / 80, by omega, by omega, by omega⟩

theorem out_chunks (w : Fin 32) (f : Buf (Elt F) (outLoc1 d)) :
    (outLoc1 d ↦[outSet1 w]{fullShare} f : sProp 𝕄) = bigSep (aft 0) fun j => outLoc1 d ↦[outCh w j]{fullShare} f := by
  rw [aft_zero, ← pointsTo_biUnion _ _ (outCh_disjoint w), outCh_cover]

theorem out_join (w : Fin 32) (f : Buf (Elt F) (outLoc1 d)) :
    (bigSep (Finset.range 65) fun j => (outLoc1 d ↦[outCh w j]{fullShare} f : sProp 𝕄)) = outLoc1 d ↦[outSet1 w]{fullShare} f := by
  rw [← pointsTo_biUnion _ _ (outCh_disjoint w), outCh_cover]
theorem iv_join (f : Buf (Elt F) ((thr d L).loc cc1_scratch0)) :
    (bigSep (Finset.range 65) fun j => ((thr d L).loc cc1_scratch0 ↦[ivCh j]{fullShare} f : sProp 𝕄)) = (thr d L).loc cc1_scratch0 ↦{fullShare} f := by
  rw [← pointsTo_biUnion _ _ ivCh_disjoint, ivCh_cover]
theorem bigSep_range0 (Φ : ℕ → sProp 𝕄) : (iprop(emp) : sProp 𝕄) ⊢ bigSep (Finset.range (5 * 0)) Φ := by
  show _ ⊢ bigSep (Finset.range 0) Φ
  rw [Finset.range_zero, bigSep_empty]; exact .rfl

section Loop

variable (O : CellTallies nD τ sig (HIx 2)) (W : Waits sig (HIx 2)) (f0 : Buf (Elt F) (outLoc1 d))

abbrev qT (L : grid1.Coords) : PosShare TreeShare := shareTok fullShare 32 (wL L)

def outRow (L : grid1.Coords) (j : ℕ) (x : Fin 80) : Fin 166400 := ⟨(5200 * (wL L).val + 80 * j + x.val) % 166400, Nat.mod_lt _ (by decide)⟩

def rowsV (j : ℕ) : S80x128.Idx → Elt F .f32 :=
  fun x => gathered1 (m (tabLoc d)) (I1 d) (ValueIdx.ix2 (outRow L j (x 0)) (x 1 : Fin 128))

abbrev ivP (j : ℕ) : sProp 𝕄 := (thr d L).loc cc1_scratch0 ↦[ivCh j]{fullShare} ivC I1 d L
abbrev outDone (j : ℕ) : sProp 𝕄 := outLoc1 d ↦[outCh (wL L) j]{fullShare} gathered1 (m (tabLoc d)) (I1 d)
abbrev outTodo (j : ℕ) : sProp 𝕄 := outLoc1 d ↦[outCh (wL L) j]{fullShare} f0

def Dg0 (j : ℕ) : sProp 𝕄 :=
  iprop((((r0M).view.loc (thr d L) ↦{fullShare} rowsV m I1 d L j) ∗ ((thr d L).loc cc1_scratch0 ↦[ivCh j]{fullShare} ivC I1 d L))
    ∗ ((tabSl).view.loc (thr d L) ↦[(tabSl).view.set]{shareTokN (qT L) 0} m (tabLoc d)))

def Fl0 (j : ℕ) : sProp 𝕄 :=
  Transfers.Flight (countersEmb : UEmb Counters 𝕄) (thr d L) (SemLoc.dma cc1_scratch6.sem) (default : HIx 2) 327680 (Dg0 m I1 d L j)

def Idle0 : sProp 𝕄 :=
  iprop((∃ f, (r0M).view.loc (thr d L) ↦{fullShare} f) ∗ ((tabSl).view.loc (thr d L) ↦[(tabSl).view.set]{shareTokN (qT L) 0} m (tabLoc d))
    ∗ semVal (thr d L, SemLoc.dma cc1_scratch6.sem) 0)

def Dg1 (j : ℕ) : sProp 𝕄 :=
  iprop((((r1M).view.loc (thr d L) ↦{fullShare} rowsV m I1 d L j) ∗ ((thr d L).loc cc1_scratch0 ↦[ivCh j]{fullShare} ivC I1 d L))
    ∗ ((tabSl).view.loc (thr d L) ↦[(tabSl).view.set]{shareTokN (qT L) 1} m (tabLoc d)))

def Fl1 (j : ℕ) : sProp 𝕄 :=
  Transfers.Flight (countersEmb : UEmb Counters 𝕄) (thr d L) (SemLoc.dma cc1_scratch7.sem) (default : HIx 2) 327680 (Dg1 m I1 d L j)

def Idle1 : sProp 𝕄 :=
  iprop((∃ f, (r1M).view.loc (thr d L) ↦{fullShare} f) ∗ ((tabSl).view.loc (thr d L) ↦[(tabSl).view.set]{shareTokN (qT L) 1} m (tabLoc d))
    ∗ semVal (thr d L, SemLoc.dma cc1_scratch7.sem) 0)

def Dg2 (j : ℕ) : sProp 𝕄 :=
  iprop((((r2M).view.loc (thr d L) ↦{fullShare} rowsV m I1 d L j) ∗ ((thr d L).loc cc1_scratch0 ↦[ivCh j]{fullShare} ivC I1 d L))
    ∗ ((tabSl).view.loc (thr d L) ↦[(tabSl).view.set]{shareTokN (qT L) 2} m (tabLoc d)))

def Fl2 (j : ℕ) : sProp 𝕄 :=
  Transfers.Flight (countersEmb : UEmb Counters 𝕄) (thr d L) (SemLoc.dma cc1_scratch8.sem) (default : HIx 2) 327680 (Dg2 m I1 d L j)

def Idle2 : sProp 𝕄 :=
  iprop((∃ f, (r2M).view.loc (thr d L) ↦{fullShare} f) ∗ ((tabSl).view.loc (thr d L) ↦[(tabSl).view.set]{shareTokN (qT L) 2} m (tabLoc d))
    ∗ semVal (thr d L, SemLoc.dma cc1_scratch8.sem) 0)

def Dg3 (j : ℕ) : sProp 𝕄 :=
  iprop((((r3M).view.loc (thr d L) ↦{fullShare} rowsV m I1 d L j) ∗ ((thr d L).loc cc1_scratch0 ↦[ivCh j]{fullShare} ivC I1 d L))
    ∗ ((tabSl).view.loc (thr d L) ↦[(tabSl).view.set]{shareTokN (qT L) 3} m (tabLoc d)))

def Fl3 (j : ℕ) : sProp 𝕄 :=
  Transfers.Flight (countersEmb : UEmb Counters 𝕄) (thr d L) (SemLoc.dma cc1_scratch9.sem) (default : HIx 2) 327680 (Dg3 m I1 d L j)

def Idle3 : sProp 𝕄 :=
  iprop((∃ f, (r3M).view.loc (thr d L) ↦{fullShare} f) ∗ ((tabSl).view.loc (thr d L) ↦[(tabSl).view.set]{shareTokN (qT L) 3} m (tabLoc d))
    ∗ semVal (thr d L, SemLoc.dma cc1_scratch9.sem) 0)

def Dg4 (j : ℕ) : sProp 𝕄 :=
  iprop((((r4M).view.loc (thr d L) ↦{fullShare} rowsV m I1 d L j) ∗ ((thr d L).loc cc1_scratch0 ↦[ivCh j]{fullShare} ivC I1 d L))
    ∗ ((tabSl).view.loc (thr d L) ↦[(tabSl).view.set]{shareTokN (qT L) 4} m (tabLoc d)))

def Fl4 (j : ℕ) : sProp 𝕄 :=
  Transfers.Flight (countersEmb : UEmb Counters 𝕄) (thr d L) (SemLoc.dma cc1_scratch10.sem) (default : HIx 2) 327680 (Dg4 m I1 d L j)

def Idle4 : sProp 𝕄 :=
  iprop((∃ f, (r4M).view.loc (thr d L) ↦{fullShare} f) ∗ ((tabSl).view.loc (thr d L) ↦[(tabSl).view.set]{shareTokN (qT L) 4} m (tabLoc d))
    ∗ semVal (thr d L, SemLoc.dma cc1_scratch10.sem) 0)

def slots (k : ℕ) : sProp 𝕄 :=
  if k < 13 then iprop(Fl0 m I1 d L (5 * k) ∗ Fl1 m I1 d L (5 * k + 1) ∗ Fl2 m I1 d L (5 * k + 2) ∗ Fl3 m I1 d L (5 * k + 3) ∗ Fl4 m I1 d L (5 * k + 4))
  else iprop(Idle0 m d L ∗ Idle1 m d L ∗ Idle2 m d L ∗ Idle3 m d L ∗ Idle4 m d L)

def inv (k : ℕ) (_ : Unit) : sProp 𝕄 :=
  iprop(Transfers.MayWaits (thr d L) (none : HIx 2) O ∗ slots m I1 d L k
    ∗ (semVal (thr d L, SemLoc.dma cc1_scratch11.sem) 0 ∗ semVal (thr d L, SemLoc.dma cc1_scratch12.sem) 0 ∗ semVal (thr d L, SemLoc.dma cc1_scratch13.sem) 0
        ∗ semVal (thr d L, SemLoc.dma cc1_scratch14.sem) 0 ∗ semVal (thr d L, SemLoc.dma cc1_scratch15.sem) 0)
    ∗ bigSep (Finset.range (5 * k)) (ivP I1 d L) ∗ bigSep (aft (5 * k + 5)) (ivP I1 d L)
    ∗ bigSep (Finset.range (5 * k)) (outDone m I1 d L) ∗ bigSep (aft (5 * k)) (outTodo d L f0)
    ∗ ∃ W', ⌜∀ p ∈ W', p ∈ W ∨ p.2 = none⌝ ∗ owes (thr d L) O W')

theorem trips_eq : k1_t1_loop.trips = 13 := by decide

theorem cond1_pos : ∀ t : Fin k1_t1_loop.trips, t.val < 12 → k1_cond1 t = 1#1 := by decide +kernel
theorem cond2_pos : ∀ t : Fin k1_t1_loop.trips, t.val < 12 → k1_cond2 t = 1#1 := by decide +kernel
theorem cond3_pos : ∀ t : Fin k1_t1_loop.trips, t.val < 12 → k1_cond3 t = 1#1 := by decide +kernel
theorem cond4_pos : ∀ t : Fin k1_t1_loop.trips, t.val < 12 → k1_cond4 t = 1#1 := by decide +kernel
theorem cond5_pos : ∀ t : Fin k1_t1_loop.trips, t.val < 12 → k1_cond5 t = 1#1 := by decide +kernel
theorem cond1_neg : ∀ t : Fin k1_t1_loop.trips, ¬ t.val < 12 → ¬ k1_cond1 t = 1#1 := by decide +kernel
theorem cond2_neg : ∀ t : Fin k1_t1_loop.trips, ¬ t.val < 12 → ¬ k1_cond2 t = 1#1 := by decide +kernel
theorem cond3_neg : ∀ t : Fin k1_t1_loop.trips, ¬ t.val < 12 → ¬ k1_cond3 t = 1#1 := by decide +kernel
theorem cond4_neg : ∀ t : Fin k1_t1_loop.trips, ¬ t.val < 12 → ¬ k1_cond4 t = 1#1 := by decide +kernel
theorem cond5_neg : ∀ t : Fin k1_t1_loop.trips, ¬ t.val < 12 → ¬ k1_cond5 t = 1#1 := by decide +kernel

theorem off3_0 (t : Fin k1_t1_loop.trips) : (k1_off3 t) 0 = 80 * (5 * t.val + 5) := by
  rw [k1_off3_eq]; show 400 * t.val + 400 = 80 * (5 * t.val + 5); omega
theorem off4_0 (t : Fin k1_t1_loop.trips) : (k1_off4 t) 0 = 80 * (5 * t.val + 5 + 1) := by
  rw [k1_off4_eq]; show 400 * t.val + 480 = 80 * (5 * t.val + 5 + 1); omega
theorem off5_0 (t : Fin k1_t1_loop.trips) : (k1_off5 t) 0 = 80 * (5 * t.val + 5 + 2) := by
  rw [k1_off5_eq]; show 400 * t.val + 560 = 80 * (5 * t.val + 5 + 2); omega
theorem off6_0 (t : Fin k1_t1_loop.trips) : (k1_off6 t) 0 = 80 * (5 * t.val + 5 + 3) := by
  rw [k1_off6_eq]; show 400 * t.val + 640 = 80 * (5 * t.val + 5 + 3); omega
theorem off7_0 (t : Fin k1_t1_loop.trips) : (k1_off7 t) 0 = 80 * (5 * t.val + 5 + 4) := by
  rw [k1_off7_eq]; show 400 * t.val + 720 = 80 * (5 * t.val + 5 + 4); omega

theorem writes_whole_emb {κ : Kind} {sp : Space} {s : Shape} {e : EltTy} (v : View sig κ sp s e) (f : v.ty.Contents (Elt F))
    (w : (Rect.whole s).shape.Idx → Elt F e) (x : s.Idx) :
    v.writes (Elt F) f [⟨Rect.whole s, w⟩] (v.emb x) = _root_.cast (congrArg (Elt F) v.elt_eq.symm) (w x) := by
  rw [View.writes_singleton]
  have hx : v.emb x = (v.slice (Rect.whole s)).emb x := by
    rw [View.emb_slice]
    show v.emb x = v.emb ((Rect.whole s).emb x)
    rw [Rect.emb_whole_apply]
  rw [hx, View.write_emb_of_mem _ _ (Finset.mem_univ x)]

theorem writes_whole {κ : Kind} (b : Ref sig κ) (f : (View.whole b).ty.Contents (Elt F)) (w : (Rect.whole b.ty.shape).shape.Idx → Elt F b.ty.elt) (i : b.ty.shape.Idx) :
    (View.whole b).writes (Elt F) f [⟨Rect.whole b.ty.shape, w⟩] i = w i :=
  writes_whole_emb (View.whole b) f w i

theorem iv_emb (j : ℕ) (hj : j < 65) (o : Fin 1 → ℕ) (h : ∀ a, o a + S80.size a ≤ S5200.size a) (ho : o 0 = 80 * j) (y : S80.Idx) (k : Fin 80)
    (hy : (y 0).val = k.val) :
    (idxSl L).view.emb ((ivSlAt o h).view.emb y) = ValueIdx.ix1 (outRow L j k) := by
  funext a
  match a with
  | ⟨0, _⟩ =>
    apply Fin.ext
    show (k1_off1 L) 0 + 1 * (o 0 + 1 * (y 0).val) = (5200 * (wL L).val + 80 * j + k.val) % 166400
    rw [k1_off1_eq, ho, hy]
    show 10400 * (L 1).val + 5200 * (L 0).val + 1 * (80 * j + 1 * k.val) = (5200 * ((L 1).val * 2 + (L 0).val) + 80 * j + k.val) % 166400
    have h1 : (L 1).val < 16 := (L 1).isLt
    have h0 : (L 0).val < 2 := (L 0).isLt
    have hk : k.val < 80 := k.isLt
    omega

theorem gather_payload (hin : ∀ d j, (I1 d j).toNat < 10000) (j : ℕ) (hj : j < 65) (o : Fin 1 → ℕ) (h : ∀ a, o a + S80.size a ≤ S5200.size a)
    (ho : o 0 = 80 * j) (hn : S80.numel = S80x128.size gathers_S10000x128_S80x128.axis')
    (hx : ∀ x : S80.Idx, ((ivSlAt o h).view.read (Elt F) (ivC I1 d L) x).toNat < 10000) :
    SparseCore.gatherPayload gathers_S10000x128_S80x128 ((tabSl).view.read (Elt F) (m (tabLoc d)))
        (SparseCore.rows ((ivSlAt o h).view.read (Elt F) (ivC I1 d L)) hn hx) = rowsV m I1 d L j := by
  funext x
  unfold SparseCore.gatherPayload rowsV gathered1
  show m (tabLoc d) ((tabSl).view.emb (gathers_S10000x128_S80x128.idx _ x)) = _
  congr 1
  funext a
  match a with
  | ⟨0, _⟩ =>
    apply Fin.ext
    show 0 + 1 * ((gathers_S10000x128_S80x128.idx (SparseCore.rows ((ivSlAt o h).view.read (Elt F) (ivC I1 d L)) hn hx) x) 0).val
      = (I1 d (ValueIdx.ix1 (outRow L j (x 0)))).toNat % 10000
    have e0 := Shape.Gathers.idx_axis gathers_S10000x128_S80x128 (SparseCore.rows ((ivSlAt o h).view.read (Elt F) (ivC I1 d L)) hn hx) x
    rw [show (gathers_S10000x128_S80x128.idx (SparseCore.rows ((ivSlAt o h).view.read (Elt F) (ivC I1 d L)) hn hx) x) 0
        = SparseCore.rows ((ivSlAt o h).view.read (Elt F) (ivC I1 d L)) hn hx (x 0) from e0]
    have hy : ((S80.rowMajor.symm ((x 0).cast hn.symm)) 0).val = (x 0).val := by
      have := Shape.rowMajor_val_one (d := ![80]) (S80.rowMajor.symm ((x 0).cast hn.symm))
      rw [Equiv.apply_symm_apply] at this
      exact this.symm
    show 0 + 1 * (I1 d ((idxSl L).view.emb ((ivSlAt o h).view.emb (S80.rowMajor.symm ((x 0).cast hn.symm))))).toNat = _
    rw [iv_emb L j hj o h ho _ (x 0) hy, Nat.mod_eq_of_lt (hin d _)]
    omega
  | ⟨1, _⟩ =>
    apply Fin.ext
    show 0 + 1 * ((gathers_S10000x128_S80x128.idx (SparseCore.rows ((ivSlAt o h).view.read (Elt F) (ivC I1 d L)) hn hx) x) 1).val = (x 1).val
    rw [Shape.Gathers.idx_of_ne gathers_S10000x128_S80x128 _ x 1 (by decide)]
    show 0 + 1 * (x 1).val = (x 1).val
    omega

theorem out_emb (j : ℕ) (hj : j < 65) (o : Fin 2 → ℕ) (h : ∀ a, o a + S80x128.size a ≤ S166400x128.size a)
    (ho0 : o 0 = 5200 * (wL L).val + 80 * j) (ho1 : o 1 = 0) (x : S80x128.Idx) :
    (outSlAt o h).view.emb x = ValueIdx.ix2 (outRow L j (x 0)) (x 1 : Fin 128) := by
  funext a
  match a with
  | ⟨0, _⟩ =>
    apply Fin.ext
    show o 0 + 1 * (x 0).val = (5200 * (wL L).val + 80 * j + (x 0).val) % 166400
    rw [ho0]
    have h0 : (x 0).val < 80 := (x 0).isLt
    have hw : (wL L).val < 32 := (wL L).isLt
    omega
  | ⟨1, _⟩ =>
    apply Fin.ext
    show o 1 + 1 * (x 1).val = (x 1).val
    rw [ho1]; omega

theorem out_written (j : ℕ) (hj : j < 65) (o : Fin 2 → ℕ) (h : ∀ a, o a + S80x128.size a ≤ S166400x128.size a)
    (ho0 : o 0 = 5200 * (wL L).val + 80 * j) (ho1 : o 1 = 0) (f : Buf (Elt F) (outLoc1 d)) (w : S80x128.Idx → Elt F .f32) (hw : ∀ x, w x = rowsV m I1 d L j x) :
    ((outSlAt o h).view.loc (thr d L) ↦[(outSlAt o h).view.set]{fullShare} (outSlAt o h).view.writes (Elt F) f [⟨Rect.whole S80x128, w⟩] : sProp 𝕄)
      = outLoc1 d ↦[outCh (wL L) j]{fullShare} gathered1 (m (tabLoc d)) (I1 d) := by
  rw [← set_outSlAt o h (wL L) j ho0 ho1]
  refine pointsTo_congr fun i hi => ?_
  obtain ⟨x, -, rfl⟩ := Finset.mem_map.mp hi
  refine (writes_whole_emb (outSlAt o h).view f w x).trans ?_
  show w x = gathered1 (m (tabLoc d)) (I1 d) ((outSlAt o h).view.emb x)
  rw [hw x, out_emb L j hj o h ho0 ho1 x]
  rfl

variable [FloatOps F]

theorem flight_conv0 (hin : ∀ d j, (I1 d j).toNat < 10000) (j : ℕ) (hj : j < 65) (o : Fin 1 → ℕ) (h : ∀ a, o a + S80.size a ≤ S5200.size a) (ho : o 0 = 80 * j)
    {sm : SemLoc sig} (fr : Buf (Elt F) ((r0M).view.loc (thr d L)))
    (hn : S80.numel = S80x128.size gathers_S10000x128_S80x128.axis')
    (hx : ∀ x : S80.Idx, ((ivSlAt o h).view.read (Elt F) (ivC I1 d L) x).toNat < 10000) :
    Transfers.Flight (countersEmb : UEmb Counters 𝕄) (thr d L) sm (default : HIx 2) 327680
        iprop((((r0M).view.loc (thr d L) ↦{fullShare} (r0M).view.writes (Elt F) fr
              [⟨Rect.whole cc1_scratch1.ty.shape, SparseCore.gatherPayload gathers_S10000x128_S80x128 ((tabSl).view.read (Elt F) (m (tabLoc d)))
                (SparseCore.rows ((ivSlAt o h).view.read (Elt F) (ivC I1 d L)) hn hx)⟩])
            ∗ ((ivSlAt o h).view.loc (thr d L) ↦[(ivSlAt o h).view.set]{fullShare} ivC I1 d L))
          ∗ ((tabSl).view.loc (thr d L) ↦[(tabSl).view.set]{shareTokN (qT L) 0} m (tabLoc d)))
      ⊢ Transfers.Flight (countersEmb : UEmb Counters 𝕄) (thr d L) sm (default : HIx 2) 327680
        iprop((((r0M).view.loc (thr d L) ↦{fullShare} rowsV m I1 d L j) ∗ ((thr d L).loc cc1_scratch0 ↦[ivCh j]{fullShare} ivC I1 d L))
          ∗ ((tabSl).view.loc (thr d L) ↦[(tabSl).view.set]{shareTokN (qT L) 0} m (tabLoc d))) := by
  refine Transfers.Flight_mono _ _ ?_
  rw [pts_ivSlAt d L o h j ho, gather_payload m I1 d L hin j hj o h ho hn hx,
    show (((r0M).view.loc (thr d L) ↦{fullShare} (r0M).view.writes (Elt F) fr [⟨Rect.whole cc1_scratch1.ty.shape, rowsV m I1 d L j⟩]) : sProp 𝕄)
      = ((r0M).view.loc (thr d L) ↦{fullShare} rowsV m I1 d L j) from pointsTo_congr fun i _ => writes_whole cc1_scratch1 fr _ i]

theorem flight_conv1 (hin : ∀ d j, (I1 d j).toNat < 10000) (j : ℕ) (hj : j < 65) (o : Fin 1 → ℕ) (h : ∀ a, o a + S80.size a ≤ S5200.size a) (ho : o 0 = 80 * j)
    {sm : SemLoc sig} (fr : Buf (Elt F) ((r1M).view.loc (thr d L)))
    (hn : S80.numel = S80x128.size gathers_S10000x128_S80x128.axis')
    (hx : ∀ x : S80.Idx, ((ivSlAt o h).view.read (Elt F) (ivC I1 d L) x).toNat < 10000) :
    Transfers.Flight (countersEmb : UEmb Counters 𝕄) (thr d L) sm (default : HIx 2) 327680
        iprop((((r1M).view.loc (thr d L) ↦{fullShare} (r1M).view.writes (Elt F) fr
              [⟨Rect.whole cc1_scratch2.ty.shape, SparseCore.gatherPayload gathers_S10000x128_S80x128 ((tabSl).view.read (Elt F) (m (tabLoc d)))
                (SparseCore.rows ((ivSlAt o h).view.read (Elt F) (ivC I1 d L)) hn hx)⟩])
            ∗ ((ivSlAt o h).view.loc (thr d L) ↦[(ivSlAt o h).view.set]{fullShare} ivC I1 d L))
          ∗ ((tabSl).view.loc (thr d L) ↦[(tabSl).view.set]{shareTokN (qT L) 1} m (tabLoc d)))
      ⊢ Transfers.Flight (countersEmb : UEmb Counters 𝕄) (thr d L) sm (default : HIx 2) 327680
        iprop((((r1M).view.loc (thr d L) ↦{fullShare} rowsV m I1 d L j) ∗ ((thr d L).loc cc1_scratch0 ↦[ivCh j]{fullShare} ivC I1 d L))
          ∗ ((tabSl).view.loc (thr d L) ↦[(tabSl).view.set]{shareTokN (qT L) 1} m (tabLoc d))) := by
  refine Transfers.Flight_mono _ _ ?_
  rw [pts_ivSlAt d L o h j ho, gather_payload m I1 d L hin j hj o h ho hn hx,
    show (((r1M).view.loc (thr d L) ↦{fullShare} (r1M).view.writes (Elt F) fr [⟨Rect.whole cc1_scratch2.ty.shape, rowsV m I1 d L j⟩]) : sProp 𝕄)
      = ((r1M).view.loc (thr d L) ↦{fullShare} rowsV m I1 d L j) from pointsTo_congr fun i _ => writes_whole cc1_scratch2 fr _ i]

theorem flight_conv2 (hin : ∀ d j, (I1 d j).toNat < 10000) (j : ℕ) (hj : j < 65) (o : Fin 1 → ℕ) (h : ∀ a, o a + S80.size a ≤ S5200.size a) (ho : o 0 = 80 * j)
    {sm : SemLoc sig} (fr : Buf (Elt F) ((r2M).view.loc (thr d L)))
    (hn : S80.numel = S80x128.size gathers_S10000x128_S80x128.axis')
    (hx : ∀ x : S80.Idx, ((ivSlAt o h).view.read (Elt F) (ivC I1 d L) x).toNat < 10000) :
    Transfers.Flight (countersEmb : UEmb Counters 𝕄) (thr d L) sm (default : HIx 2) 327680
        iprop((((r2M).view.loc (thr d L) ↦{fullShare} (r2M).view.writes (Elt F) fr
              [⟨Rect.whole cc1_scratch3.ty.shape, SparseCore.gatherPayload gathers_S10000x128_S80x128 ((tabSl).view.read (Elt F) (m (tabLoc d)))
                (SparseCore.rows ((ivSlAt o h).view.read (Elt F) (ivC I1 d L)) hn hx)⟩])
            ∗ ((ivSlAt o h).view.loc (thr d L) ↦[(ivSlAt o h).view.set]{fullShare} ivC I1 d L))
          ∗ ((tabSl).view.loc (thr d L) ↦[(tabSl).view.set]{shareTokN (qT L) 2} m (tabLoc d)))
      ⊢ Transfers.Flight (countersEmb : UEmb Counters 𝕄) (thr d L) sm (default : HIx 2) 327680
        iprop((((r2M).view.loc (thr d L) ↦{fullShare} rowsV m I1 d L j) ∗ ((thr d L).loc cc1_scratch0 ↦[ivCh j]{fullShare} ivC I1 d L))
          ∗ ((tabSl).view.loc (thr d L) ↦[(tabSl).view.set]{shareTokN (qT L) 2} m (tabLoc d))) := by
  refine Transfers.Flight_mono _ _ ?_
  rw [pts_ivSlAt d L o h j ho, gather_payload m I1 d L hin j hj o h ho hn hx,
    show (((r2M).view.loc (thr d L) ↦{fullShare} (r2M).view.writes (Elt F) fr [⟨Rect.whole cc1_scratch3.ty.shape, rowsV m I1 d L j⟩]) : sProp 𝕄)
      = ((r2M).view.loc (thr d L) ↦{fullShare} rowsV m I1 d L j) from pointsTo_congr fun i _ => writes_whole cc1_scratch3 fr _ i]

theorem flight_conv3 (hin : ∀ d j, (I1 d j).toNat < 10000) (j : ℕ) (hj : j < 65) (o : Fin 1 → ℕ) (h : ∀ a, o a + S80.size a ≤ S5200.size a) (ho : o 0 = 80 * j)
    {sm : SemLoc sig} (fr : Buf (Elt F) ((r3M).view.loc (thr d L)))
    (hn : S80.numel = S80x128.size gathers_S10000x128_S80x128.axis')
    (hx : ∀ x : S80.Idx, ((ivSlAt o h).view.read (Elt F) (ivC I1 d L) x).toNat < 10000) :
    Transfers.Flight (countersEmb : UEmb Counters 𝕄) (thr d L) sm (default : HIx 2) 327680
        iprop((((r3M).view.loc (thr d L) ↦{fullShare} (r3M).view.writes (Elt F) fr
              [⟨Rect.whole cc1_scratch4.ty.shape, SparseCore.gatherPayload gathers_S10000x128_S80x128 ((tabSl).view.read (Elt F) (m (tabLoc d)))
                (SparseCore.rows ((ivSlAt o h).view.read (Elt F) (ivC I1 d L)) hn hx)⟩])
            ∗ ((ivSlAt o h).view.loc (thr d L) ↦[(ivSlAt o h).view.set]{fullShare} ivC I1 d L))
          ∗ ((tabSl).view.loc (thr d L) ↦[(tabSl).view.set]{shareTokN (qT L) 3} m (tabLoc d)))
      ⊢ Transfers.Flight (countersEmb : UEmb Counters 𝕄) (thr d L) sm (default : HIx 2) 327680
        iprop((((r3M).view.loc (thr d L) ↦{fullShare} rowsV m I1 d L j) ∗ ((thr d L).loc cc1_scratch0 ↦[ivCh j]{fullShare} ivC I1 d L))
          ∗ ((tabSl).view.loc (thr d L) ↦[(tabSl).view.set]{shareTokN (qT L) 3} m (tabLoc d))) := by
  refine Transfers.Flight_mono _ _ ?_
  rw [pts_ivSlAt d L o h j ho, gather_payload m I1 d L hin j hj o h ho hn hx,
    show (((r3M).view.loc (thr d L) ↦{fullShare} (r3M).view.writes (Elt F) fr [⟨Rect.whole cc1_scratch4.ty.shape, rowsV m I1 d L j⟩]) : sProp 𝕄)
      = ((r3M).view.loc (thr d L) ↦{fullShare} rowsV m I1 d L j) from pointsTo_congr fun i _ => writes_whole cc1_scratch4 fr _ i]

theorem flight_conv4 (hin : ∀ d j, (I1 d j).toNat < 10000) (j : ℕ) (hj : j < 65) (o : Fin 1 → ℕ) (h : ∀ a, o a + S80.size a ≤ S5200.size a) (ho : o 0 = 80 * j)
    {sm : SemLoc sig} (fr : Buf (Elt F) ((r4M).view.loc (thr d L)))
    (hn : S80.numel = S80x128.size gathers_S10000x128_S80x128.axis')
    (hx : ∀ x : S80.Idx, ((ivSlAt o h).view.read (Elt F) (ivC I1 d L) x).toNat < 10000) :
    Transfers.Flight (countersEmb : UEmb Counters 𝕄) (thr d L) sm (default : HIx 2) 327680
        iprop((((r4M).view.loc (thr d L) ↦{fullShare} (r4M).view.writes (Elt F) fr
              [⟨Rect.whole cc1_scratch5.ty.shape, SparseCore.gatherPayload gathers_S10000x128_S80x128 ((tabSl).view.read (Elt F) (m (tabLoc d)))
                (SparseCore.rows ((ivSlAt o h).view.read (Elt F) (ivC I1 d L)) hn hx)⟩])
            ∗ ((ivSlAt o h).view.loc (thr d L) ↦[(ivSlAt o h).view.set]{fullShare} ivC I1 d L))
          ∗ ((tabSl).view.loc (thr d L) ↦[(tabSl).view.set]{shareTokN (qT L) 4} m (tabLoc d)))
      ⊢ Transfers.Flight (countersEmb : UEmb Counters 𝕄) (thr d L) sm (default : HIx 2) 327680
        iprop((((r4M).view.loc (thr d L) ↦{fullShare} rowsV m I1 d L j) ∗ ((thr d L).loc cc1_scratch0 ↦[ivCh j]{fullShare} ivC I1 d L))
          ∗ ((tabSl).view.loc (thr d L) ↦[(tabSl).view.set]{shareTokN (qT L) 4} m (tabLoc d))) := by
  refine Transfers.Flight_mono _ _ ?_
  rw [pts_ivSlAt d L o h j ho, gather_payload m I1 d L hin j hj o h ho hn hx,
    show (((r4M).view.loc (thr d L) ↦{fullShare} (r4M).view.writes (Elt F) fr [⟨Rect.whole cc1_scratch5.ty.shape, rowsV m I1 d L j⟩]) : sProp 𝕄)
      = ((r4M).view.loc (thr d L) ↦{fullShare} rowsV m I1 d L j) from pointsTo_congr fun i _ => writes_whole cc1_scratch5 fr _ i]

theorem trip (hin : ∀ d j, (I1 d j).toNat < 10000) (v2 : BitVec 32) (t : Fin k1_t1_loop.trips) (x : Unit) (ht : t.val < 12) :
    inv m I1 d L O W f0 t.val x
      ⊢ wp frame (wpE (defs₀ (F := F)) 𝒱₀ (thr d L) none) Set.univ
          (k1_t1_body L tabM (Memref.isWhole_whole _) idxM (Memref.isWhole_whole _) outM (Memref.isWhole_whole _) ivM (Memref.isWhole_whole _)
            r0M (Memref.isWhole_whole _) r1M (Memref.isWhole_whole _) r2M (Memref.isWhole_whole _) r3M (Memref.isWhole_whole _) r4M (Memref.isWhole_whole _)
            cc1_scratch6 cc1_scratch7 cc1_scratch8 cc1_scratch9 cc1_scratch10 cc1_scratch11 cc1_scratch12 cc1_scratch13 cc1_scratch14 cc1_scratch15 cc1_scoped0
            v2 t x)
          (inv m I1 d L O W f0 (t.val + 1)) := by
  have k1_h1 := cond1_pos t ht
  have k1_h2 := cond2_pos t ht
  have k1_h3 := cond3_pos t ht
  have k1_h4 := cond4_pos t ht
  have k1_h5 := cond5_pos t ht
  unfold inv slots
  rw [if_pos (show t.val < 13 by omega), if_pos (show t.val + 1 < 13 by omega),
    bigSep_aft5 (a := 5 * t.val) (by omega) (outTodo d L f0), bigSep_aft5 (a := 5 * t.val + 5) (by omega) (ivP I1 d L),
    show 5 * (t.val + 1) = 5 * t.val + 5 from by omega,
    bigSep_range5 (5 * t.val) (ivP I1 d L), bigSep_range5 (5 * t.val) (outDone m I1 d L)]
  unfold Fl0 Fl1 Fl2 Fl3 Fl4 Dg0 Dg1 Dg2 Dg3 Dg4
  unfold k1_t1_body
  iintro ⟨Hmw, ⟨Hf0, Hf1, Hf2, Hf3, Hf4⟩, ⟨Ho0, Ho1, Ho2, Ho3, Ho4⟩, Hib, ⟨Hn0, Hn1, Hn2, Hn3, Hn4, Hia⟩, Hod, ⟨Hc0, Hc1, Hc2, Hc3, Hc4, Hot⟩, %W', %hW', HO⟩

  ihave Hc0 := (Entails.of_eq (pts_outSlAt (F := F) d L (k1_off2 L t 0#32) (k1_off2_inb L t 0) (wL L) (5 * t.val) (off2_0 L t 0) (off2_1 L t 0) _).symm) $$ Hc0
  ihave Hc1 := (Entails.of_eq (pts_outSlAt (F := F) d L (k1_off2 L t 1#32) (k1_off2_inb L t 1) (wL L) (5 * t.val + 1) (off2_0 L t 1) (off2_1 L t 1) _).symm) $$ Hc1
  ihave Hc2 := (Entails.of_eq (pts_outSlAt (F := F) d L (k1_off2 L t 2#32) (k1_off2_inb L t 2) (wL L) (5 * t.val + 2) (off2_0 L t 2) (off2_1 L t 2) _).symm) $$ Hc2
  ihave Hc3 := (Entails.of_eq (pts_outSlAt (F := F) d L (k1_off2 L t 3#32) (k1_off2_inb L t 3) (wL L) (5 * t.val + 3) (off2_0 L t 3) (off2_1 L t 3) _).symm) $$ Hc3
  ihave Hc4 := (Entails.of_eq (pts_outSlAt (F := F) d L (k1_off2 L t 4#32) (k1_off2_inb L t 4) (wL L) (5 * t.val + 4) (off2_0 L t 4) (off2_1 L t 4) _).symm) $$ Hc4
  ihave Hn0 := (Entails.of_eq (pts_ivSlAt (F := F) d L (k1_off3 t) (k1_off3_inb t k1_h1) (5 * t.val + 5) (off3_0 t) _).symm) $$ Hn0
  ihave Hn1 := (Entails.of_eq (pts_ivSlAt (F := F) d L (k1_off4 t) (k1_off4_inb t k1_h2) (5 * t.val + 5 + 1) (off4_0 t) _).symm) $$ Hn1
  ihave Hn2 := (Entails.of_eq (pts_ivSlAt (F := F) d L (k1_off5 t) (k1_off5_inb t k1_h3) (5 * t.val + 5 + 2) (off5_0 t) _).symm) $$ Hn2
  ihave Hn3 := (Entails.of_eq (pts_ivSlAt (F := F) d L (k1_off6 t) (k1_off6_inb t k1_h4) (5 * t.val + 5 + 3) (off6_0 t) _).symm) $$ Hn3
  ihave Hn4 := (Entails.of_eq (pts_ivSlAt (F := F) d L (k1_off7 t) (k1_off7_inb t k1_h5) (5 * t.val + 5 + 4) (off7_0 t) _).symm) $$ Hn4
  have hinA := hin_ivSlAt (F := F) I1 d L hin (k1_off3 t) (k1_off3_inb t k1_h1)
  have hinB := hin_ivSlAt (F := F) I1 d L hin (k1_off4 t) (k1_off4_inb t k1_h2)
  have hinC := hin_ivSlAt (F := F) I1 d L hin (k1_off5 t) (k1_off5_inb t k1_h3)
  have hinD := hin_ivSlAt (F := F) I1 d L hin (k1_off6 t) (k1_off6_inb t k1_h4)
  have hinE := hin_ivSlAt (F := F) I1 d L hin (k1_off7 t) (k1_off7_inb t k1_h5)
  sl_exec
  icases Hf0_dst with ⟨Hr0, Hi0⟩
  sl_exec
  icases Hf1_dst with ⟨Hr1, Hi1⟩
  sl_exec
  icases Hf2_dst with ⟨Hr2, Hi2⟩
  sl_exec
  icases Hf3_dst with ⟨Hr3, Hi3⟩
  sl_exec
  icases Hf4_dst with ⟨Hr4, Hi4⟩
  sl_exec
  sl_step
  sl_unfold_run_names

  iclear Hf0_src Hf1_src Hf2_src Hf3_src Hf4_src
  ihave Hc0 := (Entails.of_eq (out_written (F := F) m I1 d L (5 * t.val) (by omega) (k1_off2 L t 0#32) (k1_off2_inb L t 0) (off2_0 L t 0) (off2_1 L t 0) f0 (ReadAs.apply ReadAs.same (View.read (Elt F) (r0M).view (rowsV m I1 d L (5 * t.val)))) (fun _ => rfl))) $$ Hc0
  ihave Hc1 := (Entails.of_eq (out_written (F := F) m I1 d L (5 * t.val + 1) (by omega) (k1_off2 L t 1#32) (k1_off2_inb L t 1) (off2_0 L t 1) (off2_1 L t 1) f0 (ReadAs.apply ReadAs.same (View.read (Elt F) (r1M).view (rowsV m I1 d L (5 * t.val + 1)))) (fun _ => rfl))) $$ Hc1
  ihave Hc2 := (Entails.of_eq (out_written (F := F) m I1 d L (5 * t.val + 2) (by omega) (k1_off2 L t 2#32) (k1_off2_inb L t 2) (off2_0 L t 2) (off2_1 L t 2) f0 (ReadAs.apply ReadAs.same (View.read (Elt F) (r2M).view (rowsV m I1 d L (5 * t.val + 2)))) (fun _ => rfl))) $$ Hc2
  ihave Hc3 := (Entails.of_eq (out_written (F := F) m I1 d L (5 * t.val + 3) (by omega) (k1_off2 L t 3#32) (k1_off2_inb L t 3) (off2_0 L t 3) (off2_1 L t 3) f0 (ReadAs.apply ReadAs.same (View.read (Elt F) (r3M).view (rowsV m I1 d L (5 * t.val + 3)))) (fun _ => rfl))) $$ Hc3
  ihave Hc4 := (Entails.of_eq (out_written (F := F) m I1 d L (5 * t.val + 4) (by omega) (k1_off2 L t 4#32) (k1_off2_inb L t 4) (off2_0 L t 4) (off2_1 L t 4) f0 (ReadAs.apply ReadAs.same (View.read (Elt F) (r4M).view (rowsV m I1 d L (5 * t.val + 4)))) (fun _ => rfl))) $$ Hc4
  isplitl [Hmw]; · iexact Hmw
  isplitl [Hf0 Hf1 Hf2 Hf3 Hf4]
  · isplitl [Hf0]; · iapply (flight_conv0 (F := F) m I1 d L hin (5 * t.val + 5) (by omega) (k1_off3 t) (k1_off3_inb t k1_h1) (off3_0 t) (rowsV m I1 d L (5 * t.val)) rfl hinA); iexact Hf0
    isplitl [Hf1]; · iapply (flight_conv1 (F := F) m I1 d L hin (5 * t.val + 5 + 1) (by omega) (k1_off4 t) (k1_off4_inb t k1_h2) (off4_0 t) (rowsV m I1 d L (5 * t.val + 1)) rfl hinB); iexact Hf1
    isplitl [Hf2]; · iapply (flight_conv2 (F := F) m I1 d L hin (5 * t.val + 5 + 2) (by omega) (k1_off5 t) (k1_off5_inb t k1_h3) (off5_0 t) (rowsV m I1 d L (5 * t.val + 2)) rfl hinC); iexact Hf2
    isplitl [Hf3]; · iapply (flight_conv3 (F := F) m I1 d L hin (5 * t.val + 5 + 3) (by omega) (k1_off6 t) (k1_off6_inb t k1_h4) (off6_0 t) (rowsV m I1 d L (5 * t.val + 3)) rfl hinD); iexact Hf3
    iapply (flight_conv4 (F := F) m I1 d L hin (5 * t.val + 5 + 4) (by omega) (k1_off7 t) (k1_off7_inb t k1_h5) (off7_0 t) (rowsV m I1 d L (5 * t.val + 4)) rfl hinE); iexact Hf4
  isplitl [Ho0 Ho1 Ho2 Ho3 Ho4]
  ·
    isplitl [Ho0]; · iexact Ho0
    isplitl [Ho1]; · iexact Ho1
    isplitl [Ho2]; · iexact Ho2
    isplitl [Ho3]; · iexact Ho3
    iexact Ho4
  isplitl [Hi0 Hi1 Hi2 Hi3 Hi4 Hib]
  ·
    isplitl [Hi4]; · iexact Hi4
    isplitl [Hi3]; · iexact Hi3
    isplitl [Hi2]; · iexact Hi2
    isplitl [Hi1]; · iexact Hi1
    isplitl [Hi0]; · iexact Hi0
    iexact Hib
  isplitl [Hia]; · iexact Hia
  isplitl [Hc0 Hc1 Hc2 Hc3 Hc4 Hod]
  ·
    isplitl [Hc4]; · iexact Hc4
    isplitl [Hc3]; · iexact Hc3
    isplitl [Hc2]; · iexact Hc2
    isplitl [Hc1]; · iexact Hc1
    isplitl [Hc0]; · iexact Hc0
    iexact Hod
  isplitl [Hot]; · iexact Hot
  iexists _; isplitr
  on_goal 2 => iexact HO
  ipureintro; intro p hp
  simp only [Finset.mem_insert] at hp
  rcases hp with rfl | rfl | rfl | rfl | rfl | rfl | rfl | rfl | rfl | rfl | hp <;> first | exact .inr rfl | exact hW' p hp

theorem trip_last (hin : ∀ d j, (I1 d j).toNat < 10000) (v2 : BitVec 32) (t : Fin k1_t1_loop.trips) (x : Unit) (ht : ¬ t.val < 12) :
    inv m I1 d L O W f0 t.val x
      ⊢ wp frame (wpE (defs₀ (F := F)) 𝒱₀ (thr d L) none) Set.univ
          (k1_t1_body L tabM (Memref.isWhole_whole _) idxM (Memref.isWhole_whole _) outM (Memref.isWhole_whole _) ivM (Memref.isWhole_whole _)
            r0M (Memref.isWhole_whole _) r1M (Memref.isWhole_whole _) r2M (Memref.isWhole_whole _) r3M (Memref.isWhole_whole _) r4M (Memref.isWhole_whole _)
            cc1_scratch6 cc1_scratch7 cc1_scratch8 cc1_scratch9 cc1_scratch10 cc1_scratch11 cc1_scratch12 cc1_scratch13 cc1_scratch14 cc1_scratch15 cc1_scoped0
            v2 t x)
          (inv m I1 d L O W f0 (t.val + 1)) := by
  have ht12 : t.val < 13 := Nat.lt_of_lt_of_le t.isLt k1_t1_abs.2.1
  have k1_h1 := cond1_neg t ht
  have k1_h2 := cond2_neg t ht
  have k1_h3 := cond3_neg t ht
  have k1_h4 := cond4_neg t ht
  have k1_h5 := cond5_neg t ht
  unfold inv slots
  rw [if_pos ht12, if_neg (show ¬ t.val + 1 < 13 by omega),
    bigSep_aft5 (a := 5 * t.val) (by omega) (outTodo d L f0),
    show aft (5 * (t.val + 1) + 5) = aft (5 * t.val + 5) from by rw [aft_empty (by omega), aft_empty (by omega)],
    show 5 * (t.val + 1) = 5 * t.val + 5 from by omega,
    bigSep_range5 (5 * t.val) (ivP I1 d L), bigSep_range5 (5 * t.val) (outDone m I1 d L)]
  unfold Fl0 Fl1 Fl2 Fl3 Fl4 Dg0 Dg1 Dg2 Dg3 Dg4 Idle0 Idle1 Idle2 Idle3 Idle4
  unfold k1_t1_body
  iintro ⟨Hmw, ⟨Hf0, Hf1, Hf2, Hf3, Hf4⟩, ⟨Ho0, Ho1, Ho2, Ho3, Ho4⟩, Hib, Hia, Hod, ⟨Hc0, Hc1, Hc2, Hc3, Hc4, Hot⟩, %W', %hW', HO⟩
  ihave Hc0 := (Entails.of_eq (pts_outSlAt (F := F) d L (k1_off2 L t 0#32) (k1_off2_inb L t 0) (wL L) (5 * t.val) (off2_0 L t 0) (off2_1 L t 0) _).symm) $$ Hc0
  ihave Hc1 := (Entails.of_eq (pts_outSlAt (F := F) d L (k1_off2 L t 1#32) (k1_off2_inb L t 1) (wL L) (5 * t.val + 1) (off2_0 L t 1) (off2_1 L t 1) _).symm) $$ Hc1
  ihave Hc2 := (Entails.of_eq (pts_outSlAt (F := F) d L (k1_off2 L t 2#32) (k1_off2_inb L t 2) (wL L) (5 * t.val + 2) (off2_0 L t 2) (off2_1 L t 2) _).symm) $$ Hc2
  ihave Hc3 := (Entails.of_eq (pts_outSlAt (F := F) d L (k1_off2 L t 3#32) (k1_off2_inb L t 3) (wL L) (5 * t.val + 3) (off2_0 L t 3) (off2_1 L t 3) _).symm) $$ Hc3
  ihave Hc4 := (Entails.of_eq (pts_outSlAt (F := F) d L (k1_off2 L t 4#32) (k1_off2_inb L t 4) (wL L) (5 * t.val + 4) (off2_0 L t 4) (off2_1 L t 4) _).symm) $$ Hc4
  sl_exec
  icases Hf0_dst with ⟨Hr0, Hi0⟩
  sl_exec
  icases Hf1_dst with ⟨Hr1, Hi1⟩
  sl_exec
  icases Hf2_dst with ⟨Hr2, Hi2⟩
  sl_exec
  icases Hf3_dst with ⟨Hr3, Hi3⟩
  sl_exec
  icases Hf4_dst with ⟨Hr4, Hi4⟩
  sl_exec
  sl_step
  sl_unfold_run_names
  ihave Hc0 := (Entails.of_eq (out_written (F := F) m I1 d L (5 * t.val) (by omega) (k1_off2 L t 0#32) (k1_off2_inb L t 0) (off2_0 L t 0) (off2_1 L t 0) f0 (ReadAs.apply ReadAs.same (View.read (Elt F) (r0M).view (rowsV m I1 d L (5 * t.val)))) (fun _ => rfl))) $$ Hc0
  ihave Hc1 := (Entails.of_eq (out_written (F := F) m I1 d L (5 * t.val + 1) (by omega) (k1_off2 L t 1#32) (k1_off2_inb L t 1) (off2_0 L t 1) (off2_1 L t 1) f0 (ReadAs.apply ReadAs.same (View.read (Elt F) (r1M).view (rowsV m I1 d L (5 * t.val + 1)))) (fun _ => rfl))) $$ Hc1
  ihave Hc2 := (Entails.of_eq (out_written (F := F) m I1 d L (5 * t.val + 2) (by omega) (k1_off2 L t 2#32) (k1_off2_inb L t 2) (off2_0 L t 2) (off2_1 L t 2) f0 (ReadAs.apply ReadAs.same (View.read (Elt F) (r2M).view (rowsV m I1 d L (5 * t.val + 2)))) (fun _ => rfl))) $$ Hc2
  ihave Hc3 := (Entails.of_eq (out_written (F := F) m I1 d L (5 * t.val + 3) (by omega) (k1_off2 L t 3#32) (k1_off2_inb L t 3) (off2_0 L t 3) (off2_1 L t 3) f0 (ReadAs.apply ReadAs.same (View.read (Elt F) (r3M).view (rowsV m I1 d L (5 * t.val + 3)))) (fun _ => rfl))) $$ Hc3
  ihave Hc4 := (Entails.of_eq (out_written (F := F) m I1 d L (5 * t.val + 4) (by omega) (k1_off2 L t 4#32) (k1_off2_inb L t 4) (off2_0 L t 4) (off2_1 L t 4) f0 (ReadAs.apply ReadAs.same (View.read (Elt F) (r4M).view (rowsV m I1 d L (5 * t.val + 4)))) (fun _ => rfl))) $$ Hc4
  isplitl [Hmw]; · iexact Hmw
  isplitl [Hr0 Hr1 Hr2 Hr3 Hr4 Hf0_src Hf1_src Hf2_src Hf3_src Hf4_src Hf0 Hf1 Hf2 Hf3 Hf4]
  · isplitl [Hr0 Hf0_src Hf0]
    · isplitl [Hr0]; · iexists _; iexact Hr0
      isplitl [Hf0_src]; · iexact Hf0_src
      iexact Hf0
    isplitl [Hr1 Hf1_src Hf1]
    · isplitl [Hr1]; · iexists _; iexact Hr1
      isplitl [Hf1_src]; · iexact Hf1_src
      iexact Hf1
    isplitl [Hr2 Hf2_src Hf2]
    · isplitl [Hr2]; · iexists _; iexact Hr2
      isplitl [Hf2_src]; · iexact Hf2_src
      iexact Hf2
    isplitl [Hr3 Hf3_src Hf3]
    · isplitl [Hr3]; · iexists _; iexact Hr3
      isplitl [Hf3_src]; · iexact Hf3_src
      iexact Hf3
    isplitl [Hr4]; · iexists _; iexact Hr4
    isplitl [Hf4_src]; · iexact Hf4_src
    iexact Hf4
  isplitl [Ho0 Ho1 Ho2 Ho3 Ho4]
  ·
    isplitl [Ho0]; · iexact Ho0
    isplitl [Ho1]; · iexact Ho1
    isplitl [Ho2]; · iexact Ho2
    isplitl [Ho3]; · iexact Ho3
    iexact Ho4
  isplitl [Hi0 Hi1 Hi2 Hi3 Hi4 Hib]
  ·
    isplitl [Hi4]; · iexact Hi4
    isplitl [Hi3]; · iexact Hi3
    isplitl [Hi2]; · iexact Hi2
    isplitl [Hi1]; · iexact Hi1
    isplitl [Hi0]; · iexact Hi0
    iexact Hib
  isplitl [Hia]; · iexact Hia
  isplitl [Hc0 Hc1 Hc2 Hc3 Hc4 Hod]
  ·
    isplitl [Hc4]; · iexact Hc4
    isplitl [Hc3]; · iexact Hc3
    isplitl [Hc2]; · iexact Hc2
    isplitl [Hc1]; · iexact Hc1
    isplitl [Hc0]; · iexact Hc0
    iexact Hod
  isplitl [Hot]; · iexact Hot
  iexists _; isplitr
  on_goal 2 => iexact HO
  ipureintro; intro p hp
  simp only [Finset.mem_insert] at hp
  rcases hp with rfl | rfl | rfl | rfl | rfl | rfl | rfl | rfl | rfl | rfl | hp <;> first | exact .inr rfl | exact hW' p hp

end Loop

section Ends

variable (O : CellTallies nD τ sig (HIx 2)) (W : Waits sig (HIx 2)) (f0 : Buf (Elt F) (outLoc1 d))

theorem inv_end (x : Unit) :
    inv m I1 d L O W f0 k1_t1_loop.trips x
      ⊢ iprop(Transfers.MayWaits (thr d L) (none : HIx 2) O ∗ (Idle0 m d L ∗ Idle1 m d L ∗ Idle2 m d L ∗ Idle3 m d L ∗ Idle4 m d L)
        ∗ (semVal (thr d L, SemLoc.dma cc1_scratch11.sem) 0 ∗ semVal (thr d L, SemLoc.dma cc1_scratch12.sem) 0 ∗ semVal (thr d L, SemLoc.dma cc1_scratch13.sem) 0
            ∗ semVal (thr d L, SemLoc.dma cc1_scratch14.sem) 0 ∗ semVal (thr d L, SemLoc.dma cc1_scratch15.sem) 0)
        ∗ bigSep (Finset.range 65) (ivP I1 d L) ∗ bigSep (Finset.range 65) (outDone m I1 d L)
        ∗ ∃ W', ⌜∀ p ∈ W', p ∈ W ∨ p.2 = none⌝ ∗ owes (thr d L) O W') := by
  unfold inv slots
  rw [trips_eq, if_neg (by omega)]
  iintro ⟨Hmw, Hs, Hos, Hib, -, Hod, -, HW⟩
  isplitl [Hmw]; · iexact Hmw
  isplitl [Hs]; · iexact Hs
  isplitl [Hos]; · iexact Hos
  isplitl [Hib]; · iexact Hib
  isplitl [Hod]; · iexact Hod
  iexact HW

theorem inv_zero (x : Unit) :
    iprop(Transfers.MayWaits (thr d L) (none : HIx 2) O
        ∗ (Fl0 m I1 d L 0 ∗ Fl1 m I1 d L 1 ∗ Fl2 m I1 d L 2 ∗ Fl3 m I1 d L 3 ∗ Fl4 m I1 d L 4)
        ∗ (semVal (thr d L, SemLoc.dma cc1_scratch11.sem) 0 ∗ semVal (thr d L, SemLoc.dma cc1_scratch12.sem) 0 ∗ semVal (thr d L, SemLoc.dma cc1_scratch13.sem) 0
            ∗ semVal (thr d L, SemLoc.dma cc1_scratch14.sem) 0 ∗ semVal (thr d L, SemLoc.dma cc1_scratch15.sem) 0)
        ∗ bigSep (aft 5) (ivP I1 d L) ∗ bigSep (aft 0) (outTodo d L f0)
        ∗ ∃ W', ⌜∀ p ∈ W', p ∈ W ∨ p.2 = none⌝ ∗ owes (thr d L) O W')
      ⊢ inv m I1 d L O W f0 0 x := by
  unfold inv slots
  rw [if_pos (by omega)]
  iintro ⟨Hmw, Hfl, Hos, Hia, Hot, HW⟩
  isplitl [Hmw]; · iexact Hmw
  isplitl [Hfl]; · iexact Hfl
  isplitl [Hos]; · iexact Hos
  isplitr [Hia Hot HW]; · iapply (bigSep_range0 (F := F) _); iempintro
  isplitl [Hia]; · iexact Hia
  isplitr [Hot HW]; · iapply (bigSep_range0 (F := F) _); iempintro
  isplitl [Hot]; · iexact Hot
  iexact HW

end Ends

variable [FloatOps F]

set_option maxHeartbeats 1000000 in
theorem tile_body (hF : (K (F := F)).Facts) (hin : ∀ d j, (I1 d j).toNat < 10000)
    (O : CellTallies nD τ sig (HIx 2)) (W : Waits sig (HIx 2)) (hO : ∀ g, O g none = 0) :
    iprop(levAts (K (F := F)).L (K (F := F)).lev ∗ emp ∗ go1 m I1 d (wL L) ∗ scopedBufs (thr d L) ∗ scopedSems0 (thr d L) ∗ owes (thr d L) O W)
      ⊢ wp frame (wpE (defs₀ (F := F)) 𝒱₀ (thr d L) none) Set.univ
          (cc1_k L tabM (Memref.isWhole_whole _) idxM (Memref.isWhole_whole _) outM (Memref.isWhole_whole _) ivM (Memref.isWhole_whole _)
            r0M (Memref.isWhole_whole _) r1M (Memref.isWhole_whole _) r2M (Memref.isWhole_whole _) r3M (Memref.isWhole_whole _) r4M (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(td1 m I1 d (wL L) ∗ scopedBufs (thr d L) ∗ scopedSems0 (thr d L)
            ∗ ∃ W', ⌜∀ p ∈ W', p ∈ W ∨ p.2 = none⌝ ∗ owes (thr d L) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  unfold go1 td1 tabShare
  iintro ⟨#Hlv, -, ⟨Htab, Hidx, %f0, Hout⟩, ⟨⟨⟨%fiv, Hiv⟩, ⟨%fr0, Hr0⟩, ⟨%fr1, Hr1⟩, ⟨%fr2, Hr2⟩, ⟨%fr3, Hr3⟩, ⟨%fr4, Hr4⟩⟩, Hbufs⟩,
    ⟨⟨Hg0, Hg1, Hg2, Hg3, Hg4, Ho0, Ho1, Ho2, Ho3, Ho4, Hsc⟩, Hsems⟩, HO⟩
  ihave Hmw := ((K (F := F)).mayWaits_none (thr := thr d L) hO) $$ Hlv
  ihave Hidx := (Entails.of_eq (pts_idxSl (F := F) d L _).symm) $$ Hidx
  ihave Hiv := (Entails.of_eq (pts_iv (F := F) d L _).symm) $$ Hiv

  set_option sl_exec.maxSteps 2 in sl_exec

  ihave Hiv := (Entails.of_eq (pointsTo_congr (g := ivC I1 d L) (by
      intro i _
      sl_unfold_run_names
      exact congrFun (View.read_write_univ (v := (ivM).view) fiv _) i))) $$ Hiv
  ihave Hiv := (Entails.of_eq (pts_iv (F := F) d L _)) $$ Hiv
  ihave Hiv := (Entails.of_eq (iv_chunks (F := F) d L _)) $$ Hiv
  icases Hiv with ⟨Hi0, Hi1, Hi2, Hi3, Hi4, Hiaft⟩
  ihave Hi0 := (Entails.of_eq (pts_ivSlAt (F := F) d L ![0] inb_S5200_S80_0 0 rfl _).symm) $$ Hi0
  ihave Hi1 := (Entails.of_eq (pts_ivSlAt (F := F) d L ![80] inb_S5200_S80_80 1 rfl _).symm) $$ Hi1
  ihave Hi2 := (Entails.of_eq (pts_ivSlAt (F := F) d L ![160] inb_S5200_S80_160 2 rfl _).symm) $$ Hi2
  ihave Hi3 := (Entails.of_eq (pts_ivSlAt (F := F) d L ![240] inb_S5200_S80_240 3 rfl _).symm) $$ Hi3
  ihave Hi4 := (Entails.of_eq (pts_ivSlAt (F := F) d L ![320] inb_S5200_S80_320 4 rfl _).symm) $$ Hi4
  have hin0 := hin_ivSlAt (F := F) I1 d L hin ![0] inb_S5200_S80_0
  have hin1 := hin_ivSlAt (F := F) I1 d L hin ![80] inb_S5200_S80_80
  have hin2 := hin_ivSlAt (F := F) I1 d L hin ![160] inb_S5200_S80_160
  have hin3 := hin_ivSlAt (F := F) I1 d L hin ![240] inb_S5200_S80_240
  have hin4 := hin_ivSlAt (F := F) I1 d L hin ![320] inb_S5200_S80_320

  ihave Htab' := (toks5 (F := F) _ _).1 $$ Htab
  icases Htab' with ⟨Htr, Ht0, Ht1, Ht2, Ht3, Ht4⟩
  ihave Ht0 := (Entails.of_eq (pts_tabSl (F := F) d L _ _).symm) $$ Ht0
  ihave Ht1 := (Entails.of_eq (pts_tabSl (F := F) d L _ _).symm) $$ Ht1
  ihave Ht2 := (Entails.of_eq (pts_tabSl (F := F) d L _ _).symm) $$ Ht2
  ihave Ht3 := (Entails.of_eq (pts_tabSl (F := F) d L _ _).symm) $$ Ht3
  ihave Ht4 := (Entails.of_eq (pts_tabSl (F := F) d L _ _).symm) $$ Ht4
  ihave Hr0 := (Entails.of_eq (pts_r0 (F := F) d L _).symm) $$ Hr0
  ihave Hr1 := (Entails.of_eq (pts_r1 (F := F) d L _).symm) $$ Hr1
  ihave Hr2 := (Entails.of_eq (pts_r2 (F := F) d L _).symm) $$ Hr2
  ihave Hr3 := (Entails.of_eq (pts_r3 (F := F) d L _).symm) $$ Hr3
  ihave Hr4 := (Entails.of_eq (pts_r4 (F := F) d L _).symm) $$ Hr4
  sl_exec

  iclear Ht0 Ht1 Ht2 Ht3 Ht4
  sl_unfold_run_names
  ihave Hout := (Entails.of_eq (out_chunks (F := F) d (wL L) f0)) $$ Hout
  sl_for (inv m I1 d L O W f0) $$ [Hmw Hg0 Hg1 Hg2 Hg3 Hg4 Ho0 Ho1 Ho2 Ho3 Ho4 Hiaft Hout HO]
  case region =>
    intro k x
    sl_respell []
    by_cases hk : k.val < 12
    · exact trip m I1 d L O W f0 hin _ k x hk
    · exact trip_last m I1 d L O W f0 hin _ k x hk
  · iapply (inv_zero (F := F) m I1 d L O W f0 _)
    unfold Fl0 Fl1 Fl2 Fl3 Fl4 Dg0 Dg1 Dg2 Dg3 Dg4
    isplitl [Hmw]; · iexact Hmw
    isplitl [Hg0 Hg1 Hg2 Hg3 Hg4]
    · isplitl [Hg0]; · iapply (flight_conv0 (F := F) m I1 d L hin 0 (by omega) ![0] inb_S5200_S80_0 rfl fr0 rfl hin0); iexact Hg0
      isplitl [Hg1]; · iapply (flight_conv1 (F := F) m I1 d L hin 1 (by omega) ![80] inb_S5200_S80_80 rfl fr1 rfl hin1); iexact Hg1
      isplitl [Hg2]; · iapply (flight_conv2 (F := F) m I1 d L hin 2 (by omega) ![160] inb_S5200_S80_160 rfl fr2 rfl hin2); iexact Hg2
      isplitl [Hg3]; · iapply (flight_conv3 (F := F) m I1 d L hin 3 (by omega) ![240] inb_S5200_S80_240 rfl fr3 rfl hin3); iexact Hg3
      iapply (flight_conv4 (F := F) m I1 d L hin 4 (by omega) ![320] inb_S5200_S80_320 rfl fr4 rfl hin4); iexact Hg4
    isplitl [Ho0 Ho1 Ho2 Ho3 Ho4]
    · isplitl [Ho0]; · iexact Ho0
      isplitl [Ho1]; · iexact Ho1
      isplitl [Ho2]; · iexact Ho2
      isplitl [Ho3]; · iexact Ho3
      iexact Ho4
    isplitl [Hiaft]; · iexact Hiaft
    isplitl [Hout]; · iexact Hout
    iexists (insert (SemLoc.dma cc1_scoped0.sem, (default : HIx 2)) W); isplitr
    · ipureintro; intro p hp
      rcases Finset.mem_insert.mp hp with rfl | hp
      · exact .inr rfl
      · exact .inl hp
    · iexact HO
  iintro %_ HI
  ihave HI := (inv_end (F := F) m I1 d L O W f0 _) $$ HI
  unfold Idle0 Idle1 Idle2 Idle3 Idle4
  icases HI with ⟨Hmw, ⟨⟨⟨%g0, Hr0⟩, Ht0, Hg0⟩, ⟨⟨%g1, Hr1⟩, Ht1, Hg1⟩, ⟨⟨%g2, Hr2⟩, Ht2, Hg2⟩, ⟨⟨%g3, Hr3⟩, Ht3, Hg3⟩, ⟨%g4, Hr4⟩, Ht4, Hg4⟩,
    ⟨Ho0, Ho1, Ho2, Ho3, Ho4⟩, Hiv, Hod, %W', %hW', HO⟩
  sl_exec
  sl_step

  ihave Ht0 := (Entails.of_eq (pts_tabSl (F := F) d L _ _)) $$ Ht0
  ihave Ht1 := (Entails.of_eq (pts_tabSl (F := F) d L _ _)) $$ Ht1
  ihave Ht2 := (Entails.of_eq (pts_tabSl (F := F) d L _ _)) $$ Ht2
  ihave Ht3 := (Entails.of_eq (pts_tabSl (F := F) d L _ _)) $$ Ht3
  ihave Ht4 := (Entails.of_eq (pts_tabSl (F := F) d L _ _)) $$ Ht4
  ihave Hidx := (Entails.of_eq (pts_idxSl (F := F) d L _)) $$ Hidx
  ihave Hod := (Entails.of_eq (out_join (F := F) d (wL L) _)) $$ Hod
  ihave Hiv := (Entails.of_eq (iv_join (F := F) d L _)) $$ Hiv
  isplitl [Htr Ht0 Ht1 Ht2 Ht3 Ht4 Hidx Hod]
  · isplitl [Htr Ht0 Ht1 Ht2 Ht3 Ht4]
    · iapply (toks5 (F := F) _ _).2
      isplitl [Htr]; · iexact Htr
      isplitl [Ht0]; · iexact Ht0
      isplitl [Ht1]; · iexact Ht1
      isplitl [Ht2]; · iexact Ht2
      isplitl [Ht3]; · iexact Ht3
      iexact Ht4
    isplitl [Hidx]; · iexact Hidx
    iexact Hod
  isplitl [Hiv Hr0 Hr1 Hr2 Hr3 Hr4 Hbufs]
  · isplitl [Hiv Hr0 Hr1 Hr2 Hr3 Hr4]
    · isplitl [Hiv]; · iexists _; iexact Hiv
      isplitl [Hr0]; · iexists _; iexact Hr0
      isplitl [Hr1]; · iexists _; iexact Hr1
      isplitl [Hr2]; · iexists _; iexact Hr2
      isplitl [Hr3]; · iexists _; iexact Hr3
      iexists _; iexact Hr4
    iexact Hbufs
  isplitl [Hg0 Hg1 Hg2 Hg3 Hg4 Ho0 Ho1 Ho2 Ho3 Ho4 Hsc Hsems]
  · isplitl [Hg0 Hg1 Hg2 Hg3 Hg4 Ho0 Ho1 Ho2 Ho3 Ho4 Hsc]
    · isplitl [Hg0]; · iexact Hg0
      isplitl [Hg1]; · iexact Hg1
      isplitl [Hg2]; · iexact Hg2
      isplitl [Hg3]; · iexact Hg3
      isplitl [Hg4]; · iexact Hg4
      isplitl [Ho0]; · iexact Ho0
      isplitl [Ho1]; · iexact Ho1
      isplitl [Ho2]; · iexact Ho2
      isplitl [Ho3]; · iexact Ho3
      isplitl [Ho4]; · iexact Ho4
      iexact Hsc
    iexact Hsems
  iexists W'; isplitr
  · ipureintro; exact hW'
  · iexact HO

end Tile

section Obl

variable (m : (ℓ : Loc nD τ sig) → Buf (Elt F) ℓ) (I0 : (d : Dev nD) → Buf (Elt F) (idxLoc0 d)) (I1 : (d : Dev nD) → Buf (Elt F) (idxLoc1 d))
variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tabM (Memref.isWhole_whole _) idxM (Memref.isWhole_whole _) outM (Memref.isWhole_whole _) ivM (Memref.isWhole_whole _)
          r0M (Memref.isWhole_whole _) r1M (Memref.isWhole_whole _) r2M (Memref.isWhole_whole _) r3M (Memref.isWhole_whole _) r4M (Memref.isWhole_whole _)
          cc1_scratch6 cc1_scratch7 cc1_scratch8 cc1_scratch9 cc1_scratch10 cc1_scratch11 cc1_scratch12 cc1_scratch13 cc1_scratch14 cc1_scratch15 cc1_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hin : ∀ d j, (I1 d j).toNat < 10000) :
    (K (F := F)).TileObl (D (F := F)) 𝒱 (P m I0 I1) v₀ 1 := by
  intro d c i O W hO _ _

  simp only [show (P m I0 I1).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector]; simp only [SparseCore.onTile, hc, and_self, ↓reduceDIte]
  exact (tile_body m I1 d (coordsV ⟨_, hc.1⟩ ⟨_, hc.2⟩) hF hin O W hO).trans (wp_mono frame _ _ fun _ => obl_post)

end Obl

end Tile1

theorem tileObl1 [FloatOps F] (m : (ℓ : Loc nD τ sig) → Buf (Elt F) ℓ) (I0 : (d : Dev nD) → Buf (Elt F) (idxLoc0 d))
    (I1 : (d : Dev nD) → Buf (Elt F) (idxLoc1 d)) (hF : (K (F := F)).Facts) (hin : ∀ d j, (I1 d j).toNat < 10000) :
    (K (F := F)).TileObl (D (F := F)) 𝒱 (P m I0 I1) v₀ 1 := Tile1.tileObl m I0 I1 hF hin

end Cert.Proof.KI
end
-- ==== Proof.KI.ValHost.lean ====
import proofs.«202994_g19078244729258_cont_8to1_1405_21_alg».proof.Proof.KI.HostOps
import proofs.«202994_g19078244729258_cont_8to1_1405_21_alg».proof.Proof.Spec
import proofs.«202994_g19078244729258_cont_8to1_1405_21_alg».proof.Proof.LibIdealReal
import Idealize.ShloMosaic.Lib.StableHlo.Run
import Idealize.ShloMosaic.Lib.Pipeline.Value
import Idealize.ShloMosaic.Lib.ValueLayout
import Idealize.ShloMosaic.Lib.ValueIdx

noncomputable section

namespace Cert.Proof.KI

open Cert.KernelIdeal Cert.KernelIdeal.Facts₀ Cert.KernelIdeal.Facts Idealize.ShloMosaic Idealize.ShloMosaic.ValueIdx
open Idealize.ShloMosaic.StableHlo Cert.LibIdealReal

section At
variable {s : Shape}

theorem addf_at (a b : FVec Ideal s .f32) (i : s.Idx) : addf a b i = FloatOps.addf (F := Ideal) (φ := .f32) (a i) (b i) := rfl
theorem subf_at (a b : FVec Ideal s .f32) (i : s.Idx) : subf a b i = FloatOps.subf (F := Ideal) (φ := .f32) (a i) (b i) := rfl
theorem mulf_at (a b : FVec Ideal s .f32) (i : s.Idx) : mulf a b i = FloatOps.mulf (F := Ideal) (φ := .f32) (a i) (b i) := rfl
theorem maximumf_at (a b : FVec Ideal s .f32) (i : s.Idx) :
    maximumf a b i = FloatOps.maximumf (F := Ideal) (φ := .f32) (a i) (b i) := rfl
theorem hostDivf_at (a b : FVec Ideal s .f32) (i : s.Idx) :
    Host.divf a b i = FloatOps.hostDivf (F := Ideal) (φ := .f32) (a i) (b i) := rfl
theorem hostRsqrt_at (a : FVec Ideal s .f32) (i : s.Idx) :
    Host.rsqrt a i = FloatOps.hostUnary (F := Ideal) (φ := .f32) .rsqrt (a i) := rfl

theorem bcast_const_at (h : S_.BroadcastsInDim s ![]) (w : BitVec FTy.f32.bits) (i : s.Idx) :
    broadcastInDim s ![] h (constant (F := Ideal) S_ .f32 w) i = Ideal.ofBits .f32 w := rfl

end At

theorem bcast_row_at {n : Nat} {α : Type} (h : (⟨1, ![n]⟩ : Shape).BroadcastsInDim ⟨2, ![1, n]⟩ ![1])
    (x : (⟨1, ![n]⟩ : Shape).Idx → α) (k : Fin n) (hn : n ≠ 1) :
    broadcastInDim (⟨2, ![1, n]⟩ : Shape) ![1] h x (ix2 0 k) = x (ix1 k) :=
  broadcastInDim_apply _ h x _ _ fun a => by
    match a with
    | ⟨0, _⟩ => exact (if_neg (show ¬ n = 1 from hn)).symm

theorem bcast_rows_at {m n : Nat} {α : Type} (h : (⟨2, ![1, n]⟩ : Shape).BroadcastsInDim ⟨2, ![m, n]⟩ ![0, 1])
    (x : (⟨2, ![1, n]⟩ : Shape).Idx → α) (p : Fin m) (k : Fin n) (hn : n ≠ 1) :
    broadcastInDim (⟨2, ![m, n]⟩ : Shape) ![0, 1] h x (ix2 p k) = x (ix2 0 k) :=
  broadcastInDim_apply _ h x _ _ fun a => by
    match a with
    | ⟨0, _⟩ => exact (if_pos rfl).symm
    | ⟨1, _⟩ => exact (if_neg (show ¬ n = 1 from hn)).symm

def varR (n s q : ℝ) : ℝ := max (q / n - s / n * (s / n)) 0

def scaleR (n s q g ε : ℝ) : ℝ := g * (Real.sqrt (varR n s q + ε))⁻¹

def shiftR (n s q g b ε : ℝ) : ℝ := b - s / n * scaleR n s q g ε

theorem scaleR_kerScale1 (I : Cert.Spec.Inputs) (k : Fin 256) :
    scaleR 320000 (Cert.Spec.kerSum1 I k) (Cert.Spec.kerSq1 I k) (I.γ1 k) I.ε = Cert.Spec.kerScale1 I k := rfl
theorem shiftR_kerShift1 (I : Cert.Spec.Inputs) (k : Fin 256) :
    shiftR 320000 (Cert.Spec.kerSum1 I k) (Cert.Spec.kerSq1 I k) (I.γ1 k) (I.β1 k) I.ε = Cert.Spec.kerShift1 I k := rfl

theorem scaleR_kerScale2 (I : Cert.Spec.Inputs) (k : Fin 128) :
    scaleR 10000 (Cert.Spec.kerSum2 I k) (Cert.Spec.kerSq2 I k) (I.γ2 k) I.ε = Cert.Spec.kerScale2 I k := rfl
theorem shiftR_kerShift2 (I : Cert.Spec.Inputs) (k : Fin 128) :
    shiftR 10000 (Cert.Spec.kerSum2 I k) (Cert.Spec.kerSq2 I k) (I.γ2 k) (I.β2 k) I.ε = Cert.Spec.kerShift2 I k := rfl

theorem hostRsqrt_var_coe (v ε : ℝ) (hε : 0 < ε) :
    FloatOps.hostUnary (F := Ideal) (φ := .f32) .rsqrt (((max v 0 + ε : ℝ)) : EReal)
      = (((Real.sqrt (max v 0 + ε))⁻¹ : ℝ) : EReal) :=
  hostRsqrt_coe (add_pos_of_nonneg_of_pos (le_max_right _ _) hε)

theorem hostDivf_320000_coe (x : ℝ) :
    FloatOps.hostDivf (F := Ideal) (φ := .f32) (x : EReal) ((320000 : ℝ) : EReal) = ((x / 320000 : ℝ) : EReal) :=
  hostDivf_coe x (by norm_num)
theorem hostDivf_10000_coe (x : ℝ) :
    FloatOps.hostDivf (F := Ideal) (φ := .f32) (x : EReal) ((10000 : ℝ) : EReal) = ((x / 10000 : ℝ) : EReal) :=
  hostDivf_coe x (by norm_num)

structure ReadsStats1 (V : Valuation τ sig (Elt Ideal)) (sA sB qA qB g bt : Fin 256 → ℝ) : Prop where
  sumA : ∀ k : Fin 256, (V (Proc.devRef .tc main_v13_0) : S1x256.Idx → EReal) (ix2 0 k) = ((sA k : ℝ) : EReal)
  sumB : ∀ k : Fin 256, (V (Proc.devRef .tc main_v14_0) : S1x256.Idx → EReal) (ix2 0 k) = ((sB k : ℝ) : EReal)
  sqA : ∀ k : Fin 256, (V (Proc.devRef .tc main_v13_1) : S1x256.Idx → EReal) (ix2 0 k) = ((qA k : ℝ) : EReal)
  sqB : ∀ k : Fin 256, (V (Proc.devRef .tc main_v14_1) : S1x256.Idx → EReal) (ix2 0 k) = ((qB k : ℝ) : EReal)
  gamma : ∀ k : Fin 256, (V (Proc.devRef .tc main_arg6) : S256.Idx → EReal) (ix1 k) = ((g k : ℝ) : EReal)
  beta : ∀ k : Fin 256, (V (Proc.devRef .tc main_arg7) : S256.Idx → EReal) (ix1 k) = ((bt k : ℝ) : EReal)

section Seg4

variable {V : Valuation τ sig (Elt Ideal)} {sA sB qA qB g bt : Fin 256 → ℝ} {ε : ℝ}

theorem seg4_wSelf (hV : ReadsStats1 V sA sB qA qB g bt) (hε0 : 0 < ε)
    (hε : Ideal.ofBits .f32 0x3727C5AC#32 = ((ε : ℝ) : EReal)) (w : Fin 128 → Fin 256 → ℝ)
    (hw : ∀ (p : Fin 128) (k : Fin 256), (V (Proc.devRef .tc main_v0) : S128x256.Idx → EReal) (ix2 p k) = ((w p k : ℝ) : EReal))
    (p : Fin 128) (k : Fin 256) :
    (StableHlo.after (seg4 (F := Ideal)) V (Proc.devRef .tc main_v34) : S128x256.Idx → EReal) (ix2 p k)
      = ((w p k * scaleR 320000 (sA k + sB k) (qA k + qB k) (g k) ε : ℝ) : EReal) := by
  after_results_simp
  simp only [mulf_at, addf_at, subf_at, maximumf_at, hostDivf_at, hostRsqrt_at]
  rw [bcast_rows_at bcast_S1x256_S128x256_0_1 _ p k (by decide)]
  simp only [mulf_at, addf_at, subf_at, maximumf_at, hostDivf_at, hostRsqrt_at]
  rw [bcast_row_at bcast_S256_S1x256_1 (V (Proc.devRef .tc main_arg6)) k (by decide)]
  repeat rw [bcast_const_at]
  simp only [hw, hV.sumA, hV.sumB, hV.sqA, hV.sqB, hV.gamma, ofBits_320000_f32, ofBits_zero_f32, hε, addf_coe, subf_coe,
    mulf_coe, maximumf_coe, hostDivf_320000_coe, hostRsqrt_var_coe _ _ hε0, scaleR, varR]

theorem seg4_wNbr (hV : ReadsStats1 V sA sB qA qB g bt) (hε0 : 0 < ε)
    (hε : Ideal.ofBits .f32 0x3727C5AC#32 = ((ε : ℝ) : EReal)) (w : Fin 128 → Fin 256 → ℝ)
    (hw : ∀ (p : Fin 128) (k : Fin 256), (V (Proc.devRef .tc main_v1) : S128x256.Idx → EReal) (ix2 p k) = ((w p k : ℝ) : EReal))
    (p : Fin 128) (k : Fin 256) :
    (StableHlo.after (seg4 (F := Ideal)) V (Proc.devRef .tc main_v36) : S128x256.Idx → EReal) (ix2 p k)
      = ((w p k * scaleR 320000 (sA k + sB k) (qA k + qB k) (g k) ε : ℝ) : EReal) := by
  after_results_simp
  simp only [mulf_at, addf_at, subf_at, maximumf_at, hostDivf_at, hostRsqrt_at]
  rw [bcast_rows_at bcast_S1x256_S128x256_0_1 _ p k (by decide)]
  simp only [mulf_at, addf_at, subf_at, maximumf_at, hostDivf_at, hostRsqrt_at]
  rw [bcast_row_at bcast_S256_S1x256_1 (V (Proc.devRef .tc main_arg6)) k (by decide)]
  repeat rw [bcast_const_at]
  simp only [hw, hV.sumA, hV.sumB, hV.sqA, hV.sqB, hV.gamma, ofBits_320000_f32, ofBits_zero_f32, hε, addf_coe, subf_coe,
    mulf_coe, maximumf_coe, hostDivf_320000_coe, hostRsqrt_var_coe _ _ hε0, scaleR, varR]

theorem seg4_wEdge (hV : ReadsStats1 V sA sB qA qB g bt) (hε0 : 0 < ε)
    (hε : Ideal.ofBits .f32 0x3727C5AC#32 = ((ε : ℝ) : EReal)) (w : Fin 16 → Fin 256 → ℝ)
    (hw : ∀ (p : Fin 16) (k : Fin 256), (V (Proc.devRef .tc main_v2) : S16x256.Idx → EReal) (ix2 p k) = ((w p k : ℝ) : EReal))
    (p : Fin 16) (k : Fin 256) :
    (StableHlo.after (seg4 (F := Ideal)) V (Proc.devRef .tc main_v38) : S16x256.Idx → EReal) (ix2 p k)
      = ((w p k * scaleR 320000 (sA k + sB k) (qA k + qB k) (g k) ε : ℝ) : EReal) := by
  after_results_simp
  simp only [mulf_at, addf_at, subf_at, maximumf_at, hostDivf_at, hostRsqrt_at]
  rw [bcast_rows_at bcast_S1x256_S16x256_0_1 _ p k (by decide)]
  simp only [mulf_at, addf_at, subf_at, maximumf_at, hostDivf_at, hostRsqrt_at]
  rw [bcast_row_at bcast_S256_S1x256_1 (V (Proc.devRef .tc main_arg6)) k (by decide)]
  repeat rw [bcast_const_at]
  simp only [hw, hV.sumA, hV.sumB, hV.sqA, hV.sqB, hV.gamma, ofBits_320000_f32, ofBits_zero_f32, hε, addf_coe, subf_coe,
    mulf_coe, maximumf_coe, hostDivf_320000_coe, hostRsqrt_var_coe _ _ hε0, scaleR, varR]

theorem seg4_bias (hV : ReadsStats1 V sA sB qA qB g bt) (hε0 : 0 < ε)
    (hε : Ideal.ofBits .f32 0x3727C5AC#32 = ((ε : ℝ) : EReal)) (bb : Fin 256 → ℝ)
    (hb : ∀ k : Fin 256, (V (Proc.devRef .tc main_v3) : S1x256.Idx → EReal) (ix2 0 k) = ((bb k : ℝ) : EReal)) (k : Fin 256) :
    (StableHlo.after (seg4 (F := Ideal)) V (Proc.devRef .tc main_v40) : S1x256.Idx → EReal) (ix2 0 k)
      = ((bb k * scaleR 320000 (sA k + sB k) (qA k + qB k) (g k) ε
          + shiftR 320000 (sA k + sB k) (qA k + qB k) (g k) (bt k) ε : ℝ) : EReal) := by
  after_results_simp
  simp only [mulf_at, addf_at, subf_at, maximumf_at, hostDivf_at, hostRsqrt_at]
  rw [bcast_row_at bcast_S256_S1x256_1 (V (Proc.devRef .tc main_arg6)) k (by decide),
    bcast_row_at bcast_S256_S1x256_1 (V (Proc.devRef .tc main_arg7)) k (by decide)]
  repeat rw [bcast_const_at]
  simp only [hb, hV.sumA, hV.sumB, hV.sqA, hV.sqB, hV.gamma, hV.beta, ofBits_320000_f32, ofBits_zero_f32, hε, addf_coe,
    subf_coe, mulf_coe, maximumf_coe, hostDivf_320000_coe, hostRsqrt_var_coe _ _ hε0, shiftR, scaleR, varR]

end Seg4

structure ReadsStats2 (V : Valuation τ sig (Elt Ideal)) (sA sB qA qB g bt : Fin 128 → ℝ) : Prop where
  sumA : ∀ k : Fin 128, (V (Proc.devRef .tc main_v41_1) : S1x128.Idx → EReal) (ix2 0 k) = ((sA k : ℝ) : EReal)
  sumB : ∀ k : Fin 128, (V (Proc.devRef .tc main_v42_1) : S1x128.Idx → EReal) (ix2 0 k) = ((sB k : ℝ) : EReal)
  sqA : ∀ k : Fin 128, (V (Proc.devRef .tc main_v41_2) : S1x128.Idx → EReal) (ix2 0 k) = ((qA k : ℝ) : EReal)
  sqB : ∀ k : Fin 128, (V (Proc.devRef .tc main_v42_2) : S1x128.Idx → EReal) (ix2 0 k) = ((qB k : ℝ) : EReal)
  gamma : ∀ k : Fin 128, (V (Proc.devRef .tc main_arg8) : S128.Idx → EReal) (ix1 k) = ((g k : ℝ) : EReal)
  beta : ∀ k : Fin 128, (V (Proc.devRef .tc main_arg9) : S128.Idx → EReal) (ix1 k) = ((bt k : ℝ) : EReal)

section Seg6

variable {V : Valuation τ sig (Elt Ideal)} {sA sB qA qB g bt : Fin 128 → ℝ} {ε : ℝ}

theorem seg6_scale (hV : ReadsStats2 V sA sB qA qB g bt) (hε0 : 0 < ε)
    (hε : Ideal.ofBits .f32 0x3727C5AC#32 = ((ε : ℝ) : EReal)) (k : Fin 128) :
    (StableHlo.after (seg6 (F := Ideal)) V (Proc.devRef .tc main_v58) : S1x128.Idx → EReal) (ix2 0 k)
      = ((scaleR 10000 (sA k + sB k) (qA k + qB k) (g k) ε : ℝ) : EReal) := by
  after_results_simp
  simp only [mulf_at, addf_at, subf_at, maximumf_at, hostDivf_at, hostRsqrt_at]
  rw [bcast_row_at bcast_S128_S1x128_1 (V (Proc.devRef .tc main_arg8)) k (by decide)]
  repeat rw [bcast_const_at]
  simp only [hV.sumA, hV.sumB, hV.sqA, hV.sqB, hV.gamma, ofBits_10000_f32, ofBits_zero_f32, hε, addf_coe, subf_coe, mulf_coe,
    maximumf_coe, hostDivf_10000_coe, hostRsqrt_var_coe _ _ hε0, scaleR, varR]

theorem seg6_shift (hV : ReadsStats2 V sA sB qA qB g bt) (hε0 : 0 < ε)
    (hε : Ideal.ofBits .f32 0x3727C5AC#32 = ((ε : ℝ) : EReal)) (k : Fin 128) :
    (StableHlo.after (seg6 (F := Ideal)) V (Proc.devRef .tc main_v61) : S1x128.Idx → EReal) (ix2 0 k)
      = ((shiftR 10000 (sA k + sB k) (qA k + qB k) (g k) (bt k) ε : ℝ) : EReal) := by
  after_results_simp
  simp only [mulf_at, addf_at, subf_at, maximumf_at, hostDivf_at, hostRsqrt_at]
  rw [bcast_row_at bcast_S128_S1x128_1 (V (Proc.devRef .tc main_arg8)) k (by decide),
    bcast_row_at bcast_S128_S1x128_1 (V (Proc.devRef .tc main_arg9)) k (by decide)]
  repeat rw [bcast_const_at]
  simp only [hV.sumA, hV.sumB, hV.sqA, hV.sqB, hV.gamma, hV.beta, ofBits_10000_f32, ofBits_zero_f32, hε, addf_coe, subf_coe,
    mulf_coe, maximumf_coe, hostDivf_10000_coe, hostRsqrt_var_coe _ _ hε0, shiftR, scaleR, varR]

end Seg6

theorem seg6_concat_left (V : Valuation τ sig (Elt Ideal)) (n : Fin 4800) (k : Fin 128) :
    (StableHlo.after (seg6 (F := Ideal)) V (Proc.devRef .tc main_v43) : S10000x128.Idx → EReal) (ix2 ⟨n.val, by have := n.isLt; omega⟩ k)
      = (V (Proc.devRef .tc main_v41_0) : S4800x128.Idx → EReal) (ix2 n k) := by
  after_results_simp
  exact concatenate_pair_apply_left (t := S10000x128) (s₁ := S4800x128) (s₂ := S5200x128) (0 : Fin S10000x128.rank) _ _ _ _ rfl (ix2 n k) fun b => by
    match b with
    | ⟨0, _⟩ => rfl
    | ⟨1, _⟩ => rfl

theorem seg6_concat_right (V : Valuation τ sig (Elt Ideal)) (n : Fin 5200) (k : Fin 128) :
    (StableHlo.after (seg6 (F := Ideal)) V (Proc.devRef .tc main_v43) : S10000x128.Idx → EReal) (ix2 ⟨4800 + n.val, by have := n.isLt; omega⟩ k)
      = (V (Proc.devRef .tc main_v42_0) : S5200x128.Idx → EReal) (ix2 n k) := by
  after_results_simp
  refine concatenate_pair_apply_right (t := S10000x128) (s₁ := S4800x128) (s₂ := S5200x128) (0 : Fin S10000x128.rank) _ _ _ _ rfl rfl (ix2 n k) (fun b hb => ?_) ?_
  · match b with
    | ⟨0, _⟩ => exact absurd rfl hb
    | ⟨1, _⟩ => rfl
  · show n.val + 4800 = 4800 + n.val
    omega

section Layout

variable (V : Valuation τ sig (Elt Ideal))

theorem seg0_wSelf (p : Fin 128) (k : Fin 256) :
    (StableHlo.after (seg0 (F := Ideal)) V (Proc.devRef .tc main_v0) : S128x256.Idx → EReal) (ix2 p k) = (V (Proc.devRef .tc main_arg4) : S272x256.Idx → EReal) (ix2 (Cert.Spec.iSelf p) k) := by
  after_results_simp
  exact slice2_axis0_apply 0 _ _ p k (Cert.Spec.iSelf p) (Nat.zero_add _).symm

theorem seg0_wNbr (p : Fin 128) (k : Fin 256) :
    (StableHlo.after (seg0 (F := Ideal)) V (Proc.devRef .tc main_v1) : S128x256.Idx → EReal) (ix2 p k) = (V (Proc.devRef .tc main_arg4) : S272x256.Idx → EReal) (ix2 (Cert.Spec.iNbr p) k) := by
  after_results_simp
  exact slice2_axis0_apply 128 _ _ p k (Cert.Spec.iNbr p) rfl

theorem seg0_wEdge (q : Fin 16) (k : Fin 256) :
    (StableHlo.after (seg0 (F := Ideal)) V (Proc.devRef .tc main_v2) : S16x256.Idx → EReal) (ix2 q k) = (V (Proc.devRef .tc main_arg4) : S272x256.Idx → EReal) (ix2 (Cert.Spec.iEdge q) k) := by
  after_results_simp
  exact slice2_axis0_apply 256 _ _ q k (Cert.Spec.iEdge q) rfl

theorem seg0_bias (k : Fin 256) :
    (StableHlo.after (seg0 (F := Ideal)) V (Proc.devRef .tc main_v3) : S1x256.Idx → EReal) (ix2 0 k) = (V (Proc.devRef .tc main_arg5) : S256.Idx → EReal) (ix1 k) := by
  after_results_simp
  exact bcast_row_at _ _ k (by decide)

theorem seg0_idxFlat (t : Fin 320000) :
    (StableHlo.after (seg0 (F := Ideal)) V (Proc.devRef .tc main_v4) : S320000.Idx → BitVec 32) (ix1 t)
      = (V (Proc.devRef .tc main_arg2) : S10000x32.Idx → BitVec 32) (ix2 ⟨t.val / 32, by have := t.isLt; omega⟩ ⟨t.val % 32, by omega⟩) := by
  after_results_simp
  show shapeCast S320000 (V (Proc.devRef .tc main_arg2) : S10000x32.Idx → BitVec 32) shapeCasts_S10000x32_S320000 (ix1 t) = _
  refine shapeCast_apply (s := S10000x32) (t := S320000) _ _ _ _ ?_
  rw [Shape.rowMajor_val_two, Shape.rowMajor_val_one]
  show t.val / 32 * 32 + t.val % 32 = t.val
  omega

theorem seg0_idxA (t : Fin 153600) :
    (StableHlo.after (seg0 (F := Ideal)) V (Proc.devRef .tc main_v5) : S153600.Idx → BitVec 32) (ix1 t)
      = (V (Proc.devRef .tc main_arg2) : S10000x32.Idx → BitVec 32) (ix2 ⟨t.val / 32, by have := t.isLt; omega⟩ ⟨t.val % 32, by omega⟩) := by
  after_results_simp
  refine (extractStridedSlice_apply _ _ _ (ix1 t) (ix1 (⟨t.val, by have := t.isLt; omega⟩ : Fin 320000)) fun a => by
    match a with
    | ⟨0, _⟩ => exact (Nat.zero_add _).symm).trans ?_
  show shapeCast S320000 (V (Proc.devRef .tc main_arg2) : S10000x32.Idx → BitVec 32) shapeCasts_S10000x32_S320000
    (ix1 (⟨t.val, by have := t.isLt; omega⟩ : Fin 320000)) = _
  refine shapeCast_apply (s := S10000x32) (t := S320000) _ _ _ _ ?_
  rw [Shape.rowMajor_val_two, Shape.rowMajor_val_one]
  show t.val / 32 * 32 + t.val % 32 = t.val
  omega

theorem seg1_idxB (t : Fin 166400) :
    (StableHlo.after (seg1 (F := Ideal)) V (Proc.devRef .tc main_v7) : S166400.Idx → BitVec 32) (ix1 t)
      = (V (Proc.devRef .tc main_v4) : S320000.Idx → BitVec 32) (ix1 ⟨153600 + t.val, by have := t.isLt; omega⟩) := by
  after_results_simp
  exact extractStridedSlice_apply _ _ _ (ix1 t) (ix1 (⟨153600 + t.val, by have := t.isLt; omega⟩ : Fin 320000)) fun a => by
    match a with
    | ⟨0, _⟩ => rfl

theorem seg1_idxB_of (V0 : Valuation τ sig (Elt Ideal))
    (h4 : ∀ t : Fin 320000, (V (Proc.devRef .tc main_v4) : S320000.Idx → BitVec 32) (ix1 t)
      = (V0 (Proc.devRef .tc main_arg2) : S10000x32.Idx → BitVec 32) (ix2 ⟨t.val / 32, by have := t.isLt; omega⟩ ⟨t.val % 32, by omega⟩))
    (t : Fin 166400) :
    (StableHlo.after (seg1 (F := Ideal)) V (Proc.devRef .tc main_v7) : S166400.Idx → BitVec 32) (ix1 t)
      = (V0 (Proc.devRef .tc main_arg2) : S10000x32.Idx → BitVec 32)
          (ix2 ⟨(153600 + t.val) / 32, by have := t.isLt; omega⟩ ⟨(153600 + t.val) % 32, by omega⟩) :=
  (seg1_idxB V t).trans (h4 _)

theorem seg2_nbrA (n : Fin 4800) (j : Fin 32) (p : Fin 128) :
    (StableHlo.after (seg2 (F := Ideal)) V (Proc.devRef .tc main_v9) : S4800x32x128.Idx → EReal) (ix3 n j p)
      = (V (Proc.devRef .tc main_v6) : S153600x128.Idx → EReal) (ix2 ⟨32 * n.val + j.val, by have := n.isLt; have := j.isLt; omega⟩ p) := by
  after_results_simp
  show shapeCast S4800x32x128 (V (Proc.devRef .tc main_v6) : S153600x128.Idx → EReal) shapeCasts_S153600x128_S4800x32x128 (ix3 n j p) = _
  refine shapeCast_apply (s := S153600x128) (t := S4800x32x128) _ _ _ _ ?_
  rw [Shape.rowMajor_val_two, Shape.rowMajor_val_three]
  show (32 * n.val + j.val) * 128 + p.val = (n.val * 32 + j.val) * 128 + p.val
  omega

theorem seg2_nbrB (n : Fin 5200) (j : Fin 32) (p : Fin 128) :
    (StableHlo.after (seg2 (F := Ideal)) V (Proc.devRef .tc main_v10) : S5200x32x128.Idx → EReal) (ix3 n j p)
      = (V (Proc.devRef .tc main_v8) : S166400x128.Idx → EReal) (ix2 ⟨32 * n.val + j.val, by have := n.isLt; have := j.isLt; omega⟩ p) := by
  after_results_simp
  show shapeCast S5200x32x128 (V (Proc.devRef .tc main_v8) : S166400x128.Idx → EReal) shapeCasts_S166400x128_S5200x32x128 (ix3 n j p) = _
  refine shapeCast_apply (s := S166400x128) (t := S5200x32x128) _ _ _ _ ?_
  rw [Shape.rowMajor_val_two, Shape.rowMajor_val_three]
  show (32 * n.val + j.val) * 128 + p.val = (n.val * 32 + j.val) * 128 + p.val
  omega

theorem seg2_edgeT (n : Fin 10000) (j : Fin 32) (q : Fin 16) :
    (StableHlo.after (seg2 (F := Ideal)) V (Proc.devRef .tc main_v12) : S16x320000.Idx → EReal) (ix2 q ⟨32 * n.val + j.val, by have := n.isLt; have := j.isLt; omega⟩)
      = (V (Proc.devRef .tc main_arg1) : S10000x32x16.Idx → EReal) (ix3 n j q) := by
  after_results_simp
  refine (transpose_ix2_apply _ _ q (⟨32 * n.val + j.val, by have := n.isLt; have := j.isLt; omega⟩ : Fin 320000)).trans ?_
  show shapeCast S320000x16 (V (Proc.devRef .tc main_arg1) : S10000x32x16.Idx → EReal) shapeCasts_S10000x32x16_S320000x16
    (ix2 (⟨32 * n.val + j.val, by have := n.isLt; have := j.isLt; omega⟩ : Fin 320000) q) = _
  refine shapeCast_apply (s := S10000x32x16) (t := S320000x16) _ _ _ _ ?_
  rw [Shape.rowMajor_val_three, Shape.rowMajor_val_two]
  show (n.val * 32 + j.val) * 16 + q.val = (32 * n.val + j.val) * 16 + q.val
  omega

end Layout

end Cert.Proof.KI

end
-- ==== Proof.KI.KerValueHost.lean ====
import proofs.«202994_g19078244729258_cont_8to1_1405_21_alg».proof.Proof.KI.KerValueDefs
import proofs.«202994_g19078244729258_cont_8to1_1405_21_alg».proof.Proof.KI.ValHost

noncomputable section

namespace Cert.Proof.KI

open Cert.KernelIdeal Cert.KernelIdeal.Gen Cert.KernelIdeal.Facts₀ Cert.KernelIdeal.Facts
open Idealize.ShloMosaic Idealize.ShloMosaic.ValueIdx
open Idealize.ShloMosaic.StableHlo (after launchContents)
open Cert.Spec Cert.LibIdealReal
open scoped BigOperators

section Host

variable (I : Inputs) (m : (ℓ : Loc nD τ sig) → Buf (Elt Ideal) ℓ)
  (upd : Fin 5 → Valuation τ sig (Elt Ideal) → Valuation τ sig (Elt Ideal)) (d : Dev nD)

theorem VE_eq_VA (r : Ref sig .tc) (h1 : r ∉ seg1_W) (h2 : r ∉ seg2_W) (ho0 : r ≠ main_v6) (ho1 : r ≠ main_v8) :
    VE m d (Proc.devRef .tc r) = VA m d (Proc.devRef .tc r) := by
  unfold VE VD VC VB
  rw [after_seg2_of _ r h2, Function.update_of_ne (StableHlo.devRef_ne_of_ne ho1), after_seg1_of _ r h1,
    Function.update_of_ne (StableHlo.devRef_ne_of_ne ho0)]

theorem VE_of (r : Ref sig .tc) (h0 : r ∉ seg0_W) (h1 : r ∉ seg1_W) (h2 : r ∉ seg2_W) (ho0 : r ≠ main_v6) (ho1 : r ≠ main_v8) :
    VE m d (Proc.devRef .tc r) = m (d, Proc.devRef .tc r) := by
  rw [VE_eq_VA m d r h1 h2 ho0 ho1]
  unfold VA
  rw [after_seg0_of _ r h0]

theorem row_of_toNat (w : BitVec 32) (i : Fin 10000) (h : w.toNat = i.val) :
    (⟨w.toNat % 10000, Nat.mod_lt _ (by decide)⟩ : Fin 10000) = i :=
  Fin.ext (by show w.toNat % 10000 = i.val; rw [h]; exact Nat.mod_eq_of_lt i.isLt)

theorem Ix0_at (r : Fin 4800) (j : Fin 32) :
    (Ix0 m d : S153600.Idx → BitVec 32) (ix1 ⟨32 * r.val + j.val, by have := r.isLt; have := j.isLt; omega⟩)
      = (m (d, Proc.devRef .tc main_arg2) : S10000x32.Idx → BitVec 32) (ix2 (atomA r) j) := by
  unfold Ix0 VA
  refine (seg0_idxA (launchContents m d) ⟨32 * r.val + j.val, by have := r.isLt; have := j.isLt; omega⟩).trans ?_
  show (m (d, Proc.devRef .tc main_arg2) : S10000x32.Idx → BitVec 32) _ = _
  congr 1
  have hj := j.isLt
  refine congrArg₂ ix2 (Fin.ext ?_) (Fin.ext ?_)
  · show (32 * r.val + j.val) / 32 = r.val
    omega
  · show (32 * r.val + j.val) % 32 = j.val
    omega

theorem Ix1_at (r : Fin 5200) (j : Fin 32) :
    (Ix1 m d : S166400.Idx → BitVec 32) (ix1 ⟨32 * r.val + j.val, by have := r.isLt; have := j.isLt; omega⟩)
      = (m (d, Proc.devRef .tc main_arg2) : S10000x32.Idx → BitVec 32) (ix2 (atomB r) j) := by
  have h4 : ∀ t : Fin 320000, (VB m d (Proc.devRef .tc main_v4) : S320000.Idx → BitVec 32) (ix1 t)
      = (launchContents m d (Proc.devRef .tc main_arg2) : S10000x32.Idx → BitVec 32)
          (ix2 ⟨t.val / 32, by have := t.isLt; omega⟩ ⟨t.val % 32, by omega⟩) := fun t => by
    unfold VB VA
    rw [Function.update_of_ne (StableHlo.devRef_ne_of_ne (by decide))]
    exact seg0_idxFlat (launchContents m d) t
  unfold Ix1 VC
  refine (seg1_idxB_of (VB m d) (launchContents m d) h4 ⟨32 * r.val + j.val, by have := r.isLt; have := j.isLt; omega⟩).trans ?_
  show (m (d, Proc.devRef .tc main_arg2) : S10000x32.Idx → BitVec 32) _ = _
  congr 1
  have hj := j.isLt
  refine congrArg₂ ix2 (Fin.ext ?_) (Fin.ext ?_)
  · show (153600 + (32 * r.val + j.val)) / 32 = 4800 + r.val
    omega
  · show (153600 + (32 * r.val + j.val)) % 32 = j.val
    omega

theorem layout_VE : LayoutLink := fun I m d hL => by
  refine ⟨fun n p => ?_, fun r j p => ?_, fun r j p => ?_, fun q n j => ?_, fun n j => ?_, fun p k => ?_, fun p k => ?_,
    fun q k => ?_, fun k => ?_⟩
  ·
    rw [VE_of m d main_arg0 (by decide) (by decide) (by decide) (by decide) (by decide)]
    exact hL.a n p
  ·
    have e : (VE m d (Proc.devRef .tc main_v9) : S4800x32x128.Idx → EReal) (ix3 r j p)
        = (VD m d (Proc.devRef .tc main_v6) : S153600x128.Idx → EReal)
            (ix2 ⟨32 * r.val + j.val, by have := r.isLt; have := j.isLt; omega⟩ p) := seg2_nbrA (VD m d) r j p
    rw [e]
    unfold VD VC
    rw [Function.update_of_ne (StableHlo.devRef_ne_of_ne (by decide)), after_seg1_of _ main_v6 (by decide)]
    unfold VB
    rw [Function.update_self]
    show (m (tabLoc d) : S10000x128.Idx → EReal) (ix2 (⟨((Ix0 m d : S153600.Idx → BitVec 32)
      (ix1 ⟨32 * r.val + j.val, by have := r.isLt; have := j.isLt; omega⟩)).toNat % 10000, Nat.mod_lt _ (by decide)⟩ : Fin 10000) p) = _
    rw [Ix0_at m d r j, row_of_toNat _ _ (hL.idx (atomA r) j)]
    exact hL.a (I.idx (atomA r) j) p
  ·
    have e : (VE m d (Proc.devRef .tc main_v10) : S5200x32x128.Idx → EReal) (ix3 r j p)
        = (VD m d (Proc.devRef .tc main_v8) : S166400x128.Idx → EReal)
            (ix2 ⟨32 * r.val + j.val, by have := r.isLt; have := j.isLt; omega⟩ p) := seg2_nbrB (VD m d) r j p
    rw [e]
    unfold VD
    rw [Function.update_self]
    show (m (tabLoc d) : S10000x128.Idx → EReal) (ix2 (⟨((Ix1 m d : S166400.Idx → BitVec 32)
      (ix1 ⟨32 * r.val + j.val, by have := r.isLt; have := j.isLt; omega⟩)).toNat % 10000, Nat.mod_lt _ (by decide)⟩ : Fin 10000) p) = _
    rw [Ix1_at m d r j, row_of_toNat _ _ (hL.idx (atomB r) j)]
    exact hL.a (I.idx (atomB r) j) p
  ·
    have e : (VE m d (Proc.devRef .tc main_v12) : S16x320000.Idx → EReal) (ix2 q (pairCol n j))
        = (VD m d (Proc.devRef .tc main_arg1) : S10000x32x16.Idx → EReal) (ix3 n j q) := seg2_edgeT (VD m d) n j q
    rw [e]
    unfold VD VC VB VA
    rw [Function.update_of_ne (StableHlo.devRef_ne_of_ne (by decide)), after_seg1_of _ main_arg1 (by decide),
      Function.update_of_ne (StableHlo.devRef_ne_of_ne (by decide)), after_seg0_of _ main_arg1 (by decide)]
    exact hL.e n j q
  · rw [VE_of m d main_arg3 (by decide) (by decide) (by decide) (by decide) (by decide)]
    exact hL.bw n j
  · rw [VE_eq_VA m d main_v0 (by decide) (by decide) (by decide) (by decide)]
    exact (seg0_wSelf (launchContents m d) p k).trans (hL.W (iSelf p) k)
  · rw [VE_eq_VA m d main_v1 (by decide) (by decide) (by decide) (by decide)]
    exact (seg0_wNbr (launchContents m d) p k).trans (hL.W (iNbr p) k)
  · rw [VE_eq_VA m d main_v2 (by decide) (by decide) (by decide) (by decide)]
    exact (seg0_wEdge (launchContents m d) q k).trans (hL.W (iEdge q) k)
  · rw [VE_eq_VA m d main_v3 (by decide) (by decide) (by decide) (by decide)]
    exact (seg0_bias (launchContents m d) k).trans (hL.b k)

theorem VG_eq_VE (hU : UpdSpec upd) (r : Ref sig .tc) (hr : ∀ p, r ∉ regionOuts p) :
    VG m upd d (Proc.devRef .tc r) = VE m d (Proc.devRef .tc r) := by
  unfold VG VF
  rw [hU.frame 1 _ r (hr 1), hU.frame 0 _ r (hr 0)]

theorem folded_VH (hU : UpdSpec upd) : FoldedLink upd := fun I m d hL hE hS => by
  have hg : ∀ k : Fin 256, (VG m upd d (Proc.devRef .tc main_arg6) : S256.Idx → EReal) (ix1 k) = ((I.γ1 k : ℝ) : EReal) := fun k => by
    rw [VG_eq_VE m upd d hU main_arg6 (by decide), VE_of m d main_arg6 (by decide) (by decide) (by decide) (by decide) (by decide)]
    exact hL.γ1 k
  have hb : ∀ k : Fin 256, (VG m upd d (Proc.devRef .tc main_arg7) : S256.Idx → EReal) (ix1 k) = ((I.β1 k : ℝ) : EReal) := fun k => by
    rw [VG_eq_VE m upd d hU main_arg7 (by decide), VE_of m d main_arg7 (by decide) (by decide) (by decide) (by decide) (by decide)]
    exact hL.β1 k
  have hV : ReadsStats1 (VG m upd d) _ _ _ _ _ _ := ⟨hS.sumA, hS.sumB, hS.sqA, hS.sqB, hg, hb⟩
  have hws : ∀ (p : Fin 128) (k : Fin 256), (VG m upd d (Proc.devRef .tc main_v0) : S128x256.Idx → EReal) (ix2 p k)
      = (((fun p k => I.W (iSelf p) k) p k : ℝ) : EReal) := fun p k => by
    rw [VG_eq_VE m upd d hU main_v0 (by decide)]; exact hE.ws p k
  have hwn : ∀ (p : Fin 128) (k : Fin 256), (VG m upd d (Proc.devRef .tc main_v1) : S128x256.Idx → EReal) (ix2 p k)
      = (((fun p k => I.W (iNbr p) k) p k : ℝ) : EReal) := fun p k => by
    rw [VG_eq_VE m upd d hU main_v1 (by decide)]; exact hE.wn p k
  have hwe : ∀ (q : Fin 16) (k : Fin 256), (VG m upd d (Proc.devRef .tc main_v2) : S16x256.Idx → EReal) (ix2 q k)
      = (((fun q k => I.W (iEdge q) k) q k : ℝ) : EReal) := fun q k => by
    rw [VG_eq_VE m upd d hU main_v2 (by decide)]; exact hE.we q k
  have hbb : ∀ k : Fin 256, (VG m upd d (Proc.devRef .tc main_v3) : S1x256.Idx → EReal) (ix2 0 k) = ((I.b k : ℝ) : EReal) := fun k => by
    rw [VG_eq_VE m upd d hU main_v3 (by decide)]; exact hE.bias k
  refine ⟨fun p k => ?_, fun p k => ?_, fun q k => ?_, fun k => ?_⟩
  · unfold VH
    refine (seg4_wSelf hV hL.eps_pos hL.eps (fun p k => I.W (iSelf p) k) hws p k).trans ?_
    rw [← kerSum1_eq_sum_blocks, ← kerSq1_eq_sum_blocks, scaleR_kerScale1]
  · unfold VH
    refine (seg4_wNbr hV hL.eps_pos hL.eps (fun p k => I.W (iNbr p) k) hwn p k).trans ?_
    rw [← kerSum1_eq_sum_blocks, ← kerSq1_eq_sum_blocks, scaleR_kerScale1]
  · unfold VH
    refine (seg4_wEdge hV hL.eps_pos hL.eps (fun q k => I.W (iEdge q) k) hwe q k).trans ?_
    rw [← kerSum1_eq_sum_blocks, ← kerSq1_eq_sum_blocks, scaleR_kerScale1]
  · unfold VH
    refine (seg4_bias hV hL.eps_pos hL.eps I.b hbb k).trans ?_
    rw [← kerSum1_eq_sum_blocks, ← kerSq1_eq_sum_blocks, scaleR_kerScale1, shiftR_kerShift1]

end Host

end Cert.Proof.KI

end
-- ==== Proof.KI.KerValueFinal.lean ====
import proofs.«202994_g19078244729258_cont_8to1_1405_21_alg».proof.Proof.KI.KerValueDefs
import proofs.«202994_g19078244729258_cont_8to1_1405_21_alg».proof.Proof.KI.ValHost

noncomputable section

namespace Cert.Proof.KI

open Cert.KernelIdeal Cert.KernelIdeal.Gen
open Idealize.ShloMosaic Idealize.ShloMosaic.ValueIdx
open Idealize.ShloMosaic.StableHlo (after launchContents)
open Cert.Spec
open scoped BigOperators

variable (upd : Fin 5 → Valuation τ sig (Elt Ideal) → Valuation τ sig (Elt Ideal))

theorem final_VK (hU : UpdSpec upd) : FinalLink upd := by
  intro I m d hL hJ
  have hg : ∀ k : Fin 128, (VJ m upd d (Proc.devRef .tc main_arg8) : S128.Idx → EReal) (ix1 k) = ((I.γ2 k : ℝ) : EReal) := fun k => by
    rw [VJ_of m upd d hU main_arg8 (by decide) (by decide) (by decide) (by decide) (by decide) (by decide) (by decide)]
    exact hL.γ2 k
  have hb : ∀ k : Fin 128, (VJ m upd d (Proc.devRef .tc main_arg9) : S128.Idx → EReal) (ix1 k) = ((I.β2 k : ℝ) : EReal) := fun k => by
    rw [VJ_of m upd d hU main_arg9 (by decide) (by decide) (by decide) (by decide) (by decide) (by decide) (by decide)]
    exact hL.β2 k
  have hV : ReadsStats2 (VJ m upd d) _ _ _ _ _ _ := ⟨hJ.sumA, hJ.sumB, hJ.sqA, hJ.sqB, hg, hb⟩
  refine ⟨fun n k => ?_, fun n k => ?_, fun k => ?_, fun k => ?_⟩
  · rw [VK_of m upd d hU main_arg0 (by decide) (by decide) (by decide) (by decide) (by decide) (by decide) (by decide) (by decide)]
    exact hL.a n k
  · unfold VK
    by_cases h : n.val < 4800
    · obtain ⟨r, rfl⟩ : ∃ r : Fin 4800, n = atomA r := ⟨⟨n.val, h⟩, Fin.ext rfl⟩
      exact (seg6_concat_left (VJ m upd d) r k).trans (hJ.nsA r k)
    · obtain ⟨r, rfl⟩ : ∃ r : Fin 5200, n = atomB r := ⟨⟨n.val - 4800, by omega⟩, Fin.ext (by show n.val = 4800 + (n.val - 4800); omega)⟩
      exact (seg6_concat_right (VJ m upd d) r k).trans (hJ.nsB r k)
  · unfold VK
    refine (seg6_scale hV hL.eps_pos hL.eps k).trans ?_
    rw [← kerSum2_eq_sum_blocks, ← kerSq2_eq_sum_blocks, scaleR_kerScale2]
  · unfold VK
    refine (seg6_shift hV hL.eps_pos hL.eps k).trans ?_
    rw [← kerSum2_eq_sum_blocks, ← kerSq2_eq_sum_blocks, shiftR_kerShift2]

end Cert.Proof.KI

end
-- ==== Proof.SameTextTc.lean ====
import proofs.«202994_g19078244729258_cont_8to1_1405_21_alg».proof.Defs
import proofs.«202994_g19078244729258_cont_8to1_1405_21_alg».proof.Proof.Gen.Kernel
import proofs.«202994_g19078244729258_cont_8to1_1405_21_alg».proof.Proof.Gen.KernelIdeal

noncomputable section

namespace Cert.Proof.SameText

open Idealize.ShloMosaic Idealize.SL.Sem

-- On this kind of processor the two printed body tables agree label by label: each arm is the same text.
set_option maxHeartbeats 8000000 in
theorem bodies_tc : ∀ (l) (a), Cert.Kernel.defs₀ (F := Bits) .tc l a = Cert.KernelIdeal.defs₀ (F := Bits) .tc l a
  | 0, _ => rfl | 1, _ => rfl | 2, _ => rfl | 3, _ => rfl | 4, _ => rfl | 5, _ => rfl | 6, _ => rfl
  | ⟨n + 7, h⟩, _ => absurd h (by omega)

end Cert.Proof.SameText

end
-- ==== Proof.SameTextScalar.lean ====
import proofs.«202994_g19078244729258_cont_8to1_1405_21_alg».proof.Defs
import proofs.«202994_g19078244729258_cont_8to1_1405_21_alg».proof.Proof.Gen.Kernel
import proofs.«202994_g19078244729258_cont_8to1_1405_21_alg».proof.Proof.Gen.KernelIdeal

noncomputable section

namespace Cert.Proof.SameText

open Idealize.ShloMosaic Idealize.SL.Sem

-- On this kind of processor the two printed body tables agree label by label: each arm is the same text.
set_option maxHeartbeats 8000000 in
theorem bodies_scalar (c) : ∀ (l) (a), Cert.Kernel.defs₀ (F := Bits) (.scScalar c) l a = Cert.KernelIdeal.defs₀ (F := Bits) (.scScalar c) l a
  | 0, _ => rfl | 1, _ => rfl | 2, _ => rfl | 3, _ => rfl | 4, _ => rfl | 5, _ => rfl | 6, _ => rfl
  | ⟨n + 7, h⟩, _ => absurd h (by omega)

end Cert.Proof.SameText

end
-- ==== Proof.SameTextVector.lean ====
import proofs.«202994_g19078244729258_cont_8to1_1405_21_alg».proof.Defs
import proofs.«202994_g19078244729258_cont_8to1_1405_21_alg».proof.Proof.Gen.Kernel
import proofs.«202994_g19078244729258_cont_8to1_1405_21_alg».proof.Proof.Gen.KernelIdeal

noncomputable section

namespace Cert.Proof.SameText

open Idealize.ShloMosaic Idealize.SL.Sem

-- On this kind of processor the two printed body tables agree label by label: each arm is the same text.
set_option maxHeartbeats 8000000 in
theorem bodies_vector (c) (s) : ∀ (l) (a), Cert.Kernel.defs₀ (F := Bits) (.scVector c s) l a = Cert.KernelIdeal.defs₀ (F := Bits) (.scVector c s) l a
  | 0, _ => rfl | 1, _ => rfl | 2, _ => rfl | 3, _ => rfl | 4, _ => rfl | 5, _ => rfl | 6, _ => rfl
  | ⟨n + 7, h⟩, _ => absurd h (by omega)

end Cert.Proof.SameText

end
-- ==== Proof.SameText.lean ====
import proofs.«202994_g19078244729258_cont_8to1_1405_21_alg».proof.Proof.KI.Frame
import proofs.«202994_g19078244729258_cont_8to1_1405_21_alg».proof.Proof.SameTextTc
import proofs.«202994_g19078244729258_cont_8to1_1405_21_alg».proof.Proof.SameTextScalar
import proofs.«202994_g19078244729258_cont_8to1_1405_21_alg».proof.Proof.SameTextVector

noncomputable section

namespace Cert.Proof.SameText

open Idealize.ShloMosaic Idealize.SL.Sem

-- The word-level program and the idealized program are one text printed in two namespaces.
set_option maxHeartbeats 4000000 in
theorem bodies : Cert.Kernel.defs₀ (F := Bits) = Cert.KernelIdeal.defs₀ (F := Bits) := by
  funext thr l a
  cases thr
  · exact bodies_tc l a
  · exact bodies_scalar _ l a
  · exact bodies_vector _ _ l a

-- So the frame of the one text, taken at the word instance, is the word-level program's frame.
set_option maxHeartbeats 4000000 in
theorem frame_Kernel (h : KI.FrameAt Bits) : Cert.frame_Kernel := by
  intro m g hpre
  have h' := h m g hpre
  unfold Cert.Kernel.defs
  rw [bodies]
  exact h'

end Cert.Proof.SameText

end
-- ==== Proof.KI.ValFinal.lean ====
import proofs.«202994_g19078244729258_cont_8to1_1405_21_alg».proof.Proof.KI.Region6
import proofs.«202994_g19078244729258_cont_8to1_1405_21_alg».proof.Proof.Spec

noncomputable section

namespace Cert.Proof.KI.ValFinal

open Cert.KernelIdeal Cert.KernelIdeal.Gen
open Idealize.ShloMosaic
open Cert.LibIdealReal Cert.Spec Cert.Proof.KI

theorem zero6 : (Scalar.ofBits .f32 0x00000000#32 : Ideal .f32) = ((0 : ℝ) : EReal) := ofBits_zero_f32

theorem fin6_coe (x n sc sh : ℝ) :
    fin6 (F := Ideal) (x : EReal) (n : EReal) (sc : EReal) (sh : EReal)
      = ((softplusRef (x + (n * sc + sh)) : ℝ) : EReal) := by
  unfold fin6
  rw [select_cmpf_one_self]
  simp only [zero6, mulf_coe, addf_coe, subf_coe, maximumf_coe, absf_coe, exp_coe, log1p_coe (neg_one_lt_exp _),
    softplus_max_add_log_sub_zero_eq]
  rw [← softplusKer_eq_softplusRef]; rfl

theorem G6_coe (atom ns : Vec Ideal S10000x128 .f32) (scale shift : Vec Ideal S1x128 .f32)
    (n : Fin 10000) (k : Fin 128) (x s sc sh : ℝ)
    (hat : atom (ValueIdx.ix2 n k) = (x : EReal)) (hns : ns (ValueIdx.ix2 n k) = (s : EReal))
    (hsc : scale (ValueIdx.ix2 0 k) = (sc : EReal)) (hsh : shift (ValueIdx.ix2 0 k) = (sh : EReal)) :
    G6 atom ns scale shift (ValueIdx.ix2 n k) = ((softplusRef (x + (s * sc + sh)) : ℝ) : EReal) := by
  show fin6 (F := Ideal) (atom (ValueIdx.ix2 n k)) (ns (ValueIdx.ix2 n k)) (scale (ValueIdx.ix2 0 k)) (shift (ValueIdx.ix2 0 k)) = _
  rw [hat, hns, hsc, hsh, fin6_coe]

end Cert.Proof.KI.ValFinal

end
-- ==== Proof.KI.KerValue.lean ====
import proofs.«202994_g19078244729258_cont_8to1_1405_21_alg».proof.Proof.KI.KerValueDefs
import proofs.«202994_g19078244729258_cont_8to1_1405_21_alg».proof.Proof.KI.ValFinal

noncomputable section

namespace Cert.Proof.KI

open Cert.KernelIdeal Cert.KernelIdeal.Gen
open Idealize.ShloMosaic Idealize.ShloMosaic.ValueIdx
open Cert.Spec

variable (I : Inputs) (m : (ℓ : Loc nD τ sig) → Buf (Elt Ideal) ℓ)
  (upd : Fin 5 → Valuation τ sig (Elt Ideal) → Valuation τ sig (Elt Ideal)) (d : Dev nD)

theorem Vfin_out (hU : UpdSpec upd) (hK : ReadsFinal I (VK m upd d)) (n : Fin 10000) (k : Fin 128) :
    (Vfin m upd d (Proc.devRef .tc main_v62) : S10000x128.Idx → EReal) (ix2 n k) = ((kerOut I n k : ℝ) : EReal) := by
  unfold Vfin
  rw [hU.out4, ValFinal.G6_coe _ _ _ _ n k _ _ _ _ (hK.atom n k) (hK.ns n k) (hK.scale k) (hK.shift k)]
  rfl

theorem kernel_value_of_links (hU : UpdSpec upd) (h1 : LayoutLink) (h2 : StatsLink upd) (h3 : FoldedLink upd) (h4 : GateLink upd)
    (h5 : FinalLink upd) (hL : LaunchReads I m d) (n : Fin 10000) (k : Fin 128) :
    (Vfin m upd d (Proc.devRef .tc main_v62) : S10000x128.Idx → EReal) (ix2 n k) = ((kerOut I n k : ℝ) : EReal) := by
  have hE := h1 I m d hL
  have hS := h2 I m d hE
  have hF := h3 I m d hL hE hS
  have hH := layout_VH I m upd d hU hE
  have hJ := h4 I m d hF hH
  have hK := h5 I m d hL hJ
  exact Vfin_out I m upd d hU hK n k

end Cert.Proof.KI

end
-- ==== Proof.RefTerm.lean ====
import proofs.«202994_g19078244729258_cont_8to1_1405_21_alg».proof.ReferenceIdeal
import proofs.«202994_g19078244729258_cont_8to1_1405_21_alg».proof.Proof.Gen.ReferenceIdeal
import Idealize.ShloMosaic.PureOps.Ideal

noncomputable section

namespace Cert.ReferenceIdeal.RefRun

open Cert.ReferenceIdeal Cert.ReferenceIdeal.Gen Idealize.ShloMosaic Idealize.SL.Sem

def res_main_call0_v5 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    IVec S10000x32x1 32 :=
  broadcastInDim S10000x32x1 ![0, 1] bcast_S10000x32_S10000x32x1_0_1
    (select (cmpi .slt a2 (broadcastInDim S10000x32 ![] bcast_S_S10000x32 (constantI S_ 32 0#32)))
      (addi a2 (broadcastInDim S10000x32 ![] bcast_S_S10000x32 (constantI S_ 32 10000#32))) a2)

def res_main_call0_v12 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    IVec S10000x32 1 :=
  Host.reduce IntOp.andi
    (andi
      (cmpi .sge (res_main_call0_v5 a0 a1 a2 a3 a4 a5 a6 a7 a8 a9)
        (broadcastInDim S10000x32x1 ![] bcast_S_S10000x32x1 (constantI S_ 32 0#32)))
      (cmpi .sle (res_main_call0_v5 a0 a1 a2 a3 a4 a5 a6 a7 a8 a9)
        (broadcastInDim S10000x32x1 ![0, 1, 2] bcast_S1x1x1_S10000x32x1_0_1_2
          (broadcastInDim S1x1x1 ![2] bcast_S1_S1x1x1_2 (constantI S1 32 9999#32)))))
    (constantI S_ 1 1#1) reducesTo_S10000x32x1_S10000x32_d2 h_S_

def res_main_v0 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x128 .f32 :=
  select
    (broadcastInDim S10000x32x128 ![0, 1] bcast_S10000x32_S10000x32x128_0_1
      (res_main_call0_v12 a0 a1 a2 a3 a4 a5 a6 a7 a8 a9))
    (Host.gather gather_S10000x128_S10000x32x1_S10000x32x128_2_0_n_n_0_2_1128 a0
      (res_main_call0_v5 a0 a1 a2 a3 a4 a5 a6 a7 a8 a9))
    (broadcastInDim S10000x32x128 ![] bcast_S_S10000x32x128 (constant S_ .f32 0x7FC00000#32))

def res_main_v2 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x128 .f32 :=
  broadcastInDim S10000x32x128 ![0, 1, 2] bcast_S10000x1x128_S10000x32x128_0_1_2
    (broadcastInDim S10000x1x128 ![0, 2] bcast_S10000x128_S10000x1x128_0_2 a0)

def res_main_v3 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x272 .f32 :=
  concatenate S10000x32x272 2
    [⟨S10000x32x128, res_main_v2 a0 a1 a2 a3 a4 a5 a6 a7 a8 a9⟩,
     ⟨S10000x32x128, res_main_v0 a0 a1 a2 a3 a4 a5 a6 a7 a8 a9⟩,
     ⟨S10000x32x16, a1⟩]
    concatenates_S10000x32x128_S10000x32x128_S10000x32x16_S10000x32x272_d2

def res_main_v7 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x256 .f32 :=
  addf
    (Host.dotGeneral dot_S10000x32x272_S272x256_S10000x32x256_2_0_01_1_n_n none
      (res_main_v3 a0 a1 a2 a3 a4 a5 a6 a7 a8 a9) a4)
    (broadcastInDim S10000x32x256 ![0, 1, 2] bcast_S1x1x256_S10000x32x256_0_1_2
      (broadcastInDim S1x1x256 ![2] bcast_S256_S1x1x256_2 a5))

def res_main_v8 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S320000x256 .f32 :=
  shapeCast S320000x256 (res_main_v7 a0 a1 a2 a3 a4 a5 a6 a7 a8 a9) shapeCasts_S10000x32x256_S320000x256

def res_main_v11 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S256 .f32 :=
  Host.divf
    (Host.reduceAdd (res_main_v8 a0 a1 a2 a3 a4 a5 a6 a7 a8 a9) (constant S_ .f32 0x00000000#32)
      reducesTo_S320000x256_S256_d0 h_S_)
    (broadcastInDim S256 ![] bcast_S_S256 (constant S_ .f32 0x489C4000#32))

def res_main_call1_v5 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S320000x256 .f32 :=
  subf (res_main_v8 a0 a1 a2 a3 a4 a5 a6 a7 a8 a9)
    (broadcastInDim S320000x256 ![0, 1] bcast_S1x256_S320000x256_0_1
      (Host.divf
        (broadcastInDim S1x256 ![1] bcast_S256_S1x256_1
          (Host.reduceAdd (res_main_v8 a0 a1 a2 a3 a4 a5 a6 a7 a8 a9) (constant S_ .f32 0x00000000#32)
            reducesTo_S320000x256_S256_d0 h_S_))
        (broadcastInDim S1x256 ![] bcast_S_S1x256 (constant S_ .f32 0x489C4000#32))))

def res_main_call1_v8 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S_ .f32 :=
  subf (constant S_ .f32 0x489C4000#32) (sitofp .f32 (constantI S_ 32 0#32))

def res_main_v12 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S256 .f32 :=
  select
    (broadcastInDim S256 ![] bcast_S_S256
      (cmpf .ogt (res_main_call1_v8 a0 a1 a2 a3 a4 a5 a6 a7 a8 a9) (constant S_ .f32 0x00000000#32)))
    (Host.divf
      (Host.reduceAdd
        (mulf (res_main_call1_v5 a0 a1 a2 a3 a4 a5 a6 a7 a8 a9) (res_main_call1_v5 a0 a1 a2 a3 a4 a5 a6 a7 a8 a9))
        (constant S_ .f32 0x00000000#32) reducesTo_S320000x256_S256_d0 h_S_)
      (broadcastInDim S256 ![] bcast_S_S256 (res_main_call1_v8 a0 a1 a2 a3 a4 a5 a6 a7 a8 a9)))
    (broadcastInDim S256 ![] bcast_S_S256 (constant S_ .f32 0x7FC00000#32))

def res_main_v27 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S320000x256 .f32 :=
  addf
    (mulf
      (Host.divf
        (subf (res_main_v8 a0 a1 a2 a3 a4 a5 a6 a7 a8 a9)
          (broadcastInDim S320000x256 ![0, 1] bcast_S1x256_S320000x256_0_1
            (broadcastInDim S1x256 ![1] bcast_S256_S1x256_1 (res_main_v11 a0 a1 a2 a3 a4 a5 a6 a7 a8 a9))))
        (broadcastInDim S320000x256 ![0, 1] bcast_S1x256_S320000x256_0_1
          (broadcastInDim S1x256 ![1] bcast_S256_S1x256_1
            (Host.sqrt
              (addf (res_main_v12 a0 a1 a2 a3 a4 a5 a6 a7 a8 a9)
                (broadcastInDim S256 ![] bcast_S_S256 (constant S_ .f32 0x3727C5AC#32)))))))
      (broadcastInDim S320000x256 ![0, 1] bcast_S1x256_S320000x256_0_1
        (broadcastInDim S1x256 ![1] bcast_S256_S1x256_1 a6)))
    (broadcastInDim S320000x256 ![0, 1] bcast_S1x256_S320000x256_0_1
      (broadcastInDim S1x256 ![1] bcast_S256_S1x256_1 a7))

def res_main_v28 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x256 .f32 :=
  shapeCast S10000x32x256 (res_main_v27 a0 a1 a2 a3 a4 a5 a6 a7 a8 a9) shapeCasts_S320000x256_S10000x32x256

def res_main_v36 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x128 .f32 :=
  Host.divf
    (broadcastInDim S10000x32x128 ![] bcast_S_S10000x32x128 (constant S_ .f32 0x3F800000#32))
    (addf
      (broadcastInDim S10000x32x128 ![] bcast_S_S10000x32x128 (constant S_ .f32 0x3F800000#32))
      (Host.exp
        (Host.negf
          (extractStridedSlice S10000x32x128 ![0, 0, 0] (res_main_v28 a0 a1 a2 a3 a4 a5 a6 a7 a8 a9)
            slices_S10000x32x256_S10000x32x128_0_0_0))))

def res_main_v30 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x128 .f32 :=
  extractStridedSlice S10000x32x128 ![0, 0, 128] (res_main_v28 a0 a1 a2 a3 a4 a5 a6 a7 a8 a9)
    slices_S10000x32x256_S10000x32x128_0_0_128

def res_main_v40 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x128 .f32 :=
  subf (res_main_v30 a0 a1 a2 a3 a4 a5 a6 a7 a8 a9)
    (broadcastInDim S10000x32x128 ![] bcast_S_S10000x32x128 (constant S_ .f32 0x00000000#32))

def res_main_v49 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x32x128 .f32 :=
  select
    (cmpf .une (res_main_v40 a0 a1 a2 a3 a4 a5 a6 a7 a8 a9) (res_main_v40 a0 a1 a2 a3 a4 a5 a6 a7 a8 a9))
    (addf (res_main_v30 a0 a1 a2 a3 a4 a5 a6 a7 a8 a9)
      (broadcastInDim S10000x32x128 ![] bcast_S_S10000x32x128 (constant S_ .f32 0x00000000#32)))
    (addf
      (maximumf (res_main_v30 a0 a1 a2 a3 a4 a5 a6 a7 a8 a9)
        (broadcastInDim S10000x32x128 ![] bcast_S_S10000x32x128 (constant S_ .f32 0x00000000#32)))
      (Host.log1p (Host.exp (Host.negf (Host.absf (res_main_v40 a0 a1 a2 a3 a4 a5 a6 a7 a8 a9))))))

def res_main_v57 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x128 .f32 :=
  Host.reduceAdd
    (mulf
      (mulf (res_main_v36 a0 a1 a2 a3 a4 a5 a6 a7 a8 a9)
        (broadcastInDim S10000x32x128 ![0, 1, 2] bcast_S10000x32x1_S10000x32x128_0_1_2
          (broadcastInDim S10000x32x1 ![0, 1] bcast_S10000x32_S10000x32x1_0_1 a3)))
      (mulf (res_main_v49 a0 a1 a2 a3 a4 a5 a6 a7 a8 a9)
        (broadcastInDim S10000x32x128 ![0, 1, 2] bcast_S10000x32x1_S10000x32x128_0_1_2
          (broadcastInDim S10000x32x1 ![0, 1] bcast_S10000x32_S10000x32x1_0_1 a3))))
    (constant S_ .f32 0x00000000#32) reducesTo_S10000x32x128_S10000x128_d1 h_S_

def res_main_v60 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S128 .f32 :=
  Host.divf
    (Host.reduceAdd (res_main_v57 a0 a1 a2 a3 a4 a5 a6 a7 a8 a9) (constant S_ .f32 0x00000000#32)
      reducesTo_S10000x128_S128_d0 h_S_)
    (broadcastInDim S128 ![] bcast_S_S128 (constant S_ .f32 0x461C4000#32))

def res_main_call2_v5 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x128 .f32 :=
  subf (res_main_v57 a0 a1 a2 a3 a4 a5 a6 a7 a8 a9)
    (broadcastInDim S10000x128 ![0, 1] bcast_S1x128_S10000x128_0_1
      (Host.divf
        (broadcastInDim S1x128 ![1] bcast_S128_S1x128_1
          (Host.reduceAdd (res_main_v57 a0 a1 a2 a3 a4 a5 a6 a7 a8 a9) (constant S_ .f32 0x00000000#32)
            reducesTo_S10000x128_S128_d0 h_S_))
        (broadcastInDim S1x128 ![] bcast_S_S1x128 (constant S_ .f32 0x461C4000#32))))

def res_main_call2_v8 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S_ .f32 :=
  subf (constant S_ .f32 0x461C4000#32) (sitofp .f32 (constantI S_ 32 0#32))

def res_main_v61 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S128 .f32 :=
  select
    (broadcastInDim S128 ![] bcast_S_S128
      (cmpf .ogt (res_main_call2_v8 a0 a1 a2 a3 a4 a5 a6 a7 a8 a9) (constant S_ .f32 0x00000000#32)))
    (Host.divf
      (Host.reduceAdd
        (mulf (res_main_call2_v5 a0 a1 a2 a3 a4 a5 a6 a7 a8 a9) (res_main_call2_v5 a0 a1 a2 a3 a4 a5 a6 a7 a8 a9))
        (constant S_ .f32 0x00000000#32) reducesTo_S10000x128_S128_d0 h_S_)
      (broadcastInDim S128 ![] bcast_S_S128 (res_main_call2_v8 a0 a1 a2 a3 a4 a5 a6 a7 a8 a9)))
    (broadcastInDim S128 ![] bcast_S_S128 (constant S_ .f32 0x7FC00000#32))

def res_main_v76 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x128 .f32 :=
  addf
    (mulf
      (Host.divf
        (subf (res_main_v57 a0 a1 a2 a3 a4 a5 a6 a7 a8 a9)
          (broadcastInDim S10000x128 ![0, 1] bcast_S1x128_S10000x128_0_1
            (broadcastInDim S1x128 ![1] bcast_S128_S1x128_1 (res_main_v60 a0 a1 a2 a3 a4 a5 a6 a7 a8 a9))))
        (broadcastInDim S10000x128 ![0, 1] bcast_S1x128_S10000x128_0_1
          (broadcastInDim S1x128 ![1] bcast_S128_S1x128_1
            (Host.sqrt
              (addf (res_main_v61 a0 a1 a2 a3 a4 a5 a6 a7 a8 a9)
                (broadcastInDim S128 ![] bcast_S_S128 (constant S_ .f32 0x3727C5AC#32)))))))
      (broadcastInDim S10000x128 ![0, 1] bcast_S1x128_S10000x128_0_1
        (broadcastInDim S1x128 ![1] bcast_S128_S1x128_1 a8)))
    (broadcastInDim S10000x128 ![0, 1] bcast_S1x128_S10000x128_0_1
      (broadcastInDim S1x128 ![1] bcast_S128_S1x128_1 a9))

def res_main_v77 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x128 .f32 :=
  addf a0 (res_main_v76 a0 a1 a2 a3 a4 a5 a6 a7 a8 a9)

def res_main_v81 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x128 .f32 :=
  subf (res_main_v77 a0 a1 a2 a3 a4 a5 a6 a7 a8 a9)
    (broadcastInDim S10000x128 ![] bcast_S_S10000x128 (constant S_ .f32 0x00000000#32))

def res_main_v90 (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x128 .f32 :=
  select
    (cmpf .une (res_main_v81 a0 a1 a2 a3 a4 a5 a6 a7 a8 a9) (res_main_v81 a0 a1 a2 a3 a4 a5 a6 a7 a8 a9))
    (addf (res_main_v77 a0 a1 a2 a3 a4 a5 a6 a7 a8 a9)
      (broadcastInDim S10000x128 ![] bcast_S_S10000x128 (constant S_ .f32 0x00000000#32)))
    (addf
      (maximumf (res_main_v77 a0 a1 a2 a3 a4 a5 a6 a7 a8 a9)
        (broadcastInDim S10000x128 ![] bcast_S_S10000x128 (constant S_ .f32 0x00000000#32)))
      (Host.log1p (Host.exp (Host.negf (Host.absf (res_main_v81 a0 a1 a2 a3 a4 a5 a6 a7 a8 a9))))))

abbrev res_out (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) :
    FVec Ideal S10000x128 .f32 := res_main_v90 a0 a1 a2 a3 a4 a5 a6 a7 a8 a9

end Cert.ReferenceIdeal.RefRun

end
-- ==== Proof.RefRun.lean ====
import proofs.«202994_g19078244729258_cont_8to1_1405_21_alg».proof.ReferenceIdeal
import proofs.«202994_g19078244729258_cont_8to1_1405_21_alg».proof.Proof.Gen.ReferenceIdeal
import proofs.«202994_g19078244729258_cont_8to1_1405_21_alg».proof.Proof.RefTerm
import Idealize.ShloMosaic.Lib.StableHlo.Run
import Idealize.ShloMosaic.PureOps.Ideal
import Mathlib.Data.List.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation "𝔽[" s "]" => FVec F s FTy.f32
local notation "𝕀[" s ", " w "]" => IVec s w

theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

abbrev opsA : List (HloOp τ sig (Elt F)) :=
  [ nullary main_call0_c (constantI S_ 32 0#32),
    unary main_call0_c main_call0_v0 (broadcastInDim S10000x32 ![] bcast_S_S10000x32),
    binary main_arg2 main_call0_v0 main_call0_v1 (cmpi .slt : 𝕀[S10000x32, 32] → 𝕀[S10000x32, 32] → 𝕀[S10000x32, 1]),
    nullary main_call0_c_0 (constantI S_ 32 10000#32),
    unary main_call0_c_0 main_call0_v2 (broadcastInDim S10000x32 ![] bcast_S_S10000x32),
    binary main_arg2 main_call0_v2 main_call0_v3 (addi : 𝕀[S10000x32, 32] → 𝕀[S10000x32, 32] → 𝕀[S10000x32, 32]),
    ternary main_call0_v1 main_call0_v3 main_arg2 main_call0_v4 (select : 𝕀[S10000x32, 1] → 𝕀[S10000x32, 32] → 𝕀[S10000x32, 32] → 𝕀[S10000x32, 32]),
    unary main_call0_v4 main_call0_v5 (broadcastInDim S10000x32x1 ![0, 1] bcast_S10000x32_S10000x32x1_0_1),
    nullary main_call0_c_1 (constantI S1 32 9999#32),
    nullary main_call0_c_2 (constantI S_ 32 0#32),
    unary main_call0_c_2 main_call0_v6 (broadcastInDim S10000x32x1 ![] bcast_S_S10000x32x1),
    binary main_call0_v5 main_call0_v6 main_call0_v7 (cmpi .sge : 𝕀[S10000x32x1, 32] → 𝕀[S10000x32x1, 32] → 𝕀[S10000x32x1, 1]),
    unary main_call0_c_1 main_call0_v8 (broadcastInDim S1x1x1 ![2] bcast_S1_S1x1x1_2),
    unary main_call0_v8 main_call0_v9 (broadcastInDim S10000x32x1 ![0, 1, 2] bcast_S1x1x1_S10000x32x1_0_1_2),
    binary main_call0_v5 main_call0_v9 main_call0_v10 (cmpi .sle : 𝕀[S10000x32x1, 32] → 𝕀[S10000x32x1, 32] → 𝕀[S10000x32x1, 1]),
    binary main_call0_v7 main_call0_v10 main_call0_v11 (andi : 𝕀[S10000x32x1, 1] → 𝕀[S10000x32x1, 1] → 𝕀[S10000x32x1, 1]),
    nullary main_call0_c_3 (constantI S_ 1 1#1),
    binary main_call0_v11 main_call0_c_3 main_call0_v12 ((fun x v => Host.reduce IntOp.andi x v reducesTo_S10000x32x1_S10000x32_d2 h_S_) : 𝕀[S10000x32x1, 1] → 𝕀[S_, 1] → 𝕀[S10000x32, 1]),
    binary main_arg0 main_call0_v5 main_call0_v13 ((fun x i => Host.gather gather_S10000x128_S10000x32x1_S10000x32x128_2_0_n_n_0_2_1128 x i) : 𝔽[S10000x128] → 𝕀[S10000x32x1, 32] → 𝔽[S10000x32x128]),
    unary main_call0_v12 main_call0_v14 (broadcastInDim S10000x32x128 ![0, 1] bcast_S10000x32_S10000x32x128_0_1),
    nullary main_call0_cst (constant S_ .f32 0x7FC00000#32),
    unary main_call0_cst main_call0_v15 (broadcastInDim S10000x32x128 ![] bcast_S_S10000x32x128),
    ternary main_call0_v14 main_call0_v13 main_call0_v15 main_v0 (select : 𝕀[S10000x32x128, 1] → 𝔽[S10000x32x128] → 𝔽[S10000x32x128] → 𝔽[S10000x32x128]),
    unary main_arg0 main_v1 (broadcastInDim S10000x1x128 ![0, 2] bcast_S10000x128_S10000x1x128_0_2),
    unary main_v1 main_v2 (broadcastInDim S10000x32x128 ![0, 1, 2] bcast_S10000x1x128_S10000x32x128_0_1_2) ]

abbrev opsB : List (HloOp τ sig (Elt F)) :=
  [ nary ![main_v2, main_v0, main_arg1] main_v3 (fun u => concatenate S10000x32x272 2 [⟨S10000x32x128, u 0⟩, ⟨S10000x32x128, u 1⟩, ⟨S10000x32x16, u 2⟩] concatenates_S10000x32x128_S10000x32x128_S10000x32x16_S10000x32x272_d2) ]

abbrev opsC : List (HloOp τ sig (Elt F)) :=
  [ binary main_v3 main_arg4 main_v4 ((fun l r => Host.dotGeneral dot_S10000x32x272_S272x256_S10000x32x256_2_0_01_1_n_n none l r) : 𝔽[S10000x32x272] → 𝔽[S272x256] → 𝔽[S10000x32x256]),
    unary main_arg5 main_v5 (broadcastInDim S1x1x256 ![2] bcast_S256_S1x1x256_2),
    unary main_v5 main_v6 (broadcastInDim S10000x32x256 ![0, 1, 2] bcast_S1x1x256_S10000x32x256_0_1_2),
    binary main_v4 main_v6 main_v7 (addf : 𝔽[S10000x32x256] → 𝔽[S10000x32x256] → 𝔽[S10000x32x256]),
    reshape main_v7 main_v8 rfl shapeCasts_S10000x32x256_S320000x256,
    nullary main_cst (constant S_ .f32 0x00000000#32),
    binary main_v8 main_cst main_v9 ((fun x v => Host.reduceAdd x v reducesTo_S320000x256_S256_d0 h_S_) : 𝔽[S320000x256] → 𝔽[S_] → 𝔽[S256]),
    nullary main_cst_0 (constant S_ .f32 0x489C4000#32),
    unary main_cst_0 main_v10 (broadcastInDim S256 ![] bcast_S_S256),
    binary main_v9 main_v10 main_v11 (Host.divf : 𝔽[S256] → 𝔽[S256] → 𝔽[S256]) ]

abbrev opsD : List (HloOp τ sig (Elt F)) :=
  [ nullary main_c (constantI S_ 32 0#32),
    nullary main_call1_cst (constant S_ .f32 0x00000000#32),
    binary main_v8 main_call1_cst main_call1_v0 ((fun x v => Host.reduceAdd x v reducesTo_S320000x256_S256_d0 h_S_) : 𝔽[S320000x256] → 𝔽[S_] → 𝔽[S256]),
    unary main_call1_v0 main_call1_v1 (broadcastInDim S1x256 ![1] bcast_S256_S1x256_1),
    nullary main_call1_cst_0 (constant S_ .f32 0x489C4000#32),
    unary main_call1_cst_0 main_call1_v2 (broadcastInDim S1x256 ![] bcast_S_S1x256),
    binary main_call1_v1 main_call1_v2 main_call1_v3 (Host.divf : 𝔽[S1x256] → 𝔽[S1x256] → 𝔽[S1x256]),
    unary main_call1_v3 main_call1_v4 (broadcastInDim S320000x256 ![0, 1] bcast_S1x256_S320000x256_0_1),
    binary main_v8 main_call1_v4 main_call1_v5 (subf : 𝔽[S320000x256] → 𝔽[S320000x256] → 𝔽[S320000x256]),
    binary main_call1_v5 main_call1_v5 main_call1_v6 (mulf : 𝔽[S320000x256] → 𝔽[S320000x256] → 𝔽[S320000x256]),
    unary main_c main_call1_v7 (sitofp .f32 : 𝕀[S_, 32] → 𝔽[S_]),
    nullary main_call1_cst_1 (constant S_ .f32 0x489C4000#32),
    binary main_call1_cst_1 main_call1_v7 main_call1_v8 (subf : 𝔽[S_] → 𝔽[S_] → 𝔽[S_]),
    nullary main_call1_cst_2 (constant S_ .f32 0x00000000#32),
    binary main_call1_v6 main_call1_cst_2 main_call1_v9 ((fun x v => Host.reduceAdd x v reducesTo_S320000x256_S256_d0 h_S_) : 𝔽[S320000x256] → 𝔽[S_] → 𝔽[S256]),
    unary main_call1_v8 main_call1_v10 (broadcastInDim S256 ![] bcast_S_S256),
    binary main_call1_v9 main_call1_v10 main_call1_v11 (Host.divf : 𝔽[S256] → 𝔽[S256] → 𝔽[S256]),
    nullary main_call1_cst_3 (constant S_ .f32 0x00000000#32),
    binary main_call1_v8 main_call1_cst_3 main_call1_v12 (cmpf .ogt : 𝔽[S_] → 𝔽[S_] → 𝕀[S_, 1]),
    nullary main_call1_cst_4 (constant S_ .f32 0x7FC00000#32),
    unary main_call1_cst_4 main_call1_call0_v0 (id : 𝔽[S_] → 𝔽[S_]),
    unary main_call1_call0_v0 main_call1_call0_v1 (broadcastInDim S256 ![] bcast_S_S256),
    ternary main_call1_v12 main_call1_v11 main_call1_call0_v1 main_v12 ((fun p a b => select (broadcastInDim S256 ![] bcast_S_S256 p) a b) : 𝕀[S_, 1] → 𝔽[S256] → 𝔽[S256] → 𝔽[S256]) ]

abbrev opsE : List (HloOp τ sig (Elt F)) :=
  [ unary main_v11 main_v13 (broadcastInDim S1x256 ![1] bcast_S256_S1x256_1),
    unary main_v13 main_v14 (broadcastInDim S320000x256 ![0, 1] bcast_S1x256_S320000x256_0_1),
    binary main_v8 main_v14 main_v15 (subf : 𝔽[S320000x256] → 𝔽[S320000x256] → 𝔽[S320000x256]),
    nullary main_cst_1 (constant S_ .f32 0x3727C5AC#32),
    unary main_cst_1 main_v16 (broadcastInDim S256 ![] bcast_S_S256),
    binary main_v12 main_v16 main_v17 (addf : 𝔽[S256] → 𝔽[S256] → 𝔽[S256]),
    unary main_v17 main_v18 (Host.sqrt : 𝔽[S256] → 𝔽[S256]),
    unary main_v18 main_v19 (broadcastInDim S1x256 ![1] bcast_S256_S1x256_1),
    unary main_v19 main_v20 (broadcastInDim S320000x256 ![0, 1] bcast_S1x256_S320000x256_0_1),
    binary main_v15 main_v20 main_v21 (Host.divf : 𝔽[S320000x256] → 𝔽[S320000x256] → 𝔽[S320000x256]),
    unary main_arg6 main_v22 (broadcastInDim S1x256 ![1] bcast_S256_S1x256_1),
    unary main_v22 main_v23 (broadcastInDim S320000x256 ![0, 1] bcast_S1x256_S320000x256_0_1),
    binary main_v21 main_v23 main_v24 (mulf : 𝔽[S320000x256] → 𝔽[S320000x256] → 𝔽[S320000x256]),
    unary main_arg7 main_v25 (broadcastInDim S1x256 ![1] bcast_S256_S1x256_1),
    unary main_v25 main_v26 (broadcastInDim S320000x256 ![0, 1] bcast_S1x256_S320000x256_0_1),
    binary main_v24 main_v26 main_v27 (addf : 𝔽[S320000x256] → 𝔽[S320000x256] → 𝔽[S320000x256]),
    reshape main_v27 main_v28 rfl shapeCasts_S320000x256_S10000x32x256 ]

abbrev opsF : List (HloOp τ sig (Elt F)) :=
  [ unary main_v28 main_v29 ((extractStridedSlice S10000x32x128 ![0, 0, 0] · slices_S10000x32x256_S10000x32x128_0_0_0) : 𝔽[S10000x32x256] → 𝔽[S10000x32x128]),
    unary main_v28 main_v30 ((extractStridedSlice S10000x32x128 ![0, 0, 128] · slices_S10000x32x256_S10000x32x128_0_0_128) : 𝔽[S10000x32x256] → 𝔽[S10000x32x128]),
    unary main_v29 main_v31 (Host.negf : 𝔽[S10000x32x128] → 𝔽[S10000x32x128]),
    unary main_v31 main_v32 (Host.exp : 𝔽[S10000x32x128] → 𝔽[S10000x32x128]),
    nullary main_cst_2 (constant S_ .f32 0x3F800000#32),
    unary main_cst_2 main_v33 (broadcastInDim S10000x32x128 ![] bcast_S_S10000x32x128),
    binary main_v33 main_v32 main_v34 (addf : 𝔽[S10000x32x128] → 𝔽[S10000x32x128] → 𝔽[S10000x32x128]),
    nullary main_cst_3 (constant S_ .f32 0x3F800000#32),
    unary main_cst_3 main_v35 (broadcastInDim S10000x32x128 ![] bcast_S_S10000x32x128),
    binary main_v35 main_v34 main_v36 (Host.divf : 𝔽[S10000x32x128] → 𝔽[S10000x32x128] → 𝔽[S10000x32x128]) ]

abbrev opsG : List (HloOp τ sig (Elt F)) :=
  [ nullary main_cst_4 (constant S_ .f32 0x00000000#32),
    unary main_cst_4 main_v37 (broadcastInDim S10000x32x128 ![] bcast_S_S10000x32x128),
    binary main_v30 main_v37 main_v38 (maximumf : 𝔽[S10000x32x128] → 𝔽[S10000x32x128] → 𝔽[S10000x32x128]),
    unary main_cst_4 main_v39 (broadcastInDim S10000x32x128 ![] bcast_S_S10000x32x128),
    binary main_v30 main_v39 main_v40 (subf : 𝔽[S10000x32x128] → 𝔽[S10000x32x128] → 𝔽[S10000x32x128]),
    binary main_v40 main_v40 main_v41 (cmpf .une : 𝔽[S10000x32x128] → 𝔽[S10000x32x128] → 𝕀[S10000x32x128, 1]),
    unary main_cst_4 main_v42 (broadcastInDim S10000x32x128 ![] bcast_S_S10000x32x128),
    binary main_v30 main_v42 main_v43 (addf : 𝔽[S10000x32x128] → 𝔽[S10000x32x128] → 𝔽[S10000x32x128]),
    unary main_v40 main_v44 (Host.absf : 𝔽[S10000x32x128] → 𝔽[S10000x32x128]),
    unary main_v44 main_v45 (Host.negf : 𝔽[S10000x32x128] → 𝔽[S10000x32x128]),
    unary main_v45 main_v46 (Host.exp : 𝔽[S10000x32x128] → 𝔽[S10000x32x128]),
    unary main_v46 main_v47 (Host.log1p : 𝔽[S10000x32x128] → 𝔽[S10000x32x128]),
    binary main_v38 main_v47 main_v48 (addf : 𝔽[S10000x32x128] → 𝔽[S10000x32x128] → 𝔽[S10000x32x128]),
    ternary main_v41 main_v43 main_v48 main_v49 (select : 𝕀[S10000x32x128, 1] → 𝔽[S10000x32x128] → 𝔽[S10000x32x128] → 𝔽[S10000x32x128]) ]

abbrev opsH : List (HloOp τ sig (Elt F)) :=
  [ unary main_arg3 main_v50 (broadcastInDim S10000x32x1 ![0, 1] bcast_S10000x32_S10000x32x1_0_1),
    unary main_v50 main_v51 (broadcastInDim S10000x32x128 ![0, 1, 2] bcast_S10000x32x1_S10000x32x128_0_1_2),
    binary main_v36 main_v51 main_v52 (mulf : 𝔽[S10000x32x128] → 𝔽[S10000x32x128] → 𝔽[S10000x32x128]) ]

abbrev opsI : List (HloOp τ sig (Elt F)) :=
  [ unary main_arg3 main_v53 (broadcastInDim S10000x32x1 ![0, 1] bcast_S10000x32_S10000x32x1_0_1),
    unary main_v53 main_v54 (broadcastInDim S10000x32x128 ![0, 1, 2] bcast_S10000x32x1_S10000x32x128_0_1_2),
    binary main_v49 main_v54 main_v55 (mulf : 𝔽[S10000x32x128] → 𝔽[S10000x32x128] → 𝔽[S10000x32x128]),
    binary main_v52 main_v55 main_v56 (mulf : 𝔽[S10000x32x128] → 𝔽[S10000x32x128] → 𝔽[S10000x32x128]),
    nullary main_cst_5 (constant S_ .f32 0x00000000#32),
    binary main_v56 main_cst_5 main_v57 ((fun x v => Host.reduceAdd x v reducesTo_S10000x32x128_S10000x128_d1 h_S_) : 𝔽[S10000x32x128] → 𝔽[S_] → 𝔽[S10000x128]) ]

abbrev opsJ : List (HloOp τ sig (Elt F)) :=
  [ nullary main_cst_6 (constant S_ .f32 0x00000000#32),
    binary main_v57 main_cst_6 main_v58 ((fun x v => Host.reduceAdd x v reducesTo_S10000x128_S128_d0 h_S_) : 𝔽[S10000x128] → 𝔽[S_] → 𝔽[S128]),
    nullary main_cst_7 (constant S_ .f32 0x461C4000#32),
    unary main_cst_7 main_v59 (broadcastInDim S128 ![] bcast_S_S128),
    binary main_v58 main_v59 main_v60 (Host.divf : 𝔽[S128] → 𝔽[S128] → 𝔽[S128]),
    nullary main_c_8 (constantI S_ 32 0#32),
    nullary main_call2_cst (constant S_ .f32 0x00000000#32),
    binary main_v57 main_call2_cst main_call2_v0 ((fun x v => Host.reduceAdd x v reducesTo_S10000x128_S128_d0 h_S_) : 𝔽[S10000x128] → 𝔽[S_] → 𝔽[S128]),
    unary main_call2_v0 main_call2_v1 (broadcastInDim S1x128 ![1] bcast_S128_S1x128_1),
    nullary main_call2_cst_0 (constant S_ .f32 0x461C4000#32),
    unary main_call2_cst_0 main_call2_v2 (broadcastInDim S1x128 ![] bcast_S_S1x128),
    binary main_call2_v1 main_call2_v2 main_call2_v3 (Host.divf : 𝔽[S1x128] → 𝔽[S1x128] → 𝔽[S1x128]),
    unary main_call2_v3 main_call2_v4 (broadcastInDim S10000x128 ![0, 1] bcast_S1x128_S10000x128_0_1),
    binary main_v57 main_call2_v4 main_call2_v5 (subf : 𝔽[S10000x128] → 𝔽[S10000x128] → 𝔽[S10000x128]),
    binary main_call2_v5 main_call2_v5 main_call2_v6 (mulf : 𝔽[S10000x128] → 𝔽[S10000x128] → 𝔽[S10000x128]),
    unary main_c_8 main_call2_v7 (sitofp .f32 : 𝕀[S_, 32] → 𝔽[S_]),
    nullary main_call2_cst_1 (constant S_ .f32 0x461C4000#32),
    binary main_call2_cst_1 main_call2_v7 main_call2_v8 (subf : 𝔽[S_] → 𝔽[S_] → 𝔽[S_]),
    nullary main_call2_cst_2 (constant S_ .f32 0x00000000#32),
    binary main_call2_v6 main_call2_cst_2 main_call2_v9 ((fun x v => Host.reduceAdd x v reducesTo_S10000x128_S128_d0 h_S_) : 𝔽[S10000x128] → 𝔽[S_] → 𝔽[S128]),
    unary main_call2_v8 main_call2_v10 (broadcastInDim S128 ![] bcast_S_S128),
    binary main_call2_v9 main_call2_v10 main_call2_v11 (Host.divf : 𝔽[S128] → 𝔽[S128] → 𝔽[S128]),
    nullary main_call2_cst_3 (constant S_ .f32 0x00000000#32),
    binary main_call2_v8 main_call2_cst_3 main_call2_v12 (cmpf .ogt : 𝔽[S_] → 𝔽[S_] → 𝕀[S_, 1]),
    nullary main_call2_cst_4 (constant S_ .f32 0x7FC00000#32),
    unary main_call2_cst_4 main_call2_call0_v0 (id : 𝔽[S_] → 𝔽[S_]),
    unary main_call2_call0_v0 main_call2_call0_v1 (broadcastInDim S128 ![] bcast_S_S128),
    ternary main_call2_v12 main_call2_v11 main_call2_call0_v1 main_v61 ((fun p a b => select (broadcastInDim S128 ![] bcast_S_S128 p) a b) : 𝕀[S_, 1] → 𝔽[S128] → 𝔽[S128] → 𝔽[S128]) ]

abbrev opsK : List (HloOp τ sig (Elt F)) :=
  [ unary main_v60 main_v62 (broadcastInDim S1x128 ![1] bcast_S128_S1x128_1),
    unary main_v62 main_v63 (broadcastInDim S10000x128 ![0, 1] bcast_S1x128_S10000x128_0_1),
    binary main_v57 main_v63 main_v64 (subf : 𝔽[S10000x128] → 𝔽[S10000x128] → 𝔽[S10000x128]),
    nullary main_cst_9 (constant S_ .f32 0x3727C5AC#32),
    unary main_cst_9 main_v65 (broadcastInDim S128 ![] bcast_S_S128),
    binary main_v61 main_v65 main_v66 (addf : 𝔽[S128] → 𝔽[S128] → 𝔽[S128]),
    unary main_v66 main_v67 (Host.sqrt : 𝔽[S128] → 𝔽[S128]),
    unary main_v67 main_v68 (broadcastInDim S1x128 ![1] bcast_S128_S1x128_1),
    unary main_v68 main_v69 (broadcastInDim S10000x128 ![0, 1] bcast_S1x128_S10000x128_0_1),
    binary main_v64 main_v69 main_v70 (Host.divf : 𝔽[S10000x128] → 𝔽[S10000x128] → 𝔽[S10000x128]),
    unary main_arg8 main_v71 (broadcastInDim S1x128 ![1] bcast_S128_S1x128_1),
    unary main_v71 main_v72 (broadcastInDim S10000x128 ![0, 1] bcast_S1x128_S10000x128_0_1),
    binary main_v70 main_v72 main_v73 (mulf : 𝔽[S10000x128] → 𝔽[S10000x128] → 𝔽[S10000x128]),
    unary main_arg9 main_v74 (broadcastInDim S1x128 ![1] bcast_S128_S1x128_1),
    unary main_v74 main_v75 (broadcastInDim S10000x128 ![0, 1] bcast_S1x128_S10000x128_0_1),
    binary main_v73 main_v75 main_v76 (addf : 𝔽[S10000x128] → 𝔽[S10000x128] → 𝔽[S10000x128]) ]

abbrev opsL : List (HloOp τ sig (Elt F)) :=
  [ binary main_arg0 main_v76 main_v77 (addf : 𝔽[S10000x128] → 𝔽[S10000x128] → 𝔽[S10000x128]),
    nullary main_cst_10 (constant S_ .f32 0x00000000#32),
    unary main_cst_10 main_v78 (broadcastInDim S10000x128 ![] bcast_S_S10000x128),
    binary main_v77 main_v78 main_v79 (maximumf : 𝔽[S10000x128] → 𝔽[S10000x128] → 𝔽[S10000x128]),
    unary main_cst_10 main_v80 (broadcastInDim S10000x128 ![] bcast_S_S10000x128),
    binary main_v77 main_v80 main_v81 (subf : 𝔽[S10000x128] → 𝔽[S10000x128] → 𝔽[S10000x128]),
    binary main_v81 main_v81 main_v82 (cmpf .une : 𝔽[S10000x128] → 𝔽[S10000x128] → 𝕀[S10000x128, 1]),
    unary main_cst_10 main_v83 (broadcastInDim S10000x128 ![] bcast_S_S10000x128),
    binary main_v77 main_v83 main_v84 (addf : 𝔽[S10000x128] → 𝔽[S10000x128] → 𝔽[S10000x128]),
    unary main_v81 main_v85 (Host.absf : 𝔽[S10000x128] → 𝔽[S10000x128]),
    unary main_v85 main_v86 (Host.negf : 𝔽[S10000x128] → 𝔽[S10000x128]),
    unary main_v86 main_v87 (Host.exp : 𝔽[S10000x128] → 𝔽[S10000x128]),
    unary main_v87 main_v88 (Host.log1p : 𝔽[S10000x128] → 𝔽[S10000x128]),
    binary main_v79 main_v88 main_v89 (addf : 𝔽[S10000x128] → 𝔽[S10000x128] → 𝔽[S10000x128]),
    ternary main_v82 main_v84 main_v89 main_v90 (select : 𝕀[S10000x128, 1] → 𝔽[S10000x128] → 𝔽[S10000x128] → 𝔽[S10000x128]) ]

attribute [local irreducible] Host.reduce Host.reduceAdd Host.gather concatenate

abbrev ops0 : List (HloOp τ sig (Elt F)) := opsA ++ opsB ++ opsC ++ opsD ++ opsE ++ opsF ++ opsG ++ opsH

abbrev ops1 : List (HloOp τ sig (Elt F)) := opsI ++ opsJ ++ opsK ++ opsL

abbrev ops : List (HloOp τ sig (Elt F)) := ops0 ++ ops1

set_option maxRecDepth 16384 in
set_option maxHeartbeats 4000000 in

theorem main_part0_eq (c : Dev nD) : main_part0 (F := F) c = seq ops0 := by
  simp only [main_part0, fn_take.body, fn_where.body, fn_var.body, fn_where_0.body, ops0, opsA, opsB, opsC, opsD, opsE, opsF,
    opsG, opsH, List.cons_append, List.nil_append, seq, bind_assoc, pure_bind]
  rfl

set_option maxRecDepth 16384 in
set_option maxHeartbeats 4000000 in

theorem main_part1_eq (c : Dev nD) : main_part1 (F := F) c = seq ops1 := by
  simp only [main_part1, fn_var_1.body, fn_where_2.body, ops1, opsI, opsJ, opsK, opsL, List.cons_append,
    List.nil_append, seq, bind_assoc, pure_bind]
  rfl

theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

local macro "sub_tac" : tactic =>
  `(tactic| simp only [List.Forall, nullary_bufs_sub, unary_bufs_sub, binary_bufs_sub, ternary_bufs_sub, reshape_bufs_sub,
    nary_bufs_sub, and_self])

theorem opsA_sub : (opsA : List (HloOp τ sig (Elt F))).Forall fun op => op.bufs ⊆ tcRefs τ sig := by sub_tac
theorem opsB_sub : (opsB : List (HloOp τ sig (Elt F))).Forall fun op => op.bufs ⊆ tcRefs τ sig := by sub_tac
theorem opsC_sub : (opsC : List (HloOp τ sig (Elt F))).Forall fun op => op.bufs ⊆ tcRefs τ sig := by sub_tac
theorem opsD_sub : (opsD : List (HloOp τ sig (Elt F))).Forall fun op => op.bufs ⊆ tcRefs τ sig := by sub_tac
theorem opsE_sub : (opsE : List (HloOp τ sig (Elt F))).Forall fun op => op.bufs ⊆ tcRefs τ sig := by sub_tac
theorem opsF_sub : (opsF : List (HloOp τ sig (Elt F))).Forall fun op => op.bufs ⊆ tcRefs τ sig := by sub_tac
theorem opsG_sub : (opsG : List (HloOp τ sig (Elt F))).Forall fun op => op.bufs ⊆ tcRefs τ sig := by sub_tac
theorem opsH_sub : (opsH : List (HloOp τ sig (Elt F))).Forall fun op => op.bufs ⊆ tcRefs τ sig := by sub_tac
theorem opsI_sub : (opsI : List (HloOp τ sig (Elt F))).Forall fun op => op.bufs ⊆ tcRefs τ sig := by sub_tac
theorem opsJ_sub : (opsJ : List (HloOp τ sig (Elt F))).Forall fun op => op.bufs ⊆ tcRefs τ sig := by sub_tac
theorem opsK_sub : (opsK : List (HloOp τ sig (Elt F))).Forall fun op => op.bufs ⊆ tcRefs τ sig := by sub_tac
theorem opsL_sub : (opsL : List (HloOp τ sig (Elt F))).Forall fun op => op.bufs ⊆ tcRefs τ sig := by sub_tac

theorem ops_sub : (ops : List (HloOp τ sig (Elt F))).Forall fun op => op.bufs ⊆ tcRefs τ sig := by
  simp only [ops, ops0, ops1, List.forall_append]
  exact ⟨⟨⟨⟨⟨⟨⟨⟨opsA_sub, opsB_sub⟩, opsC_sub⟩, opsD_sub⟩, opsE_sub⟩, opsF_sub⟩, opsG_sub⟩, opsH_sub⟩,
    ⟨⟨⟨opsI_sub, opsJ_sub⟩, opsK_sub⟩, opsL_sub⟩⟩

local macro "fresh_tac" : tactic =>
  `(tactic| (intro _ h; (repeat (cases h with | head => rfl | tail _ h => ?_)); exact nomatch h))

theorem ops_fresh : ∀ op ∈ (ops : List (HloOp τ sig (Elt F))), op.fresh = ∅ := by
  have hA : ∀ op ∈ (opsA : List (HloOp τ sig (Elt F))), op.fresh = ∅ := by fresh_tac
  have hB : ∀ op ∈ (opsB : List (HloOp τ sig (Elt F))), op.fresh = ∅ := by fresh_tac
  have hC : ∀ op ∈ (opsC : List (HloOp τ sig (Elt F))), op.fresh = ∅ := by fresh_tac
  have hD : ∀ op ∈ (opsD : List (HloOp τ sig (Elt F))), op.fresh = ∅ := by fresh_tac
  have hE : ∀ op ∈ (opsE : List (HloOp τ sig (Elt F))), op.fresh = ∅ := by fresh_tac
  have hF : ∀ op ∈ (opsF : List (HloOp τ sig (Elt F))), op.fresh = ∅ := by fresh_tac
  have hG : ∀ op ∈ (opsG : List (HloOp τ sig (Elt F))), op.fresh = ∅ := by fresh_tac
  have hH : ∀ op ∈ (opsH : List (HloOp τ sig (Elt F))), op.fresh = ∅ := by fresh_tac
  have hI : ∀ op ∈ (opsI : List (HloOp τ sig (Elt F))), op.fresh = ∅ := by fresh_tac
  have hJ : ∀ op ∈ (opsJ : List (HloOp τ sig (Elt F))), op.fresh = ∅ := by fresh_tac
  have hK : ∀ op ∈ (opsK : List (HloOp τ sig (Elt F))), op.fresh = ∅ := by fresh_tac
  have hL : ∀ op ∈ (opsL : List (HloOp τ sig (Elt F))), op.fresh = ∅ := by fresh_tac
  intro op h
  simp only [ops, ops0, ops1, List.mem_append] at h
  rcases h with (((((((h | h) | h) | h) | h) | h) | h) | h) | (((h | h) | h) | h)
  exacts [hA op h, hB op h, hC op h, hD op h, hE op h, hF op h, hG op h, hH op h, hI op h, hJ op h, hK op h, hL op h]

section Chain

abbrev VI : Type := Valuation τ sig (Elt Ideal)

abbrev rd {α : Type} (f : FVec Ideal S10000x128 .f32 → FVec Ideal S10000x32x16 .f32 → IVec S10000x32 32 →
    FVec Ideal S10000x32 .f32 → FVec Ideal S272x256 .f32 → FVec Ideal S256 .f32 → FVec Ideal S256 .f32 →
    FVec Ideal S256 .f32 → FVec Ideal S128 .f32 → FVec Ideal S128 .f32 → α) (V : VI) : α :=
  f (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9))

abbrev argRefs : List (Ref sig .tc) :=
  [main_arg0, main_arg1, main_arg2, main_arg3, main_arg4, main_arg5, main_arg6, main_arg7, main_arg8, main_arg9]

abbrev opsA_W : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v0, main_v1, main_v2]
abbrev opsB_W : List (Ref sig .tc) := [main_v3]
abbrev opsC_W : List (Ref sig .tc) :=
  [main_v4, main_v5, main_v6, main_v7, main_v8, main_cst, main_v9, main_cst_0, main_v10, main_v11]
abbrev opsD_W : List (Ref sig .tc) :=
  [main_c, main_call1_cst, main_call1_v0, main_call1_v1, main_call1_cst_0, main_call1_v2, main_call1_v3, main_call1_v4,
   main_call1_v5, main_call1_v6, main_call1_v7, main_call1_cst_1, main_call1_v8, main_call1_cst_2, main_call1_v9, main_call1_v10,
   main_call1_v11, main_call1_cst_3, main_call1_v12, main_call1_cst_4, main_call1_call0_v0, main_call1_call0_v1, main_v12]
abbrev opsE_W : List (Ref sig .tc) :=
  [main_v13, main_v14, main_v15, main_cst_1, main_v16, main_v17, main_v18, main_v19, main_v20, main_v21, main_v22, main_v23,
   main_v24, main_v25, main_v26, main_v27, main_v28]
abbrev opsF_W : List (Ref sig .tc) :=
  [main_v29, main_v30, main_v31, main_v32, main_cst_2, main_v33, main_v34, main_cst_3, main_v35, main_v36]
abbrev opsG_W : List (Ref sig .tc) :=
  [main_cst_4, main_v37, main_v38, main_v39, main_v40, main_v41, main_v42, main_v43, main_v44, main_v45, main_v46, main_v47,
   main_v48, main_v49]
abbrev opsH_W : List (Ref sig .tc) := [main_v50, main_v51, main_v52]
abbrev opsI_W : List (Ref sig .tc) := [main_v53, main_v54, main_v55, main_v56, main_cst_5, main_v57]
abbrev opsJ_W : List (Ref sig .tc) :=
  [main_cst_6, main_v58, main_cst_7, main_v59, main_v60, main_c_8, main_call2_cst, main_call2_v0, main_call2_v1,
   main_call2_cst_0, main_call2_v2, main_call2_v3, main_call2_v4, main_call2_v5, main_call2_v6, main_call2_v7, main_call2_cst_1,
   main_call2_v8, main_call2_cst_2, main_call2_v9, main_call2_v10, main_call2_v11, main_call2_cst_3, main_call2_v12,
   main_call2_cst_4, main_call2_call0_v0, main_call2_call0_v1, main_v61]
abbrev opsK_W : List (Ref sig .tc) :=
  [main_v62, main_v63, main_v64, main_cst_9, main_v65, main_v66, main_v67, main_v68, main_v69, main_v70, main_v71, main_v72,
   main_v73, main_v74, main_v75, main_v76]
abbrev opsL_W : List (Ref sig .tc) :=
  [main_v77, main_cst_10, main_v78, main_v79, main_v80, main_v81, main_v82, main_v83, main_v84, main_v85, main_v86, main_v87,
   main_v88, main_v89, main_v90]

local macro "writes_tac" : tactic =>
  `(tactic| (simp only [List.Forall]; and_intros <;>
    (simp only [nullary_writes, unary_writes, binary_writes, ternary_writes, reshape_writes, nary_writes,
       Finset.singleton_subset_iff, List.mem_toFinset]
     exact List.mem_map_of_mem (by decide))))

theorem opsA_writes : (opsA : List (HloOp τ sig (Elt Ideal))).Forall fun op =>
    op.writes ⊆ (opsA_W.map (Proc.devRef (τ := τ) .tc)).toFinset := by writes_tac
theorem opsB_writes : (opsB : List (HloOp τ sig (Elt Ideal))).Forall fun op =>
    op.writes ⊆ (opsB_W.map (Proc.devRef (τ := τ) .tc)).toFinset := by writes_tac
theorem opsC_writes : (opsC : List (HloOp τ sig (Elt Ideal))).Forall fun op =>
    op.writes ⊆ (opsC_W.map (Proc.devRef (τ := τ) .tc)).toFinset := by writes_tac
theorem opsD_writes : (opsD : List (HloOp τ sig (Elt Ideal))).Forall fun op =>
    op.writes ⊆ (opsD_W.map (Proc.devRef (τ := τ) .tc)).toFinset := by writes_tac
theorem opsE_writes : (opsE : List (HloOp τ sig (Elt Ideal))).Forall fun op =>
    op.writes ⊆ (opsE_W.map (Proc.devRef (τ := τ) .tc)).toFinset := by writes_tac
theorem opsF_writes : (opsF : List (HloOp τ sig (Elt Ideal))).Forall fun op =>
    op.writes ⊆ (opsF_W.map (Proc.devRef (τ := τ) .tc)).toFinset := by writes_tac
theorem opsG_writes : (opsG : List (HloOp τ sig (Elt Ideal))).Forall fun op =>
    op.writes ⊆ (opsG_W.map (Proc.devRef (τ := τ) .tc)).toFinset := by writes_tac
theorem opsH_writes : (opsH : List (HloOp τ sig (Elt Ideal))).Forall fun op =>
    op.writes ⊆ (opsH_W.map (Proc.devRef (τ := τ) .tc)).toFinset := by writes_tac
theorem opsI_writes : (opsI : List (HloOp τ sig (Elt Ideal))).Forall fun op =>
    op.writes ⊆ (opsI_W.map (Proc.devRef (τ := τ) .tc)).toFinset := by writes_tac
theorem opsJ_writes : (opsJ : List (HloOp τ sig (Elt Ideal))).Forall fun op =>
    op.writes ⊆ (opsJ_W.map (Proc.devRef (τ := τ) .tc)).toFinset := by writes_tac
theorem opsK_writes : (opsK : List (HloOp τ sig (Elt Ideal))).Forall fun op =>
    op.writes ⊆ (opsK_W.map (Proc.devRef (τ := τ) .tc)).toFinset := by writes_tac
theorem opsL_writes : (opsL : List (HloOp τ sig (Elt Ideal))).Forall fun op =>
    op.writes ⊆ (opsL_W.map (Proc.devRef (τ := τ) .tc)).toFinset := by writes_tac

theorem arg_not_written : ∀ r ∈ argRefs,
    r ∉ opsA_W ∧ r ∉ opsB_W ∧ r ∉ opsC_W ∧ r ∉ opsD_W ∧ r ∉ opsE_W ∧ r ∉ opsF_W ∧ r ∉ opsG_W ∧ r ∉ opsH_W ∧ r ∉ opsI_W
      ∧ r ∉ opsJ_W ∧ r ∉ opsK_W ∧ r ∉ opsL_W := by decide

def W1 (V : VI) : VI := after opsA V
def W2 (V : VI) : VI := after opsB (W1 V)
def W3 (V : VI) : VI := after opsC (W2 V)
def W4 (V : VI) : VI := after opsD (W3 V)
def W5 (V : VI) : VI := after opsE (W4 V)
def W6 (V : VI) : VI := after opsF (W5 V)
def W7 (V : VI) : VI := after opsG (W6 V)
def W8 (V : VI) : VI := after opsH (W7 V)
def W9 (V : VI) : VI := after opsI (W8 V)
def W10 (V : VI) : VI := after opsJ (W9 V)
def W11 (V : VI) : VI := after opsK (W10 V)
def W12 (V : VI) : VI := after opsL (W11 V)

theorem after_ops (V : VI) : after ops V = W12 V := by
  simp only [ops, ops0, ops1, after_app]
  rfl

theorem W1_keep (V : VI) (r : Ref sig .tc) (h : r ∉ opsA_W) : W1 V (Proc.devRef .tc r) = V (Proc.devRef .tc r) :=
  after_of_writes_sub opsA _ opsA_writes h
theorem W2_keep (V : VI) (r : Ref sig .tc) (h : r ∉ opsB_W) : W2 V (Proc.devRef .tc r) = W1 V (Proc.devRef .tc r) :=
  after_of_writes_sub opsB _ opsB_writes h
theorem W3_keep (V : VI) (r : Ref sig .tc) (h : r ∉ opsC_W) : W3 V (Proc.devRef .tc r) = W2 V (Proc.devRef .tc r) :=
  after_of_writes_sub opsC _ opsC_writes h
theorem W4_keep (V : VI) (r : Ref sig .tc) (h : r ∉ opsD_W) : W4 V (Proc.devRef .tc r) = W3 V (Proc.devRef .tc r) :=
  after_of_writes_sub opsD _ opsD_writes h
theorem W5_keep (V : VI) (r : Ref sig .tc) (h : r ∉ opsE_W) : W5 V (Proc.devRef .tc r) = W4 V (Proc.devRef .tc r) :=
  after_of_writes_sub opsE _ opsE_writes h
theorem W6_keep (V : VI) (r : Ref sig .tc) (h : r ∉ opsF_W) : W6 V (Proc.devRef .tc r) = W5 V (Proc.devRef .tc r) :=
  after_of_writes_sub opsF _ opsF_writes h
theorem W7_keep (V : VI) (r : Ref sig .tc) (h : r ∉ opsG_W) : W7 V (Proc.devRef .tc r) = W6 V (Proc.devRef .tc r) :=
  after_of_writes_sub opsG _ opsG_writes h
theorem W8_keep (V : VI) (r : Ref sig .tc) (h : r ∉ opsH_W) : W8 V (Proc.devRef .tc r) = W7 V (Proc.devRef .tc r) :=
  after_of_writes_sub opsH _ opsH_writes h
theorem W9_keep (V : VI) (r : Ref sig .tc) (h : r ∉ opsI_W) : W9 V (Proc.devRef .tc r) = W8 V (Proc.devRef .tc r) :=
  after_of_writes_sub opsI _ opsI_writes h
theorem W10_keep (V : VI) (r : Ref sig .tc) (h : r ∉ opsJ_W) : W10 V (Proc.devRef .tc r) = W9 V (Proc.devRef .tc r) :=
  after_of_writes_sub opsJ _ opsJ_writes h
theorem W11_keep (V : VI) (r : Ref sig .tc) (h : r ∉ opsK_W) : W11 V (Proc.devRef .tc r) = W10 V (Proc.devRef .tc r) :=
  after_of_writes_sub opsK _ opsK_writes h
theorem W12_keep (V : VI) (r : Ref sig .tc) (h : r ∉ opsL_W) : W12 V (Proc.devRef .tc r) = W11 V (Proc.devRef .tc r) :=
  after_of_writes_sub opsL _ opsL_writes h

theorem W1_arg (V : VI) (r : Ref sig .tc) (h : r ∈ argRefs) : W1 V (Proc.devRef .tc r) = V (Proc.devRef .tc r) :=
  W1_keep V r (arg_not_written r h).1
theorem W2_arg (V : VI) (r : Ref sig .tc) (h : r ∈ argRefs) : W2 V (Proc.devRef .tc r) = V (Proc.devRef .tc r) :=
  (W2_keep V r (arg_not_written r h).2.1).trans (W1_arg V r h)
theorem W3_arg (V : VI) (r : Ref sig .tc) (h : r ∈ argRefs) : W3 V (Proc.devRef .tc r) = V (Proc.devRef .tc r) :=
  (W3_keep V r (arg_not_written r h).2.2.1).trans (W2_arg V r h)
theorem W4_arg (V : VI) (r : Ref sig .tc) (h : r ∈ argRefs) : W4 V (Proc.devRef .tc r) = V (Proc.devRef .tc r) :=
  (W4_keep V r (arg_not_written r h).2.2.2.1).trans (W3_arg V r h)
theorem W5_arg (V : VI) (r : Ref sig .tc) (h : r ∈ argRefs) : W5 V (Proc.devRef .tc r) = V (Proc.devRef .tc r) :=
  (W5_keep V r (arg_not_written r h).2.2.2.2.1).trans (W4_arg V r h)
theorem W6_arg (V : VI) (r : Ref sig .tc) (h : r ∈ argRefs) : W6 V (Proc.devRef .tc r) = V (Proc.devRef .tc r) :=
  (W6_keep V r (arg_not_written r h).2.2.2.2.2.1).trans (W5_arg V r h)
theorem W7_arg (V : VI) (r : Ref sig .tc) (h : r ∈ argRefs) : W7 V (Proc.devRef .tc r) = V (Proc.devRef .tc r) :=
  (W7_keep V r (arg_not_written r h).2.2.2.2.2.2.1).trans (W6_arg V r h)
theorem W8_arg (V : VI) (r : Ref sig .tc) (h : r ∈ argRefs) : W8 V (Proc.devRef .tc r) = V (Proc.devRef .tc r) :=
  (W8_keep V r (arg_not_written r h).2.2.2.2.2.2.2.1).trans (W7_arg V r h)
theorem W9_arg (V : VI) (r : Ref sig .tc) (h : r ∈ argRefs) : W9 V (Proc.devRef .tc r) = V (Proc.devRef .tc r) :=
  (W9_keep V r (arg_not_written r h).2.2.2.2.2.2.2.2.1).trans (W8_arg V r h)
theorem W10_arg (V : VI) (r : Ref sig .tc) (h : r ∈ argRefs) : W10 V (Proc.devRef .tc r) = V (Proc.devRef .tc r) :=
  (W10_keep V r (arg_not_written r h).2.2.2.2.2.2.2.2.2.1).trans (W9_arg V r h)
theorem W11_arg (V : VI) (r : Ref sig .tc) (h : r ∈ argRefs) : W11 V (Proc.devRef .tc r) = V (Proc.devRef .tc r) :=
  (W11_keep V r (arg_not_written r h).2.2.2.2.2.2.2.2.2.2.1).trans (W10_arg V r h)
theorem W12_arg (V : VI) (r : Ref sig .tc) (h : r ∈ argRefs) : W12 V (Proc.devRef .tc r) = V (Proc.devRef .tc r) :=
  (W12_keep V r (arg_not_written r h).2.2.2.2.2.2.2.2.2.2.2).trans (W11_arg V r h)

theorem W1_v0 (V : VI) : W1 V (no_index (Proc.devRef .tc main_v0)) = rd res_main_v0 V := by
  unfold W1
  simp only [opsA]
  after_results_simp <;> rfl
theorem W1_v2 (V : VI) : W1 V (no_index (Proc.devRef .tc main_v2)) = rd res_main_v2 V := by
  unfold W1
  simp only [opsA]
  after_results_simp <;> rfl
theorem W1_arg1 (V : VI) : W1 V (no_index (Proc.devRef .tc main_arg1)) = V (Proc.devRef .tc main_arg1) :=
  W1_arg V main_arg1 (by decide)

theorem W2_v3 (V : VI) : W2 V (no_index (Proc.devRef .tc main_v3)) = rd res_main_v3 V := by
  have key : W2 V (Proc.devRef .tc main_v3)
      = concatenate S10000x32x272 2
          [⟨S10000x32x128, W1 V (Proc.devRef .tc main_v2)⟩, ⟨S10000x32x128, W1 V (Proc.devRef .tc main_v0)⟩,
           ⟨S10000x32x16, W1 V (Proc.devRef .tc main_arg1)⟩]
          concatenates_S10000x32x128_S10000x32x128_S10000x32x16_S10000x32x272_d2 := by
    unfold W2
    simp only [opsB]
    after_results_simp <;> rfl
  rw [key, W1_v2, W1_v0, W1_arg1]
  rfl
theorem W2_arg4 (V : VI) : W2 V (no_index (Proc.devRef .tc main_arg4)) = V (Proc.devRef .tc main_arg4) :=
  W2_arg V main_arg4 (by decide)
theorem W2_arg5 (V : VI) : W2 V (no_index (Proc.devRef .tc main_arg5)) = V (Proc.devRef .tc main_arg5) :=
  W2_arg V main_arg5 (by decide)

theorem W3_v8 (V : VI) : W3 V (no_index (Proc.devRef .tc main_v8)) = rd res_main_v8 V := by
  unfold W3
  simp only [opsC]
  after_results_simp
  simp only [W2_v3, W2_arg4, W2_arg5]
  rfl
theorem W3_v11 (V : VI) : W3 V (no_index (Proc.devRef .tc main_v11)) = rd res_main_v11 V := by
  unfold W3
  simp only [opsC]
  after_results_simp
  simp only [W2_v3, W2_arg4, W2_arg5]
  rfl

theorem W4_v12 (V : VI) : W4 V (no_index (Proc.devRef .tc main_v12)) = rd res_main_v12 V := by
  unfold W4
  simp only [opsD]
  after_results_simp
  simp only [W3_v8]
  rfl
theorem W4_v8 (V : VI) : W4 V (no_index (Proc.devRef .tc main_v8)) = rd res_main_v8 V :=
  (W4_keep V main_v8 (by decide)).trans (W3_v8 V)
theorem W4_v11 (V : VI) : W4 V (no_index (Proc.devRef .tc main_v11)) = rd res_main_v11 V :=
  (W4_keep V main_v11 (by decide)).trans (W3_v11 V)
theorem W4_arg6 (V : VI) : W4 V (no_index (Proc.devRef .tc main_arg6)) = V (Proc.devRef .tc main_arg6) :=
  W4_arg V main_arg6 (by decide)
theorem W4_arg7 (V : VI) : W4 V (no_index (Proc.devRef .tc main_arg7)) = V (Proc.devRef .tc main_arg7) :=
  W4_arg V main_arg7 (by decide)

theorem W5_v28 (V : VI) : W5 V (no_index (Proc.devRef .tc main_v28)) = rd res_main_v28 V := by
  unfold W5
  simp only [opsE]
  after_results_simp
  simp only [W4_v8, W4_v11, W4_v12, W4_arg6, W4_arg7]
  rfl

theorem W6_v36 (V : VI) : W6 V (no_index (Proc.devRef .tc main_v36)) = rd res_main_v36 V := by
  unfold W6
  simp only [opsF]
  after_results_simp
  simp only [W5_v28]
  rfl
theorem W6_v30 (V : VI) : W6 V (no_index (Proc.devRef .tc main_v30)) = rd res_main_v30 V := by
  unfold W6
  simp only [opsF]
  after_results_simp
  simp only [W5_v28]
  rfl

theorem W7_v49 (V : VI) : W7 V (no_index (Proc.devRef .tc main_v49)) = rd res_main_v49 V := by
  unfold W7
  simp only [opsG]
  after_results_simp
  simp only [W6_v30]
  rfl
theorem W7_v36 (V : VI) : W7 V (no_index (Proc.devRef .tc main_v36)) = rd res_main_v36 V :=
  (W7_keep V main_v36 (by decide)).trans (W6_v36 V)
theorem W7_arg3 (V : VI) : W7 V (no_index (Proc.devRef .tc main_arg3)) = V (Proc.devRef .tc main_arg3) :=
  W7_arg V main_arg3 (by decide)

theorem W8_v52 (V : VI) : W8 V (no_index (Proc.devRef .tc main_v52))
    = mulf (rd res_main_v36 V)
        (broadcastInDim S10000x32x128 ![0, 1, 2] bcast_S10000x32x1_S10000x32x128_0_1_2
          (broadcastInDim S10000x32x1 ![0, 1] bcast_S10000x32_S10000x32x1_0_1 (V (Proc.devRef .tc main_arg3)))) := by
  unfold W8
  simp only [opsH]
  after_results_simp
  simp only [W7_v36, W7_arg3]
theorem W8_v49 (V : VI) : W8 V (no_index (Proc.devRef .tc main_v49)) = rd res_main_v49 V :=
  (W8_keep V main_v49 (by decide)).trans (W7_v49 V)
theorem W8_arg3 (V : VI) : W8 V (no_index (Proc.devRef .tc main_arg3)) = V (Proc.devRef .tc main_arg3) :=
  W8_arg V main_arg3 (by decide)

theorem W9_v57 (V : VI) : W9 V (no_index (Proc.devRef .tc main_v57)) = rd res_main_v57 V := by
  unfold W9
  simp only [opsI]
  after_results_simp
  simp only [W8_v52, W8_v49, W8_arg3]
  rfl

theorem W10_v60 (V : VI) : W10 V (no_index (Proc.devRef .tc main_v60)) = rd res_main_v60 V := by
  unfold W10
  simp only [opsJ]
  after_results_simp
  simp only [W9_v57]
  rfl
theorem W10_v61 (V : VI) : W10 V (no_index (Proc.devRef .tc main_v61)) = rd res_main_v61 V := by
  unfold W10
  simp only [opsJ]
  after_results_simp
  simp only [W9_v57]
  rfl
theorem W10_v57 (V : VI) : W10 V (no_index (Proc.devRef .tc main_v57)) = rd res_main_v57 V :=
  (W10_keep V main_v57 (by decide)).trans (W9_v57 V)
theorem W10_arg8 (V : VI) : W10 V (no_index (Proc.devRef .tc main_arg8)) = V (Proc.devRef .tc main_arg8) :=
  W10_arg V main_arg8 (by decide)
theorem W10_arg9 (V : VI) : W10 V (no_index (Proc.devRef .tc main_arg9)) = V (Proc.devRef .tc main_arg9) :=
  W10_arg V main_arg9 (by decide)

theorem W11_v76 (V : VI) : W11 V (no_index (Proc.devRef .tc main_v76)) = rd res_main_v76 V := by
  unfold W11
  simp only [opsK]
  after_results_simp
  simp only [W10_v57, W10_v60, W10_v61, W10_arg8, W10_arg9]
  rfl
theorem W11_arg0 (V : VI) : W11 V (no_index (Proc.devRef .tc main_arg0)) = V (Proc.devRef .tc main_arg0) :=
  W11_arg V main_arg0 (by decide)

theorem W12_v90 (V : VI) : W12 V (no_index (Proc.devRef .tc main_v90)) = rd res_out V := by
  unfold W12
  simp only [opsL]
  after_results_simp
  simp only [W11_v76, W11_arg0]
  rfl

end Chain

theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v90)
          = res_out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run defs _ _).mono
    (fun _ h c =>
      ⟨(h c main_v90).trans (by rw [after_ops]; exact W12_v90 (launchContents m c)),
       (h c main_arg0).trans (by rw [after_ops]; exact W12_arg (launchContents m c) main_arg0 (by decide)),
       (h c main_arg1).trans (by rw [after_ops]; exact W12_arg (launchContents m c) main_arg1 (by decide)),
       (h c main_arg2).trans (by rw [after_ops]; exact W12_arg (launchContents m c) main_arg2 (by decide)),
       (h c main_arg3).trans (by rw [after_ops]; exact W12_arg (launchContents m c) main_arg3 (by decide)),
       (h c main_arg4).trans (by rw [after_ops]; exact W12_arg (launchContents m c) main_arg4 (by decide)),
       (h c main_arg5).trans (by rw [after_ops]; exact W12_arg (launchContents m c) main_arg5 (by decide)),
       (h c main_arg6).trans (by rw [after_ops]; exact W12_arg (launchContents m c) main_arg6 (by decide)),
       (h c main_arg7).trans (by rw [after_ops]; exact W12_arg (launchContents m c) main_arg7 (by decide)),
       (h c main_arg8).trans (by rw [after_ops]; exact W12_arg (launchContents m c) main_arg8 (by decide)),
       (h c main_arg9).trans (by rw [after_ops]; exact W12_arg (launchContents m c) main_arg9 (by decide))⟩)
    (run_seq scopedRefs_eq scopedSems_eq defs main (fun _ => ops) main_eq (fun _ => ops_sub) m ρ (fun _ => ops_fresh))

end Cert.ReferenceIdeal.RefRun

end
-- ==== Proof.RefValue0.lean ====
import proofs.«202994_g19078244729258_cont_8to1_1405_21_alg».proof.Proof.RefTerm
import proofs.«202994_g19078244729258_cont_8to1_1405_21_alg».proof.Proof.Spec
import proofs.«202994_g19078244729258_cont_8to1_1405_21_alg».proof.Proof.LibIdealReal
import Idealize.ShloMosaic.Lib.ValueIdx
import Idealize.ShloMosaic.Lib.IdealHost
import Idealize.ShloMosaic.Lib.Pipeline.Value
import Idealize.ShloMosaic.Lib.Affine
import Idealize.ShloMosaic.PureOps.Reduce

noncomputable section

namespace Cert.RefValue

open Cert.ReferenceIdeal Cert.ReferenceIdeal.Gen Cert.ReferenceIdeal.RefRun
open Idealize.ShloMosaic Idealize.ShloMosaic.ValueIdx
open Cert.LibIdealReal
open scoped BigOperators

def pairIdx (n : Fin 10000) (j : Fin 32) : Fin 320000 := ⟨32 * n.val + j.val, by omega⟩

theorem sum_pairIdx {β : Type*} [AddCommMonoid β] (f : Fin 320000 → β) :
    ∑ m, f m = ∑ n : Fin 10000, ∑ j : Fin 32, f (pairIdx n j) := by
  have h : 10000 * 32 = 320000 := by norm_num
  rw [← Equiv.sum_comp (finCongr h) f, Cert.Spec.sum_fin_mul_eq_sum_blocks]
  refine Finset.sum_congr rfl fun n _ => Finset.sum_congr rfl fun j _ => congrArg f (Fin.ext ?_)
  simp only [finCongr_apply_coe, finProdFinEquiv_apply_val, pairIdx]
  omega

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 by decide]
    exact foldl_andi_one f l fun n hn => h n (List.mem_cons_of_mem _ hn)

theorem cmpi_slt_zero_of_nonneg {x : BitVec 32} (h : 0 ≤ x.toInt) : IntOp.cmpi .slt x 0#32 = 0#1 :=
  eq_zero_of_ne_one fun e => by
    have := IntOp.cmpi_slt.mp e
    rw [show (0#32 : BitVec 32).toInt = 0 by decide] at this
    omega

theorem cmpi_sge_zero_of_nonneg {x : BitVec 32} (h : 0 ≤ x.toInt) : IntOp.cmpi .sge x 0#32 = 1#1 :=
  IntOp.cmpi_sge.mpr (by rw [show (0#32 : BitVec 32).toInt = 0 by decide]; exact h)

theorem cmpi_sle_9999_of_le {x : BitVec 32} (h : x.toInt ≤ 9999) : IntOp.cmpi .sle x 9999#32 = 1#1 :=
  IntOp.cmpi_sle.mpr (by rw [show (9999#32 : BitVec 32).toInt = 9999 by decide]; exact h)

theorem gather_rows_apply {α : Type} (x : S10000x128.Idx → α) (idx : IVec S10000x32x1 32) (n : Fin 10000) (j : Fin 32)
    (p : Fin 128) (r : Fin 10000) (hr : min (idx (ix3 n j 0)).toInt.toNat 9999 = r.val) :
    Host.gather gather_S10000x128_S10000x32x1_S10000x32x128_2_0_n_n_0_2_1128 x idx (ix3 n j p) = x (ix2 r p) := by
  unfold Host.gather
  congr 1
  funext a
  refine Fin.ext ?_
  match a with
  | ⟨0, _⟩ =>
    show gather_S10000x128_S10000x32x1_S10000x32x128_2_0_n_n_0_2_1128.start (ix3 n j p) idx 0 + gather_S10000x128_S10000x32x1_S10000x32x128_2_0_n_n_0_2_1128.batchCoord (ix3 n j p) 0 + gather_S10000x128_S10000x32x1_S10000x32x128_2_0_n_n_0_2_1128.offCoord (ix3 n j p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S10000x32x1_S10000x32x128_2_0_n_n_0_2_1128.startIndexMap from List.mem_singleton.mpr rfl)]
    have hsi : gather_S10000x128_S10000x32x1_S10000x32x128_2_0_n_n_0_2_1128.siIdx (ix3 n j p) ⟨List.idxOf (0 : Fin 2) gather_S10000x128_S10000x32x1_S10000x32x128_2_0_n_n_0_2_1128.startIndexMap,
        List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi]
    exact hr
  | ⟨1, _⟩ =>
    show gather_S10000x128_S10000x32x1_S10000x32x128_2_0_n_n_0_2_1128.start (ix3 n j p) idx 1 + gather_S10000x128_S10000x32x1_S10000x32x128_2_0_n_n_0_2_1128.batchCoord (ix3 n j p) 1 + gather_S10000x128_S10000x32x1_S10000x32x128_2_0_n_n_0_2_1128.offCoord (ix3 n j p) 1 = p.val
    have hs : gather_S10000x128_S10000x32x1_S10000x32x128_2_0_n_n_0_2_1128.start (ix3 n j p) idx 1 = 0 := by
      unfold GatherDims.start
      rw [dif_neg (show ¬ (1 : Fin 2) ∈ gather_S10000x128_S10000x32x1_S10000x32x128_2_0_n_n_0_2_1128.startIndexMap by decide)]
    have ho : gather_S10000x128_S10000x32x1_S10000x32x128_2_0_n_n_0_2_1128.offCoord (ix3 n j p) 1 = p.val := by
      unfold GatherDims.offCoord
      rw [dif_pos (show (1 : Fin 2) ∈ gather_S10000x128_S10000x32x1_S10000x32x128_2_0_n_n_0_2_1128.sKept by decide)]
      rfl
    rw [GatherDims.batchCoord_eq_zero _ _ _ List.not_mem_nil, hs, ho]
    omega

structure Finite (a0 : FVec Ideal S10000x128 .f32) (a1 : FVec Ideal S10000x32x16 .f32) (a2 : IVec S10000x32 32)
    (a3 : FVec Ideal S10000x32 .f32) (a4 : FVec Ideal S272x256 .f32) (a5 : FVec Ideal S256 .f32)
    (a6 : FVec Ideal S256 .f32) (a7 : FVec Ideal S256 .f32) (a8 : FVec Ideal S128 .f32) (a9 : FVec Ideal S128 .f32) : Prop where
  h0 : ∀ i, ∃ r : ℝ, a0 i = (r : EReal)
  h1 : ∀ i, ∃ r : ℝ, a1 i = (r : EReal)
  h3 : ∀ i, ∃ r : ℝ, a3 i = (r : EReal)
  h4 : ∀ i, ∃ r : ℝ, a4 i = (r : EReal)
  h5 : ∀ i, ∃ r : ℝ, a5 i = (r : EReal)
  h6 : ∀ i, ∃ r : ℝ, a6 i = (r : EReal)
  h7 : ∀ i, ∃ r : ℝ, a7 i = (r : EReal)
  h8 : ∀ i, ∃ r : ℝ, a8 i = (r : EReal)
  h9 : ∀ i, ∃ r : ℝ, a9 i = (r : EReal)
  hidx : ∀ i, 0 ≤ (a2 i).toInt ∧ (a2 i).toInt ≤ 9999

section
variable {a0 : FVec Ideal S10000x128 .f32} {a1 : FVec Ideal S10000x32x16 .f32} {a2 : IVec S10000x32 32}
  {a3 : FVec Ideal S10000x32 .f32} {a4 : FVec Ideal S272x256 .f32} {a5 : FVec Ideal S256 .f32}
  {a6 : FVec Ideal S256 .f32} {a7 : FVec Ideal S256 .f32} {a8 : FVec Ideal S128 .f32} {a9 : FVec Ideal S128 .f32}
  (H : Finite a0 a1 a2 a3 a4 a5 a6 a7 a8 a9)
include H

theorem Finite.idx_lt (i : S10000x32.Idx) : (a2 i).toNat < 10000 := by
  have h := H.hidx i
  rw [BitVec.toInt_eq_toNat_cond] at h
  split at h <;> omega

theorem Finite.idx_toInt (i : S10000x32.Idx) : (a2 i).toInt = ((a2 i).toNat : ℤ) := by
  have h := H.hidx i
  rw [BitVec.toInt_eq_toNat_cond] at h ⊢
  split at h <;> rename_i hc
  · rw [if_pos hc]
  · omega

def inputsOf : Cert.Spec.Inputs where
  a n p := Classical.choose (H.h0 (ix2 n p))
  e n j q := Classical.choose (H.h1 (ix3 n j q))
  idx n j := ⟨(a2 (ix2 n j)).toNat, H.idx_lt _⟩
  bw n j := Classical.choose (H.h3 (ix2 n j))
  W r k := Classical.choose (H.h4 (ix2 r k))
  b k := Classical.choose (H.h5 (ix1 k))
  γ1 k := Classical.choose (H.h6 (ix1 k))
  β1 k := Classical.choose (H.h7 (ix1 k))
  γ2 k := Classical.choose (H.h8 (ix1 k))
  β2 k := Classical.choose (H.h9 (ix1 k))
  ε := Classical.choose ofBits_3727C5AC_f32_pos

theorem a0_eq (n : Fin 10000) (p : Fin 128) : a0 (ix2 n p) = (((inputsOf H).a n p : ℝ) : EReal) := Classical.choose_spec (H.h0 (ix2 n p))
theorem a1_eq (n : Fin 10000) (j : Fin 32) (q : Fin 16) : a1 (ix3 n j q) = (((inputsOf H).e n j q : ℝ) : EReal) := Classical.choose_spec (H.h1 (ix3 n j q))
theorem a2_eq (n : Fin 10000) (j : Fin 32) : (a2 (ix2 n j)).toNat = ((inputsOf H).idx n j).val := rfl
theorem a3_eq (n : Fin 10000) (j : Fin 32) : a3 (ix2 n j) = (((inputsOf H).bw n j : ℝ) : EReal) := Classical.choose_spec (H.h3 (ix2 n j))
theorem a4_eq (r : Fin 272) (k : Fin 256) : a4 (ix2 r k) = (((inputsOf H).W r k : ℝ) : EReal) := Classical.choose_spec (H.h4 (ix2 r k))
theorem a5_eq (k : Fin 256) : a5 (ix1 k) = (((inputsOf H).b k : ℝ) : EReal) := Classical.choose_spec (H.h5 (ix1 k))
theorem a6_eq (k : Fin 256) : a6 (ix1 k) = (((inputsOf H).γ1 k : ℝ) : EReal) := Classical.choose_spec (H.h6 (ix1 k))
theorem a7_eq (k : Fin 256) : a7 (ix1 k) = (((inputsOf H).β1 k : ℝ) : EReal) := Classical.choose_spec (H.h7 (ix1 k))
theorem a8_eq (k : Fin 128) : a8 (ix1 k) = (((inputsOf H).γ2 k : ℝ) : EReal) := Classical.choose_spec (H.h8 (ix1 k))
theorem a9_eq (k : Fin 128) : a9 (ix1 k) = (((inputsOf H).β2 k : ℝ) : EReal) := Classical.choose_spec (H.h9 (ix1 k))
theorem eps_eq : Ideal.ofBits .f32 0x3727C5AC#32 = (((inputsOf H).ε : ℝ) : EReal) := (Classical.choose_spec ofBits_3727C5AC_f32_pos).2
theorem eps_pos : 0 < (inputsOf H).ε := (Classical.choose_spec ofBits_3727C5AC_f32_pos).1

theorem call0_v5_apply (n : Fin 10000) (j : Fin 32) (z : Fin 1) :
    res_main_call0_v5 a0 a1 a2 a3 a4 a5 a6 a7 a8 a9 (ix3 n j z) = a2 (ix2 n j) := by
  unfold res_main_call0_v5
  rw [broadcastInDim_apply _ _ _ (ix3 n j z) (ix2 n j) (fun a => match a with
    | ⟨0, _⟩ => by show (_ : ℕ) = if (10000 : ℕ) = 1 then 0 else _; exact (if_neg (by decide)).symm
    | ⟨1, _⟩ => by show (_ : ℕ) = if (32 : ℕ) = 1 then 0 else _; exact (if_neg (by decide)).symm)]
  rw [select_apply]
  have hc : cmpi .slt a2 (broadcastInDim S10000x32 ![] bcast_S_S10000x32 (constantI S_ 32 0#32)) (ix2 n j) = 0#1 :=
    cmpi_slt_zero_of_nonneg (H.hidx (ix2 n j)).1
  rw [hc, ValueIdx.select_zero]

theorem call0_v12_apply (n : Fin 10000) (j : Fin 32) :
    res_main_call0_v12 a0 a1 a2 a3 a4 a5 a6 a7 a8 a9 (ix2 n j) = 1#1 := by
  unfold res_main_call0_v12
  rw [Host.reduce_eq_foldl]
  refine foldl_andi_one _ _ fun i _ => ?_
  obtain ⟨n', j', z, rfl⟩ : ∃ (n' : Fin 10000) (j' : Fin 32) (z : Fin 1), i = ix3 n' j' z := ⟨i 0, i 1, i 2, eq_ix3 i⟩
  refine IntOp.andi_eq_one.mpr ⟨?_, ?_⟩
  · show IntOp.cmpi .sge (res_main_call0_v5 a0 a1 a2 a3 a4 a5 a6 a7 a8 a9 (ix3 n' j' z)) 0#32 = 1#1
    rw [call0_v5_apply H]
    exact cmpi_sge_zero_of_nonneg (H.hidx _).1
  · show IntOp.cmpi .sle (res_main_call0_v5 a0 a1 a2 a3 a4 a5 a6 a7 a8 a9 (ix3 n' j' z)) 9999#32 = 1#1
    rw [call0_v5_apply H]
    exact cmpi_sle_9999_of_le (H.hidx _).2

theorem v0_apply (n : Fin 10000) (j : Fin 32) (p : Fin 128) :
    res_main_v0 a0 a1 a2 a3 a4 a5 a6 a7 a8 a9 (ix3 n j p) = (((inputsOf H).a ((inputsOf H).idx n j) p : ℝ) : EReal) := by
  unfold res_main_v0
  have hrow : min (res_main_call0_v5 a0 a1 a2 a3 a4 a5 a6 a7 a8 a9 (ix3 n j 0)).toInt.toNat 9999
      = ((inputsOf H).idx n j).val := by
    rw [call0_v5_apply H]
    show min (a2 (ix2 n j)).toInt.toNat 9999 = (a2 (ix2 n j)).toNat
    rw [H.idx_toInt, Int.toNat_natCast]
    have := H.idx_lt (ix2 n j)
    omega
  rw [select_apply, broadcastInDim_apply _ _ _ (ix3 n j p) (ix2 n j) (fun a => match a with
    | ⟨0, _⟩ => by show (_ : ℕ) = if (10000 : ℕ) = 1 then 0 else _; exact (if_neg (by decide)).symm
    | ⟨1, _⟩ => by show (_ : ℕ) = if (32 : ℕ) = 1 then 0 else _; exact (if_neg (by decide)).symm), call0_v12_apply H, ValueIdx.select_one,
    gather_rows_apply _ _ n j p _ hrow, a0_eq H]

theorem v2_apply (n : Fin 10000) (j : Fin 32) (p : Fin 128) :
    res_main_v2 a0 a1 a2 a3 a4 a5 a6 a7 a8 a9 (ix3 n j p) = (((inputsOf H).a n p : ℝ) : EReal) := by
  unfold res_main_v2
  rw [broadcastInDim_apply _ _ _ (ix3 n j p) (ix3 n (0 : Fin 1) p) (fun a => match a with
    | ⟨0, _⟩ => by show (_ : ℕ) = if (10000 : ℕ) = 1 then 0 else _; exact (if_neg (by decide)).symm
    | ⟨1, _⟩ => by show (_ : ℕ) = if (1 : ℕ) = 1 then 0 else _; exact (if_pos rfl).symm
    | ⟨2, _⟩ => by show (_ : ℕ) = if (128 : ℕ) = 1 then 0 else _; exact (if_neg (by decide)).symm),
    broadcastInDim_apply _ _ _ (ix3 n (0 : Fin 1) p) (ix2 n p) (fun a => match a with
    | ⟨0, _⟩ => by show (_ : ℕ) = if (10000 : ℕ) = 1 then 0 else _; exact (if_neg (by decide)).symm
    | ⟨1, _⟩ => by show (_ : ℕ) = if (128 : ℕ) = 1 then 0 else _; exact (if_neg (by decide)).symm), a0_eq H]

theorem v3_apply (n : Fin 10000) (j : Fin 32) (r : Fin 272) :
    res_main_v3 a0 a1 a2 a3 a4 a5 a6 a7 a8 a9 (ix3 n j r) = ((Cert.Spec.cat (inputsOf H) n j r : ℝ) : EReal) := by
  unfold res_main_v3
  by_cases h1 : r.val < 128
  · rw [concatenate_apply_piece _ _ _ (ix3 n j r) 0 (by show (0 : ℕ) < 3; omega) S10000x32x128 (res_main_v2 a0 a1 a2 a3 a4 a5 a6 a7 a8 a9) rfl rfl 0 rfl
      (ix3 n j (⟨r.val, h1⟩ : Fin 128))
      (fun b hb => match b, hb with
        | ⟨0, _⟩, _ => rfl
        | ⟨1, _⟩, _ => rfl
        | ⟨2, _⟩, hb => absurd (Fin.ext rfl) hb)
      (by show 0 + r.val = r.val; omega)]
    rw [v2_apply H, Cert.Spec.cat, dif_pos h1]
  · by_cases h2 : r.val < 256
    · rw [concatenate_apply_piece _ _ _ (ix3 n j r) 1 (by show (1 : ℕ) < 3; omega) S10000x32x128 (res_main_v0 a0 a1 a2 a3 a4 a5 a6 a7 a8 a9) rfl rfl 128 rfl
        (ix3 n j (⟨r.val - 128, by omega⟩ : Fin 128))
        (fun b hb => match b, hb with
          | ⟨0, _⟩, _ => rfl
          | ⟨1, _⟩, _ => rfl
          | ⟨2, _⟩, hb => absurd (Fin.ext rfl) hb)
        (by show 128 + (r.val - 128) = r.val; omega)]
      rw [v0_apply H, Cert.Spec.cat, dif_neg h1, dif_pos h2]
    · rw [concatenate_apply_piece _ _ _ (ix3 n j r) 2 (by show (2 : ℕ) < 3; omega) S10000x32x16 a1 rfl rfl 256 rfl
        (ix3 n j (⟨r.val - 256, by have := r.isLt; omega⟩ : Fin 16))
        (fun b hb => match b, hb with
          | ⟨0, _⟩, _ => rfl
          | ⟨1, _⟩, _ => rfl
          | ⟨2, _⟩, hb => absurd (Fin.ext rfl) hb)
        (by show 256 + (r.val - 256) = r.val; omega)]
      rw [a1_eq H, Cert.Spec.cat, dif_neg h1, dif_neg h2]

end

end Cert.RefValue

end
-- ==== Proof.RefValue1.lean ====
import proofs.«202994_g19078244729258_cont_8to1_1405_21_alg».proof.Proof.RefValue0
import Idealize.ShloMosaic.Lib.ValueIdx
import Idealize.ShloMosaic.Lib.IdealHost
import Idealize.ShloMosaic.Lib.Pipeline.Value
import Idealize.ShloMosaic.PureOps.Ideal.Laws

noncomputable section

namespace Cert.RefValue

open Cert.ReferenceIdeal Cert.ReferenceIdeal.Gen Cert.ReferenceIdeal.RefRun
open Idealize.ShloMosaic Idealize.ShloMosaic.ValueIdx
open Cert.LibIdealReal Cert.Spec
open scoped BigOperators

theorem lhs_dot_0 (i : S10000x32x256.Idx) (q : dot_S10000x32x272_S272x256_S10000x32x256_2_0_01_1_n_n.contr.Idx) :
    (dot_S10000x32x272_S272x256_S10000x32x256_2_0_01_1_n_n.lhsIdx i q 0).val = (i 0).val := by
  unfold DotDims.lhsIdx
  rw [dif_neg (show ¬(0 : Fin S10000x32x272.rank) ∈ dot_S10000x32x272_S272x256_S10000x32x256_2_0_01_1_n_n.lhsBatch by decide),
    dif_pos (show (0 : Fin S10000x32x272.rank) ∈ dot_S10000x32x272_S272x256_S10000x32x256_2_0_01_1_n_n.lhsNonContracting by decide)]
  rfl

theorem lhs_dot_1 (i : S10000x32x256.Idx) (q : dot_S10000x32x272_S272x256_S10000x32x256_2_0_01_1_n_n.contr.Idx) :
    (dot_S10000x32x272_S272x256_S10000x32x256_2_0_01_1_n_n.lhsIdx i q 1).val = (i 1).val := by
  unfold DotDims.lhsIdx
  rw [dif_neg (show ¬(1 : Fin S10000x32x272.rank) ∈ dot_S10000x32x272_S272x256_S10000x32x256_2_0_01_1_n_n.lhsBatch by decide),
    dif_pos (show (1 : Fin S10000x32x272.rank) ∈ dot_S10000x32x272_S272x256_S10000x32x256_2_0_01_1_n_n.lhsNonContracting by decide)]
  rfl

theorem lhs_dot_2 (i : S10000x32x256.Idx) (q : dot_S10000x32x272_S272x256_S10000x32x256_2_0_01_1_n_n.contr.Idx) :
    (dot_S10000x32x272_S272x256_S10000x32x256_2_0_01_1_n_n.lhsIdx i q 2).val = (q ⟨0, by decide⟩).val :=
  dot_S10000x32x272_S272x256_S10000x32x256_2_0_01_1_n_n.lhsIdx_val_of_single rfl i q

theorem rhs_dot_0 (i : S10000x32x256.Idx) (q : dot_S10000x32x272_S272x256_S10000x32x256_2_0_01_1_n_n.contr.Idx) :
    (dot_S10000x32x272_S272x256_S10000x32x256_2_0_01_1_n_n.rhsIdx i q 0).val = (q ⟨0, by decide⟩).val :=
  dot_S10000x32x272_S272x256_S10000x32x256_2_0_01_1_n_n.rhsIdx_val_of_single rfl i q

theorem rhs_dot_1 (i : S10000x32x256.Idx) (q : dot_S10000x32x272_S272x256_S10000x32x256_2_0_01_1_n_n.contr.Idx) :
    (dot_S10000x32x272_S272x256_S10000x32x256_2_0_01_1_n_n.rhsIdx i q 1).val = (i 2).val := by
  unfold DotDims.rhsIdx
  rw [dif_neg (show ¬(1 : Fin S272x256.rank) ∈ dot_S10000x32x272_S272x256_S10000x32x256_2_0_01_1_n_n.rhsBatch by decide),
    dif_pos (show (1 : Fin S272x256.rank) ∈ dot_S10000x32x272_S272x256_S10000x32x256_2_0_01_1_n_n.rhsNonContracting by decide)]
  rfl

theorem dot_apply (x : FVec Ideal S10000x32x272 .f32) (y : FVec Ideal S272x256 .f32) (n : Fin 10000) (j : Fin 32)
    (k : Fin 256) :
    Host.dotGeneral (F := Ideal) dot_S10000x32x272_S272x256_S10000x32x256_2_0_01_1_n_n none x y (ix3 n j k) = ∑ r : Fin 272, x (ix3 n j r) * y (ix2 r k) := by
  simp only [Host.dotGeneral]
  rw [Ideal.dotGeneral_apply, ← Equiv.sum_comp (ValueIdx.contrEquiv1 dot_S10000x32x272_S272x256_S10000x32x256_2_0_01_1_n_n 272 rfl rfl).symm]
  refine Finset.sum_congr rfl fun r _ => ?_
  have hk := ValueIdx.contrEquiv1_symm_val dot_S10000x32x272_S272x256_S10000x32x256_2_0_01_1_n_n 272 rfl rfl r
  have el : dot_S10000x32x272_S272x256_S10000x32x256_2_0_01_1_n_n.lhsIdx (ix3 n j k) ((ValueIdx.contrEquiv1 dot_S10000x32x272_S272x256_S10000x32x256_2_0_01_1_n_n 272 rfl rfl).symm r) = ix3 n j r :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S10000x32x272_S272x256_S10000x32x256_2_0_01_1_n_n.rhsIdx (ix3 n j k) ((ValueIdx.contrEquiv1 dot_S10000x32x272_S272x256_S10000x32x256_2_0_01_1_n_n 272 rfl rfl).symm r) = ix2 r k :=
    funext fun a => Fin.ext (by
      match a with
      | ⟨0, _⟩ => exact (rhs_dot_0 _ _).trans hk
      | ⟨1, _⟩ => exact rhs_dot_1 _ _)
  rw [el, er]

theorem sum_rows_apply (x : FVec Ideal S320000x256 .f32) (k : Fin 256) :
    Host.reduceAdd (F := Ideal) x (constant (F := Ideal) S_ .f32 0x00000000#32) reducesTo_S320000x256_S256_d0 h_S_ (ix1 k)
      = ∑ m : Fin 320000, x (ix2 m k) := by
  rw [hostReduceAdd_apply, Ideal.hostReduceAdd_single reducesTo_S320000x256_S256_d0 (by decide)]
  show Ideal.ofBits .f32 0x00000000#32 + _ = _
  rw [Ideal.ofBits_zero_f32, zero_add]
  refine Finset.sum_congr rfl fun m _ => ?_
  exact congrArg x (funext fun a => Fin.ext (by match a with | ⟨0, _⟩ => rfl | ⟨1, _⟩ => rfl))

theorem bcast_row_apply {α : Type} (x : S256.Idx → α) (m : Fin 320000) (k : Fin 256) :
    broadcastInDim S320000x256 ![0, 1] bcast_S1x256_S320000x256_0_1 (broadcastInDim S1x256 ![1] bcast_S256_S1x256_1 x)
      (ix2 m k) = x (ix1 k) := by
  rw [broadcastInDim_apply _ _ _ (ix2 m k) (ix2 (0 : Fin 1) k) (fun a => match a with
    | ⟨0, _⟩ => by show (_ : ℕ) = if (1 : ℕ) = 1 then 0 else _; exact (if_pos rfl).symm
    | ⟨1, _⟩ => by show (_ : ℕ) = if (256 : ℕ) = 1 then 0 else _; exact (if_neg (by decide)).symm),
    broadcastInDim_apply _ _ _ (ix2 (0 : Fin 1) k) (ix1 k) (fun a => match a with
    | ⟨0, _⟩ => by show (_ : ℕ) = if (256 : ℕ) = 1 then 0 else _; exact (if_neg (by decide)).symm)]

section
variable {a0 : FVec Ideal S10000x128 .f32} {a1 : FVec Ideal S10000x32x16 .f32} {a2 : IVec S10000x32 32}
  {a3 : FVec Ideal S10000x32 .f32} {a4 : FVec Ideal S272x256 .f32} {a5 : FVec Ideal S256 .f32}
  {a6 : FVec Ideal S256 .f32} {a7 : FVec Ideal S256 .f32} {a8 : FVec Ideal S128 .f32} {a9 : FVec Ideal S128 .f32}
  (H : Finite a0 a1 a2 a3 a4 a5 a6 a7 a8 a9)
include H

theorem v7_apply (n : Fin 10000) (j : Fin 32) (k : Fin 256) :
    res_main_v7 a0 a1 a2 a3 a4 a5 a6 a7 a8 a9 (ix3 n j k) = ((specX (inputsOf H) n j k : ℝ) : EReal) := by
  unfold res_main_v7
  have hb : broadcastInDim S10000x32x256 ![0, 1, 2] bcast_S1x1x256_S10000x32x256_0_1_2
      (broadcastInDim S1x1x256 ![2] bcast_S256_S1x1x256_2 a5) (ix3 n j k) = a5 (ix1 k) := by
    rw [broadcastInDim_apply _ _ _ (ix3 n j k) (ix3 (0 : Fin 1) (0 : Fin 1) k) (fun a => match a with
      | ⟨0, _⟩ => by show (_ : ℕ) = if (1 : ℕ) = 1 then 0 else _; exact (if_pos rfl).symm
      | ⟨1, _⟩ => by show (_ : ℕ) = if (1 : ℕ) = 1 then 0 else _; exact (if_pos rfl).symm
      | ⟨2, _⟩ => by show (_ : ℕ) = if (256 : ℕ) = 1 then 0 else _; exact (if_neg (by decide)).symm),
      broadcastInDim_apply _ _ _ (ix3 (0 : Fin 1) (0 : Fin 1) k) (ix1 k) (fun a => match a with
      | ⟨0, _⟩ => by show (_ : ℕ) = if (256 : ℕ) = 1 then 0 else _; exact (if_neg (by decide)).symm)]
  rw [addf_apply, dot_apply, hb, a5_eq H]
  simp only [v3_apply H, a4_eq H]
  rw [← coe_fintype_sum_mul, ← EReal.coe_add]
  rfl

theorem v8_apply (n : Fin 10000) (j : Fin 32) (k : Fin 256) :
    res_main_v8 a0 a1 a2 a3 a4 a5 a6 a7 a8 a9 (ix2 (pairIdx n j) k) = ((specX (inputsOf H) n j k : ℝ) : EReal) := by
  unfold res_main_v8
  rw [shapeCast_apply _ _ (ix2 (pairIdx n j) k) (ix3 n j k) (by
    rw [Shape.rowMajor_val_three, Shape.rowMajor_val_two]
    show (n.val * 32 + j.val) * 256 + k.val = (32 * n.val + j.val) * 256 + k.val
    omega)]
  exact v7_apply H n j k

theorem sum_v8 (k : Fin 256) :
    ∑ m : Fin 320000, res_main_v8 a0 a1 a2 a3 a4 a5 a6 a7 a8 a9 (ix2 m k)
      = ((∑ n, ∑ j, specX (inputsOf H) n j k : ℝ) : EReal) := by
  rw [sum_pairIdx]
  simp only [v8_apply H, ← coe_fintype_sum]

theorem bcast_320000_apply (k : Fin 256) :
    broadcastInDim S256 ![] bcast_S_S256 (constant (F := Ideal) S_ .f32 0x489C4000#32) (ix1 k) = ((320000 : ℝ) : EReal) := by
  rw [broadcastInDim_scalar_apply]
  exact ofBits_320000_f32

theorem v11_apply (k : Fin 256) :
    res_main_v11 a0 a1 a2 a3 a4 a5 a6 a7 a8 a9 (ix1 k) = ((specMu1 (inputsOf H) k : ℝ) : EReal) := by
  unfold res_main_v11
  rw [hostDivf_apply, sum_rows_apply, sum_v8 H, bcast_320000_apply H, div_coe_coe _ (by norm_num)]
  rfl

theorem call1_v5_apply (n : Fin 10000) (j : Fin 32) (k : Fin 256) :
    res_main_call1_v5 a0 a1 a2 a3 a4 a5 a6 a7 a8 a9 (ix2 (pairIdx n j) k)
      = ((specX (inputsOf H) n j k - specMu1 (inputsOf H) k : ℝ) : EReal) := by
  unfold res_main_call1_v5
  rw [subf_apply, v8_apply H,
    broadcastInDim_apply _ _ _ (ix2 (pairIdx n j) k) (ix2 (0 : Fin 1) k) (fun a => match a with
      | ⟨0, _⟩ => by show (_ : ℕ) = if (1 : ℕ) = 1 then 0 else _; exact (if_pos rfl).symm
      | ⟨1, _⟩ => by show (_ : ℕ) = if (256 : ℕ) = 1 then 0 else _; exact (if_neg (by decide)).symm),
    hostDivf_apply,
    broadcastInDim_apply _ _ _ (ix2 (0 : Fin 1) k) (ix1 k) (fun a => match a with
      | ⟨0, _⟩ => by show (_ : ℕ) = if (256 : ℕ) = 1 then 0 else _; exact (if_neg (by decide)).symm),
    sum_rows_apply, sum_v8 H, broadcastInDim_scalar_apply]
  show _ - Ideal.div _ (Ideal.ofBits .f32 0x489C4000#32) = _
  rw [ofBits_320000_f32, div_coe_coe _ (by norm_num), ← EReal.coe_sub]
  rfl

theorem call1_v8_apply : res_main_call1_v8 a0 a1 a2 a3 a4 a5 a6 a7 a8 a9 ix0 = ((320000 : ℝ) : EReal) := by
  unfold res_main_call1_v8
  rw [subf_apply]
  show Ideal.ofBits .f32 0x489C4000#32 - ((((0#32 : BitVec 32).toInt : ℝ)) : EReal) = _
  rw [ofBits_320000_f32, ← EReal.coe_sub]
  norm_num

theorem v12_apply (k : Fin 256) :
    res_main_v12 a0 a1 a2 a3 a4 a5 a6 a7 a8 a9 (ix1 k) = ((specVar1 (inputsOf H) k : ℝ) : EReal) := by
  unfold res_main_v12
  rw [select_apply, broadcastInDim_scalar_apply, cmpf_apply, call1_v8_apply H, constant_apply, Ideal.ofBits_zero_f32,
    cmpf_ogt_zero_of_pos (by norm_num), ValueIdx.select_one, hostDivf_apply, sum_rows_apply, broadcastInDim_scalar_apply,
    call1_v8_apply H, sum_pairIdx]
  simp only [mulf_apply, call1_v5_apply H, ← EReal.coe_mul, ← coe_fintype_sum]
  rw [div_coe_coe _ (by norm_num)]
  rfl

theorem v27_apply (n : Fin 10000) (j : Fin 32) (k : Fin 256) :
    res_main_v27 a0 a1 a2 a3 a4 a5 a6 a7 a8 a9 (ix2 (pairIdx n j) k) = ((specY (inputsOf H) n j k : ℝ) : EReal) := by
  have hpos : 0 < specVar1 (inputsOf H) k + (inputsOf H).ε :=
    add_pos_of_nonneg_of_pos (specVar1_nonneg _ _) (eps_pos H)
  have hs : Host.sqrt (F := Ideal) (addf (res_main_v12 a0 a1 a2 a3 a4 a5 a6 a7 a8 a9)
      (broadcastInDim S256 ![] bcast_S_S256 (constant (F := Ideal) S_ .f32 0x3727C5AC#32))) (ix1 k)
      = ((Real.sqrt (specVar1 (inputsOf H) k + (inputsOf H).ε) : ℝ) : EReal) := by
    show FloatOps.hostUnary (F := Ideal) (φ := .f32) .sqrt (res_main_v12 a0 a1 a2 a3 a4 a5 a6 a7 a8 a9 (ix1 k)
      + broadcastInDim S256 ![] bcast_S_S256 (constant (F := Ideal) S_ .f32 0x3727C5AC#32) (ix1 k)) = _
    rw [v12_apply H, broadcastInDim_scalar_apply, constant_apply, eps_eq H, ← EReal.coe_add, hostSqrt_coe hpos.le]
  unfold res_main_v27
  rw [addf_apply, mulf_apply, hostDivf_apply, subf_apply, v8_apply H, bcast_row_apply, bcast_row_apply,
    bcast_row_apply, bcast_row_apply]
  rw [hs, v11_apply H, a6_eq H, a7_eq H, ← EReal.coe_sub,
    div_coe_coe _ (sqrt_add_ne_zero (specVar1_nonneg _ _) (eps_pos H)), ← EReal.coe_mul, ← EReal.coe_add]
  rfl

theorem v28_apply (n : Fin 10000) (j : Fin 32) (k : Fin 256) :
    res_main_v28 a0 a1 a2 a3 a4 a5 a6 a7 a8 a9 (ix3 n j k) = ((specY (inputsOf H) n j k : ℝ) : EReal) := by
  unfold res_main_v28
  rw [shapeCast_apply _ _ (ix3 n j k) (ix2 (pairIdx n j) k) (by
    rw [Shape.rowMajor_val_three, Shape.rowMajor_val_two]
    show (32 * n.val + j.val) * 256 + k.val = (n.val * 32 + j.val) * 256 + k.val
    omega)]
  exact v27_apply H n j k

end

end Cert.RefValue

end
-- ==== Proof.RefValue2.lean ====
import proofs.«202994_g19078244729258_cont_8to1_1405_21_alg».proof.Proof.RefValue0
import proofs.«202994_g19078244729258_cont_8to1_1405_21_alg».proof.Proof.RefValue1
import Idealize.ShloMosaic.Lib.ValueIdx
import Idealize.ShloMosaic.Lib.IdealHost
import Idealize.ShloMosaic.Lib.Pipeline.Value
import Idealize.ShloMosaic.PureOps.Ideal.Laws

noncomputable section

namespace Cert.RefValue

open Cert.ReferenceIdeal Cert.ReferenceIdeal.Gen Cert.ReferenceIdeal.RefRun
open Idealize.ShloMosaic Idealize.ShloMosaic.ValueIdx
open Cert.LibIdealReal Cert.Spec
open scoped BigOperators

theorem slice_filt_apply {α : Type} (x : S10000x32x256.Idx → α) (n : Fin 10000) (j : Fin 32) (k : Fin 128) :
    extractStridedSlice S10000x32x128 ![0, 0, 0] x slices_S10000x32x256_S10000x32x128_0_0_0 (ix3 n j k)
      = x (ix3 n j (kFilt k)) :=
  extractStridedSlice_apply _ x _ (ix3 n j k) (ix3 n j (kFilt k)) (fun a => match a with
    | ⟨0, _⟩ => by show n.val = 0 + n.val; omega
    | ⟨1, _⟩ => by show j.val = 0 + j.val; omega
    | ⟨2, _⟩ => by show k.val = 0 + k.val; omega)

theorem slice_core_apply {α : Type} (x : S10000x32x256.Idx → α) (n : Fin 10000) (j : Fin 32) (k : Fin 128) :
    extractStridedSlice S10000x32x128 ![0, 0, 128] x slices_S10000x32x256_S10000x32x128_0_0_128 (ix3 n j k)
      = x (ix3 n j (kCore k)) :=
  extractStridedSlice_apply _ x _ (ix3 n j k) (ix3 n j (kCore k)) (fun a => match a with
    | ⟨0, _⟩ => by show n.val = 0 + n.val; omega
    | ⟨1, _⟩ => by show j.val = 0 + j.val; omega
    | ⟨2, _⟩ => by show 128 + k.val = 128 + k.val; rfl)

theorem bcast_bw_apply {α : Type} (x : S10000x32.Idx → α) (n : Fin 10000) (j : Fin 32) (k : Fin 128) :
    broadcastInDim S10000x32x128 ![0, 1, 2] bcast_S10000x32x1_S10000x32x128_0_1_2
      (broadcastInDim S10000x32x1 ![0, 1] bcast_S10000x32_S10000x32x1_0_1 x) (ix3 n j k) = x (ix2 n j) := by
  rw [broadcastInDim_apply _ _ _ (ix3 n j k) (ix3 n j (0 : Fin 1)) (fun a => match a with
    | ⟨0, _⟩ => by show (_ : ℕ) = if (10000 : ℕ) = 1 then 0 else _; exact (if_neg (by decide)).symm
    | ⟨1, _⟩ => by show (_ : ℕ) = if (32 : ℕ) = 1 then 0 else _; exact (if_neg (by decide)).symm
    | ⟨2, _⟩ => by show (_ : ℕ) = if (1 : ℕ) = 1 then 0 else _; exact (if_pos rfl).symm),
    broadcastInDim_apply _ _ _ (ix3 n j (0 : Fin 1)) (ix2 n j) (fun a => match a with
    | ⟨0, _⟩ => by show (_ : ℕ) = if (10000 : ℕ) = 1 then 0 else _; exact (if_neg (by decide)).symm
    | ⟨1, _⟩ => by show (_ : ℕ) = if (32 : ℕ) = 1 then 0 else _; exact (if_neg (by decide)).symm)]

theorem sum_nbrs_apply (x : FVec Ideal S10000x32x128 .f32) (n : Fin 10000) (k : Fin 128) :
    Host.reduceAdd (F := Ideal) x (constant (F := Ideal) S_ .f32 0x00000000#32) reducesTo_S10000x32x128_S10000x128_d1 h_S_
      (ix2 n k) = ∑ j : Fin 32, x (ix3 n j k) := by
  rw [hostReduceAdd_apply, Ideal.hostReduceAdd_single reducesTo_S10000x32x128_S10000x128_d1 (by decide)]
  show Ideal.ofBits .f32 0x00000000#32 + _ = _
  rw [Ideal.ofBits_zero_f32, zero_add]
  refine Finset.sum_congr rfl fun m _ => ?_
  exact congrArg x (funext fun a => Fin.ext (by match a with | ⟨0, _⟩ => rfl | ⟨1, _⟩ => rfl | ⟨2, _⟩ => rfl))

theorem sum_atoms_apply (x : FVec Ideal S10000x128 .f32) (k : Fin 128) :
    Host.reduceAdd (F := Ideal) x (constant (F := Ideal) S_ .f32 0x00000000#32) reducesTo_S10000x128_S128_d0 h_S_ (ix1 k)
      = ∑ n : Fin 10000, x (ix2 n k) := by
  rw [hostReduceAdd_apply, Ideal.hostReduceAdd_single reducesTo_S10000x128_S128_d0 (by decide)]
  show Ideal.ofBits .f32 0x00000000#32 + _ = _
  rw [Ideal.ofBits_zero_f32, zero_add]
  refine Finset.sum_congr rfl fun m _ => ?_
  exact congrArg x (funext fun a => Fin.ext (by match a with | ⟨0, _⟩ => rfl | ⟨1, _⟩ => rfl))

theorem bcast_row128_apply {α : Type} (x : S128.Idx → α) (n : Fin 10000) (k : Fin 128) :
    broadcastInDim S10000x128 ![0, 1] bcast_S1x128_S10000x128_0_1 (broadcastInDim S1x128 ![1] bcast_S128_S1x128_1 x)
      (ix2 n k) = x (ix1 k) := by
  rw [broadcastInDim_apply _ _ _ (ix2 n k) (ix2 (0 : Fin 1) k) (fun a => match a with
    | ⟨0, _⟩ => by show (_ : ℕ) = if (1 : ℕ) = 1 then 0 else _; exact (if_pos rfl).symm
    | ⟨1, _⟩ => by show (_ : ℕ) = if (128 : ℕ) = 1 then 0 else _; exact (if_neg (by decide)).symm),
    broadcastInDim_apply _ _ _ (ix2 (0 : Fin 1) k) (ix1 k) (fun a => match a with
    | ⟨0, _⟩ => by show (_ : ℕ) = if (128 : ℕ) = 1 then 0 else _; exact (if_neg (by decide)).symm)]

section
variable {a0 : FVec Ideal S10000x128 .f32} {a1 : FVec Ideal S10000x32x16 .f32} {a2 : IVec S10000x32 32}
  {a3 : FVec Ideal S10000x32 .f32} {a4 : FVec Ideal S272x256 .f32} {a5 : FVec Ideal S256 .f32}
  {a6 : FVec Ideal S256 .f32} {a7 : FVec Ideal S256 .f32} {a8 : FVec Ideal S128 .f32} {a9 : FVec Ideal S128 .f32}
  (H : Finite a0 a1 a2 a3 a4 a5 a6 a7 a8 a9)
include H

theorem v36_apply (n : Fin 10000) (j : Fin 32) (k : Fin 128) :
    res_main_v36 a0 a1 a2 a3 a4 a5 a6 a7 a8 a9 (ix3 n j k) = ((sigmoid (specY (inputsOf H) n j (kFilt k)) : ℝ) : EReal) := by
  unfold res_main_v36
  rw [hostDivf_apply, addf_apply, broadcastInDim_scalar_apply, constant_apply, ofBits_one_f32]
  show Ideal.div _ (_ + FloatOps.hostUnary (F := Ideal) (φ := .f32) .exp (FloatOps.hostNegf (F := Ideal) (φ := .f32)
    (extractStridedSlice S10000x32x128 ![0, 0, 0] (res_main_v28 a0 a1 a2 a3 a4 a5 a6 a7 a8 a9) slices_S10000x32x256_S10000x32x128_0_0_0
      (ix3 n j k)))) = _
  rw [slice_filt_apply, v28_apply H, hostNegf_coe, hostExp_coe, ← EReal.coe_add, div_coe_coe _ (one_add_exp_ne_zero _)]
  rfl

theorem v30_apply (n : Fin 10000) (j : Fin 32) (k : Fin 128) :
    res_main_v30 a0 a1 a2 a3 a4 a5 a6 a7 a8 a9 (ix3 n j k) = ((specY (inputsOf H) n j (kCore k) : ℝ) : EReal) := by
  unfold res_main_v30
  rw [slice_core_apply, v28_apply H]

theorem v40_apply (n : Fin 10000) (j : Fin 32) (k : Fin 128) :
    res_main_v40 a0 a1 a2 a3 a4 a5 a6 a7 a8 a9 (ix3 n j k) = ((specY (inputsOf H) n j (kCore k) : ℝ) : EReal) := by
  unfold res_main_v40
  rw [subf_apply, v30_apply H, broadcastInDim_scalar_apply, constant_apply, ofBits_zero_f32, ← EReal.coe_sub, sub_zero]

theorem v49_apply (n : Fin 10000) (j : Fin 32) (k : Fin 128) :
    res_main_v49 a0 a1 a2 a3 a4 a5 a6 a7 a8 a9 (ix3 n j k) = ((softplusRef (specY (inputsOf H) n j (kCore k)) : ℝ) : EReal) := by
  unfold res_main_v49
  rw [select_apply, cmpf_apply, select_cmpf_une_self]
  show FloatOps.addf (F := Ideal) (φ := .f32) (FloatOps.maximumf (F := Ideal) (φ := .f32) (res_main_v30 a0 a1 a2 a3 a4 a5 a6 a7 a8 a9 (ix3 n j k))
      (broadcastInDim S10000x32x128 ![] bcast_S_S10000x32x128 (constant (F := Ideal) S_ .f32 0x00000000#32) (ix3 n j k)))
    (FloatOps.hostUnary (F := Ideal) (φ := .f32) .log1p (FloatOps.hostUnary (F := Ideal) (φ := .f32) .exp
      (FloatOps.hostNegf (F := Ideal) (φ := .f32) (FloatOps.hostAbsf (F := Ideal) (φ := .f32)
        (res_main_v40 a0 a1 a2 a3 a4 a5 a6 a7 a8 a9 (ix3 n j k)))))) = _
  rw [v30_apply H, v40_apply H, broadcastInDim_scalar_apply, constant_apply, ofBits_zero_f32, hostAbsf_coe, hostNegf_coe,
    hostExp_coe, hostLog1p_coe (neg_one_lt_exp _), maximumf_coe, addf_coe]
  rfl

theorem v57_apply (n : Fin 10000) (k : Fin 128) :
    res_main_v57 a0 a1 a2 a3 a4 a5 a6 a7 a8 a9 (ix2 n k) = ((specS (inputsOf H) n k : ℝ) : EReal) := by
  unfold res_main_v57 specS
  rw [sum_nbrs_apply, coe_fintype_sum]
  refine Finset.sum_congr rfl fun j _ => ?_
  rw [mulf_apply, mulf_apply, mulf_apply, bcast_bw_apply, v36_apply H, v49_apply H, a3_eq H, ← EReal.coe_mul,
    ← EReal.coe_mul, ← EReal.coe_mul]

theorem sum_v57 (k : Fin 128) :
    ∑ n : Fin 10000, res_main_v57 a0 a1 a2 a3 a4 a5 a6 a7 a8 a9 (ix2 n k) = ((∑ n, specS (inputsOf H) n k : ℝ) : EReal) := by
  simp only [v57_apply H, ← coe_fintype_sum]

theorem v60_apply (k : Fin 128) :
    res_main_v60 a0 a1 a2 a3 a4 a5 a6 a7 a8 a9 (ix1 k) = ((specMu2 (inputsOf H) k : ℝ) : EReal) := by
  unfold res_main_v60
  rw [hostDivf_apply, sum_atoms_apply, sum_v57 H, broadcastInDim_scalar_apply, constant_apply, ofBits_10000_f32,
    div_coe_coe _ (by norm_num)]
  rfl

theorem call2_v5_apply (n : Fin 10000) (k : Fin 128) :
    res_main_call2_v5 a0 a1 a2 a3 a4 a5 a6 a7 a8 a9 (ix2 n k) = ((specS (inputsOf H) n k - specMu2 (inputsOf H) k : ℝ) : EReal) := by
  unfold res_main_call2_v5
  rw [subf_apply, v57_apply H,
    broadcastInDim_apply _ _ _ (ix2 n k) (ix2 (0 : Fin 1) k) (fun a => match a with
      | ⟨0, _⟩ => by show (_ : ℕ) = if (1 : ℕ) = 1 then 0 else _; exact (if_pos rfl).symm
      | ⟨1, _⟩ => by show (_ : ℕ) = if (128 : ℕ) = 1 then 0 else _; exact (if_neg (by decide)).symm),
    hostDivf_apply,
    broadcastInDim_apply _ _ _ (ix2 (0 : Fin 1) k) (ix1 k) (fun a => match a with
      | ⟨0, _⟩ => by show (_ : ℕ) = if (128 : ℕ) = 1 then 0 else _; exact (if_neg (by decide)).symm),
    sum_atoms_apply, sum_v57 H, broadcastInDim_scalar_apply]
  show _ - Ideal.div _ (Ideal.ofBits .f32 0x461C4000#32) = _
  rw [ofBits_10000_f32, div_coe_coe _ (by norm_num), ← EReal.coe_sub]
  rfl

theorem call2_v8_apply : res_main_call2_v8 a0 a1 a2 a3 a4 a5 a6 a7 a8 a9 ix0 = ((10000 : ℝ) : EReal) := by
  unfold res_main_call2_v8
  rw [subf_apply]
  show Ideal.ofBits .f32 0x461C4000#32 - ((((0#32 : BitVec 32).toInt : ℝ)) : EReal) = _
  rw [ofBits_10000_f32, ← EReal.coe_sub]
  norm_num

theorem v61_apply (k : Fin 128) :
    res_main_v61 a0 a1 a2 a3 a4 a5 a6 a7 a8 a9 (ix1 k) = ((specVar2 (inputsOf H) k : ℝ) : EReal) := by
  unfold res_main_v61
  rw [select_apply, broadcastInDim_scalar_apply, cmpf_apply, call2_v8_apply H, constant_apply, Ideal.ofBits_zero_f32,
    cmpf_ogt_zero_of_pos (by norm_num), ValueIdx.select_one, hostDivf_apply, sum_atoms_apply, broadcastInDim_scalar_apply,
    call2_v8_apply H]
  simp only [mulf_apply, call2_v5_apply H, ← EReal.coe_mul, ← coe_fintype_sum]
  rw [div_coe_coe _ (by norm_num)]
  rfl

theorem v76_apply (n : Fin 10000) (k : Fin 128) :
    res_main_v76 a0 a1 a2 a3 a4 a5 a6 a7 a8 a9 (ix2 n k) = ((specZ (inputsOf H) n k : ℝ) : EReal) := by
  have hpos : 0 < specVar2 (inputsOf H) k + (inputsOf H).ε :=
    add_pos_of_nonneg_of_pos (specVar2_nonneg _ _) (eps_pos H)
  have hs : Host.sqrt (F := Ideal) (addf (res_main_v61 a0 a1 a2 a3 a4 a5 a6 a7 a8 a9)
      (broadcastInDim S128 ![] bcast_S_S128 (constant (F := Ideal) S_ .f32 0x3727C5AC#32))) (ix1 k)
      = ((Real.sqrt (specVar2 (inputsOf H) k + (inputsOf H).ε) : ℝ) : EReal) := by
    show FloatOps.hostUnary (F := Ideal) (φ := .f32) .sqrt (res_main_v61 a0 a1 a2 a3 a4 a5 a6 a7 a8 a9 (ix1 k)
      + broadcastInDim S128 ![] bcast_S_S128 (constant (F := Ideal) S_ .f32 0x3727C5AC#32) (ix1 k)) = _
    rw [v61_apply H, broadcastInDim_scalar_apply, constant_apply, eps_eq H, ← EReal.coe_add, hostSqrt_coe hpos.le]
  unfold res_main_v76
  rw [addf_apply, mulf_apply, hostDivf_apply, subf_apply, v57_apply H, bcast_row128_apply, bcast_row128_apply,
    bcast_row128_apply, bcast_row128_apply]
  rw [hs, v60_apply H, a8_eq H, a9_eq H, ← EReal.coe_sub,
    div_coe_coe _ (sqrt_add_ne_zero (specVar2_nonneg _ _) (eps_pos H)), ← EReal.coe_mul, ← EReal.coe_add]
  rfl

theorem v77_apply (n : Fin 10000) (k : Fin 128) :
    res_main_v77 a0 a1 a2 a3 a4 a5 a6 a7 a8 a9 (ix2 n k) = (((inputsOf H).a n k + specZ (inputsOf H) n k : ℝ) : EReal) := by
  unfold res_main_v77
  rw [addf_apply, a0_eq H, v76_apply H, ← EReal.coe_add]

theorem v81_apply (n : Fin 10000) (k : Fin 128) :
    res_main_v81 a0 a1 a2 a3 a4 a5 a6 a7 a8 a9 (ix2 n k) = (((inputsOf H).a n k + specZ (inputsOf H) n k : ℝ) : EReal) := by
  unfold res_main_v81
  rw [subf_apply, v77_apply H, broadcastInDim_scalar_apply, constant_apply, ofBits_zero_f32, ← EReal.coe_sub, sub_zero]

theorem v90_apply (n : Fin 10000) (k : Fin 128) :
    res_main_v90 a0 a1 a2 a3 a4 a5 a6 a7 a8 a9 (ix2 n k) = ((specOut (inputsOf H) n k : ℝ) : EReal) := by
  unfold res_main_v90
  rw [select_apply, cmpf_apply, select_cmpf_une_self]
  show FloatOps.addf (F := Ideal) (φ := .f32) (FloatOps.maximumf (F := Ideal) (φ := .f32) (res_main_v77 a0 a1 a2 a3 a4 a5 a6 a7 a8 a9 (ix2 n k))
      (broadcastInDim S10000x128 ![] bcast_S_S10000x128 (constant (F := Ideal) S_ .f32 0x00000000#32) (ix2 n k)))
    (FloatOps.hostUnary (F := Ideal) (φ := .f32) .log1p (FloatOps.hostUnary (F := Ideal) (φ := .f32) .exp
      (FloatOps.hostNegf (F := Ideal) (φ := .f32) (FloatOps.hostAbsf (F := Ideal) (φ := .f32)
        (res_main_v81 a0 a1 a2 a3 a4 a5 a6 a7 a8 a9 (ix2 n k)))))) = _
  rw [v77_apply H, v81_apply H, broadcastInDim_scalar_apply, constant_apply, ofBits_zero_f32, hostAbsf_coe, hostNegf_coe,
    hostExp_coe, hostLog1p_coe (neg_one_lt_exp _), maximumf_coe, addf_coe]
  rfl

theorem res_out_eq_spec (n : Fin 10000) (k : Fin 128) :
    res_out a0 a1 a2 a3 a4 a5 a6 a7 a8 a9 (ValueIdx.ix2 n k) = ((Cert.Spec.specOut (inputsOf H) n k : ℝ) : EReal) := v90_apply H n k

end

end Cert.RefValue

end
-- ==== Proof.Algebraic.lean ====
import proofs.«202994_g19078244729258_cont_8to1_1405_21_alg».proof.Defs
import proofs.«202994_g19078244729258_cont_8to1_1405_21_alg».proof.Proof.KI.Run
import proofs.«202994_g19078244729258_cont_8to1_1405_21_alg».proof.Proof.KI.IdxRange
import proofs.«202994_g19078244729258_cont_8to1_1405_21_alg».proof.Proof.KI.KerValue
import proofs.«202994_g19078244729258_cont_8to1_1405_21_alg».proof.Proof.RefRun
import proofs.«202994_g19078244729258_cont_8to1_1405_21_alg».proof.Proof.RefValue2
import proofs.«202994_g19078244729258_cont_8to1_1405_21_alg».proof.Proof.PreFacts
import proofs.«202994_g19078244729258_cont_8to1_1405_21_alg».proof.Proof.Spec

noncomputable section

namespace Cert.Proof.Alg

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.ValueIdx

local notation "𝕄" => MT nD τ sig (HIx 2) (Elt Ideal) ℕ UU ℕ

theorem finite_of_pre (m : (ℓ : Loc nD τ sig) → Buf (Elt Ideal) ℓ) (c : Dev nD)
    (h : Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = (fun _ => 1#1)) :
    Cert.RefValue.Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
  ⟨Cert.PreFacts.finite_arg0 _ _ _ _ _ _ _ _ _ _ h, Cert.PreFacts.finite_arg1 _ _ _ _ _ _ _ _ _ _ h, Cert.PreFacts.finite_arg3 _ _ _ _ _ _ _ _ _ _ h,
    Cert.PreFacts.finite_arg4 _ _ _ _ _ _ _ _ _ _ h, Cert.PreFacts.finite_arg5 _ _ _ _ _ _ _ _ _ _ h, Cert.PreFacts.finite_arg6 _ _ _ _ _ _ _ _ _ _ h,
    Cert.PreFacts.finite_arg7 _ _ _ _ _ _ _ _ _ _ h, Cert.PreFacts.finite_arg8 _ _ _ _ _ _ _ _ _ _ h, Cert.PreFacts.finite_arg9 _ _ _ _ _ _ _ _ _ _ h,
    Cert.PreFacts.idx_signed_range _ _ _ _ _ _ _ _ _ _ h⟩

theorem value_meets (upd : Fin 5 → Valuation τ sig (Elt Ideal) → Valuation τ sig (Elt Ideal))
    (m : (ℓ : Loc nD τ sig) → Buf (Elt Ideal) ℓ) (c : Dev nD)
    (H : Cert.RefValue.Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (hval : ∀ (n : Fin 10000) (k : Fin 128),
      (Vfin m upd c (Proc.devRef .tc main_v62) : S10000x128.Idx → EReal) (ix2 n k) = ((Cert.Spec.kerOut (Cert.RefValue.inputsOf H) n k : ℝ) : EReal)) :
    (Cert.ReferenceIdeal.RefRun.res_out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) : S10000x128.Idx → EReal)
      = (Vfin m upd c (Proc.devRef .tc main_v62) : S10000x128.Idx → EReal) := by
  have key : ∀ (n : Fin 10000) (k : Fin 128),
      (Cert.ReferenceIdeal.RefRun.res_out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) : S10000x128.Idx → EReal) (ix2 n k)
        = (Vfin m upd c (Proc.devRef .tc main_v62) : S10000x128.Idx → EReal) (ix2 n k) := fun n k => by
    rw [Cert.RefValue.res_out_eq_spec H n k, ← Cert.Spec.kerOut_eq_specOut]
    exact (hval n k).symm
  funext i
  rw [eq_ix2 i]
  exact key (i 0) (i 1)

theorem algebraic_of_val (upd : Fin 5 → Valuation τ sig (Elt Ideal) → Valuation τ sig (Elt Ideal))
    (hupd : ∀ (p : Fin 5) (W : Valuation τ sig (Elt Ideal)) (r : Ref sig .tc), r ∉ regionOuts p → upd p W (Proc.devRef .tc r) = W (Proc.devRef .tc r))
    (hrec : ∀ m : (ℓ : Loc nD τ sig) → Buf (Elt Ideal) ℓ,
      ∃ (rdats : (p : Fin 5) → (c : Dev nD) → Pipeline.RDat τ (Elt Ideal) (HIx 2) ℕ UU ℕ (Pipeline.pin (pcfgs (F := Ideal)) adm p) c)
        (R : (p : Fin 5) → Pipeline.RDat.RegionSeg (pcfgs (F := Ideal)) adm rdats (none : HIx 2) defs₀ 𝒱₀ (K (F := Ideal)).L (K (F := Ideal)).lev p),
        (∀ (p : Fin 5) (d : Dev nD),
          iprop((held (T d) SU (Vin m upd d p) : sProp 𝕄) ∗ ∃ Wt, owes (T d) (0 : CellTallies nD τ sig (HIx 2)) Wt) ⊢ (R p).pre d)
        ∧ ∀ (p : Fin 5) (d : Dev nD),
          (R p).post d ⊢ iprop((held (T d) SU (upd p (Vin m upd d p)) : sProp 𝕄) ∗ ∃ Wt, owes (T d) (0 : CellTallies nD τ sig (HIx 2)) Wt))
    (hT0 : ∀ (m : (ℓ : Loc nD τ sig) → Buf (Elt Ideal) ℓ) (I0 : (d : Dev nD) → Buf (Elt Ideal) (idxLoc0 d)) (I1 : (d : Dev nD) → Buf (Elt Ideal) (idxLoc1 d)),
      (∀ d j, (I0 d j).toNat < 10000) → (K (F := Ideal)).TileObl (D (F := Ideal)) 𝒱 (P m I0 I1) v₀ 0)
    (hT1 : ∀ (m : (ℓ : Loc nD τ sig) → Buf (Elt Ideal) ℓ) (I0 : (d : Dev nD) → Buf (Elt Ideal) (idxLoc0 d)) (I1 : (d : Dev nD) → Buf (Elt Ideal) (idxLoc1 d)),
      (∀ d j, (I1 d j).toNat < 10000) → (K (F := Ideal)).TileObl (D (F := Ideal)) 𝒱 (P m I0 I1) v₀ 1)
    (hval : ∀ (m : (ℓ : Loc nD τ sig) → Buf (Elt Ideal) ℓ) (c : Dev nD)
      (H : Cert.RefValue.Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (n : Fin 10000) (k : Fin 128),
      (Vfin m upd c (Proc.devRef .tc main_v62) : S10000x128.Idx → EReal) (ix2 n k) = ((Cert.Spec.kerOut (Cert.RefValue.inputsOf H) n k : ℝ) : EReal)) :
    Cert.algebraic_KernelIdeal_ReferenceIdeal := by
  intro m g m' g' hpre hagree
  refine ⟨fun c => Vfin m upd c (Proc.devRef .tc main_v62), ?_, ?_⟩
  · obtain ⟨rdats, R, hp, hq⟩ := hrec m
    exact run_valued m g upd R hp hq (hT0 m _ _ (Ix0_range m hpre)) (hT1 m _ _ (Ix1_range m hpre)) hupd
  · refine (θ_run (Cert.ReferenceIdeal.defs (F := Ideal)) _ _).mono (fun r h c => ?_) (Cert.ReferenceIdeal.RefRun.run m' g')
    obtain ⟨h90, hargs⟩ := h c
    obtain ⟨e0, e1, e2, e3, e4, e5, e6, e7, e8, e9⟩ := hagree c
    refine ⟨h90.trans ?_, hargs⟩
    rw [e0, e1, e2, e3, e4, e5, e6, e7, e8, e9]
    exact value_meets upd m c (finite_of_pre m c (hpre c)) (hval m c _)

theorem launchReads_of (m : (ℓ : Loc nD τ sig) → Buf (Elt Ideal) ℓ) (c : Dev nD)
    (H : Cert.RefValue.Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) : LaunchReads (Cert.RefValue.inputsOf H) m c where
  a := Cert.RefValue.a0_eq H
  e := Cert.RefValue.a1_eq H
  idx := Cert.RefValue.a2_eq H
  bw := Cert.RefValue.a3_eq H
  W := Cert.RefValue.a4_eq H
  b := Cert.RefValue.a5_eq H
  γ1 := Cert.RefValue.a6_eq H
  β1 := Cert.RefValue.a7_eq H
  γ2 := Cert.RefValue.a8_eq H
  β2 := Cert.RefValue.a9_eq H
  eps := Cert.RefValue.eps_eq H
  eps_pos := Cert.RefValue.eps_pos H

theorem algebraic_of (upd : Fin 5 → Valuation τ sig (Elt Ideal) → Valuation τ sig (Elt Ideal))
    (hU : UpdSpec upd) (h1 : LayoutLink) (h2 : StatsLink upd) (h3 : FoldedLink upd) (h4 : GateLink upd) (h5 : FinalLink upd)
    (hrec : ∀ m : (ℓ : Loc nD τ sig) → Buf (Elt Ideal) ℓ,
      ∃ (rdats : (p : Fin 5) → (c : Dev nD) → Pipeline.RDat τ (Elt Ideal) (HIx 2) ℕ UU ℕ (Pipeline.pin (pcfgs (F := Ideal)) adm p) c)
        (R : (p : Fin 5) → Pipeline.RDat.RegionSeg (pcfgs (F := Ideal)) adm rdats (none : HIx 2) defs₀ 𝒱₀ (K (F := Ideal)).L (K (F := Ideal)).lev p),
        (∀ (p : Fin 5) (d : Dev nD),
          iprop((held (T d) SU (Vin m upd d p) : sProp 𝕄) ∗ ∃ Wt, owes (T d) (0 : CellTallies nD τ sig (HIx 2)) Wt) ⊢ (R p).pre d)
        ∧ ∀ (p : Fin 5) (d : Dev nD),
          (R p).post d ⊢ iprop((held (T d) SU (upd p (Vin m upd d p)) : sProp 𝕄) ∗ ∃ Wt, owes (T d) (0 : CellTallies nD τ sig (HIx 2)) Wt))
    (hT0 : ∀ (m : (ℓ : Loc nD τ sig) → Buf (Elt Ideal) ℓ) (I0 : (d : Dev nD) → Buf (Elt Ideal) (idxLoc0 d)) (I1 : (d : Dev nD) → Buf (Elt Ideal) (idxLoc1 d)),
      (∀ d j, (I0 d j).toNat < 10000) → (K (F := Ideal)).TileObl (D (F := Ideal)) 𝒱 (P m I0 I1) v₀ 0)
    (hT1 : ∀ (m : (ℓ : Loc nD τ sig) → Buf (Elt Ideal) ℓ) (I0 : (d : Dev nD) → Buf (Elt Ideal) (idxLoc0 d)) (I1 : (d : Dev nD) → Buf (Elt Ideal) (idxLoc1 d)),
      (∀ d j, (I1 d j).toNat < 10000) → (K (F := Ideal)).TileObl (D (F := Ideal)) 𝒱 (P m I0 I1) v₀ 1) :
    Cert.algebraic_KernelIdeal_ReferenceIdeal :=
  algebraic_of_val upd hU.frame hrec hT0 hT1 fun m c H n k =>
    kernel_value_of_links (Cert.RefValue.inputsOf H) m upd c hU h1 h2 h3 h4 h5 (launchReads_of m c H) n k

theorem frame_ri : Cert.frame_ReferenceIdeal := fun m ρ _ =>
  (θ_run (Cert.ReferenceIdeal.defs (F := Ideal)) _ _).mono (fun _ h c => (h c).2) (Cert.ReferenceIdeal.RefRun.run m ρ)

theorem preserves : Cert.preserves_Kernel_KernelIdeal := trivial

end Cert.Proof.Alg

end
-- ==== Proof.lean ====
import proofs.«202994_g19078244729258_cont_8to1_1405_21_alg».proof.Defs
import proofs.«202994_g19078244729258_cont_8to1_1405_21_alg».proof.Proof.KI.Frame
import proofs.«202994_g19078244729258_cont_8to1_1405_21_alg».proof.Proof.KI.Records
import proofs.«202994_g19078244729258_cont_8to1_1405_21_alg».proof.Proof.KI.RecordsSpec
import proofs.«202994_g19078244729258_cont_8to1_1405_21_alg».proof.Proof.KI.Tile0
import proofs.«202994_g19078244729258_cont_8to1_1405_21_alg».proof.Proof.KI.Tile1
import proofs.«202994_g19078244729258_cont_8to1_1405_21_alg».proof.Proof.KI.KerValueHost
import proofs.«202994_g19078244729258_cont_8to1_1405_21_alg».proof.Proof.KI.KerValueStatsLink
import proofs.«202994_g19078244729258_cont_8to1_1405_21_alg».proof.Proof.KI.KerValueGate
import proofs.«202994_g19078244729258_cont_8to1_1405_21_alg».proof.Proof.KI.KerValueFinal
import proofs.«202994_g19078244729258_cont_8to1_1405_21_alg».proof.Proof.SameText
import proofs.«202994_g19078244729258_cont_8to1_1405_21_alg».proof.Proof.Algebraic

noncomputable section

namespace Cert.Proof

open Idealize.ShloMosaic Idealize.SL.Sem

-- The frame proof never looks at the float instance, so it is stated once, for any instance.
theorem frame_at {F : FTy → Type} [FloatOps F] [∀ e, Nonempty (Elt F e)] : KI.FrameAt F :=
  KI.frame_of (KI.upd (F := F)) KI.hupd (fun m => KI.hrec m)
    (fun m I0 I1 h => KI.tileObl0 m I0 I1 KI.facts h) (fun m I0 I1 h => KI.tileObl1 m I0 I1 KI.facts h)

theorem frame_KI : Cert.frame_KernelIdeal := frame_at (F := Ideal)

-- The word-level program is the same text in another namespace: its frame is the same theorem at the word instance.
theorem frame_K : Cert.frame_Kernel := SameText.frame_Kernel (frame_at (F := Bits))

theorem algebraic : Cert.algebraic_KernelIdeal_ReferenceIdeal :=
  Alg.algebraic_of (KI.upd (F := Ideal)) KI.updSpec KI.layout_VE (KI.stats_VG KI.upd KI.updSpec KI.upd_stats0 KI.upd_stats1)
    (KI.folded_VH KI.upd KI.updSpec) (KI.gate_VJ KI.updSpec KI.upd2Spec KI.upd3Spec) (KI.final_VK KI.upd KI.updSpec) (fun m => KI.hrec m)
    (fun m I0 I1 h => KI.tileObl0 m I0 I1 KI.facts h) (fun m I0 I1 h => KI.tileObl1 m I0 I1 KI.facts h)

theorem claim : Cert.Claim :=
  ⟨Cert.Kernel.Gen.facts, Cert.KernelIdeal.Gen.facts, Cert.ReferenceIdeal.Gen.facts, Cert.Pre_input_domain.Gen.facts,
    frame_K, frame_KI, Alg.frame_ri, Alg.preserves, algebraic⟩

end Cert.Proof

end
